-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S2x320000 : S_.BroadcastsInDim S2x320000 (![] : Fin 0 → Fin S2x320000.rank)
  reducesTo_S2x320000_S_d0_1 : S2x320000.ReducesTo [0, 1] S_

variable [Facts]

def fn_part2 {F : FTy → Type} [FloatOps F] (main_arg1 : IVec S2x320000 32) (main_arg8 : FVec F S128x16 .f32) (main_arg9 : FVec F S16 .f32) (main_v33 : IVec S_ 1) : IVec S_ 1 :=
  let main_v34 : FVec F S128x16 .f32 := Host.absf main_arg8
  let main_cst_12 : FVec F S_ .f32 := constant S_ .f32 0x7F800000#32
  let main_v35 : FVec F S128x16 .f32 := broadcastInDim S128x16 ![] bcast_S_S128x16 main_cst_12
  let main_v36 : IVec S128x16 1 := cmpf .olt main_v34 main_v35
  let main_c_13 : IVec S_ 1 := constantI S_ 1 1#1
  let main_v37 : IVec S_ 1 := (fun x v => Host.reduce IntOp.andi x v reducesTo_S128x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_c_16 : IVec S_ 32 := constantI S_ 32 0#32
  let main_v44 : IVec S2x320000 32 := broadcastInDim S2x320000 ![] bcast_S_S2x320000 main_c_16
  let main_v45 : IVec S2x320000 1 := cmpi .sge main_arg1 main_v44
  let main_c_17 : IVec S_ 32 := constantI S_ 32 9999#32
  let main_v46 : IVec S2x320000 32 := broadcastInDim S2x320000 ![] bcast_S_S2x320000 main_c_17
  let main_v47 : IVec S2x320000 1 := cmpi .sle main_arg1 main_v46
  let main_v48 : IVec S2x320000 1 := andi main_v45 main_v47
  let main_c_18 : IVec S_ 1 := constantI S_ 1 1#1
  let main_v49 : IVec S_ 1 := (fun x v => Host.reduce IntOp.andi x v reducesTo_S2x320000_S_d0_1 h_S_) main_v48 main_c_18
  let main_v50 : IVec S_ 1 := andi main_v43 main_v49
  main_v50

def fn_part1 {F : FTy → Type} [FloatOps F] (main_arg1 : IVec S2x320000 32) (main_arg5 : FVec F S128x128 .f32) (main_arg6 : FVec F S128 .f32) (main_arg7 : FVec F S128x128 .f32) (main_arg8 : FVec F S128x16 .f32) (main_arg9 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg8 main_arg9 main_v33

def fn {F : FTy → Type} [FloatOps F] (main_arg0 : FVec F S10000x128 .f32) (main_arg1 : IVec S2x320000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x16 .f32) (main_arg9 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_v13 main_v16
-- ==== Kernel.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x320000 : Shape := ⟨2, ![1, 320000]⟩
abbrev S320000 : Shape := ⟨1, ![320000]⟩
abbrev S_ : Shape := ⟨0, ![]⟩
abbrev S7680 : Shape := ⟨1, ![7680]⟩
abbrev S327680 : Shape := ⟨1, ![327680]⟩
abbrev S128x10000 : Shape := ⟨2, ![128, 10000]⟩
abbrev S128x112 : Shape := ⟨2, ![128, 112]⟩
abbrev S128x10112 : Shape := ⟨2, ![128, 10112]⟩
abbrev S1294336 : Shape := ⟨1, ![1294336]⟩
abbrev S161792 : Shape := ⟨1, ![161792]⟩
abbrev S10112 : Shape := ⟨1, ![10112]⟩
abbrev S512 : Shape := ⟨1, ![512]⟩
abbrev S16x10112 : Shape := ⟨2, ![16, 10112]⟩
abbrev S128x1 : Shape := ⟨2, ![128, 1]⟩
abbrev S1x10112 : Shape := ⟨2, ![1, 10112]⟩
abbrev S1x16 : Shape := ⟨2, ![1, 16]⟩
abbrev S10112x16 : Shape := ⟨2, ![10112, 16]⟩
abbrev S10000x16 : Shape := ⟨2, ![10000, 16]⟩

abbrev nBuf : Table → Nat
  | .hbm => 38
  | .local .tc .vmem => 16
  | .local .scVector .vmem => 21
  | _ => 0

abbrev bufTy : (tb : Table) → Fin (nBuf tb) → BufTy
  | .hbm, ⟨0, _⟩ => ⟨S10000x128, .f32⟩
  | .hbm, ⟨1, _⟩ => ⟨S2x320000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x16, .f32⟩
  | .hbm, ⟨9, _⟩ => ⟨S16, .f32⟩
  | .hbm, ⟨10, _⟩ => ⟨S1x320000, .i32⟩
  | .hbm, ⟨11, _⟩ => ⟨S320000, .i32⟩
  | .hbm, ⟨12, _⟩ => ⟨S1x320000, .i32⟩
  | .hbm, ⟨13, _⟩ => ⟨S320000, .i32⟩
  | .hbm, ⟨14, _⟩ => ⟨S_, .i32⟩
  | .hbm, ⟨15, _⟩ => ⟨S7680, .i32⟩
  | .hbm, ⟨16, _⟩ => ⟨S327680, .i32⟩
  | .hbm, ⟨17, _⟩ => ⟨S_, .i32⟩
  | .hbm, ⟨18, _⟩ => ⟨S7680, .i32⟩
  | .hbm, ⟨19, _⟩ => ⟨S327680, .i32⟩
  | .hbm, ⟨20, _⟩ => ⟨S128x10000, .f32⟩
  | .hbm, ⟨21, _⟩ => ⟨S_, .f32⟩
  | .hbm, ⟨22, _⟩ => ⟨S128x112, .f32⟩
  | .hbm, ⟨23, _⟩ => ⟨S128x10112, .f32⟩
  | .hbm, ⟨24, _⟩ => ⟨S1294336, .f32⟩
  | .hbm, ⟨25, _⟩ => ⟨S1294336, .f32⟩
  | .hbm, ⟨26, _⟩ => ⟨S161792, .f32⟩
  | .hbm, ⟨27, _⟩ => ⟨S128x10112, .f32⟩
  | .hbm, ⟨28, _⟩ => ⟨S16x10112, .f32⟩
  | .hbm, ⟨29, _⟩ => ⟨S128x1, .f32⟩
  | .hbm, ⟨30, _⟩ => ⟨S128x10112, .f32⟩
  | .hbm, ⟨31, _⟩ => ⟨S1294336, .f32⟩
  | .hbm, ⟨32, _⟩ => ⟨S1294336, .f32⟩
  | .hbm, ⟨33, _⟩ => ⟨S128x10112, .f32⟩
  | .hbm, ⟨34, _⟩ => ⟨S128x1, .f32⟩
  | .hbm, ⟨35, _⟩ => ⟨S1x16, .f32⟩
  | .hbm, ⟨36, _⟩ => ⟨S10112x16, .f32⟩
  | .hbm, ⟨37, _⟩ => ⟨S10000x16, .f32⟩
  | .local .tc .vmem, ⟨0, _⟩ => ⟨S128x10112, .f32⟩
  | .local .tc .vmem, ⟨1, _⟩ => ⟨S128x10112, .f32⟩
  | .local .tc .vmem, ⟨2, _⟩ => ⟨S16x10112, .f32⟩
  | .local .tc .vmem, ⟨3, _⟩ => ⟨S128x128, .f32⟩
  | .local .tc .vmem, ⟨4, _⟩ => ⟨S128x1, .f32⟩
  | .local .tc .vmem, ⟨5, _⟩ => ⟨S128x128, .f32⟩
  | .local .tc .vmem, ⟨6, _⟩ => ⟨S128x10112, .f32⟩
  | .local .tc .vmem, ⟨7, _⟩ => ⟨S128x10112, .f32⟩
  | .local .tc .vmem, ⟨8, _⟩ => ⟨S128x10112, .f32⟩
  | .local .tc .vmem, ⟨9, _⟩ => ⟨S16x10112, .f32⟩
  | .local .tc .vmem, ⟨10, _⟩ => ⟨S128x128, .f32⟩
  | .local .tc .vmem, ⟨11, _⟩ => ⟨S128x1, .f32⟩
  | .local .tc .vmem, ⟨12, _⟩ => ⟨S128x128, .f32⟩
  | .local .tc .vmem, ⟨13, _⟩ => ⟨S128x16, .f32⟩
  | .local .tc .vmem, ⟨14, _⟩ => ⟨S1x16, .f32⟩
  | .local .tc .vmem, ⟨15, _⟩ => ⟨S10112x16, .f32⟩
  | .local .scVector .vmem, ⟨0, _⟩ => ⟨S10112, .f32⟩
  | .local .scVector .vmem, ⟨1, _⟩ => ⟨S10112, .f32⟩
  | .local .scVector .vmem, ⟨2, _⟩ => ⟨S10112, .f32⟩
  | .local .scVector .vmem, ⟨3, _⟩ => ⟨S10112, .f32⟩
  | .local .scVector .vmem, ⟨4, _⟩ => ⟨S10112, .f32⟩
  | .local .scVector .vmem, ⟨5, _⟩ => ⟨S10112, .f32⟩
  | .local .scVector .vmem, ⟨6, _⟩ => ⟨S10112, .f32⟩
  | .local .scVector .vmem, ⟨7, _⟩ => ⟨S10112, .f32⟩
  | .local .scVector .vmem, ⟨8, _⟩ => ⟨S10112, .f32⟩
  | .local .scVector .vmem, ⟨9, _⟩ => ⟨S512, .i32⟩
  | .local .scVector .vmem, ⟨10, _⟩ => ⟨S512, .i32⟩
  | .local .scVector .vmem, ⟨11, _⟩ => ⟨S10112, .f32⟩
  | .local .scVector .vmem, ⟨12, _⟩ => ⟨S10112, .f32⟩
  | .local .scVector .vmem, ⟨13, _⟩ => ⟨S10112, .f32⟩
  | .local .scVector .vmem, ⟨14, _⟩ => ⟨S10112, .f32⟩
  | .local .scVector .vmem, ⟨15, _⟩ => ⟨S10112, .f32⟩
  | .local .scVector .vmem, ⟨16, _⟩ => ⟨S10112, .f32⟩
  | .local .scVector .vmem, ⟨17, _⟩ => ⟨S10112, .f32⟩
  | .local .scVector .vmem, ⟨18, _⟩ => ⟨S10112, .f32⟩
  | .local .scVector .vmem, ⟨19, _⟩ => ⟨S512, .i32⟩
  | .local .scVector .vmem, ⟨20, _⟩ => ⟨S512, .i32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 37 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTables nBuf rfl bufTy 4 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v11_scv : Ref sig .scVector := ⟨.hbm, 24, rfl⟩
abbrev main_v5_scv : Ref sig .scVector := ⟨.hbm, 16, rfl⟩
abbrev main_v7_scv : Ref sig .scVector := ⟨.hbm, 19, rfl⟩
abbrev main_v12_0_scv : Ref sig .scVector := ⟨.hbm, 25, rfl⟩
abbrev main_v12_1_scv : Ref sig .scVector := ⟨.hbm, 26, rfl⟩
abbrev main_v17_scv : Ref sig .scVector := ⟨.hbm, 31, rfl⟩
abbrev main_v18_scv : Ref sig .scVector := ⟨.hbm, 32, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc3_stg0_0 : Ref sig .tc := ⟨.vmem, 7, rfl⟩
abbrev cc3_stg1_0 : Ref sig .tc := ⟨.vmem, 8, rfl⟩
abbrev cc3_stg2_0 : Ref sig .tc := ⟨.vmem, 9, rfl⟩
abbrev cc3_stg3_0 : Ref sig .tc := ⟨.vmem, 10, rfl⟩
abbrev cc3_stg4_0 : Ref sig .tc := ⟨.vmem, 11, rfl⟩
abbrev cc3_stg5_0 : Ref sig .tc := ⟨.vmem, 12, rfl⟩
abbrev cc3_stg6_0 : Ref sig .tc := ⟨.vmem, 13, rfl⟩
abbrev cc3_stg7_0 : Ref sig .tc := ⟨.vmem, 14, rfl⟩
abbrev cc3_stg8_0 : Ref sig .tc := ⟨.vmem, 15, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc2_scratch0 : Ref sig .scVector := ⟨.vmem, 11, rfl⟩
abbrev cc2_scratch1 : Ref sig .scVector := ⟨.vmem, 12, rfl⟩
abbrev cc2_scratch2 : Ref sig .scVector := ⟨.vmem, 13, rfl⟩
abbrev cc2_scratch3 : Ref sig .scVector := ⟨.vmem, 14, rfl⟩
abbrev cc2_scratch4 : Ref sig .scVector := ⟨.vmem, 15, rfl⟩
abbrev cc2_scratch5 : Ref sig .scVector := ⟨.vmem, 16, rfl⟩
abbrev cc2_scratch6 : Ref sig .scVector := ⟨.vmem, 17, rfl⟩
abbrev cc2_scratch7 : Ref sig .scVector := ⟨.vmem, 18, rfl⟩
abbrev cc2_scratch8 : Ref sig .scVector := ⟨.vmem, 19, rfl⟩
abbrev cc2_scratch9 : Ref sig .scVector := ⟨.vmem, 20, rfl⟩
abbrev cc1_sem0_0 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc3_sem0_0 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem7_0 : DmaSem sig := 35
abbrev cc3_sem8_0 : DmaSem sig := 36
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c40448_i32 : BitVec 32 := 40448#32
  let v2 : BitVec 32 := Scalar.muli v1 c40448_i32
  let v3 : BitVec 32 := Scalar.addi v2 c0_i32
  ![v3.toNat]
@[reducible] def k0_t1_loop : Scf.Loop 32 :=
  let c0_i32_1 : BitVec 32 := 0#32
  let c632_i32 : BitVec 32 := 632#32
  let v4 : BitVec 32 := Scalar.addi c0_i32_1 c632_i32
  let c1_i32 : BitVec 32 := 1#32
  ⟨c0_i32_1, v4, c1_i32⟩
def k0_off2 (k0_t1 : Fin k0_t1_loop.trips) : Fin 1 → Nat :=
  let c0_i32_1 : BitVec 32 := 0#32
  let c1_i32 : BitVec 32 := 1#32
  let arg18 : BitVec 32 := Scf.iv c0_i32_1 c1_i32 k0_t1
  let c16_i32_38 : BitVec 32 := 16#32
  let v31 : BitVec 32 := Scalar.muli arg18 c16_i32_38
  let v32 : Index := Scalar.indexCast v31
  ![v32.toNat]
@[reducible] def k0_t2_loop : Scf.Loop 32 :=
  let c0_i32_5 : BitVec 32 := 0#32
  let c632_i32_6 : BitVec 32 := 632#32
  let v7 : BitVec 32 := Scalar.addi c0_i32_5 c632_i32_6
  let c1_i32_7 : BitVec 32 := 1#32
  ⟨c0_i32_5, v7, c1_i32_7⟩
def k0_off3 (k0_t2 : Fin k0_t2_loop.trips) : Fin 1 → Nat :=
  let c0_i32_5 : BitVec 32 := 0#32
  let c1_i32_7 : BitVec 32 := 1#32
  let arg18 : BitVec 32 := Scf.iv c0_i32_5 c1_i32_7 k0_t2
  let c16_i32_38 : BitVec 32 := 16#32
  let v31 : BitVec 32 := Scalar.muli arg18 c16_i32_38
  let v32 : Index := Scalar.indexCast v31
  ![v32.toNat]
@[reducible] def k0_t3_loop : Scf.Loop 32 :=
  let c0_i32_11 : BitVec 32 := 0#32
  let c632_i32_12 : BitVec 32 := 632#32
  let v10 : BitVec 32 := Scalar.addi c0_i32_11 c632_i32_12
  let c1_i32_13 : BitVec 32 := 1#32
  ⟨c0_i32_11, v10, c1_i32_13⟩
def k0_off4 (k0_t3 : Fin k0_t3_loop.trips) : Fin 1 → Nat :=
  let c0_i32_11 : BitVec 32 := 0#32
  let c1_i32_13 : BitVec 32 := 1#32
  let arg18 : BitVec 32 := Scf.iv c0_i32_11 c1_i32_13 k0_t3
  let c16_i32_38 : BitVec 32 := 16#32
  let v31 : BitVec 32 := Scalar.muli arg18 c16_i32_38
  let v32 : Index := Scalar.indexCast v31
  ![v32.toNat]
@[reducible] def k0_t4_loop : Scf.Loop 32 :=
  let c0_i32_17 : BitVec 32 := 0#32
  let c632_i32_18 : BitVec 32 := 632#32
  let v13 : BitVec 32 := Scalar.addi c0_i32_17 c632_i32_18
  let c1_i32_19 : BitVec 32 := 1#32
  ⟨c0_i32_17, v13, c1_i32_19⟩
def k0_off5 (k0_t4 : Fin k0_t4_loop.trips) : Fin 1 → Nat :=
  let c0_i32_17 : BitVec 32 := 0#32
  let c1_i32_19 : BitVec 32 := 1#32
  let arg18 : BitVec 32 := Scf.iv c0_i32_17 c1_i32_19 k0_t4
  let c16_i32_38 : BitVec 32 := 16#32
  let v31 : BitVec 32 := Scalar.muli arg18 c16_i32_38
  let v32 : Index := Scalar.indexCast v31
  ![v32.toNat]
def k0_cond1 (i : grid0.Coords) : BitVec 1 :=
  let arg0 : BitVec 32 := BitVec.ofNat 32 (i 0).val
  let c0_i32_21 : BitVec 32 := 0#32
  let v15 : BitVec 1 := Scalar.cmpi .eq arg0 c0_i32_21
  let v16 : BitVec 32 := Scalar.extui v15
  let c0_i32_22 : BitVec 32 := 0#32
  let v17 : BitVec 1 := Scalar.cmpi .ne v16 c0_i32_22
  v17

@[reducible] def k0_t5_loop : Scf.Loop 32 :=
  let c0_i32_38 : BitVec 32 := 0#32
  let c632_i32_39 : BitVec 32 := 632#32
  let v30 : BitVec 32 := Scalar.addi c0_i32_38 c632_i32_39
  let c1_i32_40 : BitVec 32 := 1#32
  ⟨c0_i32_38, v30, c1_i32_40⟩
def k0_off6 (k0_t5 : Fin k0_t5_loop.trips) : Fin 1 → Nat :=
  let c0_i32_38 : BitVec 32 := 0#32
  let c1_i32_40 : BitVec 32 := 1#32
  let arg18 : BitVec 32 := Scf.iv c0_i32_38 c1_i32_40 k0_t5
  let c16_i32_43 : BitVec 32 := 16#32
  let v32 : BitVec 32 := Scalar.muli arg18 c16_i32_43
  let v33 : Index := Scalar.indexCast v32
  ![v33.toNat]
@[reducible] def k0_t6_loop : Scf.Loop 32 :=
  let c0_i32_24 : BitVec 32 := 0#32
  let c640_i32 : BitVec 32 := 640#32
  let v18 : BitVec 32 := Scalar.addi c0_i32_24 c640_i32
  let c1_i32_25 : BitVec 32 := 1#32
  ⟨c0_i32_24, v18, c1_i32_25⟩
def k0_off7 (k0_t6 : Fin k0_t6_loop.trips) : Fin 1 → Nat :=
  let c0_i32_24 : BitVec 32 := 0#32
  let c1_i32_25 : BitVec 32 := 1#32
  let arg18 : BitVec 32 := Scf.iv c0_i32_24 c1_i32_25 k0_t6
  let c512_i32 : BitVec 32 := 512#32
  let v30 : BitVec 32 := Scalar.muli arg18 c512_i32
  ![v30.toNat]

def k0_chk1 (v31 : IVec S16 32) : Prop :=
  (∀ a x, ((![v31] : Fin 1 → IVec S16 32) a x).toNat < S10112.size a) ∧
  (∀ a x, ((![v31] : Fin 1 → IVec S16 32) a x).toNat < S10112.size a) ∧
  (∀ a x, ((![v31] : Fin 1 → IVec S16 32) a x).toNat < S10112.size a) ∧
  (∀ a x, ((![v31] : Fin 1 → IVec S16 32) a x).toNat < S10112.size a)
instance k0_chk1.dec : ∀ (v31 : IVec S16 32), Decidable (k0_chk1 v31) := fun v31 => decidable_of_iff' _ (Iff.of_eq (k0_chk1.eq_1 v31))
theorem k0_idx1_inb : ∀ (v31 : IVec S16 32) (k0_hw1 : k0_chk1 v31), ∀ a x, ((![v31] : Fin 1 → IVec S16 32) a x).toNat < S10112.size a := fun v31 k0_hw1 => k0_hw1.1
theorem k0_idx3_inb : ∀ (v31 : IVec S16 32) (k0_hw1 : k0_chk1 v31), ∀ a x, ((![v31] : Fin 1 → IVec S16 32) a x).toNat < S10112.size a := fun v31 k0_hw1 => k0_hw1.2.1
theorem k0_idx5_inb : ∀ (v31 : IVec S16 32) (k0_hw1 : k0_chk1 v31), ∀ a x, ((![v31] : Fin 1 → IVec S16 32) a x).toNat < S10112.size a := fun v31 k0_hw1 => k0_hw1.2.2.1
theorem k0_idx7_inb : ∀ (v31 : IVec S16 32) (k0_hw1 : k0_chk1 v31), ∀ a x, ((![v31] : Fin 1 → IVec S16 32) a x).toNat < S10112.size a := fun v31 k0_hw1 => k0_hw1.2.2.2

def k0_chk2 (v32 : IVec S16 32) : Prop :=
  (∀ a x, ((![v32] : Fin 1 → IVec S16 32) a x).toNat < S10112.size a) ∧
  (∀ a x, ((![v32] : Fin 1 → IVec S16 32) a x).toNat < S10112.size a) ∧
  (∀ a x, ((![v32] : Fin 1 → IVec S16 32) a x).toNat < S10112.size a) ∧
  (∀ a x, ((![v32] : Fin 1 → IVec S16 32) a x).toNat < S10112.size a) ∧
  (∀ a x, ((![v32] : Fin 1 → IVec S16 32) a x).toNat < S10112.size a)
instance k0_chk2.dec : ∀ (v32 : IVec S16 32), Decidable (k0_chk2 v32) := fun v32 => decidable_of_iff' _ (Iff.of_eq (k0_chk2.eq_1 v32))
theorem k0_idx2_inb : ∀ (v32 : IVec S16 32) (k0_hw2 : k0_chk2 v32), ∀ a x, ((![v32] : Fin 1 → IVec S16 32) a x).toNat < S10112.size a := fun v32 k0_hw2 => k0_hw2.1
theorem k0_idx4_inb : ∀ (v32 : IVec S16 32) (k0_hw2 : k0_chk2 v32), ∀ a x, ((![v32] : Fin 1 → IVec S16 32) a x).toNat < S10112.size a := fun v32 k0_hw2 => k0_hw2.2.1
theorem k0_idx6_inb : ∀ (v32 : IVec S16 32) (k0_hw2 : k0_chk2 v32), ∀ a x, ((![v32] : Fin 1 → IVec S16 32) a x).toNat < S10112.size a := fun v32 k0_hw2 => k0_hw2.2.2.1
theorem k0_idx8_inb : ∀ (v32 : IVec S16 32) (k0_hw2 : k0_chk2 v32), ∀ a x, ((![v32] : Fin 1 → IVec S16 32) a x).toNat < S10112.size a := fun v32 k0_hw2 => k0_hw2.2.2.2.1
theorem k0_idx9_inb : ∀ (v32 : IVec S16 32) (k0_hw2 : k0_chk2 v32), ∀ a x, ((![v32] : Fin 1 → IVec S16 32) a x).toNat < S10112.size a := fun v32 k0_hw2 => k0_hw2.2.2.2.2

def k0_chk3 (v51 : IVec S16 32) : Prop :=
  (∀ a x, ((![v51] : Fin 1 → IVec S16 32) a x).toNat < S10112.size a) ∧
  (∀ a x, ((![v51] : Fin 1 → IVec S16 32) a x).toNat < S10112.size a) ∧
  (∀ a x, ((![v51] : Fin 1 → IVec S16 32) a x).toNat < S10112.size a) ∧
  (∀ a x, ((![v51] : Fin 1 → IVec S16 32) a x).toNat < S10112.size a)
instance k0_chk3.dec : ∀ (v51 : IVec S16 32), Decidable (k0_chk3 v51) := fun v51 => decidable_of_iff' _ (Iff.of_eq (k0_chk3.eq_1 v51))
theorem k0_idx10_inb : ∀ (v51 : IVec S16 32) (k0_hw3 : k0_chk3 v51), ∀ a x, ((![v51] : Fin 1 → IVec S16 32) a x).toNat < S10112.size a := fun v51 k0_hw3 => k0_hw3.1
theorem k0_idx12_inb : ∀ (v51 : IVec S16 32) (k0_hw3 : k0_chk3 v51), ∀ a x, ((![v51] : Fin 1 → IVec S16 32) a x).toNat < S10112.size a := fun v51 k0_hw3 => k0_hw3.2.1
theorem k0_idx14_inb : ∀ (v51 : IVec S16 32) (k0_hw3 : k0_chk3 v51), ∀ a x, ((![v51] : Fin 1 → IVec S16 32) a x).toNat < S10112.size a := fun v51 k0_hw3 => k0_hw3.2.2.1
theorem k0_idx16_inb : ∀ (v51 : IVec S16 32) (k0_hw3 : k0_chk3 v51), ∀ a x, ((![v51] : Fin 1 → IVec S16 32) a x).toNat < S10112.size a := fun v51 k0_hw3 => k0_hw3.2.2.2

def k0_chk4 (v52 : IVec S16 32) : Prop :=
  (∀ a x, ((![v52] : Fin 1 → IVec S16 32) a x).toNat < S10112.size a) ∧
  (∀ a x, ((![v52] : Fin 1 → IVec S16 32) a x).toNat < S10112.size a) ∧
  (∀ a x, ((![v52] : Fin 1 → IVec S16 32) a x).toNat < S10112.size a) ∧
  (∀ a x, ((![v52] : Fin 1 → IVec S16 32) a x).toNat < S10112.size a) ∧
  (∀ a x, ((![v52] : Fin 1 → IVec S16 32) a x).toNat < S10112.size a)
instance k0_chk4.dec : ∀ (v52 : IVec S16 32), Decidable (k0_chk4 v52) := fun v52 => decidable_of_iff' _ (Iff.of_eq (k0_chk4.eq_1 v52))
theorem k0_idx11_inb : ∀ (v52 : IVec S16 32) (k0_hw4 : k0_chk4 v52), ∀ a x, ((![v52] : Fin 1 → IVec S16 32) a x).toNat < S10112.size a := fun v52 k0_hw4 => k0_hw4.1
theorem k0_idx13_inb : ∀ (v52 : IVec S16 32) (k0_hw4 : k0_chk4 v52), ∀ a x, ((![v52] : Fin 1 → IVec S16 32) a x).toNat < S10112.size a := fun v52 k0_hw4 => k0_hw4.2.1
theorem k0_idx15_inb : ∀ (v52 : IVec S16 32) (k0_hw4 : k0_chk4 v52), ∀ a x, ((![v52] : Fin 1 → IVec S16 32) a x).toNat < S10112.size a := fun v52 k0_hw4 => k0_hw4.2.2.1
theorem k0_idx17_inb : ∀ (v52 : IVec S16 32) (k0_hw4 : k0_chk4 v52), ∀ a x, ((![v52] : Fin 1 → IVec S16 32) a x).toNat < S10112.size a := fun v52 k0_hw4 => k0_hw4.2.2.2.1
theorem k0_idx18_inb : ∀ (v52 : IVec S16 32) (k0_hw4 : k0_chk4 v52), ∀ a x, ((![v52] : Fin 1 → IVec S16 32) a x).toNat < S10112.size a := fun v52 k0_hw4 => k0_hw4.2.2.2.2

def k0_chk5 (v71 : IVec S16 32) : Prop :=
  (∀ a x, ((![v71] : Fin 1 → IVec S16 32) a x).toNat < S10112.size a) ∧
  (∀ a x, ((![v71] : Fin 1 → IVec S16 32) a x).toNat < S10112.size a) ∧
  (∀ a x, ((![v71] : Fin 1 → IVec S16 32) a x).toNat < S10112.size a) ∧
  (∀ a x, ((![v71] : Fin 1 → IVec S16 32) a x).toNat < S10112.size a)
instance k0_chk5.dec : ∀ (v71 : IVec S16 32), Decidable (k0_chk5 v71) := fun v71 => decidable_of_iff' _ (Iff.of_eq (k0_chk5.eq_1 v71))
theorem k0_idx19_inb : ∀ (v71 : IVec S16 32) (k0_hw5 : k0_chk5 v71), ∀ a x, ((![v71] : Fin 1 → IVec S16 32) a x).toNat < S10112.size a := fun v71 k0_hw5 => k0_hw5.1
theorem k0_idx21_inb : ∀ (v71 : IVec S16 32) (k0_hw5 : k0_chk5 v71), ∀ a x, ((![v71] : Fin 1 → IVec S16 32) a x).toNat < S10112.size a := fun v71 k0_hw5 => k0_hw5.2.1
theorem k0_idx23_inb : ∀ (v71 : IVec S16 32) (k0_hw5 : k0_chk5 v71), ∀ a x, ((![v71] : Fin 1 → IVec S16 32) a x).toNat < S10112.size a := fun v71 k0_hw5 => k0_hw5.2.2.1
theorem k0_idx25_inb : ∀ (v71 : IVec S16 32) (k0_hw5 : k0_chk5 v71), ∀ a x, ((![v71] : Fin 1 → IVec S16 32) a x).toNat < S10112.size a := fun v71 k0_hw5 => k0_hw5.2.2.2

def k0_chk6 (v72 : IVec S16 32) : Prop :=
  (∀ a x, ((![v72] : Fin 1 → IVec S16 32) a x).toNat < S10112.size a) ∧
  (∀ a x, ((![v72] : Fin 1 → IVec S16 32) a x).toNat < S10112.size a) ∧
  (∀ a x, ((![v72] : Fin 1 → IVec S16 32) a x).toNat < S10112.size a) ∧
  (∀ a x, ((![v72] : Fin 1 → IVec S16 32) a x).toNat < S10112.size a) ∧
  (∀ a x, ((![v72] : Fin 1 → IVec S16 32) a x).toNat < S10112.size a)
instance k0_chk6.dec : ∀ (v72 : IVec S16 32), Decidable (k0_chk6 v72) := fun v72 => decidable_of_iff' _ (Iff.of_eq (k0_chk6.eq_1 v72))
theorem k0_idx20_inb : ∀ (v72 : IVec S16 32) (k0_hw6 : k0_chk6 v72), ∀ a x, ((![v72] : Fin 1 → IVec S16 32) a x).toNat < S10112.size a := fun v72 k0_hw6 => k0_hw6.1
theorem k0_idx22_inb : ∀ (v72 : IVec S16 32) (k0_hw6 : k0_chk6 v72), ∀ a x, ((![v72] : Fin 1 → IVec S16 32) a x).toNat < S10112.size a := fun v72 k0_hw6 => k0_hw6.2.1
theorem k0_idx24_inb : ∀ (v72 : IVec S16 32) (k0_hw6 : k0_chk6 v72), ∀ a x, ((![v72] : Fin 1 → IVec S16 32) a x).toNat < S10112.size a := fun v72 k0_hw6 => k0_hw6.2.2.1
theorem k0_idx26_inb : ∀ (v72 : IVec S16 32) (k0_hw6 : k0_chk6 v72), ∀ a x, ((![v72] : Fin 1 → IVec S16 32) a x).toNat < S10112.size a := fun v72 k0_hw6 => k0_hw6.2.2.2.1
theorem k0_idx27_inb : ∀ (v72 : IVec S16 32) (k0_hw6 : k0_chk6 v72), ∀ a x, ((![v72] : Fin 1 → IVec S16 32) a x).toNat < S10112.size a := fun v72 k0_hw6 => k0_hw6.2.2.2.2

def k0_chk7 (v91 : IVec S16 32) : Prop :=
  (∀ a x, ((![v91] : Fin 1 → IVec S16 32) a x).toNat < S10112.size a) ∧
  (∀ a x, ((![v91] : Fin 1 → IVec S16 32) a x).toNat < S10112.size a) ∧
  (∀ a x, ((![v91] : Fin 1 → IVec S16 32) a x).toNat < S10112.size a) ∧
  (∀ a x, ((![v91] : Fin 1 → IVec S16 32) a x).toNat < S10112.size a)
instance k0_chk7.dec : ∀ (v91 : IVec S16 32), Decidable (k0_chk7 v91) := fun v91 => decidable_of_iff' _ (Iff.of_eq (k0_chk7.eq_1 v91))
theorem k0_idx28_inb : ∀ (v91 : IVec S16 32) (k0_hw7 : k0_chk7 v91), ∀ a x, ((![v91] : Fin 1 → IVec S16 32) a x).toNat < S10112.size a := fun v91 k0_hw7 => k0_hw7.1
theorem k0_idx30_inb : ∀ (v91 : IVec S16 32) (k0_hw7 : k0_chk7 v91), ∀ a x, ((![v91] : Fin 1 → IVec S16 32) a x).toNat < S10112.size a := fun v91 k0_hw7 => k0_hw7.2.1
theorem k0_idx32_inb : ∀ (v91 : IVec S16 32) (k0_hw7 : k0_chk7 v91), ∀ a x, ((![v91] : Fin 1 → IVec S16 32) a x).toNat < S10112.size a := fun v91 k0_hw7 => k0_hw7.2.2.1
theorem k0_idx34_inb : ∀ (v91 : IVec S16 32) (k0_hw7 : k0_chk7 v91), ∀ a x, ((![v91] : Fin 1 → IVec S16 32) a x).toNat < S10112.size a := fun v91 k0_hw7 => k0_hw7.2.2.2

def k0_chk8 (v92 : IVec S16 32) : Prop :=
  (∀ a x, ((![v92] : Fin 1 → IVec S16 32) a x).toNat < S10112.size a) ∧
  (∀ a x, ((![v92] : Fin 1 → IVec S16 32) a x).toNat < S10112.size a) ∧
  (∀ a x, ((![v92] : Fin 1 → IVec S16 32) a x).toNat < S10112.size a) ∧
  (∀ a x, ((![v92] : Fin 1 → IVec S16 32) a x).toNat < S10112.size a) ∧
  (∀ a x, ((![v92] : Fin 1 → IVec S16 32) a x).toNat < S10112.size a)
instance k0_chk8.dec : ∀ (v92 : IVec S16 32), Decidable (k0_chk8 v92) := fun v92 => decidable_of_iff' _ (Iff.of_eq (k0_chk8.eq_1 v92))
theorem k0_idx29_inb : ∀ (v92 : IVec S16 32) (k0_hw8 : k0_chk8 v92), ∀ a x, ((![v92] : Fin 1 → IVec S16 32) a x).toNat < S10112.size a := fun v92 k0_hw8 => k0_hw8.1
theorem k0_idx31_inb : ∀ (v92 : IVec S16 32) (k0_hw8 : k0_chk8 v92), ∀ a x, ((![v92] : Fin 1 → IVec S16 32) a x).toNat < S10112.size a := fun v92 k0_hw8 => k0_hw8.2.1
theorem k0_idx33_inb : ∀ (v92 : IVec S16 32) (k0_hw8 : k0_chk8 v92), ∀ a x, ((![v92] : Fin 1 → IVec S16 32) a x).toNat < S10112.size a := fun v92 k0_hw8 => k0_hw8.2.2.1
theorem k0_idx35_inb : ∀ (v92 : IVec S16 32) (k0_hw8 : k0_chk8 v92), ∀ a x, ((![v92] : Fin 1 → IVec S16 32) a x).toNat < S10112.size a := fun v92 k0_hw8 => k0_hw8.2.2.2.1
theorem k0_idx36_inb : ∀ (v92 : IVec S16 32) (k0_hw8 : k0_chk8 v92), ∀ a x, ((![v92] : Fin 1 → IVec S16 32) a x).toNat < S10112.size a := fun v92 k0_hw8 => k0_hw8.2.2.2.2

def k0_chk9 (v111 : IVec S16 32) : Prop :=
  (∀ a x, ((![v111] : Fin 1 → IVec S16 32) a x).toNat < S10112.size a) ∧
  (∀ a x, ((![v111] : Fin 1 → IVec S16 32) a x).toNat < S10112.size a) ∧
  (∀ a x, ((![v111] : Fin 1 → IVec S16 32) a x).toNat < S10112.size a) ∧
  (∀ a x, ((![v111] : Fin 1 → IVec S16 32) a x).toNat < S10112.size a)
instance k0_chk9.dec : ∀ (v111 : IVec S16 32), Decidable (k0_chk9 v111) := fun v111 => decidable_of_iff' _ (Iff.of_eq (k0_chk9.eq_1 v111))
theorem k0_idx37_inb : ∀ (v111 : IVec S16 32) (k0_hw9 : k0_chk9 v111), ∀ a x, ((![v111] : Fin 1 → IVec S16 32) a x).toNat < S10112.size a := fun v111 k0_hw9 => k0_hw9.1
theorem k0_idx39_inb : ∀ (v111 : IVec S16 32) (k0_hw9 : k0_chk9 v111), ∀ a x, ((![v111] : Fin 1 → IVec S16 32) a x).toNat < S10112.size a := fun v111 k0_hw9 => k0_hw9.2.1
theorem k0_idx41_inb : ∀ (v111 : IVec S16 32) (k0_hw9 : k0_chk9 v111), ∀ a x, ((![v111] : Fin 1 → IVec S16 32) a x).toNat < S10112.size a := fun v111 k0_hw9 => k0_hw9.2.2.1
theorem k0_idx43_inb : ∀ (v111 : IVec S16 32) (k0_hw9 : k0_chk9 v111), ∀ a x, ((![v111] : Fin 1 → IVec S16 32) a x).toNat < S10112.size a := fun v111 k0_hw9 => k0_hw9.2.2.2

def k0_chk10 (v112 : IVec S16 32) : Prop :=
  (∀ a x, ((![v112] : Fin 1 → IVec S16 32) a x).toNat < S10112.size a) ∧
  (∀ a x, ((![v112] : Fin 1 → IVec S16 32) a x).toNat < S10112.size a) ∧
  (∀ a x, ((![v112] : Fin 1 → IVec S16 32) a x).toNat < S10112.size a) ∧
  (∀ a x, ((![v112] : Fin 1 → IVec S16 32) a x).toNat < S10112.size a) ∧
  (∀ a x, ((![v112] : Fin 1 → IVec S16 32) a x).toNat < S10112.size a)
instance k0_chk10.dec : ∀ (v112 : IVec S16 32), Decidable (k0_chk10 v112) := fun v112 => decidable_of_iff' _ (Iff.of_eq (k0_chk10.eq_1 v112))
theorem k0_idx38_inb : ∀ (v112 : IVec S16 32) (k0_hw10 : k0_chk10 v112), ∀ a x, ((![v112] : Fin 1 → IVec S16 32) a x).toNat < S10112.size a := fun v112 k0_hw10 => k0_hw10.1
theorem k0_idx40_inb : ∀ (v112 : IVec S16 32) (k0_hw10 : k0_chk10 v112), ∀ a x, ((![v112] : Fin 1 → IVec S16 32) a x).toNat < S10112.size a := fun v112 k0_hw10 => k0_hw10.2.1
theorem k0_idx42_inb : ∀ (v112 : IVec S16 32) (k0_hw10 : k0_chk10 v112), ∀ a x, ((![v112] : Fin 1 → IVec S16 32) a x).toNat < S10112.size a := fun v112 k0_hw10 => k0_hw10.2.2.1
theorem k0_idx44_inb : ∀ (v112 : IVec S16 32) (k0_hw10 : k0_chk10 v112), ∀ a x, ((![v112] : Fin 1 → IVec S16 32) a x).toNat < S10112.size a := fun v112 k0_hw10 => k0_hw10.2.2.2.1
theorem k0_idx45_inb : ∀ (v112 : IVec S16 32) (k0_hw10 : k0_chk10 v112), ∀ a x, ((![v112] : Fin 1 → IVec S16 32) a x).toNat < S10112.size a := fun v112 k0_hw10 => k0_hw10.2.2.2.2

def k0_chk11 (v131 : IVec S16 32) : Prop :=
  (∀ a x, ((![v131] : Fin 1 → IVec S16 32) a x).toNat < S10112.size a) ∧
  (∀ a x, ((![v131] : Fin 1 → IVec S16 32) a x).toNat < S10112.size a) ∧
  (∀ a x, ((![v131] : Fin 1 → IVec S16 32) a x).toNat < S10112.size a) ∧
  (∀ a x, ((![v131] : Fin 1 → IVec S16 32) a x).toNat < S10112.size a)
instance k0_chk11.dec : ∀ (v131 : IVec S16 32), Decidable (k0_chk11 v131) := fun v131 => decidable_of_iff' _ (Iff.of_eq (k0_chk11.eq_1 v131))
theorem k0_idx46_inb : ∀ (v131 : IVec S16 32) (k0_hw11 : k0_chk11 v131), ∀ a x, ((![v131] : Fin 1 → IVec S16 32) a x).toNat < S10112.size a := fun v131 k0_hw11 => k0_hw11.1
theorem k0_idx48_inb : ∀ (v131 : IVec S16 32) (k0_hw11 : k0_chk11 v131), ∀ a x, ((![v131] : Fin 1 → IVec S16 32) a x).toNat < S10112.size a := fun v131 k0_hw11 => k0_hw11.2.1
theorem k0_idx50_inb : ∀ (v131 : IVec S16 32) (k0_hw11 : k0_chk11 v131), ∀ a x, ((![v131] : Fin 1 → IVec S16 32) a x).toNat < S10112.size a := fun v131 k0_hw11 => k0_hw11.2.2.1
theorem k0_idx52_inb : ∀ (v131 : IVec S16 32) (k0_hw11 : k0_chk11 v131), ∀ a x, ((![v131] : Fin 1 → IVec S16 32) a x).toNat < S10112.size a := fun v131 k0_hw11 => k0_hw11.2.2.2

def k0_chk12 (v132 : IVec S16 32) : Prop :=
  (∀ a x, ((![v132] : Fin 1 → IVec S16 32) a x).toNat < S10112.size a) ∧
  (∀ a x, ((![v132] : Fin 1 → IVec S16 32) a x).toNat < S10112.size a) ∧
  (∀ a x, ((![v132] : Fin 1 → IVec S16 32) a x).toNat < S10112.size a) ∧
  (∀ a x, ((![v132] : Fin 1 → IVec S16 32) a x).toNat < S10112.size a) ∧
  (∀ a x, ((![v132] : Fin 1 → IVec S16 32) a x).toNat < S10112.size a)
instance k0_chk12.dec : ∀ (v132 : IVec S16 32), Decidable (k0_chk12 v132) := fun v132 => decidable_of_iff' _ (Iff.of_eq (k0_chk12.eq_1 v132))
theorem k0_idx47_inb : ∀ (v132 : IVec S16 32) (k0_hw12 : k0_chk12 v132), ∀ a x, ((![v132] : Fin 1 → IVec S16 32) a x).toNat < S10112.size a := fun v132 k0_hw12 => k0_hw12.1
theorem k0_idx49_inb : ∀ (v132 : IVec S16 32) (k0_hw12 : k0_chk12 v132), ∀ a x, ((![v132] : Fin 1 → IVec S16 32) a x).toNat < S10112.size a := fun v132 k0_hw12 => k0_hw12.2.1
theorem k0_idx51_inb : ∀ (v132 : IVec S16 32) (k0_hw12 : k0_chk12 v132), ∀ a x, ((![v132] : Fin 1 → IVec S16 32) a x).toNat < S10112.size a := fun v132 k0_hw12 => k0_hw12.2.2.1
theorem k0_idx53_inb : ∀ (v132 : IVec S16 32) (k0_hw12 : k0_chk12 v132), ∀ a x, ((![v132] : Fin 1 → IVec S16 32) a x).toNat < S10112.size a := fun v132 k0_hw12 => k0_hw12.2.2.2.1
theorem k0_idx54_inb : ∀ (v132 : IVec S16 32) (k0_hw12 : k0_chk12 v132), ∀ a x, ((![v132] : Fin 1 → IVec S16 32) a x).toNat < S10112.size a := fun v132 k0_hw12 => k0_hw12.2.2.2.2

def k0_chk13 (v151 : IVec S16 32) : Prop :=
  (∀ a x, ((![v151] : Fin 1 → IVec S16 32) a x).toNat < S10112.size a) ∧
  (∀ a x, ((![v151] : Fin 1 → IVec S16 32) a x).toNat < S10112.size a) ∧
  (∀ a x, ((![v151] : Fin 1 → IVec S16 32) a x).toNat < S10112.size a) ∧
  (∀ a x, ((![v151] : Fin 1 → IVec S16 32) a x).toNat < S10112.size a)
instance k0_chk13.dec : ∀ (v151 : IVec S16 32), Decidable (k0_chk13 v151) := fun v151 => decidable_of_iff' _ (Iff.of_eq (k0_chk13.eq_1 v151))
theorem k0_idx55_inb : ∀ (v151 : IVec S16 32) (k0_hw13 : k0_chk13 v151), ∀ a x, ((![v151] : Fin 1 → IVec S16 32) a x).toNat < S10112.size a := fun v151 k0_hw13 => k0_hw13.1
theorem k0_idx57_inb : ∀ (v151 : IVec S16 32) (k0_hw13 : k0_chk13 v151), ∀ a x, ((![v151] : Fin 1 → IVec S16 32) a x).toNat < S10112.size a := fun v151 k0_hw13 => k0_hw13.2.1
theorem k0_idx59_inb : ∀ (v151 : IVec S16 32) (k0_hw13 : k0_chk13 v151), ∀ a x, ((![v151] : Fin 1 → IVec S16 32) a x).toNat < S10112.size a := fun v151 k0_hw13 => k0_hw13.2.2.1
theorem k0_idx61_inb : ∀ (v151 : IVec S16 32) (k0_hw13 : k0_chk13 v151), ∀ a x, ((![v151] : Fin 1 → IVec S16 32) a x).toNat < S10112.size a := fun v151 k0_hw13 => k0_hw13.2.2.2

def k0_chk14 (v152 : IVec S16 32) : Prop :=
  (∀ a x, ((![v152] : Fin 1 → IVec S16 32) a x).toNat < S10112.size a) ∧
  (∀ a x, ((![v152] : Fin 1 → IVec S16 32) a x).toNat < S10112.size a) ∧
  (∀ a x, ((![v152] : Fin 1 → IVec S16 32) a x).toNat < S10112.size a) ∧
  (∀ a x, ((![v152] : Fin 1 → IVec S16 32) a x).toNat < S10112.size a) ∧
  (∀ a x, ((![v152] : Fin 1 → IVec S16 32) a x).toNat < S10112.size a)
instance k0_chk14.dec : ∀ (v152 : IVec S16 32), Decidable (k0_chk14 v152) := fun v152 => decidable_of_iff' _ (Iff.of_eq (k0_chk14.eq_1 v152))
theorem k0_idx56_inb : ∀ (v152 : IVec S16 32) (k0_hw14 : k0_chk14 v152), ∀ a x, ((![v152] : Fin 1 → IVec S16 32) a x).toNat < S10112.size a := fun v152 k0_hw14 => k0_hw14.1
theorem k0_idx58_inb : ∀ (v152 : IVec S16 32) (k0_hw14 : k0_chk14 v152), ∀ a x, ((![v152] : Fin 1 → IVec S16 32) a x).toNat < S10112.size a := fun v152 k0_hw14 => k0_hw14.2.1
theorem k0_idx60_inb : ∀ (v152 : IVec S16 32) (k0_hw14 : k0_chk14 v152), ∀ a x, ((![v152] : Fin 1 → IVec S16 32) a x).toNat < S10112.size a := fun v152 k0_hw14 => k0_hw14.2.2.1
theorem k0_idx62_inb : ∀ (v152 : IVec S16 32) (k0_hw14 : k0_chk14 v152), ∀ a x, ((![v152] : Fin 1 → IVec S16 32) a x).toNat < S10112.size a := fun v152 k0_hw14 => k0_hw14.2.2.2.1
theorem k0_idx63_inb : ∀ (v152 : IVec S16 32) (k0_hw14 : k0_chk14 v152), ∀ a x, ((![v152] : Fin 1 → IVec S16 32) a x).toNat < S10112.size a := fun v152 k0_hw14 => k0_hw14.2.2.2.2

def k0_chk15 (v171 : IVec S16 32) : Prop :=
  (∀ a x, ((![v171] : Fin 1 → IVec S16 32) a x).toNat < S10112.size a) ∧
  (∀ a x, ((![v171] : Fin 1 → IVec S16 32) a x).toNat < S10112.size a) ∧
  (∀ a x, ((![v171] : Fin 1 → IVec S16 32) a x).toNat < S10112.size a) ∧
  (∀ a x, ((![v171] : Fin 1 → IVec S16 32) a x).toNat < S10112.size a)
instance k0_chk15.dec : ∀ (v171 : IVec S16 32), Decidable (k0_chk15 v171) := fun v171 => decidable_of_iff' _ (Iff.of_eq (k0_chk15.eq_1 v171))
theorem k0_idx64_inb : ∀ (v171 : IVec S16 32) (k0_hw15 : k0_chk15 v171), ∀ a x, ((![v171] : Fin 1 → IVec S16 32) a x).toNat < S10112.size a := fun v171 k0_hw15 => k0_hw15.1
theorem k0_idx66_inb : ∀ (v171 : IVec S16 32) (k0_hw15 : k0_chk15 v171), ∀ a x, ((![v171] : Fin 1 → IVec S16 32) a x).toNat < S10112.size a := fun v171 k0_hw15 => k0_hw15.2.1
theorem k0_idx68_inb : ∀ (v171 : IVec S16 32) (k0_hw15 : k0_chk15 v171), ∀ a x, ((![v171] : Fin 1 → IVec S16 32) a x).toNat < S10112.size a := fun v171 k0_hw15 => k0_hw15.2.2.1
theorem k0_idx70_inb : ∀ (v171 : IVec S16 32) (k0_hw15 : k0_chk15 v171), ∀ a x, ((![v171] : Fin 1 → IVec S16 32) a x).toNat < S10112.size a := fun v171 k0_hw15 => k0_hw15.2.2.2

def k0_chk16 (v172 : IVec S16 32) : Prop :=
  (∀ a x, ((![v172] : Fin 1 → IVec S16 32) a x).toNat < S10112.size a) ∧
  (∀ a x, ((![v172] : Fin 1 → IVec S16 32) a x).toNat < S10112.size a) ∧
  (∀ a x, ((![v172] : Fin 1 → IVec S16 32) a x).toNat < S10112.size a) ∧
  (∀ a x, ((![v172] : Fin 1 → IVec S16 32) a x).toNat < S10112.size a) ∧
  (∀ a x, ((![v172] : Fin 1 → IVec S16 32) a x).toNat < S10112.size a)
instance k0_chk16.dec : ∀ (v172 : IVec S16 32), Decidable (k0_chk16 v172) := fun v172 => decidable_of_iff' _ (Iff.of_eq (k0_chk16.eq_1 v172))
theorem k0_idx65_inb : ∀ (v172 : IVec S16 32) (k0_hw16 : k0_chk16 v172), ∀ a x, ((![v172] : Fin 1 → IVec S16 32) a x).toNat < S10112.size a := fun v172 k0_hw16 => k0_hw16.1
theorem k0_idx67_inb : ∀ (v172 : IVec S16 32) (k0_hw16 : k0_chk16 v172), ∀ a x, ((![v172] : Fin 1 → IVec S16 32) a x).toNat < S10112.size a := fun v172 k0_hw16 => k0_hw16.2.1
theorem k0_idx69_inb : ∀ (v172 : IVec S16 32) (k0_hw16 : k0_chk16 v172), ∀ a x, ((![v172] : Fin 1 → IVec S16 32) a x).toNat < S10112.size a := fun v172 k0_hw16 => k0_hw16.2.2.1
theorem k0_idx71_inb : ∀ (v172 : IVec S16 32) (k0_hw16 : k0_chk16 v172), ∀ a x, ((![v172] : Fin 1 → IVec S16 32) a x).toNat < S10112.size a := fun v172 k0_hw16 => k0_hw16.2.2.2.1
theorem k0_idx72_inb : ∀ (v172 : IVec S16 32) (k0_hw16 : k0_chk16 v172), ∀ a x, ((![v172] : Fin 1 → IVec S16 32) a x).toNat < S10112.size a := fun v172 k0_hw16 => k0_hw16.2.2.2.2

def k0_chk17 (v191 : IVec S16 32) : Prop :=
  (∀ a x, ((![v191] : Fin 1 → IVec S16 32) a x).toNat < S10112.size a) ∧
  (∀ a x, ((![v191] : Fin 1 → IVec S16 32) a x).toNat < S10112.size a) ∧
  (∀ a x, ((![v191] : Fin 1 → IVec S16 32) a x).toNat < S10112.size a) ∧
  (∀ a x, ((![v191] : Fin 1 → IVec S16 32) a x).toNat < S10112.size a)
instance k0_chk17.dec : ∀ (v191 : IVec S16 32), Decidable (k0_chk17 v191) := fun v191 => decidable_of_iff' _ (Iff.of_eq (k0_chk17.eq_1 v191))
theorem k0_idx73_inb : ∀ (v191 : IVec S16 32) (k0_hw17 : k0_chk17 v191), ∀ a x, ((![v191] : Fin 1 → IVec S16 32) a x).toNat < S10112.size a := fun v191 k0_hw17 => k0_hw17.1
theorem k0_idx75_inb : ∀ (v191 : IVec S16 32) (k0_hw17 : k0_chk17 v191), ∀ a x, ((![v191] : Fin 1 → IVec S16 32) a x).toNat < S10112.size a := fun v191 k0_hw17 => k0_hw17.2.1
theorem k0_idx77_inb : ∀ (v191 : IVec S16 32) (k0_hw17 : k0_chk17 v191), ∀ a x, ((![v191] : Fin 1 → IVec S16 32) a x).toNat < S10112.size a := fun v191 k0_hw17 => k0_hw17.2.2.1
theorem k0_idx79_inb : ∀ (v191 : IVec S16 32) (k0_hw17 : k0_chk17 v191), ∀ a x, ((![v191] : Fin 1 → IVec S16 32) a x).toNat < S10112.size a := fun v191 k0_hw17 => k0_hw17.2.2.2

def k0_chk18 (v192 : IVec S16 32) : Prop :=
  (∀ a x, ((![v192] : Fin 1 → IVec S16 32) a x).toNat < S10112.size a) ∧
  (∀ a x, ((![v192] : Fin 1 → IVec S16 32) a x).toNat < S10112.size a) ∧
  (∀ a x, ((![v192] : Fin 1 → IVec S16 32) a x).toNat < S10112.size a) ∧
  (∀ a x, ((![v192] : Fin 1 → IVec S16 32) a x).toNat < S10112.size a) ∧
  (∀ a x, ((![v192] : Fin 1 → IVec S16 32) a x).toNat < S10112.size a)
instance k0_chk18.dec : ∀ (v192 : IVec S16 32), Decidable (k0_chk18 v192) := fun v192 => decidable_of_iff' _ (Iff.of_eq (k0_chk18.eq_1 v192))
theorem k0_idx74_inb : ∀ (v192 : IVec S16 32) (k0_hw18 : k0_chk18 v192), ∀ a x, ((![v192] : Fin 1 → IVec S16 32) a x).toNat < S10112.size a := fun v192 k0_hw18 => k0_hw18.1
theorem k0_idx76_inb : ∀ (v192 : IVec S16 32) (k0_hw18 : k0_chk18 v192), ∀ a x, ((![v192] : Fin 1 → IVec S16 32) a x).toNat < S10112.size a := fun v192 k0_hw18 => k0_hw18.2.1
theorem k0_idx78_inb : ∀ (v192 : IVec S16 32) (k0_hw18 : k0_chk18 v192), ∀ a x, ((![v192] : Fin 1 → IVec S16 32) a x).toNat < S10112.size a := fun v192 k0_hw18 => k0_hw18.2.2.1
theorem k0_idx80_inb : ∀ (v192 : IVec S16 32) (k0_hw18 : k0_chk18 v192), ∀ a x, ((![v192] : Fin 1 → IVec S16 32) a x).toNat < S10112.size a := fun v192 k0_hw18 => k0_hw18.2.2.2.1
theorem k0_idx81_inb : ∀ (v192 : IVec S16 32) (k0_hw18 : k0_chk18 v192), ∀ a x, ((![v192] : Fin 1 → IVec S16 32) a x).toNat < S10112.size a := fun v192 k0_hw18 => k0_hw18.2.2.2.2

def k0_chk19 (v211 : IVec S16 32) : Prop :=
  (∀ a x, ((![v211] : Fin 1 → IVec S16 32) a x).toNat < S10112.size a) ∧
  (∀ a x, ((![v211] : Fin 1 → IVec S16 32) a x).toNat < S10112.size a) ∧
  (∀ a x, ((![v211] : Fin 1 → IVec S16 32) a x).toNat < S10112.size a) ∧
  (∀ a x, ((![v211] : Fin 1 → IVec S16 32) a x).toNat < S10112.size a)
instance k0_chk19.dec : ∀ (v211 : IVec S16 32), Decidable (k0_chk19 v211) := fun v211 => decidable_of_iff' _ (Iff.of_eq (k0_chk19.eq_1 v211))
theorem k0_idx82_inb : ∀ (v211 : IVec S16 32) (k0_hw19 : k0_chk19 v211), ∀ a x, ((![v211] : Fin 1 → IVec S16 32) a x).toNat < S10112.size a := fun v211 k0_hw19 => k0_hw19.1
theorem k0_idx84_inb : ∀ (v211 : IVec S16 32) (k0_hw19 : k0_chk19 v211), ∀ a x, ((![v211] : Fin 1 → IVec S16 32) a x).toNat < S10112.size a := fun v211 k0_hw19 => k0_hw19.2.1
theorem k0_idx86_inb : ∀ (v211 : IVec S16 32) (k0_hw19 : k0_chk19 v211), ∀ a x, ((![v211] : Fin 1 → IVec S16 32) a x).toNat < S10112.size a := fun v211 k0_hw19 => k0_hw19.2.2.1
theorem k0_idx88_inb : ∀ (v211 : IVec S16 32) (k0_hw19 : k0_chk19 v211), ∀ a x, ((![v211] : Fin 1 → IVec S16 32) a x).toNat < S10112.size a := fun v211 k0_hw19 => k0_hw19.2.2.2

def k0_chk20 (v212 : IVec S16 32) : Prop :=
  (∀ a x, ((![v212] : Fin 1 → IVec S16 32) a x).toNat < S10112.size a) ∧
  (∀ a x, ((![v212] : Fin 1 → IVec S16 32) a x).toNat < S10112.size a) ∧
  (∀ a x, ((![v212] : Fin 1 → IVec S16 32) a x).toNat < S10112.size a) ∧
  (∀ a x, ((![v212] : Fin 1 → IVec S16 32) a x).toNat < S10112.size a) ∧
  (∀ a x, ((![v212] : Fin 1 → IVec S16 32) a x).toNat < S10112.size a)
instance k0_chk20.dec : ∀ (v212 : IVec S16 32), Decidable (k0_chk20 v212) := fun v212 => decidable_of_iff' _ (Iff.of_eq (k0_chk20.eq_1 v212))
theorem k0_idx83_inb : ∀ (v212 : IVec S16 32) (k0_hw20 : k0_chk20 v212), ∀ a x, ((![v212] : Fin 1 → IVec S16 32) a x).toNat < S10112.size a := fun v212 k0_hw20 => k0_hw20.1
theorem k0_idx85_inb : ∀ (v212 : IVec S16 32) (k0_hw20 : k0_chk20 v212), ∀ a x, ((![v212] : Fin 1 → IVec S16 32) a x).toNat < S10112.size a := fun v212 k0_hw20 => k0_hw20.2.1
theorem k0_idx87_inb : ∀ (v212 : IVec S16 32) (k0_hw20 : k0_chk20 v212), ∀ a x, ((![v212] : Fin 1 → IVec S16 32) a x).toNat < S10112.size a := fun v212 k0_hw20 => k0_hw20.2.2.1
theorem k0_idx89_inb : ∀ (v212 : IVec S16 32) (k0_hw20 : k0_chk20 v212), ∀ a x, ((![v212] : Fin 1 → IVec S16 32) a x).toNat < S10112.size a := fun v212 k0_hw20 => k0_hw20.2.2.2.1
theorem k0_idx90_inb : ∀ (v212 : IVec S16 32) (k0_hw20 : k0_chk20 v212), ∀ a x, ((![v212] : Fin 1 → IVec S16 32) a x).toNat < S10112.size a := fun v212 k0_hw20 => k0_hw20.2.2.2.2

def k0_chk21 (v231 : IVec S16 32) : Prop :=
  (∀ a x, ((![v231] : Fin 1 → IVec S16 32) a x).toNat < S10112.size a) ∧
  (∀ a x, ((![v231] : Fin 1 → IVec S16 32) a x).toNat < S10112.size a) ∧
  (∀ a x, ((![v231] : Fin 1 → IVec S16 32) a x).toNat < S10112.size a) ∧
  (∀ a x, ((![v231] : Fin 1 → IVec S16 32) a x).toNat < S10112.size a)
instance k0_chk21.dec : ∀ (v231 : IVec S16 32), Decidable (k0_chk21 v231) := fun v231 => decidable_of_iff' _ (Iff.of_eq (k0_chk21.eq_1 v231))
theorem k0_idx91_inb : ∀ (v231 : IVec S16 32) (k0_hw21 : k0_chk21 v231), ∀ a x, ((![v231] : Fin 1 → IVec S16 32) a x).toNat < S10112.size a := fun v231 k0_hw21 => k0_hw21.1
theorem k0_idx93_inb : ∀ (v231 : IVec S16 32) (k0_hw21 : k0_chk21 v231), ∀ a x, ((![v231] : Fin 1 → IVec S16 32) a x).toNat < S10112.size a := fun v231 k0_hw21 => k0_hw21.2.1
theorem k0_idx95_inb : ∀ (v231 : IVec S16 32) (k0_hw21 : k0_chk21 v231), ∀ a x, ((![v231] : Fin 1 → IVec S16 32) a x).toNat < S10112.size a := fun v231 k0_hw21 => k0_hw21.2.2.1
theorem k0_idx97_inb : ∀ (v231 : IVec S16 32) (k0_hw21 : k0_chk21 v231), ∀ a x, ((![v231] : Fin 1 → IVec S16 32) a x).toNat < S10112.size a := fun v231 k0_hw21 => k0_hw21.2.2.2

def k0_chk22 (v232 : IVec S16 32) : Prop :=
  (∀ a x, ((![v232] : Fin 1 → IVec S16 32) a x).toNat < S10112.size a) ∧
  (∀ a x, ((![v232] : Fin 1 → IVec S16 32) a x).toNat < S10112.size a) ∧
  (∀ a x, ((![v232] : Fin 1 → IVec S16 32) a x).toNat < S10112.size a) ∧
  (∀ a x, ((![v232] : Fin 1 → IVec S16 32) a x).toNat < S10112.size a) ∧
  (∀ a x, ((![v232] : Fin 1 → IVec S16 32) a x).toNat < S10112.size a)
instance k0_chk22.dec : ∀ (v232 : IVec S16 32), Decidable (k0_chk22 v232) := fun v232 => decidable_of_iff' _ (Iff.of_eq (k0_chk22.eq_1 v232))
theorem k0_idx92_inb : ∀ (v232 : IVec S16 32) (k0_hw22 : k0_chk22 v232), ∀ a x, ((![v232] : Fin 1 → IVec S16 32) a x).toNat < S10112.size a := fun v232 k0_hw22 => k0_hw22.1
theorem k0_idx94_inb : ∀ (v232 : IVec S16 32) (k0_hw22 : k0_chk22 v232), ∀ a x, ((![v232] : Fin 1 → IVec S16 32) a x).toNat < S10112.size a := fun v232 k0_hw22 => k0_hw22.2.1
theorem k0_idx96_inb : ∀ (v232 : IVec S16 32) (k0_hw22 : k0_chk22 v232), ∀ a x, ((![v232] : Fin 1 → IVec S16 32) a x).toNat < S10112.size a := fun v232 k0_hw22 => k0_hw22.2.2.1
theorem k0_idx98_inb : ∀ (v232 : IVec S16 32) (k0_hw22 : k0_chk22 v232), ∀ a x, ((![v232] : Fin 1 → IVec S16 32) a x).toNat < S10112.size a := fun v232 k0_hw22 => k0_hw22.2.2.2.1
theorem k0_idx99_inb : ∀ (v232 : IVec S16 32) (k0_hw22 : k0_chk22 v232), ∀ a x, ((![v232] : Fin 1 → IVec S16 32) a x).toNat < S10112.size a := fun v232 k0_hw22 => k0_hw22.2.2.2.2

def k0_chk23 (v251 : IVec S16 32) : Prop :=
  (∀ a x, ((![v251] : Fin 1 → IVec S16 32) a x).toNat < S10112.size a) ∧
  (∀ a x, ((![v251] : Fin 1 → IVec S16 32) a x).toNat < S10112.size a) ∧
  (∀ a x, ((![v251] : Fin 1 → IVec S16 32) a x).toNat < S10112.size a) ∧
  (∀ a x, ((![v251] : Fin 1 → IVec S16 32) a x).toNat < S10112.size a)
instance k0_chk23.dec : ∀ (v251 : IVec S16 32), Decidable (k0_chk23 v251) := fun v251 => decidable_of_iff' _ (Iff.of_eq (k0_chk23.eq_1 v251))
theorem k0_idx100_inb : ∀ (v251 : IVec S16 32) (k0_hw23 : k0_chk23 v251), ∀ a x, ((![v251] : Fin 1 → IVec S16 32) a x).toNat < S10112.size a := fun v251 k0_hw23 => k0_hw23.1
theorem k0_idx102_inb : ∀ (v251 : IVec S16 32) (k0_hw23 : k0_chk23 v251), ∀ a x, ((![v251] : Fin 1 → IVec S16 32) a x).toNat < S10112.size a := fun v251 k0_hw23 => k0_hw23.2.1
theorem k0_idx104_inb : ∀ (v251 : IVec S16 32) (k0_hw23 : k0_chk23 v251), ∀ a x, ((![v251] : Fin 1 → IVec S16 32) a x).toNat < S10112.size a := fun v251 k0_hw23 => k0_hw23.2.2.1
theorem k0_idx106_inb : ∀ (v251 : IVec S16 32) (k0_hw23 : k0_chk23 v251), ∀ a x, ((![v251] : Fin 1 → IVec S16 32) a x).toNat < S10112.size a := fun v251 k0_hw23 => k0_hw23.2.2.2

def k0_chk24 (v252 : IVec S16 32) : Prop :=
  (∀ a x, ((![v252] : Fin 1 → IVec S16 32) a x).toNat < S10112.size a) ∧
  (∀ a x, ((![v252] : Fin 1 → IVec S16 32) a x).toNat < S10112.size a) ∧
  (∀ a x, ((![v252] : Fin 1 → IVec S16 32) a x).toNat < S10112.size a) ∧
  (∀ a x, ((![v252] : Fin 1 → IVec S16 32) a x).toNat < S10112.size a) ∧
  (∀ a x, ((![v252] : Fin 1 → IVec S16 32) a x).toNat < S10112.size a)
instance k0_chk24.dec : ∀ (v252 : IVec S16 32), Decidable (k0_chk24 v252) := fun v252 => decidable_of_iff' _ (Iff.of_eq (k0_chk24.eq_1 v252))
theorem k0_idx101_inb : ∀ (v252 : IVec S16 32) (k0_hw24 : k0_chk24 v252), ∀ a x, ((![v252] : Fin 1 → IVec S16 32) a x).toNat < S10112.size a := fun v252 k0_hw24 => k0_hw24.1
theorem k0_idx103_inb : ∀ (v252 : IVec S16 32) (k0_hw24 : k0_chk24 v252), ∀ a x, ((![v252] : Fin 1 → IVec S16 32) a x).toNat < S10112.size a := fun v252 k0_hw24 => k0_hw24.2.1
theorem k0_idx105_inb : ∀ (v252 : IVec S16 32) (k0_hw24 : k0_chk24 v252), ∀ a x, ((![v252] : Fin 1 → IVec S16 32) a x).toNat < S10112.size a := fun v252 k0_hw24 => k0_hw24.2.2.1
theorem k0_idx107_inb : ∀ (v252 : IVec S16 32) (k0_hw24 : k0_chk24 v252), ∀ a x, ((![v252] : Fin 1 → IVec S16 32) a x).toNat < S10112.size a := fun v252 k0_hw24 => k0_hw24.2.2.2.1
theorem k0_idx108_inb : ∀ (v252 : IVec S16 32) (k0_hw24 : k0_chk24 v252), ∀ a x, ((![v252] : Fin 1 → IVec S16 32) a x).toNat < S10112.size a := fun v252 k0_hw24 => k0_hw24.2.2.2.2

def k0_chk25 (v271 : IVec S16 32) : Prop :=
  (∀ a x, ((![v271] : Fin 1 → IVec S16 32) a x).toNat < S10112.size a) ∧
  (∀ a x, ((![v271] : Fin 1 → IVec S16 32) a x).toNat < S10112.size a) ∧
  (∀ a x, ((![v271] : Fin 1 → IVec S16 32) a x).toNat < S10112.size a) ∧
  (∀ a x, ((![v271] : Fin 1 → IVec S16 32) a x).toNat < S10112.size a)
instance k0_chk25.dec : ∀ (v271 : IVec S16 32), Decidable (k0_chk25 v271) := fun v271 => decidable_of_iff' _ (Iff.of_eq (k0_chk25.eq_1 v271))
theorem k0_idx109_inb : ∀ (v271 : IVec S16 32) (k0_hw25 : k0_chk25 v271), ∀ a x, ((![v271] : Fin 1 → IVec S16 32) a x).toNat < S10112.size a := fun v271 k0_hw25 => k0_hw25.1
theorem k0_idx111_inb : ∀ (v271 : IVec S16 32) (k0_hw25 : k0_chk25 v271), ∀ a x, ((![v271] : Fin 1 → IVec S16 32) a x).toNat < S10112.size a := fun v271 k0_hw25 => k0_hw25.2.1
theorem k0_idx113_inb : ∀ (v271 : IVec S16 32) (k0_hw25 : k0_chk25 v271), ∀ a x, ((![v271] : Fin 1 → IVec S16 32) a x).toNat < S10112.size a := fun v271 k0_hw25 => k0_hw25.2.2.1
theorem k0_idx115_inb : ∀ (v271 : IVec S16 32) (k0_hw25 : k0_chk25 v271), ∀ a x, ((![v271] : Fin 1 → IVec S16 32) a x).toNat < S10112.size a := fun v271 k0_hw25 => k0_hw25.2.2.2

def k0_chk26 (v272 : IVec S16 32) : Prop :=
  (∀ a x, ((![v272] : Fin 1 → IVec S16 32) a x).toNat < S10112.size a) ∧
  (∀ a x, ((![v272] : Fin 1 → IVec S16 32) a x).toNat < S10112.size a) ∧
  (∀ a x, ((![v272] : Fin 1 → IVec S16 32) a x).toNat < S10112.size a) ∧
  (∀ a x, ((![v272] : Fin 1 → IVec S16 32) a x).toNat < S10112.size a) ∧
  (∀ a x, ((![v272] : Fin 1 → IVec S16 32) a x).toNat < S10112.size a)
instance k0_chk26.dec : ∀ (v272 : IVec S16 32), Decidable (k0_chk26 v272) := fun v272 => decidable_of_iff' _ (Iff.of_eq (k0_chk26.eq_1 v272))
theorem k0_idx110_inb : ∀ (v272 : IVec S16 32) (k0_hw26 : k0_chk26 v272), ∀ a x, ((![v272] : Fin 1 → IVec S16 32) a x).toNat < S10112.size a := fun v272 k0_hw26 => k0_hw26.1
theorem k0_idx112_inb : ∀ (v272 : IVec S16 32) (k0_hw26 : k0_chk26 v272), ∀ a x, ((![v272] : Fin 1 → IVec S16 32) a x).toNat < S10112.size a := fun v272 k0_hw26 => k0_hw26.2.1
theorem k0_idx114_inb : ∀ (v272 : IVec S16 32) (k0_hw26 : k0_chk26 v272), ∀ a x, ((![v272] : Fin 1 → IVec S16 32) a x).toNat < S10112.size a := fun v272 k0_hw26 => k0_hw26.2.2.1
theorem k0_idx116_inb : ∀ (v272 : IVec S16 32) (k0_hw26 : k0_chk26 v272), ∀ a x, ((![v272] : Fin 1 → IVec S16 32) a x).toNat < S10112.size a := fun v272 k0_hw26 => k0_hw26.2.2.2.1
theorem k0_idx117_inb : ∀ (v272 : IVec S16 32) (k0_hw26 : k0_chk26 v272), ∀ a x, ((![v272] : Fin 1 → IVec S16 32) a x).toNat < S10112.size a := fun v272 k0_hw26 => k0_hw26.2.2.2.2

def k0_chk27 (v291 : IVec S16 32) : Prop :=
  (∀ a x, ((![v291] : Fin 1 → IVec S16 32) a x).toNat < S10112.size a) ∧
  (∀ a x, ((![v291] : Fin 1 → IVec S16 32) a x).toNat < S10112.size a) ∧
  (∀ a x, ((![v291] : Fin 1 → IVec S16 32) a x).toNat < S10112.size a) ∧
  (∀ a x, ((![v291] : Fin 1 → IVec S16 32) a x).toNat < S10112.size a)
instance k0_chk27.dec : ∀ (v291 : IVec S16 32), Decidable (k0_chk27 v291) := fun v291 => decidable_of_iff' _ (Iff.of_eq (k0_chk27.eq_1 v291))
theorem k0_idx118_inb : ∀ (v291 : IVec S16 32) (k0_hw27 : k0_chk27 v291), ∀ a x, ((![v291] : Fin 1 → IVec S16 32) a x).toNat < S10112.size a := fun v291 k0_hw27 => k0_hw27.1
theorem k0_idx120_inb : ∀ (v291 : IVec S16 32) (k0_hw27 : k0_chk27 v291), ∀ a x, ((![v291] : Fin 1 → IVec S16 32) a x).toNat < S10112.size a := fun v291 k0_hw27 => k0_hw27.2.1
theorem k0_idx122_inb : ∀ (v291 : IVec S16 32) (k0_hw27 : k0_chk27 v291), ∀ a x, ((![v291] : Fin 1 → IVec S16 32) a x).toNat < S10112.size a := fun v291 k0_hw27 => k0_hw27.2.2.1
theorem k0_idx124_inb : ∀ (v291 : IVec S16 32) (k0_hw27 : k0_chk27 v291), ∀ a x, ((![v291] : Fin 1 → IVec S16 32) a x).toNat < S10112.size a := fun v291 k0_hw27 => k0_hw27.2.2.2

def k0_chk28 (v292 : IVec S16 32) : Prop :=
  (∀ a x, ((![v292] : Fin 1 → IVec S16 32) a x).toNat < S10112.size a) ∧
  (∀ a x, ((![v292] : Fin 1 → IVec S16 32) a x).toNat < S10112.size a) ∧
  (∀ a x, ((![v292] : Fin 1 → IVec S16 32) a x).toNat < S10112.size a) ∧
  (∀ a x, ((![v292] : Fin 1 → IVec S16 32) a x).toNat < S10112.size a) ∧
  (∀ a x, ((![v292] : Fin 1 → IVec S16 32) a x).toNat < S10112.size a)
instance k0_chk28.dec : ∀ (v292 : IVec S16 32), Decidable (k0_chk28 v292) := fun v292 => decidable_of_iff' _ (Iff.of_eq (k0_chk28.eq_1 v292))
theorem k0_idx119_inb : ∀ (v292 : IVec S16 32) (k0_hw28 : k0_chk28 v292), ∀ a x, ((![v292] : Fin 1 → IVec S16 32) a x).toNat < S10112.size a := fun v292 k0_hw28 => k0_hw28.1
theorem k0_idx121_inb : ∀ (v292 : IVec S16 32) (k0_hw28 : k0_chk28 v292), ∀ a x, ((![v292] : Fin 1 → IVec S16 32) a x).toNat < S10112.size a := fun v292 k0_hw28 => k0_hw28.2.1
theorem k0_idx123_inb : ∀ (v292 : IVec S16 32) (k0_hw28 : k0_chk28 v292), ∀ a x, ((![v292] : Fin 1 → IVec S16 32) a x).toNat < S10112.size a := fun v292 k0_hw28 => k0_hw28.2.2.1
theorem k0_idx125_inb : ∀ (v292 : IVec S16 32) (k0_hw28 : k0_chk28 v292), ∀ a x, ((![v292] : Fin 1 → IVec S16 32) a x).toNat < S10112.size a := fun v292 k0_hw28 => k0_hw28.2.2.2.1
theorem k0_idx126_inb : ∀ (v292 : IVec S16 32) (k0_hw28 : k0_chk28 v292), ∀ a x, ((![v292] : Fin 1 → IVec S16 32) a x).toNat < S10112.size a := fun v292 k0_hw28 => k0_hw28.2.2.2.2

def k0_chk29 (v311 : IVec S16 32) : Prop :=
  (∀ a x, ((![v311] : Fin 1 → IVec S16 32) a x).toNat < S10112.size a) ∧
  (∀ a x, ((![v311] : Fin 1 → IVec S16 32) a x).toNat < S10112.size a) ∧
  (∀ a x, ((![v311] : Fin 1 → IVec S16 32) a x).toNat < S10112.size a) ∧
  (∀ a x, ((![v311] : Fin 1 → IVec S16 32) a x).toNat < S10112.size a)
instance k0_chk29.dec : ∀ (v311 : IVec S16 32), Decidable (k0_chk29 v311) := fun v311 => decidable_of_iff' _ (Iff.of_eq (k0_chk29.eq_1 v311))
theorem k0_idx127_inb : ∀ (v311 : IVec S16 32) (k0_hw29 : k0_chk29 v311), ∀ a x, ((![v311] : Fin 1 → IVec S16 32) a x).toNat < S10112.size a := fun v311 k0_hw29 => k0_hw29.1
theorem k0_idx129_inb : ∀ (v311 : IVec S16 32) (k0_hw29 : k0_chk29 v311), ∀ a x, ((![v311] : Fin 1 → IVec S16 32) a x).toNat < S10112.size a := fun v311 k0_hw29 => k0_hw29.2.1
theorem k0_idx131_inb : ∀ (v311 : IVec S16 32) (k0_hw29 : k0_chk29 v311), ∀ a x, ((![v311] : Fin 1 → IVec S16 32) a x).toNat < S10112.size a := fun v311 k0_hw29 => k0_hw29.2.2.1
theorem k0_idx133_inb : ∀ (v311 : IVec S16 32) (k0_hw29 : k0_chk29 v311), ∀ a x, ((![v311] : Fin 1 → IVec S16 32) a x).toNat < S10112.size a := fun v311 k0_hw29 => k0_hw29.2.2.2

def k0_chk30 (v312 : IVec S16 32) : Prop :=
  (∀ a x, ((![v312] : Fin 1 → IVec S16 32) a x).toNat < S10112.size a) ∧
  (∀ a x, ((![v312] : Fin 1 → IVec S16 32) a x).toNat < S10112.size a) ∧
  (∀ a x, ((![v312] : Fin 1 → IVec S16 32) a x).toNat < S10112.size a) ∧
  (∀ a x, ((![v312] : Fin 1 → IVec S16 32) a x).toNat < S10112.size a) ∧
  (∀ a x, ((![v312] : Fin 1 → IVec S16 32) a x).toNat < S10112.size a)
instance k0_chk30.dec : ∀ (v312 : IVec S16 32), Decidable (k0_chk30 v312) := fun v312 => decidable_of_iff' _ (Iff.of_eq (k0_chk30.eq_1 v312))
theorem k0_idx128_inb : ∀ (v312 : IVec S16 32) (k0_hw30 : k0_chk30 v312), ∀ a x, ((![v312] : Fin 1 → IVec S16 32) a x).toNat < S10112.size a := fun v312 k0_hw30 => k0_hw30.1
theorem k0_idx130_inb : ∀ (v312 : IVec S16 32) (k0_hw30 : k0_chk30 v312), ∀ a x, ((![v312] : Fin 1 → IVec S16 32) a x).toNat < S10112.size a := fun v312 k0_hw30 => k0_hw30.2.1
theorem k0_idx132_inb : ∀ (v312 : IVec S16 32) (k0_hw30 : k0_chk30 v312), ∀ a x, ((![v312] : Fin 1 → IVec S16 32) a x).toNat < S10112.size a := fun v312 k0_hw30 => k0_hw30.2.2.1
theorem k0_idx134_inb : ∀ (v312 : IVec S16 32) (k0_hw30 : k0_chk30 v312), ∀ a x, ((![v312] : Fin 1 → IVec S16 32) a x).toNat < S10112.size a := fun v312 k0_hw30 => k0_hw30.2.2.2.1
theorem k0_idx135_inb : ∀ (v312 : IVec S16 32) (k0_hw30 : k0_chk30 v312), ∀ a x, ((![v312] : Fin 1 → IVec S16 32) a x).toNat < S10112.size a := fun v312 k0_hw30 => k0_hw30.2.2.2.2

def k0_chk31 (v331 : IVec S16 32) : Prop :=
  (∀ a x, ((![v331] : Fin 1 → IVec S16 32) a x).toNat < S10112.size a) ∧
  (∀ a x, ((![v331] : Fin 1 → IVec S16 32) a x).toNat < S10112.size a) ∧
  (∀ a x, ((![v331] : Fin 1 → IVec S16 32) a x).toNat < S10112.size a) ∧
  (∀ a x, ((![v331] : Fin 1 → IVec S16 32) a x).toNat < S10112.size a)
instance k0_chk31.dec : ∀ (v331 : IVec S16 32), Decidable (k0_chk31 v331) := fun v331 => decidable_of_iff' _ (Iff.of_eq (k0_chk31.eq_1 v331))
theorem k0_idx136_inb : ∀ (v331 : IVec S16 32) (k0_hw31 : k0_chk31 v331), ∀ a x, ((![v331] : Fin 1 → IVec S16 32) a x).toNat < S10112.size a := fun v331 k0_hw31 => k0_hw31.1
theorem k0_idx138_inb : ∀ (v331 : IVec S16 32) (k0_hw31 : k0_chk31 v331), ∀ a x, ((![v331] : Fin 1 → IVec S16 32) a x).toNat < S10112.size a := fun v331 k0_hw31 => k0_hw31.2.1
theorem k0_idx140_inb : ∀ (v331 : IVec S16 32) (k0_hw31 : k0_chk31 v331), ∀ a x, ((![v331] : Fin 1 → IVec S16 32) a x).toNat < S10112.size a := fun v331 k0_hw31 => k0_hw31.2.2.1
theorem k0_idx142_inb : ∀ (v331 : IVec S16 32) (k0_hw31 : k0_chk31 v331), ∀ a x, ((![v331] : Fin 1 → IVec S16 32) a x).toNat < S10112.size a := fun v331 k0_hw31 => k0_hw31.2.2.2

def k0_chk32 (v332 : IVec S16 32) : Prop :=
  (∀ a x, ((![v332] : Fin 1 → IVec S16 32) a x).toNat < S10112.size a) ∧
  (∀ a x, ((![v332] : Fin 1 → IVec S16 32) a x).toNat < S10112.size a) ∧
  (∀ a x, ((![v332] : Fin 1 → IVec S16 32) a x).toNat < S10112.size a) ∧
  (∀ a x, ((![v332] : Fin 1 → IVec S16 32) a x).toNat < S10112.size a) ∧
  (∀ a x, ((![v332] : Fin 1 → IVec S16 32) a x).toNat < S10112.size a)
instance k0_chk32.dec : ∀ (v332 : IVec S16 32), Decidable (k0_chk32 v332) := fun v332 => decidable_of_iff' _ (Iff.of_eq (k0_chk32.eq_1 v332))
theorem k0_idx137_inb : ∀ (v332 : IVec S16 32) (k0_hw32 : k0_chk32 v332), ∀ a x, ((![v332] : Fin 1 → IVec S16 32) a x).toNat < S10112.size a := fun v332 k0_hw32 => k0_hw32.1
theorem k0_idx139_inb : ∀ (v332 : IVec S16 32) (k0_hw32 : k0_chk32 v332), ∀ a x, ((![v332] : Fin 1 → IVec S16 32) a x).toNat < S10112.size a := fun v332 k0_hw32 => k0_hw32.2.1
theorem k0_idx141_inb : ∀ (v332 : IVec S16 32) (k0_hw32 : k0_chk32 v332), ∀ a x, ((![v332] : Fin 1 → IVec S16 32) a x).toNat < S10112.size a := fun v332 k0_hw32 => k0_hw32.2.2.1
theorem k0_idx143_inb : ∀ (v332 : IVec S16 32) (k0_hw32 : k0_chk32 v332), ∀ a x, ((![v332] : Fin 1 → IVec S16 32) a x).toNat < S10112.size a := fun v332 k0_hw32 => k0_hw32.2.2.2.1
theorem k0_idx144_inb : ∀ (v332 : IVec S16 32) (k0_hw32 : k0_chk32 v332), ∀ a x, ((![v332] : Fin 1 → IVec S16 32) a x).toNat < S10112.size a := fun v332 k0_hw32 => k0_hw32.2.2.2.2

def k0_chk33 (v351 : IVec S16 32) : Prop :=
  (∀ a x, ((![v351] : Fin 1 → IVec S16 32) a x).toNat < S10112.size a) ∧
  (∀ a x, ((![v351] : Fin 1 → IVec S16 32) a x).toNat < S10112.size a) ∧
  (∀ a x, ((![v351] : Fin 1 → IVec S16 32) a x).toNat < S10112.size a) ∧
  (∀ a x, ((![v351] : Fin 1 → IVec S16 32) a x).toNat < S10112.size a)
instance k0_chk33.dec : ∀ (v351 : IVec S16 32), Decidable (k0_chk33 v351) := fun v351 => decidable_of_iff' _ (Iff.of_eq (k0_chk33.eq_1 v351))
theorem k0_idx145_inb : ∀ (v351 : IVec S16 32) (k0_hw33 : k0_chk33 v351), ∀ a x, ((![v351] : Fin 1 → IVec S16 32) a x).toNat < S10112.size a := fun v351 k0_hw33 => k0_hw33.1
theorem k0_idx147_inb : ∀ (v351 : IVec S16 32) (k0_hw33 : k0_chk33 v351), ∀ a x, ((![v351] : Fin 1 → IVec S16 32) a x).toNat < S10112.size a := fun v351 k0_hw33 => k0_hw33.2.1
theorem k0_idx149_inb : ∀ (v351 : IVec S16 32) (k0_hw33 : k0_chk33 v351), ∀ a x, ((![v351] : Fin 1 → IVec S16 32) a x).toNat < S10112.size a := fun v351 k0_hw33 => k0_hw33.2.2.1
theorem k0_idx151_inb : ∀ (v351 : IVec S16 32) (k0_hw33 : k0_chk33 v351), ∀ a x, ((![v351] : Fin 1 → IVec S16 32) a x).toNat < S10112.size a := fun v351 k0_hw33 => k0_hw33.2.2.2

def k0_chk34 (v352 : IVec S16 32) : Prop :=
  (∀ a x, ((![v352] : Fin 1 → IVec S16 32) a x).toNat < S10112.size a) ∧
  (∀ a x, ((![v352] : Fin 1 → IVec S16 32) a x).toNat < S10112.size a) ∧
  (∀ a x, ((![v352] : Fin 1 → IVec S16 32) a x).toNat < S10112.size a) ∧
  (∀ a x, ((![v352] : Fin 1 → IVec S16 32) a x).toNat < S10112.size a) ∧
  (∀ a x, ((![v352] : Fin 1 → IVec S16 32) a x).toNat < S10112.size a)
instance k0_chk34.dec : ∀ (v352 : IVec S16 32), Decidable (k0_chk34 v352) := fun v352 => decidable_of_iff' _ (Iff.of_eq (k0_chk34.eq_1 v352))
theorem k0_idx146_inb : ∀ (v352 : IVec S16 32) (k0_hw34 : k0_chk34 v352), ∀ a x, ((![v352] : Fin 1 → IVec S16 32) a x).toNat < S10112.size a := fun v352 k0_hw34 => k0_hw34.1
theorem k0_idx148_inb : ∀ (v352 : IVec S16 32) (k0_hw34 : k0_chk34 v352), ∀ a x, ((![v352] : Fin 1 → IVec S16 32) a x).toNat < S10112.size a := fun v352 k0_hw34 => k0_hw34.2.1
theorem k0_idx150_inb : ∀ (v352 : IVec S16 32) (k0_hw34 : k0_chk34 v352), ∀ a x, ((![v352] : Fin 1 → IVec S16 32) a x).toNat < S10112.size a := fun v352 k0_hw34 => k0_hw34.2.2.1
theorem k0_idx152_inb : ∀ (v352 : IVec S16 32) (k0_hw34 : k0_chk34 v352), ∀ a x, ((![v352] : Fin 1 → IVec S16 32) a x).toNat < S10112.size a := fun v352 k0_hw34 => k0_hw34.2.2.2.1
theorem k0_idx153_inb : ∀ (v352 : IVec S16 32) (k0_hw34 : k0_chk34 v352), ∀ a x, ((![v352] : Fin 1 → IVec S16 32) a x).toNat < S10112.size a := fun v352 k0_hw34 => k0_hw34.2.2.2.2

def k0_chk35 (v371 : IVec S16 32) : Prop :=
  (∀ a x, ((![v371] : Fin 1 → IVec S16 32) a x).toNat < S10112.size a) ∧
  (∀ a x, ((![v371] : Fin 1 → IVec S16 32) a x).toNat < S10112.size a) ∧
  (∀ a x, ((![v371] : Fin 1 → IVec S16 32) a x).toNat < S10112.size a) ∧
  (∀ a x, ((![v371] : Fin 1 → IVec S16 32) a x).toNat < S10112.size a)
instance k0_chk35.dec : ∀ (v371 : IVec S16 32), Decidable (k0_chk35 v371) := fun v371 => decidable_of_iff' _ (Iff.of_eq (k0_chk35.eq_1 v371))
theorem k0_idx154_inb : ∀ (v371 : IVec S16 32) (k0_hw35 : k0_chk35 v371), ∀ a x, ((![v371] : Fin 1 → IVec S16 32) a x).toNat < S10112.size a := fun v371 k0_hw35 => k0_hw35.1
theorem k0_idx156_inb : ∀ (v371 : IVec S16 32) (k0_hw35 : k0_chk35 v371), ∀ a x, ((![v371] : Fin 1 → IVec S16 32) a x).toNat < S10112.size a := fun v371 k0_hw35 => k0_hw35.2.1
theorem k0_idx158_inb : ∀ (v371 : IVec S16 32) (k0_hw35 : k0_chk35 v371), ∀ a x, ((![v371] : Fin 1 → IVec S16 32) a x).toNat < S10112.size a := fun v371 k0_hw35 => k0_hw35.2.2.1
theorem k0_idx160_inb : ∀ (v371 : IVec S16 32) (k0_hw35 : k0_chk35 v371), ∀ a x, ((![v371] : Fin 1 → IVec S16 32) a x).toNat < S10112.size a := fun v371 k0_hw35 => k0_hw35.2.2.2

def k0_chk36 (v372 : IVec S16 32) : Prop :=
  (∀ a x, ((![v372] : Fin 1 → IVec S16 32) a x).toNat < S10112.size a) ∧
  (∀ a x, ((![v372] : Fin 1 → IVec S16 32) a x).toNat < S10112.size a) ∧
  (∀ a x, ((![v372] : Fin 1 → IVec S16 32) a x).toNat < S10112.size a) ∧
  (∀ a x, ((![v372] : Fin 1 → IVec S16 32) a x).toNat < S10112.size a) ∧
  (∀ a x, ((![v372] : Fin 1 → IVec S16 32) a x).toNat < S10112.size a)
instance k0_chk36.dec : ∀ (v372 : IVec S16 32), Decidable (k0_chk36 v372) := fun v372 => decidable_of_iff' _ (Iff.of_eq (k0_chk36.eq_1 v372))
theorem k0_idx155_inb : ∀ (v372 : IVec S16 32) (k0_hw36 : k0_chk36 v372), ∀ a x, ((![v372] : Fin 1 → IVec S16 32) a x).toNat < S10112.size a := fun v372 k0_hw36 => k0_hw36.1
theorem k0_idx157_inb : ∀ (v372 : IVec S16 32) (k0_hw36 : k0_chk36 v372), ∀ a x, ((![v372] : Fin 1 → IVec S16 32) a x).toNat < S10112.size a := fun v372 k0_hw36 => k0_hw36.2.1
theorem k0_idx159_inb : ∀ (v372 : IVec S16 32) (k0_hw36 : k0_chk36 v372), ∀ a x, ((![v372] : Fin 1 → IVec S16 32) a x).toNat < S10112.size a := fun v372 k0_hw36 => k0_hw36.2.2.1
theorem k0_idx161_inb : ∀ (v372 : IVec S16 32) (k0_hw36 : k0_chk36 v372), ∀ a x, ((![v372] : Fin 1 → IVec S16 32) a x).toNat < S10112.size a := fun v372 k0_hw36 => k0_hw36.2.2.2.1
theorem k0_idx162_inb : ∀ (v372 : IVec S16 32) (k0_hw36 : k0_chk36 v372), ∀ a x, ((![v372] : Fin 1 → IVec S16 32) a x).toNat < S10112.size a := fun v372 k0_hw36 => k0_hw36.2.2.2.2

def k0_chk37 (v391 : IVec S16 32) : Prop :=
  (∀ a x, ((![v391] : Fin 1 → IVec S16 32) a x).toNat < S10112.size a) ∧
  (∀ a x, ((![v391] : Fin 1 → IVec S16 32) a x).toNat < S10112.size a) ∧
  (∀ a x, ((![v391] : Fin 1 → IVec S16 32) a x).toNat < S10112.size a) ∧
  (∀ a x, ((![v391] : Fin 1 → IVec S16 32) a x).toNat < S10112.size a)
instance k0_chk37.dec : ∀ (v391 : IVec S16 32), Decidable (k0_chk37 v391) := fun v391 => decidable_of_iff' _ (Iff.of_eq (k0_chk37.eq_1 v391))
theorem k0_idx163_inb : ∀ (v391 : IVec S16 32) (k0_hw37 : k0_chk37 v391), ∀ a x, ((![v391] : Fin 1 → IVec S16 32) a x).toNat < S10112.size a := fun v391 k0_hw37 => k0_hw37.1
theorem k0_idx165_inb : ∀ (v391 : IVec S16 32) (k0_hw37 : k0_chk37 v391), ∀ a x, ((![v391] : Fin 1 → IVec S16 32) a x).toNat < S10112.size a := fun v391 k0_hw37 => k0_hw37.2.1
theorem k0_idx167_inb : ∀ (v391 : IVec S16 32) (k0_hw37 : k0_chk37 v391), ∀ a x, ((![v391] : Fin 1 → IVec S16 32) a x).toNat < S10112.size a := fun v391 k0_hw37 => k0_hw37.2.2.1
theorem k0_idx169_inb : ∀ (v391 : IVec S16 32) (k0_hw37 : k0_chk37 v391), ∀ a x, ((![v391] : Fin 1 → IVec S16 32) a x).toNat < S10112.size a := fun v391 k0_hw37 => k0_hw37.2.2.2

def k0_chk38 (v392 : IVec S16 32) : Prop :=
  (∀ a x, ((![v392] : Fin 1 → IVec S16 32) a x).toNat < S10112.size a) ∧
  (∀ a x, ((![v392] : Fin 1 → IVec S16 32) a x).toNat < S10112.size a) ∧
  (∀ a x, ((![v392] : Fin 1 → IVec S16 32) a x).toNat < S10112.size a) ∧
  (∀ a x, ((![v392] : Fin 1 → IVec S16 32) a x).toNat < S10112.size a) ∧
  (∀ a x, ((![v392] : Fin 1 → IVec S16 32) a x).toNat < S10112.size a)
instance k0_chk38.dec : ∀ (v392 : IVec S16 32), Decidable (k0_chk38 v392) := fun v392 => decidable_of_iff' _ (Iff.of_eq (k0_chk38.eq_1 v392))
theorem k0_idx164_inb : ∀ (v392 : IVec S16 32) (k0_hw38 : k0_chk38 v392), ∀ a x, ((![v392] : Fin 1 → IVec S16 32) a x).toNat < S10112.size a := fun v392 k0_hw38 => k0_hw38.1
theorem k0_idx166_inb : ∀ (v392 : IVec S16 32) (k0_hw38 : k0_chk38 v392), ∀ a x, ((![v392] : Fin 1 → IVec S16 32) a x).toNat < S10112.size a := fun v392 k0_hw38 => k0_hw38.2.1
theorem k0_idx168_inb : ∀ (v392 : IVec S16 32) (k0_hw38 : k0_chk38 v392), ∀ a x, ((![v392] : Fin 1 → IVec S16 32) a x).toNat < S10112.size a := fun v392 k0_hw38 => k0_hw38.2.2.1
theorem k0_idx170_inb : ∀ (v392 : IVec S16 32) (k0_hw38 : k0_chk38 v392), ∀ a x, ((![v392] : Fin 1 → IVec S16 32) a x).toNat < S10112.size a := fun v392 k0_hw38 => k0_hw38.2.2.2.1
theorem k0_idx171_inb : ∀ (v392 : IVec S16 32) (k0_hw38 : k0_chk38 v392), ∀ a x, ((![v392] : Fin 1 → IVec S16 32) a x).toNat < S10112.size a := fun v392 k0_hw38 => k0_hw38.2.2.2.2

def k0_chk39 (v411 : IVec S16 32) : Prop :=
  (∀ a x, ((![v411] : Fin 1 → IVec S16 32) a x).toNat < S10112.size a) ∧
  (∀ a x, ((![v411] : Fin 1 → IVec S16 32) a x).toNat < S10112.size a) ∧
  (∀ a x, ((![v411] : Fin 1 → IVec S16 32) a x).toNat < S10112.size a) ∧
  (∀ a x, ((![v411] : Fin 1 → IVec S16 32) a x).toNat < S10112.size a)
instance k0_chk39.dec : ∀ (v411 : IVec S16 32), Decidable (k0_chk39 v411) := fun v411 => decidable_of_iff' _ (Iff.of_eq (k0_chk39.eq_1 v411))
theorem k0_idx172_inb : ∀ (v411 : IVec S16 32) (k0_hw39 : k0_chk39 v411), ∀ a x, ((![v411] : Fin 1 → IVec S16 32) a x).toNat < S10112.size a := fun v411 k0_hw39 => k0_hw39.1
theorem k0_idx174_inb : ∀ (v411 : IVec S16 32) (k0_hw39 : k0_chk39 v411), ∀ a x, ((![v411] : Fin 1 → IVec S16 32) a x).toNat < S10112.size a := fun v411 k0_hw39 => k0_hw39.2.1
theorem k0_idx176_inb : ∀ (v411 : IVec S16 32) (k0_hw39 : k0_chk39 v411), ∀ a x, ((![v411] : Fin 1 → IVec S16 32) a x).toNat < S10112.size a := fun v411 k0_hw39 => k0_hw39.2.2.1
theorem k0_idx178_inb : ∀ (v411 : IVec S16 32) (k0_hw39 : k0_chk39 v411), ∀ a x, ((![v411] : Fin 1 → IVec S16 32) a x).toNat < S10112.size a := fun v411 k0_hw39 => k0_hw39.2.2.2

def k0_chk40 (v412 : IVec S16 32) : Prop :=
  (∀ a x, ((![v412] : Fin 1 → IVec S16 32) a x).toNat < S10112.size a) ∧
  (∀ a x, ((![v412] : Fin 1 → IVec S16 32) a x).toNat < S10112.size a) ∧
  (∀ a x, ((![v412] : Fin 1 → IVec S16 32) a x).toNat < S10112.size a) ∧
  (∀ a x, ((![v412] : Fin 1 → IVec S16 32) a x).toNat < S10112.size a) ∧
  (∀ a x, ((![v412] : Fin 1 → IVec S16 32) a x).toNat < S10112.size a)
instance k0_chk40.dec : ∀ (v412 : IVec S16 32), Decidable (k0_chk40 v412) := fun v412 => decidable_of_iff' _ (Iff.of_eq (k0_chk40.eq_1 v412))
theorem k0_idx173_inb : ∀ (v412 : IVec S16 32) (k0_hw40 : k0_chk40 v412), ∀ a x, ((![v412] : Fin 1 → IVec S16 32) a x).toNat < S10112.size a := fun v412 k0_hw40 => k0_hw40.1
theorem k0_idx175_inb : ∀ (v412 : IVec S16 32) (k0_hw40 : k0_chk40 v412), ∀ a x, ((![v412] : Fin 1 → IVec S16 32) a x).toNat < S10112.size a := fun v412 k0_hw40 => k0_hw40.2.1
theorem k0_idx177_inb : ∀ (v412 : IVec S16 32) (k0_hw40 : k0_chk40 v412), ∀ a x, ((![v412] : Fin 1 → IVec S16 32) a x).toNat < S10112.size a := fun v412 k0_hw40 => k0_hw40.2.2.1
theorem k0_idx179_inb : ∀ (v412 : IVec S16 32) (k0_hw40 : k0_chk40 v412), ∀ a x, ((![v412] : Fin 1 → IVec S16 32) a x).toNat < S10112.size a := fun v412 k0_hw40 => k0_hw40.2.2.2.1
theorem k0_idx180_inb : ∀ (v412 : IVec S16 32) (k0_hw40 : k0_chk40 v412), ∀ a x, ((![v412] : Fin 1 → IVec S16 32) a x).toNat < S10112.size a := fun v412 k0_hw40 => k0_hw40.2.2.2.2

def k0_chk41 (v431 : IVec S16 32) : Prop :=
  (∀ a x, ((![v431] : Fin 1 → IVec S16 32) a x).toNat < S10112.size a) ∧
  (∀ a x, ((![v431] : Fin 1 → IVec S16 32) a x).toNat < S10112.size a) ∧
  (∀ a x, ((![v431] : Fin 1 → IVec S16 32) a x).toNat < S10112.size a) ∧
  (∀ a x, ((![v431] : Fin 1 → IVec S16 32) a x).toNat < S10112.size a)
instance k0_chk41.dec : ∀ (v431 : IVec S16 32), Decidable (k0_chk41 v431) := fun v431 => decidable_of_iff' _ (Iff.of_eq (k0_chk41.eq_1 v431))
theorem k0_idx181_inb : ∀ (v431 : IVec S16 32) (k0_hw41 : k0_chk41 v431), ∀ a x, ((![v431] : Fin 1 → IVec S16 32) a x).toNat < S10112.size a := fun v431 k0_hw41 => k0_hw41.1
theorem k0_idx183_inb : ∀ (v431 : IVec S16 32) (k0_hw41 : k0_chk41 v431), ∀ a x, ((![v431] : Fin 1 → IVec S16 32) a x).toNat < S10112.size a := fun v431 k0_hw41 => k0_hw41.2.1
theorem k0_idx185_inb : ∀ (v431 : IVec S16 32) (k0_hw41 : k0_chk41 v431), ∀ a x, ((![v431] : Fin 1 → IVec S16 32) a x).toNat < S10112.size a := fun v431 k0_hw41 => k0_hw41.2.2.1
theorem k0_idx187_inb : ∀ (v431 : IVec S16 32) (k0_hw41 : k0_chk41 v431), ∀ a x, ((![v431] : Fin 1 → IVec S16 32) a x).toNat < S10112.size a := fun v431 k0_hw41 => k0_hw41.2.2.2

def k0_chk42 (v432 : IVec S16 32) : Prop :=
  (∀ a x, ((![v432] : Fin 1 → IVec S16 32) a x).toNat < S10112.size a) ∧
  (∀ a x, ((![v432] : Fin 1 → IVec S16 32) a x).toNat < S10112.size a) ∧
  (∀ a x, ((![v432] : Fin 1 → IVec S16 32) a x).toNat < S10112.size a) ∧
  (∀ a x, ((![v432] : Fin 1 → IVec S16 32) a x).toNat < S10112.size a) ∧
  (∀ a x, ((![v432] : Fin 1 → IVec S16 32) a x).toNat < S10112.size a)
instance k0_chk42.dec : ∀ (v432 : IVec S16 32), Decidable (k0_chk42 v432) := fun v432 => decidable_of_iff' _ (Iff.of_eq (k0_chk42.eq_1 v432))
theorem k0_idx182_inb : ∀ (v432 : IVec S16 32) (k0_hw42 : k0_chk42 v432), ∀ a x, ((![v432] : Fin 1 → IVec S16 32) a x).toNat < S10112.size a := fun v432 k0_hw42 => k0_hw42.1
theorem k0_idx184_inb : ∀ (v432 : IVec S16 32) (k0_hw42 : k0_chk42 v432), ∀ a x, ((![v432] : Fin 1 → IVec S16 32) a x).toNat < S10112.size a := fun v432 k0_hw42 => k0_hw42.2.1
theorem k0_idx186_inb : ∀ (v432 : IVec S16 32) (k0_hw42 : k0_chk42 v432), ∀ a x, ((![v432] : Fin 1 → IVec S16 32) a x).toNat < S10112.size a := fun v432 k0_hw42 => k0_hw42.2.2.1
theorem k0_idx188_inb : ∀ (v432 : IVec S16 32) (k0_hw42 : k0_chk42 v432), ∀ a x, ((![v432] : Fin 1 → IVec S16 32) a x).toNat < S10112.size a := fun v432 k0_hw42 => k0_hw42.2.2.2.1
theorem k0_idx189_inb : ∀ (v432 : IVec S16 32) (k0_hw42 : k0_chk42 v432), ∀ a x, ((![v432] : Fin 1 → IVec S16 32) a x).toNat < S10112.size a := fun v432 k0_hw42 => k0_hw42.2.2.2.2

def k0_chk43 (v451 : IVec S16 32) : Prop :=
  (∀ a x, ((![v451] : Fin 1 → IVec S16 32) a x).toNat < S10112.size a) ∧
  (∀ a x, ((![v451] : Fin 1 → IVec S16 32) a x).toNat < S10112.size a) ∧
  (∀ a x, ((![v451] : Fin 1 → IVec S16 32) a x).toNat < S10112.size a) ∧
  (∀ a x, ((![v451] : Fin 1 → IVec S16 32) a x).toNat < S10112.size a)
instance k0_chk43.dec : ∀ (v451 : IVec S16 32), Decidable (k0_chk43 v451) := fun v451 => decidable_of_iff' _ (Iff.of_eq (k0_chk43.eq_1 v451))
theorem k0_idx190_inb : ∀ (v451 : IVec S16 32) (k0_hw43 : k0_chk43 v451), ∀ a x, ((![v451] : Fin 1 → IVec S16 32) a x).toNat < S10112.size a := fun v451 k0_hw43 => k0_hw43.1
theorem k0_idx192_inb : ∀ (v451 : IVec S16 32) (k0_hw43 : k0_chk43 v451), ∀ a x, ((![v451] : Fin 1 → IVec S16 32) a x).toNat < S10112.size a := fun v451 k0_hw43 => k0_hw43.2.1
theorem k0_idx194_inb : ∀ (v451 : IVec S16 32) (k0_hw43 : k0_chk43 v451), ∀ a x, ((![v451] : Fin 1 → IVec S16 32) a x).toNat < S10112.size a := fun v451 k0_hw43 => k0_hw43.2.2.1
theorem k0_idx196_inb : ∀ (v451 : IVec S16 32) (k0_hw43 : k0_chk43 v451), ∀ a x, ((![v451] : Fin 1 → IVec S16 32) a x).toNat < S10112.size a := fun v451 k0_hw43 => k0_hw43.2.2.2

def k0_chk44 (v452 : IVec S16 32) : Prop :=
  (∀ a x, ((![v452] : Fin 1 → IVec S16 32) a x).toNat < S10112.size a) ∧
  (∀ a x, ((![v452] : Fin 1 → IVec S16 32) a x).toNat < S10112.size a) ∧
  (∀ a x, ((![v452] : Fin 1 → IVec S16 32) a x).toNat < S10112.size a) ∧
  (∀ a x, ((![v452] : Fin 1 → IVec S16 32) a x).toNat < S10112.size a) ∧
  (∀ a x, ((![v452] : Fin 1 → IVec S16 32) a x).toNat < S10112.size a)
instance k0_chk44.dec : ∀ (v452 : IVec S16 32), Decidable (k0_chk44 v452) := fun v452 => decidable_of_iff' _ (Iff.of_eq (k0_chk44.eq_1 v452))
theorem k0_idx191_inb : ∀ (v452 : IVec S16 32) (k0_hw44 : k0_chk44 v452), ∀ a x, ((![v452] : Fin 1 → IVec S16 32) a x).toNat < S10112.size a := fun v452 k0_hw44 => k0_hw44.1
theorem k0_idx193_inb : ∀ (v452 : IVec S16 32) (k0_hw44 : k0_chk44 v452), ∀ a x, ((![v452] : Fin 1 → IVec S16 32) a x).toNat < S10112.size a := fun v452 k0_hw44 => k0_hw44.2.1
theorem k0_idx195_inb : ∀ (v452 : IVec S16 32) (k0_hw44 : k0_chk44 v452), ∀ a x, ((![v452] : Fin 1 → IVec S16 32) a x).toNat < S10112.size a := fun v452 k0_hw44 => k0_hw44.2.2.1
theorem k0_idx197_inb : ∀ (v452 : IVec S16 32) (k0_hw44 : k0_chk44 v452), ∀ a x, ((![v452] : Fin 1 → IVec S16 32) a x).toNat < S10112.size a := fun v452 k0_hw44 => k0_hw44.2.2.2.1
theorem k0_idx198_inb : ∀ (v452 : IVec S16 32) (k0_hw44 : k0_chk44 v452), ∀ a x, ((![v452] : Fin 1 → IVec S16 32) a x).toNat < S10112.size a := fun v452 k0_hw44 => k0_hw44.2.2.2.2

def k0_chk45 (v471 : IVec S16 32) : Prop :=
  (∀ a x, ((![v471] : Fin 1 → IVec S16 32) a x).toNat < S10112.size a) ∧
  (∀ a x, ((![v471] : Fin 1 → IVec S16 32) a x).toNat < S10112.size a) ∧
  (∀ a x, ((![v471] : Fin 1 → IVec S16 32) a x).toNat < S10112.size a) ∧
  (∀ a x, ((![v471] : Fin 1 → IVec S16 32) a x).toNat < S10112.size a)
instance k0_chk45.dec : ∀ (v471 : IVec S16 32), Decidable (k0_chk45 v471) := fun v471 => decidable_of_iff' _ (Iff.of_eq (k0_chk45.eq_1 v471))
theorem k0_idx199_inb : ∀ (v471 : IVec S16 32) (k0_hw45 : k0_chk45 v471), ∀ a x, ((![v471] : Fin 1 → IVec S16 32) a x).toNat < S10112.size a := fun v471 k0_hw45 => k0_hw45.1
theorem k0_idx201_inb : ∀ (v471 : IVec S16 32) (k0_hw45 : k0_chk45 v471), ∀ a x, ((![v471] : Fin 1 → IVec S16 32) a x).toNat < S10112.size a := fun v471 k0_hw45 => k0_hw45.2.1
theorem k0_idx203_inb : ∀ (v471 : IVec S16 32) (k0_hw45 : k0_chk45 v471), ∀ a x, ((![v471] : Fin 1 → IVec S16 32) a x).toNat < S10112.size a := fun v471 k0_hw45 => k0_hw45.2.2.1
theorem k0_idx205_inb : ∀ (v471 : IVec S16 32) (k0_hw45 : k0_chk45 v471), ∀ a x, ((![v471] : Fin 1 → IVec S16 32) a x).toNat < S10112.size a := fun v471 k0_hw45 => k0_hw45.2.2.2

def k0_chk46 (v472 : IVec S16 32) : Prop :=
  (∀ a x, ((![v472] : Fin 1 → IVec S16 32) a x).toNat < S10112.size a) ∧
  (∀ a x, ((![v472] : Fin 1 → IVec S16 32) a x).toNat < S10112.size a) ∧
  (∀ a x, ((![v472] : Fin 1 → IVec S16 32) a x).toNat < S10112.size a) ∧
  (∀ a x, ((![v472] : Fin 1 → IVec S16 32) a x).toNat < S10112.size a) ∧
  (∀ a x, ((![v472] : Fin 1 → IVec S16 32) a x).toNat < S10112.size a)
instance k0_chk46.dec : ∀ (v472 : IVec S16 32), Decidable (k0_chk46 v472) := fun v472 => decidable_of_iff' _ (Iff.of_eq (k0_chk46.eq_1 v472))
theorem k0_idx200_inb : ∀ (v472 : IVec S16 32) (k0_hw46 : k0_chk46 v472), ∀ a x, ((![v472] : Fin 1 → IVec S16 32) a x).toNat < S10112.size a := fun v472 k0_hw46 => k0_hw46.1
theorem k0_idx202_inb : ∀ (v472 : IVec S16 32) (k0_hw46 : k0_chk46 v472), ∀ a x, ((![v472] : Fin 1 → IVec S16 32) a x).toNat < S10112.size a := fun v472 k0_hw46 => k0_hw46.2.1
theorem k0_idx204_inb : ∀ (v472 : IVec S16 32) (k0_hw46 : k0_chk46 v472), ∀ a x, ((![v472] : Fin 1 → IVec S16 32) a x).toNat < S10112.size a := fun v472 k0_hw46 => k0_hw46.2.2.1
theorem k0_idx206_inb : ∀ (v472 : IVec S16 32) (k0_hw46 : k0_chk46 v472), ∀ a x, ((![v472] : Fin 1 → IVec S16 32) a x).toNat < S10112.size a := fun v472 k0_hw46 => k0_hw46.2.2.2.1
theorem k0_idx207_inb : ∀ (v472 : IVec S16 32) (k0_hw46 : k0_chk46 v472), ∀ a x, ((![v472] : Fin 1 → IVec S16 32) a x).toNat < S10112.size a := fun v472 k0_hw46 => k0_hw46.2.2.2.2

def k0_chk47 (v491 : IVec S16 32) : Prop :=
  (∀ a x, ((![v491] : Fin 1 → IVec S16 32) a x).toNat < S10112.size a) ∧
  (∀ a x, ((![v491] : Fin 1 → IVec S16 32) a x).toNat < S10112.size a) ∧
  (∀ a x, ((![v491] : Fin 1 → IVec S16 32) a x).toNat < S10112.size a) ∧
  (∀ a x, ((![v491] : Fin 1 → IVec S16 32) a x).toNat < S10112.size a)
instance k0_chk47.dec : ∀ (v491 : IVec S16 32), Decidable (k0_chk47 v491) := fun v491 => decidable_of_iff' _ (Iff.of_eq (k0_chk47.eq_1 v491))
theorem k0_idx208_inb : ∀ (v491 : IVec S16 32) (k0_hw47 : k0_chk47 v491), ∀ a x, ((![v491] : Fin 1 → IVec S16 32) a x).toNat < S10112.size a := fun v491 k0_hw47 => k0_hw47.1
theorem k0_idx210_inb : ∀ (v491 : IVec S16 32) (k0_hw47 : k0_chk47 v491), ∀ a x, ((![v491] : Fin 1 → IVec S16 32) a x).toNat < S10112.size a := fun v491 k0_hw47 => k0_hw47.2.1
theorem k0_idx212_inb : ∀ (v491 : IVec S16 32) (k0_hw47 : k0_chk47 v491), ∀ a x, ((![v491] : Fin 1 → IVec S16 32) a x).toNat < S10112.size a := fun v491 k0_hw47 => k0_hw47.2.2.1
theorem k0_idx214_inb : ∀ (v491 : IVec S16 32) (k0_hw47 : k0_chk47 v491), ∀ a x, ((![v491] : Fin 1 → IVec S16 32) a x).toNat < S10112.size a := fun v491 k0_hw47 => k0_hw47.2.2.2

def k0_chk48 (v492 : IVec S16 32) : Prop :=
  (∀ a x, ((![v492] : Fin 1 → IVec S16 32) a x).toNat < S10112.size a) ∧
  (∀ a x, ((![v492] : Fin 1 → IVec S16 32) a x).toNat < S10112.size a) ∧
  (∀ a x, ((![v492] : Fin 1 → IVec S16 32) a x).toNat < S10112.size a) ∧
  (∀ a x, ((![v492] : Fin 1 → IVec S16 32) a x).toNat < S10112.size a) ∧
  (∀ a x, ((![v492] : Fin 1 → IVec S16 32) a x).toNat < S10112.size a)
instance k0_chk48.dec : ∀ (v492 : IVec S16 32), Decidable (k0_chk48 v492) := fun v492 => decidable_of_iff' _ (Iff.of_eq (k0_chk48.eq_1 v492))
theorem k0_idx209_inb : ∀ (v492 : IVec S16 32) (k0_hw48 : k0_chk48 v492), ∀ a x, ((![v492] : Fin 1 → IVec S16 32) a x).toNat < S10112.size a := fun v492 k0_hw48 => k0_hw48.1
theorem k0_idx211_inb : ∀ (v492 : IVec S16 32) (k0_hw48 : k0_chk48 v492), ∀ a x, ((![v492] : Fin 1 → IVec S16 32) a x).toNat < S10112.size a := fun v492 k0_hw48 => k0_hw48.2.1
theorem k0_idx213_inb : ∀ (v492 : IVec S16 32) (k0_hw48 : k0_chk48 v492), ∀ a x, ((![v492] : Fin 1 → IVec S16 32) a x).toNat < S10112.size a := fun v492 k0_hw48 => k0_hw48.2.2.1
theorem k0_idx215_inb : ∀ (v492 : IVec S16 32) (k0_hw48 : k0_chk48 v492), ∀ a x, ((![v492] : Fin 1 → IVec S16 32) a x).toNat < S10112.size a := fun v492 k0_hw48 => k0_hw48.2.2.2.1
theorem k0_idx216_inb : ∀ (v492 : IVec S16 32) (k0_hw48 : k0_chk48 v492), ∀ a x, ((![v492] : Fin 1 → IVec S16 32) a x).toNat < S10112.size a := fun v492 k0_hw48 => k0_hw48.2.2.2.2

def k0_chk49 (v511 : IVec S16 32) : Prop :=
  (∀ a x, ((![v511] : Fin 1 → IVec S16 32) a x).toNat < S10112.size a) ∧
  (∀ a x, ((![v511] : Fin 1 → IVec S16 32) a x).toNat < S10112.size a) ∧
  (∀ a x, ((![v511] : Fin 1 → IVec S16 32) a x).toNat < S10112.size a) ∧
  (∀ a x, ((![v511] : Fin 1 → IVec S16 32) a x).toNat < S10112.size a)
instance k0_chk49.dec : ∀ (v511 : IVec S16 32), Decidable (k0_chk49 v511) := fun v511 => decidable_of_iff' _ (Iff.of_eq (k0_chk49.eq_1 v511))
theorem k0_idx217_inb : ∀ (v511 : IVec S16 32) (k0_hw49 : k0_chk49 v511), ∀ a x, ((![v511] : Fin 1 → IVec S16 32) a x).toNat < S10112.size a := fun v511 k0_hw49 => k0_hw49.1
theorem k0_idx219_inb : ∀ (v511 : IVec S16 32) (k0_hw49 : k0_chk49 v511), ∀ a x, ((![v511] : Fin 1 → IVec S16 32) a x).toNat < S10112.size a := fun v511 k0_hw49 => k0_hw49.2.1
theorem k0_idx221_inb : ∀ (v511 : IVec S16 32) (k0_hw49 : k0_chk49 v511), ∀ a x, ((![v511] : Fin 1 → IVec S16 32) a x).toNat < S10112.size a := fun v511 k0_hw49 => k0_hw49.2.2.1
theorem k0_idx223_inb : ∀ (v511 : IVec S16 32) (k0_hw49 : k0_chk49 v511), ∀ a x, ((![v511] : Fin 1 → IVec S16 32) a x).toNat < S10112.size a := fun v511 k0_hw49 => k0_hw49.2.2.2

def k0_chk50 (v512 : IVec S16 32) : Prop :=
  (∀ a x, ((![v512] : Fin 1 → IVec S16 32) a x).toNat < S10112.size a) ∧
  (∀ a x, ((![v512] : Fin 1 → IVec S16 32) a x).toNat < S10112.size a) ∧
  (∀ a x, ((![v512] : Fin 1 → IVec S16 32) a x).toNat < S10112.size a) ∧
  (∀ a x, ((![v512] : Fin 1 → IVec S16 32) a x).toNat < S10112.size a) ∧
  (∀ a x, ((![v512] : Fin 1 → IVec S16 32) a x).toNat < S10112.size a)
instance k0_chk50.dec : ∀ (v512 : IVec S16 32), Decidable (k0_chk50 v512) := fun v512 => decidable_of_iff' _ (Iff.of_eq (k0_chk50.eq_1 v512))
theorem k0_idx218_inb : ∀ (v512 : IVec S16 32) (k0_hw50 : k0_chk50 v512), ∀ a x, ((![v512] : Fin 1 → IVec S16 32) a x).toNat < S10112.size a := fun v512 k0_hw50 => k0_hw50.1
theorem k0_idx220_inb : ∀ (v512 : IVec S16 32) (k0_hw50 : k0_chk50 v512), ∀ a x, ((![v512] : Fin 1 → IVec S16 32) a x).toNat < S10112.size a := fun v512 k0_hw50 => k0_hw50.2.1
theorem k0_idx222_inb : ∀ (v512 : IVec S16 32) (k0_hw50 : k0_chk50 v512), ∀ a x, ((![v512] : Fin 1 → IVec S16 32) a x).toNat < S10112.size a := fun v512 k0_hw50 => k0_hw50.2.2.1
theorem k0_idx224_inb : ∀ (v512 : IVec S16 32) (k0_hw50 : k0_chk50 v512), ∀ a x, ((![v512] : Fin 1 → IVec S16 32) a x).toNat < S10112.size a := fun v512 k0_hw50 => k0_hw50.2.2.2.1
theorem k0_idx225_inb : ∀ (v512 : IVec S16 32) (k0_hw50 : k0_chk50 v512), ∀ a x, ((![v512] : Fin 1 → IVec S16 32) a x).toNat < S10112.size a := fun v512 k0_hw50 => k0_hw50.2.2.2.2

def k0_chk51 (v531 : IVec S16 32) : Prop :=
  (∀ a x, ((![v531] : Fin 1 → IVec S16 32) a x).toNat < S10112.size a) ∧
  (∀ a x, ((![v531] : Fin 1 → IVec S16 32) a x).toNat < S10112.size a) ∧
  (∀ a x, ((![v531] : Fin 1 → IVec S16 32) a x).toNat < S10112.size a) ∧
  (∀ a x, ((![v531] : Fin 1 → IVec S16 32) a x).toNat < S10112.size a)
instance k0_chk51.dec : ∀ (v531 : IVec S16 32), Decidable (k0_chk51 v531) := fun v531 => decidable_of_iff' _ (Iff.of_eq (k0_chk51.eq_1 v531))
theorem k0_idx226_inb : ∀ (v531 : IVec S16 32) (k0_hw51 : k0_chk51 v531), ∀ a x, ((![v531] : Fin 1 → IVec S16 32) a x).toNat < S10112.size a := fun v531 k0_hw51 => k0_hw51.1
theorem k0_idx228_inb : ∀ (v531 : IVec S16 32) (k0_hw51 : k0_chk51 v531), ∀ a x, ((![v531] : Fin 1 → IVec S16 32) a x).toNat < S10112.size a := fun v531 k0_hw51 => k0_hw51.2.1
theorem k0_idx230_inb : ∀ (v531 : IVec S16 32) (k0_hw51 : k0_chk51 v531), ∀ a x, ((![v531] : Fin 1 → IVec S16 32) a x).toNat < S10112.size a := fun v531 k0_hw51 => k0_hw51.2.2.1
theorem k0_idx232_inb : ∀ (v531 : IVec S16 32) (k0_hw51 : k0_chk51 v531), ∀ a x, ((![v531] : Fin 1 → IVec S16 32) a x).toNat < S10112.size a := fun v531 k0_hw51 => k0_hw51.2.2.2

def k0_chk52 (v532 : IVec S16 32) : Prop :=
  (∀ a x, ((![v532] : Fin 1 → IVec S16 32) a x).toNat < S10112.size a) ∧
  (∀ a x, ((![v532] : Fin 1 → IVec S16 32) a x).toNat < S10112.size a) ∧
  (∀ a x, ((![v532] : Fin 1 → IVec S16 32) a x).toNat < S10112.size a) ∧
  (∀ a x, ((![v532] : Fin 1 → IVec S16 32) a x).toNat < S10112.size a) ∧
  (∀ a x, ((![v532] : Fin 1 → IVec S16 32) a x).toNat < S10112.size a)
instance k0_chk52.dec : ∀ (v532 : IVec S16 32), Decidable (k0_chk52 v532) := fun v532 => decidable_of_iff' _ (Iff.of_eq (k0_chk52.eq_1 v532))
theorem k0_idx227_inb : ∀ (v532 : IVec S16 32) (k0_hw52 : k0_chk52 v532), ∀ a x, ((![v532] : Fin 1 → IVec S16 32) a x).toNat < S10112.size a := fun v532 k0_hw52 => k0_hw52.1
theorem k0_idx229_inb : ∀ (v532 : IVec S16 32) (k0_hw52 : k0_chk52 v532), ∀ a x, ((![v532] : Fin 1 → IVec S16 32) a x).toNat < S10112.size a := fun v532 k0_hw52 => k0_hw52.2.1
theorem k0_idx231_inb : ∀ (v532 : IVec S16 32) (k0_hw52 : k0_chk52 v532), ∀ a x, ((![v532] : Fin 1 → IVec S16 32) a x).toNat < S10112.size a := fun v532 k0_hw52 => k0_hw52.2.2.1
theorem k0_idx233_inb : ∀ (v532 : IVec S16 32) (k0_hw52 : k0_chk52 v532), ∀ a x, ((![v532] : Fin 1 → IVec S16 32) a x).toNat < S10112.size a := fun v532 k0_hw52 => k0_hw52.2.2.2.1
theorem k0_idx234_inb : ∀ (v532 : IVec S16 32) (k0_hw52 : k0_chk52 v532), ∀ a x, ((![v532] : Fin 1 → IVec S16 32) a x).toNat < S10112.size a := fun v532 k0_hw52 => k0_hw52.2.2.2.2

def k0_chk53 (v551 : IVec S16 32) : Prop :=
  (∀ a x, ((![v551] : Fin 1 → IVec S16 32) a x).toNat < S10112.size a) ∧
  (∀ a x, ((![v551] : Fin 1 → IVec S16 32) a x).toNat < S10112.size a) ∧
  (∀ a x, ((![v551] : Fin 1 → IVec S16 32) a x).toNat < S10112.size a) ∧
  (∀ a x, ((![v551] : Fin 1 → IVec S16 32) a x).toNat < S10112.size a)
instance k0_chk53.dec : ∀ (v551 : IVec S16 32), Decidable (k0_chk53 v551) := fun v551 => decidable_of_iff' _ (Iff.of_eq (k0_chk53.eq_1 v551))
theorem k0_idx235_inb : ∀ (v551 : IVec S16 32) (k0_hw53 : k0_chk53 v551), ∀ a x, ((![v551] : Fin 1 → IVec S16 32) a x).toNat < S10112.size a := fun v551 k0_hw53 => k0_hw53.1
theorem k0_idx237_inb : ∀ (v551 : IVec S16 32) (k0_hw53 : k0_chk53 v551), ∀ a x, ((![v551] : Fin 1 → IVec S16 32) a x).toNat < S10112.size a := fun v551 k0_hw53 => k0_hw53.2.1
theorem k0_idx239_inb : ∀ (v551 : IVec S16 32) (k0_hw53 : k0_chk53 v551), ∀ a x, ((![v551] : Fin 1 → IVec S16 32) a x).toNat < S10112.size a := fun v551 k0_hw53 => k0_hw53.2.2.1
theorem k0_idx241_inb : ∀ (v551 : IVec S16 32) (k0_hw53 : k0_chk53 v551), ∀ a x, ((![v551] : Fin 1 → IVec S16 32) a x).toNat < S10112.size a := fun v551 k0_hw53 => k0_hw53.2.2.2

def k0_chk54 (v552 : IVec S16 32) : Prop :=
  (∀ a x, ((![v552] : Fin 1 → IVec S16 32) a x).toNat < S10112.size a) ∧
  (∀ a x, ((![v552] : Fin 1 → IVec S16 32) a x).toNat < S10112.size a) ∧
  (∀ a x, ((![v552] : Fin 1 → IVec S16 32) a x).toNat < S10112.size a) ∧
  (∀ a x, ((![v552] : Fin 1 → IVec S16 32) a x).toNat < S10112.size a) ∧
  (∀ a x, ((![v552] : Fin 1 → IVec S16 32) a x).toNat < S10112.size a)
instance k0_chk54.dec : ∀ (v552 : IVec S16 32), Decidable (k0_chk54 v552) := fun v552 => decidable_of_iff' _ (Iff.of_eq (k0_chk54.eq_1 v552))
theorem k0_idx236_inb : ∀ (v552 : IVec S16 32) (k0_hw54 : k0_chk54 v552), ∀ a x, ((![v552] : Fin 1 → IVec S16 32) a x).toNat < S10112.size a := fun v552 k0_hw54 => k0_hw54.1
theorem k0_idx238_inb : ∀ (v552 : IVec S16 32) (k0_hw54 : k0_chk54 v552), ∀ a x, ((![v552] : Fin 1 → IVec S16 32) a x).toNat < S10112.size a := fun v552 k0_hw54 => k0_hw54.2.1
theorem k0_idx240_inb : ∀ (v552 : IVec S16 32) (k0_hw54 : k0_chk54 v552), ∀ a x, ((![v552] : Fin 1 → IVec S16 32) a x).toNat < S10112.size a := fun v552 k0_hw54 => k0_hw54.2.2.1
theorem k0_idx242_inb : ∀ (v552 : IVec S16 32) (k0_hw54 : k0_chk54 v552), ∀ a x, ((![v552] : Fin 1 → IVec S16 32) a x).toNat < S10112.size a := fun v552 k0_hw54 => k0_hw54.2.2.2.1
theorem k0_idx243_inb : ∀ (v552 : IVec S16 32) (k0_hw54 : k0_chk54 v552), ∀ a x, ((![v552] : Fin 1 → IVec S16 32) a x).toNat < S10112.size a := fun v552 k0_hw54 => k0_hw54.2.2.2.2

def k0_chk55 (v571 : IVec S16 32) : Prop :=
  (∀ a x, ((![v571] : Fin 1 → IVec S16 32) a x).toNat < S10112.size a) ∧
  (∀ a x, ((![v571] : Fin 1 → IVec S16 32) a x).toNat < S10112.size a) ∧
  (∀ a x, ((![v571] : Fin 1 → IVec S16 32) a x).toNat < S10112.size a) ∧
  (∀ a x, ((![v571] : Fin 1 → IVec S16 32) a x).toNat < S10112.size a)
instance k0_chk55.dec : ∀ (v571 : IVec S16 32), Decidable (k0_chk55 v571) := fun v571 => decidable_of_iff' _ (Iff.of_eq (k0_chk55.eq_1 v571))
theorem k0_idx244_inb : ∀ (v571 : IVec S16 32) (k0_hw55 : k0_chk55 v571), ∀ a x, ((![v571] : Fin 1 → IVec S16 32) a x).toNat < S10112.size a := fun v571 k0_hw55 => k0_hw55.1
theorem k0_idx246_inb : ∀ (v571 : IVec S16 32) (k0_hw55 : k0_chk55 v571), ∀ a x, ((![v571] : Fin 1 → IVec S16 32) a x).toNat < S10112.size a := fun v571 k0_hw55 => k0_hw55.2.1
theorem k0_idx248_inb : ∀ (v571 : IVec S16 32) (k0_hw55 : k0_chk55 v571), ∀ a x, ((![v571] : Fin 1 → IVec S16 32) a x).toNat < S10112.size a := fun v571 k0_hw55 => k0_hw55.2.2.1
theorem k0_idx250_inb : ∀ (v571 : IVec S16 32) (k0_hw55 : k0_chk55 v571), ∀ a x, ((![v571] : Fin 1 → IVec S16 32) a x).toNat < S10112.size a := fun v571 k0_hw55 => k0_hw55.2.2.2

def k0_chk56 (v572 : IVec S16 32) : Prop :=
  (∀ a x, ((![v572] : Fin 1 → IVec S16 32) a x).toNat < S10112.size a) ∧
  (∀ a x, ((![v572] : Fin 1 → IVec S16 32) a x).toNat < S10112.size a) ∧
  (∀ a x, ((![v572] : Fin 1 → IVec S16 32) a x).toNat < S10112.size a) ∧
  (∀ a x, ((![v572] : Fin 1 → IVec S16 32) a x).toNat < S10112.size a) ∧
  (∀ a x, ((![v572] : Fin 1 → IVec S16 32) a x).toNat < S10112.size a)
instance k0_chk56.dec : ∀ (v572 : IVec S16 32), Decidable (k0_chk56 v572) := fun v572 => decidable_of_iff' _ (Iff.of_eq (k0_chk56.eq_1 v572))
theorem k0_idx245_inb : ∀ (v572 : IVec S16 32) (k0_hw56 : k0_chk56 v572), ∀ a x, ((![v572] : Fin 1 → IVec S16 32) a x).toNat < S10112.size a := fun v572 k0_hw56 => k0_hw56.1
theorem k0_idx247_inb : ∀ (v572 : IVec S16 32) (k0_hw56 : k0_chk56 v572), ∀ a x, ((![v572] : Fin 1 → IVec S16 32) a x).toNat < S10112.size a := fun v572 k0_hw56 => k0_hw56.2.1
theorem k0_idx249_inb : ∀ (v572 : IVec S16 32) (k0_hw56 : k0_chk56 v572), ∀ a x, ((![v572] : Fin 1 → IVec S16 32) a x).toNat < S10112.size a := fun v572 k0_hw56 => k0_hw56.2.2.1
theorem k0_idx251_inb : ∀ (v572 : IVec S16 32) (k0_hw56 : k0_chk56 v572), ∀ a x, ((![v572] : Fin 1 → IVec S16 32) a x).toNat < S10112.size a := fun v572 k0_hw56 => k0_hw56.2.2.2.1
theorem k0_idx252_inb : ∀ (v572 : IVec S16 32) (k0_hw56 : k0_chk56 v572), ∀ a x, ((![v572] : Fin 1 → IVec S16 32) a x).toNat < S10112.size a := fun v572 k0_hw56 => k0_hw56.2.2.2.2

def k0_chk57 (v591 : IVec S16 32) : Prop :=
  (∀ a x, ((![v591] : Fin 1 → IVec S16 32) a x).toNat < S10112.size a) ∧
  (∀ a x, ((![v591] : Fin 1 → IVec S16 32) a x).toNat < S10112.size a) ∧
  (∀ a x, ((![v591] : Fin 1 → IVec S16 32) a x).toNat < S10112.size a) ∧
  (∀ a x, ((![v591] : Fin 1 → IVec S16 32) a x).toNat < S10112.size a)
instance k0_chk57.dec : ∀ (v591 : IVec S16 32), Decidable (k0_chk57 v591) := fun v591 => decidable_of_iff' _ (Iff.of_eq (k0_chk57.eq_1 v591))
theorem k0_idx253_inb : ∀ (v591 : IVec S16 32) (k0_hw57 : k0_chk57 v591), ∀ a x, ((![v591] : Fin 1 → IVec S16 32) a x).toNat < S10112.size a := fun v591 k0_hw57 => k0_hw57.1
theorem k0_idx255_inb : ∀ (v591 : IVec S16 32) (k0_hw57 : k0_chk57 v591), ∀ a x, ((![v591] : Fin 1 → IVec S16 32) a x).toNat < S10112.size a := fun v591 k0_hw57 => k0_hw57.2.1
theorem k0_idx257_inb : ∀ (v591 : IVec S16 32) (k0_hw57 : k0_chk57 v591), ∀ a x, ((![v591] : Fin 1 → IVec S16 32) a x).toNat < S10112.size a := fun v591 k0_hw57 => k0_hw57.2.2.1
theorem k0_idx259_inb : ∀ (v591 : IVec S16 32) (k0_hw57 : k0_chk57 v591), ∀ a x, ((![v591] : Fin 1 → IVec S16 32) a x).toNat < S10112.size a := fun v591 k0_hw57 => k0_hw57.2.2.2

def k0_chk58 (v592 : IVec S16 32) : Prop :=
  (∀ a x, ((![v592] : Fin 1 → IVec S16 32) a x).toNat < S10112.size a) ∧
  (∀ a x, ((![v592] : Fin 1 → IVec S16 32) a x).toNat < S10112.size a) ∧
  (∀ a x, ((![v592] : Fin 1 → IVec S16 32) a x).toNat < S10112.size a) ∧
  (∀ a x, ((![v592] : Fin 1 → IVec S16 32) a x).toNat < S10112.size a) ∧
  (∀ a x, ((![v592] : Fin 1 → IVec S16 32) a x).toNat < S10112.size a)
instance k0_chk58.dec : ∀ (v592 : IVec S16 32), Decidable (k0_chk58 v592) := fun v592 => decidable_of_iff' _ (Iff.of_eq (k0_chk58.eq_1 v592))
theorem k0_idx254_inb : ∀ (v592 : IVec S16 32) (k0_hw58 : k0_chk58 v592), ∀ a x, ((![v592] : Fin 1 → IVec S16 32) a x).toNat < S10112.size a := fun v592 k0_hw58 => k0_hw58.1
theorem k0_idx256_inb : ∀ (v592 : IVec S16 32) (k0_hw58 : k0_chk58 v592), ∀ a x, ((![v592] : Fin 1 → IVec S16 32) a x).toNat < S10112.size a := fun v592 k0_hw58 => k0_hw58.2.1
theorem k0_idx258_inb : ∀ (v592 : IVec S16 32) (k0_hw58 : k0_chk58 v592), ∀ a x, ((![v592] : Fin 1 → IVec S16 32) a x).toNat < S10112.size a := fun v592 k0_hw58 => k0_hw58.2.2.1
theorem k0_idx260_inb : ∀ (v592 : IVec S16 32) (k0_hw58 : k0_chk58 v592), ∀ a x, ((![v592] : Fin 1 → IVec S16 32) a x).toNat < S10112.size a := fun v592 k0_hw58 => k0_hw58.2.2.2.1
theorem k0_idx261_inb : ∀ (v592 : IVec S16 32) (k0_hw58 : k0_chk58 v592), ∀ a x, ((![v592] : Fin 1 → IVec S16 32) a x).toNat < S10112.size a := fun v592 k0_hw58 => k0_hw58.2.2.2.2

def k0_chk59 (v611 : IVec S16 32) : Prop :=
  (∀ a x, ((![v611] : Fin 1 → IVec S16 32) a x).toNat < S10112.size a) ∧
  (∀ a x, ((![v611] : Fin 1 → IVec S16 32) a x).toNat < S10112.size a) ∧
  (∀ a x, ((![v611] : Fin 1 → IVec S16 32) a x).toNat < S10112.size a) ∧
  (∀ a x, ((![v611] : Fin 1 → IVec S16 32) a x).toNat < S10112.size a)
instance k0_chk59.dec : ∀ (v611 : IVec S16 32), Decidable (k0_chk59 v611) := fun v611 => decidable_of_iff' _ (Iff.of_eq (k0_chk59.eq_1 v611))
theorem k0_idx262_inb : ∀ (v611 : IVec S16 32) (k0_hw59 : k0_chk59 v611), ∀ a x, ((![v611] : Fin 1 → IVec S16 32) a x).toNat < S10112.size a := fun v611 k0_hw59 => k0_hw59.1
theorem k0_idx264_inb : ∀ (v611 : IVec S16 32) (k0_hw59 : k0_chk59 v611), ∀ a x, ((![v611] : Fin 1 → IVec S16 32) a x).toNat < S10112.size a := fun v611 k0_hw59 => k0_hw59.2.1
theorem k0_idx266_inb : ∀ (v611 : IVec S16 32) (k0_hw59 : k0_chk59 v611), ∀ a x, ((![v611] : Fin 1 → IVec S16 32) a x).toNat < S10112.size a := fun v611 k0_hw59 => k0_hw59.2.2.1
theorem k0_idx268_inb : ∀ (v611 : IVec S16 32) (k0_hw59 : k0_chk59 v611), ∀ a x, ((![v611] : Fin 1 → IVec S16 32) a x).toNat < S10112.size a := fun v611 k0_hw59 => k0_hw59.2.2.2

def k0_chk60 (v612 : IVec S16 32) : Prop :=
  (∀ a x, ((![v612] : Fin 1 → IVec S16 32) a x).toNat < S10112.size a) ∧
  (∀ a x, ((![v612] : Fin 1 → IVec S16 32) a x).toNat < S10112.size a) ∧
  (∀ a x, ((![v612] : Fin 1 → IVec S16 32) a x).toNat < S10112.size a) ∧
  (∀ a x, ((![v612] : Fin 1 → IVec S16 32) a x).toNat < S10112.size a) ∧
  (∀ a x, ((![v612] : Fin 1 → IVec S16 32) a x).toNat < S10112.size a)
instance k0_chk60.dec : ∀ (v612 : IVec S16 32), Decidable (k0_chk60 v612) := fun v612 => decidable_of_iff' _ (Iff.of_eq (k0_chk60.eq_1 v612))
theorem k0_idx263_inb : ∀ (v612 : IVec S16 32) (k0_hw60 : k0_chk60 v612), ∀ a x, ((![v612] : Fin 1 → IVec S16 32) a x).toNat < S10112.size a := fun v612 k0_hw60 => k0_hw60.1
theorem k0_idx265_inb : ∀ (v612 : IVec S16 32) (k0_hw60 : k0_chk60 v612), ∀ a x, ((![v612] : Fin 1 → IVec S16 32) a x).toNat < S10112.size a := fun v612 k0_hw60 => k0_hw60.2.1
theorem k0_idx267_inb : ∀ (v612 : IVec S16 32) (k0_hw60 : k0_chk60 v612), ∀ a x, ((![v612] : Fin 1 → IVec S16 32) a x).toNat < S10112.size a := fun v612 k0_hw60 => k0_hw60.2.2.1
theorem k0_idx269_inb : ∀ (v612 : IVec S16 32) (k0_hw60 : k0_chk60 v612), ∀ a x, ((![v612] : Fin 1 → IVec S16 32) a x).toNat < S10112.size a := fun v612 k0_hw60 => k0_hw60.2.2.2.1
theorem k0_idx270_inb : ∀ (v612 : IVec S16 32) (k0_hw60 : k0_chk60 v612), ∀ a x, ((![v612] : Fin 1 → IVec S16 32) a x).toNat < S10112.size a := fun v612 k0_hw60 => k0_hw60.2.2.2.2

def k0_chk61 (v631 : IVec S16 32) : Prop :=
  (∀ a x, ((![v631] : Fin 1 → IVec S16 32) a x).toNat < S10112.size a) ∧
  (∀ a x, ((![v631] : Fin 1 → IVec S16 32) a x).toNat < S10112.size a) ∧
  (∀ a x, ((![v631] : Fin 1 → IVec S16 32) a x).toNat < S10112.size a) ∧
  (∀ a x, ((![v631] : Fin 1 → IVec S16 32) a x).toNat < S10112.size a)
instance k0_chk61.dec : ∀ (v631 : IVec S16 32), Decidable (k0_chk61 v631) := fun v631 => decidable_of_iff' _ (Iff.of_eq (k0_chk61.eq_1 v631))
theorem k0_idx271_inb : ∀ (v631 : IVec S16 32) (k0_hw61 : k0_chk61 v631), ∀ a x, ((![v631] : Fin 1 → IVec S16 32) a x).toNat < S10112.size a := fun v631 k0_hw61 => k0_hw61.1
theorem k0_idx273_inb : ∀ (v631 : IVec S16 32) (k0_hw61 : k0_chk61 v631), ∀ a x, ((![v631] : Fin 1 → IVec S16 32) a x).toNat < S10112.size a := fun v631 k0_hw61 => k0_hw61.2.1
theorem k0_idx275_inb : ∀ (v631 : IVec S16 32) (k0_hw61 : k0_chk61 v631), ∀ a x, ((![v631] : Fin 1 → IVec S16 32) a x).toNat < S10112.size a := fun v631 k0_hw61 => k0_hw61.2.2.1
theorem k0_idx277_inb : ∀ (v631 : IVec S16 32) (k0_hw61 : k0_chk61 v631), ∀ a x, ((![v631] : Fin 1 → IVec S16 32) a x).toNat < S10112.size a := fun v631 k0_hw61 => k0_hw61.2.2.2

def k0_chk62 (v632 : IVec S16 32) : Prop :=
  (∀ a x, ((![v632] : Fin 1 → IVec S16 32) a x).toNat < S10112.size a) ∧
  (∀ a x, ((![v632] : Fin 1 → IVec S16 32) a x).toNat < S10112.size a) ∧
  (∀ a x, ((![v632] : Fin 1 → IVec S16 32) a x).toNat < S10112.size a) ∧
  (∀ a x, ((![v632] : Fin 1 → IVec S16 32) a x).toNat < S10112.size a) ∧
  (∀ a x, ((![v632] : Fin 1 → IVec S16 32) a x).toNat < S10112.size a)
instance k0_chk62.dec : ∀ (v632 : IVec S16 32), Decidable (k0_chk62 v632) := fun v632 => decidable_of_iff' _ (Iff.of_eq (k0_chk62.eq_1 v632))
theorem k0_idx272_inb : ∀ (v632 : IVec S16 32) (k0_hw62 : k0_chk62 v632), ∀ a x, ((![v632] : Fin 1 → IVec S16 32) a x).toNat < S10112.size a := fun v632 k0_hw62 => k0_hw62.1
theorem k0_idx274_inb : ∀ (v632 : IVec S16 32) (k0_hw62 : k0_chk62 v632), ∀ a x, ((![v632] : Fin 1 → IVec S16 32) a x).toNat < S10112.size a := fun v632 k0_hw62 => k0_hw62.2.1
theorem k0_idx276_inb : ∀ (v632 : IVec S16 32) (k0_hw62 : k0_chk62 v632), ∀ a x, ((![v632] : Fin 1 → IVec S16 32) a x).toNat < S10112.size a := fun v632 k0_hw62 => k0_hw62.2.2.1
theorem k0_idx278_inb : ∀ (v632 : IVec S16 32) (k0_hw62 : k0_chk62 v632), ∀ a x, ((![v632] : Fin 1 → IVec S16 32) a x).toNat < S10112.size a := fun v632 k0_hw62 => k0_hw62.2.2.2.1
theorem k0_idx279_inb : ∀ (v632 : IVec S16 32) (k0_hw62 : k0_chk62 v632), ∀ a x, ((![v632] : Fin 1 → IVec S16 32) a x).toNat < S10112.size a := fun v632 k0_hw62 => k0_hw62.2.2.2.2

def k0_chk63 (v651 : IVec S16 32) : Prop :=
  (∀ a x, ((![v651] : Fin 1 → IVec S16 32) a x).toNat < S10112.size a) ∧
  (∀ a x, ((![v651] : Fin 1 → IVec S16 32) a x).toNat < S10112.size a) ∧
  (∀ a x, ((![v651] : Fin 1 → IVec S16 32) a x).toNat < S10112.size a) ∧
  (∀ a x, ((![v651] : Fin 1 → IVec S16 32) a x).toNat < S10112.size a)
instance k0_chk63.dec : ∀ (v651 : IVec S16 32), Decidable (k0_chk63 v651) := fun v651 => decidable_of_iff' _ (Iff.of_eq (k0_chk63.eq_1 v651))
theorem k0_idx280_inb : ∀ (v651 : IVec S16 32) (k0_hw63 : k0_chk63 v651), ∀ a x, ((![v651] : Fin 1 → IVec S16 32) a x).toNat < S10112.size a := fun v651 k0_hw63 => k0_hw63.1
theorem k0_idx282_inb : ∀ (v651 : IVec S16 32) (k0_hw63 : k0_chk63 v651), ∀ a x, ((![v651] : Fin 1 → IVec S16 32) a x).toNat < S10112.size a := fun v651 k0_hw63 => k0_hw63.2.1
theorem k0_idx284_inb : ∀ (v651 : IVec S16 32) (k0_hw63 : k0_chk63 v651), ∀ a x, ((![v651] : Fin 1 → IVec S16 32) a x).toNat < S10112.size a := fun v651 k0_hw63 => k0_hw63.2.2.1
theorem k0_idx286_inb : ∀ (v651 : IVec S16 32) (k0_hw63 : k0_chk63 v651), ∀ a x, ((![v651] : Fin 1 → IVec S16 32) a x).toNat < S10112.size a := fun v651 k0_hw63 => k0_hw63.2.2.2

def k0_chk64 (v652 : IVec S16 32) : Prop :=
  (∀ a x, ((![v652] : Fin 1 → IVec S16 32) a x).toNat < S10112.size a) ∧
  (∀ a x, ((![v652] : Fin 1 → IVec S16 32) a x).toNat < S10112.size a) ∧
  (∀ a x, ((![v652] : Fin 1 → IVec S16 32) a x).toNat < S10112.size a) ∧
  (∀ a x, ((![v652] : Fin 1 → IVec S16 32) a x).toNat < S10112.size a) ∧
  (∀ a x, ((![v652] : Fin 1 → IVec S16 32) a x).toNat < S10112.size a)
instance k0_chk64.dec : ∀ (v652 : IVec S16 32), Decidable (k0_chk64 v652) := fun v652 => decidable_of_iff' _ (Iff.of_eq (k0_chk64.eq_1 v652))
theorem k0_idx281_inb : ∀ (v652 : IVec S16 32) (k0_hw64 : k0_chk64 v652), ∀ a x, ((![v652] : Fin 1 → IVec S16 32) a x).toNat < S10112.size a := fun v652 k0_hw64 => k0_hw64.1
theorem k0_idx283_inb : ∀ (v652 : IVec S16 32) (k0_hw64 : k0_chk64 v652), ∀ a x, ((![v652] : Fin 1 → IVec S16 32) a x).toNat < S10112.size a := fun v652 k0_hw64 => k0_hw64.2.1
theorem k0_idx285_inb : ∀ (v652 : IVec S16 32) (k0_hw64 : k0_chk64 v652), ∀ a x, ((![v652] : Fin 1 → IVec S16 32) a x).toNat < S10112.size a := fun v652 k0_hw64 => k0_hw64.2.2.1
theorem k0_idx287_inb : ∀ (v652 : IVec S16 32) (k0_hw64 : k0_chk64 v652), ∀ a x, ((![v652] : Fin 1 → IVec S16 32) a x).toNat < S10112.size a := fun v652 k0_hw64 => k0_hw64.2.2.2.1
theorem k0_idx288_inb : ∀ (v652 : IVec S16 32) (k0_hw64 : k0_chk64 v652), ∀ a x, ((![v652] : Fin 1 → IVec S16 32) a x).toNat < S10112.size a := fun v652 k0_hw64 => k0_hw64.2.2.2.2
def k0_cond2 (i : grid0.Coords) : BitVec 1 :=
  let arg0 : BitVec 32 := BitVec.ofNat 32 (i 0).val
  let c0_i32_35 : BitVec 32 := 0#32
  let v27 : BitVec 1 := Scalar.cmpi .eq arg0 c0_i32_35
  let v28 : BitVec 32 := Scalar.extui v27
  let c0_i32_36 : BitVec 32 := 0#32
  let v29 : BitVec 1 := Scalar.cmpi .ne v28 c0_i32_36
  v29

def k0_off8 (i : grid0.Coords) : Fin 1 → Nat :=
  let arg1 : BitVec 32 := BitVec.ofNat 32 (i 1).val
  let c10112_i32_37 : BitVec 32 := 10112#32
  let v30 : BitVec 32 := Scalar.muli arg1 c10112_i32_37
  ![v30.toNat]
abbrev grid1 : Pipeline.Grid := .none

abbrev stage1_0 : Fin 1 → Memref sig .tc .vmem S128x10112 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x10112 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S16x10112 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S128x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S128x10112 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev grid2 : Pipeline.Grid := ⟨2, ![2, 16], ![false, false]⟩

def k2_off1 (i : grid2.Coords) (c0_i32 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c40448_i32 : BitVec 32 := 40448#32
  let v2 : BitVec 32 := Scalar.muli v1 c40448_i32
  let v3 : BitVec 32 := Scalar.addi v2 c0_i32
  ![v3.toNat]
@[reducible] def k2_t1_loop : Scf.Loop 32 :=
  let c0_i32_1 : BitVec 32 := 0#32
  let c632_i32 : BitVec 32 := 632#32
  let v4 : BitVec 32 := Scalar.addi c0_i32_1 c632_i32
  let c1_i32 : BitVec 32 := 1#32
  ⟨c0_i32_1, v4, c1_i32⟩
def k2_off2 (k2_t1 : Fin k2_t1_loop.trips) : Fin 1 → Nat :=
  let c0_i32_1 : BitVec 32 := 0#32
  let c1_i32 : BitVec 32 := 1#32
  let arg16 : BitVec 32 := Scf.iv c0_i32_1 c1_i32 k2_t1
  let c16_i32_34 : BitVec 32 := 16#32
  let v25 : BitVec 32 := Scalar.muli arg16 c16_i32_34
  let v26 : Index := Scalar.indexCast v25
  ![v26.toNat]
@[reducible] def k2_t2_loop : Scf.Loop 32 :=
  let c0_i32_5 : BitVec 32 := 0#32
  let c632_i32_6 : BitVec 32 := 632#32
  let v7 : BitVec 32 := Scalar.addi c0_i32_5 c632_i32_6
  let c1_i32_7 : BitVec 32 := 1#32
  ⟨c0_i32_5, v7, c1_i32_7⟩
def k2_off3 (k2_t2 : Fin k2_t2_loop.trips) : Fin 1 → Nat :=
  let c0_i32_5 : BitVec 32 := 0#32
  let c1_i32_7 : BitVec 32 := 1#32
  let arg16 : BitVec 32 := Scf.iv c0_i32_5 c1_i32_7 k2_t2
  let c16_i32_34 : BitVec 32 := 16#32
  let v25 : BitVec 32 := Scalar.muli arg16 c16_i32_34
  let v26 : Index := Scalar.indexCast v25
  ![v26.toNat]
@[reducible] def k2_t3_loop : Scf.Loop 32 :=
  let c0_i32_11 : BitVec 32 := 0#32
  let c632_i32_12 : BitVec 32 := 632#32
  let v10 : BitVec 32 := Scalar.addi c0_i32_11 c632_i32_12
  let c1_i32_13 : BitVec 32 := 1#32
  ⟨c0_i32_11, v10, c1_i32_13⟩
def k2_off4 (k2_t3 : Fin k2_t3_loop.trips) : Fin 1 → Nat :=
  let c0_i32_11 : BitVec 32 := 0#32
  let c1_i32_13 : BitVec 32 := 1#32
  let arg16 : BitVec 32 := Scf.iv c0_i32_11 c1_i32_13 k2_t3
  let c16_i32_34 : BitVec 32 := 16#32
  let v25 : BitVec 32 := Scalar.muli arg16 c16_i32_34
  let v26 : Index := Scalar.indexCast v25
  ![v26.toNat]
@[reducible] def k2_t4_loop : Scf.Loop 32 :=
  let c0_i32_17 : BitVec 32 := 0#32
  let c632_i32_18 : BitVec 32 := 632#32
  let v13 : BitVec 32 := Scalar.addi c0_i32_17 c632_i32_18
  let c1_i32_19 : BitVec 32 := 1#32
  ⟨c0_i32_17, v13, c1_i32_19⟩
def k2_off5 (k2_t4 : Fin k2_t4_loop.trips) : Fin 1 → Nat :=
  let c0_i32_17 : BitVec 32 := 0#32
  let c1_i32_19 : BitVec 32 := 1#32
  let arg16 : BitVec 32 := Scf.iv c0_i32_17 c1_i32_19 k2_t4
  let c16_i32_34 : BitVec 32 := 16#32
  let v25 : BitVec 32 := Scalar.muli arg16 c16_i32_34
  let v26 : Index := Scalar.indexCast v25
  ![v26.toNat]
@[reducible] def k2_t5_loop : Scf.Loop 32 :=
  let c0_i32_22 : BitVec 32 := 0#32
  let c640_i32 : BitVec 32 := 640#32
  let v15 : BitVec 32 := Scalar.addi c0_i32_22 c640_i32
  let c1_i32_23 : BitVec 32 := 1#32
  ⟨c0_i32_22, v15, c1_i32_23⟩
def k2_off6 (k2_t5 : Fin k2_t5_loop.trips) : Fin 1 → Nat :=
  let c0_i32_22 : BitVec 32 := 0#32
  let c1_i32_23 : BitVec 32 := 1#32
  let arg16 : BitVec 32 := Scf.iv c0_i32_22 c1_i32_23 k2_t5
  let c512_i32 : BitVec 32 := 512#32
  let v24 : BitVec 32 := Scalar.muli arg16 c512_i32
  ![v24.toNat]

def k2_chk1 (v25 : IVec S16 32) : Prop :=
  (∀ a x, ((![v25] : Fin 1 → IVec S16 32) a x).toNat < S10112.size a) ∧
  (∀ a x, ((![v25] : Fin 1 → IVec S16 32) a x).toNat < S10112.size a) ∧
  (∀ a x, ((![v25] : Fin 1 → IVec S16 32) a x).toNat < S10112.size a) ∧
  (∀ a x, ((![v25] : Fin 1 → IVec S16 32) a x).toNat < S10112.size a)
instance k2_chk1.dec : ∀ (v25 : IVec S16 32), Decidable (k2_chk1 v25) := fun v25 => decidable_of_iff' _ (Iff.of_eq (k2_chk1.eq_1 v25))
theorem k2_idx1_inb : ∀ (v25 : IVec S16 32) (k2_hw1 : k2_chk1 v25), ∀ a x, ((![v25] : Fin 1 → IVec S16 32) a x).toNat < S10112.size a := fun v25 k2_hw1 => k2_hw1.1
theorem k2_idx3_inb : ∀ (v25 : IVec S16 32) (k2_hw1 : k2_chk1 v25), ∀ a x, ((![v25] : Fin 1 → IVec S16 32) a x).toNat < S10112.size a := fun v25 k2_hw1 => k2_hw1.2.1
theorem k2_idx5_inb : ∀ (v25 : IVec S16 32) (k2_hw1 : k2_chk1 v25), ∀ a x, ((![v25] : Fin 1 → IVec S16 32) a x).toNat < S10112.size a := fun v25 k2_hw1 => k2_hw1.2.2.1
theorem k2_idx7_inb : ∀ (v25 : IVec S16 32) (k2_hw1 : k2_chk1 v25), ∀ a x, ((![v25] : Fin 1 → IVec S16 32) a x).toNat < S10112.size a := fun v25 k2_hw1 => k2_hw1.2.2.2

def k2_chk2 (v26 : IVec S16 32) : Prop :=
  (∀ a x, ((![v26] : Fin 1 → IVec S16 32) a x).toNat < S10112.size a) ∧
  (∀ a x, ((![v26] : Fin 1 → IVec S16 32) a x).toNat < S10112.size a) ∧
  (∀ a x, ((![v26] : Fin 1 → IVec S16 32) a x).toNat < S10112.size a) ∧
  (∀ a x, ((![v26] : Fin 1 → IVec S16 32) a x).toNat < S10112.size a)
instance k2_chk2.dec : ∀ (v26 : IVec S16 32), Decidable (k2_chk2 v26) := fun v26 => decidable_of_iff' _ (Iff.of_eq (k2_chk2.eq_1 v26))
theorem k2_idx2_inb : ∀ (v26 : IVec S16 32) (k2_hw2 : k2_chk2 v26), ∀ a x, ((![v26] : Fin 1 → IVec S16 32) a x).toNat < S10112.size a := fun v26 k2_hw2 => k2_hw2.1
theorem k2_idx4_inb : ∀ (v26 : IVec S16 32) (k2_hw2 : k2_chk2 v26), ∀ a x, ((![v26] : Fin 1 → IVec S16 32) a x).toNat < S10112.size a := fun v26 k2_hw2 => k2_hw2.2.1
theorem k2_idx6_inb : ∀ (v26 : IVec S16 32) (k2_hw2 : k2_chk2 v26), ∀ a x, ((![v26] : Fin 1 → IVec S16 32) a x).toNat < S10112.size a := fun v26 k2_hw2 => k2_hw2.2.2.1
theorem k2_idx8_inb : ∀ (v26 : IVec S16 32) (k2_hw2 : k2_chk2 v26), ∀ a x, ((![v26] : Fin 1 → IVec S16 32) a x).toNat < S10112.size a := fun v26 k2_hw2 => k2_hw2.2.2.2

def k2_chk3 (v31 : IVec S16 32) : Prop :=
  (∀ a x, ((![v31] : Fin 1 → IVec S16 32) a x).toNat < S10112.size a) ∧
  (∀ a x, ((![v31] : Fin 1 → IVec S16 32) a x).toNat < S10112.size a) ∧
  (∀ a x, ((![v31] : Fin 1 → IVec S16 32) a x).toNat < S10112.size a) ∧
  (∀ a x, ((![v31] : Fin 1 → IVec S16 32) a x).toNat < S10112.size a)
instance k2_chk3.dec : ∀ (v31 : IVec S16 32), Decidable (k2_chk3 v31) := fun v31 => decidable_of_iff' _ (Iff.of_eq (k2_chk3.eq_1 v31))
theorem k2_idx9_inb : ∀ (v31 : IVec S16 32) (k2_hw3 : k2_chk3 v31), ∀ a x, ((![v31] : Fin 1 → IVec S16 32) a x).toNat < S10112.size a := fun v31 k2_hw3 => k2_hw3.1
theorem k2_idx11_inb : ∀ (v31 : IVec S16 32) (k2_hw3 : k2_chk3 v31), ∀ a x, ((![v31] : Fin 1 → IVec S16 32) a x).toNat < S10112.size a := fun v31 k2_hw3 => k2_hw3.2.1
theorem k2_idx13_inb : ∀ (v31 : IVec S16 32) (k2_hw3 : k2_chk3 v31), ∀ a x, ((![v31] : Fin 1 → IVec S16 32) a x).toNat < S10112.size a := fun v31 k2_hw3 => k2_hw3.2.2.1
theorem k2_idx15_inb : ∀ (v31 : IVec S16 32) (k2_hw3 : k2_chk3 v31), ∀ a x, ((![v31] : Fin 1 → IVec S16 32) a x).toNat < S10112.size a := fun v31 k2_hw3 => k2_hw3.2.2.2

def k2_chk4 (v32 : IVec S16 32) : Prop :=
  (∀ a x, ((![v32] : Fin 1 → IVec S16 32) a x).toNat < S10112.size a) ∧
  (∀ a x, ((![v32] : Fin 1 → IVec S16 32) a x).toNat < S10112.size a) ∧
  (∀ a x, ((![v32] : Fin 1 → IVec S16 32) a x).toNat < S10112.size a) ∧
  (∀ a x, ((![v32] : Fin 1 → IVec S16 32) a x).toNat < S10112.size a)
instance k2_chk4.dec : ∀ (v32 : IVec S16 32), Decidable (k2_chk4 v32) := fun v32 => decidable_of_iff' _ (Iff.of_eq (k2_chk4.eq_1 v32))
theorem k2_idx10_inb : ∀ (v32 : IVec S16 32) (k2_hw4 : k2_chk4 v32), ∀ a x, ((![v32] : Fin 1 → IVec S16 32) a x).toNat < S10112.size a := fun v32 k2_hw4 => k2_hw4.1
theorem k2_idx12_inb : ∀ (v32 : IVec S16 32) (k2_hw4 : k2_chk4 v32), ∀ a x, ((![v32] : Fin 1 → IVec S16 32) a x).toNat < S10112.size a := fun v32 k2_hw4 => k2_hw4.2.1
theorem k2_idx14_inb : ∀ (v32 : IVec S16 32) (k2_hw4 : k2_chk4 v32), ∀ a x, ((![v32] : Fin 1 → IVec S16 32) a x).toNat < S10112.size a := fun v32 k2_hw4 => k2_hw4.2.2.1
theorem k2_idx16_inb : ∀ (v32 : IVec S16 32) (k2_hw4 : k2_chk4 v32), ∀ a x, ((![v32] : Fin 1 → IVec S16 32) a x).toNat < S10112.size a := fun v32 k2_hw4 => k2_hw4.2.2.2

def k2_chk5 (v37 : IVec S16 32) : Prop :=
  (∀ a x, ((![v37] : Fin 1 → IVec S16 32) a x).toNat < S10112.size a) ∧
  (∀ a x, ((![v37] : Fin 1 → IVec S16 32) a x).toNat < S10112.size a) ∧
  (∀ a x, ((![v37] : Fin 1 → IVec S16 32) a x).toNat < S10112.size a) ∧
  (∀ a x, ((![v37] : Fin 1 → IVec S16 32) a x).toNat < S10112.size a)
instance k2_chk5.dec : ∀ (v37 : IVec S16 32), Decidable (k2_chk5 v37) := fun v37 => decidable_of_iff' _ (Iff.of_eq (k2_chk5.eq_1 v37))
theorem k2_idx17_inb : ∀ (v37 : IVec S16 32) (k2_hw5 : k2_chk5 v37), ∀ a x, ((![v37] : Fin 1 → IVec S16 32) a x).toNat < S10112.size a := fun v37 k2_hw5 => k2_hw5.1
theorem k2_idx19_inb : ∀ (v37 : IVec S16 32) (k2_hw5 : k2_chk5 v37), ∀ a x, ((![v37] : Fin 1 → IVec S16 32) a x).toNat < S10112.size a := fun v37 k2_hw5 => k2_hw5.2.1
theorem k2_idx21_inb : ∀ (v37 : IVec S16 32) (k2_hw5 : k2_chk5 v37), ∀ a x, ((![v37] : Fin 1 → IVec S16 32) a x).toNat < S10112.size a := fun v37 k2_hw5 => k2_hw5.2.2.1
theorem k2_idx23_inb : ∀ (v37 : IVec S16 32) (k2_hw5 : k2_chk5 v37), ∀ a x, ((![v37] : Fin 1 → IVec S16 32) a x).toNat < S10112.size a := fun v37 k2_hw5 => k2_hw5.2.2.2

def k2_chk6 (v38 : IVec S16 32) : Prop :=
  (∀ a x, ((![v38] : Fin 1 → IVec S16 32) a x).toNat < S10112.size a) ∧
  (∀ a x, ((![v38] : Fin 1 → IVec S16 32) a x).toNat < S10112.size a) ∧
  (∀ a x, ((![v38] : Fin 1 → IVec S16 32) a x).toNat < S10112.size a) ∧
  (∀ a x, ((![v38] : Fin 1 → IVec S16 32) a x).toNat < S10112.size a)
instance k2_chk6.dec : ∀ (v38 : IVec S16 32), Decidable (k2_chk6 v38) := fun v38 => decidable_of_iff' _ (Iff.of_eq (k2_chk6.eq_1 v38))
theorem k2_idx18_inb : ∀ (v38 : IVec S16 32) (k2_hw6 : k2_chk6 v38), ∀ a x, ((![v38] : Fin 1 → IVec S16 32) a x).toNat < S10112.size a := fun v38 k2_hw6 => k2_hw6.1
theorem k2_idx20_inb : ∀ (v38 : IVec S16 32) (k2_hw6 : k2_chk6 v38), ∀ a x, ((![v38] : Fin 1 → IVec S16 32) a x).toNat < S10112.size a := fun v38 k2_hw6 => k2_hw6.2.1
theorem k2_idx22_inb : ∀ (v38 : IVec S16 32) (k2_hw6 : k2_chk6 v38), ∀ a x, ((![v38] : Fin 1 → IVec S16 32) a x).toNat < S10112.size a := fun v38 k2_hw6 => k2_hw6.2.2.1
theorem k2_idx24_inb : ∀ (v38 : IVec S16 32) (k2_hw6 : k2_chk6 v38), ∀ a x, ((![v38] : Fin 1 → IVec S16 32) a x).toNat < S10112.size a := fun v38 k2_hw6 => k2_hw6.2.2.2

def k2_chk7 (v43 : IVec S16 32) : Prop :=
  (∀ a x, ((![v43] : Fin 1 → IVec S16 32) a x).toNat < S10112.size a) ∧
  (∀ a x, ((![v43] : Fin 1 → IVec S16 32) a x).toNat < S10112.size a) ∧
  (∀ a x, ((![v43] : Fin 1 → IVec S16 32) a x).toNat < S10112.size a) ∧
  (∀ a x, ((![v43] : Fin 1 → IVec S16 32) a x).toNat < S10112.size a)
instance k2_chk7.dec : ∀ (v43 : IVec S16 32), Decidable (k2_chk7 v43) := fun v43 => decidable_of_iff' _ (Iff.of_eq (k2_chk7.eq_1 v43))
theorem k2_idx25_inb : ∀ (v43 : IVec S16 32) (k2_hw7 : k2_chk7 v43), ∀ a x, ((![v43] : Fin 1 → IVec S16 32) a x).toNat < S10112.size a := fun v43 k2_hw7 => k2_hw7.1
theorem k2_idx27_inb : ∀ (v43 : IVec S16 32) (k2_hw7 : k2_chk7 v43), ∀ a x, ((![v43] : Fin 1 → IVec S16 32) a x).toNat < S10112.size a := fun v43 k2_hw7 => k2_hw7.2.1
theorem k2_idx29_inb : ∀ (v43 : IVec S16 32) (k2_hw7 : k2_chk7 v43), ∀ a x, ((![v43] : Fin 1 → IVec S16 32) a x).toNat < S10112.size a := fun v43 k2_hw7 => k2_hw7.2.2.1
theorem k2_idx31_inb : ∀ (v43 : IVec S16 32) (k2_hw7 : k2_chk7 v43), ∀ a x, ((![v43] : Fin 1 → IVec S16 32) a x).toNat < S10112.size a := fun v43 k2_hw7 => k2_hw7.2.2.2

def k2_chk8 (v44 : IVec S16 32) : Prop :=
  (∀ a x, ((![v44] : Fin 1 → IVec S16 32) a x).toNat < S10112.size a) ∧
  (∀ a x, ((![v44] : Fin 1 → IVec S16 32) a x).toNat < S10112.size a) ∧
  (∀ a x, ((![v44] : Fin 1 → IVec S16 32) a x).toNat < S10112.size a) ∧
  (∀ a x, ((![v44] : Fin 1 → IVec S16 32) a x).toNat < S10112.size a)
instance k2_chk8.dec : ∀ (v44 : IVec S16 32), Decidable (k2_chk8 v44) := fun v44 => decidable_of_iff' _ (Iff.of_eq (k2_chk8.eq_1 v44))
theorem k2_idx26_inb : ∀ (v44 : IVec S16 32) (k2_hw8 : k2_chk8 v44), ∀ a x, ((![v44] : Fin 1 → IVec S16 32) a x).toNat < S10112.size a := fun v44 k2_hw8 => k2_hw8.1
theorem k2_idx28_inb : ∀ (v44 : IVec S16 32) (k2_hw8 : k2_chk8 v44), ∀ a x, ((![v44] : Fin 1 → IVec S16 32) a x).toNat < S10112.size a := fun v44 k2_hw8 => k2_hw8.2.1
theorem k2_idx30_inb : ∀ (v44 : IVec S16 32) (k2_hw8 : k2_chk8 v44), ∀ a x, ((![v44] : Fin 1 → IVec S16 32) a x).toNat < S10112.size a := fun v44 k2_hw8 => k2_hw8.2.2.1
theorem k2_idx32_inb : ∀ (v44 : IVec S16 32) (k2_hw8 : k2_chk8 v44), ∀ a x, ((![v44] : Fin 1 → IVec S16 32) a x).toNat < S10112.size a := fun v44 k2_hw8 => k2_hw8.2.2.2

def k2_chk9 (v49 : IVec S16 32) : Prop :=
  (∀ a x, ((![v49] : Fin 1 → IVec S16 32) a x).toNat < S10112.size a) ∧
  (∀ a x, ((![v49] : Fin 1 → IVec S16 32) a x).toNat < S10112.size a) ∧
  (∀ a x, ((![v49] : Fin 1 → IVec S16 32) a x).toNat < S10112.size a) ∧
  (∀ a x, ((![v49] : Fin 1 → IVec S16 32) a x).toNat < S10112.size a)
instance k2_chk9.dec : ∀ (v49 : IVec S16 32), Decidable (k2_chk9 v49) := fun v49 => decidable_of_iff' _ (Iff.of_eq (k2_chk9.eq_1 v49))
theorem k2_idx33_inb : ∀ (v49 : IVec S16 32) (k2_hw9 : k2_chk9 v49), ∀ a x, ((![v49] : Fin 1 → IVec S16 32) a x).toNat < S10112.size a := fun v49 k2_hw9 => k2_hw9.1
theorem k2_idx35_inb : ∀ (v49 : IVec S16 32) (k2_hw9 : k2_chk9 v49), ∀ a x, ((![v49] : Fin 1 → IVec S16 32) a x).toNat < S10112.size a := fun v49 k2_hw9 => k2_hw9.2.1
theorem k2_idx37_inb : ∀ (v49 : IVec S16 32) (k2_hw9 : k2_chk9 v49), ∀ a x, ((![v49] : Fin 1 → IVec S16 32) a x).toNat < S10112.size a := fun v49 k2_hw9 => k2_hw9.2.2.1
theorem k2_idx39_inb : ∀ (v49 : IVec S16 32) (k2_hw9 : k2_chk9 v49), ∀ a x, ((![v49] : Fin 1 → IVec S16 32) a x).toNat < S10112.size a := fun v49 k2_hw9 => k2_hw9.2.2.2

def k2_chk10 (v50 : IVec S16 32) : Prop :=
  (∀ a x, ((![v50] : Fin 1 → IVec S16 32) a x).toNat < S10112.size a) ∧
  (∀ a x, ((![v50] : Fin 1 → IVec S16 32) a x).toNat < S10112.size a) ∧
  (∀ a x, ((![v50] : Fin 1 → IVec S16 32) a x).toNat < S10112.size a) ∧
  (∀ a x, ((![v50] : Fin 1 → IVec S16 32) a x).toNat < S10112.size a)
instance k2_chk10.dec : ∀ (v50 : IVec S16 32), Decidable (k2_chk10 v50) := fun v50 => decidable_of_iff' _ (Iff.of_eq (k2_chk10.eq_1 v50))
theorem k2_idx34_inb : ∀ (v50 : IVec S16 32) (k2_hw10 : k2_chk10 v50), ∀ a x, ((![v50] : Fin 1 → IVec S16 32) a x).toNat < S10112.size a := fun v50 k2_hw10 => k2_hw10.1
theorem k2_idx36_inb : ∀ (v50 : IVec S16 32) (k2_hw10 : k2_chk10 v50), ∀ a x, ((![v50] : Fin 1 → IVec S16 32) a x).toNat < S10112.size a := fun v50 k2_hw10 => k2_hw10.2.1
theorem k2_idx38_inb : ∀ (v50 : IVec S16 32) (k2_hw10 : k2_chk10 v50), ∀ a x, ((![v50] : Fin 1 → IVec S16 32) a x).toNat < S10112.size a := fun v50 k2_hw10 => k2_hw10.2.2.1
theorem k2_idx40_inb : ∀ (v50 : IVec S16 32) (k2_hw10 : k2_chk10 v50), ∀ a x, ((![v50] : Fin 1 → IVec S16 32) a x).toNat < S10112.size a := fun v50 k2_hw10 => k2_hw10.2.2.2

def k2_chk11 (v55 : IVec S16 32) : Prop :=
  (∀ a x, ((![v55] : Fin 1 → IVec S16 32) a x).toNat < S10112.size a) ∧
  (∀ a x, ((![v55] : Fin 1 → IVec S16 32) a x).toNat < S10112.size a) ∧
  (∀ a x, ((![v55] : Fin 1 → IVec S16 32) a x).toNat < S10112.size a) ∧
  (∀ a x, ((![v55] : Fin 1 → IVec S16 32) a x).toNat < S10112.size a)
instance k2_chk11.dec : ∀ (v55 : IVec S16 32), Decidable (k2_chk11 v55) := fun v55 => decidable_of_iff' _ (Iff.of_eq (k2_chk11.eq_1 v55))
theorem k2_idx41_inb : ∀ (v55 : IVec S16 32) (k2_hw11 : k2_chk11 v55), ∀ a x, ((![v55] : Fin 1 → IVec S16 32) a x).toNat < S10112.size a := fun v55 k2_hw11 => k2_hw11.1
theorem k2_idx43_inb : ∀ (v55 : IVec S16 32) (k2_hw11 : k2_chk11 v55), ∀ a x, ((![v55] : Fin 1 → IVec S16 32) a x).toNat < S10112.size a := fun v55 k2_hw11 => k2_hw11.2.1
theorem k2_idx45_inb : ∀ (v55 : IVec S16 32) (k2_hw11 : k2_chk11 v55), ∀ a x, ((![v55] : Fin 1 → IVec S16 32) a x).toNat < S10112.size a := fun v55 k2_hw11 => k2_hw11.2.2.1
theorem k2_idx47_inb : ∀ (v55 : IVec S16 32) (k2_hw11 : k2_chk11 v55), ∀ a x, ((![v55] : Fin 1 → IVec S16 32) a x).toNat < S10112.size a := fun v55 k2_hw11 => k2_hw11.2.2.2

def k2_chk12 (v56 : IVec S16 32) : Prop :=
  (∀ a x, ((![v56] : Fin 1 → IVec S16 32) a x).toNat < S10112.size a) ∧
  (∀ a x, ((![v56] : Fin 1 → IVec S16 32) a x).toNat < S10112.size a) ∧
  (∀ a x, ((![v56] : Fin 1 → IVec S16 32) a x).toNat < S10112.size a) ∧
  (∀ a x, ((![v56] : Fin 1 → IVec S16 32) a x).toNat < S10112.size a)
instance k2_chk12.dec : ∀ (v56 : IVec S16 32), Decidable (k2_chk12 v56) := fun v56 => decidable_of_iff' _ (Iff.of_eq (k2_chk12.eq_1 v56))
theorem k2_idx42_inb : ∀ (v56 : IVec S16 32) (k2_hw12 : k2_chk12 v56), ∀ a x, ((![v56] : Fin 1 → IVec S16 32) a x).toNat < S10112.size a := fun v56 k2_hw12 => k2_hw12.1
theorem k2_idx44_inb : ∀ (v56 : IVec S16 32) (k2_hw12 : k2_chk12 v56), ∀ a x, ((![v56] : Fin 1 → IVec S16 32) a x).toNat < S10112.size a := fun v56 k2_hw12 => k2_hw12.2.1
theorem k2_idx46_inb : ∀ (v56 : IVec S16 32) (k2_hw12 : k2_chk12 v56), ∀ a x, ((![v56] : Fin 1 → IVec S16 32) a x).toNat < S10112.size a := fun v56 k2_hw12 => k2_hw12.2.2.1
theorem k2_idx48_inb : ∀ (v56 : IVec S16 32) (k2_hw12 : k2_chk12 v56), ∀ a x, ((![v56] : Fin 1 → IVec S16 32) a x).toNat < S10112.size a := fun v56 k2_hw12 => k2_hw12.2.2.2

def k2_chk13 (v61 : IVec S16 32) : Prop :=
  (∀ a x, ((![v61] : Fin 1 → IVec S16 32) a x).toNat < S10112.size a) ∧
  (∀ a x, ((![v61] : Fin 1 → IVec S16 32) a x).toNat < S10112.size a) ∧
  (∀ a x, ((![v61] : Fin 1 → IVec S16 32) a x).toNat < S10112.size a) ∧
  (∀ a x, ((![v61] : Fin 1 → IVec S16 32) a x).toNat < S10112.size a)
instance k2_chk13.dec : ∀ (v61 : IVec S16 32), Decidable (k2_chk13 v61) := fun v61 => decidable_of_iff' _ (Iff.of_eq (k2_chk13.eq_1 v61))
theorem k2_idx49_inb : ∀ (v61 : IVec S16 32) (k2_hw13 : k2_chk13 v61), ∀ a x, ((![v61] : Fin 1 → IVec S16 32) a x).toNat < S10112.size a := fun v61 k2_hw13 => k2_hw13.1
theorem k2_idx51_inb : ∀ (v61 : IVec S16 32) (k2_hw13 : k2_chk13 v61), ∀ a x, ((![v61] : Fin 1 → IVec S16 32) a x).toNat < S10112.size a := fun v61 k2_hw13 => k2_hw13.2.1
theorem k2_idx53_inb : ∀ (v61 : IVec S16 32) (k2_hw13 : k2_chk13 v61), ∀ a x, ((![v61] : Fin 1 → IVec S16 32) a x).toNat < S10112.size a := fun v61 k2_hw13 => k2_hw13.2.2.1
theorem k2_idx55_inb : ∀ (v61 : IVec S16 32) (k2_hw13 : k2_chk13 v61), ∀ a x, ((![v61] : Fin 1 → IVec S16 32) a x).toNat < S10112.size a := fun v61 k2_hw13 => k2_hw13.2.2.2

def k2_chk14 (v62 : IVec S16 32) : Prop :=
  (∀ a x, ((![v62] : Fin 1 → IVec S16 32) a x).toNat < S10112.size a) ∧
  (∀ a x, ((![v62] : Fin 1 → IVec S16 32) a x).toNat < S10112.size a) ∧
  (∀ a x, ((![v62] : Fin 1 → IVec S16 32) a x).toNat < S10112.size a) ∧
  (∀ a x, ((![v62] : Fin 1 → IVec S16 32) a x).toNat < S10112.size a)
instance k2_chk14.dec : ∀ (v62 : IVec S16 32), Decidable (k2_chk14 v62) := fun v62 => decidable_of_iff' _ (Iff.of_eq (k2_chk14.eq_1 v62))
theorem k2_idx50_inb : ∀ (v62 : IVec S16 32) (k2_hw14 : k2_chk14 v62), ∀ a x, ((![v62] : Fin 1 → IVec S16 32) a x).toNat < S10112.size a := fun v62 k2_hw14 => k2_hw14.1
theorem k2_idx52_inb : ∀ (v62 : IVec S16 32) (k2_hw14 : k2_chk14 v62), ∀ a x, ((![v62] : Fin 1 → IVec S16 32) a x).toNat < S10112.size a := fun v62 k2_hw14 => k2_hw14.2.1
theorem k2_idx54_inb : ∀ (v62 : IVec S16 32) (k2_hw14 : k2_chk14 v62), ∀ a x, ((![v62] : Fin 1 → IVec S16 32) a x).toNat < S10112.size a := fun v62 k2_hw14 => k2_hw14.2.2.1
theorem k2_idx56_inb : ∀ (v62 : IVec S16 32) (k2_hw14 : k2_chk14 v62), ∀ a x, ((![v62] : Fin 1 → IVec S16 32) a x).toNat < S10112.size a := fun v62 k2_hw14 => k2_hw14.2.2.2

def k2_chk15 (v67 : IVec S16 32) : Prop :=
  (∀ a x, ((![v67] : Fin 1 → IVec S16 32) a x).toNat < S10112.size a) ∧
  (∀ a x, ((![v67] : Fin 1 → IVec S16 32) a x).toNat < S10112.size a) ∧
  (∀ a x, ((![v67] : Fin 1 → IVec S16 32) a x).toNat < S10112.size a) ∧
  (∀ a x, ((![v67] : Fin 1 → IVec S16 32) a x).toNat < S10112.size a)
instance k2_chk15.dec : ∀ (v67 : IVec S16 32), Decidable (k2_chk15 v67) := fun v67 => decidable_of_iff' _ (Iff.of_eq (k2_chk15.eq_1 v67))
theorem k2_idx57_inb : ∀ (v67 : IVec S16 32) (k2_hw15 : k2_chk15 v67), ∀ a x, ((![v67] : Fin 1 → IVec S16 32) a x).toNat < S10112.size a := fun v67 k2_hw15 => k2_hw15.1
theorem k2_idx59_inb : ∀ (v67 : IVec S16 32) (k2_hw15 : k2_chk15 v67), ∀ a x, ((![v67] : Fin 1 → IVec S16 32) a x).toNat < S10112.size a := fun v67 k2_hw15 => k2_hw15.2.1
theorem k2_idx61_inb : ∀ (v67 : IVec S16 32) (k2_hw15 : k2_chk15 v67), ∀ a x, ((![v67] : Fin 1 → IVec S16 32) a x).toNat < S10112.size a := fun v67 k2_hw15 => k2_hw15.2.2.1
theorem k2_idx63_inb : ∀ (v67 : IVec S16 32) (k2_hw15 : k2_chk15 v67), ∀ a x, ((![v67] : Fin 1 → IVec S16 32) a x).toNat < S10112.size a := fun v67 k2_hw15 => k2_hw15.2.2.2

def k2_chk16 (v68 : IVec S16 32) : Prop :=
  (∀ a x, ((![v68] : Fin 1 → IVec S16 32) a x).toNat < S10112.size a) ∧
  (∀ a x, ((![v68] : Fin 1 → IVec S16 32) a x).toNat < S10112.size a) ∧
  (∀ a x, ((![v68] : Fin 1 → IVec S16 32) a x).toNat < S10112.size a) ∧
  (∀ a x, ((![v68] : Fin 1 → IVec S16 32) a x).toNat < S10112.size a)
instance k2_chk16.dec : ∀ (v68 : IVec S16 32), Decidable (k2_chk16 v68) := fun v68 => decidable_of_iff' _ (Iff.of_eq (k2_chk16.eq_1 v68))
theorem k2_idx58_inb : ∀ (v68 : IVec S16 32) (k2_hw16 : k2_chk16 v68), ∀ a x, ((![v68] : Fin 1 → IVec S16 32) a x).toNat < S10112.size a := fun v68 k2_hw16 => k2_hw16.1
theorem k2_idx60_inb : ∀ (v68 : IVec S16 32) (k2_hw16 : k2_chk16 v68), ∀ a x, ((![v68] : Fin 1 → IVec S16 32) a x).toNat < S10112.size a := fun v68 k2_hw16 => k2_hw16.2.1
theorem k2_idx62_inb : ∀ (v68 : IVec S16 32) (k2_hw16 : k2_chk16 v68), ∀ a x, ((![v68] : Fin 1 → IVec S16 32) a x).toNat < S10112.size a := fun v68 k2_hw16 => k2_hw16.2.2.1
theorem k2_idx64_inb : ∀ (v68 : IVec S16 32) (k2_hw16 : k2_chk16 v68), ∀ a x, ((![v68] : Fin 1 → IVec S16 32) a x).toNat < S10112.size a := fun v68 k2_hw16 => k2_hw16.2.2.2

def k2_chk17 (v73 : IVec S16 32) : Prop :=
  (∀ a x, ((![v73] : Fin 1 → IVec S16 32) a x).toNat < S10112.size a) ∧
  (∀ a x, ((![v73] : Fin 1 → IVec S16 32) a x).toNat < S10112.size a) ∧
  (∀ a x, ((![v73] : Fin 1 → IVec S16 32) a x).toNat < S10112.size a) ∧
  (∀ a x, ((![v73] : Fin 1 → IVec S16 32) a x).toNat < S10112.size a)
instance k2_chk17.dec : ∀ (v73 : IVec S16 32), Decidable (k2_chk17 v73) := fun v73 => decidable_of_iff' _ (Iff.of_eq (k2_chk17.eq_1 v73))
theorem k2_idx65_inb : ∀ (v73 : IVec S16 32) (k2_hw17 : k2_chk17 v73), ∀ a x, ((![v73] : Fin 1 → IVec S16 32) a x).toNat < S10112.size a := fun v73 k2_hw17 => k2_hw17.1
theorem k2_idx67_inb : ∀ (v73 : IVec S16 32) (k2_hw17 : k2_chk17 v73), ∀ a x, ((![v73] : Fin 1 → IVec S16 32) a x).toNat < S10112.size a := fun v73 k2_hw17 => k2_hw17.2.1
theorem k2_idx69_inb : ∀ (v73 : IVec S16 32) (k2_hw17 : k2_chk17 v73), ∀ a x, ((![v73] : Fin 1 → IVec S16 32) a x).toNat < S10112.size a := fun v73 k2_hw17 => k2_hw17.2.2.1
theorem k2_idx71_inb : ∀ (v73 : IVec S16 32) (k2_hw17 : k2_chk17 v73), ∀ a x, ((![v73] : Fin 1 → IVec S16 32) a x).toNat < S10112.size a := fun v73 k2_hw17 => k2_hw17.2.2.2

def k2_chk18 (v74 : IVec S16 32) : Prop :=
  (∀ a x, ((![v74] : Fin 1 → IVec S16 32) a x).toNat < S10112.size a) ∧
  (∀ a x, ((![v74] : Fin 1 → IVec S16 32) a x).toNat < S10112.size a) ∧
  (∀ a x, ((![v74] : Fin 1 → IVec S16 32) a x).toNat < S10112.size a) ∧
  (∀ a x, ((![v74] : Fin 1 → IVec S16 32) a x).toNat < S10112.size a)
instance k2_chk18.dec : ∀ (v74 : IVec S16 32), Decidable (k2_chk18 v74) := fun v74 => decidable_of_iff' _ (Iff.of_eq (k2_chk18.eq_1 v74))
theorem k2_idx66_inb : ∀ (v74 : IVec S16 32) (k2_hw18 : k2_chk18 v74), ∀ a x, ((![v74] : Fin 1 → IVec S16 32) a x).toNat < S10112.size a := fun v74 k2_hw18 => k2_hw18.1
theorem k2_idx68_inb : ∀ (v74 : IVec S16 32) (k2_hw18 : k2_chk18 v74), ∀ a x, ((![v74] : Fin 1 → IVec S16 32) a x).toNat < S10112.size a := fun v74 k2_hw18 => k2_hw18.2.1
theorem k2_idx70_inb : ∀ (v74 : IVec S16 32) (k2_hw18 : k2_chk18 v74), ∀ a x, ((![v74] : Fin 1 → IVec S16 32) a x).toNat < S10112.size a := fun v74 k2_hw18 => k2_hw18.2.2.1
theorem k2_idx72_inb : ∀ (v74 : IVec S16 32) (k2_hw18 : k2_chk18 v74), ∀ a x, ((![v74] : Fin 1 → IVec S16 32) a x).toNat < S10112.size a := fun v74 k2_hw18 => k2_hw18.2.2.2

def k2_chk19 (v79 : IVec S16 32) : Prop :=
  (∀ a x, ((![v79] : Fin 1 → IVec S16 32) a x).toNat < S10112.size a) ∧
  (∀ a x, ((![v79] : Fin 1 → IVec S16 32) a x).toNat < S10112.size a) ∧
  (∀ a x, ((![v79] : Fin 1 → IVec S16 32) a x).toNat < S10112.size a) ∧
  (∀ a x, ((![v79] : Fin 1 → IVec S16 32) a x).toNat < S10112.size a)
instance k2_chk19.dec : ∀ (v79 : IVec S16 32), Decidable (k2_chk19 v79) := fun v79 => decidable_of_iff' _ (Iff.of_eq (k2_chk19.eq_1 v79))
theorem k2_idx73_inb : ∀ (v79 : IVec S16 32) (k2_hw19 : k2_chk19 v79), ∀ a x, ((![v79] : Fin 1 → IVec S16 32) a x).toNat < S10112.size a := fun v79 k2_hw19 => k2_hw19.1
theorem k2_idx75_inb : ∀ (v79 : IVec S16 32) (k2_hw19 : k2_chk19 v79), ∀ a x, ((![v79] : Fin 1 → IVec S16 32) a x).toNat < S10112.size a := fun v79 k2_hw19 => k2_hw19.2.1
theorem k2_idx77_inb : ∀ (v79 : IVec S16 32) (k2_hw19 : k2_chk19 v79), ∀ a x, ((![v79] : Fin 1 → IVec S16 32) a x).toNat < S10112.size a := fun v79 k2_hw19 => k2_hw19.2.2.1
theorem k2_idx79_inb : ∀ (v79 : IVec S16 32) (k2_hw19 : k2_chk19 v79), ∀ a x, ((![v79] : Fin 1 → IVec S16 32) a x).toNat < S10112.size a := fun v79 k2_hw19 => k2_hw19.2.2.2

def k2_chk20 (v80 : IVec S16 32) : Prop :=
  (∀ a x, ((![v80] : Fin 1 → IVec S16 32) a x).toNat < S10112.size a) ∧
  (∀ a x, ((![v80] : Fin 1 → IVec S16 32) a x).toNat < S10112.size a) ∧
  (∀ a x, ((![v80] : Fin 1 → IVec S16 32) a x).toNat < S10112.size a) ∧
  (∀ a x, ((![v80] : Fin 1 → IVec S16 32) a x).toNat < S10112.size a)
instance k2_chk20.dec : ∀ (v80 : IVec S16 32), Decidable (k2_chk20 v80) := fun v80 => decidable_of_iff' _ (Iff.of_eq (k2_chk20.eq_1 v80))
theorem k2_idx74_inb : ∀ (v80 : IVec S16 32) (k2_hw20 : k2_chk20 v80), ∀ a x, ((![v80] : Fin 1 → IVec S16 32) a x).toNat < S10112.size a := fun v80 k2_hw20 => k2_hw20.1
theorem k2_idx76_inb : ∀ (v80 : IVec S16 32) (k2_hw20 : k2_chk20 v80), ∀ a x, ((![v80] : Fin 1 → IVec S16 32) a x).toNat < S10112.size a := fun v80 k2_hw20 => k2_hw20.2.1
theorem k2_idx78_inb : ∀ (v80 : IVec S16 32) (k2_hw20 : k2_chk20 v80), ∀ a x, ((![v80] : Fin 1 → IVec S16 32) a x).toNat < S10112.size a := fun v80 k2_hw20 => k2_hw20.2.2.1
theorem k2_idx80_inb : ∀ (v80 : IVec S16 32) (k2_hw20 : k2_chk20 v80), ∀ a x, ((![v80] : Fin 1 → IVec S16 32) a x).toNat < S10112.size a := fun v80 k2_hw20 => k2_hw20.2.2.2

def k2_chk21 (v85 : IVec S16 32) : Prop :=
  (∀ a x, ((![v85] : Fin 1 → IVec S16 32) a x).toNat < S10112.size a) ∧
  (∀ a x, ((![v85] : Fin 1 → IVec S16 32) a x).toNat < S10112.size a) ∧
  (∀ a x, ((![v85] : Fin 1 → IVec S16 32) a x).toNat < S10112.size a) ∧
  (∀ a x, ((![v85] : Fin 1 → IVec S16 32) a x).toNat < S10112.size a)
instance k2_chk21.dec : ∀ (v85 : IVec S16 32), Decidable (k2_chk21 v85) := fun v85 => decidable_of_iff' _ (Iff.of_eq (k2_chk21.eq_1 v85))
theorem k2_idx81_inb : ∀ (v85 : IVec S16 32) (k2_hw21 : k2_chk21 v85), ∀ a x, ((![v85] : Fin 1 → IVec S16 32) a x).toNat < S10112.size a := fun v85 k2_hw21 => k2_hw21.1
theorem k2_idx83_inb : ∀ (v85 : IVec S16 32) (k2_hw21 : k2_chk21 v85), ∀ a x, ((![v85] : Fin 1 → IVec S16 32) a x).toNat < S10112.size a := fun v85 k2_hw21 => k2_hw21.2.1
theorem k2_idx85_inb : ∀ (v85 : IVec S16 32) (k2_hw21 : k2_chk21 v85), ∀ a x, ((![v85] : Fin 1 → IVec S16 32) a x).toNat < S10112.size a := fun v85 k2_hw21 => k2_hw21.2.2.1
theorem k2_idx87_inb : ∀ (v85 : IVec S16 32) (k2_hw21 : k2_chk21 v85), ∀ a x, ((![v85] : Fin 1 → IVec S16 32) a x).toNat < S10112.size a := fun v85 k2_hw21 => k2_hw21.2.2.2

def k2_chk22 (v86 : IVec S16 32) : Prop :=
  (∀ a x, ((![v86] : Fin 1 → IVec S16 32) a x).toNat < S10112.size a) ∧
  (∀ a x, ((![v86] : Fin 1 → IVec S16 32) a x).toNat < S10112.size a) ∧
  (∀ a x, ((![v86] : Fin 1 → IVec S16 32) a x).toNat < S10112.size a) ∧
  (∀ a x, ((![v86] : Fin 1 → IVec S16 32) a x).toNat < S10112.size a)
instance k2_chk22.dec : ∀ (v86 : IVec S16 32), Decidable (k2_chk22 v86) := fun v86 => decidable_of_iff' _ (Iff.of_eq (k2_chk22.eq_1 v86))
theorem k2_idx82_inb : ∀ (v86 : IVec S16 32) (k2_hw22 : k2_chk22 v86), ∀ a x, ((![v86] : Fin 1 → IVec S16 32) a x).toNat < S10112.size a := fun v86 k2_hw22 => k2_hw22.1
theorem k2_idx84_inb : ∀ (v86 : IVec S16 32) (k2_hw22 : k2_chk22 v86), ∀ a x, ((![v86] : Fin 1 → IVec S16 32) a x).toNat < S10112.size a := fun v86 k2_hw22 => k2_hw22.2.1
theorem k2_idx86_inb : ∀ (v86 : IVec S16 32) (k2_hw22 : k2_chk22 v86), ∀ a x, ((![v86] : Fin 1 → IVec S16 32) a x).toNat < S10112.size a := fun v86 k2_hw22 => k2_hw22.2.2.1
theorem k2_idx88_inb : ∀ (v86 : IVec S16 32) (k2_hw22 : k2_chk22 v86), ∀ a x, ((![v86] : Fin 1 → IVec S16 32) a x).toNat < S10112.size a := fun v86 k2_hw22 => k2_hw22.2.2.2

def k2_chk23 (v91 : IVec S16 32) : Prop :=
  (∀ a x, ((![v91] : Fin 1 → IVec S16 32) a x).toNat < S10112.size a) ∧
  (∀ a x, ((![v91] : Fin 1 → IVec S16 32) a x).toNat < S10112.size a) ∧
  (∀ a x, ((![v91] : Fin 1 → IVec S16 32) a x).toNat < S10112.size a) ∧
  (∀ a x, ((![v91] : Fin 1 → IVec S16 32) a x).toNat < S10112.size a)
instance k2_chk23.dec : ∀ (v91 : IVec S16 32), Decidable (k2_chk23 v91) := fun v91 => decidable_of_iff' _ (Iff.of_eq (k2_chk23.eq_1 v91))
theorem k2_idx89_inb : ∀ (v91 : IVec S16 32) (k2_hw23 : k2_chk23 v91), ∀ a x, ((![v91] : Fin 1 → IVec S16 32) a x).toNat < S10112.size a := fun v91 k2_hw23 => k2_hw23.1
theorem k2_idx91_inb : ∀ (v91 : IVec S16 32) (k2_hw23 : k2_chk23 v91), ∀ a x, ((![v91] : Fin 1 → IVec S16 32) a x).toNat < S10112.size a := fun v91 k2_hw23 => k2_hw23.2.1
theorem k2_idx93_inb : ∀ (v91 : IVec S16 32) (k2_hw23 : k2_chk23 v91), ∀ a x, ((![v91] : Fin 1 → IVec S16 32) a x).toNat < S10112.size a := fun v91 k2_hw23 => k2_hw23.2.2.1
theorem k2_idx95_inb : ∀ (v91 : IVec S16 32) (k2_hw23 : k2_chk23 v91), ∀ a x, ((![v91] : Fin 1 → IVec S16 32) a x).toNat < S10112.size a := fun v91 k2_hw23 => k2_hw23.2.2.2

def k2_chk24 (v92 : IVec S16 32) : Prop :=
  (∀ a x, ((![v92] : Fin 1 → IVec S16 32) a x).toNat < S10112.size a) ∧
  (∀ a x, ((![v92] : Fin 1 → IVec S16 32) a x).toNat < S10112.size a) ∧
  (∀ a x, ((![v92] : Fin 1 → IVec S16 32) a x).toNat < S10112.size a) ∧
  (∀ a x, ((![v92] : Fin 1 → IVec S16 32) a x).toNat < S10112.size a)
instance k2_chk24.dec : ∀ (v92 : IVec S16 32), Decidable (k2_chk24 v92) := fun v92 => decidable_of_iff' _ (Iff.of_eq (k2_chk24.eq_1 v92))
theorem k2_idx90_inb : ∀ (v92 : IVec S16 32) (k2_hw24 : k2_chk24 v92), ∀ a x, ((![v92] : Fin 1 → IVec S16 32) a x).toNat < S10112.size a := fun v92 k2_hw24 => k2_hw24.1
theorem k2_idx92_inb : ∀ (v92 : IVec S16 32) (k2_hw24 : k2_chk24 v92), ∀ a x, ((![v92] : Fin 1 → IVec S16 32) a x).toNat < S10112.size a := fun v92 k2_hw24 => k2_hw24.2.1
theorem k2_idx94_inb : ∀ (v92 : IVec S16 32) (k2_hw24 : k2_chk24 v92), ∀ a x, ((![v92] : Fin 1 → IVec S16 32) a x).toNat < S10112.size a := fun v92 k2_hw24 => k2_hw24.2.2.1
theorem k2_idx96_inb : ∀ (v92 : IVec S16 32) (k2_hw24 : k2_chk24 v92), ∀ a x, ((![v92] : Fin 1 → IVec S16 32) a x).toNat < S10112.size a := fun v92 k2_hw24 => k2_hw24.2.2.2

def k2_chk25 (v97 : IVec S16 32) : Prop :=
  (∀ a x, ((![v97] : Fin 1 → IVec S16 32) a x).toNat < S10112.size a) ∧
  (∀ a x, ((![v97] : Fin 1 → IVec S16 32) a x).toNat < S10112.size a) ∧
  (∀ a x, ((![v97] : Fin 1 → IVec S16 32) a x).toNat < S10112.size a) ∧
  (∀ a x, ((![v97] : Fin 1 → IVec S16 32) a x).toNat < S10112.size a)
instance k2_chk25.dec : ∀ (v97 : IVec S16 32), Decidable (k2_chk25 v97) := fun v97 => decidable_of_iff' _ (Iff.of_eq (k2_chk25.eq_1 v97))
theorem k2_idx97_inb : ∀ (v97 : IVec S16 32) (k2_hw25 : k2_chk25 v97), ∀ a x, ((![v97] : Fin 1 → IVec S16 32) a x).toNat < S10112.size a := fun v97 k2_hw25 => k2_hw25.1
theorem k2_idx99_inb : ∀ (v97 : IVec S16 32) (k2_hw25 : k2_chk25 v97), ∀ a x, ((![v97] : Fin 1 → IVec S16 32) a x).toNat < S10112.size a := fun v97 k2_hw25 => k2_hw25.2.1
theorem k2_idx101_inb : ∀ (v97 : IVec S16 32) (k2_hw25 : k2_chk25 v97), ∀ a x, ((![v97] : Fin 1 → IVec S16 32) a x).toNat < S10112.size a := fun v97 k2_hw25 => k2_hw25.2.2.1
theorem k2_idx103_inb : ∀ (v97 : IVec S16 32) (k2_hw25 : k2_chk25 v97), ∀ a x, ((![v97] : Fin 1 → IVec S16 32) a x).toNat < S10112.size a := fun v97 k2_hw25 => k2_hw25.2.2.2

def k2_chk26 (v98 : IVec S16 32) : Prop :=
  (∀ a x, ((![v98] : Fin 1 → IVec S16 32) a x).toNat < S10112.size a) ∧
  (∀ a x, ((![v98] : Fin 1 → IVec S16 32) a x).toNat < S10112.size a) ∧
  (∀ a x, ((![v98] : Fin 1 → IVec S16 32) a x).toNat < S10112.size a) ∧
  (∀ a x, ((![v98] : Fin 1 → IVec S16 32) a x).toNat < S10112.size a)
instance k2_chk26.dec : ∀ (v98 : IVec S16 32), Decidable (k2_chk26 v98) := fun v98 => decidable_of_iff' _ (Iff.of_eq (k2_chk26.eq_1 v98))
theorem k2_idx98_inb : ∀ (v98 : IVec S16 32) (k2_hw26 : k2_chk26 v98), ∀ a x, ((![v98] : Fin 1 → IVec S16 32) a x).toNat < S10112.size a := fun v98 k2_hw26 => k2_hw26.1
theorem k2_idx100_inb : ∀ (v98 : IVec S16 32) (k2_hw26 : k2_chk26 v98), ∀ a x, ((![v98] : Fin 1 → IVec S16 32) a x).toNat < S10112.size a := fun v98 k2_hw26 => k2_hw26.2.1
theorem k2_idx102_inb : ∀ (v98 : IVec S16 32) (k2_hw26 : k2_chk26 v98), ∀ a x, ((![v98] : Fin 1 → IVec S16 32) a x).toNat < S10112.size a := fun v98 k2_hw26 => k2_hw26.2.2.1
theorem k2_idx104_inb : ∀ (v98 : IVec S16 32) (k2_hw26 : k2_chk26 v98), ∀ a x, ((![v98] : Fin 1 → IVec S16 32) a x).toNat < S10112.size a := fun v98 k2_hw26 => k2_hw26.2.2.2

def k2_chk27 (v103 : IVec S16 32) : Prop :=
  (∀ a x, ((![v103] : Fin 1 → IVec S16 32) a x).toNat < S10112.size a) ∧
  (∀ a x, ((![v103] : Fin 1 → IVec S16 32) a x).toNat < S10112.size a) ∧
  (∀ a x, ((![v103] : Fin 1 → IVec S16 32) a x).toNat < S10112.size a) ∧
  (∀ a x, ((![v103] : Fin 1 → IVec S16 32) a x).toNat < S10112.size a)
instance k2_chk27.dec : ∀ (v103 : IVec S16 32), Decidable (k2_chk27 v103) := fun v103 => decidable_of_iff' _ (Iff.of_eq (k2_chk27.eq_1 v103))
theorem k2_idx105_inb : ∀ (v103 : IVec S16 32) (k2_hw27 : k2_chk27 v103), ∀ a x, ((![v103] : Fin 1 → IVec S16 32) a x).toNat < S10112.size a := fun v103 k2_hw27 => k2_hw27.1
theorem k2_idx107_inb : ∀ (v103 : IVec S16 32) (k2_hw27 : k2_chk27 v103), ∀ a x, ((![v103] : Fin 1 → IVec S16 32) a x).toNat < S10112.size a := fun v103 k2_hw27 => k2_hw27.2.1
theorem k2_idx109_inb : ∀ (v103 : IVec S16 32) (k2_hw27 : k2_chk27 v103), ∀ a x, ((![v103] : Fin 1 → IVec S16 32) a x).toNat < S10112.size a := fun v103 k2_hw27 => k2_hw27.2.2.1
theorem k2_idx111_inb : ∀ (v103 : IVec S16 32) (k2_hw27 : k2_chk27 v103), ∀ a x, ((![v103] : Fin 1 → IVec S16 32) a x).toNat < S10112.size a := fun v103 k2_hw27 => k2_hw27.2.2.2

def k2_chk28 (v104 : IVec S16 32) : Prop :=
  (∀ a x, ((![v104] : Fin 1 → IVec S16 32) a x).toNat < S10112.size a) ∧
  (∀ a x, ((![v104] : Fin 1 → IVec S16 32) a x).toNat < S10112.size a) ∧
  (∀ a x, ((![v104] : Fin 1 → IVec S16 32) a x).toNat < S10112.size a) ∧
  (∀ a x, ((![v104] : Fin 1 → IVec S16 32) a x).toNat < S10112.size a)
instance k2_chk28.dec : ∀ (v104 : IVec S16 32), Decidable (k2_chk28 v104) := fun v104 => decidable_of_iff' _ (Iff.of_eq (k2_chk28.eq_1 v104))
theorem k2_idx106_inb : ∀ (v104 : IVec S16 32) (k2_hw28 : k2_chk28 v104), ∀ a x, ((![v104] : Fin 1 → IVec S16 32) a x).toNat < S10112.size a := fun v104 k2_hw28 => k2_hw28.1
theorem k2_idx108_inb : ∀ (v104 : IVec S16 32) (k2_hw28 : k2_chk28 v104), ∀ a x, ((![v104] : Fin 1 → IVec S16 32) a x).toNat < S10112.size a := fun v104 k2_hw28 => k2_hw28.2.1
theorem k2_idx110_inb : ∀ (v104 : IVec S16 32) (k2_hw28 : k2_chk28 v104), ∀ a x, ((![v104] : Fin 1 → IVec S16 32) a x).toNat < S10112.size a := fun v104 k2_hw28 => k2_hw28.2.2.1
theorem k2_idx112_inb : ∀ (v104 : IVec S16 32) (k2_hw28 : k2_chk28 v104), ∀ a x, ((![v104] : Fin 1 → IVec S16 32) a x).toNat < S10112.size a := fun v104 k2_hw28 => k2_hw28.2.2.2

def k2_chk29 (v109 : IVec S16 32) : Prop :=
  (∀ a x, ((![v109] : Fin 1 → IVec S16 32) a x).toNat < S10112.size a) ∧
  (∀ a x, ((![v109] : Fin 1 → IVec S16 32) a x).toNat < S10112.size a) ∧
  (∀ a x, ((![v109] : Fin 1 → IVec S16 32) a x).toNat < S10112.size a) ∧
  (∀ a x, ((![v109] : Fin 1 → IVec S16 32) a x).toNat < S10112.size a)
instance k2_chk29.dec : ∀ (v109 : IVec S16 32), Decidable (k2_chk29 v109) := fun v109 => decidable_of_iff' _ (Iff.of_eq (k2_chk29.eq_1 v109))
theorem k2_idx113_inb : ∀ (v109 : IVec S16 32) (k2_hw29 : k2_chk29 v109), ∀ a x, ((![v109] : Fin 1 → IVec S16 32) a x).toNat < S10112.size a := fun v109 k2_hw29 => k2_hw29.1
theorem k2_idx115_inb : ∀ (v109 : IVec S16 32) (k2_hw29 : k2_chk29 v109), ∀ a x, ((![v109] : Fin 1 → IVec S16 32) a x).toNat < S10112.size a := fun v109 k2_hw29 => k2_hw29.2.1
theorem k2_idx117_inb : ∀ (v109 : IVec S16 32) (k2_hw29 : k2_chk29 v109), ∀ a x, ((![v109] : Fin 1 → IVec S16 32) a x).toNat < S10112.size a := fun v109 k2_hw29 => k2_hw29.2.2.1
theorem k2_idx119_inb : ∀ (v109 : IVec S16 32) (k2_hw29 : k2_chk29 v109), ∀ a x, ((![v109] : Fin 1 → IVec S16 32) a x).toNat < S10112.size a := fun v109 k2_hw29 => k2_hw29.2.2.2

def k2_chk30 (v110 : IVec S16 32) : Prop :=
  (∀ a x, ((![v110] : Fin 1 → IVec S16 32) a x).toNat < S10112.size a) ∧
  (∀ a x, ((![v110] : Fin 1 → IVec S16 32) a x).toNat < S10112.size a) ∧
  (∀ a x, ((![v110] : Fin 1 → IVec S16 32) a x).toNat < S10112.size a) ∧
  (∀ a x, ((![v110] : Fin 1 → IVec S16 32) a x).toNat < S10112.size a)
instance k2_chk30.dec : ∀ (v110 : IVec S16 32), Decidable (k2_chk30 v110) := fun v110 => decidable_of_iff' _ (Iff.of_eq (k2_chk30.eq_1 v110))
theorem k2_idx114_inb : ∀ (v110 : IVec S16 32) (k2_hw30 : k2_chk30 v110), ∀ a x, ((![v110] : Fin 1 → IVec S16 32) a x).toNat < S10112.size a := fun v110 k2_hw30 => k2_hw30.1
theorem k2_idx116_inb : ∀ (v110 : IVec S16 32) (k2_hw30 : k2_chk30 v110), ∀ a x, ((![v110] : Fin 1 → IVec S16 32) a x).toNat < S10112.size a := fun v110 k2_hw30 => k2_hw30.2.1
theorem k2_idx118_inb : ∀ (v110 : IVec S16 32) (k2_hw30 : k2_chk30 v110), ∀ a x, ((![v110] : Fin 1 → IVec S16 32) a x).toNat < S10112.size a := fun v110 k2_hw30 => k2_hw30.2.2.1
theorem k2_idx120_inb : ∀ (v110 : IVec S16 32) (k2_hw30 : k2_chk30 v110), ∀ a x, ((![v110] : Fin 1 → IVec S16 32) a x).toNat < S10112.size a := fun v110 k2_hw30 => k2_hw30.2.2.2

def k2_chk31 (v115 : IVec S16 32) : Prop :=
  (∀ a x, ((![v115] : Fin 1 → IVec S16 32) a x).toNat < S10112.size a) ∧
  (∀ a x, ((![v115] : Fin 1 → IVec S16 32) a x).toNat < S10112.size a) ∧
  (∀ a x, ((![v115] : Fin 1 → IVec S16 32) a x).toNat < S10112.size a) ∧
  (∀ a x, ((![v115] : Fin 1 → IVec S16 32) a x).toNat < S10112.size a)
instance k2_chk31.dec : ∀ (v115 : IVec S16 32), Decidable (k2_chk31 v115) := fun v115 => decidable_of_iff' _ (Iff.of_eq (k2_chk31.eq_1 v115))
theorem k2_idx121_inb : ∀ (v115 : IVec S16 32) (k2_hw31 : k2_chk31 v115), ∀ a x, ((![v115] : Fin 1 → IVec S16 32) a x).toNat < S10112.size a := fun v115 k2_hw31 => k2_hw31.1
theorem k2_idx123_inb : ∀ (v115 : IVec S16 32) (k2_hw31 : k2_chk31 v115), ∀ a x, ((![v115] : Fin 1 → IVec S16 32) a x).toNat < S10112.size a := fun v115 k2_hw31 => k2_hw31.2.1
theorem k2_idx125_inb : ∀ (v115 : IVec S16 32) (k2_hw31 : k2_chk31 v115), ∀ a x, ((![v115] : Fin 1 → IVec S16 32) a x).toNat < S10112.size a := fun v115 k2_hw31 => k2_hw31.2.2.1
theorem k2_idx127_inb : ∀ (v115 : IVec S16 32) (k2_hw31 : k2_chk31 v115), ∀ a x, ((![v115] : Fin 1 → IVec S16 32) a x).toNat < S10112.size a := fun v115 k2_hw31 => k2_hw31.2.2.2

def k2_chk32 (v116 : IVec S16 32) : Prop :=
  (∀ a x, ((![v116] : Fin 1 → IVec S16 32) a x).toNat < S10112.size a) ∧
  (∀ a x, ((![v116] : Fin 1 → IVec S16 32) a x).toNat < S10112.size a) ∧
  (∀ a x, ((![v116] : Fin 1 → IVec S16 32) a x).toNat < S10112.size a) ∧
  (∀ a x, ((![v116] : Fin 1 → IVec S16 32) a x).toNat < S10112.size a)
instance k2_chk32.dec : ∀ (v116 : IVec S16 32), Decidable (k2_chk32 v116) := fun v116 => decidable_of_iff' _ (Iff.of_eq (k2_chk32.eq_1 v116))
theorem k2_idx122_inb : ∀ (v116 : IVec S16 32) (k2_hw32 : k2_chk32 v116), ∀ a x, ((![v116] : Fin 1 → IVec S16 32) a x).toNat < S10112.size a := fun v116 k2_hw32 => k2_hw32.1
theorem k2_idx124_inb : ∀ (v116 : IVec S16 32) (k2_hw32 : k2_chk32 v116), ∀ a x, ((![v116] : Fin 1 → IVec S16 32) a x).toNat < S10112.size a := fun v116 k2_hw32 => k2_hw32.2.1
theorem k2_idx126_inb : ∀ (v116 : IVec S16 32) (k2_hw32 : k2_chk32 v116), ∀ a x, ((![v116] : Fin 1 → IVec S16 32) a x).toNat < S10112.size a := fun v116 k2_hw32 => k2_hw32.2.2.1
theorem k2_idx128_inb : ∀ (v116 : IVec S16 32) (k2_hw32 : k2_chk32 v116), ∀ a x, ((![v116] : Fin 1 → IVec S16 32) a x).toNat < S10112.size a := fun v116 k2_hw32 => k2_hw32.2.2.2

def k2_chk33 (v121 : IVec S16 32) : Prop :=
  (∀ a x, ((![v121] : Fin 1 → IVec S16 32) a x).toNat < S10112.size a) ∧
  (∀ a x, ((![v121] : Fin 1 → IVec S16 32) a x).toNat < S10112.size a) ∧
  (∀ a x, ((![v121] : Fin 1 → IVec S16 32) a x).toNat < S10112.size a) ∧
  (∀ a x, ((![v121] : Fin 1 → IVec S16 32) a x).toNat < S10112.size a)
instance k2_chk33.dec : ∀ (v121 : IVec S16 32), Decidable (k2_chk33 v121) := fun v121 => decidable_of_iff' _ (Iff.of_eq (k2_chk33.eq_1 v121))
theorem k2_idx129_inb : ∀ (v121 : IVec S16 32) (k2_hw33 : k2_chk33 v121), ∀ a x, ((![v121] : Fin 1 → IVec S16 32) a x).toNat < S10112.size a := fun v121 k2_hw33 => k2_hw33.1
theorem k2_idx131_inb : ∀ (v121 : IVec S16 32) (k2_hw33 : k2_chk33 v121), ∀ a x, ((![v121] : Fin 1 → IVec S16 32) a x).toNat < S10112.size a := fun v121 k2_hw33 => k2_hw33.2.1
theorem k2_idx133_inb : ∀ (v121 : IVec S16 32) (k2_hw33 : k2_chk33 v121), ∀ a x, ((![v121] : Fin 1 → IVec S16 32) a x).toNat < S10112.size a := fun v121 k2_hw33 => k2_hw33.2.2.1
theorem k2_idx135_inb : ∀ (v121 : IVec S16 32) (k2_hw33 : k2_chk33 v121), ∀ a x, ((![v121] : Fin 1 → IVec S16 32) a x).toNat < S10112.size a := fun v121 k2_hw33 => k2_hw33.2.2.2

def k2_chk34 (v122 : IVec S16 32) : Prop :=
  (∀ a x, ((![v122] : Fin 1 → IVec S16 32) a x).toNat < S10112.size a) ∧
  (∀ a x, ((![v122] : Fin 1 → IVec S16 32) a x).toNat < S10112.size a) ∧
  (∀ a x, ((![v122] : Fin 1 → IVec S16 32) a x).toNat < S10112.size a) ∧
  (∀ a x, ((![v122] : Fin 1 → IVec S16 32) a x).toNat < S10112.size a)
instance k2_chk34.dec : ∀ (v122 : IVec S16 32), Decidable (k2_chk34 v122) := fun v122 => decidable_of_iff' _ (Iff.of_eq (k2_chk34.eq_1 v122))
theorem k2_idx130_inb : ∀ (v122 : IVec S16 32) (k2_hw34 : k2_chk34 v122), ∀ a x, ((![v122] : Fin 1 → IVec S16 32) a x).toNat < S10112.size a := fun v122 k2_hw34 => k2_hw34.1
theorem k2_idx132_inb : ∀ (v122 : IVec S16 32) (k2_hw34 : k2_chk34 v122), ∀ a x, ((![v122] : Fin 1 → IVec S16 32) a x).toNat < S10112.size a := fun v122 k2_hw34 => k2_hw34.2.1
theorem k2_idx134_inb : ∀ (v122 : IVec S16 32) (k2_hw34 : k2_chk34 v122), ∀ a x, ((![v122] : Fin 1 → IVec S16 32) a x).toNat < S10112.size a := fun v122 k2_hw34 => k2_hw34.2.2.1
theorem k2_idx136_inb : ∀ (v122 : IVec S16 32) (k2_hw34 : k2_chk34 v122), ∀ a x, ((![v122] : Fin 1 → IVec S16 32) a x).toNat < S10112.size a := fun v122 k2_hw34 => k2_hw34.2.2.2

def k2_chk35 (v127 : IVec S16 32) : Prop :=
  (∀ a x, ((![v127] : Fin 1 → IVec S16 32) a x).toNat < S10112.size a) ∧
  (∀ a x, ((![v127] : Fin 1 → IVec S16 32) a x).toNat < S10112.size a) ∧
  (∀ a x, ((![v127] : Fin 1 → IVec S16 32) a x).toNat < S10112.size a) ∧
  (∀ a x, ((![v127] : Fin 1 → IVec S16 32) a x).toNat < S10112.size a)
instance k2_chk35.dec : ∀ (v127 : IVec S16 32), Decidable (k2_chk35 v127) := fun v127 => decidable_of_iff' _ (Iff.of_eq (k2_chk35.eq_1 v127))
theorem k2_idx137_inb : ∀ (v127 : IVec S16 32) (k2_hw35 : k2_chk35 v127), ∀ a x, ((![v127] : Fin 1 → IVec S16 32) a x).toNat < S10112.size a := fun v127 k2_hw35 => k2_hw35.1
theorem k2_idx139_inb : ∀ (v127 : IVec S16 32) (k2_hw35 : k2_chk35 v127), ∀ a x, ((![v127] : Fin 1 → IVec S16 32) a x).toNat < S10112.size a := fun v127 k2_hw35 => k2_hw35.2.1
theorem k2_idx141_inb : ∀ (v127 : IVec S16 32) (k2_hw35 : k2_chk35 v127), ∀ a x, ((![v127] : Fin 1 → IVec S16 32) a x).toNat < S10112.size a := fun v127 k2_hw35 => k2_hw35.2.2.1
theorem k2_idx143_inb : ∀ (v127 : IVec S16 32) (k2_hw35 : k2_chk35 v127), ∀ a x, ((![v127] : Fin 1 → IVec S16 32) a x).toNat < S10112.size a := fun v127 k2_hw35 => k2_hw35.2.2.2

def k2_chk36 (v128 : IVec S16 32) : Prop :=
  (∀ a x, ((![v128] : Fin 1 → IVec S16 32) a x).toNat < S10112.size a) ∧
  (∀ a x, ((![v128] : Fin 1 → IVec S16 32) a x).toNat < S10112.size a) ∧
  (∀ a x, ((![v128] : Fin 1 → IVec S16 32) a x).toNat < S10112.size a) ∧
  (∀ a x, ((![v128] : Fin 1 → IVec S16 32) a x).toNat < S10112.size a)
instance k2_chk36.dec : ∀ (v128 : IVec S16 32), Decidable (k2_chk36 v128) := fun v128 => decidable_of_iff' _ (Iff.of_eq (k2_chk36.eq_1 v128))
theorem k2_idx138_inb : ∀ (v128 : IVec S16 32) (k2_hw36 : k2_chk36 v128), ∀ a x, ((![v128] : Fin 1 → IVec S16 32) a x).toNat < S10112.size a := fun v128 k2_hw36 => k2_hw36.1
theorem k2_idx140_inb : ∀ (v128 : IVec S16 32) (k2_hw36 : k2_chk36 v128), ∀ a x, ((![v128] : Fin 1 → IVec S16 32) a x).toNat < S10112.size a := fun v128 k2_hw36 => k2_hw36.2.1
theorem k2_idx142_inb : ∀ (v128 : IVec S16 32) (k2_hw36 : k2_chk36 v128), ∀ a x, ((![v128] : Fin 1 → IVec S16 32) a x).toNat < S10112.size a := fun v128 k2_hw36 => k2_hw36.2.2.1
theorem k2_idx144_inb : ∀ (v128 : IVec S16 32) (k2_hw36 : k2_chk36 v128), ∀ a x, ((![v128] : Fin 1 → IVec S16 32) a x).toNat < S10112.size a := fun v128 k2_hw36 => k2_hw36.2.2.2

def k2_chk37 (v133 : IVec S16 32) : Prop :=
  (∀ a x, ((![v133] : Fin 1 → IVec S16 32) a x).toNat < S10112.size a) ∧
  (∀ a x, ((![v133] : Fin 1 → IVec S16 32) a x).toNat < S10112.size a) ∧
  (∀ a x, ((![v133] : Fin 1 → IVec S16 32) a x).toNat < S10112.size a) ∧
  (∀ a x, ((![v133] : Fin 1 → IVec S16 32) a x).toNat < S10112.size a)
instance k2_chk37.dec : ∀ (v133 : IVec S16 32), Decidable (k2_chk37 v133) := fun v133 => decidable_of_iff' _ (Iff.of_eq (k2_chk37.eq_1 v133))
theorem k2_idx145_inb : ∀ (v133 : IVec S16 32) (k2_hw37 : k2_chk37 v133), ∀ a x, ((![v133] : Fin 1 → IVec S16 32) a x).toNat < S10112.size a := fun v133 k2_hw37 => k2_hw37.1
theorem k2_idx147_inb : ∀ (v133 : IVec S16 32) (k2_hw37 : k2_chk37 v133), ∀ a x, ((![v133] : Fin 1 → IVec S16 32) a x).toNat < S10112.size a := fun v133 k2_hw37 => k2_hw37.2.1
theorem k2_idx149_inb : ∀ (v133 : IVec S16 32) (k2_hw37 : k2_chk37 v133), ∀ a x, ((![v133] : Fin 1 → IVec S16 32) a x).toNat < S10112.size a := fun v133 k2_hw37 => k2_hw37.2.2.1
theorem k2_idx151_inb : ∀ (v133 : IVec S16 32) (k2_hw37 : k2_chk37 v133), ∀ a x, ((![v133] : Fin 1 → IVec S16 32) a x).toNat < S10112.size a := fun v133 k2_hw37 => k2_hw37.2.2.2

def k2_chk38 (v134 : IVec S16 32) : Prop :=
  (∀ a x, ((![v134] : Fin 1 → IVec S16 32) a x).toNat < S10112.size a) ∧
  (∀ a x, ((![v134] : Fin 1 → IVec S16 32) a x).toNat < S10112.size a) ∧
  (∀ a x, ((![v134] : Fin 1 → IVec S16 32) a x).toNat < S10112.size a) ∧
  (∀ a x, ((![v134] : Fin 1 → IVec S16 32) a x).toNat < S10112.size a)
instance k2_chk38.dec : ∀ (v134 : IVec S16 32), Decidable (k2_chk38 v134) := fun v134 => decidable_of_iff' _ (Iff.of_eq (k2_chk38.eq_1 v134))
theorem k2_idx146_inb : ∀ (v134 : IVec S16 32) (k2_hw38 : k2_chk38 v134), ∀ a x, ((![v134] : Fin 1 → IVec S16 32) a x).toNat < S10112.size a := fun v134 k2_hw38 => k2_hw38.1
theorem k2_idx148_inb : ∀ (v134 : IVec S16 32) (k2_hw38 : k2_chk38 v134), ∀ a x, ((![v134] : Fin 1 → IVec S16 32) a x).toNat < S10112.size a := fun v134 k2_hw38 => k2_hw38.2.1
theorem k2_idx150_inb : ∀ (v134 : IVec S16 32) (k2_hw38 : k2_chk38 v134), ∀ a x, ((![v134] : Fin 1 → IVec S16 32) a x).toNat < S10112.size a := fun v134 k2_hw38 => k2_hw38.2.2.1
theorem k2_idx152_inb : ∀ (v134 : IVec S16 32) (k2_hw38 : k2_chk38 v134), ∀ a x, ((![v134] : Fin 1 → IVec S16 32) a x).toNat < S10112.size a := fun v134 k2_hw38 => k2_hw38.2.2.2

def k2_chk39 (v139 : IVec S16 32) : Prop :=
  (∀ a x, ((![v139] : Fin 1 → IVec S16 32) a x).toNat < S10112.size a) ∧
  (∀ a x, ((![v139] : Fin 1 → IVec S16 32) a x).toNat < S10112.size a) ∧
  (∀ a x, ((![v139] : Fin 1 → IVec S16 32) a x).toNat < S10112.size a) ∧
  (∀ a x, ((![v139] : Fin 1 → IVec S16 32) a x).toNat < S10112.size a)
instance k2_chk39.dec : ∀ (v139 : IVec S16 32), Decidable (k2_chk39 v139) := fun v139 => decidable_of_iff' _ (Iff.of_eq (k2_chk39.eq_1 v139))
theorem k2_idx153_inb : ∀ (v139 : IVec S16 32) (k2_hw39 : k2_chk39 v139), ∀ a x, ((![v139] : Fin 1 → IVec S16 32) a x).toNat < S10112.size a := fun v139 k2_hw39 => k2_hw39.1
theorem k2_idx155_inb : ∀ (v139 : IVec S16 32) (k2_hw39 : k2_chk39 v139), ∀ a x, ((![v139] : Fin 1 → IVec S16 32) a x).toNat < S10112.size a := fun v139 k2_hw39 => k2_hw39.2.1
theorem k2_idx157_inb : ∀ (v139 : IVec S16 32) (k2_hw39 : k2_chk39 v139), ∀ a x, ((![v139] : Fin 1 → IVec S16 32) a x).toNat < S10112.size a := fun v139 k2_hw39 => k2_hw39.2.2.1
theorem k2_idx159_inb : ∀ (v139 : IVec S16 32) (k2_hw39 : k2_chk39 v139), ∀ a x, ((![v139] : Fin 1 → IVec S16 32) a x).toNat < S10112.size a := fun v139 k2_hw39 => k2_hw39.2.2.2

def k2_chk40 (v140 : IVec S16 32) : Prop :=
  (∀ a x, ((![v140] : Fin 1 → IVec S16 32) a x).toNat < S10112.size a) ∧
  (∀ a x, ((![v140] : Fin 1 → IVec S16 32) a x).toNat < S10112.size a) ∧
  (∀ a x, ((![v140] : Fin 1 → IVec S16 32) a x).toNat < S10112.size a) ∧
  (∀ a x, ((![v140] : Fin 1 → IVec S16 32) a x).toNat < S10112.size a)
instance k2_chk40.dec : ∀ (v140 : IVec S16 32), Decidable (k2_chk40 v140) := fun v140 => decidable_of_iff' _ (Iff.of_eq (k2_chk40.eq_1 v140))
theorem k2_idx154_inb : ∀ (v140 : IVec S16 32) (k2_hw40 : k2_chk40 v140), ∀ a x, ((![v140] : Fin 1 → IVec S16 32) a x).toNat < S10112.size a := fun v140 k2_hw40 => k2_hw40.1
theorem k2_idx156_inb : ∀ (v140 : IVec S16 32) (k2_hw40 : k2_chk40 v140), ∀ a x, ((![v140] : Fin 1 → IVec S16 32) a x).toNat < S10112.size a := fun v140 k2_hw40 => k2_hw40.2.1
theorem k2_idx158_inb : ∀ (v140 : IVec S16 32) (k2_hw40 : k2_chk40 v140), ∀ a x, ((![v140] : Fin 1 → IVec S16 32) a x).toNat < S10112.size a := fun v140 k2_hw40 => k2_hw40.2.2.1
theorem k2_idx160_inb : ∀ (v140 : IVec S16 32) (k2_hw40 : k2_chk40 v140), ∀ a x, ((![v140] : Fin 1 → IVec S16 32) a x).toNat < S10112.size a := fun v140 k2_hw40 => k2_hw40.2.2.2

def k2_chk41 (v145 : IVec S16 32) : Prop :=
  (∀ a x, ((![v145] : Fin 1 → IVec S16 32) a x).toNat < S10112.size a) ∧
  (∀ a x, ((![v145] : Fin 1 → IVec S16 32) a x).toNat < S10112.size a) ∧
  (∀ a x, ((![v145] : Fin 1 → IVec S16 32) a x).toNat < S10112.size a) ∧
  (∀ a x, ((![v145] : Fin 1 → IVec S16 32) a x).toNat < S10112.size a)
instance k2_chk41.dec : ∀ (v145 : IVec S16 32), Decidable (k2_chk41 v145) := fun v145 => decidable_of_iff' _ (Iff.of_eq (k2_chk41.eq_1 v145))
theorem k2_idx161_inb : ∀ (v145 : IVec S16 32) (k2_hw41 : k2_chk41 v145), ∀ a x, ((![v145] : Fin 1 → IVec S16 32) a x).toNat < S10112.size a := fun v145 k2_hw41 => k2_hw41.1
theorem k2_idx163_inb : ∀ (v145 : IVec S16 32) (k2_hw41 : k2_chk41 v145), ∀ a x, ((![v145] : Fin 1 → IVec S16 32) a x).toNat < S10112.size a := fun v145 k2_hw41 => k2_hw41.2.1
theorem k2_idx165_inb : ∀ (v145 : IVec S16 32) (k2_hw41 : k2_chk41 v145), ∀ a x, ((![v145] : Fin 1 → IVec S16 32) a x).toNat < S10112.size a := fun v145 k2_hw41 => k2_hw41.2.2.1
theorem k2_idx167_inb : ∀ (v145 : IVec S16 32) (k2_hw41 : k2_chk41 v145), ∀ a x, ((![v145] : Fin 1 → IVec S16 32) a x).toNat < S10112.size a := fun v145 k2_hw41 => k2_hw41.2.2.2

def k2_chk42 (v146 : IVec S16 32) : Prop :=
  (∀ a x, ((![v146] : Fin 1 → IVec S16 32) a x).toNat < S10112.size a) ∧
  (∀ a x, ((![v146] : Fin 1 → IVec S16 32) a x).toNat < S10112.size a) ∧
  (∀ a x, ((![v146] : Fin 1 → IVec S16 32) a x).toNat < S10112.size a) ∧
  (∀ a x, ((![v146] : Fin 1 → IVec S16 32) a x).toNat < S10112.size a)
instance k2_chk42.dec : ∀ (v146 : IVec S16 32), Decidable (k2_chk42 v146) := fun v146 => decidable_of_iff' _ (Iff.of_eq (k2_chk42.eq_1 v146))
theorem k2_idx162_inb : ∀ (v146 : IVec S16 32) (k2_hw42 : k2_chk42 v146), ∀ a x, ((![v146] : Fin 1 → IVec S16 32) a x).toNat < S10112.size a := fun v146 k2_hw42 => k2_hw42.1
theorem k2_idx164_inb : ∀ (v146 : IVec S16 32) (k2_hw42 : k2_chk42 v146), ∀ a x, ((![v146] : Fin 1 → IVec S16 32) a x).toNat < S10112.size a := fun v146 k2_hw42 => k2_hw42.2.1
theorem k2_idx166_inb : ∀ (v146 : IVec S16 32) (k2_hw42 : k2_chk42 v146), ∀ a x, ((![v146] : Fin 1 → IVec S16 32) a x).toNat < S10112.size a := fun v146 k2_hw42 => k2_hw42.2.2.1
theorem k2_idx168_inb : ∀ (v146 : IVec S16 32) (k2_hw42 : k2_chk42 v146), ∀ a x, ((![v146] : Fin 1 → IVec S16 32) a x).toNat < S10112.size a := fun v146 k2_hw42 => k2_hw42.2.2.2

def k2_chk43 (v151 : IVec S16 32) : Prop :=
  (∀ a x, ((![v151] : Fin 1 → IVec S16 32) a x).toNat < S10112.size a) ∧
  (∀ a x, ((![v151] : Fin 1 → IVec S16 32) a x).toNat < S10112.size a) ∧
  (∀ a x, ((![v151] : Fin 1 → IVec S16 32) a x).toNat < S10112.size a) ∧
  (∀ a x, ((![v151] : Fin 1 → IVec S16 32) a x).toNat < S10112.size a)
instance k2_chk43.dec : ∀ (v151 : IVec S16 32), Decidable (k2_chk43 v151) := fun v151 => decidable_of_iff' _ (Iff.of_eq (k2_chk43.eq_1 v151))
theorem k2_idx169_inb : ∀ (v151 : IVec S16 32) (k2_hw43 : k2_chk43 v151), ∀ a x, ((![v151] : Fin 1 → IVec S16 32) a x).toNat < S10112.size a := fun v151 k2_hw43 => k2_hw43.1
theorem k2_idx171_inb : ∀ (v151 : IVec S16 32) (k2_hw43 : k2_chk43 v151), ∀ a x, ((![v151] : Fin 1 → IVec S16 32) a x).toNat < S10112.size a := fun v151 k2_hw43 => k2_hw43.2.1
theorem k2_idx173_inb : ∀ (v151 : IVec S16 32) (k2_hw43 : k2_chk43 v151), ∀ a x, ((![v151] : Fin 1 → IVec S16 32) a x).toNat < S10112.size a := fun v151 k2_hw43 => k2_hw43.2.2.1
theorem k2_idx175_inb : ∀ (v151 : IVec S16 32) (k2_hw43 : k2_chk43 v151), ∀ a x, ((![v151] : Fin 1 → IVec S16 32) a x).toNat < S10112.size a := fun v151 k2_hw43 => k2_hw43.2.2.2

def k2_chk44 (v152 : IVec S16 32) : Prop :=
  (∀ a x, ((![v152] : Fin 1 → IVec S16 32) a x).toNat < S10112.size a) ∧
  (∀ a x, ((![v152] : Fin 1 → IVec S16 32) a x).toNat < S10112.size a) ∧
  (∀ a x, ((![v152] : Fin 1 → IVec S16 32) a x).toNat < S10112.size a) ∧
  (∀ a x, ((![v152] : Fin 1 → IVec S16 32) a x).toNat < S10112.size a)
instance k2_chk44.dec : ∀ (v152 : IVec S16 32), Decidable (k2_chk44 v152) := fun v152 => decidable_of_iff' _ (Iff.of_eq (k2_chk44.eq_1 v152))
theorem k2_idx170_inb : ∀ (v152 : IVec S16 32) (k2_hw44 : k2_chk44 v152), ∀ a x, ((![v152] : Fin 1 → IVec S16 32) a x).toNat < S10112.size a := fun v152 k2_hw44 => k2_hw44.1
theorem k2_idx172_inb : ∀ (v152 : IVec S16 32) (k2_hw44 : k2_chk44 v152), ∀ a x, ((![v152] : Fin 1 → IVec S16 32) a x).toNat < S10112.size a := fun v152 k2_hw44 => k2_hw44.2.1
theorem k2_idx174_inb : ∀ (v152 : IVec S16 32) (k2_hw44 : k2_chk44 v152), ∀ a x, ((![v152] : Fin 1 → IVec S16 32) a x).toNat < S10112.size a := fun v152 k2_hw44 => k2_hw44.2.2.1
theorem k2_idx176_inb : ∀ (v152 : IVec S16 32) (k2_hw44 : k2_chk44 v152), ∀ a x, ((![v152] : Fin 1 → IVec S16 32) a x).toNat < S10112.size a := fun v152 k2_hw44 => k2_hw44.2.2.2

def k2_chk45 (v157 : IVec S16 32) : Prop :=
  (∀ a x, ((![v157] : Fin 1 → IVec S16 32) a x).toNat < S10112.size a) ∧
  (∀ a x, ((![v157] : Fin 1 → IVec S16 32) a x).toNat < S10112.size a) ∧
  (∀ a x, ((![v157] : Fin 1 → IVec S16 32) a x).toNat < S10112.size a) ∧
  (∀ a x, ((![v157] : Fin 1 → IVec S16 32) a x).toNat < S10112.size a)
instance k2_chk45.dec : ∀ (v157 : IVec S16 32), Decidable (k2_chk45 v157) := fun v157 => decidable_of_iff' _ (Iff.of_eq (k2_chk45.eq_1 v157))
theorem k2_idx177_inb : ∀ (v157 : IVec S16 32) (k2_hw45 : k2_chk45 v157), ∀ a x, ((![v157] : Fin 1 → IVec S16 32) a x).toNat < S10112.size a := fun v157 k2_hw45 => k2_hw45.1
theorem k2_idx179_inb : ∀ (v157 : IVec S16 32) (k2_hw45 : k2_chk45 v157), ∀ a x, ((![v157] : Fin 1 → IVec S16 32) a x).toNat < S10112.size a := fun v157 k2_hw45 => k2_hw45.2.1
theorem k2_idx181_inb : ∀ (v157 : IVec S16 32) (k2_hw45 : k2_chk45 v157), ∀ a x, ((![v157] : Fin 1 → IVec S16 32) a x).toNat < S10112.size a := fun v157 k2_hw45 => k2_hw45.2.2.1
theorem k2_idx183_inb : ∀ (v157 : IVec S16 32) (k2_hw45 : k2_chk45 v157), ∀ a x, ((![v157] : Fin 1 → IVec S16 32) a x).toNat < S10112.size a := fun v157 k2_hw45 => k2_hw45.2.2.2

def k2_chk46 (v158 : IVec S16 32) : Prop :=
  (∀ a x, ((![v158] : Fin 1 → IVec S16 32) a x).toNat < S10112.size a) ∧
  (∀ a x, ((![v158] : Fin 1 → IVec S16 32) a x).toNat < S10112.size a) ∧
  (∀ a x, ((![v158] : Fin 1 → IVec S16 32) a x).toNat < S10112.size a) ∧
  (∀ a x, ((![v158] : Fin 1 → IVec S16 32) a x).toNat < S10112.size a)
instance k2_chk46.dec : ∀ (v158 : IVec S16 32), Decidable (k2_chk46 v158) := fun v158 => decidable_of_iff' _ (Iff.of_eq (k2_chk46.eq_1 v158))
theorem k2_idx178_inb : ∀ (v158 : IVec S16 32) (k2_hw46 : k2_chk46 v158), ∀ a x, ((![v158] : Fin 1 → IVec S16 32) a x).toNat < S10112.size a := fun v158 k2_hw46 => k2_hw46.1
theorem k2_idx180_inb : ∀ (v158 : IVec S16 32) (k2_hw46 : k2_chk46 v158), ∀ a x, ((![v158] : Fin 1 → IVec S16 32) a x).toNat < S10112.size a := fun v158 k2_hw46 => k2_hw46.2.1
theorem k2_idx182_inb : ∀ (v158 : IVec S16 32) (k2_hw46 : k2_chk46 v158), ∀ a x, ((![v158] : Fin 1 → IVec S16 32) a x).toNat < S10112.size a := fun v158 k2_hw46 => k2_hw46.2.2.1
theorem k2_idx184_inb : ∀ (v158 : IVec S16 32) (k2_hw46 : k2_chk46 v158), ∀ a x, ((![v158] : Fin 1 → IVec S16 32) a x).toNat < S10112.size a := fun v158 k2_hw46 => k2_hw46.2.2.2

def k2_chk47 (v163 : IVec S16 32) : Prop :=
  (∀ a x, ((![v163] : Fin 1 → IVec S16 32) a x).toNat < S10112.size a) ∧
  (∀ a x, ((![v163] : Fin 1 → IVec S16 32) a x).toNat < S10112.size a) ∧
  (∀ a x, ((![v163] : Fin 1 → IVec S16 32) a x).toNat < S10112.size a) ∧
  (∀ a x, ((![v163] : Fin 1 → IVec S16 32) a x).toNat < S10112.size a)
instance k2_chk47.dec : ∀ (v163 : IVec S16 32), Decidable (k2_chk47 v163) := fun v163 => decidable_of_iff' _ (Iff.of_eq (k2_chk47.eq_1 v163))
theorem k2_idx185_inb : ∀ (v163 : IVec S16 32) (k2_hw47 : k2_chk47 v163), ∀ a x, ((![v163] : Fin 1 → IVec S16 32) a x).toNat < S10112.size a := fun v163 k2_hw47 => k2_hw47.1
theorem k2_idx187_inb : ∀ (v163 : IVec S16 32) (k2_hw47 : k2_chk47 v163), ∀ a x, ((![v163] : Fin 1 → IVec S16 32) a x).toNat < S10112.size a := fun v163 k2_hw47 => k2_hw47.2.1
theorem k2_idx189_inb : ∀ (v163 : IVec S16 32) (k2_hw47 : k2_chk47 v163), ∀ a x, ((![v163] : Fin 1 → IVec S16 32) a x).toNat < S10112.size a := fun v163 k2_hw47 => k2_hw47.2.2.1
theorem k2_idx191_inb : ∀ (v163 : IVec S16 32) (k2_hw47 : k2_chk47 v163), ∀ a x, ((![v163] : Fin 1 → IVec S16 32) a x).toNat < S10112.size a := fun v163 k2_hw47 => k2_hw47.2.2.2

def k2_chk48 (v164 : IVec S16 32) : Prop :=
  (∀ a x, ((![v164] : Fin 1 → IVec S16 32) a x).toNat < S10112.size a) ∧
  (∀ a x, ((![v164] : Fin 1 → IVec S16 32) a x).toNat < S10112.size a) ∧
  (∀ a x, ((![v164] : Fin 1 → IVec S16 32) a x).toNat < S10112.size a) ∧
  (∀ a x, ((![v164] : Fin 1 → IVec S16 32) a x).toNat < S10112.size a)
instance k2_chk48.dec : ∀ (v164 : IVec S16 32), Decidable (k2_chk48 v164) := fun v164 => decidable_of_iff' _ (Iff.of_eq (k2_chk48.eq_1 v164))
theorem k2_idx186_inb : ∀ (v164 : IVec S16 32) (k2_hw48 : k2_chk48 v164), ∀ a x, ((![v164] : Fin 1 → IVec S16 32) a x).toNat < S10112.size a := fun v164 k2_hw48 => k2_hw48.1
theorem k2_idx188_inb : ∀ (v164 : IVec S16 32) (k2_hw48 : k2_chk48 v164), ∀ a x, ((![v164] : Fin 1 → IVec S16 32) a x).toNat < S10112.size a := fun v164 k2_hw48 => k2_hw48.2.1
theorem k2_idx190_inb : ∀ (v164 : IVec S16 32) (k2_hw48 : k2_chk48 v164), ∀ a x, ((![v164] : Fin 1 → IVec S16 32) a x).toNat < S10112.size a := fun v164 k2_hw48 => k2_hw48.2.2.1
theorem k2_idx192_inb : ∀ (v164 : IVec S16 32) (k2_hw48 : k2_chk48 v164), ∀ a x, ((![v164] : Fin 1 → IVec S16 32) a x).toNat < S10112.size a := fun v164 k2_hw48 => k2_hw48.2.2.2

def k2_chk49 (v169 : IVec S16 32) : Prop :=
  (∀ a x, ((![v169] : Fin 1 → IVec S16 32) a x).toNat < S10112.size a) ∧
  (∀ a x, ((![v169] : Fin 1 → IVec S16 32) a x).toNat < S10112.size a) ∧
  (∀ a x, ((![v169] : Fin 1 → IVec S16 32) a x).toNat < S10112.size a) ∧
  (∀ a x, ((![v169] : Fin 1 → IVec S16 32) a x).toNat < S10112.size a)
instance k2_chk49.dec : ∀ (v169 : IVec S16 32), Decidable (k2_chk49 v169) := fun v169 => decidable_of_iff' _ (Iff.of_eq (k2_chk49.eq_1 v169))
theorem k2_idx193_inb : ∀ (v169 : IVec S16 32) (k2_hw49 : k2_chk49 v169), ∀ a x, ((![v169] : Fin 1 → IVec S16 32) a x).toNat < S10112.size a := fun v169 k2_hw49 => k2_hw49.1
theorem k2_idx195_inb : ∀ (v169 : IVec S16 32) (k2_hw49 : k2_chk49 v169), ∀ a x, ((![v169] : Fin 1 → IVec S16 32) a x).toNat < S10112.size a := fun v169 k2_hw49 => k2_hw49.2.1
theorem k2_idx197_inb : ∀ (v169 : IVec S16 32) (k2_hw49 : k2_chk49 v169), ∀ a x, ((![v169] : Fin 1 → IVec S16 32) a x).toNat < S10112.size a := fun v169 k2_hw49 => k2_hw49.2.2.1
theorem k2_idx199_inb : ∀ (v169 : IVec S16 32) (k2_hw49 : k2_chk49 v169), ∀ a x, ((![v169] : Fin 1 → IVec S16 32) a x).toNat < S10112.size a := fun v169 k2_hw49 => k2_hw49.2.2.2

def k2_chk50 (v170 : IVec S16 32) : Prop :=
  (∀ a x, ((![v170] : Fin 1 → IVec S16 32) a x).toNat < S10112.size a) ∧
  (∀ a x, ((![v170] : Fin 1 → IVec S16 32) a x).toNat < S10112.size a) ∧
  (∀ a x, ((![v170] : Fin 1 → IVec S16 32) a x).toNat < S10112.size a) ∧
  (∀ a x, ((![v170] : Fin 1 → IVec S16 32) a x).toNat < S10112.size a)
instance k2_chk50.dec : ∀ (v170 : IVec S16 32), Decidable (k2_chk50 v170) := fun v170 => decidable_of_iff' _ (Iff.of_eq (k2_chk50.eq_1 v170))
theorem k2_idx194_inb : ∀ (v170 : IVec S16 32) (k2_hw50 : k2_chk50 v170), ∀ a x, ((![v170] : Fin 1 → IVec S16 32) a x).toNat < S10112.size a := fun v170 k2_hw50 => k2_hw50.1
theorem k2_idx196_inb : ∀ (v170 : IVec S16 32) (k2_hw50 : k2_chk50 v170), ∀ a x, ((![v170] : Fin 1 → IVec S16 32) a x).toNat < S10112.size a := fun v170 k2_hw50 => k2_hw50.2.1
theorem k2_idx198_inb : ∀ (v170 : IVec S16 32) (k2_hw50 : k2_chk50 v170), ∀ a x, ((![v170] : Fin 1 → IVec S16 32) a x).toNat < S10112.size a := fun v170 k2_hw50 => k2_hw50.2.2.1
theorem k2_idx200_inb : ∀ (v170 : IVec S16 32) (k2_hw50 : k2_chk50 v170), ∀ a x, ((![v170] : Fin 1 → IVec S16 32) a x).toNat < S10112.size a := fun v170 k2_hw50 => k2_hw50.2.2.2

def k2_chk51 (v175 : IVec S16 32) : Prop :=
  (∀ a x, ((![v175] : Fin 1 → IVec S16 32) a x).toNat < S10112.size a) ∧
  (∀ a x, ((![v175] : Fin 1 → IVec S16 32) a x).toNat < S10112.size a) ∧
  (∀ a x, ((![v175] : Fin 1 → IVec S16 32) a x).toNat < S10112.size a) ∧
  (∀ a x, ((![v175] : Fin 1 → IVec S16 32) a x).toNat < S10112.size a)
instance k2_chk51.dec : ∀ (v175 : IVec S16 32), Decidable (k2_chk51 v175) := fun v175 => decidable_of_iff' _ (Iff.of_eq (k2_chk51.eq_1 v175))
theorem k2_idx201_inb : ∀ (v175 : IVec S16 32) (k2_hw51 : k2_chk51 v175), ∀ a x, ((![v175] : Fin 1 → IVec S16 32) a x).toNat < S10112.size a := fun v175 k2_hw51 => k2_hw51.1
theorem k2_idx203_inb : ∀ (v175 : IVec S16 32) (k2_hw51 : k2_chk51 v175), ∀ a x, ((![v175] : Fin 1 → IVec S16 32) a x).toNat < S10112.size a := fun v175 k2_hw51 => k2_hw51.2.1
theorem k2_idx205_inb : ∀ (v175 : IVec S16 32) (k2_hw51 : k2_chk51 v175), ∀ a x, ((![v175] : Fin 1 → IVec S16 32) a x).toNat < S10112.size a := fun v175 k2_hw51 => k2_hw51.2.2.1
theorem k2_idx207_inb : ∀ (v175 : IVec S16 32) (k2_hw51 : k2_chk51 v175), ∀ a x, ((![v175] : Fin 1 → IVec S16 32) a x).toNat < S10112.size a := fun v175 k2_hw51 => k2_hw51.2.2.2

def k2_chk52 (v176 : IVec S16 32) : Prop :=
  (∀ a x, ((![v176] : Fin 1 → IVec S16 32) a x).toNat < S10112.size a) ∧
  (∀ a x, ((![v176] : Fin 1 → IVec S16 32) a x).toNat < S10112.size a) ∧
  (∀ a x, ((![v176] : Fin 1 → IVec S16 32) a x).toNat < S10112.size a) ∧
  (∀ a x, ((![v176] : Fin 1 → IVec S16 32) a x).toNat < S10112.size a)
instance k2_chk52.dec : ∀ (v176 : IVec S16 32), Decidable (k2_chk52 v176) := fun v176 => decidable_of_iff' _ (Iff.of_eq (k2_chk52.eq_1 v176))
theorem k2_idx202_inb : ∀ (v176 : IVec S16 32) (k2_hw52 : k2_chk52 v176), ∀ a x, ((![v176] : Fin 1 → IVec S16 32) a x).toNat < S10112.size a := fun v176 k2_hw52 => k2_hw52.1
theorem k2_idx204_inb : ∀ (v176 : IVec S16 32) (k2_hw52 : k2_chk52 v176), ∀ a x, ((![v176] : Fin 1 → IVec S16 32) a x).toNat < S10112.size a := fun v176 k2_hw52 => k2_hw52.2.1
theorem k2_idx206_inb : ∀ (v176 : IVec S16 32) (k2_hw52 : k2_chk52 v176), ∀ a x, ((![v176] : Fin 1 → IVec S16 32) a x).toNat < S10112.size a := fun v176 k2_hw52 => k2_hw52.2.2.1
theorem k2_idx208_inb : ∀ (v176 : IVec S16 32) (k2_hw52 : k2_chk52 v176), ∀ a x, ((![v176] : Fin 1 → IVec S16 32) a x).toNat < S10112.size a := fun v176 k2_hw52 => k2_hw52.2.2.2

def k2_chk53 (v181 : IVec S16 32) : Prop :=
  (∀ a x, ((![v181] : Fin 1 → IVec S16 32) a x).toNat < S10112.size a) ∧
  (∀ a x, ((![v181] : Fin 1 → IVec S16 32) a x).toNat < S10112.size a) ∧
  (∀ a x, ((![v181] : Fin 1 → IVec S16 32) a x).toNat < S10112.size a) ∧
  (∀ a x, ((![v181] : Fin 1 → IVec S16 32) a x).toNat < S10112.size a)
instance k2_chk53.dec : ∀ (v181 : IVec S16 32), Decidable (k2_chk53 v181) := fun v181 => decidable_of_iff' _ (Iff.of_eq (k2_chk53.eq_1 v181))
theorem k2_idx209_inb : ∀ (v181 : IVec S16 32) (k2_hw53 : k2_chk53 v181), ∀ a x, ((![v181] : Fin 1 → IVec S16 32) a x).toNat < S10112.size a := fun v181 k2_hw53 => k2_hw53.1
theorem k2_idx211_inb : ∀ (v181 : IVec S16 32) (k2_hw53 : k2_chk53 v181), ∀ a x, ((![v181] : Fin 1 → IVec S16 32) a x).toNat < S10112.size a := fun v181 k2_hw53 => k2_hw53.2.1
theorem k2_idx213_inb : ∀ (v181 : IVec S16 32) (k2_hw53 : k2_chk53 v181), ∀ a x, ((![v181] : Fin 1 → IVec S16 32) a x).toNat < S10112.size a := fun v181 k2_hw53 => k2_hw53.2.2.1
theorem k2_idx215_inb : ∀ (v181 : IVec S16 32) (k2_hw53 : k2_chk53 v181), ∀ a x, ((![v181] : Fin 1 → IVec S16 32) a x).toNat < S10112.size a := fun v181 k2_hw53 => k2_hw53.2.2.2

def k2_chk54 (v182 : IVec S16 32) : Prop :=
  (∀ a x, ((![v182] : Fin 1 → IVec S16 32) a x).toNat < S10112.size a) ∧
  (∀ a x, ((![v182] : Fin 1 → IVec S16 32) a x).toNat < S10112.size a) ∧
  (∀ a x, ((![v182] : Fin 1 → IVec S16 32) a x).toNat < S10112.size a) ∧
  (∀ a x, ((![v182] : Fin 1 → IVec S16 32) a x).toNat < S10112.size a)
instance k2_chk54.dec : ∀ (v182 : IVec S16 32), Decidable (k2_chk54 v182) := fun v182 => decidable_of_iff' _ (Iff.of_eq (k2_chk54.eq_1 v182))
theorem k2_idx210_inb : ∀ (v182 : IVec S16 32) (k2_hw54 : k2_chk54 v182), ∀ a x, ((![v182] : Fin 1 → IVec S16 32) a x).toNat < S10112.size a := fun v182 k2_hw54 => k2_hw54.1
theorem k2_idx212_inb : ∀ (v182 : IVec S16 32) (k2_hw54 : k2_chk54 v182), ∀ a x, ((![v182] : Fin 1 → IVec S16 32) a x).toNat < S10112.size a := fun v182 k2_hw54 => k2_hw54.2.1
theorem k2_idx214_inb : ∀ (v182 : IVec S16 32) (k2_hw54 : k2_chk54 v182), ∀ a x, ((![v182] : Fin 1 → IVec S16 32) a x).toNat < S10112.size a := fun v182 k2_hw54 => k2_hw54.2.2.1
theorem k2_idx216_inb : ∀ (v182 : IVec S16 32) (k2_hw54 : k2_chk54 v182), ∀ a x, ((![v182] : Fin 1 → IVec S16 32) a x).toNat < S10112.size a := fun v182 k2_hw54 => k2_hw54.2.2.2

def k2_chk55 (v187 : IVec S16 32) : Prop :=
  (∀ a x, ((![v187] : Fin 1 → IVec S16 32) a x).toNat < S10112.size a) ∧
  (∀ a x, ((![v187] : Fin 1 → IVec S16 32) a x).toNat < S10112.size a) ∧
  (∀ a x, ((![v187] : Fin 1 → IVec S16 32) a x).toNat < S10112.size a) ∧
  (∀ a x, ((![v187] : Fin 1 → IVec S16 32) a x).toNat < S10112.size a)
instance k2_chk55.dec : ∀ (v187 : IVec S16 32), Decidable (k2_chk55 v187) := fun v187 => decidable_of_iff' _ (Iff.of_eq (k2_chk55.eq_1 v187))
theorem k2_idx217_inb : ∀ (v187 : IVec S16 32) (k2_hw55 : k2_chk55 v187), ∀ a x, ((![v187] : Fin 1 → IVec S16 32) a x).toNat < S10112.size a := fun v187 k2_hw55 => k2_hw55.1
theorem k2_idx219_inb : ∀ (v187 : IVec S16 32) (k2_hw55 : k2_chk55 v187), ∀ a x, ((![v187] : Fin 1 → IVec S16 32) a x).toNat < S10112.size a := fun v187 k2_hw55 => k2_hw55.2.1
theorem k2_idx221_inb : ∀ (v187 : IVec S16 32) (k2_hw55 : k2_chk55 v187), ∀ a x, ((![v187] : Fin 1 → IVec S16 32) a x).toNat < S10112.size a := fun v187 k2_hw55 => k2_hw55.2.2.1
theorem k2_idx223_inb : ∀ (v187 : IVec S16 32) (k2_hw55 : k2_chk55 v187), ∀ a x, ((![v187] : Fin 1 → IVec S16 32) a x).toNat < S10112.size a := fun v187 k2_hw55 => k2_hw55.2.2.2

def k2_chk56 (v188 : IVec S16 32) : Prop :=
  (∀ a x, ((![v188] : Fin 1 → IVec S16 32) a x).toNat < S10112.size a) ∧
  (∀ a x, ((![v188] : Fin 1 → IVec S16 32) a x).toNat < S10112.size a) ∧
  (∀ a x, ((![v188] : Fin 1 → IVec S16 32) a x).toNat < S10112.size a) ∧
  (∀ a x, ((![v188] : Fin 1 → IVec S16 32) a x).toNat < S10112.size a)
instance k2_chk56.dec : ∀ (v188 : IVec S16 32), Decidable (k2_chk56 v188) := fun v188 => decidable_of_iff' _ (Iff.of_eq (k2_chk56.eq_1 v188))
theorem k2_idx218_inb : ∀ (v188 : IVec S16 32) (k2_hw56 : k2_chk56 v188), ∀ a x, ((![v188] : Fin 1 → IVec S16 32) a x).toNat < S10112.size a := fun v188 k2_hw56 => k2_hw56.1
theorem k2_idx220_inb : ∀ (v188 : IVec S16 32) (k2_hw56 : k2_chk56 v188), ∀ a x, ((![v188] : Fin 1 → IVec S16 32) a x).toNat < S10112.size a := fun v188 k2_hw56 => k2_hw56.2.1
theorem k2_idx222_inb : ∀ (v188 : IVec S16 32) (k2_hw56 : k2_chk56 v188), ∀ a x, ((![v188] : Fin 1 → IVec S16 32) a x).toNat < S10112.size a := fun v188 k2_hw56 => k2_hw56.2.2.1
theorem k2_idx224_inb : ∀ (v188 : IVec S16 32) (k2_hw56 : k2_chk56 v188), ∀ a x, ((![v188] : Fin 1 → IVec S16 32) a x).toNat < S10112.size a := fun v188 k2_hw56 => k2_hw56.2.2.2

def k2_chk57 (v193 : IVec S16 32) : Prop :=
  (∀ a x, ((![v193] : Fin 1 → IVec S16 32) a x).toNat < S10112.size a) ∧
  (∀ a x, ((![v193] : Fin 1 → IVec S16 32) a x).toNat < S10112.size a) ∧
  (∀ a x, ((![v193] : Fin 1 → IVec S16 32) a x).toNat < S10112.size a) ∧
  (∀ a x, ((![v193] : Fin 1 → IVec S16 32) a x).toNat < S10112.size a)
instance k2_chk57.dec : ∀ (v193 : IVec S16 32), Decidable (k2_chk57 v193) := fun v193 => decidable_of_iff' _ (Iff.of_eq (k2_chk57.eq_1 v193))
theorem k2_idx225_inb : ∀ (v193 : IVec S16 32) (k2_hw57 : k2_chk57 v193), ∀ a x, ((![v193] : Fin 1 → IVec S16 32) a x).toNat < S10112.size a := fun v193 k2_hw57 => k2_hw57.1
theorem k2_idx227_inb : ∀ (v193 : IVec S16 32) (k2_hw57 : k2_chk57 v193), ∀ a x, ((![v193] : Fin 1 → IVec S16 32) a x).toNat < S10112.size a := fun v193 k2_hw57 => k2_hw57.2.1
theorem k2_idx229_inb : ∀ (v193 : IVec S16 32) (k2_hw57 : k2_chk57 v193), ∀ a x, ((![v193] : Fin 1 → IVec S16 32) a x).toNat < S10112.size a := fun v193 k2_hw57 => k2_hw57.2.2.1
theorem k2_idx231_inb : ∀ (v193 : IVec S16 32) (k2_hw57 : k2_chk57 v193), ∀ a x, ((![v193] : Fin 1 → IVec S16 32) a x).toNat < S10112.size a := fun v193 k2_hw57 => k2_hw57.2.2.2

def k2_chk58 (v194 : IVec S16 32) : Prop :=
  (∀ a x, ((![v194] : Fin 1 → IVec S16 32) a x).toNat < S10112.size a) ∧
  (∀ a x, ((![v194] : Fin 1 → IVec S16 32) a x).toNat < S10112.size a) ∧
  (∀ a x, ((![v194] : Fin 1 → IVec S16 32) a x).toNat < S10112.size a) ∧
  (∀ a x, ((![v194] : Fin 1 → IVec S16 32) a x).toNat < S10112.size a)
instance k2_chk58.dec : ∀ (v194 : IVec S16 32), Decidable (k2_chk58 v194) := fun v194 => decidable_of_iff' _ (Iff.of_eq (k2_chk58.eq_1 v194))
theorem k2_idx226_inb : ∀ (v194 : IVec S16 32) (k2_hw58 : k2_chk58 v194), ∀ a x, ((![v194] : Fin 1 → IVec S16 32) a x).toNat < S10112.size a := fun v194 k2_hw58 => k2_hw58.1
theorem k2_idx228_inb : ∀ (v194 : IVec S16 32) (k2_hw58 : k2_chk58 v194), ∀ a x, ((![v194] : Fin 1 → IVec S16 32) a x).toNat < S10112.size a := fun v194 k2_hw58 => k2_hw58.2.1
theorem k2_idx230_inb : ∀ (v194 : IVec S16 32) (k2_hw58 : k2_chk58 v194), ∀ a x, ((![v194] : Fin 1 → IVec S16 32) a x).toNat < S10112.size a := fun v194 k2_hw58 => k2_hw58.2.2.1
theorem k2_idx232_inb : ∀ (v194 : IVec S16 32) (k2_hw58 : k2_chk58 v194), ∀ a x, ((![v194] : Fin 1 → IVec S16 32) a x).toNat < S10112.size a := fun v194 k2_hw58 => k2_hw58.2.2.2

def k2_chk59 (v199 : IVec S16 32) : Prop :=
  (∀ a x, ((![v199] : Fin 1 → IVec S16 32) a x).toNat < S10112.size a) ∧
  (∀ a x, ((![v199] : Fin 1 → IVec S16 32) a x).toNat < S10112.size a) ∧
  (∀ a x, ((![v199] : Fin 1 → IVec S16 32) a x).toNat < S10112.size a) ∧
  (∀ a x, ((![v199] : Fin 1 → IVec S16 32) a x).toNat < S10112.size a)
instance k2_chk59.dec : ∀ (v199 : IVec S16 32), Decidable (k2_chk59 v199) := fun v199 => decidable_of_iff' _ (Iff.of_eq (k2_chk59.eq_1 v199))
theorem k2_idx233_inb : ∀ (v199 : IVec S16 32) (k2_hw59 : k2_chk59 v199), ∀ a x, ((![v199] : Fin 1 → IVec S16 32) a x).toNat < S10112.size a := fun v199 k2_hw59 => k2_hw59.1
theorem k2_idx235_inb : ∀ (v199 : IVec S16 32) (k2_hw59 : k2_chk59 v199), ∀ a x, ((![v199] : Fin 1 → IVec S16 32) a x).toNat < S10112.size a := fun v199 k2_hw59 => k2_hw59.2.1
theorem k2_idx237_inb : ∀ (v199 : IVec S16 32) (k2_hw59 : k2_chk59 v199), ∀ a x, ((![v199] : Fin 1 → IVec S16 32) a x).toNat < S10112.size a := fun v199 k2_hw59 => k2_hw59.2.2.1
theorem k2_idx239_inb : ∀ (v199 : IVec S16 32) (k2_hw59 : k2_chk59 v199), ∀ a x, ((![v199] : Fin 1 → IVec S16 32) a x).toNat < S10112.size a := fun v199 k2_hw59 => k2_hw59.2.2.2

def k2_chk60 (v200 : IVec S16 32) : Prop :=
  (∀ a x, ((![v200] : Fin 1 → IVec S16 32) a x).toNat < S10112.size a) ∧
  (∀ a x, ((![v200] : Fin 1 → IVec S16 32) a x).toNat < S10112.size a) ∧
  (∀ a x, ((![v200] : Fin 1 → IVec S16 32) a x).toNat < S10112.size a) ∧
  (∀ a x, ((![v200] : Fin 1 → IVec S16 32) a x).toNat < S10112.size a)
instance k2_chk60.dec : ∀ (v200 : IVec S16 32), Decidable (k2_chk60 v200) := fun v200 => decidable_of_iff' _ (Iff.of_eq (k2_chk60.eq_1 v200))
theorem k2_idx234_inb : ∀ (v200 : IVec S16 32) (k2_hw60 : k2_chk60 v200), ∀ a x, ((![v200] : Fin 1 → IVec S16 32) a x).toNat < S10112.size a := fun v200 k2_hw60 => k2_hw60.1
theorem k2_idx236_inb : ∀ (v200 : IVec S16 32) (k2_hw60 : k2_chk60 v200), ∀ a x, ((![v200] : Fin 1 → IVec S16 32) a x).toNat < S10112.size a := fun v200 k2_hw60 => k2_hw60.2.1
theorem k2_idx238_inb : ∀ (v200 : IVec S16 32) (k2_hw60 : k2_chk60 v200), ∀ a x, ((![v200] : Fin 1 → IVec S16 32) a x).toNat < S10112.size a := fun v200 k2_hw60 => k2_hw60.2.2.1
theorem k2_idx240_inb : ∀ (v200 : IVec S16 32) (k2_hw60 : k2_chk60 v200), ∀ a x, ((![v200] : Fin 1 → IVec S16 32) a x).toNat < S10112.size a := fun v200 k2_hw60 => k2_hw60.2.2.2

def k2_chk61 (v205 : IVec S16 32) : Prop :=
  (∀ a x, ((![v205] : Fin 1 → IVec S16 32) a x).toNat < S10112.size a) ∧
  (∀ a x, ((![v205] : Fin 1 → IVec S16 32) a x).toNat < S10112.size a) ∧
  (∀ a x, ((![v205] : Fin 1 → IVec S16 32) a x).toNat < S10112.size a) ∧
  (∀ a x, ((![v205] : Fin 1 → IVec S16 32) a x).toNat < S10112.size a)
instance k2_chk61.dec : ∀ (v205 : IVec S16 32), Decidable (k2_chk61 v205) := fun v205 => decidable_of_iff' _ (Iff.of_eq (k2_chk61.eq_1 v205))
theorem k2_idx241_inb : ∀ (v205 : IVec S16 32) (k2_hw61 : k2_chk61 v205), ∀ a x, ((![v205] : Fin 1 → IVec S16 32) a x).toNat < S10112.size a := fun v205 k2_hw61 => k2_hw61.1
theorem k2_idx243_inb : ∀ (v205 : IVec S16 32) (k2_hw61 : k2_chk61 v205), ∀ a x, ((![v205] : Fin 1 → IVec S16 32) a x).toNat < S10112.size a := fun v205 k2_hw61 => k2_hw61.2.1
theorem k2_idx245_inb : ∀ (v205 : IVec S16 32) (k2_hw61 : k2_chk61 v205), ∀ a x, ((![v205] : Fin 1 → IVec S16 32) a x).toNat < S10112.size a := fun v205 k2_hw61 => k2_hw61.2.2.1
theorem k2_idx247_inb : ∀ (v205 : IVec S16 32) (k2_hw61 : k2_chk61 v205), ∀ a x, ((![v205] : Fin 1 → IVec S16 32) a x).toNat < S10112.size a := fun v205 k2_hw61 => k2_hw61.2.2.2

def k2_chk62 (v206 : IVec S16 32) : Prop :=
  (∀ a x, ((![v206] : Fin 1 → IVec S16 32) a x).toNat < S10112.size a) ∧
  (∀ a x, ((![v206] : Fin 1 → IVec S16 32) a x).toNat < S10112.size a) ∧
  (∀ a x, ((![v206] : Fin 1 → IVec S16 32) a x).toNat < S10112.size a) ∧
  (∀ a x, ((![v206] : Fin 1 → IVec S16 32) a x).toNat < S10112.size a)
instance k2_chk62.dec : ∀ (v206 : IVec S16 32), Decidable (k2_chk62 v206) := fun v206 => decidable_of_iff' _ (Iff.of_eq (k2_chk62.eq_1 v206))
theorem k2_idx242_inb : ∀ (v206 : IVec S16 32) (k2_hw62 : k2_chk62 v206), ∀ a x, ((![v206] : Fin 1 → IVec S16 32) a x).toNat < S10112.size a := fun v206 k2_hw62 => k2_hw62.1
theorem k2_idx244_inb : ∀ (v206 : IVec S16 32) (k2_hw62 : k2_chk62 v206), ∀ a x, ((![v206] : Fin 1 → IVec S16 32) a x).toNat < S10112.size a := fun v206 k2_hw62 => k2_hw62.2.1
theorem k2_idx246_inb : ∀ (v206 : IVec S16 32) (k2_hw62 : k2_chk62 v206), ∀ a x, ((![v206] : Fin 1 → IVec S16 32) a x).toNat < S10112.size a := fun v206 k2_hw62 => k2_hw62.2.2.1
theorem k2_idx248_inb : ∀ (v206 : IVec S16 32) (k2_hw62 : k2_chk62 v206), ∀ a x, ((![v206] : Fin 1 → IVec S16 32) a x).toNat < S10112.size a := fun v206 k2_hw62 => k2_hw62.2.2.2

def k2_chk63 (v211 : IVec S16 32) : Prop :=
  (∀ a x, ((![v211] : Fin 1 → IVec S16 32) a x).toNat < S10112.size a) ∧
  (∀ a x, ((![v211] : Fin 1 → IVec S16 32) a x).toNat < S10112.size a) ∧
  (∀ a x, ((![v211] : Fin 1 → IVec S16 32) a x).toNat < S10112.size a) ∧
  (∀ a x, ((![v211] : Fin 1 → IVec S16 32) a x).toNat < S10112.size a)
instance k2_chk63.dec : ∀ (v211 : IVec S16 32), Decidable (k2_chk63 v211) := fun v211 => decidable_of_iff' _ (Iff.of_eq (k2_chk63.eq_1 v211))
theorem k2_idx249_inb : ∀ (v211 : IVec S16 32) (k2_hw63 : k2_chk63 v211), ∀ a x, ((![v211] : Fin 1 → IVec S16 32) a x).toNat < S10112.size a := fun v211 k2_hw63 => k2_hw63.1
theorem k2_idx251_inb : ∀ (v211 : IVec S16 32) (k2_hw63 : k2_chk63 v211), ∀ a x, ((![v211] : Fin 1 → IVec S16 32) a x).toNat < S10112.size a := fun v211 k2_hw63 => k2_hw63.2.1
theorem k2_idx253_inb : ∀ (v211 : IVec S16 32) (k2_hw63 : k2_chk63 v211), ∀ a x, ((![v211] : Fin 1 → IVec S16 32) a x).toNat < S10112.size a := fun v211 k2_hw63 => k2_hw63.2.2.1
theorem k2_idx255_inb : ∀ (v211 : IVec S16 32) (k2_hw63 : k2_chk63 v211), ∀ a x, ((![v211] : Fin 1 → IVec S16 32) a x).toNat < S10112.size a := fun v211 k2_hw63 => k2_hw63.2.2.2

def k2_chk64 (v212 : IVec S16 32) : Prop :=
  (∀ a x, ((![v212] : Fin 1 → IVec S16 32) a x).toNat < S10112.size a) ∧
  (∀ a x, ((![v212] : Fin 1 → IVec S16 32) a x).toNat < S10112.size a) ∧
  (∀ a x, ((![v212] : Fin 1 → IVec S16 32) a x).toNat < S10112.size a) ∧
  (∀ a x, ((![v212] : Fin 1 → IVec S16 32) a x).toNat < S10112.size a)
instance k2_chk64.dec : ∀ (v212 : IVec S16 32), Decidable (k2_chk64 v212) := fun v212 => decidable_of_iff' _ (Iff.of_eq (k2_chk64.eq_1 v212))
theorem k2_idx250_inb : ∀ (v212 : IVec S16 32) (k2_hw64 : k2_chk64 v212), ∀ a x, ((![v212] : Fin 1 → IVec S16 32) a x).toNat < S10112.size a := fun v212 k2_hw64 => k2_hw64.1
theorem k2_idx252_inb : ∀ (v212 : IVec S16 32) (k2_hw64 : k2_chk64 v212), ∀ a x, ((![v212] : Fin 1 → IVec S16 32) a x).toNat < S10112.size a := fun v212 k2_hw64 => k2_hw64.2.1
theorem k2_idx254_inb : ∀ (v212 : IVec S16 32) (k2_hw64 : k2_chk64 v212), ∀ a x, ((![v212] : Fin 1 → IVec S16 32) a x).toNat < S10112.size a := fun v212 k2_hw64 => k2_hw64.2.2.1
theorem k2_idx256_inb : ∀ (v212 : IVec S16 32) (k2_hw64 : k2_chk64 v212), ∀ a x, ((![v212] : Fin 1 → IVec S16 32) a x).toNat < S10112.size a := fun v212 k2_hw64 => k2_hw64.2.2.2
abbrev grid3 : Pipeline.Grid := .none

abbrev stage3_0 : Fin 1 → Memref sig .tc .vmem S128x10112 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S128x10112 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S16x10112 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S128x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

abbrev stage3_6 : Fin 1 → Memref sig .tc .vmem S128x16 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))

abbrev stage3_7 : Fin 1 → Memref sig .tc .vmem S1x16 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))

abbrev stage3_8 : Fin 1 → Memref sig .tc .vmem S10112x16 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S7680 : S_.BroadcastsInDim S7680 (![] : Fin 0 → Fin S7680.rank)
  concatenates_S320000_S7680_S327680_d0 : Shape.Concatenates [S320000, S7680] S327680 0
  transposes_S10000x128_S128x10000_1_0 : S10000x128.Transposes [1, 0] S128x10000
  bcast_S_S128x112 : S_.BroadcastsInDim S128x112 (![] : Fin 0 → Fin S128x112.rank)
  concatenates_S128x10000_S128x112_S128x10112_d1 : Shape.Concatenates [S128x10000, S128x112] S128x10112 1
  shapeCasts_S128x10112_S1294336 : S128x10112.ShapeCasts S1294336
  h_S16 : 0 < S16.numel
  inb_S512_S16_0 : ∀ a, (![0] : Fin 1 → Nat) a + S16.size a ≤ S512.size a
  h_S10112 : 0 < S10112.numel
  inb_S512_S16_16 : ∀ a, (![16] : Fin 1 → Nat) a + S16.size a ≤ S512.size a
  inb_S512_S16_32 : ∀ a, (![32] : Fin 1 → Nat) a + S16.size a ≤ S512.size a
  inb_S512_S16_48 : ∀ a, (![48] : Fin 1 → Nat) a + S16.size a ≤ S512.size a
  inb_S512_S16_64 : ∀ a, (![64] : Fin 1 → Nat) a + S16.size a ≤ S512.size a
  inb_S512_S16_80 : ∀ a, (![80] : Fin 1 → Nat) a + S16.size a ≤ S512.size a
  inb_S512_S16_96 : ∀ a, (![96] : Fin 1 → Nat) a + S16.size a ≤ S512.size a
  inb_S512_S16_112 : ∀ a, (![112] : Fin 1 → Nat) a + S16.size a ≤ S512.size a
  inb_S512_S16_128 : ∀ a, (![128] : Fin 1 → Nat) a + S16.size a ≤ S512.size a
  inb_S512_S16_144 : ∀ a, (![144] : Fin 1 → Nat) a + S16.size a ≤ S512.size a
  inb_S512_S16_160 : ∀ a, (![160] : Fin 1 → Nat) a + S16.size a ≤ S512.size a
  inb_S512_S16_176 : ∀ a, (![176] : Fin 1 → Nat) a + S16.size a ≤ S512.size a
  inb_S512_S16_192 : ∀ a, (![192] : Fin 1 → Nat) a + S16.size a ≤ S512.size a
  inb_S512_S16_208 : ∀ a, (![208] : Fin 1 → Nat) a + S16.size a ≤ S512.size a
  inb_S512_S16_224 : ∀ a, (![224] : Fin 1 → Nat) a + S16.size a ≤ S512.size a
  inb_S512_S16_240 : ∀ a, (![240] : Fin 1 → Nat) a + S16.size a ≤ S512.size a
  inb_S512_S16_256 : ∀ a, (![256] : Fin 1 → Nat) a + S16.size a ≤ S512.size a
  inb_S512_S16_272 : ∀ a, (![272] : Fin 1 → Nat) a + S16.size a ≤ S512.size a
  inb_S512_S16_288 : ∀ a, (![288] : Fin 1 → Nat) a + S16.size a ≤ S512.size a
  inb_S512_S16_304 : ∀ a, (![304] : Fin 1 → Nat) a + S16.size a ≤ S512.size a
  inb_S512_S16_320 : ∀ a, (![320] : Fin 1 → Nat) a + S16.size a ≤ S512.size a
  inb_S512_S16_336 : ∀ a, (![336] : Fin 1 → Nat) a + S16.size a ≤ S512.size a
  inb_S512_S16_352 : ∀ a, (![352] : Fin 1 → Nat) a + S16.size a ≤ S512.size a
  inb_S512_S16_368 : ∀ a, (![368] : Fin 1 → Nat) a + S16.size a ≤ S512.size a
  inb_S512_S16_384 : ∀ a, (![384] : Fin 1 → Nat) a + S16.size a ≤ S512.size a
  inb_S512_S16_400 : ∀ a, (![400] : Fin 1 → Nat) a + S16.size a ≤ S512.size a
  inb_S512_S16_416 : ∀ a, (![416] : Fin 1 → Nat) a + S16.size a ≤ S512.size a
  inb_S512_S16_432 : ∀ a, (![432] : Fin 1 → Nat) a + S16.size a ≤ S512.size a
  inb_S512_S16_448 : ∀ a, (![448] : Fin 1 → Nat) a + S16.size a ≤ S512.size a
  inb_S512_S16_464 : ∀ a, (![464] : Fin 1 → Nat) a + S16.size a ≤ S512.size a
  inb_S512_S16_480 : ∀ a, (![480] : Fin 1 → Nat) a + S16.size a ≤ S512.size a
  inb_S512_S16_496 : ∀ a, (![496] : Fin 1 → Nat) a + S16.size a ≤ S512.size a
  shapeCasts_S1294336_S128x10112 : S1294336.ShapeCasts S128x10112
  shapeCasts_S161792_S16x10112 : S161792.ShapeCasts S16x10112
  shapeCasts_S128_S128x1 : S128.ShapeCasts S128x1
  inb_S16x10112_S16x10112_0_0 : ∀ a, (![0, 0] : Fin 2 → Nat) a + S16x10112.size a ≤ S16x10112.size a
  h_S16x10112 : 0 < S16x10112.numel
  shapeCasts_S16x10112_S16x10112 : S16x10112.ShapeCasts S16x10112
  reduces_S16x10112_S10112 : S16x10112.Reduces [0] S10112
  shapeCasts_S10112_S1x10112 : S10112.ShapeCasts S1x10112
  inb_S128x10112_S128x10112_0_0 : ∀ a, (![0, 0] : Fin 2 → Nat) a + S128x10112.size a ≤ S128x10112.size a
  h_S128x10112 : 0 < S128x10112.numel
  shapeCasts_S128x10112_S128x10112 : S128x10112.ShapeCasts S128x10112
  broadcasts_S1x10112_S128x10112 : S1x10112.Broadcasts S128x10112
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x10112 : S128x1.Broadcasts S128x10112
  shapeCasts_S16_S1x16 : S16.ShapeCasts S1x16
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10112x16 : S1x16.Broadcasts S10112x16
  inb_S10112x16_S10112x16_0_0 : ∀ a, (![0, 0] : Fin 2 → Nat) a + S10112x16.size a ≤ S10112x16.size a
  h_S10112x16 : 0 < S10112x16.numel
  slices_S10112x16_S10000x16_0_0 : S10112x16.Slices ![0, 0] S10000x16
  dot_S128x128_S128x10112_S128x10112_0_0_1_1_n_n_wf : DotDims.WF S128x128 S128x10112 S128x10112 [0] [0] [1] [1] [] []
  dot_S128x10112_S128x16_S10112x16_0_0_1_1_n_n_wf : DotDims.WF S128x10112 S128x16 S10112x16 [0] [0] [1] [1] [] []
  hcc0_scoped0 : 0 + S_.numel ≤ 37
  hcc0_scoped1 : 1 + S_.numel ≤ 37
  hcc0_scoped2 : 2 + S_.numel ≤ 37
  hcc0_scoped3 : 3 + S_.numel ≤ 37
  hcc0_scoped4 : 4 + S_.numel ≤ 37
  hcc0_scoped5 : 5 + S_.numel ≤ 37
  hcc0_scoped6 : 6 + S_.numel ≤ 37
  hcc0_scoped7 : 7 + S_.numel ≤ 37
  hcc0_scoped8 : 8 + S_.numel ≤ 37
  hcc0_scoped9 : 9 + S_.numel ≤ 37
  hcc0_scoped10 : 10 + S_.numel ≤ 37
  hcc2_scoped0 : 18 + S_.numel ≤ 37
  hcc2_scoped1 : 19 + S_.numel ≤ 37
  hcc2_scoped2 : 20 + S_.numel ≤ 37
  hcc2_scoped3 : 21 + S_.numel ≤ 37
  hcc2_scoped4 : 22 + S_.numel ≤ 37
  hcc2_scoped5 : 23 + S_.numel ≤ 37
  hcc2_scoped6 : 24 + S_.numel ≤ 37
  hcc2_scoped7 : 25 + S_.numel ≤ 37
  hcc2_scoped8 : 26 + S_.numel ≤ 37
  hcc2_scoped9 : 27 + S_.numel ≤ 37
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 4), ∀ a, (k0_off1 i (BitVec.ofNat 32 (10112 * r.val))) a + S10112.size a ≤ S1294336.size a
  k0_t1_ok : k0_t1_loop.OK
  k0_off2_inb : ∀ k0_t1 : Fin k0_t1_loop.trips, ∀ a, (k0_off2 k0_t1) a + S16.size a ≤ S10112.size a
  k0_t2_ok : k0_t2_loop.OK
  k0_off3_inb : ∀ k0_t2 : Fin k0_t2_loop.trips, ∀ a, (k0_off3 k0_t2) a + S16.size a ≤ S10112.size a
  k0_t3_ok : k0_t3_loop.OK
  k0_off4_inb : ∀ k0_t3 : Fin k0_t3_loop.trips, ∀ a, (k0_off4 k0_t3) a + S16.size a ≤ S10112.size a
  k0_t4_ok : k0_t4_loop.OK
  k0_off5_inb : ∀ k0_t4 : Fin k0_t4_loop.trips, ∀ a, (k0_off5 k0_t4) a + S16.size a ≤ S10112.size a
  k0_t5_ok : ∀ i : grid0.Coords, ∀ (k0_h1 : k0_cond1 i = 1#1), k0_t5_loop.OK
  k0_off6_inb : ∀ (i : grid0.Coords) (k0_t5 : Fin k0_t5_loop.trips), ∀ (k0_h1 : k0_cond1 i = 1#1), ∀ a, (k0_off6 k0_t5) a + S16.size a ≤ S10112.size a
  k0_t6_ok : k0_t6_loop.OK
  k0_off7_inb : ∀ k0_t6 : Fin k0_t6_loop.trips, ∀ a, (k0_off7 k0_t6) a + S512.size a ≤ S327680.size a
  k0_off8_inb : ∀ i : grid0.Coords, ∀ (k0_h2 : k0_cond2 i = 1#1), ∀ a, (k0_off8 i) a + S10112.size a ≤ S161792.size a
  hstage1_0 : ∀ j, (stage1_0 j).IsWhole
  hstage1_1 : ∀ j, (stage1_1 j).IsWhole
  hstage1_2 : ∀ j, (stage1_2 j).IsWhole
  hstage1_3 : ∀ j, (stage1_3 j).IsWhole
  hstage1_4 : ∀ j, (stage1_4 j).IsWhole
  hstage1_5 : ∀ j, (stage1_5 j).IsWhole
  hstage1_6 : ∀ j, (stage1_6 j).IsWhole
  hcore2 : grid2.bound 0 ≤ τ.nSC
  hsub2 : grid2.bound 1 ≤ τ.nSub
  k2_off1_inb : ∀ i : grid2.Coords, ∀ (r : Fin 4), ∀ a, (k2_off1 i (BitVec.ofNat 32 (10112 * r.val))) a + S10112.size a ≤ S1294336.size a
  k2_t1_ok : k2_t1_loop.OK
  k2_off2_inb : ∀ k2_t1 : Fin k2_t1_loop.trips, ∀ a, (k2_off2 k2_t1) a + S16.size a ≤ S10112.size a
  k2_t2_ok : k2_t2_loop.OK
  k2_off3_inb : ∀ k2_t2 : Fin k2_t2_loop.trips, ∀ a, (k2_off3 k2_t2) a + S16.size a ≤ S10112.size a
  k2_t3_ok : k2_t3_loop.OK
  k2_off4_inb : ∀ k2_t3 : Fin k2_t3_loop.trips, ∀ a, (k2_off4 k2_t3) a + S16.size a ≤ S10112.size a
  k2_t4_ok : k2_t4_loop.OK
  k2_off5_inb : ∀ k2_t4 : Fin k2_t4_loop.trips, ∀ a, (k2_off5 k2_t4) a + S16.size a ≤ S10112.size a
  k2_t5_ok : k2_t5_loop.OK
  k2_off6_inb : ∀ k2_t5 : Fin k2_t5_loop.trips, ∀ a, (k2_off6 k2_t5) a + S512.size a ≤ S327680.size a
  hstage3_0 : ∀ j, (stage3_0 j).IsWhole
  hstage3_1 : ∀ j, (stage3_1 j).IsWhole
  hstage3_2 : ∀ j, (stage3_2 j).IsWhole
  hstage3_3 : ∀ j, (stage3_3 j).IsWhole
  hstage3_4 : ∀ j, (stage3_4 j).IsWhole
  hstage3_5 : ∀ j, (stage3_5 j).IsWhole
  hstage3_6 : ∀ j, (stage3_6 j).IsWhole
  hstage3_7 : ∀ j, (stage3_7 j).IsWhole
  hstage3_8 : ∀ j, (stage3_8 j).IsWhole

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
abbrev cc0_scoped3 : DmaSems sig S_ := SemArray.consecutive 3 S_ hcc0_scoped3
abbrev cc0_scoped4 : DmaSems sig S_ := SemArray.consecutive 4 S_ hcc0_scoped4
abbrev cc0_scoped5 : DmaSems sig S_ := SemArray.consecutive 5 S_ hcc0_scoped5
abbrev cc0_scoped6 : DmaSems sig S_ := SemArray.consecutive 6 S_ hcc0_scoped6
abbrev cc0_scoped7 : DmaSems sig S_ := SemArray.consecutive 7 S_ hcc0_scoped7
abbrev cc0_scoped8 : DmaSems sig S_ := SemArray.consecutive 8 S_ hcc0_scoped8
abbrev cc0_scoped9 : DmaSems sig S_ := SemArray.consecutive 9 S_ hcc0_scoped9
abbrev cc0_scoped10 : DmaSems sig S_ := SemArray.consecutive 10 S_ hcc0_scoped10
abbrev cc2_scoped0 : DmaSems sig S_ := SemArray.consecutive 18 S_ hcc2_scoped0
abbrev cc2_scoped1 : DmaSems sig S_ := SemArray.consecutive 19 S_ hcc2_scoped1
abbrev cc2_scoped2 : DmaSems sig S_ := SemArray.consecutive 20 S_ hcc2_scoped2
abbrev cc2_scoped3 : DmaSems sig S_ := SemArray.consecutive 21 S_ hcc2_scoped3
abbrev cc2_scoped4 : DmaSems sig S_ := SemArray.consecutive 22 S_ hcc2_scoped4
abbrev cc2_scoped5 : DmaSems sig S_ := SemArray.consecutive 23 S_ hcc2_scoped5
abbrev cc2_scoped6 : DmaSems sig S_ := SemArray.consecutive 24 S_ hcc2_scoped6
abbrev cc2_scoped7 : DmaSems sig S_ := SemArray.consecutive 25 S_ hcc2_scoped7
abbrev cc2_scoped8 : DmaSems sig S_ := SemArray.consecutive 26 S_ hcc2_scoped8
abbrev cc2_scoped9 : DmaSems sig S_ := SemArray.consecutive 27 S_ hcc2_scoped9
def dot_S128x128_S128x10112_S128x10112_0_0_1_1_n_n : DotDims S128x128 S128x10112 S128x10112 where
  lhsContracting := [0]
  rhsContracting := [0]
  lhsNonContracting := [1]
  rhsNonContracting := [1]
  lhsBatch := []
  rhsBatch := []
  wf := dot_S128x128_S128x10112_S128x10112_0_0_1_1_n_n_wf
def dot_S128x10112_S128x16_S10112x16_0_0_1_1_n_n : DotDims S128x10112 S128x16 S10112x16 where
  lhsContracting := [0]
  rhsContracting := [0]
  lhsNonContracting := [1]
  rhsNonContracting := [1]
  lhsBatch := []
  rhsBatch := []
  wf := dot_S128x10112_S128x16_S10112x16_0_0_1_1_n_n_wf

abbrev win1_0 : Pipeline.Window sig grid1 :=
  Pipeline.Window.whole (Memref.whole main_v10) false false (stage1_0 0) (sem1_0 0) (Memref.isWhole_whole _) (hstage1_0 0)

abbrev win1_1 : Pipeline.Window sig grid1 :=
  Pipeline.Window.whole (Memref.whole main_v13) false false (stage1_1 0) (sem1_1 0) (Memref.isWhole_whole _) (hstage1_1 0)

abbrev win1_2 : Pipeline.Window sig grid1 :=
  Pipeline.Window.whole (Memref.whole main_v14) false false (stage1_2 0) (sem1_2 0) (Memref.isWhole_whole _) (hstage1_2 0)

abbrev win1_3 : Pipeline.Window sig grid1 :=
  Pipeline.Window.whole (Memref.whole main_arg2) false false (stage1_3 0) (sem1_3 0) (Memref.isWhole_whole _) (hstage1_3 0)

abbrev win1_4 : Pipeline.Window sig grid1 :=
  Pipeline.Window.whole (Memref.whole main_v15) false false (stage1_4 0) (sem1_4 0) (Memref.isWhole_whole _) (hstage1_4 0)

abbrev win1_5 : Pipeline.Window sig grid1 :=
  Pipeline.Window.whole (Memref.whole main_arg4) false false (stage1_5 0) (sem1_5 0) (Memref.isWhole_whole _) (hstage1_5 0)

abbrev win1_6 : Pipeline.Window sig grid1 :=
  Pipeline.Window.whole (Memref.whole main_v16) true false (stage1_6 0) (sem1_6 0) (Memref.isWhole_whole _) (hstage1_6 0)

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win3_0 : Pipeline.Window sig grid3 :=
  Pipeline.Window.whole (Memref.whole main_v16) false false (stage3_0 0) (sem3_0 0) (Memref.isWhole_whole _) (hstage3_0 0)

abbrev win3_1 : Pipeline.Window sig grid3 :=
  Pipeline.Window.whole (Memref.whole main_v19) false false (stage3_1 0) (sem3_1 0) (Memref.isWhole_whole _) (hstage3_1 0)

abbrev win3_2 : Pipeline.Window sig grid3 :=
  Pipeline.Window.whole (Memref.whole main_v14) false false (stage3_2 0) (sem3_2 0) (Memref.isWhole_whole _) (hstage3_2 0)

abbrev win3_3 : Pipeline.Window sig grid3 :=
  Pipeline.Window.whole (Memref.whole main_arg5) false false (stage3_3 0) (sem3_3 0) (Memref.isWhole_whole _) (hstage3_3 0)

abbrev win3_4 : Pipeline.Window sig grid3 :=
  Pipeline.Window.whole (Memref.whole main_v20) false false (stage3_4 0) (sem3_4 0) (Memref.isWhole_whole _) (hstage3_4 0)

abbrev win3_5 : Pipeline.Window sig grid3 :=
  Pipeline.Window.whole (Memref.whole main_arg7) false false (stage3_5 0) (sem3_5 0) (Memref.isWhole_whole _) (hstage3_5 0)

abbrev win3_6 : Pipeline.Window sig grid3 :=
  Pipeline.Window.whole (Memref.whole main_arg8) false false (stage3_6 0) (sem3_6 0) (Memref.isWhole_whole _) (hstage3_6 0)

abbrev win3_7 : Pipeline.Window sig grid3 :=
  Pipeline.Window.whole (Memref.whole main_v21) false false (stage3_7 0) (sem3_7 0) (Memref.isWhole_whole _) (hstage3_7 0)

abbrev win3_8 : Pipeline.Window sig grid3 :=
  Pipeline.Window.whole (Memref.whole main_v22) true false (stage3_8 0) (sem3_8 0) (Memref.isWhole_whole _) (hstage3_8 0)

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x128 : Shape := ⟨2, ![320000, 128]⟩
abbrev S10000 : Shape := ⟨1, ![10000]⟩
abbrev S10000x1 : Shape := ⟨2, ![10000, 1]⟩
abbrev S1x128 : Shape := ⟨2, ![1, 128]⟩
abbrev S10000x16 : Shape := ⟨2, ![10000, 16]⟩
abbrev S1x16 : Shape := ⟨2, ![1, 16]⟩

abbrev nBuf : Space → Nat
  | .hbm => 86
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x16, .f32⟩
  | .hbm, ⟨9, _⟩ => ⟨S16, .f32⟩
  | .hbm, ⟨10, _⟩ => ⟨S1x320000, .i32⟩
  | .hbm, ⟨11, _⟩ => ⟨S320000, .i32⟩
  | .hbm, ⟨12, _⟩ => ⟨S1x320000, .i32⟩
  | .hbm, ⟨13, _⟩ => ⟨S320000, .i32⟩
  | .hbm, ⟨14, _⟩ => ⟨S_, .i32⟩
  | .hbm, ⟨15, _⟩ => ⟨S320000, .i32⟩
  | .hbm, ⟨16, _⟩ => ⟨S320000, .i1⟩
  | .hbm, ⟨17, _⟩ => ⟨S_, .i32⟩
  | .hbm, ⟨18, _⟩ => ⟨S320000, .i32⟩
  | .hbm, ⟨19, _⟩ => ⟨S320000, .i32⟩
  | .hbm, ⟨20, _⟩ => ⟨S320000, .i32⟩
  | .hbm, ⟨21, _⟩ => ⟨S320000x1, .i32⟩
  | .hbm, ⟨22, _⟩ => ⟨S320000x128, .f32⟩
  | .hbm, ⟨23, _⟩ => ⟨S_, .f32⟩
  | .hbm, ⟨24, _⟩ => ⟨S10000x128, .f32⟩
  | .hbm, ⟨25, _⟩ => ⟨S320000x1, .i32⟩
  | .hbm, ⟨26, _⟩ => ⟨S10000x128, .f32⟩
  | .hbm, ⟨27, _⟩ => ⟨S_, .f32⟩
  | .hbm, ⟨28, _⟩ => ⟨S320000, .f32⟩
  | .hbm, ⟨29, _⟩ => ⟨S_, .f32⟩
  | .hbm, ⟨30, _⟩ => ⟨S10000, .f32⟩
  | .hbm, ⟨31, _⟩ => ⟨S320000x1, .i32⟩
  | .hbm, ⟨32, _⟩ => ⟨S10000, .f32⟩
  | .hbm, ⟨33, _⟩ => ⟨S_, .f32⟩
  | .hbm, ⟨34, _⟩ => ⟨S10000, .f32⟩
  | .hbm, ⟨35, _⟩ => ⟨S10000, .f32⟩
  | .hbm, ⟨36, _⟩ => ⟨S10000x1, .f32⟩
  | .hbm, ⟨37, _⟩ => ⟨S10000x128, .f32⟩
  | .hbm, ⟨38, _⟩ => ⟨S10000x128, .f32⟩
  | .hbm, ⟨39, _⟩ => ⟨S10000x128, .f32⟩
  | .hbm, ⟨40, _⟩ => ⟨S1x128, .f32⟩
  | .hbm, ⟨41, _⟩ => ⟨S10000x128, .f32⟩
  | .hbm, ⟨42, _⟩ => ⟨S10000x128, .f32⟩
  | .hbm, ⟨43, _⟩ => ⟨S10000x128, .f32⟩
  | .hbm, ⟨44, _⟩ => ⟨S10000x128, .f32⟩
  | .hbm, ⟨45, _⟩ => ⟨S_, .f32⟩
  | .hbm, ⟨46, _⟩ => ⟨S10000x128, .f32⟩
  | .hbm, ⟨47, _⟩ => ⟨S10000x128, .f32⟩
  | .hbm, ⟨48, _⟩ => ⟨S_, .i32⟩
  | .hbm, ⟨49, _⟩ => ⟨S320000, .i32⟩
  | .hbm, ⟨50, _⟩ => ⟨S320000, .i1⟩
  | .hbm, ⟨51, _⟩ => ⟨S_, .i32⟩
  | .hbm, ⟨52, _⟩ => ⟨S320000, .i32⟩
  | .hbm, ⟨53, _⟩ => ⟨S320000, .i32⟩
  | .hbm, ⟨54, _⟩ => ⟨S320000, .i32⟩
  | .hbm, ⟨55, _⟩ => ⟨S320000x1, .i32⟩
  | .hbm, ⟨56, _⟩ => ⟨S320000x128, .f32⟩
  | .hbm, ⟨57, _⟩ => ⟨S_, .f32⟩
  | .hbm, ⟨58, _⟩ => ⟨S10000x128, .f32⟩
  | .hbm, ⟨59, _⟩ => ⟨S320000x1, .i32⟩
  | .hbm, ⟨60, _⟩ => ⟨S10000x128, .f32⟩
  | .hbm, ⟨61, _⟩ => ⟨S_, .f32⟩
  | .hbm, ⟨62, _⟩ => ⟨S320000, .f32⟩
  | .hbm, ⟨63, _⟩ => ⟨S_, .f32⟩
  | .hbm, ⟨64, _⟩ => ⟨S10000, .f32⟩
  | .hbm, ⟨65, _⟩ => ⟨S320000x1, .i32⟩
  | .hbm, ⟨66, _⟩ => ⟨S10000, .f32⟩
  | .hbm, ⟨67, _⟩ => ⟨S_, .f32⟩
  | .hbm, ⟨68, _⟩ => ⟨S10000, .f32⟩
  | .hbm, ⟨69, _⟩ => ⟨S10000, .f32⟩
  | .hbm, ⟨70, _⟩ => ⟨S10000x1, .f32⟩
  | .hbm, ⟨71, _⟩ => ⟨S10000x128, .f32⟩
  | .hbm, ⟨72, _⟩ => ⟨S10000x128, .f32⟩
  | .hbm, ⟨73, _⟩ => ⟨S10000x128, .f32⟩
  | .hbm, ⟨74, _⟩ => ⟨S1x128, .f32⟩
  | .hbm, ⟨75, _⟩ => ⟨S10000x128, .f32⟩
  | .hbm, ⟨76, _⟩ => ⟨S10000x128, .f32⟩
  | .hbm, ⟨77, _⟩ => ⟨S10000x128, .f32⟩
  | .hbm, ⟨78, _⟩ => ⟨S10000x128, .f32⟩
  | .hbm, ⟨79, _⟩ => ⟨S_, .f32⟩
  | .hbm, ⟨80, _⟩ => ⟨S10000x128, .f32⟩
  | .hbm, ⟨81, _⟩ => ⟨S10000x128, .f32⟩
  | .hbm, ⟨82, _⟩ => ⟨S10000x16, .f32⟩
  | .hbm, ⟨83, _⟩ => ⟨S1x16, .f32⟩
  | .hbm, ⟨84, _⟩ => ⟨S10000x16, .f32⟩
  | .hbm, ⟨85, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  gather_S10000x128_S320000x1_S320000x128_1_0_n_n_0_1_1128_wf : GatherDims.WF S10000x128 S320000x1 S320000x128 [1] [0] [] [0] [] 1 ![1, 128]
  scatter_S10000x128_S320000x1_S320000x128_1_0_0_1_wf : ScatterDims.WF S10000x128 S320000x1 S320000x128 [1] [0] [0] 1
  scatter_S10000_S320000x1_S320000_n_0_0_1_wf : ScatterDims.WF S10000 S320000x1 S320000 [] [0] [0] 1
  dot_S10000x128_S128x128_S10000x128_1_0_0_1_n_n_wf : DotDims.WF S10000x128 S128x128 S10000x128 [1] [0] [0] [1] [] []
  dot_S10000x128_S128x16_S10000x16_1_0_0_1_n_n_wf : DotDims.WF S10000x128 S128x16 S10000x16 [1] [0] [0] [1] [] []

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf

class Facts : Prop extends Facts₀ where

variable [Facts]
-- ==== Proof.RefFrame.lean ====
import proofs.«215722_g7507602833967_cont_sun_m_718_28_alg».proof.Defs
import proofs.«215722_g7507602833967_cont_sun_m_718_28_alg».proof.Proof.Gen.ReferenceIdeal
import proofs.«215722_g7507602833967_cont_sun_m_718_28_alg».proof.Proof.Gen.ReferenceIdeal.Run
import proofs.«215722_g7507602833967_cont_sun_m_718_28_alg».proof.Proof.Gen.ReferenceIdeal.Read
import proofs.«215722_g7507602833967_cont_sun_m_718_28_alg».proof.Proof.Gen.Pre_input_domain

noncomputable section

open Idealize.ShloMosaic Idealize.SL.Sem

namespace Cert.Proof.RefSide

-- The reference's run with its result forgotten.
theorem frame_ri [Cert.ReferenceIdeal.Facts] [Cert.Pre_input_domain.Facts] : Cert.frame_ReferenceIdeal := fun m ρ _ =>
  (θ_run Cert.ReferenceIdeal.defs _ _).mono (fun _ h c => (h c).2) (Cert.ReferenceIdeal.Value.run (F := Ideal) m ρ)

end Cert.Proof.RefSide

end
-- ==== Proof.Common.lean ====
import proofs.«215722_g7507602833967_cont_sun_m_718_28_alg».proof.KernelIdeal
import proofs.«215722_g7507602833967_cont_sun_m_718_28_alg».proof.Proof.Gen.KernelIdeal
import proofs.«215722_g7507602833967_cont_sun_m_718_28_alg».proof.Proof.Gen.KernelIdeal.Skeleton
import Idealize.ShloMosaic.Lib.SparseCore.Launch
import Idealize.ShloMosaic.Lib.StableHlo.Run
import Idealize.ShloMosaic.Lib.Pipeline.Kit
import Idealize.ShloMosaic.Lib.Tactic

noncomputable section

namespace Cert.Proof.Sage

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 2) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ

abbrev UP : Type := UR sig nD τ
abbrev UU : Type := UH × (UP × Counters)

abbrev MM (F : FTy → Type) : Type := MT nD τ sig (HIx 2) (Elt F) ℕ UU ℕ

abbrev EH : Emb UH (MM F) := embL

def EP : Emb UP (MM F) := (Emb.inl : Emb UP (UP × Counters)).trans embR

instance EP_landsIn : (EP : Emb UP (MM F)).LandsIn (upEmb : UEmb _ (MM F)) := by unfold EP; infer_instance

example : CountersIn UU := inferInstance

end Cert.Proof.Sage

end
-- ==== Proof.LaunchRes.lean ====
import proofs.«215722_g7507602833967_cont_sun_m_718_28_alg».proof.Proof.Common
import Idealize.ShloMosaic.Lib.Transfers

noncomputable section

namespace Cert.Proof.Sage

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

local notation "𝕄" => MM F

abbrev xfLoc (d : Dev nD) : Loc nD τ sig := (SparseCore.T d).loc main_v11
abbrev srcLoc (d : Dev nD) : Loc nD τ sig := (SparseCore.T d).loc main_v5
abbrev dstLoc (d : Dev nD) : Loc nD τ sig := (SparseCore.T d).loc main_v7
abbrev aggLoc (d : Dev nD) : Loc nD τ sig := (SparseCore.T d).loc main_v12_0
abbrev cntLoc (d : Dev nD) : Loc nD τ sig := (SparseCore.T d).loc main_v12_1
abbrev hfLoc (d : Dev nD) : Loc nD τ sig := (SparseCore.T d).loc main_v17
abbrev agg2Loc (d : Dev nD) : Loc nD τ sig := (SparseCore.T d).loc main_v18

abbrev xfV : Memref sig .scVector .hbm S1294336 .f32 := Memref.whole main_v11_scv
abbrev cntV : Memref sig .scVector .hbm S161792 .f32 := Memref.whole main_v12_1_scv

theorem hdiv128 : 128 ∣ S1294336.size 0 := ⟨10112, rfl⟩
theorem hdiv16 : 16 ∣ S161792.size 0 := ⟨10112, rfl⟩

abbrev seg (k : Fin 128) : Rect S1294336 := Rect.part (s := S1294336) (a₀ := 0) hdiv128 k
abbrev segSet (k : Fin 128) : Finset S1294336.Idx := ((xfV : Memref sig .scVector .hbm S1294336 .f32).view.slice (seg k)).set

abbrev cseg (s : Fin 16) : Rect S161792 := Rect.part (s := S161792) (a₀ := 0) hdiv16 s
abbrev csegSet (s : Fin 16) : Finset S161792.Idx := ((cntV : Memref sig .scVector .hbm S161792 .f32).view.slice (cseg s)).set

def tec (c : Fin τ.nSC) (s : Fin τ.nSub) : Fin 32 := ⟨16 * c.val + s.val, by have hc : c.val < 2 := c.isLt; have hs : s.val < 16 := s.isLt; omega⟩
def tix (c : Fin τ.nSC) (s : Fin τ.nSub) (r : Fin 4) : Fin 128 :=
  ⟨64 * c.val + 4 * s.val + r.val, by have hc : c.val < 2 := c.isLt; have hs : s.val < 16 := s.isLt; have hr := r.isLt; omega⟩
def sub16 (s : Fin τ.nSub) : Fin 16 := ⟨s.val, s.isLt⟩

structure Vals (F : FTy → Type) where
  xf : (d : Dev nD) → Buf (Elt F) (xfLoc d)
  src : (d : Dev nD) → Buf (Elt F) (srcLoc d)
  dst : (d : Dev nD) → Buf (Elt F) (dstLoc d)
  agg : (d : Dev nD) → Buf (Elt F) (aggLoc d)
  cnt : (d : Dev nD) → Buf (Elt F) (cntLoc d)
  hf : (d : Dev nD) → Buf (Elt F) (hfLoc d)
  agg2 : (d : Dev nD) → Buf (Elt F) (agg2Loc d)

variable (w : Vals F) (d : Dev nD)

abbrev xfSegPts (k : Fin 128) : sProp 𝕄 := xfLoc d ↦[segSet k]{fullShare} w.xf d
abbrev hfSegPts (k : Fin 128) : sProp 𝕄 := hfLoc d ↦[segSet k]{fullShare} w.hf d
abbrev aggSegPts (k : Fin 128) (f : Buf (Elt F) (aggLoc d)) : sProp 𝕄 := aggLoc d ↦[segSet k]{fullShare} f
abbrev agg2SegPts (k : Fin 128) (f : Buf (Elt F) (agg2Loc d)) : sProp 𝕄 := agg2Loc d ↦[segSet k]{fullShare} f
abbrev cntSegPts (s : Fin 16) (f : Buf (Elt F) (cntLoc d)) : sProp 𝕄 := cntLoc d ↦[csegSet s]{fullShare} f

abbrev srcTokPts (t : Fin 32) : sProp 𝕄 := srcLoc d ↦{shareTok fullShare 32 t} w.src d
abbrev dstTokPts (t : Fin 32) : sProp 𝕄 := dstLoc d ↦{shareTok fullShare 32 t} w.dst d

abbrev srcRestPts : sProp 𝕄 := srcLoc d ↦{shareDrop fullShare 32} w.src d
abbrev dstRestPts : sProp 𝕄 := dstLoc d ↦{shareDrop fullShare 32} w.dst d

def tileIn0 (c : Fin τ.nSC) (s : Fin τ.nSub) : sProp 𝕄 :=
  iprop((xfSegPts w d (tix c s 0) ∗ xfSegPts w d (tix c s 1) ∗ xfSegPts w d (tix c s 2) ∗ xfSegPts w d (tix c s 3))
    ∗ (∃ f, aggSegPts d (tix c s 0) f ∗ aggSegPts d (tix c s 1) f ∗ aggSegPts d (tix c s 2) f ∗ aggSegPts d (tix c s 3) f)
    ∗ srcTokPts w d (tec c s) ∗ dstTokPts w d (tec c s)
    ∗ (if c.val = 0 then iprop(∃ f, cntSegPts d (sub16 s) f) else iprop(emp)))

def tileOut0 (c : Fin τ.nSC) (s : Fin τ.nSub) : sProp 𝕄 :=
  iprop((xfSegPts w d (tix c s 0) ∗ xfSegPts w d (tix c s 1) ∗ xfSegPts w d (tix c s 2) ∗ xfSegPts w d (tix c s 3))
    ∗ (aggSegPts d (tix c s 0) (w.agg d) ∗ aggSegPts d (tix c s 1) (w.agg d) ∗ aggSegPts d (tix c s 2) (w.agg d) ∗ aggSegPts d (tix c s 3) (w.agg d))
    ∗ srcTokPts w d (tec c s) ∗ dstTokPts w d (tec c s)
    ∗ (if c.val = 0 then cntSegPts d (sub16 s) (w.cnt d) else iprop(emp)))

def tileIn1 (c : Fin τ.nSC) (s : Fin τ.nSub) : sProp 𝕄 :=
  iprop((hfSegPts w d (tix c s 0) ∗ hfSegPts w d (tix c s 1) ∗ hfSegPts w d (tix c s 2) ∗ hfSegPts w d (tix c s 3))
    ∗ (∃ f, agg2SegPts d (tix c s 0) f ∗ agg2SegPts d (tix c s 1) f ∗ agg2SegPts d (tix c s 2) f ∗ agg2SegPts d (tix c s 3) f)
    ∗ srcTokPts w d (tec c s) ∗ dstTokPts w d (tec c s))
def tileOut1 (c : Fin τ.nSC) (s : Fin τ.nSub) : sProp 𝕄 :=
  iprop((hfSegPts w d (tix c s 0) ∗ hfSegPts w d (tix c s 1) ∗ hfSegPts w d (tix c s 2) ∗ hfSegPts w d (tix c s 3))
    ∗ (agg2SegPts d (tix c s 0) (w.agg2 d) ∗ agg2SegPts d (tix c s 1) (w.agg2 d) ∗ agg2SegPts d (tix c s 2) (w.agg2 d) ∗ agg2SegPts d (tix c s 3) (w.agg2 d))
    ∗ srcTokPts w d (tec c s) ∗ dstTokPts w d (tec c s))

def tileIn (q : Fin 2) (c : Fin τ.nSC) (s : Fin τ.nSub) : sProp 𝕄 :=
  match q with | 0 => tileIn0 w d c s | 1 => tileIn1 w d c s | ⟨_ + 2, h⟩ => absurd h (Nat.not_lt.2 (Nat.le_add_left _ _))
def tileOut (q : Fin 2) (c : Fin τ.nSC) (s : Fin τ.nSub) : sProp 𝕄 :=
  match q with | 0 => tileOut0 w d c s | 1 => tileOut1 w d c s | ⟨_ + 2, h⟩ => absurd h (Nat.not_lt.2 (Nat.le_add_left _ _))

theorem tileIn_zero (c : Fin τ.nSC) (s : Fin τ.nSub) : tileIn w d 0 c s = tileIn0 w d c s := rfl
theorem tileIn_one (c : Fin τ.nSC) (s : Fin τ.nSub) : tileIn w d 1 c s = tileIn1 w d c s := rfl
theorem tileOut_zero (c : Fin τ.nSC) (s : Fin τ.nSub) : tileOut w d 0 c s = tileOut0 w d c s := rfl
theorem tileOut_one (c : Fin τ.nSC) (s : Fin τ.nSub) : tileOut w d 1 c s = tileOut1 w d c s := rfl

instance tileIn_storable (q : Fin 2) (c : Fin τ.nSC) (s : Fin τ.nSub) : BI.Storable (upEmb : UEmb _ 𝕄) (tileIn w d q c s) := by
  match q with
  | 0 => rw [tileIn_zero]; unfold tileIn0; split <;> infer_instance
  | 1 => rw [tileIn_one]; unfold tileIn1; infer_instance
instance tileOut_storable (q : Fin 2) (c : Fin τ.nSC) (s : Fin τ.nSub) : BI.Storable (upEmb : UEmb _ 𝕄) (tileOut w d q c s) := by
  match q with
  | 0 => rw [tileOut_zero]; unfold tileOut0; split <;> infer_instance
  | 1 => rw [tileOut_one]; unfold tileOut1; infer_instance

def P : (K (F := F)).Pay (nD := nD) (Val := Elt F) (Name := ℕ) (U := UU) where
  st := fun q d c => bigSep Finset.univ fun i : Fin ((K (F := F)).nSub q) => tileIn w d q ((K (F := F)).core q c) ((K (F := F)).sub q i)
  dn := fun q d c => bigSep Finset.univ fun i : Fin ((K (F := F)).nSub q) => tileOut w d q ((K (F := F)).core q c) ((K (F := F)).sub q i)
  go := fun q d c i => tileIn w d q ((K (F := F)).core q c) ((K (F := F)).sub q i)
  td := fun q d c i => tileOut w d q ((K (F := F)).core q c) ((K (F := F)).sub q i)
  x := fun _ _ => iprop(emp)

instance P_storable : (P (F := F) w).IsStorable where
  st _ _ _ := by unfold P; infer_instance
  dn _ _ _ := by unfold P; infer_instance
  go _ _ _ _ := by unfold P; infer_instance
  td _ _ _ _ := by unfold P; infer_instance

theorem P_st (q : Fin 2) (c : Fin ((K (F := F)).nCore q)) :
    (P w).st q d c = bigSep Finset.univ fun i : Fin ((K (F := F)).nSub q) => tileIn w d q ((K (F := F)).core q c) ((K (F := F)).sub q i) := rfl
theorem P_dn (q : Fin 2) (c : Fin ((K (F := F)).nCore q)) :
    (P w).dn q d c = bigSep Finset.univ fun i : Fin ((K (F := F)).nSub q) => tileOut w d q ((K (F := F)).core q c) ((K (F := F)).sub q i) := rfl
theorem P_x (q : Fin 2) (thr : Thread nD τ) : (P w).x q thr = iprop(emp) := rfl
theorem P_ox : (P w).ox = fun _ _ => 0 := rfl

theorem vecSplit (q : Fin 2) : (K (F := F)).VecSplit' (P w) q := by
  intro d c
  rw [P_st, P_dn]
  iintro H; imodintro
  isplitl [H]; · iexact H
  iintro H; iexact H

end Cert.Proof.Sage

end
-- ==== Proof.LaunchSeg.lean ====
import proofs.«215722_g7507602833967_cont_sun_m_718_28_alg».proof.Proof.LaunchRes

noncomputable section

namespace Cert.Proof.Sage

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)

variable {F : FTy → Type}

local notation "𝕄" => MM F

theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} from by decide, SparseCore.bigSep_insert' (by decide),
    SparseCore.bigSep_insert' (by decide), SparseCore.bigSep_insert' (by decide), bigSep_singleton]

def tecEquiv : Fin τ.nSC × Fin τ.nSub ≃ Fin 32 := (finProdFinEquiv : Fin 2 × Fin 16 ≃ Fin (2 * 16))
theorem tecEquiv_apply (p : Fin τ.nSC × Fin τ.nSub) : tecEquiv p = tec p.1 p.2 := by
  apply Fin.ext
  show (finProdFinEquiv (m := 2) (n := 16) p).val = 16 * p.1.val + p.2.val
  rw [finProdFinEquiv_apply_val]; omega

def tixEquiv : (Fin τ.nSC × Fin τ.nSub) × Fin 4 ≃ Fin 128 :=
  ((Equiv.prodCongr tecEquiv (Equiv.refl (Fin 4))).trans (finProdFinEquiv : Fin 32 × Fin 4 ≃ Fin (32 * 4)))
theorem tixEquiv_apply (p : Fin τ.nSC × Fin τ.nSub) (r : Fin 4) : tixEquiv (p, r) = tix p.1 p.2 r := by
  apply Fin.ext
  show (finProdFinEquiv (m := 32) (n := 4) (tecEquiv p, r)).val = 64 * p.1.val + 4 * p.2.val + r.val
  rw [finProdFinEquiv_apply_val, tecEquiv_apply]
  show r.val + 4 * (16 * p.1.val + p.2.val) = _
  omega

theorem bigSep_tec (Φ : Fin 32 → sProp 𝕄) :
    bigSep Finset.univ Φ = bigSep (Finset.univ : Finset (Fin τ.nSC × Fin τ.nSub)) fun p => Φ (tec p.1 p.2) := by
  rw [bigSep_univ_equiv tecEquiv Φ]
  exact bigSep_congr fun p _ => by rw [tecEquiv_apply]
theorem bigSep_tix (Φ : Fin 128 → sProp 𝕄) :
    bigSep Finset.univ Φ = bigSep (Finset.univ : Finset (Fin τ.nSC × Fin τ.nSub)) fun p =>
      iprop(Φ (tix p.1 p.2 0) ∗ Φ (tix p.1 p.2 1) ∗ Φ (tix p.1 p.2 2) ∗ Φ (tix p.1 p.2 3)) := by
  rw [bigSep_univ_equiv tixEquiv Φ, bigSep_univ_prod]
  exact bigSep_congr fun p _ => by rw [bigSep_fin4, tixEquiv_apply p 0, tixEquiv_apply p 1, tixEquiv_apply p 2, tixEquiv_apply p 3]

theorem bigSep_cnt (Y : Fin 16 → sProp 𝕄) :
    (bigSep (Finset.univ : Finset (Fin τ.nSC × Fin τ.nSub)) fun p => if p.1.val = 0 then Y (sub16 p.2) else iprop(emp)) = bigSep Finset.univ Y := by
  rw [bigSep_univ_prod]
  show (bigSep (Finset.univ : Finset (Fin 2)) fun c => bigSep (Finset.univ : Finset (Fin 16)) fun s => if c.val = 0 then Y (sub16 s) else iprop(emp)) = _
  rw [bigSep_univ_two]
  simp only [Fin.val_zero, Fin.val_one, ↓reduceIte, one_ne_zero]
  rw [show (bigSep (Finset.univ : Finset (Fin 16)) fun _ => (iprop(emp) : sProp 𝕄)) = iprop(emp) from bigSep_emp_const _]
  rw [show (iprop((bigSep (Finset.univ : Finset (Fin 16)) fun s => Y (sub16 s)) ∗ emp) : sProp 𝕄) = bigSep (Finset.univ : Finset (Fin 16)) fun s => Y (sub16 s) from
    BI.equiv_iff.mp ⟨sep_emp.1, sep_emp.2⟩]
  exact bigSep_congr fun s _ => congrArg Y (Fin.ext rfl)

theorem segSet_eq (k : Fin 128) : segSet k = (seg k).set := by
  show ((View.whole (main_v11_scv : Ref sig .scVector)).slice (seg k)).set = _
  rw [View.set_slice]; exact Finset.map_refl
theorem segs_disjoint : ∀ i ∈ (Finset.univ : Finset (Fin 128)), ∀ j ∈ (Finset.univ : Finset (Fin 128)), i ≠ j → Disjoint (segSet i) (segSet j) :=
  fun i _ j _ h => by rw [segSet_eq, segSet_eq]; exact Rect.part_disjoint hdiv128 h
theorem segs_cover : (Finset.univ : Finset (Fin 128)).biUnion segSet = Finset.univ :=
  (Finset.biUnion_congr rfl fun i _ => segSet_eq i).trans (Rect.biUnion_part hdiv128)
theorem csegSet_eq (s : Fin 16) : csegSet s = (cseg s).set := by
  show ((View.whole (main_v12_1_scv : Ref sig .scVector)).slice (cseg s)).set = _
  rw [View.set_slice]; exact Finset.map_refl
theorem csegs_disjoint : ∀ i ∈ (Finset.univ : Finset (Fin 16)), ∀ j ∈ (Finset.univ : Finset (Fin 16)), i ≠ j → Disjoint (csegSet i) (csegSet j) :=
  fun i _ j _ h => by rw [csegSet_eq, csegSet_eq]; exact Rect.part_disjoint hdiv16 h
theorem csegs_cover : (Finset.univ : Finset (Fin 16)).biUnion csegSet = Finset.univ :=
  (Finset.biUnion_congr rfl fun i _ => csegSet_eq i).trans (Rect.biUnion_part hdiv16)

variable (d : Dev nD)

theorem xf_segs (f : Buf (Elt F) (xfLoc d)) : (xfLoc d ↦{fullShare} f : sProp 𝕄) = bigSep Finset.univ fun k : Fin 128 => xfLoc d ↦[segSet k]{fullShare} f := by
  rw [← pointsTo_biUnion Finset.univ (ℓ := xfLoc d) segSet segs_disjoint, segs_cover]; try rfl
theorem agg_segs (f : Buf (Elt F) (aggLoc d)) : (aggLoc d ↦{fullShare} f : sProp 𝕄) = bigSep Finset.univ fun k : Fin 128 => aggLoc d ↦[segSet k]{fullShare} f := by
  rw [← pointsTo_biUnion Finset.univ (ℓ := aggLoc d) segSet segs_disjoint, segs_cover]; try rfl
theorem hf_segs (f : Buf (Elt F) (hfLoc d)) : (hfLoc d ↦{fullShare} f : sProp 𝕄) = bigSep Finset.univ fun k : Fin 128 => hfLoc d ↦[segSet k]{fullShare} f := by
  rw [← pointsTo_biUnion Finset.univ (ℓ := hfLoc d) segSet segs_disjoint, segs_cover]; try rfl
theorem agg2_segs (f : Buf (Elt F) (agg2Loc d)) : (agg2Loc d ↦{fullShare} f : sProp 𝕄) = bigSep Finset.univ fun k : Fin 128 => agg2Loc d ↦[segSet k]{fullShare} f := by
  rw [← pointsTo_biUnion Finset.univ (ℓ := agg2Loc d) segSet segs_disjoint, segs_cover]; try rfl
theorem cnt_segs (f : Buf (Elt F) (cntLoc d)) : (cntLoc d ↦{fullShare} f : sProp 𝕄) = bigSep Finset.univ fun s : Fin 16 => cntLoc d ↦[csegSet s]{fullShare} f := by
  rw [← pointsTo_biUnion Finset.univ (ℓ := cntLoc d) csegSet csegs_disjoint, csegs_cover]; try rfl

theorem xf_tiles (f : Buf (Elt F) (xfLoc d)) : (xfLoc d ↦{fullShare} f : sProp 𝕄) = bigSep (Finset.univ : Finset (Fin τ.nSC × Fin τ.nSub)) fun p =>
    iprop((xfLoc d ↦[segSet (tix p.1 p.2 0)]{fullShare} f) ∗ (xfLoc d ↦[segSet (tix p.1 p.2 1)]{fullShare} f) ∗ (xfLoc d ↦[segSet (tix p.1 p.2 2)]{fullShare} f) ∗ xfLoc d ↦[segSet (tix p.1 p.2 3)]{fullShare} f) := by
  rw [xf_segs, bigSep_tix]
theorem agg_tiles (f : Buf (Elt F) (aggLoc d)) : (aggLoc d ↦{fullShare} f : sProp 𝕄) = bigSep (Finset.univ : Finset (Fin τ.nSC × Fin τ.nSub)) fun p =>
    iprop((aggLoc d ↦[segSet (tix p.1 p.2 0)]{fullShare} f) ∗ (aggLoc d ↦[segSet (tix p.1 p.2 1)]{fullShare} f) ∗ (aggLoc d ↦[segSet (tix p.1 p.2 2)]{fullShare} f) ∗ aggLoc d ↦[segSet (tix p.1 p.2 3)]{fullShare} f) := by
  rw [agg_segs, bigSep_tix]
theorem hf_tiles (f : Buf (Elt F) (hfLoc d)) : (hfLoc d ↦{fullShare} f : sProp 𝕄) = bigSep (Finset.univ : Finset (Fin τ.nSC × Fin τ.nSub)) fun p =>
    iprop((hfLoc d ↦[segSet (tix p.1 p.2 0)]{fullShare} f) ∗ (hfLoc d ↦[segSet (tix p.1 p.2 1)]{fullShare} f) ∗ (hfLoc d ↦[segSet (tix p.1 p.2 2)]{fullShare} f) ∗ hfLoc d ↦[segSet (tix p.1 p.2 3)]{fullShare} f) := by
  rw [hf_segs, bigSep_tix]
theorem agg2_tiles (f : Buf (Elt F) (agg2Loc d)) : (agg2Loc d ↦{fullShare} f : sProp 𝕄) = bigSep (Finset.univ : Finset (Fin τ.nSC × Fin τ.nSub)) fun p =>
    iprop((agg2Loc d ↦[segSet (tix p.1 p.2 0)]{fullShare} f) ∗ (agg2Loc d ↦[segSet (tix p.1 p.2 1)]{fullShare} f) ∗ (agg2Loc d ↦[segSet (tix p.1 p.2 2)]{fullShare} f) ∗ agg2Loc d ↦[segSet (tix p.1 p.2 3)]{fullShare} f) := by
  rw [agg2_segs, bigSep_tix]
theorem cnt_tiles (f : Buf (Elt F) (cntLoc d)) : (cntLoc d ↦{fullShare} f : sProp 𝕄) = bigSep (Finset.univ : Finset (Fin τ.nSC × Fin τ.nSub)) fun p =>
    if p.1.val = 0 then (cntLoc d ↦[csegSet (sub16 p.2)]{fullShare} f : sProp 𝕄) else iprop(emp) := by
  rw [cnt_segs, ← bigSep_cnt]
theorem src_tiles (f : Buf (Elt F) (srcLoc d)) : (srcLoc d ↦{fullShare} f : sProp 𝕄) ⊣⊢ iprop((srcLoc d ↦{shareDrop fullShare 32} f)
    ∗ bigSep (Finset.univ : Finset (Fin τ.nSC × Fin τ.nSub)) fun p => srcLoc d ↦{shareTok fullShare 32 (tec p.1 p.2)} f) := by
  rw [← bigSep_tec (fun t => (srcLoc d ↦{shareTok fullShare 32 t} f : sProp 𝕄))]
  exact pointsTo_toks fullShare 32
theorem dst_tiles (f : Buf (Elt F) (dstLoc d)) : (dstLoc d ↦{fullShare} f : sProp 𝕄) ⊣⊢ iprop((dstLoc d ↦{shareDrop fullShare 32} f)
    ∗ bigSep (Finset.univ : Finset (Fin τ.nSC × Fin τ.nSub)) fun p => dstLoc d ↦{shareTok fullShare 32 (tec p.1 p.2)} f) := by
  rw [← bigSep_tec (fun t => (dstLoc d ↦{shareTok fullShare 32 t} f : sProp 𝕄))]
  exact pointsTo_toks fullShare 32

variable (w : Vals F)

theorem st_pairs (q : Fin 2) : (bigSep Finset.univ fun c : Fin ((K (F := F)).nCore q) => (P w).st q d c)
    = bigSep (Finset.univ : Finset (Fin τ.nSC × Fin τ.nSub)) fun p => tileIn w d q p.1 p.2 := by
  match q with
  | 0 => rw [bigSep_univ_prod]; rfl
  | 1 => rw [bigSep_univ_prod]; rfl
theorem dn_pairs (q : Fin 2) : (bigSep Finset.univ fun c : Fin ((K (F := F)).nCore q) => (P w).dn q d c)
    = bigSep (Finset.univ : Finset (Fin τ.nSC × Fin τ.nSub)) fun p => tileOut w d q p.1 p.2 := by
  match q with
  | 0 => rw [bigSep_univ_prod]; rfl
  | 1 => rw [bigSep_univ_prod]; rfl

theorem tileIn0_fams : (bigSep (Finset.univ : Finset (Fin τ.nSC × Fin τ.nSub)) fun p => tileIn w d 0 p.1 p.2) = iprop((bigSep (Finset.univ : Finset (Fin τ.nSC × Fin τ.nSub)) fun p => iprop(xfSegPts w d (tix p.1 p.2 0) ∗ xfSegPts w d (tix p.1 p.2 1) ∗ xfSegPts w d (tix p.1 p.2 2) ∗ xfSegPts w d (tix p.1 p.2 3)))
    ∗ (bigSep (Finset.univ : Finset (Fin τ.nSC × Fin τ.nSub)) fun p => iprop(∃ f, aggSegPts d (tix p.1 p.2 0) f ∗ aggSegPts d (tix p.1 p.2 1) f ∗ aggSegPts d (tix p.1 p.2 2) f ∗ aggSegPts d (tix p.1 p.2 3) f))
    ∗ (bigSep (Finset.univ : Finset (Fin τ.nSC × Fin τ.nSub)) fun p => srcTokPts w d (tec p.1 p.2)) ∗ (bigSep (Finset.univ : Finset (Fin τ.nSC × Fin τ.nSub)) fun p => dstTokPts w d (tec p.1 p.2))
    ∗ (bigSep (Finset.univ : Finset (Fin τ.nSC × Fin τ.nSub)) fun p => if p.1.val = 0 then iprop(∃ f, cntSegPts d (sub16 p.2) f) else iprop(emp))) := by
  simp only [tileIn_zero]; unfold tileIn0
  rw [bigSep_sep' _ (fun p : Fin τ.nSC × Fin τ.nSub => (iprop(xfSegPts w d (tix p.1 p.2 0) ∗ xfSegPts w d (tix p.1 p.2 1) ∗ xfSegPts w d (tix p.1 p.2 2) ∗ xfSegPts w d (tix p.1 p.2 3)) : sProp 𝕄)) _,
    bigSep_sep' _ (fun p : Fin τ.nSC × Fin τ.nSub => (iprop(∃ f, aggSegPts d (tix p.1 p.2 0) f ∗ aggSegPts d (tix p.1 p.2 1) f ∗ aggSegPts d (tix p.1 p.2 2) f ∗ aggSegPts d (tix p.1 p.2 3) f) : sProp 𝕄)) _,
    bigSep_sep' _ (fun p : Fin τ.nSC × Fin τ.nSub => (srcTokPts w d (tec p.1 p.2) : sProp 𝕄)) _, bigSep_sep' _ (fun p : Fin τ.nSC × Fin τ.nSub => (dstTokPts w d (tec p.1 p.2) : sProp 𝕄)) _]
theorem tileOut0_fams : (bigSep (Finset.univ : Finset (Fin τ.nSC × Fin τ.nSub)) fun p => tileOut w d 0 p.1 p.2) = iprop((bigSep (Finset.univ : Finset (Fin τ.nSC × Fin τ.nSub)) fun p => iprop(xfSegPts w d (tix p.1 p.2 0) ∗ xfSegPts w d (tix p.1 p.2 1) ∗ xfSegPts w d (tix p.1 p.2 2) ∗ xfSegPts w d (tix p.1 p.2 3)))
    ∗ (bigSep (Finset.univ : Finset (Fin τ.nSC × Fin τ.nSub)) fun p => iprop(aggSegPts d (tix p.1 p.2 0) (w.agg d) ∗ aggSegPts d (tix p.1 p.2 1) (w.agg d) ∗ aggSegPts d (tix p.1 p.2 2) (w.agg d) ∗ aggSegPts d (tix p.1 p.2 3) (w.agg d)))
    ∗ (bigSep (Finset.univ : Finset (Fin τ.nSC × Fin τ.nSub)) fun p => srcTokPts w d (tec p.1 p.2)) ∗ (bigSep (Finset.univ : Finset (Fin τ.nSC × Fin τ.nSub)) fun p => dstTokPts w d (tec p.1 p.2))
    ∗ (bigSep (Finset.univ : Finset (Fin τ.nSC × Fin τ.nSub)) fun p => if p.1.val = 0 then cntSegPts d (sub16 p.2) (w.cnt d) else iprop(emp))) := by
  simp only [tileOut_zero]; unfold tileOut0
  rw [bigSep_sep' _ (fun p : Fin τ.nSC × Fin τ.nSub => (iprop(xfSegPts w d (tix p.1 p.2 0) ∗ xfSegPts w d (tix p.1 p.2 1) ∗ xfSegPts w d (tix p.1 p.2 2) ∗ xfSegPts w d (tix p.1 p.2 3)) : sProp 𝕄)) _,
    bigSep_sep' _ (fun p : Fin τ.nSC × Fin τ.nSub => (iprop(aggSegPts d (tix p.1 p.2 0) (w.agg d) ∗ aggSegPts d (tix p.1 p.2 1) (w.agg d) ∗ aggSegPts d (tix p.1 p.2 2) (w.agg d) ∗ aggSegPts d (tix p.1 p.2 3) (w.agg d)) : sProp 𝕄)) _,
    bigSep_sep' _ (fun p : Fin τ.nSC × Fin τ.nSub => (srcTokPts w d (tec p.1 p.2) : sProp 𝕄)) _, bigSep_sep' _ (fun p : Fin τ.nSC × Fin τ.nSub => (dstTokPts w d (tec p.1 p.2) : sProp 𝕄)) _]
theorem tileIn1_fams : (bigSep (Finset.univ : Finset (Fin τ.nSC × Fin τ.nSub)) fun p => tileIn w d 1 p.1 p.2) = iprop((bigSep (Finset.univ : Finset (Fin τ.nSC × Fin τ.nSub)) fun p => iprop(hfSegPts w d (tix p.1 p.2 0) ∗ hfSegPts w d (tix p.1 p.2 1) ∗ hfSegPts w d (tix p.1 p.2 2) ∗ hfSegPts w d (tix p.1 p.2 3)))
    ∗ (bigSep (Finset.univ : Finset (Fin τ.nSC × Fin τ.nSub)) fun p => iprop(∃ f, agg2SegPts d (tix p.1 p.2 0) f ∗ agg2SegPts d (tix p.1 p.2 1) f ∗ agg2SegPts d (tix p.1 p.2 2) f ∗ agg2SegPts d (tix p.1 p.2 3) f))
    ∗ (bigSep (Finset.univ : Finset (Fin τ.nSC × Fin τ.nSub)) fun p => srcTokPts w d (tec p.1 p.2)) ∗ (bigSep (Finset.univ : Finset (Fin τ.nSC × Fin τ.nSub)) fun p => dstTokPts w d (tec p.1 p.2))) := by
  simp only [tileIn_one]; unfold tileIn1
  rw [bigSep_sep' _ (fun p : Fin τ.nSC × Fin τ.nSub => (iprop(hfSegPts w d (tix p.1 p.2 0) ∗ hfSegPts w d (tix p.1 p.2 1) ∗ hfSegPts w d (tix p.1 p.2 2) ∗ hfSegPts w d (tix p.1 p.2 3)) : sProp 𝕄)) _,
    bigSep_sep' _ (fun p : Fin τ.nSC × Fin τ.nSub => (iprop(∃ f, agg2SegPts d (tix p.1 p.2 0) f ∗ agg2SegPts d (tix p.1 p.2 1) f ∗ agg2SegPts d (tix p.1 p.2 2) f ∗ agg2SegPts d (tix p.1 p.2 3) f) : sProp 𝕄)) _,
    bigSep_sep' _ (fun p : Fin τ.nSC × Fin τ.nSub => (srcTokPts w d (tec p.1 p.2) : sProp 𝕄)) _]
theorem tileOut1_fams : (bigSep (Finset.univ : Finset (Fin τ.nSC × Fin τ.nSub)) fun p => tileOut w d 1 p.1 p.2) = iprop((bigSep (Finset.univ : Finset (Fin τ.nSC × Fin τ.nSub)) fun p => iprop(hfSegPts w d (tix p.1 p.2 0) ∗ hfSegPts w d (tix p.1 p.2 1) ∗ hfSegPts w d (tix p.1 p.2 2) ∗ hfSegPts w d (tix p.1 p.2 3)))
    ∗ (bigSep (Finset.univ : Finset (Fin τ.nSC × Fin τ.nSub)) fun p => iprop(agg2SegPts d (tix p.1 p.2 0) (w.agg2 d) ∗ agg2SegPts d (tix p.1 p.2 1) (w.agg2 d) ∗ agg2SegPts d (tix p.1 p.2 2) (w.agg2 d) ∗ agg2SegPts d (tix p.1 p.2 3) (w.agg2 d)))
    ∗ (bigSep (Finset.univ : Finset (Fin τ.nSC × Fin τ.nSub)) fun p => srcTokPts w d (tec p.1 p.2)) ∗ (bigSep (Finset.univ : Finset (Fin τ.nSC × Fin τ.nSub)) fun p => dstTokPts w d (tec p.1 p.2))) := by
  simp only [tileOut_one]; unfold tileOut1
  rw [bigSep_sep' _ (fun p : Fin τ.nSC × Fin τ.nSub => (iprop(hfSegPts w d (tix p.1 p.2 0) ∗ hfSegPts w d (tix p.1 p.2 1) ∗ hfSegPts w d (tix p.1 p.2 2) ∗ hfSegPts w d (tix p.1 p.2 3)) : sProp 𝕄)) _,
    bigSep_sep' _ (fun p : Fin τ.nSC × Fin τ.nSub => (iprop(agg2SegPts d (tix p.1 p.2 0) (w.agg2 d) ∗ agg2SegPts d (tix p.1 p.2 1) (w.agg2 d) ∗ agg2SegPts d (tix p.1 p.2 2) (w.agg2 d) ∗ agg2SegPts d (tix p.1 p.2 3) (w.agg2 d)) : sProp 𝕄)) _,
    bigSep_sep' _ (fun p : Fin τ.nSC × Fin τ.nSub => (srcTokPts w d (tec p.1 p.2) : sProp 𝕄)) _]

theorem st0_intro : iprop((xfLoc d ↦{fullShare} w.xf d) ∗ (∃ f, aggLoc d ↦{fullShare} f) ∗ (srcLoc d ↦{fullShare} w.src d) ∗ (dstLoc d ↦{fullShare} w.dst d)
      ∗ (∃ f, cntLoc d ↦{fullShare} f))
    ⊢ (iprop((srcRestPts w d ∗ dstRestPts w d) ∗ bigSep Finset.univ fun c : Fin ((K (F := F)).nCore 0) => (P w).st 0 d c) : sProp 𝕄) := by
  rw [st_pairs, tileIn0_fams]
  iintro ⟨Hx, ⟨%fa, Ha⟩, Hs, Hd, ⟨%fc, Hc⟩⟩
  ihave Hx' := (Entails.of_eq (xf_tiles (F := F) d (w.xf d))) $$ Hx
  ihave Ha' := (Entails.of_eq (agg_tiles (F := F) d fa)) $$ Ha
  ihave Hs' := (src_tiles (F := F) d (w.src d)).1 $$ Hs
  ihave Hd' := (dst_tiles (F := F) d (w.dst d)).1 $$ Hd
  ihave Hc' := (Entails.of_eq (cnt_tiles (F := F) d fc)) $$ Hc
  icases Hs' with ⟨Hsr, Hst⟩
  icases Hd' with ⟨Hdr, Hdt⟩
  isplitl [Hsr Hdr]
  · isplitl [Hsr]; · iexact Hsr
    iexact Hdr
  isplitl [Hx']; · iexact Hx'
  isplitl [Ha']
  · iapply (show (bigSep (Finset.univ : Finset (Fin τ.nSC × Fin τ.nSub)) fun p => iprop(aggSegPts d (tix p.1 p.2 0) fa ∗ aggSegPts d (tix p.1 p.2 1) fa ∗ aggSegPts d (tix p.1 p.2 2) fa ∗ aggSegPts d (tix p.1 p.2 3) fa)) ⊢ (bigSep (Finset.univ : Finset (Fin τ.nSC × Fin τ.nSub)) fun p => iprop(∃ f, aggSegPts d (tix p.1 p.2 0) f ∗ aggSegPts d (tix p.1 p.2 1) f ∗ aggSegPts d (tix p.1 p.2 2) f ∗ aggSegPts d (tix p.1 p.2 3) f)) from
      bigSep_mono fun p _ => (show (iprop(aggSegPts d (tix p.1 p.2 0) fa ∗ aggSegPts d (tix p.1 p.2 1) fa ∗ aggSegPts d (tix p.1 p.2 2) fa ∗ aggSegPts d (tix p.1 p.2 3) fa) : sProp 𝕄) ⊢ iprop(∃ f, aggSegPts d (tix p.1 p.2 0) f ∗ aggSegPts d (tix p.1 p.2 1) f ∗ aggSegPts d (tix p.1 p.2 2) f ∗ aggSegPts d (tix p.1 p.2 3) f) from by iintro H; iexists fa; iexact H)) $$ Ha'
  isplitl [Hst]; · iexact Hst
  isplitl [Hdt]; · iexact Hdt
  iapply (show (bigSep (Finset.univ : Finset (Fin τ.nSC × Fin τ.nSub)) fun p => if p.1.val = 0 then cntSegPts d (sub16 p.2) fc else iprop(emp)) ⊢ (bigSep (Finset.univ : Finset (Fin τ.nSC × Fin τ.nSub)) fun p => if p.1.val = 0 then iprop(∃ f, cntSegPts d (sub16 p.2) f) else iprop(emp)) from
      bigSep_mono fun p _ => by
        split
        · exact (show (cntSegPts d (sub16 p.2) fc : sProp 𝕄) ⊢ iprop(∃ f, cntSegPts d (sub16 p.2) f) from by iintro H; iexists fc; iexact H)
        · exact BI.Entails.refl _) $$ Hc'

theorem dn0_elim : (iprop((srcRestPts w d ∗ dstRestPts w d) ∗ bigSep Finset.univ fun c : Fin ((K (F := F)).nCore 0) => (P w).dn 0 d c) : sProp 𝕄)
    ⊢ iprop((xfLoc d ↦{fullShare} w.xf d) ∗ (aggLoc d ↦{fullShare} w.agg d) ∗ (srcLoc d ↦{fullShare} w.src d) ∗ (dstLoc d ↦{fullShare} w.dst d)
      ∗ (cntLoc d ↦{fullShare} w.cnt d)) := by
  rw [dn_pairs, tileOut0_fams, ← xf_tiles, ← agg_tiles, ← cnt_tiles]
  iintro ⟨⟨Hsr, Hdr⟩, Hx, Ha, Hst, Hdt, Hc⟩
  isplitl [Hx]; · iexact Hx
  isplitl [Ha]; · iexact Ha
  isplitl [Hsr Hst]
  · iapply (src_tiles (F := F) d (w.src d)).2
    isplitl [Hsr]; · iexact Hsr
    iexact Hst
  isplitl [Hdr Hdt]
  · iapply (dst_tiles (F := F) d (w.dst d)).2
    isplitl [Hdr]; · iexact Hdr
    iexact Hdt
  iexact Hc

theorem st1_intro : iprop((hfLoc d ↦{fullShare} w.hf d) ∗ (∃ f, agg2Loc d ↦{fullShare} f) ∗ (srcLoc d ↦{fullShare} w.src d) ∗ (dstLoc d ↦{fullShare} w.dst d))
    ⊢ (iprop((srcRestPts w d ∗ dstRestPts w d) ∗ bigSep Finset.univ fun c : Fin ((K (F := F)).nCore 1) => (P w).st 1 d c) : sProp 𝕄) := by
  rw [st_pairs, tileIn1_fams]
  iintro ⟨Hx, ⟨%fa, Ha⟩, Hs, Hd⟩
  ihave Hx' := (Entails.of_eq (hf_tiles (F := F) d (w.hf d))) $$ Hx
  ihave Ha' := (Entails.of_eq (agg2_tiles (F := F) d fa)) $$ Ha
  ihave Hs' := (src_tiles (F := F) d (w.src d)).1 $$ Hs
  ihave Hd' := (dst_tiles (F := F) d (w.dst d)).1 $$ Hd
  icases Hs' with ⟨Hsr, Hst⟩
  icases Hd' with ⟨Hdr, Hdt⟩
  isplitl [Hsr Hdr]
  · isplitl [Hsr]; · iexact Hsr
    iexact Hdr
  isplitl [Hx']; · iexact Hx'
  isplitl [Ha']
  · iapply (show (bigSep (Finset.univ : Finset (Fin τ.nSC × Fin τ.nSub)) fun p => iprop(agg2SegPts d (tix p.1 p.2 0) fa ∗ agg2SegPts d (tix p.1 p.2 1) fa ∗ agg2SegPts d (tix p.1 p.2 2) fa ∗ agg2SegPts d (tix p.1 p.2 3) fa)) ⊢ (bigSep (Finset.univ : Finset (Fin τ.nSC × Fin τ.nSub)) fun p => iprop(∃ f, agg2SegPts d (tix p.1 p.2 0) f ∗ agg2SegPts d (tix p.1 p.2 1) f ∗ agg2SegPts d (tix p.1 p.2 2) f ∗ agg2SegPts d (tix p.1 p.2 3) f)) from
      bigSep_mono fun p _ => (show (iprop(agg2SegPts d (tix p.1 p.2 0) fa ∗ agg2SegPts d (tix p.1 p.2 1) fa ∗ agg2SegPts d (tix p.1 p.2 2) fa ∗ agg2SegPts d (tix p.1 p.2 3) fa) : sProp 𝕄) ⊢ iprop(∃ f, agg2SegPts d (tix p.1 p.2 0) f ∗ agg2SegPts d (tix p.1 p.2 1) f ∗ agg2SegPts d (tix p.1 p.2 2) f ∗ agg2SegPts d (tix p.1 p.2 3) f) from by iintro H; iexists fa; iexact H)) $$ Ha'
  isplitl [Hst]; · iexact Hst
  iexact Hdt

theorem dn1_elim : (iprop((srcRestPts w d ∗ dstRestPts w d) ∗ bigSep Finset.univ fun c : Fin ((K (F := F)).nCore 1) => (P w).dn 1 d c) : sProp 𝕄)
    ⊢ iprop((hfLoc d ↦{fullShare} w.hf d) ∗ (agg2Loc d ↦{fullShare} w.agg2 d) ∗ (srcLoc d ↦{fullShare} w.src d) ∗ (dstLoc d ↦{fullShare} w.dst d)) := by
  rw [dn_pairs, tileOut1_fams, ← hf_tiles, ← agg2_tiles]
  iintro ⟨⟨Hsr, Hdr⟩, Hx, Ha, Hst, Hdt⟩
  isplitl [Hx]; · iexact Hx
  isplitl [Ha]; · iexact Ha
  isplitl [Hsr Hst]
  · iapply (src_tiles (F := F) d (w.src d)).2
    isplitl [Hsr]; · iexact Hsr
    iexact Hst
  iapply (dst_tiles (F := F) d (w.dst d)).2
  isplitl [Hdr]; · iexact Hdr
  iexact Hdt

end Cert.Proof.Sage

end
-- ==== Proof.LaunchHost.lean ====
import proofs.«215722_g7507602833967_cont_sun_m_718_28_alg».proof.Proof.LaunchRes
import Idealize.ShloMosaic.Lib.StableHlo.Run

noncomputable section

namespace Cert.Proof.Sage

open Cert.KernelIdeal Cert.KernelIdeal.Gen
open Idealize.ShloMosaic Idealize.SL.Sem
open Idealize.ShloMosaic.SparseCore (S V T)
open Idealize.SL Idealize.SL.RA Idealize.SL.BI
open scoped Idealize.SL.BI
open Idealize.SL.BI.BIBase Idealize.SL.BI.Laws Idealize.SL.ProofMode
open Idealize.ShloMosaic.StableHlo (held held_congr seq after)

variable {F : FTy → Type}

local notation "𝕄" => MM F

section Ops
variable [FloatOps F]

def ops1 : List (HloOp τ sig (Elt F)) := [
  (StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F))),
  (StableHlo.reshape main_v0 main_v1 rfl shapeCasts_S1x320000_S320000),
  (StableHlo.unary main_arg1 main_v2 ((extractStridedSlice S1x320000 ![1, 0] · slices_S2x320000_S1x320000_1_0) : (⟨S2x320000, .i32⟩ : BufTy).Contents (Elt F) → (⟨S1x320000, .i32⟩ : BufTy).Contents (Elt F))),
  (StableHlo.reshape main_v2 main_v3 rfl shapeCasts_S1x320000_S320000),
  (StableHlo.nullary main_c (constantI S_ 32 0#32)),
  (StableHlo.unary main_c main_v4 (broadcastInDim S7680 ![] bcast_S_S7680 : (⟨S_, .i32⟩ : BufTy).Contents (Elt F) → (⟨S7680, .i32⟩ : BufTy).Contents (Elt F))),
  (StableHlo.binary main_v1 main_v4 main_v5 ((fun a b => concatenate S327680 0 [⟨S320000, a⟩, ⟨S7680, b⟩] concatenates_S320000_S7680_S327680_d0) : (⟨S320000, .i32⟩ : BufTy).Contents (Elt F) → (⟨S7680, .i32⟩ : BufTy).Contents (Elt F) → (⟨S327680, .i32⟩ : BufTy).Contents (Elt F))),
  (StableHlo.nullary main_c_0 (constantI S_ 32 10000#32)),
  (StableHlo.unary main_c_0 main_v6 (broadcastInDim S7680 ![] bcast_S_S7680 : (⟨S_, .i32⟩ : BufTy).Contents (Elt F) → (⟨S7680, .i32⟩ : BufTy).Contents (Elt F))),
  (StableHlo.binary main_v3 main_v6 main_v7 ((fun a b => concatenate S327680 0 [⟨S320000, a⟩, ⟨S7680, b⟩] concatenates_S320000_S7680_S327680_d0) : (⟨S320000, .i32⟩ : BufTy).Contents (Elt F) → (⟨S7680, .i32⟩ : BufTy).Contents (Elt F) → (⟨S327680, .i32⟩ : BufTy).Contents (Elt F))),
  (StableHlo.unary main_arg0 main_v8 ((transpose S128x10000 [1, 0] · transposes_S10000x128_S128x10000_1_0) : (⟨S10000x128, .f32⟩ : BufTy).Contents (Elt F) → (⟨S128x10000, .f32⟩ : BufTy).Contents (Elt F))),
  (StableHlo.nullary main_cst (constant S_ .f32 0x00000000#32)),
  (StableHlo.unary main_cst main_v9 (broadcastInDim S128x112 ![] bcast_S_S128x112 : (⟨S_, .f32⟩ : BufTy).Contents (Elt F) → (⟨S128x112, .f32⟩ : BufTy).Contents (Elt F))),
  (StableHlo.binary main_v8 main_v9 main_v10 ((fun a b => concatenate S128x10112 1 [⟨S128x10000, a⟩, ⟨S128x112, b⟩] concatenates_S128x10000_S128x112_S128x10112_d1) : (⟨S128x10000, .f32⟩ : BufTy).Contents (Elt F) → (⟨S128x112, .f32⟩ : BufTy).Contents (Elt F) → (⟨S128x10112, .f32⟩ : BufTy).Contents (Elt F))),
  (StableHlo.reshape main_v10 main_v11 rfl shapeCasts_S128x10112_S1294336)]

def ops2 : List (HloOp τ sig (Elt F)) := [
  (StableHlo.reshape main_v12_0 main_v13 rfl shapeCasts_S1294336_S128x10112),
  (StableHlo.reshape main_v12_1 main_v14 rfl shapeCasts_S161792_S16x10112),
  (StableHlo.reshape main_arg3 main_v15 rfl shapeCasts_S128_S128x1)]

def ops3 : List (HloOp τ sig (Elt F)) := [
  (StableHlo.reshape main_v16 main_v17 rfl shapeCasts_S128x10112_S1294336)]

def ops4 : List (HloOp τ sig (Elt F)) := [
  (StableHlo.reshape main_v18 main_v19 rfl shapeCasts_S1294336_S128x10112),
  (StableHlo.reshape main_arg6 main_v20 rfl shapeCasts_S128_S128x1),
  (StableHlo.reshape main_arg9 main_v21 rfl shapeCasts_S16_S1x16)]

def ops5 : List (HloOp τ sig (Elt F)) := [
  (StableHlo.unary main_v22 main_v23 ((extractStridedSlice S10000x16 ![0, 0] · slices_S10112x16_S10000x16_0_0) : (⟨S10112x16, .f32⟩ : BufTy).Contents (Elt F) → (⟨S10000x16, .f32⟩ : BufTy).Contents (Elt F)))]

theorem main_eq (d : Dev nD) : (main (F := F) d) =
    (seq ops1 >>= fun _ => (K (F := F)).run d 0 >>= fun _ => seq ops2 >>= fun _ =>
      Prog.lift (.customCall (SparseCore.inner (Pipeline.entry 0)) ()) >>= fun _ => seq ops3 >>= fun _ =>
      (K (F := F)).run d 1 >>= fun _ => seq ops4 >>= fun _ =>
      Prog.lift (.customCall (SparseCore.inner (Pipeline.entry 1)) ()) >>= fun _ => seq ops5) := by
  rfl

end Ops

abbrev dr (b : Ref sig .tc) : DevRef τ sig := Proc.devRef .tc b

def SS : Finset (DevRef τ sig) := (Finset.univ.filter fun b : Ref sig .tc => ¬ b.isScoped).image dr

theorem mem_SS (b : Ref sig .tc) (h : ¬ b.isScoped) : dr b ∈ SS :=
  Finset.mem_image.mpr ⟨b, Finset.mem_filter.mpr ⟨Finset.mem_univ _, h⟩, rfl⟩

theorem dr_injOn : Set.InjOn dr ((Finset.univ.filter fun b : Ref sig .tc => ¬ b.isScoped : Finset (Ref sig .tc)) : Set (Ref sig .tc)) :=
  fun _ _ _ _ e => Proc.devRef_injective _ e

def V0 (m : (ℓ : Loc nD τ sig) → Buf (Elt F) ℓ) (d : Dev nD) : Valuation τ sig (Elt F) := fun b => m (d, b)

theorem unscoped_held (m : (ℓ : Loc nD τ sig) → Buf (Elt F) ℓ) (d : Dev nD) :
    (unscopedBufs d (fun b => m ((SparseCore.T d).loc b)) : sProp 𝕄) = held (T d) SS (V0 m d) := by
  unfold unscopedBufs held SS
  rw [SparseCore.bigSep_image_of_injOn dr_injOn]
  rfl

end Cert.Proof.Sage

end
-- ==== Proof.ScatterSum.lean ====
import Idealize.ShloMosaic.PureOps.ShapeOps
import Idealize.ShloMosaic.PureOps.Ideal
import Idealize.ShloMosaic.PureOps.Ideal.Laws
import Idealize.ShloMosaic.Lib.ValueIdx
import Mathlib.Algebra.BigOperators.Fin
import Mathlib.Algebra.BigOperators.Ring.Finset
import Mathlib.Algebra.BigOperators.Group.Finset.Basic

noncomputable section

open scoped BigOperators
open Idealize.ShloMosaic Idealize.ShloMosaic.ValueIdx

namespace Cert.Proof.ScatterSum

abbrev SRow : Shape := ⟨1, ![10112]⟩

abbrev SLane : Shape := ⟨1, ![16]⟩

abbrev SChunk : Shape := ⟨1, ![512]⟩

abbrev SEdge : Shape := ⟨1, ![327680]⟩

abbrev InB (s : IVec SLane 32) : Prop := ∀ a x, ((![s] : Fin 1 → IVec SLane 32) a x).toNat < SRow.size a

def rowOf (w : BitVec 32) : SRow.Idx := ix1 ⟨w.toNat % 10112, Nat.mod_lt _ (by decide)⟩

theorem rowOf_eq (w : BitVec 32) (h : w.toNat < 10112) : rowOf w = ix1 ⟨w.toNat, h⟩ := by
  unfold rowOf
  congr 1
  exact Fin.ext (Nat.mod_eq_of_lt h)

theorem ofLane_eq_ix1 (l : Fin 16) : (Shape.ofLane (d := ![16]) l : SLane.Idx) = ix1 l := by
  funext a
  match a with
  | ⟨0, _⟩ => rfl

theorem inB_of_lt {s : IVec SLane 32} (h : ∀ x, (s x).toNat < 10112) : InB s := by
  intro a x
  match a with
  | ⟨0, _⟩ => exact h x

section Generic
variable {F : FTy → Type} [FloatOps F]

def gath (xs : Vec F SRow .f32) (s : IVec SLane 32) : Vec F SLane .f32 := fun x => xs (rowOf (s x))

theorem gath_eq (xs : Vec F SRow .f32) (s : IVec SLane 32) (h : InB s) : loadIdx xs ![s] h = gath xs s := by
  funext x
  have hx : (s x).toNat < 10112 := h 0 x
  show xs (idxAt ![s] h x) = xs (rowOf (s x))
  rw [rowOf_eq _ hx]
  congr 1
  funext a
  match a with
  | ⟨0, _⟩ => rfl

open Classical in

def scat (acc : Vec F SRow .f32) (d : IVec SLane 32) (v : Vec F SLane .f32) (mask : IVec SLane 1) : Vec F SRow .f32 :=
  if h : InB d then storeIdx acc ![d] v mask true h else acc

theorem scat_eq (acc : Vec F SRow .f32) (d : IVec SLane 32) (v : Vec F SLane .f32) (mask : IVec SLane 1) (h : InB d) :
    storeIdx acc ![d] v mask true h = scat acc d v mask := by
  unfold scat
  rw [dif_pos h]

def lanes16 (a : IVec SEdge 32) (k : Nat) : IVec SLane 32 :=
  fun x => if h : 16 * k + (x 0).val < 327680 then a (ix1 ⟨16 * k + (x 0).val, h⟩) else 0

def chunk512 (a : IVec SEdge 32) (g : Nat) : IVec SChunk 32 :=
  fun x => if h : 512 * g + (x 0).val < 327680 then a (ix1 ⟨512 * g + (x 0).val, h⟩) else 0

def sub16 (c : IVec SChunk 32) (j : Nat) : IVec SLane 32 :=
  fun x => if h : 16 * j + (x 0).val < 512 then c (ix1 ⟨16 * j + (x 0).val, h⟩) else 0

theorem lanes16_apply (a : IVec SEdge 32) (k : Nat) (x : SLane.Idx) (h : 16 * k + (x 0).val < 327680) :
    lanes16 a k x = a (ix1 ⟨16 * k + (x 0).val, h⟩) := by
  unfold lanes16
  exact dif_pos h

theorem sub16_chunk512 (a : IVec SEdge 32) (g j : Nat) (hj : j < 32) : sub16 (chunk512 a g) j = lanes16 a (32 * g + j) := by
  funext x
  have hx : (x 0).val < 16 := (x 0).isLt
  have h1 : 16 * j + (x 0).val < 512 := by omega
  have e1 : sub16 (chunk512 a g) j x = chunk512 a g (ix1 ⟨16 * j + (x 0).val, h1⟩) := dif_pos h1
  rw [e1]
  by_cases h2 : 16 * (32 * g + j) + (x 0).val < 327680
  · have h3 : 512 * g + (16 * j + (x 0).val) < 327680 := by omega
    have e2 : chunk512 a g (ix1 ⟨16 * j + (x 0).val, h1⟩) = a (ix1 ⟨512 * g + (16 * j + (x 0).val), h3⟩) := dif_pos h3
    rw [e2, lanes16_apply a _ x h2]
    congr 2
    exact Fin.ext (by show 512 * g + (16 * j + (x 0).val) = 16 * (32 * g + j) + (x 0).val; omega)
  · have h3 : ¬ 512 * g + (16 * j + (x 0).val) < 327680 := by omega
    have e2 : chunk512 a g (ix1 ⟨16 * j + (x 0).val, h1⟩) = 0 := dif_neg h3
    have e3 : lanes16 a (32 * g + j) x = 0 := dif_neg h2
    rw [e2, e3]

theorem inB_lanes16 (a : IVec SEdge 32) (ha : ∀ e, (a e).toNat < 10112) (k : Nat) : InB (lanes16 a k) := by
  refine inB_of_lt fun x => ?_
  unfold lanes16
  split_ifs with h
  · exact ha _
  · decide

-- The row accumulator after k sixteen-edge steps: each step adds, at every lane's destination, the source's entry; lanes that collide all add in.
def aggFrom (acc0 xs : Vec F SRow .f32) (src dst : IVec SEdge 32) : Nat → Vec F SRow .f32
  | 0 => acc0
  | k + 1 => scat (aggFrom acc0 xs src dst k) (lanes16 dst k) (gath xs (lanes16 src k)) (fun _ => 1#1)

def aggUpTo (xs : Vec F SRow .f32) (src dst : IVec SEdge 32) (k : Nat) : Vec F SRow .f32 :=
  aggFrom (fun _ => Scalar.ofBits .f32 0x00000000#32) xs src dst k

theorem aggUpTo_zero (xs : Vec F SRow .f32) (src dst : IVec SEdge 32) :
    aggUpTo xs src dst 0 = fun _ => Scalar.ofBits .f32 0x00000000#32 := rfl

theorem aggUpTo_succ (xs : Vec F SRow .f32) (src dst : IVec SEdge 32) (k : Nat) :
    aggUpTo xs src dst (k + 1)
      = scat (aggUpTo xs src dst k) (lanes16 dst k) (gath xs (lanes16 src k)) (fun _ => 1#1) := rfl

-- The in-degree tally after k steps: each step adds one at every unmasked lane's destination.
def cntFrom (acc0 : Vec F SRow .f32) (dst : IVec SEdge 32) (mask : Nat → IVec SLane 1) : Nat → Vec F SRow .f32
  | 0 => acc0
  | k + 1 => scat (cntFrom acc0 dst mask k) (lanes16 dst k) (broadcast SLane (Scalar.ofBits .f32 0x3F800000#32)) (mask (k / 32))

def cntUpTo (dst : IVec SEdge 32) (mask : Nat → IVec SLane 1) (k : Nat) : Vec F SRow .f32 :=
  cntFrom (fun _ => Scalar.ofBits .f32 0x00000000#32) dst mask k

theorem cntUpTo_zero (dst : IVec SEdge 32) (mask : Nat → IVec SLane 1) :
    cntUpTo (F := F) dst mask 0 = fun _ => Scalar.ofBits .f32 0x00000000#32 := rfl

theorem cntUpTo_succ (dst : IVec SEdge 32) (mask : Nat → IVec SLane 1) (k : Nat) :
    cntUpTo (F := F) dst mask (k + 1)
      = scat (cntUpTo dst mask k) (lanes16 dst k) (broadcast SLane (Scalar.ofBits .f32 0x3F800000#32)) (mask (k / 32)) := rfl

end Generic

end Cert.Proof.ScatterSum
-- ==== Proof.KernelTerm.lean ====
import proofs.«215722_g7507602833967_cont_sun_m_718_28_alg».proof.Proof.Gen.KernelIdeal.Skeleton
import proofs.«215722_g7507602833967_cont_sun_m_718_28_alg».proof.Proof.ScatterSum
import Idealize.ShloMosaic.Lib.ValueIdx

noncomputable section

namespace Cert.Proof.KernelTerm

open Cert.KernelIdeal Cert.KernelIdeal.Gen
open Idealize.ShloMosaic Idealize.ShloMosaic.ValueIdx
open Cert.Proof.ScatterSum

variable {F : FTy → Type} [FloatOps F]

def srcRow (ei : IVec S2x320000 32) : IVec S1x320000 32 :=
  extractStridedSlice S1x320000 ![0, 0] ei slices_S2x320000_S1x320000_0_0

def srcWords (ei : IVec S2x320000 32) : IVec S320000 32 := shapeCast S320000 (srcRow ei) shapeCasts_S1x320000_S320000

def dstRow (ei : IVec S2x320000 32) : IVec S1x320000 32 :=
  extractStridedSlice S1x320000 ![1, 0] ei slices_S2x320000_S1x320000_1_0

def dstWords (ei : IVec S2x320000 32) : IVec S320000 32 := shapeCast S320000 (dstRow ei) shapeCasts_S1x320000_S320000

def padSrc : IVec S7680 32 := broadcastInDim S7680 ![] bcast_S_S7680 (constantI S_ 32 0#32)

def padDst : IVec S7680 32 := broadcastInDim S7680 ![] bcast_S_S7680 (constantI S_ 32 10000#32)

def srcflat (ei : IVec S2x320000 32) : IVec S327680 32 :=
  concatenate S327680 0 [⟨S320000, srcWords ei⟩, ⟨S7680, padSrc⟩] concatenates_S320000_S7680_S327680_d0

def dstflat (ei : IVec S2x320000 32) : IVec S327680 32 :=
  concatenate S327680 0 [⟨S320000, dstWords ei⟩, ⟨S7680, padDst⟩] concatenates_S320000_S7680_S327680_d0

def xTr (x : FVec F S10000x128 .f32) : FVec F S128x10000 .f32 := transpose S128x10000 [1, 0] x transposes_S10000x128_S128x10000_1_0

def padX : FVec F S128x112 .f32 := broadcastInDim S128x112 ![] bcast_S_S128x112 (constant S_ .f32 0x00000000#32)

def xT (x : FVec F S10000x128 .f32) : FVec F S128x10112 .f32 :=
  concatenate S128x10112 1 [⟨S128x10000, xTr x⟩, ⟨S128x112, padX⟩] concatenates_S128x10000_S128x112_S128x10112_d1

def xflat (x : FVec F S10000x128 .f32) : FVec F S1294336 .f32 := shapeCast S1294336 (xT x) shapeCasts_S128x10112_S1294336

def flatRow (xf : FVec F S1294336 .f32) (r : Nat) : Vec F SRow .f32 :=
  fun n => if h : 10112 * r + (n 0).val < 1294336 then xf (ix1 ⟨10112 * r + (n 0).val, h⟩) else Scalar.ofBits .f32 0x00000000#32

theorem flatRow_apply (xf : FVec F S1294336 .f32) (r : Nat) (n : SRow.Idx) (h : 10112 * r + (n 0).val < 1294336) :
    flatRow xf r n = xf (ix1 ⟨10112 * r + (n 0).val, h⟩) := dif_pos h

def aggFlat (xf : FVec F S1294336 .f32) (src dst : IVec SEdge 32) : FVec F S1294336 .f32 :=
  fun i => aggUpTo (flatRow xf ((i 0).val / 10112)) src dst 20480 (ix1 ⟨(i 0).val % 10112, Nat.mod_lt _ (by decide)⟩)

theorem aggFlat_at (xf : FVec F S1294336 .f32) (src dst : IVec SEdge 32) (r : Nat) (n : Fin 10112) (h : 10112 * r + n.val < 1294336) :
    aggFlat xf src dst (ix1 ⟨10112 * r + n.val, h⟩) = aggUpTo (flatRow xf r) src dst 20480 (ix1 n) := by
  have e1 : (10112 * r + n.val) / 10112 = r := by omega
  have e2 : (10112 * r + n.val) % 10112 = n.val := by omega
  show aggUpTo (flatRow xf ((10112 * r + n.val) / 10112)) src dst 20480 (ix1 ⟨(10112 * r + n.val) % 10112, _⟩) = _
  rw [e1]
  exact congrArg _ (congrArg ix1 (Fin.ext e2))

def tileMask (s g : Nat) : IVec SLane 1 := fun _ => if g % 16 = s then 1#1 else 0#1

def cntFlat (dst : IVec SEdge 32) : FVec F S161792 .f32 :=
  fun i => cntUpTo dst (tileMask ((i 0).val / 10112)) 20480 (ix1 ⟨(i 0).val % 10112, Nat.mod_lt _ (by decide)⟩)

theorem cntFlat_at (dst : IVec SEdge 32) (s : Nat) (n : Fin 10112) (h : 10112 * s + n.val < 161792) :
    cntFlat (F := F) dst (ix1 ⟨10112 * s + n.val, h⟩) = cntUpTo dst (tileMask s) 20480 (ix1 n) := by
  have e1 : (10112 * s + n.val) / 10112 = s := by omega
  have e2 : (10112 * s + n.val) % 10112 = n.val := by omega
  show cntUpTo dst (tileMask ((10112 * s + n.val) / 10112)) 20480 (ix1 ⟨(10112 * s + n.val) % 10112, _⟩) = _
  rw [e1]
  exact congrArg _ (congrArg ix1 (Fin.ext e2))

def aggf1 (x : FVec F S10000x128 .f32) (ei : IVec S2x320000 32) : FVec F S1294336 .f32 := aggFlat (xflat x) (srcflat ei) (dstflat ei)

def cntf (ei : IVec S2x320000 32) : FVec F S161792 .f32 := cntFlat (dstflat ei)

def agg1 (x : FVec F S10000x128 .f32) (ei : IVec S2x320000 32) : FVec F S128x10112 .f32 :=
  shapeCast S128x10112 (aggf1 x ei) shapeCasts_S1294336_S128x10112

def cnt16 (ei : IVec S2x320000 32) : FVec F S16x10112 .f32 := shapeCast S16x10112 (cntf (F := F) ei) shapeCasts_S161792_S16x10112

def biasCol (b : FVec F S128 .f32) : FVec F S128x1 .f32 := shapeCast S128x1 b shapeCasts_S128_S128x1

def h1T (x : FVec F S10000x128 .f32) (ei : IVec S2x320000 32) (W1l : FVec F S128x128 .f32) (b1l : FVec F S128 .f32) (W1r : FVec F S128x128 .f32) :
    FVec F S128x10112 .f32 :=
  k1_pay1 (cnt16 ei) (agg1 x ei) W1l (biasCol b1l) W1r (xT x)

def h1flat (x : FVec F S10000x128 .f32) (ei : IVec S2x320000 32) (W1l : FVec F S128x128 .f32) (b1l : FVec F S128 .f32) (W1r : FVec F S128x128 .f32) :
    FVec F S1294336 .f32 :=
  shapeCast S1294336 (h1T x ei W1l b1l W1r) shapeCasts_S128x10112_S1294336

def aggf2 (x : FVec F S10000x128 .f32) (ei : IVec S2x320000 32) (W1l : FVec F S128x128 .f32) (b1l : FVec F S128 .f32) (W1r : FVec F S128x128 .f32) :
    FVec F S1294336 .f32 :=
  aggFlat (h1flat x ei W1l b1l W1r) (srcflat ei) (dstflat ei)

def agg2 (x : FVec F S10000x128 .f32) (ei : IVec S2x320000 32) (W1l : FVec F S128x128 .f32) (b1l : FVec F S128 .f32) (W1r : FVec F S128x128 .f32) :
    FVec F S128x10112 .f32 :=
  shapeCast S128x10112 (aggf2 x ei W1l b1l W1r) shapeCasts_S1294336_S128x10112

def biasRow (b : FVec F S16 .f32) : FVec F S1x16 .f32 := shapeCast S1x16 b shapeCasts_S16_S1x16

def outPad (x : FVec F S10000x128 .f32) (ei : IVec S2x320000 32) (W1l : FVec F S128x128 .f32) (b1l : FVec F S128 .f32) (W1r : FVec F S128x128 .f32)
    (W2l : FVec F S128x128 .f32) (b2l : FVec F S128 .f32) (W2r : FVec F S128x128 .f32) (Wlin : FVec F S128x16 .f32) (blin : FVec F S16 .f32) :
    FVec F S10112x16 .f32 :=
  k3_pay1 (cnt16 ei) (agg2 x ei W1l b1l W1r) W2l (biasCol b2l) W2r (h1T x ei W1l b1l W1r) Wlin (biasRow blin)

def kernelOut (x : FVec F S10000x128 .f32) (ei : IVec S2x320000 32) (W1l : FVec F S128x128 .f32) (b1l : FVec F S128 .f32) (W1r : FVec F S128x128 .f32)
    (W2l : FVec F S128x128 .f32) (b2l : FVec F S128 .f32) (W2r : FVec F S128x128 .f32) (Wlin : FVec F S128x16 .f32) (blin : FVec F S16 .f32) :
    FVec F S10000x16 .f32 :=
  extractStridedSlice S10000x16 ![0, 0] (outPad x ei W1l b1l W1r W2l b2l W2r Wlin blin) slices_S10112x16_S10000x16_0_0

end Cert.Proof.KernelTerm

end
-- ==== Proof.LaunchVals.lean ====
import proofs.«215722_g7507602833967_cont_sun_m_718_28_alg».proof.Proof.LaunchHost
import proofs.«215722_g7507602833967_cont_sun_m_718_28_alg».proof.Proof.KernelTerm

noncomputable section

namespace Cert.Proof.Sage

open Cert.KernelIdeal Cert.KernelIdeal.Gen
open Idealize.ShloMosaic Idealize.SL.Sem
open Idealize.ShloMosaic.SparseCore (S V T)
open Idealize.ShloMosaic.StableHlo
open Cert.Proof.KernelTerm

variable {F : FTy → Type} [FloatOps F]
variable (m : (ℓ : Loc nD τ sig) → Buf (Elt F) ℓ) (d : Dev nD)

abbrev aX : FVec F S10000x128 .f32 := m (d, dr main_arg0)
abbrev aE : IVec S2x320000 32 := m (d, dr main_arg1)
abbrev aW1l : FVec F S128x128 .f32 := m (d, dr main_arg2)
abbrev aB1l : FVec F S128 .f32 := m (d, dr main_arg3)
abbrev aW1r : FVec F S128x128 .f32 := m (d, dr main_arg4)
abbrev aW2l : FVec F S128x128 .f32 := m (d, dr main_arg5)
abbrev aB2l : FVec F S128 .f32 := m (d, dr main_arg6)
abbrev aW2r : FVec F S128x128 .f32 := m (d, dr main_arg7)
abbrev aWlin : FVec F S128x16 .f32 := m (d, dr main_arg8)
abbrev aBlin : FVec F S16 .f32 := m (d, dr main_arg9)

def wOf : Vals F where
  xf d := xflat (aX m d)
  src d := srcflat (aE m d)
  dst d := dstflat (aE m d)
  agg d := aggf1 (aX m d) (aE m d)
  cnt d := cntf (aE m d)
  hf d := h1flat (aX m d) (aE m d) (aW1l m d) (aB1l m d) (aW1r m d)
  agg2 d := aggf2 (aX m d) (aE m d) (aW1l m d) (aB1l m d) (aW1r m d)

def V1 : Valuation τ sig (Elt F) := after ops1 (V0 m d)

def V2 : Valuation τ sig (Elt F) := Function.update (Function.update (V1 m d) (dr main_v12_0) ((wOf m).agg d)) (dr main_v12_1) ((wOf m).cnt d)

def V3 : Valuation τ sig (Elt F) := after ops2 (V2 m d)

def V4 : Valuation τ sig (Elt F) := Function.update (V3 m d) (dr main_v16) (h1T (aX m d) (aE m d) (aW1l m d) (aB1l m d) (aW1r m d))

def V5 : Valuation τ sig (Elt F) := after ops3 (V4 m d)

def V6 : Valuation τ sig (Elt F) := Function.update (V5 m d) (dr main_v18) ((wOf m).agg2 d)

def V7 : Valuation τ sig (Elt F) := after ops4 (V6 m d)

def V8 : Valuation τ sig (Elt F) := Function.update (V7 m d) (dr main_v22)
  (outPad (aX m d) (aE m d) (aW1l m d) (aB1l m d) (aW1r m d) (aW2l m d) (aB2l m d) (aW2r m d) (aWlin m d) (aBlin m d))

def V9 : Valuation τ sig (Elt F) := after ops5 (V8 m d)

macro "stage_simp" : tactic =>
  `(tactic| (simp (disch := decide) only [after_cons, after_nil,
      nullary_result', unary_result', binary_result', reshape_result',
      nullary_result_ne', unary_result_ne', binary_result_ne', reshape_result_ne',
      Function.update_self, Function.update_of_ne]))

theorem V1_xf : V1 m d (dr main_v11) = (wOf m).xf d := by
  unfold V1 ops1 V0; stage_simp; rfl
theorem V1_src : V1 m d (dr main_v5) = (wOf m).src d := by
  unfold V1 ops1 V0; stage_simp; rfl
theorem V1_dst : V1 m d (dr main_v7) = (wOf m).dst d := by
  unfold V1 ops1 V0; stage_simp; rfl

theorem V3_xT : V3 m d (dr main_v10) = xT (aX m d) := by
  unfold V3 ops2 V2 V1 ops1 V0; stage_simp; rfl
theorem V3_agg1 : V3 m d (dr main_v13) = agg1 (aX m d) (aE m d) := by
  unfold V3 ops2 V2 V1 ops1 V0; stage_simp; rfl
theorem V3_cnt16 : V3 m d (dr main_v14) = cnt16 (aE m d) := by
  unfold V3 ops2 V2 V1 ops1 V0; stage_simp; rfl
theorem V3_W1l : V3 m d (dr main_arg2) = aW1l m d := by
  unfold V3 ops2 V2 V1 ops1 V0; stage_simp
theorem V3_b1 : V3 m d (dr main_v15) = biasCol (aB1l m d) := by
  unfold V3 ops2 V2 V1 ops1 V0; stage_simp; rfl
theorem V3_W1r : V3 m d (dr main_arg4) = aW1r m d := by
  unfold V3 ops2 V2 V1 ops1 V0; stage_simp

theorem V5_hf : V5 m d (dr main_v17) = (wOf m).hf d := by
  unfold V5 ops3 V4; stage_simp; rfl
theorem V5_src : V5 m d (dr main_v5) = (wOf m).src d := by
  unfold V5 ops3 V4 V3 ops2 V2 V1 ops1 V0; stage_simp; rfl
theorem V5_dst : V5 m d (dr main_v7) = (wOf m).dst d := by
  unfold V5 ops3 V4 V3 ops2 V2 V1 ops1 V0; stage_simp; rfl

theorem V7_h1T : V7 m d (dr main_v16) = h1T (aX m d) (aE m d) (aW1l m d) (aB1l m d) (aW1r m d) := by
  unfold V7 ops4 V6 V5 ops3 V4; stage_simp
theorem V7_agg2 : V7 m d (dr main_v19) = agg2 (aX m d) (aE m d) (aW1l m d) (aB1l m d) (aW1r m d) := by
  unfold V7 ops4 V6; stage_simp; rfl
theorem V7_cnt16 : V7 m d (dr main_v14) = cnt16 (aE m d) := by
  unfold V7 ops4 V6 V5 ops3 V4 V3 ops2 V2 V1 ops1 V0; stage_simp; rfl
theorem V7_W2l : V7 m d (dr main_arg5) = aW2l m d := by
  unfold V7 ops4 V6 V5 ops3 V4 V3 ops2 V2 V1 ops1 V0; stage_simp
theorem V7_b2 : V7 m d (dr main_v20) = biasCol (aB2l m d) := by
  unfold V7 ops4 V6 V5 ops3 V4 V3 ops2 V2 V1 ops1 V0; stage_simp; rfl
theorem V7_W2r : V7 m d (dr main_arg7) = aW2r m d := by
  unfold V7 ops4 V6 V5 ops3 V4 V3 ops2 V2 V1 ops1 V0; stage_simp
theorem V7_Wlin : V7 m d (dr main_arg8) = aWlin m d := by
  unfold V7 ops4 V6 V5 ops3 V4 V3 ops2 V2 V1 ops1 V0; stage_simp
theorem V7_blin : V7 m d (dr main_v21) = biasRow (aBlin m d) := by
  unfold V7 ops4 V6 V5 ops3 V4 V3 ops2 V2 V1 ops1 V0; stage_simp; rfl

theorem V9_out : V9 m d (dr main_v23) = kernelOut (aX m d) (aE m d) (aW1l m d) (aB1l m d) (aW1r m d) (aW2l m d) (aB2l m d) (aW2r m d) (aWlin m d) (aBlin m d) := by
  unfold V9 ops5 V8; stage_simp; rfl

theorem V9_arg0 : V9 m d (dr main_arg0) = m (d, dr main_arg0) := by
  unfold V9 ops5 V8 V7 ops4 V6 V5 ops3 V4 V3 ops2 V2 V1 ops1 V0; stage_simp
theorem V9_arg1 : V9 m d (dr main_arg1) = m (d, dr main_arg1) := by
  unfold V9 ops5 V8 V7 ops4 V6 V5 ops3 V4 V3 ops2 V2 V1 ops1 V0; stage_simp
theorem V9_arg2 : V9 m d (dr main_arg2) = m (d, dr main_arg2) := by
  unfold V9 ops5 V8 V7 ops4 V6 V5 ops3 V4 V3 ops2 V2 V1 ops1 V0; stage_simp
theorem V9_arg3 : V9 m d (dr main_arg3) = m (d, dr main_arg3) := by
  unfold V9 ops5 V8 V7 ops4 V6 V5 ops3 V4 V3 ops2 V2 V1 ops1 V0; stage_simp
theorem V9_arg4 : V9 m d (dr main_arg4) = m (d, dr main_arg4) := by
  unfold V9 ops5 V8 V7 ops4 V6 V5 ops3 V4 V3 ops2 V2 V1 ops1 V0; stage_simp
theorem V9_arg5 : V9 m d (dr main_arg5) = m (d, dr main_arg5) := by
  unfold V9 ops5 V8 V7 ops4 V6 V5 ops3 V4 V3 ops2 V2 V1 ops1 V0; stage_simp
theorem V9_arg6 : V9 m d (dr main_arg6) = m (d, dr main_arg6) := by
  unfold V9 ops5 V8 V7 ops4 V6 V5 ops3 V4 V3 ops2 V2 V1 ops1 V0; stage_simp
theorem V9_arg7 : V9 m d (dr main_arg7) = m (d, dr main_arg7) := by
  unfold V9 ops5 V8 V7 ops4 V6 V5 ops3 V4 V3 ops2 V2 V1 ops1 V0; stage_simp
theorem V9_arg8 : V9 m d (dr main_arg8) = m (d, dr main_arg8) := by
  unfold V9 ops5 V8 V7 ops4 V6 V5 ops3 V4 V3 ops2 V2 V1 ops1 V0; stage_simp
theorem V9_arg9 : V9 m d (dr main_arg9) = m (d, dr main_arg9) := by
  unfold V9 ops5 V8 V7 ops4 V6 V5 ops3 V4 V3 ops2 V2 V1 ops1 V0; stage_simp

end Cert.Proof.Sage

end
-- ==== Proof.EdgeRange.lean ====
import proofs.«215722_g7507602833967_cont_sun_m_718_28_alg».proof.Proof.KernelTerm

noncomputable section

namespace Cert.Proof.KernelTerm

open Cert.KernelIdeal Cert.KernelIdeal.Gen
open Idealize.ShloMosaic Idealize.ShloMosaic.ValueIdx
open Cert.Proof.ScatterSum

theorem concatenate_forall {α : Type} (P : α → Prop) (t : Shape) (a : Fin t.rank) (xs : List ((s : Shape) × (s.Idx → α)))
    (h : Shape.Concatenates (xs.map (·.1)) t a) (hP : ∀ p ∈ xs, ∀ i, P (p.2 i)) (j : t.Idx) :
    P (concatenate t a xs h j) := by
  unfold concatenate
  exact hP _ (List.getElem_mem _) _

theorem srcflat_toNat_lt (ei : IVec S2x320000 32) (h : ∀ i, (ei i).toNat ≤ 9999) (e : SEdge.Idx) :
    ((srcflat ei) e).toNat < 10112 := by
  unfold srcflat
  refine concatenate_forall (fun w : BitVec 32 => w.toNat < 10112) _ _ _ _ ?_ e
  intro p hp i
  simp only [List.mem_cons, List.not_mem_nil, or_false] at hp
  rcases hp with rfl | rfl
  · exact Nat.lt_of_le_of_lt (h _) (by norm_num)
  · show (0#32 : BitVec 32).toNat < 10112
    decide

theorem dstflat_toNat_lt (ei : IVec S2x320000 32) (h : ∀ i, (ei i).toNat ≤ 9999) (e : SEdge.Idx) :
    ((dstflat ei) e).toNat < 10112 := by
  unfold dstflat
  refine concatenate_forall (fun w : BitVec 32 => w.toNat < 10112) _ _ _ _ ?_ e
  intro p hp i
  simp only [List.mem_cons, List.not_mem_nil, or_false] at hp
  rcases hp with rfl | rfl
  · exact Nat.lt_of_le_of_lt (h _) (by norm_num)
  · show (10000#32 : BitVec 32).toNat < 10112
    decide

end Cert.Proof.KernelTerm

end
-- ==== Proof.LaunchOk.lean ====
import proofs.«215722_g7507602833967_cont_sun_m_718_28_alg».proof.Proof.LaunchVals
import proofs.«215722_g7507602833967_cont_sun_m_718_28_alg».proof.Proof.EdgeRange

noncomputable section

namespace Cert.Proof.Sage

open Cert.KernelIdeal Cert.KernelIdeal.Gen
open Idealize.ShloMosaic Idealize.ShloMosaic.ValueIdx Idealize.SL.Sem
open Cert.Proof.KernelTerm Cert.Proof.ScatterSum

variable {F : FTy → Type} [FloatOps F]

theorem row_lt (k : Fin 128) (j : SRow.Idx) : 10112 * k.val + (j 0).val < 1294336 := by
  have h1 := k.isLt; have h2 : (j 0).val < 10112 := (j 0).isLt; omega
theorem crow_lt (s : Fin 16) (j : SRow.Idx) : 10112 * s.val + (j 0).val < 161792 := by
  have h1 := s.isLt; have h2 : (j 0).val < 10112 := (j 0).isLt; omega

structure ValsOK (w : Vals F) : Prop where
  hsrc : ∀ d e, ((w.src d) e).toNat < 10112
  hdst : ∀ d e, ((w.dst d) e).toNat < 10112
  hagg : ∀ d (k : Fin 128), (fun j : SRow.Idx => w.agg d (ix1 ⟨10112 * k.val + (j 0).val, row_lt k j⟩))
    = aggUpTo (fun j : SRow.Idx => w.xf d (ix1 ⟨10112 * k.val + (j 0).val, row_lt k j⟩)) (w.src d) (w.dst d) 20480
  hcnt : ∀ d (s : Fin 16), (fun j : SRow.Idx => w.cnt d (ix1 ⟨10112 * s.val + (j 0).val, crow_lt s j⟩))
    = cntUpTo (w.dst d) (fun g _ => if g % 16 = s.val then 1#1 else 0#1) 20480
  hagg2 : ∀ d (k : Fin 128), (fun j : SRow.Idx => w.agg2 d (ix1 ⟨10112 * k.val + (j 0).val, row_lt k j⟩))
    = aggUpTo (fun j : SRow.Idx => w.hf d (ix1 ⟨10112 * k.val + (j 0).val, row_lt k j⟩)) (w.src d) (w.dst d) 20480

theorem aggFlat_rows (xf : FVec F S1294336 .f32) (src dst : IVec SEdge 32) (k : Fin 128) :
    (fun j : SRow.Idx => aggFlat xf src dst (ix1 ⟨10112 * k.val + (j 0).val, row_lt k j⟩))
      = aggUpTo (fun j : SRow.Idx => xf (ix1 ⟨10112 * k.val + (j 0).val, row_lt k j⟩)) src dst 20480 := by
  funext j
  have e : flatRow xf k.val = fun j : SRow.Idx => xf (ix1 ⟨10112 * k.val + (j 0).val, row_lt k j⟩) :=
    funext fun n => flatRow_apply xf k.val n (row_lt k n)
  exact (aggFlat_at xf src dst k.val (j 0) (row_lt k j)).trans (by rw [e]; exact congrArg _ (eq_ix1 j).symm)

theorem cntFlat_rows (dst : IVec SEdge 32) (s : Fin 16) :
    (fun j : SRow.Idx => cntFlat (F := F) dst (ix1 ⟨10112 * s.val + (j 0).val, crow_lt s j⟩))
      = cntUpTo dst (fun g _ => if g % 16 = s.val then 1#1 else 0#1) 20480 := by
  funext j
  exact (cntFlat_at dst s.val (j 0) (crow_lt s j)).trans (congrArg (cntUpTo dst (tileMask s.val) 20480) (eq_ix1 j).symm)

variable (m : (ℓ : Loc nD τ sig) → Buf (Elt F) ℓ)

theorem srcflat_lt (ei : IVec S2x320000 32) (h : ∀ i, (ei i).toNat ≤ 9999) (e : SEdge.Idx) : ((srcflat ei) e).toNat < 10112 :=
  srcflat_toNat_lt ei h e

theorem dstflat_lt (ei : IVec S2x320000 32) (h : ∀ i, (ei i).toNat ≤ 9999) (e : SEdge.Idx) : ((dstflat ei) e).toNat < 10112 :=
  dstflat_toNat_lt ei h e

theorem wOf_ok (hidx : ∀ (c : Dev nD) i, ((m ((c.tc : Thread nD τ).loc main_arg1)) i).toNat ≤ 9999) : ValsOK (wOf m) := by
  refine ⟨fun d e => ?_, fun d e => ?_, fun d k => ?_, fun d s => ?_, fun d k => ?_⟩
  · unfold wOf; dsimp only; exact srcflat_lt (aE m d) (hidx d) e
  · unfold wOf; dsimp only; exact dstflat_lt (aE m d) (hidx d) e
  · unfold wOf; dsimp only; unfold aggf1; exact aggFlat_rows _ _ _ k
  · unfold wOf; dsimp only; unfold cntf; exact cntFlat_rows _ s
  · unfold wOf; dsimp only; unfold aggf2; exact aggFlat_rows _ _ _ k

end Cert.Proof.Sage

end
-- ==== Proof.LaunchHostFacts.lean ====
import proofs.«215722_g7507602833967_cont_sun_m_718_28_alg».proof.Proof.LaunchHost

noncomputable section

namespace Cert.Proof.Sage

open Cert.KernelIdeal Cert.KernelIdeal.Gen
open Idealize.ShloMosaic Idealize.SL.Sem
open Idealize.ShloMosaic.SparseCore (S V T)

variable {F : FTy → Type} [FloatOps F]

theorem sub1 {y : Ref sig .tc} (hy : ¬ y.isScoped) : ({dr y} : Finset (DevRef τ sig)) ⊆ SS :=
  Finset.singleton_subset_iff.mpr (mem_SS y hy)
theorem sub2 {x y : Ref sig .tc} (hx : ¬ x.isScoped) (hy : ¬ y.isScoped) : ({dr x, dr y} : Finset (DevRef τ sig)) ⊆ SS :=
  Finset.insert_subset_iff.mpr ⟨mem_SS x hx, sub1 hy⟩
theorem sub3 {a b y : Ref sig .tc} (ha : ¬ a.isScoped) (hb : ¬ b.isScoped) (hy : ¬ y.isScoped) :
    ({dr a, dr b, dr y} : Finset (DevRef τ sig)) ⊆ SS :=
  Finset.insert_subset_iff.mpr ⟨mem_SS a ha, sub2 hb hy⟩

theorem ops1_sub : ∀ op ∈ (ops1 : List (HloOp τ sig (Elt F))), op.bufs ⊆ SS := by
  intro op hop
  simp only [ops1, List.mem_cons, List.not_mem_nil, or_false] at hop
  rcases hop with rfl | rfl | rfl | rfl | rfl | rfl | rfl | rfl | rfl | rfl | rfl | rfl | rfl | rfl | rfl
  all_goals first
    | exact sub1 (by decide)
    | exact sub2 (by decide) (by decide)
    | exact sub3 (by decide) (by decide) (by decide)

theorem ops2_sub : ∀ op ∈ (ops2 : List (HloOp τ sig (Elt F))), op.bufs ⊆ SS := by
  intro op hop
  simp only [ops2, List.mem_cons, List.not_mem_nil, or_false] at hop
  rcases hop with rfl | rfl | rfl
  all_goals exact sub2 (by decide) (by decide)

theorem ops3_sub : ∀ op ∈ (ops3 : List (HloOp τ sig (Elt F))), op.bufs ⊆ SS := by
  intro op hop
  simp only [ops3, List.mem_cons, List.not_mem_nil, or_false] at hop
  subst hop
  exact sub2 (by decide) (by decide)

theorem ops4_sub : ∀ op ∈ (ops4 : List (HloOp τ sig (Elt F))), op.bufs ⊆ SS := by
  intro op hop
  simp only [ops4, List.mem_cons, List.not_mem_nil, or_false] at hop
  rcases hop with rfl | rfl | rfl
  all_goals exact sub2 (by decide) (by decide)

theorem ops5_sub : ∀ op ∈ (ops5 : List (HloOp τ sig (Elt F))), op.bufs ⊆ SS := by
  intro op hop
  simp only [ops5, List.mem_cons, List.not_mem_nil, or_false] at hop
  subst hop
  exact sub2 (by decide) (by decide)

theorem ops1_fresh : ∀ op ∈ (ops1 : List (HloOp τ sig (Elt F))), op.fresh = ∅ := by
  intro op hop
  simp only [ops1, List.mem_cons, List.not_mem_nil, or_false] at hop
  rcases hop with rfl | rfl | rfl | rfl | rfl | rfl | rfl | rfl | rfl | rfl | rfl | rfl | rfl | rfl | rfl
  all_goals rfl

theorem ops2_fresh : ∀ op ∈ (ops2 : List (HloOp τ sig (Elt F))), op.fresh = ∅ := by
  intro op hop
  simp only [ops2, List.mem_cons, List.not_mem_nil, or_false] at hop
  rcases hop with rfl | rfl | rfl
  all_goals rfl

theorem ops3_fresh : ∀ op ∈ (ops3 : List (HloOp τ sig (Elt F))), op.fresh = ∅ := by
  intro op hop
  simp only [ops3, List.mem_cons, List.not_mem_nil, or_false] at hop
  subst hop
  rfl

theorem ops4_fresh : ∀ op ∈ (ops4 : List (HloOp τ sig (Elt F))), op.fresh = ∅ := by
  intro op hop
  simp only [ops4, List.mem_cons, List.not_mem_nil, or_false] at hop
  rcases hop with rfl | rfl | rfl
  all_goals rfl

theorem ops5_fresh : ∀ op ∈ (ops5 : List (HloOp τ sig (Elt F))), op.fresh = ∅ := by
  intro op hop
  simp only [ops5, List.mem_cons, List.not_mem_nil, or_false] at hop
  subst hop
  rfl

end Cert.Proof.Sage

end
-- ==== Proof.KernelPost.lean ====
import proofs.«215722_g7507602833967_cont_sun_m_718_28_alg».proof.KernelIdeal
import proofs.«215722_g7507602833967_cont_sun_m_718_28_alg».proof.Proof.KernelTerm

noncomputable section

open Idealize.ShloMosaic Idealize.SL.Sem

namespace Cert.Proof.Sage

def QK {F : FTy → Type} [FloatOps F] (m : (ℓ : Loc Cert.KernelIdeal.nD Cert.KernelIdeal.τ Cert.KernelIdeal.sig) → Buf (Elt F) ℓ) :
    PUnit × MemSt Cert.KernelIdeal.nD Cert.KernelIdeal.τ Cert.KernelIdeal.sig (Elt F) → Prop :=
  fun r => ∀ c : Dev Cert.KernelIdeal.nD,
    r.2.mem ((c.tc : Thread Cert.KernelIdeal.nD Cert.KernelIdeal.τ).loc Cert.KernelIdeal.main_v23) = Cert.Proof.KernelTerm.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)

end Cert.Proof.Sage

end
-- ==== Proof.Tc1Body.lean ====
import proofs.«215722_g7507602833967_cont_sun_m_718_28_alg».proof.Proof.Common
import proofs.«215722_g7507602833967_cont_sun_m_718_28_alg».proof.Proof.Gen.KernelIdeal.Launch
import proofs.«215722_g7507602833967_cont_sun_m_718_28_alg».proof.Proof.Gen.KernelIdeal.Points
import Idealize.ShloMosaic.Lib.Writes

noncomputable section

namespace Cert.Proof.Sage

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

section WholeRect

variable {Val : EltTy → Type} {sg : RefSig} {κ : Kind} {sp : Space} {s : Shape} {e : EltTy}

theorem unit0_emb (off : Fin s.rank → ℕ) (hoff : ∀ a, off a = 0) (inb : ∀ a, off a + s.size a ≤ s.size a)
    (x : (Rect.unit (s := s) off s.size inb).shape.Idx) : (Rect.unit (s := s) off s.size inb).emb x = x := by
  funext a
  apply Fin.ext
  rw [Rect.emb_apply]
  show off a + 1 * (x a).val = (x a).val
  rw [hoff a, Nat.zero_add, Nat.one_mul]

theorem readAt_unit0 (v : View sg κ sp s e) (f : v.ty.Contents Val) (off : Fin s.rank → ℕ) (hoff : ∀ a, off a = 0)
    (inb : ∀ a, off a + s.size a ≤ s.size a) :
    v.readAt Val (Rect.unit (s := s) off s.size inb).toLoadRect f = v.read Val f := by
  funext x
  show v.read Val f ((Rect.unit (s := s) off s.size inb).emb x) = v.read Val f x
  rw [unit0_emb off hoff]

theorem read_writes_unit0 (v : View sg κ sp s e) (f : v.ty.Contents Val) (off : Fin s.rank → ℕ) (hoff : ∀ a, off a = 0)
    (inb : ∀ a, off a + s.size a ≤ s.size a) (w : (Rect.unit (s := s) off s.size inb).shape.Idx → Val e)
    (L : List (View.Piece Val s e)) :
    v.read Val (v.writes Val f (⟨Rect.unit (s := s) off s.size inb, w⟩ :: L)) = w := by
  funext x
  have h := View.read_writes_cons_emb v f (Rect.unit (s := s) off s.size inb) w L x
  rw [unit0_emb off hoff] at h
  exact h

theorem off00 : ∀ a : Fin 2, (![0, 0] : Fin 2 → ℕ) a = 0 := Fin.forall_fin_two.mpr ⟨rfl, rfl⟩

end WholeRect

def tc1_val (x0 : Vec F S128x10112 .f32) (x1 : Vec F S128x10112 .f32) (x2 : Vec F S16x10112 .f32) (x3 : Vec F S128x128 .f32)
    (x4 : Vec F S128x1 .f32) (x5 : Vec F S128x128 .f32) : Vec F S128x10112 .f32 :=
  k1_pay1 x2 x1 x3 x4 x5 x0

theorem tc1_body_run (c : Dev nD)
    (M0 : Memref sig .tc .vmem S128x10112 .f32) (h0 : M0.IsWhole) (M1 : Memref sig .tc .vmem S128x10112 .f32) (h1 : M1.IsWhole)
    (M2 : Memref sig .tc .vmem S16x10112 .f32) (h2 : M2.IsWhole) (M3 : Memref sig .tc .vmem S128x128 .f32) (h3 : M3.IsWhole)
    (M4 : Memref sig .tc .vmem S128x1 .f32) (h4 : M4.IsWhole) (M5 : Memref sig .tc .vmem S128x128 .f32) (h5 : M5.IsWhole)
    (M6 : Memref sig .tc .vmem S128x10112 .f32) (h6 : M6.IsWhole)
    (X0 : Vec F S128x10112 .f32) (X1 : Vec F S128x10112 .f32) (X2 : Vec F S16x10112 .f32) (X3 : Vec F S128x128 .f32)
    (X4 : Vec F S128x1 .f32) (X5 : Vec F S128x128 .f32) (Q : PUnit → sProp 𝕄) :
    iprop(owns (c : Thread nD τ) M0 fullShare X0 ∗ owns (c : Thread nD τ) M1 fullShare X1 ∗ owns (c : Thread nD τ) M2 fullShare X2
      ∗ owns (c : Thread nD τ) M3 fullShare X3 ∗ owns (c : Thread nD τ) M4 fullShare X4 ∗ owns (c : Thread nD τ) M5 fullShare X5
      ∗ (∃ X6, owns (c : Thread nD τ) M6 fullShare X6)
      ∗ (iprop(owns (c : Thread nD τ) M0 fullShare X0 ∗ owns (c : Thread nD τ) M1 fullShare X1 ∗ owns (c : Thread nD τ) M2 fullShare X2
          ∗ owns (c : Thread nD τ) M3 fullShare X3 ∗ owns (c : Thread nD τ) M4 fullShare X4 ∗ owns (c : Thread nD τ) M5 fullShare X5
          ∗ owns (c : Thread nD τ) M6 fullShare (tc1_val X0 X1 X2 X3 X4 X5)) -∗ Q ⟨⟩))
    ⊢ wp frame (wpE (defs₀ (F := F)) 𝒱₀ (c : Thread nD τ) none) Set.univ
        (cc1__tc1_body M0 h0 M1 h1 M2 h2 M3 h3 M4 h4 M5 h5 M6 h6) Q := by
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%X6, %f6, %e6, H6⟩, Hk⟩
  simp only [cc1__tc1_body_eq_skeleton]; unfold cc1__tc1_body_skel
  sl_exec
  sl_step
  iapply Hk
  isplitl [H0]; · iexists f0; isplitr; · ipureintro; exact e0
                  iexact H0
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  iexists _; isplitr; swap; (· iexact H6)
  ipureintro
  refine (read_writes_unit0 (Val := Elt F) M6.view f6 ![0, 0] off00 inb_S128x10112_S128x10112_0_0 _ []).trans ?_
  rw [readAt_unit0 (Val := Elt F) M2.view f2 ![0, 0] off00 inb_S16x10112_S16x10112_0_0, e2,
    readAt_unit0 (Val := Elt F) M1.view f1 ![0, 0] off00 inb_S128x10112_S128x10112_0_0, e1,
    readAt_unit0 (Val := Elt F) M3.view f3 ![0, 0] off00 inb_S128x128_S128x128_0_0, e3,
    readAt_unit0 (Val := Elt F) M4.view f4 ![0, 0] off00 inb_S128x1_S128x1_0_0, e4,
    readAt_unit0 (Val := Elt F) M5.view f5 ![0, 0] off00 inb_S128x128_S128x128_0_0, e5,
    readAt_unit0 (Val := Elt F) M0.view f0 ![0, 0] off00 inb_S128x10112_S128x10112_0_0, e0]
  rfl

end Cert.Proof.Sage

end
-- ==== Proof.Tc2Body.lean ====
import proofs.«215722_g7507602833967_cont_sun_m_718_28_alg».proof.Proof.Common
import proofs.«215722_g7507602833967_cont_sun_m_718_28_alg».proof.Proof.Tc1Body

noncomputable section

namespace Cert.Proof.Sage

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

def tc2_val (x0 : Vec F S128x10112 .f32) (x1 : Vec F S128x10112 .f32) (x2 : Vec F S16x10112 .f32) (x3 : Vec F S128x128 .f32)
    (x4 : Vec F S128x1 .f32) (x5 : Vec F S128x128 .f32) (x6 : Vec F S128x16 .f32) (x7 : Vec F S1x16 .f32) : Vec F S10112x16 .f32 :=
  k3_pay1 x2 x1 x3 x4 x5 x0 x6 x7

theorem tc2_body_run (c : Dev nD)
    (M0 : Memref sig .tc .vmem S128x10112 .f32) (h0 : M0.IsWhole) (M1 : Memref sig .tc .vmem S128x10112 .f32) (h1 : M1.IsWhole)
    (M2 : Memref sig .tc .vmem S16x10112 .f32) (h2 : M2.IsWhole) (M3 : Memref sig .tc .vmem S128x128 .f32) (h3 : M3.IsWhole)
    (M4 : Memref sig .tc .vmem S128x1 .f32) (h4 : M4.IsWhole) (M5 : Memref sig .tc .vmem S128x128 .f32) (h5 : M5.IsWhole)
    (M6 : Memref sig .tc .vmem S128x16 .f32) (h6 : M6.IsWhole) (M7 : Memref sig .tc .vmem S1x16 .f32) (h7 : M7.IsWhole)
    (M8 : Memref sig .tc .vmem S10112x16 .f32) (h8 : M8.IsWhole)
    (X0 : Vec F S128x10112 .f32) (X1 : Vec F S128x10112 .f32) (X2 : Vec F S16x10112 .f32) (X3 : Vec F S128x128 .f32)
    (X4 : Vec F S128x1 .f32) (X5 : Vec F S128x128 .f32) (X6 : Vec F S128x16 .f32) (X7 : Vec F S1x16 .f32) (Q : PUnit → sProp 𝕄) :
    iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7
      ∗ (∃ X8, owns (c : Thread nD τ) M8 fullShare X8)
      ∗ (iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7
          ∗ owns (c : Thread nD τ) M8 fullShare (tc2_val X0 X1 X2 X3 X4 X5 X6 X7)) -∗ Q ⟨⟩))
    ⊢ wp frame (wpE (defs₀ (F := F)) 𝒱₀ (c : Thread nD τ) none) Set.univ
        (cc3__tc2_body M0 h0 M1 h1 M2 h2 M3 h3 M4 h4 M5 h5 M6 h6 M7 h7 M8 h8) Q := by
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%X8, %f8, %e8, H8⟩, Hk⟩
  simp only [cc3__tc2_body_eq_skeleton]; unfold cc3__tc2_body_skel
  sl_exec
  sl_step
  iapply Hk
  isplitl [H0]; · iexists f0; isplitr; · ipureintro; exact e0
                  iexact H0
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]; · iexists f6; isplitr; · ipureintro; exact e6
                  iexact H6
  isplitl [H7]; · iexists f7; isplitr; · ipureintro; exact e7
                  iexact H7
  iexists _; isplitr; swap; (· iexact H8)
  ipureintro
  refine (read_writes_unit0 (Val := Elt F) M8.view f8 ![0, 0] off00 inb_S10112x16_S10112x16_0_0 _ []).trans ?_
  rw [readAt_unit0 (Val := Elt F) M2.view f2 ![0, 0] off00 inb_S16x10112_S16x10112_0_0, e2,
    readAt_unit0 (Val := Elt F) M1.view f1 ![0, 0] off00 inb_S128x10112_S128x10112_0_0, e1,
    readAt_unit0 (Val := Elt F) M3.view f3 ![0, 0] off00 inb_S128x128_S128x128_0_0, e3,
    readAt_unit0 (Val := Elt F) M4.view f4 ![0, 0] off00 inb_S128x1_S128x1_0_0, e4,
    readAt_unit0 (Val := Elt F) M5.view f5 ![0, 0] off00 inb_S128x128_S128x128_0_0, e5,
    readAt_unit0 (Val := Elt F) M0.view f0 ![0, 0] off00 inb_S128x10112_S128x10112_0_0, e0,
    readAt_unit0 (Val := Elt F) M6.view f6 ![0, 0] off00 inb_S128x16_S128x16_0_0, e6,
    readAt_unit0 (Val := Elt F) M7.view f7 ![0, 0] off00 inb_S1x16_S1x16_0_0, e7]
  rfl

end Cert.Proof.Sage

end
-- ==== Proof.Tc1Region.lean ====
import proofs.«215722_g7507602833967_cont_sun_m_718_28_alg».proof.Proof.Common
import proofs.«215722_g7507602833967_cont_sun_m_718_28_alg».proof.Proof.Tc1Body
import Idealize.ShloMosaic.Lib.Pipeline.Regions

noncomputable section

namespace Cert.Proof.Sage

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

open Idealize.ShloMosaic.Pipeline (Dat Cfg Window BodyObligation cellOf)

abbrev adm : (p : Fin 2) → (pcfgs (F := F) p).Adm := fun p => (cfgs p).toPCfg_adm

abbrev Arrs1 (c : Dev nD) : Type := (w : Fin cfg1.W) → Buf (Elt F) ((cfg1.win w).arr.view.loc (c : Thread nD τ))

def stg1 (c : Dev nD) (A : Arrs1 (F := F) c) (w : Fin cfg1.W) : (cfg1.win w).block.Idx → Elt F (cfg1.win w).elt :=
  (cfg1.win w).fill (cfg1.grid.coords t1_0) (fun _ => Classical.arbitrary _) (((cfg1.win w).blk t1_0).view.read (Elt F) (A w))

def out1 (c : Dev nD) (A : Arrs1 (F := F) c) : Vec F S128x10112 .f32 :=
  tc1_val (stg1 c A 0) (stg1 c A 1) (stg1 c A 2) (stg1 c A 3) (stg1 c A 4) (stg1 c A 5)

abbrev Φ1 (c : Dev nD) : sProp 𝕄 :=
  Pipeline.scopedRest (Ix := HIx 2) (Name := ℕ) (U := UU) (Lvl := ℕ) (Val := Elt F) spec1 c

def dat1 (c : Dev nD) (A : Arrs1 (F := F) c) (O : CellTallies nD τ sig (HIx 2)) (B : Set (SemLoc sig × HIx 2)) :
    Dat τ (Elt F) (HIx 2) ℕ UU ℕ cfg1 c where
  A := A
  after w _ := match w with
    | ⟨0, _⟩ => stg1 c A 0
    | ⟨1, _⟩ => stg1 c A 1
    | ⟨2, _⟩ => stg1 c A 2
    | ⟨3, _⟩ => stg1 c A 3
    | ⟨4, _⟩ => stg1 c A 4
    | ⟨5, _⟩ => stg1 c A 5
    | ⟨6, _⟩ => out1 c A
  Φ _ := Φ1 c
  q _ := fullShare
  owed _ := O
  recorded _ := B

def datIdle3 (c : Dev nD) : Dat τ (Elt F) (HIx 2) ℕ UU ℕ cfg3 c where
  A _ := fun _ => Classical.arbitrary _
  after _ _ := fun _ => Classical.arbitrary _
  Φ _ := iprop(emp)
  q _ := fullShare
  owed _ := 0

def pdats1 (A : (c : Dev nD) → Arrs1 (F := F) c) (O : Dev nD → CellTallies nD τ sig (HIx 2)) (B : Dev nD → Set (SemLoc sig × HIx 2)) :
    (p : Fin 2) → (c : Dev nD) → Dat τ (Elt F) (HIx 2) ℕ UU ℕ (cfgs p) c
  | ⟨0, _⟩, c => dat1 c (A c) (O c) (B c)
  | ⟨1, _⟩, c => datIdle3 c

theorem before1_in (c : Dev nD) (A : Arrs1 (F := F) c) (O : CellTallies nD τ sig (HIx 2)) (B : Set (SemLoc sig × HIx 2))
    (w : Fin cfg1.W) (hf : (cfg1.win w).fetch t1_0 = true) (hc : ∀ a, (cfg1.win w).clip (cfg1.grid.coords t1_0) a = none)
    (d : (cfg1.win w).block.Idx → Elt F (cfg1.win w).elt) :
    (dat1 c A O B).before w t1_0 d = stg1 c A w := by
  unfold Dat.before; rw [if_pos hf]; exact (dat1 c A O B).fetched_of_clip_none w t1_0 hc d _

theorem owns_before1 (c : Dev nD) (A : Arrs1 (F := F) c) (O : CellTallies nD τ sig (HIx 2)) (B : Set (SemLoc sig × HIx 2))
    (w : Fin cfg1.W) (hf : (cfg1.win w).fetch t1_0 = true) (hc : ∀ a, (cfg1.win w).clip (cfg1.grid.coords t1_0) a = none)
    (d : (cfg1.win w).block.Idx → Elt F (cfg1.win w).elt) :
    (owns (c : Thread nD τ) ((cfg1.win w).stage (cfg1.slots t1_0 w)) fullShare ((dat1 c A O B).before w t1_0 d) : sProp 𝕄)
      ⊢ owns (c : Thread nD τ) ((cfg1.win w).stage (cfg1.slots t1_0 w)) fullShare (stg1 c A w) := by
  rw [before1_in c A O B w hf hc d]

theorem body_obligation1 (c : Dev nD) (A : Arrs1 (F := F) c) (O : CellTallies nD τ sig (HIx 2)) (B : Set (SemLoc sig × HIx 2)) :
    BodyObligation (dat1 c A O B) (defs₀ (F := F)) 𝒱₀ (none : HIx 2) Set.univ := fun t => by
  obtain rfl := fin_N1 t
  rw [bigSep_W1, bigSep_W1]
  rw [show (dat1 c A O B).Φ t1_0.castSucc = Φ1 c from rfl, show (dat1 c A O B).Φ t1_0.succ = Φ1 c from rfl]
  unfold Dat.owesAt Pipeline.owesWithin
  rw [show (dat1 c A O B).owed t1_0.castSucc = O from rfl, show (dat1 c A O B).owed t1_0.succ = O from rfl]
  iintro ⟨HΦ, ⟨%W, %hW, HO⟩, ⟨%d0, H0⟩, ⟨%d1, H1⟩, ⟨%d2, H2⟩, ⟨%d3, H3⟩, ⟨%d4, H4⟩, ⟨%d5, H5⟩, ⟨%d6, H6⟩⟩
  ihave G0 := (owns_before1 c A O B 0 (fetch1_0 _) (fun _ => rfl) d0) $$ H0
  ihave G1 := (owns_before1 c A O B 1 (fetch1_1 _) (fun _ => rfl) d1) $$ H1
  ihave G2 := (owns_before1 c A O B 2 (fetch1_2 _) (fun _ => rfl) d2) $$ H2
  ihave G3 := (owns_before1 c A O B 3 (fetch1_3 _) (fun _ => rfl) d3) $$ H3
  ihave G4 := (owns_before1 c A O B 4 (fetch1_4 _) (fun _ => rfl) d4) $$ H4
  ihave G5 := (owns_before1 c A O B 5 (fetch1_5 _) (fun _ => rfl) d5) $$ H5
  iapply (tc1_body_run c _ (hstage1_0 0) _ (hstage1_1 0) _ (hstage1_2 0) _ (hstage1_3 0) _ (hstage1_4 0) _ (hstage1_5 0) _ (hstage1_6 0)
    (stg1 c A 0) (stg1 c A 1) (stg1 c A 2) (stg1 c A 3) (stg1 c A 4) (stg1 c A 5))
  isplitl [G0]; · iexact G0
  isplitl [G1]; · iexact G1
  isplitl [G2]; · iexact G2
  isplitl [G3]; · iexact G3
  isplitl [G4]; · iexact G4
  isplitl [G5]; · iexact G5
  isplitl [H6]; · iexists _; iexact H6
  iintro ⟨H0, H1, H2, H3, H4, H5, H6⟩
  isplitl [HΦ]; · iexact HΦ
  isplitl [HO]
  · iexists W; isplitr; · ipureintro; exact hW
    iexact HO
  isplitl [H0]; · iexact H0
  isplitl [H1]; · iexact H1
  isplitl [H2]; · iexact H2
  isplitl [H3]; · iexact H3
  isplitl [H4]; · iexact H4
  isplitl [H5]; · iexact H5
  iexact H6

def pre1 (A : (c : Dev nD) → Arrs1 (F := F) c) (O : Dev nD → CellTallies nD τ sig (HIx 2)) (B : Dev nD → Set (SemLoc sig × HIx 2))
    (c : Dev nD) : sProp 𝕄 :=
  iprop((pdats1 A O B 0 c).arrays (A c) ∗ ∃ W : Waits sig (HIx 2), ⌜↑W ⊆ B c⌝ ∗ owes (c : Thread nD τ) (O c) W)

def post1 (A : (c : Dev nD) → Arrs1 (F := F) c) (O : Dev nD → CellTallies nD τ sig (HIx 2)) (B : Dev nD → Set (SemLoc sig × HIx 2))
    (c : Dev nD) : sProp 𝕄 :=
  iprop((pdats1 A O B 0 c).arrays ((pdats1 A O B 0 c).arrAt · cfg1.N)
    ∗ ∃ W : Waits sig (HIx 2), ⌜↑W ⊆ B c ∪ Pipeline.Cfg.waitPairs cfg1 (none : HIx 2)⌝ ∗ owes (c : Thread nD τ) (O c) W)

set_option backward.isDefEq.respectTransparency.types false in

def reg1 (A : (c : Dev nD) → Arrs1 (F := F) c) (O : Dev nD → CellTallies nD τ sig (HIx 2)) (B : Dev nD → Set (SemLoc sig × HIx 2))
    (hO : ∀ c g, O c g none = 0) (lv : GSem nD τ sig → HIx 2 → ℕ) (hlv : (K (F := F)).Refines lv) :
    Pipeline.RegionSeg (pcfgs (F := F)) adm (pdats1 A O B) (none : HIx 2) defs₀ 𝒱₀ (K (F := F)).L lv 0 where
  win := launch1.win.to₀
  block_pos := launch1.block_pos
  stage_whole := launch1.stage_whole
  K := PEmpty
  osem := fun k => k.elim
  ho := Pipeline.OwnSemFacts.none _
  hbody c := (body_obligation1 c (A c) (O c) (B c)).loose
  hwaits c := Pipeline.cellsWaits_intro (Pipeline.pin pcfgs adm) (pdats1 A O B) none 0 c fun w s t =>
    (K (F := F)).mayWait_none _ (hO c) lv hlv
  pre := pre1 A O B
  post := post1 A O B
  X _ := iprop(emp)
  Y _ := iprop(emp)
  Z _ := iprop(emp)
  hentry c := by
    unfold pre1
    iintro ⟨⟨Ha, ⟨%W, %hW, HO⟩⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun _ h => Or.inl (hW h)
      iexact HO
    isplitl [] <;> iempintro
  hin c := by
    rw [show (pdats1 A O B 0 c).Φ 0 = Φ1 c from rfl]
    iintro ⟨-, -, Hr⟩; iexact Hr
  hout c := by
    rw [Pipeline.ownSems0_none]
    change (Φ1 c : sProp 𝕄) ⊢ _
    iintro Hr
    isplitr; · iempintro
    isplitr; · iempintro
    iexact Hr
  hexit c := by
    unfold post1
    iintro ⟨Ha, HO, -, -⟩
    imodintro
    isplitl [Ha]; · iexact Ha
    unfold Pipeline.Dat.owesAt Pipeline.owesWithin
    icases HO with ⟨%W, %hW, HO⟩; iexists W; isplitr; · ipureintro; exact hW
    iexact HO

set_option backward.isDefEq.respectTransparency.types false in

theorem tc1_region_wp (A : (c : Dev nD) → Arrs1 (F := F) c) (O : Dev nD → CellTallies nD τ sig (HIx 2)) (B : Dev nD → Set (SemLoc sig × HIx 2))
    (hO : ∀ c g, O c g none = 0) (lv : GSem nD τ sig → HIx 2 → ℕ) (hlv : (K (F := F)).Refines lv)
    (d : Dev nD) {α : Type} (k : PUnit → Prog (TpuEff nD τ sig (Elt F) (ΛP (F := F)) .tc) α) (Q : α → sProp 𝕄) :
    iprop((iprop(boundary (d : Thread nD τ) ∗ post1 A O B d) -∗ wp frame (wpE (D (F := F)) 𝒱 (d : Thread nD τ) none) Set.univ (k ⟨⟩) Q)
        ∗ boundary (d : Thread nD τ) ∗ pre1 A O B d ∗ levAts (K (F := F)).L lv
        ∗ Pipeline.cellsGhost cfgs (EP (F := F)) 0 d ∗ Pipeline.toksInit cfgs (EP (F := F)) 0 d)
      ⊢ wp frame (wpE (D (F := F)) 𝒱 (d : Thread nD τ) none) Set.univ (.op (.customCall (Pipeline.entry 0) ()) k) Q :=
  Pipeline.RegionSeg.wp (pcfgs (F := F)) adm (pdats1 A O B) none cellOf_inj EP defs₀ 𝒱₀ (K (F := F)).L lv (reg1 A O B hO lv hlv) d none
    (fun _ h => nomatch h) k Q

theorem tc1_region_lift (A : (c : Dev nD) → Arrs1 (F := F) c) (O : Dev nD → CellTallies nD τ sig (HIx 2)) (B : Dev nD → Set (SemLoc sig × HIx 2))
    (hO : ∀ c g, O c g none = 0) (lv : GSem nD τ sig → HIx 2 → ℕ) (hlv : (K (F := F)).Refines lv)
    (d : Dev nD) (Q : PUnit → sProp 𝕄) :
    iprop(boundary (T d : Thread nD τ) ∗ pre1 A O B d ∗ levAts (K (F := F)).L lv
        ∗ Pipeline.cellsGhost cfgs (EP (F := F)) 0 d ∗ Pipeline.toksInit cfgs (EP (F := F)) 0 d
        ∗ (iprop(boundary (T d : Thread nD τ) ∗ post1 A O B d) -∗ Q ⟨⟩))
      ⊢ wp frame (wpE ((K (F := F)).defs D) 𝒱 (T d) none) Set.univ
          (Prog.lift (.customCall (SparseCore.inner (Pipeline.entry 0)) ())) Q := by
  iintro ⟨Hb, Hpre, Hl, Hg, Ht, Hk⟩
  iapply ((K (F := F)).wp_liftProg D 𝒱 (T d) Set.univ none (Prog.lift (.customCall (Pipeline.entry 0) ())) Q)
  iapply (tc1_region_wp A O B hO lv hlv d (fun _ => .ret ⟨⟩) Q)
  isplitl [Hk]
  · iintro H; rw [wp_ret]; imodintro; iapply Hk; iexact H
  isplitl [Hb]; · iexact Hb
  isplitl [Hpre]; · iexact Hpre
  isplitl [Hl]; · iexact Hl
  isplitl [Hg]; · iexact Hg
  iexact Ht

section WholeSlice

variable {Val : EltTy → Type} {sg : RefSig} {κ : Kind}

theorem whole_slice_read (b : Ref sg κ) (f : b.ty.Contents Val) (off : Fin b.ty.shape.rank → ℕ) (hoff : ∀ a, off a = 0)
    (inb : ∀ a, off a + b.ty.shape.size a ≤ b.ty.shape.size a) :
    ((View.whole b).slice (Rect.unit (s := b.ty.shape) off b.ty.shape.size inb)).read Val f = f := by
  have h := readAt_unit0 (Val := Val) (View.whole b) f off hoff inb
  rw [View.read_whole] at h
  exact h

theorem whole_slice_write (b : Ref sg κ) (f : b.ty.Contents Val) (off : Fin b.ty.shape.rank → ℕ) (hoff : ∀ a, off a = 0)
    (inb : ∀ a, off a + b.ty.shape.size a ≤ b.ty.shape.size a)
    (w : (Rect.unit (s := b.ty.shape) off b.ty.shape.size inb).shape.Idx → Val b.ty.elt) :
    ((View.whole b).slice (Rect.unit (s := b.ty.shape) off b.ty.shape.size inb)).write Val f w Finset.univ = w := by
  have h := read_writes_unit0 (Val := Val) (View.whole b) f off hoff inb w []
  rw [View.read_whole] at h
  exact h

end WholeSlice

theorem stg1_0 (c : Dev nD) (A : Arrs1 (F := F) c) : stg1 c A 0 = A 0 :=
  (show stg1 c A 0 = ((cfg1.win 0).blk t1_0).view.read (Elt F) (A 0) from rfl).trans
    (whole_slice_read (Val := Elt F) main_v10 (A 0) _ (fun _ => Nat.zero_mul _) _)
theorem stg1_1 (c : Dev nD) (A : Arrs1 (F := F) c) : stg1 c A 1 = A 1 :=
  (show stg1 c A 1 = ((cfg1.win 1).blk t1_0).view.read (Elt F) (A 1) from rfl).trans
    (whole_slice_read (Val := Elt F) main_v13 (A 1) _ (fun _ => Nat.zero_mul _) _)
theorem stg1_2 (c : Dev nD) (A : Arrs1 (F := F) c) : stg1 c A 2 = A 2 :=
  (show stg1 c A 2 = ((cfg1.win 2).blk t1_0).view.read (Elt F) (A 2) from rfl).trans
    (whole_slice_read (Val := Elt F) main_v14 (A 2) _ (fun _ => Nat.zero_mul _) _)
theorem stg1_3 (c : Dev nD) (A : Arrs1 (F := F) c) : stg1 c A 3 = A 3 :=
  (show stg1 c A 3 = ((cfg1.win 3).blk t1_0).view.read (Elt F) (A 3) from rfl).trans
    (whole_slice_read (Val := Elt F) main_arg2 (A 3) _ (fun _ => Nat.zero_mul _) _)
theorem stg1_4 (c : Dev nD) (A : Arrs1 (F := F) c) : stg1 c A 4 = A 4 :=
  (show stg1 c A 4 = ((cfg1.win 4).blk t1_0).view.read (Elt F) (A 4) from rfl).trans
    (whole_slice_read (Val := Elt F) main_v15 (A 4) _ (fun _ => Nat.zero_mul _) _)
theorem stg1_5 (c : Dev nD) (A : Arrs1 (F := F) c) : stg1 c A 5 = A 5 :=
  (show stg1 c A 5 = ((cfg1.win 5).blk t1_0).view.read (Elt F) (A 5) from rfl).trans
    (whole_slice_read (Val := Elt F) main_arg4 (A 5) _ (fun _ => Nat.zero_mul _) _)

theorem arrAt1_in (c : Dev nD) (A : Arrs1 (F := F) c) (O : CellTallies nD τ sig (HIx 2)) (B : Set (SemLoc sig × HIx 2))
    (w : Fin cfg1.W) (hin : (cfg1.win w).isOut = false) : (dat1 c A O B).arrAt w cfg1.N = A w :=
  Dat.arrAt_in (dat1 c A O B) w hin _

theorem arrAt1_out (c : Dev nD) (A : Arrs1 (F := F) c) (O : CellTallies nD τ sig (HIx 2)) (B : Set (SemLoc sig × HIx 2)) :
    (dat1 c A O B).arrAt 6 cfg1.N = out1 c A := by
  rw [show cfg1.N = (t1_0 : Fin cfg1.N).val + 1 from N_1, Dat.arrAt_succ, if_pos (flush1_6 _)]
  exact whole_slice_write (Val := Elt F) main_v16 (A 6) _ (fun _ => Nat.zero_mul _) _ _

def arrs1 (d : Dev nD) (x0 : Buf (Elt F) ((T d : Thread nD τ).loc main_v10)) (x1 : Buf (Elt F) ((T d : Thread nD τ).loc main_v13)) (x2 : Buf (Elt F) ((T d : Thread nD τ).loc main_v14)) (x3 : Buf (Elt F) ((T d : Thread nD τ).loc main_arg2)) (x4 : Buf (Elt F) ((T d : Thread nD τ).loc main_v15)) (x5 : Buf (Elt F) ((T d : Thread nD τ).loc main_arg4))
    (x6 : Buf (Elt F) ((T d : Thread nD τ).loc main_v16)) : Arrs1 (F := F) d
  | ⟨0, _⟩ => x0
  | ⟨1, _⟩ => x1
  | ⟨2, _⟩ => x2
  | ⟨3, _⟩ => x3
  | ⟨4, _⟩ => x4
  | ⟨5, _⟩ => x5
  | ⟨6, _⟩ => x6

def arrsAt (d : Dev nD) (Ad : Arrs1 (F := F) d) : (c : Dev nD) → Arrs1 (F := F) c :=
  @Function.update (Dev nD) (fun c => Arrs1 (F := F) c) (Classical.decEq _) (fun _ _ _ => Classical.arbitrary _) d Ad

theorem arrsAt_self (d : Dev nD) (Ad : Arrs1 (F := F) d) : arrsAt d Ad d = Ad := by
  unfold arrsAt; exact @Function.update_self _ _ (Classical.decEq _) _ _ _

theorem pre1_intro (d : Dev nD) (O : CellTallies nD τ sig (HIx 2)) (B : Set (SemLoc sig × HIx 2)) (x0 : Buf (Elt F) ((T d : Thread nD τ).loc main_v10)) (x1 : Buf (Elt F) ((T d : Thread nD τ).loc main_v13)) (x2 : Buf (Elt F) ((T d : Thread nD τ).loc main_v14)) (x3 : Buf (Elt F) ((T d : Thread nD τ).loc main_arg2)) (x4 : Buf (Elt F) ((T d : Thread nD τ).loc main_v15)) (x5 : Buf (Elt F) ((T d : Thread nD τ).loc main_arg4))
    (x6 : Buf (Elt F) ((T d : Thread nD τ).loc main_v16)) :
    iprop(((T d : Thread nD τ).loc main_v10 ↦{fullShare} x0) ∗ ((T d : Thread nD τ).loc main_v13 ↦{fullShare} x1) ∗ ((T d : Thread nD τ).loc main_v14 ↦{fullShare} x2) ∗ ((T d : Thread nD τ).loc main_arg2 ↦{fullShare} x3) ∗ ((T d : Thread nD τ).loc main_v15 ↦{fullShare} x4) ∗ ((T d : Thread nD τ).loc main_arg4 ↦{fullShare} x5)
        ∗ ((T d : Thread nD τ).loc main_v16 ↦{fullShare} x6) ∗ (∃ W : Waits sig (HIx 2), ⌜↑W ⊆ B⌝ ∗ owes (T d : Thread nD τ) O W))
      ⊢ (pre1 (arrsAt d (arrs1 d x0 x1 x2 x3 x4 x5 x6)) (fun _ => O) (fun _ => B) d : sProp 𝕄) := by
  unfold pre1
  rw [Pipeline.arrays_eq cfgs (pdats1 (arrsAt d (arrs1 d x0 x1 x2 x3 x4 x5 x6)) (fun _ => O) (fun _ => B)) 0 d arr_whole1
    ((pdats1 (arrsAt d (arrs1 d x0 x1 x2 x3 x4 x5 x6)) (fun _ => O) (fun _ => B) 0 d).share_full fun _ => rfl), bigSep_W1, arrsAt_self]
  iintro ⟨H0, H1, H2, H3, H4, H5, H6, HO⟩
  isplitr [HO]
  · isplitl [H0]; · iexact H0
    isplitl [H1]; · iexact H1
    isplitl [H2]; · iexact H2
    isplitl [H3]; · iexact H3
    isplitl [H4]; · iexact H4
    isplitl [H5]; · iexact H5
    iexact H6
  iexact HO

set_option maxHeartbeats 1000000 in

theorem post1_elim (d : Dev nD) (O : CellTallies nD τ sig (HIx 2)) (B : Set (SemLoc sig × HIx 2)) (x0 : Buf (Elt F) ((T d : Thread nD τ).loc main_v10)) (x1 : Buf (Elt F) ((T d : Thread nD τ).loc main_v13)) (x2 : Buf (Elt F) ((T d : Thread nD τ).loc main_v14)) (x3 : Buf (Elt F) ((T d : Thread nD τ).loc main_arg2)) (x4 : Buf (Elt F) ((T d : Thread nD τ).loc main_v15)) (x5 : Buf (Elt F) ((T d : Thread nD τ).loc main_arg4))
    (x6 : Buf (Elt F) ((T d : Thread nD τ).loc main_v16)) :
    (post1 (arrsAt d (arrs1 d x0 x1 x2 x3 x4 x5 x6)) (fun _ => O) (fun _ => B) d : sProp 𝕄)
      ⊢ iprop(((T d : Thread nD τ).loc main_v10 ↦{fullShare} x0) ∗ ((T d : Thread nD τ).loc main_v13 ↦{fullShare} x1) ∗ ((T d : Thread nD τ).loc main_v14 ↦{fullShare} x2) ∗ ((T d : Thread nD τ).loc main_arg2 ↦{fullShare} x3) ∗ ((T d : Thread nD τ).loc main_v15 ↦{fullShare} x4) ∗ ((T d : Thread nD τ).loc main_arg4 ↦{fullShare} x5)
        ∗ ((T d : Thread nD τ).loc main_v16 ↦{fullShare} k1_pay1 x2 x1 x3 x4 x5 x0)
        ∗ (∃ W : Waits sig (HIx 2), ⌜↑W ⊆ B ∪ Pipeline.Cfg.waitPairs cfg1 (none : HIx 2)⌝ ∗ owes (T d : Thread nD τ) O W)) := by
  unfold post1
  rw [Pipeline.arrays_eq cfgs (pdats1 (arrsAt d (arrs1 d x0 x1 x2 x3 x4 x5 x6)) (fun _ => O) (fun _ => B)) 0 d arr_whole1
    ((pdats1 (arrsAt d (arrs1 d x0 x1 x2 x3 x4 x5 x6)) (fun _ => O) (fun _ => B) 0 d).share_full fun _ => rfl), bigSep_W1]
  have hd : pdats1 (arrsAt d (arrs1 d x0 x1 x2 x3 x4 x5 x6)) (fun _ => O) (fun _ => B) 0 d
      = dat1 d (arrs1 d x0 x1 x2 x3 x4 x5 x6) O B := by
    show dat1 d (arrsAt d (arrs1 d x0 x1 x2 x3 x4 x5 x6) d) O B = _
    rw [arrsAt_self]
  rw [hd, arrAt1_in _ _ _ _ 0 rfl, arrAt1_in _ _ _ _ 1 rfl, arrAt1_in _ _ _ _ 2 rfl, arrAt1_in _ _ _ _ 3 rfl, arrAt1_in _ _ _ _ 4 rfl,
    arrAt1_in _ _ _ _ 5 rfl, arrAt1_out]
  unfold out1
  rw [stg1_0, stg1_1, stg1_2, stg1_3, stg1_4, stg1_5]
  iintro ⟨⟨H0, H1, H2, H3, H4, H5, H6⟩, HO⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact HO

theorem tc1_region_main (lv : GSem nD τ sig → HIx 2 → ℕ) (hlv : (K (F := F)).Refines lv) (d : Dev nD)
    (O : CellTallies nD τ sig (HIx 2)) (hO : ∀ g, O g none = 0) (B : Set (SemLoc sig × HIx 2)) (x0 : Buf (Elt F) ((T d : Thread nD τ).loc main_v10)) (x1 : Buf (Elt F) ((T d : Thread nD τ).loc main_v13)) (x2 : Buf (Elt F) ((T d : Thread nD τ).loc main_v14)) (x3 : Buf (Elt F) ((T d : Thread nD τ).loc main_arg2)) (x4 : Buf (Elt F) ((T d : Thread nD τ).loc main_v15)) (x5 : Buf (Elt F) ((T d : Thread nD τ).loc main_arg4))
    (Φ : PUnit → sProp 𝕄) :
    iprop(boundary (T d : Thread nD τ) ∗ levAts (K (F := F)).L lv
        ∗ Pipeline.cellsGhost cfgs (EP (F := F)) 0 d ∗ Pipeline.toksInit cfgs (EP (F := F)) 0 d
        ∗ ((T d : Thread nD τ).loc main_v10 ↦{fullShare} x0) ∗ ((T d : Thread nD τ).loc main_v13 ↦{fullShare} x1) ∗ ((T d : Thread nD τ).loc main_v14 ↦{fullShare} x2) ∗ ((T d : Thread nD τ).loc main_arg2 ↦{fullShare} x3) ∗ ((T d : Thread nD τ).loc main_v15 ↦{fullShare} x4) ∗ ((T d : Thread nD τ).loc main_arg4 ↦{fullShare} x5)
        ∗ (∃ f, (T d : Thread nD τ).loc main_v16 ↦{fullShare} f)
        ∗ (∃ W : Waits sig (HIx 2), ⌜↑W ⊆ B⌝ ∗ owes (T d : Thread nD τ) O W)
        ∗ (iprop(boundary (T d : Thread nD τ)
            ∗ ((T d : Thread nD τ).loc main_v10 ↦{fullShare} x0) ∗ ((T d : Thread nD τ).loc main_v13 ↦{fullShare} x1) ∗ ((T d : Thread nD τ).loc main_v14 ↦{fullShare} x2) ∗ ((T d : Thread nD τ).loc main_arg2 ↦{fullShare} x3) ∗ ((T d : Thread nD τ).loc main_v15 ↦{fullShare} x4) ∗ ((T d : Thread nD τ).loc main_arg4 ↦{fullShare} x5)
            ∗ ((T d : Thread nD τ).loc main_v16 ↦{fullShare} k1_pay1 x2 x1 x3 x4 x5 x0)
            ∗ (∃ W : Waits sig (HIx 2), ⌜↑W ⊆ B ∪ Pipeline.Cfg.waitPairs cfg1 (none : HIx 2)⌝ ∗ owes (T d : Thread nD τ) O W)) -∗ Φ ⟨⟩))
      ⊢ wp frame (wpE ((K (F := F)).defs D) 𝒱 (T d) none) Set.univ
          (Prog.lift (.customCall (SparseCore.inner (Pipeline.entry 0)) ())) Φ := by
  iintro ⟨Hb, Hl, Hg, Ht, H0, H1, H2, H3, H4, H5, ⟨%x6, H6⟩, HO, Hk⟩
  iapply (tc1_region_lift (arrsAt d (arrs1 d x0 x1 x2 x3 x4 x5 x6)) (fun _ => O) (fun _ => B) (fun _ => hO) lv hlv d Φ)
  isplitl [Hb]; · iexact Hb
  isplitl [H0 H1 H2 H3 H4 H5 H6 HO]
  · iapply (pre1_intro d O B x0 x1 x2 x3 x4 x5 x6)
    isplitl [H0]; · iexact H0
    isplitl [H1]; · iexact H1
    isplitl [H2]; · iexact H2
    isplitl [H3]; · iexact H3
    isplitl [H4]; · iexact H4
    isplitl [H5]; · iexact H5
    isplitl [H6]; · iexact H6
    iexact HO
  isplitl [Hl]; · iexact Hl
  isplitl [Hg]; · iexact Hg
  isplitl [Ht]; · iexact Ht
  iintro ⟨Hb, Hpost⟩
  iapply Hk
  isplitl [Hb]; · iexact Hb
  iapply (post1_elim d O B x0 x1 x2 x3 x4 x5 x6)
  iexact Hpost

end Cert.Proof.Sage

end
-- ==== Proof.Tc2Region.lean ====
import proofs.«215722_g7507602833967_cont_sun_m_718_28_alg».proof.Proof.Common
import proofs.«215722_g7507602833967_cont_sun_m_718_28_alg».proof.Proof.Tc2Body
import proofs.«215722_g7507602833967_cont_sun_m_718_28_alg».proof.Proof.Tc1Region

noncomputable section

namespace Cert.Proof.Sage

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

open Idealize.ShloMosaic.Pipeline (Dat Cfg Window BodyObligation cellOf)

abbrev Arrs2 (c : Dev nD) : Type := (w : Fin cfg3.W) → Buf (Elt F) ((cfg3.win w).arr.view.loc (c : Thread nD τ))

def stg2 (c : Dev nD) (A : Arrs2 (F := F) c) (w : Fin cfg3.W) : (cfg3.win w).block.Idx → Elt F (cfg3.win w).elt :=
  (cfg3.win w).fill (cfg3.grid.coords t3_0) (fun _ => Classical.arbitrary _) (((cfg3.win w).blk t3_0).view.read (Elt F) (A w))

def out2 (c : Dev nD) (A : Arrs2 (F := F) c) : Vec F S10112x16 .f32 :=
  tc2_val (stg2 c A 0) (stg2 c A 1) (stg2 c A 2) (stg2 c A 3) (stg2 c A 4) (stg2 c A 5) (stg2 c A 6) (stg2 c A 7)

abbrev Φ2 (c : Dev nD) : sProp 𝕄 :=
  Pipeline.scopedRest (Ix := HIx 2) (Name := ℕ) (U := UU) (Lvl := ℕ) (Val := Elt F) spec3 c

def dat2 (c : Dev nD) (A : Arrs2 (F := F) c) (O : CellTallies nD τ sig (HIx 2)) (B : Set (SemLoc sig × HIx 2)) :
    Dat τ (Elt F) (HIx 2) ℕ UU ℕ cfg3 c where
  A := A
  after w _ := match w with
    | ⟨0, _⟩ => stg2 c A 0
    | ⟨1, _⟩ => stg2 c A 1
    | ⟨2, _⟩ => stg2 c A 2
    | ⟨3, _⟩ => stg2 c A 3
    | ⟨4, _⟩ => stg2 c A 4
    | ⟨5, _⟩ => stg2 c A 5
    | ⟨6, _⟩ => stg2 c A 6
    | ⟨7, _⟩ => stg2 c A 7
    | ⟨8, _⟩ => out2 c A
  Φ _ := Φ2 c
  q _ := fullShare
  owed _ := O
  recorded _ := B

def datIdle1 (c : Dev nD) : Dat τ (Elt F) (HIx 2) ℕ UU ℕ cfg1 c where
  A _ := fun _ => Classical.arbitrary _
  after _ _ := fun _ => Classical.arbitrary _
  Φ _ := iprop(emp)
  q _ := fullShare
  owed _ := 0

def pdats2 (A : (c : Dev nD) → Arrs2 (F := F) c) (O : Dev nD → CellTallies nD τ sig (HIx 2)) (B : Dev nD → Set (SemLoc sig × HIx 2)) :
    (p : Fin 2) → (c : Dev nD) → Dat τ (Elt F) (HIx 2) ℕ UU ℕ (cfgs p) c
  | ⟨0, _⟩, c => datIdle1 c
  | ⟨1, _⟩, c => dat2 c (A c) (O c) (B c)

theorem before2_in (c : Dev nD) (A : Arrs2 (F := F) c) (O : CellTallies nD τ sig (HIx 2)) (B : Set (SemLoc sig × HIx 2))
    (w : Fin cfg3.W) (hf : (cfg3.win w).fetch t3_0 = true) (hc : ∀ a, (cfg3.win w).clip (cfg3.grid.coords t3_0) a = none)
    (d : (cfg3.win w).block.Idx → Elt F (cfg3.win w).elt) :
    (dat2 c A O B).before w t3_0 d = stg2 c A w := by
  unfold Dat.before; rw [if_pos hf]; exact (dat2 c A O B).fetched_of_clip_none w t3_0 hc d _

theorem owns_before2 (c : Dev nD) (A : Arrs2 (F := F) c) (O : CellTallies nD τ sig (HIx 2)) (B : Set (SemLoc sig × HIx 2))
    (w : Fin cfg3.W) (hf : (cfg3.win w).fetch t3_0 = true) (hc : ∀ a, (cfg3.win w).clip (cfg3.grid.coords t3_0) a = none)
    (d : (cfg3.win w).block.Idx → Elt F (cfg3.win w).elt) :
    (owns (c : Thread nD τ) ((cfg3.win w).stage (cfg3.slots t3_0 w)) fullShare ((dat2 c A O B).before w t3_0 d) : sProp 𝕄)
      ⊢ owns (c : Thread nD τ) ((cfg3.win w).stage (cfg3.slots t3_0 w)) fullShare (stg2 c A w) := by
  rw [before2_in c A O B w hf hc d]

theorem body_obligation2 (c : Dev nD) (A : Arrs2 (F := F) c) (O : CellTallies nD τ sig (HIx 2)) (B : Set (SemLoc sig × HIx 2)) :
    BodyObligation (dat2 c A O B) (defs₀ (F := F)) 𝒱₀ (none : HIx 2) Set.univ := fun t => by
  obtain rfl := fin_N3 t
  rw [bigSep_W3, bigSep_W3]
  rw [show (dat2 c A O B).Φ t3_0.castSucc = Φ2 c from rfl, show (dat2 c A O B).Φ t3_0.succ = Φ2 c from rfl]
  unfold Dat.owesAt Pipeline.owesWithin
  rw [show (dat2 c A O B).owed t3_0.castSucc = O from rfl, show (dat2 c A O B).owed t3_0.succ = O from rfl]
  iintro ⟨HΦ, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave G0 := (owns_before2 c A O B 0 (fetch3_0 _) (fun _ => rfl) d0) $$ H0
  ihave G1 := (owns_before2 c A O B 1 (fetch3_1 _) (fun _ => rfl) d1) $$ H1
  ihave G2 := (owns_before2 c A O B 2 (fetch3_2 _) (fun _ => rfl) d2) $$ H2
  ihave G3 := (owns_before2 c A O B 3 (fetch3_3 _) (fun _ => rfl) d3) $$ H3
  ihave G4 := (owns_before2 c A O B 4 (fetch3_4 _) (fun _ => rfl) d4) $$ H4
  ihave G5 := (owns_before2 c A O B 5 (fetch3_5 _) (fun _ => rfl) d5) $$ H5
  ihave G6 := (owns_before2 c A O B 6 (fetch3_6 _) (fun _ => rfl) d6) $$ H6
  ihave G7 := (owns_before2 c A O B 7 (fetch3_7 _) (fun _ => rfl) d7) $$ H7
  iapply (tc2_body_run c _ (hstage3_0 0) _ (hstage3_1 0) _ (hstage3_2 0) _ (hstage3_3 0) _ (hstage3_4 0) _ (hstage3_5 0) _ (hstage3_6 0) _ (hstage3_7 0) _ (hstage3_8 0)
    (stg2 c A 0) (stg2 c A 1) (stg2 c A 2) (stg2 c A 3) (stg2 c A 4) (stg2 c A 5) (stg2 c A 6) (stg2 c A 7))
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [H8]; · iexists _; iexact H8
  iintro ⟨H0, H1, H2, H3, H4, H5, H6, H7, H8⟩
  isplitl [HΦ]; · iexact HΦ
  isplitl [HO]
  · iexists W; isplitr; · ipureintro; exact hW
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

def pre2 (A : (c : Dev nD) → Arrs2 (F := F) c) (O : Dev nD → CellTallies nD τ sig (HIx 2)) (B : Dev nD → Set (SemLoc sig × HIx 2))
    (c : Dev nD) : sProp 𝕄 :=
  iprop((pdats2 A O B 1 c).arrays (A c) ∗ ∃ W : Waits sig (HIx 2), ⌜↑W ⊆ B c⌝ ∗ owes (c : Thread nD τ) (O c) W)

def post2 (A : (c : Dev nD) → Arrs2 (F := F) c) (O : Dev nD → CellTallies nD τ sig (HIx 2)) (B : Dev nD → Set (SemLoc sig × HIx 2))
    (c : Dev nD) : sProp 𝕄 :=
  iprop((pdats2 A O B 1 c).arrays ((pdats2 A O B 1 c).arrAt · cfg3.N)
    ∗ ∃ W : Waits sig (HIx 2), ⌜↑W ⊆ B c ∪ Pipeline.Cfg.waitPairs cfg3 (none : HIx 2)⌝ ∗ owes (c : Thread nD τ) (O c) W)

set_option backward.isDefEq.respectTransparency.types false in

def reg2 (A : (c : Dev nD) → Arrs2 (F := F) c) (O : Dev nD → CellTallies nD τ sig (HIx 2)) (B : Dev nD → Set (SemLoc sig × HIx 2))
    (hO : ∀ c g, O c g none = 0) (lv : GSem nD τ sig → HIx 2 → ℕ) (hlv : (K (F := F)).Refines lv) :
    Pipeline.RegionSeg (pcfgs (F := F)) adm (pdats2 A O B) (none : HIx 2) defs₀ 𝒱₀ (K (F := F)).L lv 1 where
  win := launch3.win.to₀
  block_pos := launch3.block_pos
  stage_whole := launch3.stage_whole
  K := PEmpty
  osem := fun k => k.elim
  ho := Pipeline.OwnSemFacts.none _
  hbody c := (body_obligation2 c (A c) (O c) (B c)).loose
  hwaits c := Pipeline.cellsWaits_intro (Pipeline.pin pcfgs adm) (pdats2 A O B) none 1 c fun w s t =>
    (K (F := F)).mayWait_none _ (hO c) lv hlv
  pre := pre2 A O B
  post := post2 A O B
  X _ := iprop(emp)
  Y _ := iprop(emp)
  Z _ := iprop(emp)
  hentry c := by
    unfold pre2
    iintro ⟨⟨Ha, ⟨%W, %hW, HO⟩⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun _ h => Or.inl (hW h)
      iexact HO
    isplitl [] <;> iempintro
  hin c := by
    rw [show (pdats2 A O B 1 c).Φ 0 = Φ2 c from rfl]
    iintro ⟨-, -, Hr⟩; iexact Hr
  hout c := by
    rw [Pipeline.ownSems0_none]
    change (Φ2 c : sProp 𝕄) ⊢ _
    iintro Hr
    isplitr; · iempintro
    isplitr; · iempintro
    iexact Hr
  hexit c := by
    unfold post2
    iintro ⟨Ha, HO, -, -⟩
    imodintro
    isplitl [Ha]; · iexact Ha
    unfold Pipeline.Dat.owesAt Pipeline.owesWithin
    icases HO with ⟨%W, %hW, HO⟩; iexists W; isplitr; · ipureintro; exact hW
    iexact HO

set_option backward.isDefEq.respectTransparency.types false in

theorem tc2_region_wp (A : (c : Dev nD) → Arrs2 (F := F) c) (O : Dev nD → CellTallies nD τ sig (HIx 2)) (B : Dev nD → Set (SemLoc sig × HIx 2))
    (hO : ∀ c g, O c g none = 0) (lv : GSem nD τ sig → HIx 2 → ℕ) (hlv : (K (F := F)).Refines lv)
    (d : Dev nD) {α : Type} (k : PUnit → Prog (TpuEff nD τ sig (Elt F) (ΛP (F := F)) .tc) α) (Q : α → sProp 𝕄) :
    iprop((iprop(boundary (d : Thread nD τ) ∗ post2 A O B d) -∗ wp frame (wpE (D (F := F)) 𝒱 (d : Thread nD τ) none) Set.univ (k ⟨⟩) Q)
        ∗ boundary (d : Thread nD τ) ∗ pre2 A O B d ∗ levAts (K (F := F)).L lv
        ∗ Pipeline.cellsGhost cfgs (EP (F := F)) 1 d ∗ Pipeline.toksInit cfgs (EP (F := F)) 1 d)
      ⊢ wp frame (wpE (D (F := F)) 𝒱 (d : Thread nD τ) none) Set.univ (.op (.customCall (Pipeline.entry 1) ()) k) Q :=
  Pipeline.RegionSeg.wp (pcfgs (F := F)) adm (pdats2 A O B) none cellOf_inj EP defs₀ 𝒱₀ (K (F := F)).L lv (reg2 A O B hO lv hlv) d none
    (fun _ h => nomatch h) k Q

theorem tc2_region_lift (A : (c : Dev nD) → Arrs2 (F := F) c) (O : Dev nD → CellTallies nD τ sig (HIx 2)) (B : Dev nD → Set (SemLoc sig × HIx 2))
    (hO : ∀ c g, O c g none = 0) (lv : GSem nD τ sig → HIx 2 → ℕ) (hlv : (K (F := F)).Refines lv)
    (d : Dev nD) (Q : PUnit → sProp 𝕄) :
    iprop(boundary (T d : Thread nD τ) ∗ pre2 A O B d ∗ levAts (K (F := F)).L lv
        ∗ Pipeline.cellsGhost cfgs (EP (F := F)) 1 d ∗ Pipeline.toksInit cfgs (EP (F := F)) 1 d
        ∗ (iprop(boundary (T d : Thread nD τ) ∗ post2 A O B d) -∗ Q ⟨⟩))
      ⊢ wp frame (wpE ((K (F := F)).defs D) 𝒱 (T d) none) Set.univ
          (Prog.lift (.customCall (SparseCore.inner (Pipeline.entry 1)) ())) Q := by
  iintro ⟨Hb, Hpre, Hl, Hg, Ht, Hk⟩
  iapply ((K (F := F)).wp_liftProg D 𝒱 (T d) Set.univ none (Prog.lift (.customCall (Pipeline.entry 1) ())) Q)
  iapply (tc2_region_wp A O B hO lv hlv d (fun _ => .ret ⟨⟩) Q)
  isplitl [Hk]
  · iintro H; rw [wp_ret]; imodintro; iapply Hk; iexact H
  isplitl [Hb]; · iexact Hb
  isplitl [Hpre]; · iexact Hpre
  isplitl [Hl]; · iexact Hl
  isplitl [Hg]; · iexact Hg
  iexact Ht

theorem stg2_0 (c : Dev nD) (A : Arrs2 (F := F) c) : stg2 c A 0 = A 0 :=
  (show stg2 c A 0 = ((cfg3.win 0).blk t3_0).view.read (Elt F) (A 0) from rfl).trans
    (whole_slice_read (Val := Elt F) main_v16 (A 0) _ (fun _ => Nat.zero_mul _) _)
theorem stg2_1 (c : Dev nD) (A : Arrs2 (F := F) c) : stg2 c A 1 = A 1 :=
  (show stg2 c A 1 = ((cfg3.win 1).blk t3_0).view.read (Elt F) (A 1) from rfl).trans
    (whole_slice_read (Val := Elt F) main_v19 (A 1) _ (fun _ => Nat.zero_mul _) _)
theorem stg2_2 (c : Dev nD) (A : Arrs2 (F := F) c) : stg2 c A 2 = A 2 :=
  (show stg2 c A 2 = ((cfg3.win 2).blk t3_0).view.read (Elt F) (A 2) from rfl).trans
    (whole_slice_read (Val := Elt F) main_v14 (A 2) _ (fun _ => Nat.zero_mul _) _)
theorem stg2_3 (c : Dev nD) (A : Arrs2 (F := F) c) : stg2 c A 3 = A 3 :=
  (show stg2 c A 3 = ((cfg3.win 3).blk t3_0).view.read (Elt F) (A 3) from rfl).trans
    (whole_slice_read (Val := Elt F) main_arg5 (A 3) _ (fun _ => Nat.zero_mul _) _)
theorem stg2_4 (c : Dev nD) (A : Arrs2 (F := F) c) : stg2 c A 4 = A 4 :=
  (show stg2 c A 4 = ((cfg3.win 4).blk t3_0).view.read (Elt F) (A 4) from rfl).trans
    (whole_slice_read (Val := Elt F) main_v20 (A 4) _ (fun _ => Nat.zero_mul _) _)
theorem stg2_5 (c : Dev nD) (A : Arrs2 (F := F) c) : stg2 c A 5 = A 5 :=
  (show stg2 c A 5 = ((cfg3.win 5).blk t3_0).view.read (Elt F) (A 5) from rfl).trans
    (whole_slice_read (Val := Elt F) main_arg7 (A 5) _ (fun _ => Nat.zero_mul _) _)
theorem stg2_6 (c : Dev nD) (A : Arrs2 (F := F) c) : stg2 c A 6 = A 6 :=
  (show stg2 c A 6 = ((cfg3.win 6).blk t3_0).view.read (Elt F) (A 6) from rfl).trans
    (whole_slice_read (Val := Elt F) main_arg8 (A 6) _ (fun _ => Nat.zero_mul _) _)
theorem stg2_7 (c : Dev nD) (A : Arrs2 (F := F) c) : stg2 c A 7 = A 7 :=
  (show stg2 c A 7 = ((cfg3.win 7).blk t3_0).view.read (Elt F) (A 7) from rfl).trans
    (whole_slice_read (Val := Elt F) main_v21 (A 7) _ (fun _ => Nat.zero_mul _) _)

theorem arrAt2_in (c : Dev nD) (A : Arrs2 (F := F) c) (O : CellTallies nD τ sig (HIx 2)) (B : Set (SemLoc sig × HIx 2))
    (w : Fin cfg3.W) (hin : (cfg3.win w).isOut = false) : (dat2 c A O B).arrAt w cfg3.N = A w :=
  Dat.arrAt_in (dat2 c A O B) w hin _

theorem arrAt2_out (c : Dev nD) (A : Arrs2 (F := F) c) (O : CellTallies nD τ sig (HIx 2)) (B : Set (SemLoc sig × HIx 2)) :
    (dat2 c A O B).arrAt 8 cfg3.N = out2 c A := by
  rw [show cfg3.N = (t3_0 : Fin cfg3.N).val + 1 from N_3, Dat.arrAt_succ, if_pos (flush3_8 _)]
  exact whole_slice_write (Val := Elt F) main_v22 (A 8) _ (fun _ => Nat.zero_mul _) _ _

def arrs2 (d : Dev nD) (x0 : Buf (Elt F) ((T d : Thread nD τ).loc main_v16)) (x1 : Buf (Elt F) ((T d : Thread nD τ).loc main_v19)) (x2 : Buf (Elt F) ((T d : Thread nD τ).loc main_v14)) (x3 : Buf (Elt F) ((T d : Thread nD τ).loc main_arg5)) (x4 : Buf (Elt F) ((T d : Thread nD τ).loc main_v20)) (x5 : Buf (Elt F) ((T d : Thread nD τ).loc main_arg7)) (x6 : Buf (Elt F) ((T d : Thread nD τ).loc main_arg8)) (x7 : Buf (Elt F) ((T d : Thread nD τ).loc main_v21))
    (x8 : Buf (Elt F) ((T d : Thread nD τ).loc main_v22)) : Arrs2 (F := F) d
  | ⟨0, _⟩ => x0
  | ⟨1, _⟩ => x1
  | ⟨2, _⟩ => x2
  | ⟨3, _⟩ => x3
  | ⟨4, _⟩ => x4
  | ⟨5, _⟩ => x5
  | ⟨6, _⟩ => x6
  | ⟨7, _⟩ => x7
  | ⟨8, _⟩ => x8

def arrsAt2 (d : Dev nD) (Ad : Arrs2 (F := F) d) : (c : Dev nD) → Arrs2 (F := F) c :=
  @Function.update (Dev nD) (fun c => Arrs2 (F := F) c) (Classical.decEq _) (fun _ _ _ => Classical.arbitrary _) d Ad

theorem arrsAt2_self (d : Dev nD) (Ad : Arrs2 (F := F) d) : arrsAt2 d Ad d = Ad := by
  unfold arrsAt2; exact @Function.update_self _ _ (Classical.decEq _) _ _ _

theorem pre2_intro (d : Dev nD) (O : CellTallies nD τ sig (HIx 2)) (B : Set (SemLoc sig × HIx 2)) (x0 : Buf (Elt F) ((T d : Thread nD τ).loc main_v16)) (x1 : Buf (Elt F) ((T d : Thread nD τ).loc main_v19)) (x2 : Buf (Elt F) ((T d : Thread nD τ).loc main_v14)) (x3 : Buf (Elt F) ((T d : Thread nD τ).loc main_arg5)) (x4 : Buf (Elt F) ((T d : Thread nD τ).loc main_v20)) (x5 : Buf (Elt F) ((T d : Thread nD τ).loc main_arg7)) (x6 : Buf (Elt F) ((T d : Thread nD τ).loc main_arg8)) (x7 : Buf (Elt F) ((T d : Thread nD τ).loc main_v21))
    (x8 : Buf (Elt F) ((T d : Thread nD τ).loc main_v22)) :
    iprop(((T d : Thread nD τ).loc main_v16 ↦{fullShare} x0) ∗ ((T d : Thread nD τ).loc main_v19 ↦{fullShare} x1) ∗ ((T d : Thread nD τ).loc main_v14 ↦{fullShare} x2) ∗ ((T d : Thread nD τ).loc main_arg5 ↦{fullShare} x3) ∗ ((T d : Thread nD τ).loc main_v20 ↦{fullShare} x4) ∗ ((T d : Thread nD τ).loc main_arg7 ↦{fullShare} x5) ∗ ((T d : Thread nD τ).loc main_arg8 ↦{fullShare} x6) ∗ ((T d : Thread nD τ).loc main_v21 ↦{fullShare} x7)
        ∗ ((T d : Thread nD τ).loc main_v22 ↦{fullShare} x8) ∗ (∃ W : Waits sig (HIx 2), ⌜↑W ⊆ B⌝ ∗ owes (T d : Thread nD τ) O W))
      ⊢ (pre2 (arrsAt2 d (arrs2 d x0 x1 x2 x3 x4 x5 x6 x7 x8)) (fun _ => O) (fun _ => B) d : sProp 𝕄) := by
  unfold pre2
  rw [Pipeline.arrays_eq cfgs (pdats2 (arrsAt2 d (arrs2 d x0 x1 x2 x3 x4 x5 x6 x7 x8)) (fun _ => O) (fun _ => B)) 1 d arr_whole3
    ((pdats2 (arrsAt2 d (arrs2 d x0 x1 x2 x3 x4 x5 x6 x7 x8)) (fun _ => O) (fun _ => B) 1 d).share_full fun _ => rfl), bigSep_W3, arrsAt2_self]
  iintro ⟨H0, H1, H2, H3, H4, H5, H6, H7, H8, HO⟩
  isplitr [HO]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact HO

set_option maxHeartbeats 1000000 in

theorem post2_elim (d : Dev nD) (O : CellTallies nD τ sig (HIx 2)) (B : Set (SemLoc sig × HIx 2)) (x0 : Buf (Elt F) ((T d : Thread nD τ).loc main_v16)) (x1 : Buf (Elt F) ((T d : Thread nD τ).loc main_v19)) (x2 : Buf (Elt F) ((T d : Thread nD τ).loc main_v14)) (x3 : Buf (Elt F) ((T d : Thread nD τ).loc main_arg5)) (x4 : Buf (Elt F) ((T d : Thread nD τ).loc main_v20)) (x5 : Buf (Elt F) ((T d : Thread nD τ).loc main_arg7)) (x6 : Buf (Elt F) ((T d : Thread nD τ).loc main_arg8)) (x7 : Buf (Elt F) ((T d : Thread nD τ).loc main_v21))
    (x8 : Buf (Elt F) ((T d : Thread nD τ).loc main_v22)) :
    (post2 (arrsAt2 d (arrs2 d x0 x1 x2 x3 x4 x5 x6 x7 x8)) (fun _ => O) (fun _ => B) d : sProp 𝕄)
      ⊢ iprop(((T d : Thread nD τ).loc main_v16 ↦{fullShare} x0) ∗ ((T d : Thread nD τ).loc main_v19 ↦{fullShare} x1) ∗ ((T d : Thread nD τ).loc main_v14 ↦{fullShare} x2) ∗ ((T d : Thread nD τ).loc main_arg5 ↦{fullShare} x3) ∗ ((T d : Thread nD τ).loc main_v20 ↦{fullShare} x4) ∗ ((T d : Thread nD τ).loc main_arg7 ↦{fullShare} x5) ∗ ((T d : Thread nD τ).loc main_arg8 ↦{fullShare} x6) ∗ ((T d : Thread nD τ).loc main_v21 ↦{fullShare} x7)
        ∗ ((T d : Thread nD τ).loc main_v22 ↦{fullShare} k3_pay1 x2 x1 x3 x4 x5 x0 x6 x7)
        ∗ (∃ W : Waits sig (HIx 2), ⌜↑W ⊆ B ∪ Pipeline.Cfg.waitPairs cfg3 (none : HIx 2)⌝ ∗ owes (T d : Thread nD τ) O W)) := by
  unfold post2
  rw [Pipeline.arrays_eq cfgs (pdats2 (arrsAt2 d (arrs2 d x0 x1 x2 x3 x4 x5 x6 x7 x8)) (fun _ => O) (fun _ => B)) 1 d arr_whole3
    ((pdats2 (arrsAt2 d (arrs2 d x0 x1 x2 x3 x4 x5 x6 x7 x8)) (fun _ => O) (fun _ => B) 1 d).share_full fun _ => rfl), bigSep_W3]
  have hd : pdats2 (arrsAt2 d (arrs2 d x0 x1 x2 x3 x4 x5 x6 x7 x8)) (fun _ => O) (fun _ => B) 1 d
      = dat2 d (arrs2 d x0 x1 x2 x3 x4 x5 x6 x7 x8) O B := by
    show dat2 d (arrsAt2 d (arrs2 d x0 x1 x2 x3 x4 x5 x6 x7 x8) d) O B = _
    rw [arrsAt2_self]
  rw [hd, arrAt2_in _ _ _ _ 0 rfl, arrAt2_in _ _ _ _ 1 rfl, arrAt2_in _ _ _ _ 2 rfl, arrAt2_in _ _ _ _ 3 rfl, arrAt2_in _ _ _ _ 4 rfl, arrAt2_in _ _ _ _ 5 rfl, arrAt2_in _ _ _ _ 6 rfl, arrAt2_in _ _ _ _ 7 rfl, arrAt2_out]
  unfold out2
  rw [stg2_0, stg2_1, stg2_2, stg2_3, stg2_4, stg2_5, stg2_6, stg2_7]
  iintro ⟨⟨H0, H1, H2, H3, H4, H5, H6, H7, H8⟩, HO⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact HO

theorem tc2_region_main (lv : GSem nD τ sig → HIx 2 → ℕ) (hlv : (K (F := F)).Refines lv) (d : Dev nD)
    (O : CellTallies nD τ sig (HIx 2)) (hO : ∀ g, O g none = 0) (B : Set (SemLoc sig × HIx 2)) (x0 : Buf (Elt F) ((T d : Thread nD τ).loc main_v16)) (x1 : Buf (Elt F) ((T d : Thread nD τ).loc main_v19)) (x2 : Buf (Elt F) ((T d : Thread nD τ).loc main_v14)) (x3 : Buf (Elt F) ((T d : Thread nD τ).loc main_arg5)) (x4 : Buf (Elt F) ((T d : Thread nD τ).loc main_v20)) (x5 : Buf (Elt F) ((T d : Thread nD τ).loc main_arg7)) (x6 : Buf (Elt F) ((T d : Thread nD τ).loc main_arg8)) (x7 : Buf (Elt F) ((T d : Thread nD τ).loc main_v21))
    (Φ : PUnit → sProp 𝕄) :
    iprop(boundary (T d : Thread nD τ) ∗ levAts (K (F := F)).L lv
        ∗ Pipeline.cellsGhost cfgs (EP (F := F)) 1 d ∗ Pipeline.toksInit cfgs (EP (F := F)) 1 d
        ∗ ((T d : Thread nD τ).loc main_v16 ↦{fullShare} x0) ∗ ((T d : Thread nD τ).loc main_v19 ↦{fullShare} x1) ∗ ((T d : Thread nD τ).loc main_v14 ↦{fullShare} x2) ∗ ((T d : Thread nD τ).loc main_arg5 ↦{fullShare} x3) ∗ ((T d : Thread nD τ).loc main_v20 ↦{fullShare} x4) ∗ ((T d : Thread nD τ).loc main_arg7 ↦{fullShare} x5) ∗ ((T d : Thread nD τ).loc main_arg8 ↦{fullShare} x6) ∗ ((T d : Thread nD τ).loc main_v21 ↦{fullShare} x7)
        ∗ (∃ f, (T d : Thread nD τ).loc main_v22 ↦{fullShare} f)
        ∗ (∃ W : Waits sig (HIx 2), ⌜↑W ⊆ B⌝ ∗ owes (T d : Thread nD τ) O W)
        ∗ (iprop(boundary (T d : Thread nD τ)
            ∗ ((T d : Thread nD τ).loc main_v16 ↦{fullShare} x0) ∗ ((T d : Thread nD τ).loc main_v19 ↦{fullShare} x1) ∗ ((T d : Thread nD τ).loc main_v14 ↦{fullShare} x2) ∗ ((T d : Thread nD τ).loc main_arg5 ↦{fullShare} x3) ∗ ((T d : Thread nD τ).loc main_v20 ↦{fullShare} x4) ∗ ((T d : Thread nD τ).loc main_arg7 ↦{fullShare} x5) ∗ ((T d : Thread nD τ).loc main_arg8 ↦{fullShare} x6) ∗ ((T d : Thread nD τ).loc main_v21 ↦{fullShare} x7)
            ∗ ((T d : Thread nD τ).loc main_v22 ↦{fullShare} k3_pay1 x2 x1 x3 x4 x5 x0 x6 x7)
            ∗ (∃ W : Waits sig (HIx 2), ⌜↑W ⊆ B ∪ Pipeline.Cfg.waitPairs cfg3 (none : HIx 2)⌝ ∗ owes (T d : Thread nD τ) O W)) -∗ Φ ⟨⟩))
      ⊢ wp frame (wpE ((K (F := F)).defs D) 𝒱 (T d) none) Set.univ
          (Prog.lift (.customCall (SparseCore.inner (Pipeline.entry 1)) ())) Φ := by
  iintro ⟨Hb, Hl, Hg, Ht, H0, H1, H2, H3, H4, H5, H6, H7, ⟨%x8, H8⟩, HO, Hk⟩
  iapply (tc2_region_lift (arrsAt2 d (arrs2 d x0 x1 x2 x3 x4 x5 x6 x7 x8)) (fun _ => O) (fun _ => B) (fun _ => hO) lv hlv d Φ)
  isplitl [Hb]; · iexact Hb
  isplitl [H0 H1 H2 H3 H4 H5 H6 H7 H8 HO]
  · iapply (pre2_intro d O B x0 x1 x2 x3 x4 x5 x6 x7 x8)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HO
  isplitl [Hl]; · iexact Hl
  isplitl [Hg]; · iexact Hg
  isplitl [Ht]; · iexact Ht
  iintro ⟨Hb, Hpost⟩
  iapply Hk
  isplitl [Hb]; · iexact Hb
  iapply (post2_elim d O B x0 x1 x2 x3 x4 x5 x6 x7 x8)
  iexact Hpost

end Cert.Proof.Sage

end
-- ==== Proof.Agg1BodyDefs.lean ====
import proofs.«215722_g7507602833967_cont_sun_m_718_28_alg».proof.Proof.Common
import proofs.«215722_g7507602833967_cont_sun_m_718_28_alg».proof.Proof.ScatterSum
import Idealize.ShloMosaic.Lib.SparseCore.Ops

noncomputable section

namespace Cert.Proof.Agg1

open Cert.KernelIdeal Cert.KernelIdeal.Gen
open Cert.Proof.Sage Cert.Proof.ScatterSum

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

abbrev cV (L : grid0.Coords) : Fin τ.nSC := (L 0).castLE hcore0
abbrev jV (L : grid0.Coords) : Fin τ.nSub := (L 1).castLE hsub0

abbrev thr (d : Dev nD) (L : grid0.Coords) : Thread nD τ := V d (cV L) (jV L)

abbrev xA : Memref sig .scVector .hbm S1294336 .f32 := Memref.whole main_v11_scv
abbrev sA : Memref sig .scVector .hbm S327680 .i32 := Memref.whole main_v5_scv
abbrev dA : Memref sig .scVector .hbm S327680 .i32 := Memref.whole main_v7_scv
abbrev oA : Memref sig .scVector .hbm S1294336 .f32 := Memref.whole main_v12_0_scv
abbrev cA : Memref sig .scVector .hbm S161792 .f32 := Memref.whole main_v12_1_scv
abbrev X0 : Memref sig .scVector .vmem S10112 .f32 := Memref.whole cc0_scratch0
abbrev X1 : Memref sig .scVector .vmem S10112 .f32 := Memref.whole cc0_scratch1
abbrev X2 : Memref sig .scVector .vmem S10112 .f32 := Memref.whole cc0_scratch2
abbrev X3 : Memref sig .scVector .vmem S10112 .f32 := Memref.whole cc0_scratch3
abbrev A0 : Memref sig .scVector .vmem S10112 .f32 := Memref.whole cc0_scratch4
abbrev A1 : Memref sig .scVector .vmem S10112 .f32 := Memref.whole cc0_scratch5
abbrev A2 : Memref sig .scVector .vmem S10112 .f32 := Memref.whole cc0_scratch6
abbrev A3 : Memref sig .scVector .vmem S10112 .f32 := Memref.whole cc0_scratch7
abbrev CN : Memref sig .scVector .vmem S10112 .f32 := Memref.whole cc0_scratch8
abbrev IS : Memref sig .scVector .vmem S512 .i32 := Memref.whole cc0_scratch9
abbrev ID : Memref sig .scVector .vmem S512 .i32 := Memref.whole cc0_scratch10

abbrev xSl0 (L : grid0.Coords) : Memref sig .scVector .hbm S10112 .f32 :=
  xA.slice (Rect.unit (s := S1294336) (k0_off1 L 0#32) S10112.size (k0_off1_inb L 0)) (fun _ => rfl)
abbrev xSl1 (L : grid0.Coords) : Memref sig .scVector .hbm S10112 .f32 :=
  xA.slice (Rect.unit (s := S1294336) (k0_off1 L 10112#32) S10112.size (k0_off1_inb L 1)) (fun _ => rfl)
abbrev xSl2 (L : grid0.Coords) : Memref sig .scVector .hbm S10112 .f32 :=
  xA.slice (Rect.unit (s := S1294336) (k0_off1 L 20224#32) S10112.size (k0_off1_inb L 2)) (fun _ => rfl)
abbrev xSl3 (L : grid0.Coords) : Memref sig .scVector .hbm S10112 .f32 :=
  xA.slice (Rect.unit (s := S1294336) (k0_off1 L 30336#32) S10112.size (k0_off1_inb L 3)) (fun _ => rfl)
abbrev oSl0 (L : grid0.Coords) : Memref sig .scVector .hbm S10112 .f32 :=
  oA.slice (Rect.unit (s := S1294336) (k0_off1 L 0#32) S10112.size (k0_off1_inb L 0)) (fun _ => rfl)
abbrev oSl1 (L : grid0.Coords) : Memref sig .scVector .hbm S10112 .f32 :=
  oA.slice (Rect.unit (s := S1294336) (k0_off1 L 10112#32) S10112.size (k0_off1_inb L 1)) (fun _ => rfl)
abbrev oSl2 (L : grid0.Coords) : Memref sig .scVector .hbm S10112 .f32 :=
  oA.slice (Rect.unit (s := S1294336) (k0_off1 L 20224#32) S10112.size (k0_off1_inb L 2)) (fun _ => rfl)
abbrev oSl3 (L : grid0.Coords) : Memref sig .scVector .hbm S10112 .f32 :=
  oA.slice (Rect.unit (s := S1294336) (k0_off1 L 30336#32) S10112.size (k0_off1_inb L 3)) (fun _ => rfl)

abbrev xSl (L : grid0.Coords) : Fin 4 → Memref sig .scVector .hbm S10112 .f32 := ![xSl0 L, xSl1 L, xSl2 L, xSl3 L]
abbrev oSl (L : grid0.Coords) : Fin 4 → Memref sig .scVector .hbm S10112 .f32 := ![oSl0 L, oSl1 L, oSl2 L, oSl3 L]
abbrev cSl (L : grid0.Coords) (h : k0_cond2 L = 1#1) : Memref sig .scVector .hbm S10112 .f32 :=
  cA.slice (Rect.unit (s := S161792) (k0_off8 L) S10112.size (k0_off8_inb L h)) (fun _ => rfl)

def maskOf (L : grid0.Coords) (g : Nat) : IVec SLane 1 :=
  fun _ => if g % 16 = (L 1).val ∧ (L 0).val = 0 then 1#1 else 0#1

abbrev body (L : grid0.Coords) [FloatOps F] : Prog (TpuEff nD τ sig (Elt F) Λ₀ (.scVector (cV L) (jV L))) PUnit :=
  cc0__agg1_body L xA (Memref.isWhole_whole _) sA (Memref.isWhole_whole _) dA (Memref.isWhole_whole _) oA (Memref.isWhole_whole _)
    cA (Memref.isWhole_whole _) X0 (Memref.isWhole_whole _) X1 (Memref.isWhole_whole _) X2 (Memref.isWhole_whole _) X3 (Memref.isWhole_whole _)
    A0 (Memref.isWhole_whole _) A1 (Memref.isWhole_whole _) A2 (Memref.isWhole_whole _) A3 (Memref.isWhole_whole _) CN (Memref.isWhole_whole _)
    IS (Memref.isWhole_whole _) ID (Memref.isWhole_whole _)
    cc0_scoped0 cc0_scoped1 cc0_scoped2 cc0_scoped3 cc0_scoped4 cc0_scoped5 cc0_scoped6 cc0_scoped7 cc0_scoped8 cc0_scoped9 cc0_scoped10

variable [FloatOps F]

abbrev sm (d : Dev nD) (L : grid0.Coords) (s : DmaSems sig S_) : GSem nD τ sig := (thr d L, .dma s.sem)

abbrev rowOfX (d : Dev nD) (L : grid0.Coords) (m : Memref sig .scVector .hbm S10112 .f32) (mx : Buf (Elt F) (m.view.loc (thr d L))) : Vec F SRow .f32 :=
  m.view.read (Elt F) mx

abbrev srcOf (d : Dev nD) (L : grid0.Coords) (ms : Buf (Elt F) (sA.view.loc (thr d L))) : IVec SEdge 32 := sA.view.read (Elt F) ms
abbrev dstOf (d : Dev nD) (L : grid0.Coords) (md : Buf (Elt F) (dA.view.loc (thr d L))) : IVec SEdge 32 := dA.view.read (Elt F) md

def hbmPre (d : Dev nD) (L : grid0.Coords) (q : PosShare TreeShare) (mx : Buf (Elt F) (xA.view.loc (thr d L)))
    (ms : Buf (Elt F) (sA.view.loc (thr d L))) (md : Buf (Elt F) (dA.view.loc (thr d L)))
    (mo : Buf (Elt F) (oA.view.loc (thr d L))) (mc : Buf (Elt F) (cA.view.loc (thr d L))) : sProp 𝕄 :=
  iprop(((xSl0 L).view.loc (thr d L) ↦[(xSl0 L).view.set]{fullShare} mx) ∗ ((xSl1 L).view.loc (thr d L) ↦[(xSl1 L).view.set]{fullShare} mx)
    ∗ ((xSl2 L).view.loc (thr d L) ↦[(xSl2 L).view.set]{fullShare} mx) ∗ ((xSl3 L).view.loc (thr d L) ↦[(xSl3 L).view.set]{fullShare} mx)
    ∗ ((oSl0 L).view.loc (thr d L) ↦[(oSl0 L).view.set]{fullShare} mo) ∗ ((oSl1 L).view.loc (thr d L) ↦[(oSl1 L).view.set]{fullShare} mo)
    ∗ ((oSl2 L).view.loc (thr d L) ↦[(oSl2 L).view.set]{fullShare} mo) ∗ ((oSl3 L).view.loc (thr d L) ↦[(oSl3 L).view.set]{fullShare} mo)
    ∗ (sA.view.loc (thr d L) ↦{q} ms) ∗ (dA.view.loc (thr d L) ↦{q} md)
    ∗ (if h : k0_cond2 L = 1#1 then iprop((cSl L h).view.loc (thr d L) ↦[(cSl L h).view.set]{fullShare} mc) else iprop(emp)))

def outRow (d : Dev nD) (L : grid0.Coords) (m : Memref sig .scVector .hbm S10112 .f32) (v : Vec F SRow .f32) : sProp 𝕄 :=
  iprop(∃ fo : Buf (Elt F) (m.view.loc (thr d L)), (m.view.loc (thr d L) ↦[m.view.set]{fullShare} fo) ∗ ⌜m.view.read (Elt F) fo = v⌝)

abbrev aggOf (d : Dev nD) (L : grid0.Coords) (m : Memref sig .scVector .hbm S10112 .f32) (mx : Buf (Elt F) (m.view.loc (thr d L)))
    (ms : Buf (Elt F) (sA.view.loc (thr d L))) (md : Buf (Elt F) (dA.view.loc (thr d L))) : Vec F SRow .f32 :=
  aggUpTo (rowOfX d L m mx) (srcOf d L ms) (dstOf d L md) 20480

def hbmPost (d : Dev nD) (L : grid0.Coords) (q : PosShare TreeShare) (mx : Buf (Elt F) (xA.view.loc (thr d L)))
    (ms : Buf (Elt F) (sA.view.loc (thr d L))) (md : Buf (Elt F) (dA.view.loc (thr d L))) : sProp 𝕄 :=
  iprop(((xSl0 L).view.loc (thr d L) ↦[(xSl0 L).view.set]{fullShare} mx) ∗ ((xSl1 L).view.loc (thr d L) ↦[(xSl1 L).view.set]{fullShare} mx)
    ∗ ((xSl2 L).view.loc (thr d L) ↦[(xSl2 L).view.set]{fullShare} mx) ∗ ((xSl3 L).view.loc (thr d L) ↦[(xSl3 L).view.set]{fullShare} mx)
    ∗ outRow d L (oSl0 L) (aggOf d L (xSl0 L) mx ms md) ∗ outRow d L (oSl1 L) (aggOf d L (xSl1 L) mx ms md)
    ∗ outRow d L (oSl2 L) (aggOf d L (xSl2 L) mx ms md) ∗ outRow d L (oSl3 L) (aggOf d L (xSl3 L) mx ms md)
    ∗ (sA.view.loc (thr d L) ↦{q} ms) ∗ (dA.view.loc (thr d L) ↦{q} md)
    ∗ (if h : k0_cond2 L = 1#1 then outRow d L (cSl L h) (cntUpTo (dstOf d L md) (maskOf L) 20480) else iprop(emp)))

def scr (d : Dev nD) (L : grid0.Coords) : sProp 𝕄 :=
  iprop((∃ f, X0.view.loc (thr d L) ↦{fullShare} f) ∗ (∃ f, X1.view.loc (thr d L) ↦{fullShare} f) ∗ (∃ f, X2.view.loc (thr d L) ↦{fullShare} f)
    ∗ (∃ f, X3.view.loc (thr d L) ↦{fullShare} f) ∗ (∃ f, A0.view.loc (thr d L) ↦{fullShare} f) ∗ (∃ f, A1.view.loc (thr d L) ↦{fullShare} f)
    ∗ (∃ f, A2.view.loc (thr d L) ↦{fullShare} f) ∗ (∃ f, A3.view.loc (thr d L) ↦{fullShare} f) ∗ (∃ f, CN.view.loc (thr d L) ↦{fullShare} f)
    ∗ (∃ f, IS.view.loc (thr d L) ↦{fullShare} f) ∗ (∃ f, ID.view.loc (thr d L) ↦{fullShare} f))

def sems0 (d : Dev nD) (L : grid0.Coords) : sProp 𝕄 :=
  iprop(semVal (sm d L cc0_scoped0) 0 ∗ semVal (sm d L cc0_scoped1) 0 ∗ semVal (sm d L cc0_scoped2) 0 ∗ semVal (sm d L cc0_scoped3) 0
    ∗ semVal (sm d L cc0_scoped4) 0 ∗ semVal (sm d L cc0_scoped5) 0 ∗ semVal (sm d L cc0_scoped6) 0 ∗ semVal (sm d L cc0_scoped7) 0
    ∗ semVal (sm d L cc0_scoped8) 0 ∗ semVal (sm d L cc0_scoped9) 0 ∗ semVal (sm d L cc0_scoped10) 0)

end Cert.Proof.Agg1

end
-- ==== Proof.Agg1Bridge.lean ====
import proofs.«215722_g7507602833967_cont_sun_m_718_28_alg».proof.Proof.Agg1BodyDefs
import proofs.«215722_g7507602833967_cont_sun_m_718_28_alg».proof.Proof.LaunchRes

noncomputable section

namespace Cert.Proof.Agg1

open Cert.KernelIdeal Cert.KernelIdeal.Gen
open Cert.Proof.Sage Cert.Proof.ScatterSum

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

theorem seg_lt (k : Fin 128) (j : SRow.Idx) : 10112 * k.val + (j 0).val < 1294336 := by
  have h1 := k.isLt
  have h2 : (j 0).val < 10112 := (j 0).isLt
  omega
theorem cseg_lt (s : Fin 16) (j : SRow.Idx) : 10112 * s.val + (j 0).val < 161792 := by
  have h1 := s.isLt
  have h2 : (j 0).val < 10112 := (j 0).isLt
  omega

theorem rect_row (L : grid0.Coords) (r : Fin 4) :
    Rect.unit (s := S1294336) (k0_off1 L (BitVec.ofNat 32 (10112 * r.val))) S10112.size (k0_off1_inb L r)
      = seg (tix (cV L) (jV L) r) := by
  unfold seg Rect.part Rect.block
  congr 1 <;> funext a
  · rw [k0_off1_eq]
    match a with
    | ⟨0, _⟩ =>
      show 647168 * (L 0).val + 40448 * (L 1).val + 10112 * r.val = (64 * (L 0).val + 4 * (L 1).val + r.val) * 10112
      omega
  · match a with
    | ⟨0, _⟩ => rfl

theorem rect_cnt (L : grid0.Coords) (h : k0_cond2 L = 1#1) :
    Rect.unit (s := S161792) (k0_off8 L) S10112.size (k0_off8_inb L h) = cseg (Sage.sub16 (jV L)) := by
  unfold cseg Rect.part Rect.block
  congr 1 <;> funext a
  · rw [k0_off8_eq]
    match a with
    | ⟨0, _⟩ =>
      show 10112 * (L 1).val = (L 1).val * 10112
      omega
  · match a with
    | ⟨0, _⟩ => rfl

theorem set_xSl0 (L : grid0.Coords) : (xSl0 L).view.set = segSet (tix (cV L) (jV L) 0) :=
  (View.set_slice_whole main_v11_scv _).trans ((congrArg (fun R : Rect _ => R.set) (rect_row L 0)).trans (View.set_slice_whole main_v11_scv _).symm)
theorem set_xSl1 (L : grid0.Coords) : (xSl1 L).view.set = segSet (tix (cV L) (jV L) 1) :=
  (View.set_slice_whole main_v11_scv _).trans ((congrArg (fun R : Rect _ => R.set) (rect_row L 1)).trans (View.set_slice_whole main_v11_scv _).symm)
theorem set_xSl2 (L : grid0.Coords) : (xSl2 L).view.set = segSet (tix (cV L) (jV L) 2) :=
  (View.set_slice_whole main_v11_scv _).trans ((congrArg (fun R : Rect _ => R.set) (rect_row L 2)).trans (View.set_slice_whole main_v11_scv _).symm)
theorem set_xSl3 (L : grid0.Coords) : (xSl3 L).view.set = segSet (tix (cV L) (jV L) 3) :=
  (View.set_slice_whole main_v11_scv _).trans ((congrArg (fun R : Rect _ => R.set) (rect_row L 3)).trans (View.set_slice_whole main_v11_scv _).symm)
theorem set_oSl0 (L : grid0.Coords) : (oSl0 L).view.set = segSet (tix (cV L) (jV L) 0) :=
  (View.set_slice_whole main_v12_0_scv _).trans ((congrArg (fun R : Rect _ => R.set) (rect_row L 0)).trans (View.set_slice_whole main_v11_scv _).symm)
theorem set_oSl1 (L : grid0.Coords) : (oSl1 L).view.set = segSet (tix (cV L) (jV L) 1) :=
  (View.set_slice_whole main_v12_0_scv _).trans ((congrArg (fun R : Rect _ => R.set) (rect_row L 1)).trans (View.set_slice_whole main_v11_scv _).symm)
theorem set_oSl2 (L : grid0.Coords) : (oSl2 L).view.set = segSet (tix (cV L) (jV L) 2) :=
  (View.set_slice_whole main_v12_0_scv _).trans ((congrArg (fun R : Rect _ => R.set) (rect_row L 2)).trans (View.set_slice_whole main_v11_scv _).symm)
theorem set_oSl3 (L : grid0.Coords) : (oSl3 L).view.set = segSet (tix (cV L) (jV L) 3) :=
  (View.set_slice_whole main_v12_0_scv _).trans ((congrArg (fun R : Rect _ => R.set) (rect_row L 3)).trans (View.set_slice_whole main_v11_scv _).symm)
theorem set_cSl (L : grid0.Coords) (h : k0_cond2 L = 1#1) : (cSl L h).view.set = csegSet (Sage.sub16 (jV L)) :=
  (View.set_slice_whole main_v12_1_scv _).trans ((congrArg (fun R : Rect _ => R.set) (rect_cnt L h)).trans (View.set_slice_whole main_v12_1_scv _).symm)

theorem emb_row (L : grid0.Coords) (r : Fin 4) (j : SRow.Idx) :
    (Rect.unit (s := S1294336) (k0_off1 L (BitVec.ofNat 32 (10112 * r.val))) S10112.size (k0_off1_inb L r)).emb j
      = (ix1 ⟨10112 * (tix (cV L) (jV L) r).val + (j 0).val, seg_lt _ j⟩ : S1294336.Idx) := by
  funext a
  refine Fin.ext ?_
  match a with
  | ⟨0, _⟩ =>
    show k0_off1 L (BitVec.ofNat 32 (10112 * r.val)) 0 + 1 * (j 0).val = 10112 * (64 * (L 0).val + 4 * (L 1).val + r.val) + (j 0).val
    rw [k0_off1_eq]
    show 647168 * (L 0).val + 40448 * (L 1).val + 10112 * r.val + 1 * (j 0).val = _
    omega

theorem emb_cnt (L : grid0.Coords) (h : k0_cond2 L = 1#1) (j : SRow.Idx) :
    (Rect.unit (s := S161792) (k0_off8 L) S10112.size (k0_off8_inb L h)).emb j
      = (ix1 ⟨10112 * (Sage.sub16 (jV L)).val + (j 0).val, cseg_lt _ j⟩ : S161792.Idx) := by
  funext a
  refine Fin.ext ?_
  match a with
  | ⟨0, _⟩ =>
    show k0_off8 L 0 + 1 * (j 0).val = 10112 * (L 1).val + (j 0).val
    rw [k0_off8_eq]
    show 10112 * (L 1).val + 1 * (j 0).val = _
    omega

theorem cond2_iff (L : grid0.Coords) : k0_cond2 L = 1#1 ↔ (L 0).val = 0 := by
  revert L
  decide +kernel

variable [FloatOps F]

def scrRefs : Finset (Ref sig .scVector) :=
  {cc0_scratch0, cc0_scratch1, cc0_scratch2, cc0_scratch3, cc0_scratch4, cc0_scratch5, cc0_scratch6, cc0_scratch7, cc0_scratch8, cc0_scratch9, cc0_scratch10}

def devEmb (c : Fin τ.nSC) (s : Fin τ.nSub) : Ref sig .scVector ↪ DevRef τ sig :=
  ⟨(Proc.scVector c s).devRef, Proc.devRef_injective _⟩

theorem scrRefs_sub (c : Fin τ.nSC) (s : Fin τ.nSub) :
    scrRefs.map (devEmb c s) ⊆ SparseCore.Cfg.ownRefs (τ := τ) (sig := sig) (.scVector c s) := by
  intro b hb
  obtain ⟨r, hr, rfl⟩ := Finset.mem_map.mp hb
  simp only [scrRefs, Finset.mem_insert, Finset.mem_singleton] at hr
  rcases hr with rfl | rfl | rfl | rfl | rfl | rfl | rfl | rfl | rfl | rfl | rfl <;>
    exact SparseCore.Cfg.mem_ownRefs_of_owner (p := Proc.scVector c s) rfl

theorem scopedBufs_split (hF : (K (F := F)).Facts) (d : Dev nD) (L : grid0.Coords) :
    (scopedBufs (thr d L) : sProp 𝕄)
      = iprop(scr (F := F) d L ∗ bigSep (SparseCore.Cfg.ownRefs (τ := τ) (sig := sig) (.scVector (cV L) (jV L)) \ scrRefs.map (devEmb (cV L) (jV L)))
          fun b => iprop(∃ f, ((d, b) : Loc nD τ sig) ↦{fullShare} f)) := by
  rw [(K (F := F)).scopedBufs_V hF d (cV L) (jV L)]
  unfold SparseCore.Cfg.ownBufs
  rw [SparseCore.bigSep_sdiff_split' (scrRefs_sub (cV L) (jV L)), BI.bigSep_map]
  unfold scrRefs
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), BI.bigSep_singleton]
  rfl

def scopedSemLocs : Finset (SemLoc sig) :=
  {SemLoc.dma cc0_scoped0.sem, SemLoc.dma cc0_scoped1.sem, SemLoc.dma cc0_scoped2.sem, SemLoc.dma cc0_scoped3.sem, SemLoc.dma cc0_scoped4.sem, SemLoc.dma cc0_scoped5.sem, SemLoc.dma cc0_scoped6.sem, SemLoc.dma cc0_scoped7.sem, SemLoc.dma cc0_scoped8.sem, SemLoc.dma cc0_scoped9.sem, SemLoc.dma cc0_scoped10.sem}

def semEmb (t : Thread nD τ) : SemLoc sig ↪ GSem nD τ sig := ⟨fun s => (t, s), fun _ _ h => (Prod.mk.inj h).2⟩

theorem scopedSemLocs_sub (d : Dev nD) (L : grid0.Coords) :
    scopedSemLocs.map (semEmb (thr d L)) ⊆ SparseCore.Cfg.ownCells (thr d L) := by
  intro g hg
  obtain ⟨s, hs, rfl⟩ := Finset.mem_map.mp hg
  simp only [scopedSemLocs, Finset.mem_insert, Finset.mem_singleton] at hs
  rcases hs with rfl | rfl | rfl | rfl | rfl | rfl | rfl | rfl | rfl | rfl | rfl <;>
    exact SparseCore.Cfg.mem_ownCells.mpr ⟨rfl, by
      show (SemLoc.dma _ : SemLoc sig).isScoped .scVector = true
      decide⟩

theorem scopedSems0_split (d : Dev nD) (L : grid0.Coords) :
    (scopedSems0 (thr d L) : sProp 𝕄)
      = iprop(sems0 (F := F) d L ∗ bigSep (SparseCore.Cfg.ownCells (thr d L) \ scopedSemLocs.map (semEmb (thr d L))) fun g => semVal g 0) := by
  rw [SparseCore.Cfg.scopedSems0_V (Val := Elt F) d (cV L) (jV L)]
  unfold SparseCore.Cfg.ownSems0
  rw [SparseCore.bigSep_sdiff_split' (scopedSemLocs_sub d L), BI.bigSep_map]
  unfold scopedSemLocs
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), BI.bigSep_singleton]
  rfl

def TileCore (F : FTy → Type) [FloatOps F] : Prop :=
  ∀ (hF : (K (F := F)).Facts) (d : Dev nD) (L : grid0.Coords) (q : PosShare TreeShare)
    (mx : Buf (Elt F) (xA.view.loc (thr d L))) (ms : Buf (Elt F) (sA.view.loc (thr d L))) (md : Buf (Elt F) (dA.view.loc (thr d L)))
    (mo : Buf (Elt F) (oA.view.loc (thr d L))) (mc : Buf (Elt F) (cA.view.loc (thr d L)))
    (hs : ∀ e, (srcOf d L ms e).toNat < 10112) (hd : ∀ e, (dstOf d L md e).toNat < 10112)
    (O : CellTallies nD τ sig (HIx 2)) (W : Waits sig (HIx 2)) (hO : ∀ g, O g none = 0),
    iprop(levAts (K (F := F)).L (K (F := F)).lev ∗ hbmPre d L q mx ms md mo mc ∗ scr d L ∗ sems0 d L ∗ owes (thr d L) O W)
      ⊢ wp frame (wpE (defs₀ (F := F)) 𝒱₀ (thr d L) none) Set.univ (body (F := F) L) fun _ =>
          iprop(hbmPost d L q mx ms md ∗ scr d L ∗ sems0 d L ∗ ∃ W', ⌜∀ p ∈ W', p ∈ W ∨ p.2 = none⌝ ∗ owes (thr d L) O W')

abbrev xRow (L : grid0.Coords) (r : Fin 4) : Memref sig .scVector .hbm S10112 .f32 :=
  xA.slice (Rect.unit (s := S1294336) (k0_off1 L (BitVec.ofNat 32 (10112 * r.val))) S10112.size (k0_off1_inb L r)) (fun _ => rfl)
abbrev oRow (L : grid0.Coords) (r : Fin 4) : Memref sig .scVector .hbm S10112 .f32 :=
  oA.slice (Rect.unit (s := S1294336) (k0_off1 L (BitVec.ofNat 32 (10112 * r.val))) S10112.size (k0_off1_inb L r)) (fun _ => rfl)

theorem pts_out (w : Vals F) (d : Dev nD) (L : grid0.Coords)
    (hagg : ∀ (k : Fin 128), (fun j : SRow.Idx => w.agg d (ix1 ⟨10112 * k.val + (j 0).val, seg_lt k j⟩))
      = aggUpTo (fun j : SRow.Idx => w.xf d (ix1 ⟨10112 * k.val + (j 0).val, seg_lt k j⟩)) (w.src d) (w.dst d) 20480)
    (r : Fin 4) (fo : Buf (Elt F) (aggLoc d))
    (hfo : (oRow L r).view.read (Elt F) fo = aggOf d L (xRow L r) (w.xf d) (w.src d) (w.dst d)) :
    ((oRow L r).view.loc (thr d L) ↦[(oRow L r).view.set]{fullShare} fo : sProp 𝕄) = aggSegPts d (tix (cV L) (jV L) r) (w.agg d) := by
  have hset : (oRow L r).view.set = segSet (tix (cV L) (jV L) r) :=
    (View.set_slice_whole main_v12_0_scv _).trans ((congrArg (fun R : Rect _ => R.set) (rect_row L r)).trans (View.set_slice_whole main_v11_scv _).symm)
  have hc : ∀ i ∈ (oRow L r).view.set, fo i = w.agg d i := by
    intro i hi
    obtain ⟨j, -, rfl⟩ := Finset.mem_map.mp hi
    have h1 : fo ((oRow L r).view.emb j) = aggOf d L (xRow L r) (w.xf d) (w.src d) (w.dst d) j := congrFun hfo j
    have he : (oRow L r).view.emb j = (ix1 ⟨10112 * (tix (cV L) (jV L) r).val + (j 0).val, seg_lt _ j⟩ : S1294336.Idx) := emb_row L r j
    rw [h1, he, congrFun (hagg (tix (cV L) (jV L) r)) j]
    refine congrFun (congrArg (fun x => aggUpTo x (w.src d) (w.dst d) 20480) (funext fun j' => ?_)) j
    show w.xf d ((xRow L r).view.emb j') = _
    exact congrArg (w.xf d) (emb_row L r j')
  rw [pointsTo_congr hc, hset]

theorem pts_cnt (w : Vals F) (d : Dev nD) (L : grid0.Coords) (hc : k0_cond2 L = 1#1)
    (hcnt : ∀ (s : Fin 16), (fun j : SRow.Idx => w.cnt d (ix1 ⟨10112 * s.val + (j 0).val, cseg_lt s j⟩))
      = cntUpTo (w.dst d) (fun g _ => if g % 16 = s.val then 1#1 else 0#1) 20480)
    (fc : Buf (Elt F) (cntLoc d))
    (hfc : (cSl L hc).view.read (Elt F) fc = cntUpTo (dstOf d L (w.dst d)) (maskOf L) 20480) :
    ((cSl L hc).view.loc (thr d L) ↦[(cSl L hc).view.set]{fullShare} fc : sProp 𝕄) = cntSegPts d (Sage.sub16 (jV L)) (w.cnt d) := by
  have h0 : (L 0).val = 0 := (cond2_iff L).1 hc
  have hcv : ∀ i ∈ (cSl L hc).view.set, fc i = w.cnt d i := by
    intro i hi
    obtain ⟨j, -, rfl⟩ := Finset.mem_map.mp hi
    have h1 : fc ((cSl L hc).view.emb j) = cntUpTo (dstOf d L (w.dst d)) (maskOf L) 20480 j := congrFun hfc j
    have he : (cSl L hc).view.emb j = (ix1 ⟨10112 * (Sage.sub16 (jV L)).val + (j 0).val, cseg_lt _ j⟩ : S161792.Idx) := emb_cnt L hc j
    rw [h1, he, congrFun (hcnt (Sage.sub16 (jV L))) j]
    refine congrFun (congrArg (fun mk => cntUpTo (w.dst d) mk 20480) (funext fun g => funext fun _ => ?_)) j
    show (if g % 16 = (L 1).val ∧ (L 0).val = 0 then 1#1 else 0#1) = if g % 16 = (L 1).val then (1#1 : BitVec 1) else 0#1
    simp [h0]
  rw [pointsTo_congr hcv, set_cSl]

theorem outRow_seg (w : Vals F) (d : Dev nD) (L : grid0.Coords)
    (hagg : ∀ (k : Fin 128), (fun j : SRow.Idx => w.agg d (ix1 ⟨10112 * k.val + (j 0).val, seg_lt k j⟩))
      = aggUpTo (fun j : SRow.Idx => w.xf d (ix1 ⟨10112 * k.val + (j 0).val, seg_lt k j⟩)) (w.src d) (w.dst d) 20480)
    (r : Fin 4) :
    outRow d L (oRow L r) (aggOf d L (xRow L r) (w.xf d) (w.src d) (w.dst d)) ⊢ aggSegPts d (tix (cV L) (jV L) r) (w.agg d) := by
  unfold outRow
  iintro ⟨%fo, H, %hfo⟩
  iapply (Entails.of_eq (pts_out w d L hagg r fo hfo))
  iexact H

theorem outRow_cnt (w : Vals F) (d : Dev nD) (L : grid0.Coords) (hc : k0_cond2 L = 1#1)
    (hcnt : ∀ (s : Fin 16), (fun j : SRow.Idx => w.cnt d (ix1 ⟨10112 * s.val + (j 0).val, cseg_lt s j⟩))
      = cntUpTo (w.dst d) (fun g _ => if g % 16 = s.val then 1#1 else 0#1) 20480) :
    outRow d L (cSl L hc) (cntUpTo (dstOf d L (w.dst d)) (maskOf L) 20480) ⊢ cntSegPts d (Sage.sub16 (jV L)) (w.cnt d) := by
  unfold outRow
  iintro ⟨%fc, H, %hfc⟩
  iapply (Entails.of_eq (pts_cnt w d L hc hcnt fc hfc))
  iexact H

theorem hbmPre_first (w : Vals F) (d : Dev nD) (L : grid0.Coords) (hc : k0_cond2 L = 1#1) (q : PosShare TreeShare)
    (fo : Buf (Elt F) (aggLoc d)) (fc : Buf (Elt F) (cntLoc d)) :
    hbmPre d L q (w.xf d) (w.src d) (w.dst d) fo fc
      = iprop(xfSegPts w d (tix (cV L) (jV L) 0) ∗ xfSegPts w d (tix (cV L) (jV L) 1) ∗ xfSegPts w d (tix (cV L) (jV L) 2) ∗ xfSegPts w d (tix (cV L) (jV L) 3)
          ∗ aggSegPts d (tix (cV L) (jV L) 0) fo ∗ aggSegPts d (tix (cV L) (jV L) 1) fo ∗ aggSegPts d (tix (cV L) (jV L) 2) fo ∗ aggSegPts d (tix (cV L) (jV L) 3) fo
          ∗ (srcLoc d ↦{q} w.src d) ∗ (dstLoc d ↦{q} w.dst d) ∗ cntSegPts d (Sage.sub16 (jV L)) fc) := by
  unfold hbmPre
  rw [dif_pos hc, set_xSl0, set_xSl1, set_xSl2, set_xSl3, set_oSl0, set_oSl1, set_oSl2, set_oSl3, set_cSl]

theorem hbmPre_other (w : Vals F) (d : Dev nD) (L : grid0.Coords) (hc : ¬k0_cond2 L = 1#1) (q : PosShare TreeShare)
    (fo : Buf (Elt F) (aggLoc d)) (fc : Buf (Elt F) (cntLoc d)) :
    hbmPre d L q (w.xf d) (w.src d) (w.dst d) fo fc
      = iprop(xfSegPts w d (tix (cV L) (jV L) 0) ∗ xfSegPts w d (tix (cV L) (jV L) 1) ∗ xfSegPts w d (tix (cV L) (jV L) 2) ∗ xfSegPts w d (tix (cV L) (jV L) 3)
          ∗ aggSegPts d (tix (cV L) (jV L) 0) fo ∗ aggSegPts d (tix (cV L) (jV L) 1) fo ∗ aggSegPts d (tix (cV L) (jV L) 2) fo ∗ aggSegPts d (tix (cV L) (jV L) 3) fo
          ∗ (srcLoc d ↦{q} w.src d) ∗ (dstLoc d ↦{q} w.dst d) ∗ emp) := by
  unfold hbmPre
  rw [dif_neg hc, set_xSl0, set_xSl1, set_xSl2, set_xSl3, set_oSl0, set_oSl1, set_oSl2, set_oSl3]

theorem hbmPost_first (w : Vals F) (d : Dev nD) (L : grid0.Coords) (hc : k0_cond2 L = 1#1) (q : PosShare TreeShare) :
    hbmPost d L q (w.xf d) (w.src d) (w.dst d)
      = iprop(xfSegPts w d (tix (cV L) (jV L) 0) ∗ xfSegPts w d (tix (cV L) (jV L) 1) ∗ xfSegPts w d (tix (cV L) (jV L) 2) ∗ xfSegPts w d (tix (cV L) (jV L) 3)
          ∗ outRow d L (oRow L 0) (aggOf d L (xRow L 0) (w.xf d) (w.src d) (w.dst d)) ∗ outRow d L (oRow L 1) (aggOf d L (xRow L 1) (w.xf d) (w.src d) (w.dst d))
          ∗ outRow d L (oRow L 2) (aggOf d L (xRow L 2) (w.xf d) (w.src d) (w.dst d)) ∗ outRow d L (oRow L 3) (aggOf d L (xRow L 3) (w.xf d) (w.src d) (w.dst d))
          ∗ (srcLoc d ↦{q} w.src d) ∗ (dstLoc d ↦{q} w.dst d) ∗ outRow d L (cSl L hc) (cntUpTo (dstOf d L (w.dst d)) (maskOf L) 20480)) := by
  unfold hbmPost
  rw [dif_pos hc, set_xSl0, set_xSl1, set_xSl2, set_xSl3]
  rfl

theorem hbmPost_other (w : Vals F) (d : Dev nD) (L : grid0.Coords) (hc : ¬k0_cond2 L = 1#1) (q : PosShare TreeShare) :
    hbmPost d L q (w.xf d) (w.src d) (w.dst d)
      = iprop(xfSegPts w d (tix (cV L) (jV L) 0) ∗ xfSegPts w d (tix (cV L) (jV L) 1) ∗ xfSegPts w d (tix (cV L) (jV L) 2) ∗ xfSegPts w d (tix (cV L) (jV L) 3)
          ∗ outRow d L (oRow L 0) (aggOf d L (xRow L 0) (w.xf d) (w.src d) (w.dst d)) ∗ outRow d L (oRow L 1) (aggOf d L (xRow L 1) (w.xf d) (w.src d) (w.dst d))
          ∗ outRow d L (oRow L 2) (aggOf d L (xRow L 2) (w.xf d) (w.src d) (w.dst d)) ∗ outRow d L (oRow L 3) (aggOf d L (xRow L 3) (w.xf d) (w.src d) (w.dst d))
          ∗ (srcLoc d ↦{q} w.src d) ∗ (dstLoc d ↦{q} w.dst d) ∗ emp) := by
  unfold hbmPost
  rw [dif_neg hc, set_xSl0, set_xSl1, set_xSl2, set_xSl3]
  rfl

theorem tile_body0_of (core : TileCore F) (w : Vals F) (d : Dev nD) (L : grid0.Coords) (hF : (K (F := F)).Facts)
    (hsrc : ∀ e, ((w.src d) e).toNat < 10112) (hdst : ∀ e, ((w.dst d) e).toNat < 10112)
    (hagg : ∀ (k : Fin 128), (fun j : SRow.Idx => w.agg d (ix1 ⟨10112 * k.val + (j 0).val, seg_lt k j⟩))
      = aggUpTo (fun j : SRow.Idx => w.xf d (ix1 ⟨10112 * k.val + (j 0).val, seg_lt k j⟩)) (w.src d) (w.dst d) 20480)
    (hcnt : ∀ (s : Fin 16), (fun j : SRow.Idx => w.cnt d (ix1 ⟨10112 * s.val + (j 0).val, cseg_lt s j⟩))
      = cntUpTo (w.dst d) (fun g _ => if g % 16 = s.val then 1#1 else 0#1) 20480)
    (O : CellTallies nD τ sig (HIx 2)) (W : Waits sig (HIx 2)) (hO : ∀ g, O g none = 0) :
    iprop(levAts (K (F := F)).L (K (F := F)).lev ∗ emp ∗ tileIn0 w d (cV L) (jV L)
        ∗ scopedBufs (thr d L) ∗ scopedSems0 (thr d L) ∗ owes (thr d L) O W)
      ⊢ wp frame (wpE (defs₀ (F := F)) 𝒱₀ (thr d L) none) Set.univ (body (F := F) L)
          fun _ => iprop(tileOut0 w d (cV L) (jV L) ∗ scopedBufs (thr d L) ∗ scopedSems0 (thr d L)
            ∗ ∃ W', ⌜∀ p ∈ W', p ∈ W ∨ p.2 = none⌝ ∗ owes (thr d L) O W') := by
  rw [scopedBufs_split hF d L, scopedSems0_split d L]
  unfold tileIn0 tileOut0
  by_cases h0 : (L 0).val = 0
  · have hc : k0_cond2 L = 1#1 := (cond2_iff L).2 h0
    rw [if_pos (show (cV L).val = 0 from h0), if_pos (show (cV L).val = 0 from h0)]
    iintro ⟨#Hlv, -, ⟨⟨Hx0, Hx1, Hx2, Hx3⟩, ⟨%fo, Ho0, Ho1, Ho2, Ho3⟩, Hs, Hd, ⟨%fc, HC⟩⟩, ⟨Hscr, HRB⟩, ⟨Hsem, HRS⟩, HO⟩
    iapply (wp_wand_r frame _ _)
    isplitl [Hx0 Hx1 Hx2 Hx3 Ho0 Ho1 Ho2 Ho3 Hs Hd HC Hscr Hsem HO]
    · iapply (core hF d L (shareTok fullShare 32 (tec (cV L) (jV L))) (w.xf d) (w.src d) (w.dst d) fo fc hsrc hdst O W hO)
      rw [hbmPre_first w d L hc]
      isplitr; · iexact Hlv
      isplitl [Hx0 Hx1 Hx2 Hx3 Ho0 Ho1 Ho2 Ho3 Hs Hd HC]
      · isplitl [Hx0]; · iexact Hx0
        isplitl [Hx1]; · iexact Hx1
        isplitl [Hx2]; · iexact Hx2
        isplitl [Hx3]; · iexact Hx3
        isplitl [Ho0]; · iexact Ho0
        isplitl [Ho1]; · iexact Ho1
        isplitl [Ho2]; · iexact Ho2
        isplitl [Ho3]; · iexact Ho3
        isplitl [Hs]; · iexact Hs
        isplitl [Hd]; · iexact Hd
        iexact HC
      isplitl [Hscr]; · iexact Hscr
      isplitl [Hsem]; · iexact Hsem
      iexact HO
    iintro %u ⟨Hpost, Hscr, Hsem, HW⟩
    ihave Hp := (Entails.of_eq (hbmPost_first w d L hc _)) $$ Hpost
    icases Hp with ⟨Hx0, Hx1, Hx2, Hx3, Hr0, Hr1, Hr2, Hr3, Hs, Hd, Hrc⟩
    ihave Ho0 := (outRow_seg w d L hagg 0) $$ Hr0
    ihave Ho1 := (outRow_seg w d L hagg 1) $$ Hr1
    ihave Ho2 := (outRow_seg w d L hagg 2) $$ Hr2
    ihave Ho3 := (outRow_seg w d L hagg 3) $$ Hr3
    ihave Hc := (outRow_cnt w d L hc hcnt) $$ Hrc
    isplitl [Hx0 Hx1 Hx2 Hx3 Ho0 Ho1 Ho2 Ho3 Hs Hd Hc]
    · isplitl [Hx0 Hx1 Hx2 Hx3]
      · isplitl [Hx0]; · iexact Hx0
        isplitl [Hx1]; · iexact Hx1
        isplitl [Hx2]; · iexact Hx2
        iexact Hx3
      isplitl [Ho0 Ho1 Ho2 Ho3]
      · isplitl [Ho0]; · iexact Ho0
        isplitl [Ho1]; · iexact Ho1
        isplitl [Ho2]; · iexact Ho2
        iexact Ho3
      isplitl [Hs]; · iexact Hs
      isplitl [Hd]; · iexact Hd
      iexact Hc
    isplitl [Hscr HRB]
    · isplitl [Hscr]; · iexact Hscr
      iexact HRB
    isplitl [Hsem HRS]
    · isplitl [Hsem]; · iexact Hsem
      iexact HRS
    iexact HW
  · have hc : ¬k0_cond2 L = 1#1 := fun h => h0 ((cond2_iff L).1 h)
    rw [if_neg (show ¬(cV L).val = 0 from h0), if_neg (show ¬(cV L).val = 0 from h0)]
    iintro ⟨#Hlv, -, ⟨⟨Hx0, Hx1, Hx2, Hx3⟩, ⟨%fo, Ho0, Ho1, Ho2, Ho3⟩, Hs, Hd, HC⟩, ⟨Hscr, HRB⟩, ⟨Hsem, HRS⟩, HO⟩
    iapply (wp_wand_r frame _ _)
    isplitl [Hx0 Hx1 Hx2 Hx3 Ho0 Ho1 Ho2 Ho3 Hs Hd HC Hscr Hsem HO]
    · iapply (core hF d L (shareTok fullShare 32 (tec (cV L) (jV L))) (w.xf d) (w.src d) (w.dst d) fo (w.cnt d) hsrc hdst O W hO)
      rw [hbmPre_other w d L hc]
      isplitr; · iexact Hlv
      isplitl [Hx0 Hx1 Hx2 Hx3 Ho0 Ho1 Ho2 Ho3 Hs Hd HC]
      · isplitl [Hx0]; · iexact Hx0
        isplitl [Hx1]; · iexact Hx1
        isplitl [Hx2]; · iexact Hx2
        isplitl [Hx3]; · iexact Hx3
        isplitl [Ho0]; · iexact Ho0
        isplitl [Ho1]; · iexact Ho1
        isplitl [Ho2]; · iexact Ho2
        isplitl [Ho3]; · iexact Ho3
        isplitl [Hs]; · iexact Hs
        isplitl [Hd]; · iexact Hd
        iexact HC
      isplitl [Hscr]; · iexact Hscr
      isplitl [Hsem]; · iexact Hsem
      iexact HO
    iintro %u ⟨Hpost, Hscr, Hsem, HW⟩
    ihave Hp := (Entails.of_eq (hbmPost_other w d L hc _)) $$ Hpost
    icases Hp with ⟨Hx0, Hx1, Hx2, Hx3, Hr0, Hr1, Hr2, Hr3, Hs, Hd, Hrc⟩
    ihave Ho0 := (outRow_seg w d L hagg 0) $$ Hr0
    ihave Ho1 := (outRow_seg w d L hagg 1) $$ Hr1
    ihave Ho2 := (outRow_seg w d L hagg 2) $$ Hr2
    ihave Ho3 := (outRow_seg w d L hagg 3) $$ Hr3

    isplitl [Hx0 Hx1 Hx2 Hx3 Ho0 Ho1 Ho2 Ho3 Hs Hd Hrc]
    · isplitl [Hx0 Hx1 Hx2 Hx3]
      · isplitl [Hx0]; · iexact Hx0
        isplitl [Hx1]; · iexact Hx1
        isplitl [Hx2]; · iexact Hx2
        iexact Hx3
      isplitl [Ho0 Ho1 Ho2 Ho3]
      · isplitl [Ho0]; · iexact Ho0
        isplitl [Ho1]; · iexact Ho1
        isplitl [Ho2]; · iexact Ho2
        iexact Ho3
      isplitl [Hs]; · iexact Hs
      isplitl [Hd]; · iexact Hd
      iexact Hrc
    isplitl [Hscr HRB]
    · isplitl [Hscr]; · iexact Hscr
      iexact HRB
    isplitl [Hsem HRS]
    · isplitl [Hsem]; · iexact Hsem
      iexact HRS
    iexact HW

end Cert.Proof.Agg1

end
-- ==== Proof.Agg2BodyDefs.lean ====
import proofs.«215722_g7507602833967_cont_sun_m_718_28_alg».proof.Proof.Common
import proofs.«215722_g7507602833967_cont_sun_m_718_28_alg».proof.Proof.ScatterSum
import Idealize.ShloMosaic.Lib.SparseCore.Ops

noncomputable section

namespace Cert.Proof.Agg2

open Cert.KernelIdeal Cert.KernelIdeal.Gen
open Cert.Proof.Sage Cert.Proof.ScatterSum

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

local notation "xW" => (Memref.whole Cert.KernelIdeal.main_v17_scv : Memref Cert.KernelIdeal.sig Kind.scVector Space.hbm Cert.KernelIdeal.S1294336 EltTy.f32)
local notation "sW" => (Memref.whole Cert.KernelIdeal.main_v5_scv : Memref Cert.KernelIdeal.sig Kind.scVector Space.hbm Cert.KernelIdeal.S327680 EltTy.i32)
local notation "dW" => (Memref.whole Cert.KernelIdeal.main_v7_scv : Memref Cert.KernelIdeal.sig Kind.scVector Space.hbm Cert.KernelIdeal.S327680 EltTy.i32)
local notation "oW" => (Memref.whole Cert.KernelIdeal.main_v18_scv : Memref Cert.KernelIdeal.sig Kind.scVector Space.hbm Cert.KernelIdeal.S1294336 EltTy.f32)

abbrev xLoc (d : Dev nD) : Loc nD τ sig := (SparseCore.T d).loc main_v17
abbrev sLoc (d : Dev nD) : Loc nD τ sig := (SparseCore.T d).loc main_v5
abbrev dLoc (d : Dev nD) : Loc nD τ sig := (SparseCore.T d).loc main_v7
abbrev oLoc (d : Dev nD) : Loc nD τ sig := (SparseCore.T d).loc main_v18

abbrev cV (L : grid2.Coords) : Fin τ.nSC := (L 0).castLE hcore2
abbrev jV (L : grid2.Coords) : Fin τ.nSub := (L 1).castLE hsub2

abbrev xSl (L : grid2.Coords) (r : Fin 4) : Memref sig .scVector .hbm S10112 .f32 :=
  (xW).slice (Rect.unit (s := S1294336) (k2_off1 L (BitVec.ofNat 32 (10112 * r.val))) S10112.size (k2_off1_inb L r)) (fun _ => rfl)

abbrev oSl (L : grid2.Coords) (r : Fin 4) : Memref sig .scVector .hbm S10112 .f32 :=
  (oW).slice (Rect.unit (s := S1294336) (k2_off1 L (BitVec.ofNat 32 (10112 * r.val))) S10112.size (k2_off1_inb L r)) (fun _ => rfl)

variable [FloatOps F]

abbrev xPc (d : Dev nD) (L : grid2.Coords) (r : Fin 4) (X : Buf (Elt F) (xLoc d)) : sProp 𝕄 :=
  xLoc d ↦[(xSl L r).view.set]{fullShare} X

abbrev oPc (d : Dev nD) (L : grid2.Coords) (r : Fin 4) (R : Buf (Elt F) (oLoc d)) : sProp 𝕄 :=
  oLoc d ↦[(oSl L r).view.set]{fullShare} R

def xRow (d : Dev nD) (L : grid2.Coords) (r : Fin 4) (X : Buf (Elt F) (xLoc d)) : Vec F S10112 .f32 :=
  (xSl L r).view.read (Elt F) X

def aggRow (d : Dev nD) (L : grid2.Coords) (r : Fin 4) (X : Buf (Elt F) (xLoc d)) (SI : Buf (Elt F) (sLoc d)) (DI : Buf (Elt F) (dLoc d)) :
    Vec F S10112 .f32 :=
  aggUpTo (xRow d L r X) SI DI 20480

def oAfter (d : Dev nD) (L : grid2.Coords) (r : Fin 4) (X : Buf (Elt F) (xLoc d)) (SI : Buf (Elt F) (sLoc d)) (DI : Buf (Elt F) (dLoc d))
    (R : Buf (Elt F) (oLoc d)) : Buf (Elt F) (oLoc d) :=
  (oSl L r).view.write (Elt F) R (aggRow d L r X SI DI) Finset.univ

end Cert.Proof.Agg2

end
-- ==== Proof.Agg2Bridge.lean ====
import proofs.«215722_g7507602833967_cont_sun_m_718_28_alg».proof.Proof.Agg2BodyDefs
import proofs.«215722_g7507602833967_cont_sun_m_718_28_alg».proof.Proof.LaunchRes

noncomputable section

namespace Cert.Proof.Agg2

open Cert.KernelIdeal Cert.KernelIdeal.Gen
open Cert.Proof.Sage Cert.Proof.ScatterSum

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MM F

theorem seg_lt (k : Fin 128) (j : SRow.Idx) : 10112 * k.val + (j 0).val < 1294336 := by
  have h1 := k.isLt
  have h2 : (j 0).val < 10112 := (j 0).isLt
  omega

theorem rect_row (L : grid2.Coords) (r : Fin 4) :
    Rect.unit (s := S1294336) (k2_off1 L (BitVec.ofNat 32 (10112 * r.val))) S10112.size (k2_off1_inb L r)
      = seg (tix (cV L) (jV L) r) := by
  unfold seg Rect.part Rect.block
  congr 1 <;> funext a
  · rw [k2_off1_eq]
    match a with
    | ⟨0, _⟩ =>
      show 647168 * (L 0).val + 40448 * (L 1).val + 10112 * r.val = (64 * (L 0).val + 4 * (L 1).val + r.val) * 10112
      omega
  · match a with
    | ⟨0, _⟩ => rfl

theorem set_xSl (L : grid2.Coords) (r : Fin 4) : (xSl L r).view.set = segSet (tix (cV L) (jV L) r) :=
  (View.set_slice_whole main_v17_scv _).trans ((congrArg (fun R : Rect _ => R.set) (rect_row L r)).trans (View.set_slice_whole main_v11_scv _).symm)
theorem set_oSl (L : grid2.Coords) (r : Fin 4) : (oSl L r).view.set = segSet (tix (cV L) (jV L) r) :=
  (View.set_slice_whole main_v18_scv _).trans ((congrArg (fun R : Rect _ => R.set) (rect_row L r)).trans (View.set_slice_whole main_v11_scv _).symm)

theorem emb_row (L : grid2.Coords) (r : Fin 4) (j : SRow.Idx) :
    (Rect.unit (s := S1294336) (k2_off1 L (BitVec.ofNat 32 (10112 * r.val))) S10112.size (k2_off1_inb L r)).emb j
      = (ix1 ⟨10112 * (tix (cV L) (jV L) r).val + (j 0).val, seg_lt _ j⟩ : S1294336.Idx) := by
  funext a
  refine Fin.ext ?_
  match a with
  | ⟨0, _⟩ =>
    show k2_off1 L (BitVec.ofNat 32 (10112 * r.val)) 0 + 1 * (j 0).val = 10112 * (64 * (L 0).val + 4 * (L 1).val + r.val) + (j 0).val
    rw [k2_off1_eq]
    show 647168 * (L 0).val + 40448 * (L 1).val + 10112 * r.val + 1 * (j 0).val = _
    omega

variable [FloatOps F]

theorem xPc_eq (w : Vals F) (d : Dev nD) (L : grid2.Coords) (r : Fin 4) :
    xPc d L r (w.hf d) = hfSegPts w d (tix (cV L) (jV L) r) := by
  show (xLoc d ↦[(xSl L r).view.set]{fullShare} w.hf d : sProp 𝕄) = _
  rw [set_xSl]

theorem oPc_eq (d : Dev nD) (L : grid2.Coords) (r : Fin 4) (R : Buf (Elt F) (oLoc d)) :
    oPc d L r R = agg2SegPts d (tix (cV L) (jV L) r) R := by
  show (oLoc d ↦[(oSl L r).view.set]{fullShare} R : sProp 𝕄) = _
  rw [set_oSl]

theorem oAfter_eq (w : Vals F) (d : Dev nD) (L : grid2.Coords)
    (hagg2 : ∀ (k : Fin 128), (fun j : SRow.Idx => w.agg2 d (ix1 ⟨10112 * k.val + (j 0).val, seg_lt k j⟩))
      = aggUpTo (fun j : SRow.Idx => w.hf d (ix1 ⟨10112 * k.val + (j 0).val, seg_lt k j⟩)) (w.src d) (w.dst d) 20480)
    (r : Fin 4) (R : Buf (Elt F) (oLoc d)) :
    oPc d L r (oAfter d L r (w.hf d) (w.src d) (w.dst d) R) = agg2SegPts d (tix (cV L) (jV L) r) (w.agg2 d) := by
  have hc : ∀ i ∈ (oSl L r).view.set, oAfter d L r (w.hf d) (w.src d) (w.dst d) R i = w.agg2 d i := by
    intro i hi
    obtain ⟨j, -, rfl⟩ := Finset.mem_map.mp hi
    have h1 : oAfter d L r (w.hf d) (w.src d) (w.dst d) R ((oSl L r).view.emb j) = aggRow d L r (w.hf d) (w.src d) (w.dst d) j := by
      unfold oAfter
      exact View.write_emb_of_mem _ _ (Finset.mem_univ j)
    have he : (oSl L r).view.emb j = (ix1 ⟨10112 * (tix (cV L) (jV L) r).val + (j 0).val, seg_lt _ j⟩ : S1294336.Idx) := emb_row L r j
    rw [h1, he, congrFun (hagg2 (tix (cV L) (jV L) r)) j]
    unfold aggRow xRow
    refine congrFun (congrArg (fun x => aggUpTo x (w.src d) (w.dst d) 20480) (funext fun j' => ?_)) j
    show w.hf d ((xSl L r).view.emb j') = _
    exact congrArg (w.hf d) (emb_row L r j')
  show (oLoc d ↦[(oSl L r).view.set]{fullShare} _ : sProp 𝕄) = _
  rw [pointsTo_congr hc, set_oSl]

def TileBody (F : FTy → Type) [FloatOps F] : Prop :=
  ∀ (hF : (K (F := F)).Facts) (d : Dev nD) (L : grid2.Coords)
    (X : Buf (Elt F) (xLoc d)) (R : Buf (Elt F) (oLoc d)) (SI : Buf (Elt F) (sLoc d)) (DI : Buf (Elt F) (dLoc d))
    (hS : ∀ j, (SI j).toNat < 10112) (hD : ∀ j, (DI j).toNat < 10112) (q : PosShare TreeShare)
    (O : CellTallies nD τ sig (HIx 2)) (W : Waits sig (HIx 2)) (hO : ∀ g, O g none = 0),
    iprop(levAts (K (F := F)).L (K (F := F)).lev
        ∗ (xPc d L 0 X ∗ xPc d L 1 X ∗ xPc d L 2 X ∗ xPc d L 3 X)
        ∗ (oPc d L 0 R ∗ oPc d L 1 R ∗ oPc d L 2 R ∗ oPc d L 3 R)
        ∗ (sLoc d ↦{q} SI) ∗ (dLoc d ↦{q} DI)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2__agg2_body L (Memref.whole main_v17_scv : Memref sig .scVector .hbm S1294336 .f32) (Memref.isWhole_whole _) (Memref.whole main_v5_scv : Memref sig .scVector .hbm S327680 .i32) (Memref.isWhole_whole _) (Memref.whole main_v7_scv : Memref sig .scVector .hbm S327680 .i32) (Memref.isWhole_whole _) (Memref.whole main_v18_scv : Memref sig .scVector .hbm S1294336 .f32) (Memref.isWhole_whole _)
            (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _)
            cc2_scoped0 cc2_scoped1 cc2_scoped2 cc2_scoped3 cc2_scoped4 cc2_scoped5 cc2_scoped6 cc2_scoped7 cc2_scoped8 cc2_scoped9)
          fun _ => iprop((xPc d L 0 X ∗ xPc d L 1 X ∗ xPc d L 2 X ∗ xPc d L 3 X)
            ∗ (oPc d L 0 (oAfter d L 0 X SI DI R) ∗ oPc d L 1 (oAfter d L 1 X SI DI R) ∗ oPc d L 2 (oAfter d L 2 X SI DI R) ∗ oPc d L 3 (oAfter d L 3 X SI DI R))
            ∗ (sLoc d ↦{q} SI) ∗ (dLoc d ↦{q} DI)
            ∗ scopedBufs (V d (cV L) (jV L)) ∗ scopedSems0 (V d (cV L) (jV L))
            ∗ ∃ W', ⌜∀ p ∈ W', p ∈ W ∨ p.2 = none⌝ ∗ owes (V d (cV L) (jV L)) O W')

theorem tile_body1_of (core : TileBody F) (w : Vals F) (d : Dev nD) (L : grid2.Coords) (hF : (K (F := F)).Facts)
    (hsrc : ∀ e, ((w.src d) e).toNat < 10112) (hdst : ∀ e, ((w.dst d) e).toNat < 10112)
    (hagg2 : ∀ (k : Fin 128), (fun j : SRow.Idx => w.agg2 d (ix1 ⟨10112 * k.val + (j 0).val, seg_lt k j⟩))
      = aggUpTo (fun j : SRow.Idx => w.hf d (ix1 ⟨10112 * k.val + (j 0).val, seg_lt k j⟩)) (w.src d) (w.dst d) 20480)
    (O : CellTallies nD τ sig (HIx 2)) (W : Waits sig (HIx 2)) (hO : ∀ g, O g none = 0) :
    iprop(levAts (K (F := F)).L (K (F := F)).lev ∗ emp ∗ tileIn1 w d (cV L) (jV L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2__agg2_body L (Memref.whole main_v17_scv : Memref sig .scVector .hbm S1294336 .f32) (Memref.isWhole_whole _) (Memref.whole main_v5_scv : Memref sig .scVector .hbm S327680 .i32) (Memref.isWhole_whole _) (Memref.whole main_v7_scv : Memref sig .scVector .hbm S327680 .i32) (Memref.isWhole_whole _) (Memref.whole main_v18_scv : Memref sig .scVector .hbm S1294336 .f32) (Memref.isWhole_whole _)
            (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _)
            cc2_scoped0 cc2_scoped1 cc2_scoped2 cc2_scoped3 cc2_scoped4 cc2_scoped5 cc2_scoped6 cc2_scoped7 cc2_scoped8 cc2_scoped9)
          fun _ => iprop(tileOut1 w d (cV L) (jV L) ∗ scopedBufs (V d (cV L) (jV L)) ∗ scopedSems0 (V d (cV L) (jV L))
            ∗ ∃ W', ⌜∀ p ∈ W', p ∈ W ∨ p.2 = none⌝ ∗ owes (V d (cV L) (jV L)) O W') := by
  unfold tileIn1 tileOut1
  iintro ⟨#Hlv, -, ⟨⟨Hx0, Hx1, Hx2, Hx3⟩, ⟨%fo, Ho0, Ho1, Ho2, Ho3⟩, Hs, Hd⟩, Hb, Hsm, HO⟩
  iapply (wp_wand_r frame _ _)
  isplitl [Hx0 Hx1 Hx2 Hx3 Ho0 Ho1 Ho2 Ho3 Hs Hd Hb Hsm HO]
  · iapply (core hF d L (w.hf d) fo (w.src d) (w.dst d) hsrc hdst (shareTok fullShare 32 (tec (cV L) (jV L))) O W hO)
    rw [xPc_eq w d L 0, xPc_eq w d L 1, xPc_eq w d L 2, xPc_eq w d L 3, oPc_eq d L 0, oPc_eq d L 1, oPc_eq d L 2, oPc_eq d L 3]
    isplitr; · iexact Hlv
    isplitl [Hx0 Hx1 Hx2 Hx3]
    · isplitl [Hx0]; · iexact Hx0
      isplitl [Hx1]; · iexact Hx1
      isplitl [Hx2]; · iexact Hx2
      iexact Hx3
    isplitl [Ho0 Ho1 Ho2 Ho3]
    · isplitl [Ho0]; · iexact Ho0
      isplitl [Ho1]; · iexact Ho1
      isplitl [Ho2]; · iexact Ho2
      iexact Ho3
    isplitl [Hs]; · iexact Hs
    isplitl [Hd]; · iexact Hd
    isplitl [Hb]; · iexact Hb
    isplitl [Hsm]; · iexact Hsm
    iexact HO
  iintro %u ⟨⟨Hx0, Hx1, Hx2, Hx3⟩, ⟨Hr0, Hr1, Hr2, Hr3⟩, Hs, Hd, Hb, Hsm, HW⟩
  ihave Hx0' := (Entails.of_eq (xPc_eq w d L 0)) $$ Hx0
  ihave Hx1' := (Entails.of_eq (xPc_eq w d L 1)) $$ Hx1
  ihave Hx2' := (Entails.of_eq (xPc_eq w d L 2)) $$ Hx2
  ihave Hx3' := (Entails.of_eq (xPc_eq w d L 3)) $$ Hx3
  ihave Ho0 := (Entails.of_eq (oAfter_eq w d L hagg2 0 fo)) $$ Hr0
  ihave Ho1 := (Entails.of_eq (oAfter_eq w d L hagg2 1 fo)) $$ Hr1
  ihave Ho2 := (Entails.of_eq (oAfter_eq w d L hagg2 2 fo)) $$ Hr2
  ihave Ho3 := (Entails.of_eq (oAfter_eq w d L hagg2 3 fo)) $$ Hr3
  isplitl [Hx0' Hx1' Hx2' Hx3' Ho0 Ho1 Ho2 Ho3 Hs Hd]
  · isplitl [Hx0' Hx1' Hx2' Hx3']
    · isplitl [Hx0']; · iexact Hx0'
      isplitl [Hx1']; · iexact Hx1'
      isplitl [Hx2']; · iexact Hx2'
      iexact Hx3'
    isplitl [Ho0 Ho1 Ho2 Ho3]
    · isplitl [Ho0]; · iexact Ho0
      isplitl [Ho1]; · iexact Ho1
      isplitl [Ho2]; · iexact Ho2
      iexact Ho3
    isplitl [Hs]; · iexact Hs
    iexact Hd
  isplitl [Hb]; · iexact Hb
  isplitl [Hsm]; · iexact Hsm
  iexact HW

end Cert.Proof.Agg2

end
-- ==== Proof.Launch.lean ====
import proofs.«215722_g7507602833967_cont_sun_m_718_28_alg».proof.Proof.LaunchSeg
import proofs.«215722_g7507602833967_cont_sun_m_718_28_alg».proof.Proof.LaunchOk
import proofs.«215722_g7507602833967_cont_sun_m_718_28_alg».proof.Proof.LaunchHostFacts
import proofs.«215722_g7507602833967_cont_sun_m_718_28_alg».proof.Proof.KernelPost
import proofs.«215722_g7507602833967_cont_sun_m_718_28_alg».proof.Proof.Tc2Region
import proofs.«215722_g7507602833967_cont_sun_m_718_28_alg».proof.Proof.Agg1Bridge
import proofs.«215722_g7507602833967_cont_sun_m_718_28_alg».proof.Proof.Agg2Bridge
import proofs.«215722_g7507602833967_cont_sun_m_718_28_alg».proof.Proof.Gen.KernelIdeal.Launch
import Idealize.ShloMosaic.Lib.SparseCore.Launch
import Idealize.ShloMosaic.Lib.Pipeline.Sound

noncomputable section

namespace Cert.Proof.Sage

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_congr seq after wp_seq)
open Idealize.ShloMosaic.Tactic
open Idealize.ShloMosaic.ValueIdx
open Cert.Proof.KernelTerm Cert.Proof.ScatterSum

variable {F : FTy → Type}

local notation "𝕄" => MM F

def coordsV0 (c : Fin (grid0.bound 0)) (s : Fin (grid0.bound 1)) : grid0.Coords :=
  fun | 0 => c | 1 => s | ⟨_ + 2, h⟩ => absurd h (Nat.not_lt.2 (Nat.le_add_left _ _))
def coordsV2 (c : Fin (grid2.bound 0)) (s : Fin (grid2.bound 1)) : grid2.Coords :=
  fun | 0 => c | 1 => s | ⟨_ + 2, h⟩ => absurd h (Nat.not_lt.2 (Nat.le_add_left _ _))

section Obl
variable [FloatOps F]

theorem defs₀_vector0 (c : Fin τ.nSC) (s : Fin τ.nSub) :
    defs₀ (F := F) (.scVector c s) 0 ()
      = SparseCore.onTile hcore0 hsub0 (fun c s => cc0__agg1_body (coordsV0 c s) (Memref.whole main_v11_scv) (Memref.isWhole_whole _) (Memref.whole main_v5_scv) (Memref.isWhole_whole _) (Memref.whole main_v7_scv) (Memref.isWhole_whole _) (Memref.whole main_v12_0_scv) (Memref.isWhole_whole _) (Memref.whole main_v12_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scoped0 cc0_scoped1 cc0_scoped2 cc0_scoped3 cc0_scoped4 cc0_scoped5 cc0_scoped6 cc0_scoped7 cc0_scoped8 cc0_scoped9 cc0_scoped10) ⟨⟩ c s := rfl
theorem defs₀_vector2 (c : Fin τ.nSC) (s : Fin τ.nSub) :
    defs₀ (F := F) (.scVector c s) 2 ()
      = SparseCore.onTile hcore2 hsub2 (fun c s => cc2__agg2_body (coordsV2 c s) (Memref.whole main_v17_scv) (Memref.isWhole_whole _) (Memref.whole main_v5_scv) (Memref.isWhole_whole _) (Memref.whole main_v7_scv) (Memref.isWhole_whole _) (Memref.whole main_v18_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scoped0 cc2_scoped1 cc2_scoped2 cc2_scoped3 cc2_scoped4 cc2_scoped5 cc2_scoped6 cc2_scoped7 cc2_scoped8 cc2_scoped9) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Obl

section TileObl
variable [FloatOps F] (w : Vals F)

theorem tileObl0 (core0 : Cert.Proof.Agg1.TileCore F) (hw : ValsOK w) : (K (F := F)).TileObl (D (F := F)) 𝒱 (P w) v₀ 0 := by
  intro d c i O W hO _ _
  simp only [P_ox, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  exact (Cert.Proof.Agg1.tile_body0_of core0 w d (coordsV0 ⟨_, hc.1⟩ ⟨_, hc.2⟩) facts (hw.hsrc d) (hw.hdst d) (hw.hagg d) (hw.hcnt d) O W hO).trans (wp_mono frame _ _ fun _ => obl_post)

theorem tileObl1 (core1 : Cert.Proof.Agg2.TileBody F) (hw : ValsOK w) : (K (F := F)).TileObl (D (F := F)) 𝒱 (P w) v₀ 1 := by
  intro d c i O W hO _ _
  simp only [P_ox, add_zero]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [defs₀_vector2]; simp only [SparseCore.onTile, hc, and_self, ↓reduceDIte]
  exact (Cert.Proof.Agg2.tile_body1_of core1 w d (coordsV2 ⟨_, hc.1⟩ ⟨_, hc.2⟩) facts (hw.hsrc d) (hw.hdst d) (hw.hagg2 d) O W hO).trans (wp_mono frame _ _ fun _ => obl_post)

end TileObl

def u₀ : UU := (initOf (K (F := F)).hsCells (K (F := F)).hsToks,
  (initOf (Pipeline.cells (nD := nD) (τ := τ) cfgs cellOf_inj) (Pipeline.launchToks (nD := nD) (τ := τ) cfgs cellOf_inj), 1))

def G (d : Dev nD) : sProp 𝕄 :=
  iprop((bigSep Finset.univ fun p : Fin 2 => Pipeline.cellsGhost cfgs (EP (F := F)) p d) ∗ (bigSep Finset.univ fun p : Fin 2 => Pipeline.toksInit cfgs (EP (F := F)) p d))

theorem bigSep_emp' {I : Type} (s : Finset I) : (bigSep s fun _ => iprop(emp)) = (iprop(emp) : sProp 𝕄) := bigSep_emp_const s

theorem hu₀ (w : Vals F) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P w).x q thr) := by
  unfold u₀
  iintro Hu
  ihave H := (ownU_pair _ _) $$ Hu
  icases H with ⟨HH, HR⟩
  ihave H2 := (own_pair_emb embR _ _) $$ HR
  icases H2 with ⟨HP, -⟩
  imod (Pipeline.fund_ghost cfgs (EP (F := F)) cellOf_inj) $$ [HP] with ⟨Hc, Ht⟩
  · unfold EP; iexact HP
  imodintro
  isplitl [HH]; · iexact HH
  isplitl [Hc Ht]
  · unfold G; rw [bigSep_sep']
    isplitl [Hc]; · iexact Hc
    iexact Ht
  simp only [P_x]
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

theorem held_agree (c : Thread nD τ) (A : Finset (DevRef τ sig)) (W : Valuation τ sig (Elt F)) (s' : Phys nD τ sig (Elt F)) :
    iprop((held c A W : sProp 𝕄) ∗ SI s') ⊢ (⌜∀ b ∈ A, s'.mem.mem (c.1, b) = W b⌝ : sProp 𝕄) := by
  induction A using Finset.induction_on with
  | empty => iintro -; ipureintro; intro b hb; exact absurd hb (Finset.notMem_empty _)
  | insert b A hb ih =>
    unfold held at ih ⊢
    rw [SparseCore.bigSep_insert' hb]
    iintro ⟨⟨Hb, HA⟩, HSI⟩
    ihave H := (persistent_entails_right (SI_pointsTo_agree (st := s') (ℓ := (c.1, b)) (I := Finset.univ) (q := fullShare) (f := W b))) $$ [HSI Hb]
    · isplitl [HSI] <;> iassumption
    icases H with ⟨%h1, HSI, -⟩
    ihave H2 := ih $$ [HA HSI]
    · isplitl [HA] <;> iassumption
    icases H2 with %h2
    ipureintro
    intro b' hb'
    rcases Finset.mem_insert.mp hb' with rfl | hb'
    · exact funext fun i => h1 i (Finset.mem_univ i)
    · exact h2 b' hb'

section Calls
variable [FloatOps F] (m : (ℓ : Loc nD τ sig) → Buf (Elt F) ℓ) (d : Dev nD)

def T5 : Finset (DevRef τ sig) := {dr main_v11, dr main_v12_0, dr main_v5, dr main_v7, dr main_v12_1}

def T4 : Finset (DevRef τ sig) := {dr main_v17, dr main_v18, dr main_v5, dr main_v7}

omit [FloatOps F] in
theorem T5_sub : T5 ⊆ SS := by
  intro b hb; simp only [T5, Finset.mem_insert, Finset.mem_singleton] at hb
  rcases hb with rfl | rfl | rfl | rfl | rfl <;> exact mem_SS _ (by decide)
omit [FloatOps F] in
theorem T4_sub : T4 ⊆ SS := by
  intro b hb; simp only [T4, Finset.mem_insert, Finset.mem_singleton] at hb
  rcases hb with rfl | rfl | rfl | rfl <;> exact mem_SS _ (by decide)

omit [FloatOps F] in
theorem held_T5 (W : Valuation τ sig (Elt F)) : (held (T d) T5 W : sProp 𝕄) = iprop((xfLoc d ↦{fullShare} W (dr main_v11)) ∗ (aggLoc d ↦{fullShare} W (dr main_v12_0))
    ∗ (srcLoc d ↦{fullShare} W (dr main_v5)) ∗ (dstLoc d ↦{fullShare} W (dr main_v7)) ∗ (cntLoc d ↦{fullShare} W (dr main_v12_1))) := by
  unfold held T5
  rw [SparseCore.bigSep_insert' (by decide), SparseCore.bigSep_insert' (by decide), SparseCore.bigSep_insert' (by decide),
    SparseCore.bigSep_insert' (by decide), bigSep_singleton]
omit [FloatOps F] in
theorem held_T4 (W : Valuation τ sig (Elt F)) : (held (T d) T4 W : sProp 𝕄) = iprop((hfLoc d ↦{fullShare} W (dr main_v17)) ∗ (agg2Loc d ↦{fullShare} W (dr main_v18))
    ∗ (srcLoc d ↦{fullShare} W (dr main_v5)) ∗ (dstLoc d ↦{fullShare} W (dr main_v7))) := by
  unfold held T4
  rw [SparseCore.bigSep_insert' (by decide), SparseCore.bigSep_insert' (by decide), SparseCore.bigSep_insert' (by decide), bigSep_singleton]

theorem V2_xf : V2 m d (dr main_v11) = (wOf m).xf d := by
  unfold V2; rw [Function.update_of_ne (by decide), Function.update_of_ne (by decide)]; exact V1_xf m d
theorem V2_src : V2 m d (dr main_v5) = (wOf m).src d := by
  unfold V2; rw [Function.update_of_ne (by decide), Function.update_of_ne (by decide)]; exact V1_src m d
theorem V2_dst : V2 m d (dr main_v7) = (wOf m).dst d := by
  unfold V2; rw [Function.update_of_ne (by decide), Function.update_of_ne (by decide)]; exact V1_dst m d
theorem V2_agg : V2 m d (dr main_v12_0) = (wOf m).agg d := by
  unfold V2; rw [Function.update_of_ne (by decide), Function.update_self]
theorem V2_cnt : V2 m d (dr main_v12_1) = (wOf m).cnt d := by
  unfold V2; rw [Function.update_self]
theorem V2_rest : (held (T d) (SS \ T5) (V2 m d) : sProp 𝕄) = held (T d) (SS \ T5) (V1 m d) :=
  held_congr (T d) fun b hb => by
    have hb' := (Finset.mem_sdiff.mp hb).2
    have h1 : b ≠ dr main_v12_1 := fun e => hb' (e ▸ by decide)
    have h0 : b ≠ dr main_v12_0 := fun e => hb' (e ▸ by decide)
    unfold V2; rw [Function.update_of_ne h1, Function.update_of_ne h0]

theorem V6_hf : V6 m d (dr main_v17) = (wOf m).hf d := by
  unfold V6; rw [Function.update_of_ne (by decide)]; exact V5_hf m d
theorem V6_src : V6 m d (dr main_v5) = (wOf m).src d := by
  unfold V6; rw [Function.update_of_ne (by decide)]; exact V5_src m d
theorem V6_dst : V6 m d (dr main_v7) = (wOf m).dst d := by
  unfold V6; rw [Function.update_of_ne (by decide)]; exact V5_dst m d
theorem V6_agg2 : V6 m d (dr main_v18) = (wOf m).agg2 d := by
  unfold V6; rw [Function.update_self]
theorem V6_rest : (held (T d) (SS \ T4) (V6 m d) : sProp 𝕄) = held (T d) (SS \ T4) (V5 m d) :=
  held_congr (T d) fun b hb => by
    have hb' := (Finset.mem_sdiff.mp hb).2
    have h0 : b ≠ dr main_v18 := fun e => hb' (e ▸ by decide)
    unfold V6; rw [Function.update_of_ne h0]

theorem call0 (κ : GSem nD τ sig → ℕ) {Φ : PUnit → sProp 𝕄} :
    iprop((K (F := F)).ctx EH (P (wOf m)) κ ∗ (K (F := F)).tcSt EH d 0 ∗ (held (T d) SS (V1 m d) : sProp 𝕄)
        ∗ (((K (F := F)).tcSt EH d 1 ∗ (held (T d) SS (V2 m d) : sProp 𝕄)) -∗ Φ ⟨⟩))
      ⊢ wp frame (wpE ((K (F := F)).defs (D (F := F))) 𝒱 (SparseCore.T d) none) Set.univ ((K (F := F)).run d 0) Φ := by
  rw [StableHlo.held_sub_split (T d) T5_sub (V1 m d), StableHlo.held_sub_split (T d) T5_sub (V2 m d), held_T5, held_T5, V2_rest,
    V1_xf, V1_src, V1_dst, V2_xf, V2_src, V2_dst, V2_agg, V2_cnt]
  iintro ⟨#Hctx, Hst, ⟨⟨Hx, Ha, Hs, Hd, Hc⟩, Hrest⟩, Hk⟩
  ihave Hin := (st0_intro (F := F) d (wOf m)) $$ [Hx Ha Hs Hd Hc]
  · isplitl [Hx]; · iexact Hx
    isplitl [Ha]; · iexists _; iexact Ha
    isplitl [Hs]; · iexact Hs
    isplitl [Hd]; · iexact Hd
    iexists _; iexact Hc
  icases Hin with ⟨Hrem, Hst0⟩
  iapply ((K (F := F)).wp_run (D (F := F)) 𝒱 (EH := EH) (P := P (wOf m)) κ d 0) $$ [Hst Hst0 Hrem Hrest Hk]
  isplitr; · iexact Hctx
  isplitl [Hst]; · iexact Hst
  isplitl [Hst0]; · iexact Hst0
  iintro ⟨Hst, Hdn⟩
  ihave Hout := (dn0_elim (F := F) d (wOf m)) $$ [Hrem Hdn]
  · isplitl [Hrem] <;> iassumption
  icases Hout with ⟨Hx, Ha, Hs, Hd, Hc⟩
  iapply Hk
  isplitl [Hst]; · iexact Hst
  isplitl [Hx Ha Hs Hd Hc]
  · isplitl [Hx]; · iexact Hx
    isplitl [Ha]; · iexact Ha
    isplitl [Hs]; · iexact Hs
    isplitl [Hd]; · iexact Hd
    iexact Hc
  iexact Hrest

theorem call1 (κ : GSem nD τ sig → ℕ) {Φ : PUnit → sProp 𝕄} :
    iprop((K (F := F)).ctx EH (P (wOf m)) κ ∗ (K (F := F)).tcSt EH d 1 ∗ (held (T d) SS (V5 m d) : sProp 𝕄)
        ∗ (((K (F := F)).tcSt EH d 2 ∗ (held (T d) SS (V6 m d) : sProp 𝕄)) -∗ Φ ⟨⟩))
      ⊢ wp frame (wpE ((K (F := F)).defs (D (F := F))) 𝒱 (SparseCore.T d) none) Set.univ ((K (F := F)).run d 1) Φ := by
  rw [StableHlo.held_sub_split (T d) T4_sub (V5 m d), StableHlo.held_sub_split (T d) T4_sub (V6 m d), held_T4, held_T4, V6_rest,
    V5_hf, V5_src, V5_dst, V6_hf, V6_src, V6_dst, V6_agg2]
  iintro ⟨#Hctx, Hst, ⟨⟨Hx, Ha, Hs, Hd⟩, Hrest⟩, Hk⟩
  ihave Hin := (st1_intro (F := F) d (wOf m)) $$ [Hx Ha Hs Hd]
  · isplitl [Hx]; · iexact Hx
    isplitl [Ha]; · iexists _; iexact Ha
    isplitl [Hs]; · iexact Hs
    iexact Hd
  icases Hin with ⟨Hrem, Hst0⟩
  iapply ((K (F := F)).wp_run (D (F := F)) 𝒱 (EH := EH) (P := P (wOf m)) κ d 1) $$ [Hst Hst0 Hrem Hrest Hk]
  isplitr; · iexact Hctx
  isplitl [Hst]; · iexact Hst
  isplitl [Hst0]; · iexact Hst0
  iintro ⟨Hst, Hdn⟩
  ihave Hout := (dn1_elim (F := F) d (wOf m)) $$ [Hrem Hdn]
  · isplitl [Hrem] <;> iassumption
  icases Hout with ⟨Hx, Ha, Hs, Hd⟩
  iapply Hk
  isplitl [Hst]; · iexact Hst
  isplitl [Hx Ha Hs Hd]
  · isplitl [Hx]; · iexact Hx
    isplitl [Ha]; · iexact Ha
    isplitl [Hs]; · iexact Hs
    iexact Hd
  iexact Hrest

end Calls

section Regions
variable [FloatOps F] (m : (ℓ : Loc nD τ sig) → Buf (Elt F) ℓ) (d : Dev nD)

omit [FloatOps F] in

theorem Otc_none (d : Dev nD) (n : ℕ) (g : GSem nD τ sig) : (K (F := F)).Otc d n g none = 0 := by
  by_contra h
  have := (K (F := F)).lev_of_Otc_pos (Nat.pos_of_ne_zero h); rw [SparseCore.Cfg.lev_none] at this; omega

def T7 : Finset (DevRef τ sig) := {dr main_v10, dr main_v13, dr main_v14, dr main_arg2, dr main_v15, dr main_arg4, dr main_v16}
omit [FloatOps F] in
theorem T7_sub : T7 ⊆ SS := by
  intro b hb; simp only [T7, Finset.mem_insert, Finset.mem_singleton] at hb
  rcases hb with rfl | rfl | rfl | rfl | rfl | rfl | rfl <;> exact mem_SS _ (by decide)
omit [FloatOps F] in
theorem held_T7 (W : Valuation τ sig (Elt F)) : (held (T d) T7 W : sProp 𝕄) = iprop(((SparseCore.T d).loc main_v10 ↦{fullShare} W (dr main_v10)) ∗ ((SparseCore.T d).loc main_v13 ↦{fullShare} W (dr main_v13)) ∗ ((SparseCore.T d).loc main_v14 ↦{fullShare} W (dr main_v14)) ∗ ((SparseCore.T d).loc main_arg2 ↦{fullShare} W (dr main_arg2)) ∗ ((SparseCore.T d).loc main_v15 ↦{fullShare} W (dr main_v15)) ∗ ((SparseCore.T d).loc main_arg4 ↦{fullShare} W (dr main_arg4)) ∗ ((SparseCore.T d).loc main_v16 ↦{fullShare} W (dr main_v16))) := by
  unfold held T7
  rw [SparseCore.bigSep_insert' (by decide), SparseCore.bigSep_insert' (by decide), SparseCore.bigSep_insert' (by decide), SparseCore.bigSep_insert' (by decide), SparseCore.bigSep_insert' (by decide), SparseCore.bigSep_insert' (by decide), bigSep_singleton]
theorem V4_o0 : V4 m d (dr main_v10) = (xT (aX m d)) := by
  unfold V4; rw [Function.update_of_ne (by decide)]; exact V3_xT m d
theorem V4_o1 : V4 m d (dr main_v13) = (agg1 (aX m d) (aE m d)) := by
  unfold V4; rw [Function.update_of_ne (by decide)]; exact V3_agg1 m d
theorem V4_o2 : V4 m d (dr main_v14) = (cnt16 (aE m d)) := by
  unfold V4; rw [Function.update_of_ne (by decide)]; exact V3_cnt16 m d
theorem V4_o3 : V4 m d (dr main_arg2) = (aW1l m d) := by
  unfold V4; rw [Function.update_of_ne (by decide)]; exact V3_W1l m d
theorem V4_o4 : V4 m d (dr main_v15) = (biasCol (aB1l m d)) := by
  unfold V4; rw [Function.update_of_ne (by decide)]; exact V3_b1 m d
theorem V4_o5 : V4 m d (dr main_arg4) = (aW1r m d) := by
  unfold V4; rw [Function.update_of_ne (by decide)]; exact V3_W1r m d
theorem V4_res : V4 m d (dr main_v16) = h1T (aX m d) (aE m d) (aW1l m d) (aB1l m d) (aW1r m d) := by
  unfold V4; rw [Function.update_self]
theorem V4_rest : (held (T d) (SS \ T7) (V4 m d) : sProp 𝕄) = held (T d) (SS \ T7) (V3 m d) :=
  held_congr (T d) fun b hb => by
    have hb' := (Finset.mem_sdiff.mp hb).2
    have h0 : b ≠ dr main_v16 := fun e => hb' (e ▸ by decide)
    unfold V4; rw [Function.update_of_ne h0]

attribute [local irreducible] aggUpTo cntUpTo in

theorem region0 (κ : GSem nD τ sig → ℕ) {Φ : PUnit → sProp 𝕄} :
    iprop((K (F := F)).ctx EH (P (wOf m)) κ ∗ (K (F := F)).tcSt EH d 1 ∗ boundary (SparseCore.T d : Thread nD τ) ∗ (held (T d) SS (V3 m d) : sProp 𝕄)
        ∗ Pipeline.cellsGhost cfgs (EP (F := F)) 0 d ∗ Pipeline.toksInit cfgs (EP (F := F)) 0 d
        ∗ (((K (F := F)).tcSt EH d 1 ∗ boundary (SparseCore.T d : Thread nD τ) ∗ (held (T d) SS (V4 m d) : sProp 𝕄)) -∗ Φ ⟨⟩))
      ⊢ wp frame (wpE ((K (F := F)).defs (D (F := F))) 𝒱 (SparseCore.T d) none) Set.univ (Prog.lift (.customCall (SparseCore.inner (Pipeline.entry 0)) ())) Φ := by
  unfold SparseCore.Cfg.tcSt
  rw [StableHlo.held_sub_split (T d) T7_sub (V3 m d), StableHlo.held_sub_split (T d) T7_sub (V4 m d), held_T7, held_T7, V4_rest,
    V3_xT m d, V3_agg1 m d, V3_cnt16 m d, V3_W1l m d, V3_b1 m d, V3_W1r m d, V4_o0 m d, V4_o1 m d, V4_o2 m d, V4_o3 m d, V4_o4 m d, V4_o5 m d, V4_res m d]
  iintro ⟨#Hctx, ⟨⟨%W, %hW, HO⟩, Hst⟩, Hb, ⟨⟨H0, H1, H2, H3, H4, H5, Hr⟩, Hrest⟩, Hcg, Hti, Hk⟩
  ihave Hlev := ((K (F := F)).ctx_levAts κ) $$ Hctx
  iapply (tc1_region_main (F := F) (K (F := F)).lev (by sl_refines_lev) d ((K (F := F)).Otc d 1) (Otc_none d 1)
      {p | (K (F := F)).lev ((SparseCore.T d : Thread nD τ), p.1) p.2 ≤ 8 * 1} (xT (aX m d)) (agg1 (aX m d) (aE m d)) (cnt16 (aE m d)) (aW1l m d) (biasCol (aB1l m d)) (aW1r m d) Φ) $$ [Hb Hlev Hcg Hti H0 H1 H2 H3 H4 H5 Hr HO Hst Hrest Hk]
  isplitl [Hb]; · iexact Hb
  isplitl [Hlev]; · iexact Hlev
  isplitl [Hcg]; · iexact Hcg
  isplitl [Hti]; · iexact Hti
  isplitl [H0]; · iexact H0
  isplitl [H1]; · iexact H1
  isplitl [H2]; · iexact H2
  isplitl [H3]; · iexact H3
  isplitl [H4]; · iexact H4
  isplitl [H5]; · iexact H5
  isplitl [Hr]; · iexists _; iexact Hr
  isplitl [HO]
  · iexists W; isplitr
    · ipureintro; exact fun p hp => hW p hp
    · iexact HO
  iintro ⟨Hb, H0, H1, H2, H3, H4, H5, Hr, ⟨%W', %hW', HO⟩⟩
  iapply Hk
  isplitl [HO Hst]
  · isplitl [HO]
    · iexists W'; isplitr
      · ipureintro
        intro p hp
        rcases hW' hp with h | ⟨_, _, rfl⟩
        · exact h
        · show (K (F := F)).lev _ none ≤ _; rw [SparseCore.Cfg.lev_none]; exact Nat.zero_le _
      · iexact HO
    · iexact Hst
  isplitl [Hb]; · iexact Hb
  isplitl [H0 H1 H2 H3 H4 H5 Hr]
  · isplitl [H0]; · iexact H0
    isplitl [H1]; · iexact H1
    isplitl [H2]; · iexact H2
    isplitl [H3]; · iexact H3
    isplitl [H4]; · iexact H4
    isplitl [H5]; · iexact H5
    iexact Hr
  iexact Hrest

def T9 : Finset (DevRef τ sig) := {dr main_v16, dr main_v19, dr main_v14, dr main_arg5, dr main_v20, dr main_arg7, dr main_arg8, dr main_v21, dr main_v22}
omit [FloatOps F] in
theorem T9_sub : T9 ⊆ SS := by
  intro b hb; simp only [T9, Finset.mem_insert, Finset.mem_singleton] at hb
  rcases hb with rfl | rfl | rfl | rfl | rfl | rfl | rfl | rfl | rfl <;> exact mem_SS _ (by decide)
omit [FloatOps F] in
theorem held_T9 (W : Valuation τ sig (Elt F)) : (held (T d) T9 W : sProp 𝕄) = iprop(((SparseCore.T d).loc main_v16 ↦{fullShare} W (dr main_v16)) ∗ ((SparseCore.T d).loc main_v19 ↦{fullShare} W (dr main_v19)) ∗ ((SparseCore.T d).loc main_v14 ↦{fullShare} W (dr main_v14)) ∗ ((SparseCore.T d).loc main_arg5 ↦{fullShare} W (dr main_arg5)) ∗ ((SparseCore.T d).loc main_v20 ↦{fullShare} W (dr main_v20)) ∗ ((SparseCore.T d).loc main_arg7 ↦{fullShare} W (dr main_arg7)) ∗ ((SparseCore.T d).loc main_arg8 ↦{fullShare} W (dr main_arg8)) ∗ ((SparseCore.T d).loc main_v21 ↦{fullShare} W (dr main_v21)) ∗ ((SparseCore.T d).loc main_v22 ↦{fullShare} W (dr main_v22))) := by
  unfold held T9
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
theorem V8_o0 : V8 m d (dr main_v16) = (h1T (aX m d) (aE m d) (aW1l m d) (aB1l m d) (aW1r m d)) := by
  unfold V8; rw [Function.update_of_ne (by decide)]; exact V7_h1T m d
theorem V8_o1 : V8 m d (dr main_v19) = (agg2 (aX m d) (aE m d) (aW1l m d) (aB1l m d) (aW1r m d)) := by
  unfold V8; rw [Function.update_of_ne (by decide)]; exact V7_agg2 m d
theorem V8_o2 : V8 m d (dr main_v14) = (cnt16 (aE m d)) := by
  unfold V8; rw [Function.update_of_ne (by decide)]; exact V7_cnt16 m d
theorem V8_o3 : V8 m d (dr main_arg5) = (aW2l m d) := by
  unfold V8; rw [Function.update_of_ne (by decide)]; exact V7_W2l m d
theorem V8_o4 : V8 m d (dr main_v20) = (biasCol (aB2l m d)) := by
  unfold V8; rw [Function.update_of_ne (by decide)]; exact V7_b2 m d
theorem V8_o5 : V8 m d (dr main_arg7) = (aW2r m d) := by
  unfold V8; rw [Function.update_of_ne (by decide)]; exact V7_W2r m d
theorem V8_o6 : V8 m d (dr main_arg8) = (aWlin m d) := by
  unfold V8; rw [Function.update_of_ne (by decide)]; exact V7_Wlin m d
theorem V8_o7 : V8 m d (dr main_v21) = (biasRow (aBlin m d)) := by
  unfold V8; rw [Function.update_of_ne (by decide)]; exact V7_blin m d
theorem V8_res : V8 m d (dr main_v22) = outPad (aX m d) (aE m d) (aW1l m d) (aB1l m d) (aW1r m d) (aW2l m d) (aB2l m d) (aW2r m d) (aWlin m d) (aBlin m d) := by
  unfold V8; rw [Function.update_self]
theorem V8_rest : (held (T d) (SS \ T9) (V8 m d) : sProp 𝕄) = held (T d) (SS \ T9) (V7 m d) :=
  held_congr (T d) fun b hb => by
    have hb' := (Finset.mem_sdiff.mp hb).2
    have h0 : b ≠ dr main_v22 := fun e => hb' (e ▸ by decide)
    unfold V8; rw [Function.update_of_ne h0]

attribute [local irreducible] aggUpTo cntUpTo in
set_option maxHeartbeats 1000000 in

theorem region1 (κ : GSem nD τ sig → ℕ) {Φ : PUnit → sProp 𝕄} :
    iprop((K (F := F)).ctx EH (P (wOf m)) κ ∗ (K (F := F)).tcSt EH d 2 ∗ boundary (SparseCore.T d : Thread nD τ) ∗ (held (T d) SS (V7 m d) : sProp 𝕄)
        ∗ Pipeline.cellsGhost cfgs (EP (F := F)) 1 d ∗ Pipeline.toksInit cfgs (EP (F := F)) 1 d
        ∗ (((K (F := F)).tcSt EH d 2 ∗ boundary (SparseCore.T d : Thread nD τ) ∗ (held (T d) SS (V8 m d) : sProp 𝕄)) -∗ Φ ⟨⟩))
      ⊢ wp frame (wpE ((K (F := F)).defs (D (F := F))) 𝒱 (SparseCore.T d) none) Set.univ (Prog.lift (.customCall (SparseCore.inner (Pipeline.entry 1)) ())) Φ := by
  unfold SparseCore.Cfg.tcSt
  rw [StableHlo.held_sub_split (T d) T9_sub (V7 m d), StableHlo.held_sub_split (T d) T9_sub (V8 m d), held_T9, held_T9, V8_rest,
    V7_h1T m d, V7_agg2 m d, V7_cnt16 m d, V7_W2l m d, V7_b2 m d, V7_W2r m d, V7_Wlin m d, V7_blin m d, V8_o0 m d, V8_o1 m d, V8_o2 m d, V8_o3 m d, V8_o4 m d, V8_o5 m d, V8_o6 m d, V8_o7 m d, V8_res m d]
  iintro ⟨#Hctx, ⟨⟨%W, %hW, HO⟩, Hst⟩, Hb, ⟨⟨H0, H1, H2, H3, H4, H5, H6, H7, Hr⟩, Hrest⟩, Hcg, Hti, Hk⟩
  ihave Hlev := ((K (F := F)).ctx_levAts κ) $$ Hctx
  iapply (tc2_region_main (F := F) (K (F := F)).lev (by sl_refines_lev) d ((K (F := F)).Otc d 2) (Otc_none d 2)
      {p | (K (F := F)).lev ((SparseCore.T d : Thread nD τ), p.1) p.2 ≤ 8 * 2} (h1T (aX m d) (aE m d) (aW1l m d) (aB1l m d) (aW1r m d)) (agg2 (aX m d) (aE m d) (aW1l m d) (aB1l m d) (aW1r m d)) (cnt16 (aE m d)) (aW2l m d) (biasCol (aB2l m d)) (aW2r m d) (aWlin m d) (biasRow (aBlin m d)) Φ) $$ [Hb Hlev Hcg Hti H0 H1 H2 H3 H4 H5 H6 H7 Hr HO Hst Hrest Hk]
  isplitl [Hb]; · iexact Hb
  isplitl [Hlev]; · iexact Hlev
  isplitl [Hcg]; · iexact Hcg
  isplitl [Hti]; · iexact Hti
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hr]; · iexists _; iexact Hr
  isplitl [HO]
  · iexists W; isplitr
    · ipureintro; exact fun p hp => hW p hp
    · iexact HO
  iintro ⟨Hb, H0, H1, H2, H3, H4, H5, H6, H7, Hr, ⟨%W', %hW', HO⟩⟩
  iapply Hk
  isplitl [HO Hst]
  · isplitl [HO]
    · iexists W'; isplitr
      · ipureintro
        intro p hp
        rcases hW' hp with h | ⟨_, _, rfl⟩
        · exact h
        · show (K (F := F)).lev _ none ≤ _; rw [SparseCore.Cfg.lev_none]; exact Nat.zero_le _
      · iexact HO
    · iexact Hst
  isplitl [Hb]; · iexact Hb
  isplitl [H0 H1 H2 H3 H4 H5 H6 H7 Hr]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact Hr
  iexact Hrest

end Regions

section Main
variable [FloatOps F] (m : (ℓ : Loc nD τ sig) → Buf (Elt F) ℓ) (ρ : Dev nD → PrngReg)

abbrev FIN (d : Dev nD) : sProp 𝕄 := held (T d) SS (V9 m d)

set_option backward.isDefEq.respectTransparency.types false in

theorem hmain (κ : GSem nD τ sig → ℕ) (d : Dev nD) :
    iprop((K (F := F)).ctx EH (P (wOf m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN m d) := by
  unfold SparseCore.Cfg.tcRes G
  rw [unscoped_held, main_eq, bigSep_univ_two, bigSep_univ_two]
  iintro ⟨#Hctx, Hst, ⟨Hb, Hheld, -, -⟩, ⟨Hcg0, Hcg1⟩, ⟨Hti0, Hti1⟩⟩

  iapply (wp_seq 𝒱 none Set.univ d SS _ ops1 ops1_sub ops1_fresh (V0 m d)) $$ [Hb Hheld]
  · isplitl [Hb]; · iexact Hb
    iexact Hheld
  iintro ⟨Hb, Hheld⟩

  rw [wp_bind]
  iapply (call0 m d κ) $$ [Hst Hheld Hb Hcg0 Hcg1 Hti0 Hti1]
  isplitr; · iexact Hctx
  isplitl [Hst]; · iexact Hst
  isplitl [Hheld]; · iexact Hheld
  iintro ⟨Hst, Hheld⟩

  iapply (wp_seq 𝒱 none Set.univ d SS _ ops2 ops2_sub ops2_fresh (V2 m d)) $$ [Hb Hheld]
  · isplitl [Hb]; · iexact Hb
    iexact Hheld
  iintro ⟨Hb, Hheld⟩

  rw [wp_bind]
  iapply (region0 m d κ) $$ [Hst Hheld Hb Hcg0 Hcg1 Hti0 Hti1]
  isplitr; · iexact Hctx
  isplitl [Hst]; · iexact Hst
  isplitl [Hb]; · iexact Hb
  isplitl [Hheld]; · iexact Hheld
  isplitl [Hcg0]; · iexact Hcg0
  isplitl [Hti0]; · iexact Hti0
  iintro ⟨Hst, Hb, Hheld⟩

  iapply (wp_seq 𝒱 none Set.univ d SS _ ops3 ops3_sub ops3_fresh (V4 m d)) $$ [Hb Hheld]
  · isplitl [Hb]; · iexact Hb
    iexact Hheld
  iintro ⟨Hb, Hheld⟩

  rw [wp_bind]
  iapply (call1 m d κ) $$ [Hst Hheld Hb Hcg1 Hti1]
  isplitr; · iexact Hctx
  isplitl [Hst]; · iexact Hst
  isplitl [Hheld]; · iexact Hheld
  iintro ⟨Hst, Hheld⟩

  iapply (wp_seq 𝒱 none Set.univ d SS _ ops4 ops4_sub ops4_fresh (V6 m d)) $$ [Hb Hheld]
  · isplitl [Hb]; · iexact Hb
    iexact Hheld
  iintro ⟨Hb, Hheld⟩

  rw [wp_bind]
  iapply (region1 m d κ) $$ [Hst Hheld Hb Hcg1 Hti1]
  isplitr; · iexact Hctx
  isplitl [Hst]; · iexact Hst
  isplitl [Hb]; · iexact Hb
  isplitl [Hheld]; · iexact Hheld
  isplitl [Hcg1]; · iexact Hcg1
  isplitl [Hti1]; · iexact Hti1
  iintro ⟨Hst, Hb, Hheld⟩

  rw [← bind_pure (seq ops5)]
  iapply (wp_seq 𝒱 none Set.univ d SS _ ops5 ops5_sub ops5_fresh (V8 m d)) $$ [Hb Hheld]
  · isplitl [Hb]; · iexact Hb
    iexact Hheld
  iintro ⟨Hb, Hheld⟩
  rw [wp_pure]; imodintro
  isplitl [Hst]; · iexact Hst
  iexact Hheld

def fq (d : Dev nD) (s' : Phys nD τ sig (Elt F)) : Prop := ∀ b ∈ SS, s'.mem.mem (d, b) = V9 m d b

theorem hfin (d : Dev nD) (s' : Phys nD τ sig (Elt F)) : iprop(FIN m d ∗ SI s') ⊢ (⌜fq m d s'⌝ : sProp 𝕄) :=
  held_agree (T d) SS (V9 m d) s'

theorem hQ (s' : Phys nD τ sig (Elt F)) (h : ∀ d, fq m d s') : QK m (⟨⟩, s'.mem) := by
  intro c
  have hc := h c
  refine ⟨(hc _ (mem_SS main_v23 (by decide))).trans (V9_out m c), ?_, ?_, ?_, ?_, ?_, ?_, ?_, ?_, ?_, ?_⟩
  · exact (hc _ (mem_SS main_arg0 (by decide))).trans (V9_arg0 m c)
  · exact (hc _ (mem_SS main_arg1 (by decide))).trans (V9_arg1 m c)
  · exact (hc _ (mem_SS main_arg2 (by decide))).trans (V9_arg2 m c)
  · exact (hc _ (mem_SS main_arg3 (by decide))).trans (V9_arg3 m c)
  · exact (hc _ (mem_SS main_arg4 (by decide))).trans (V9_arg4 m c)
  · exact (hc _ (mem_SS main_arg5 (by decide))).trans (V9_arg5 m c)
  · exact (hc _ (mem_SS main_arg6 (by decide))).trans (V9_arg6 m c)
  · exact (hc _ (mem_SS main_arg7 (by decide))).trans (V9_arg7 m c)
  · exact (hc _ (mem_SS main_arg8 (by decide))).trans (V9_arg8 m c)
  · exact (hc _ (mem_SS main_arg9 (by decide))).trans (V9_arg9 m c)

theorem run_main_of [∀ e, Nonempty (Elt F e)] (core0 : Cert.Proof.Agg1.TileCore F) (core1 : Cert.Proof.Agg2.TileBody F)
    (hidx : ∀ (c : Dev nD) i, ((m ((c.tc : Thread nD τ).loc main_arg1)) i).toNat ≤ 9999) :
    θ_run (Cert.KernelIdeal.defs (F := F)) (Cert.KernelIdeal.threads (F := F)) ⟨m, fun _ => 0, ρ⟩ (QK m) :=
  SparseCore.Cfg.θ_run_sc (K := K (F := F)) (D := D (F := F)) (𝒱 := 𝒱) (EH := EH) (P := P (wOf m)) facts v₀
    (fun q hq => match q with | 0 => nomatch hq | 1 => nomatch hq)
    (fun q _ => match q with | 0 => tileObl0 (wOf m) core0 (wOf_ok m hidx) | 1 => tileObl1 (wOf m) core1 (wOf_ok m hidx))
    (fun q _ => SparseCore.Cfg.VecSplit.of_plain (vecSplit (wOf m) q))
    m ρ main (G (F := F)) (FIN m) (u₀ (F := F)) (sep_elim_left.trans (hu₀ (wOf m))) (hmain m ρ) (fq m) (hfin m) (QK m) (hQ m)

end Main

end Cert.Proof.Sage

end
-- ==== Proof.Agg1BodyCut.lean ====
import proofs.«215722_g7507602833967_cont_sun_m_718_28_alg».proof.Proof.Agg1BodyDefs

noncomputable section

namespace Cert.Proof.Agg1

open Cert.KernelIdeal Cert.KernelIdeal.Gen
open Cert.Proof.Sage Cert.Proof.ScatterSum
open Idealize.ShloMosaic Idealize.SL.Sem

variable {F : FTy → Type} [FloatOps F]

abbrev a0w (L : grid0.Coords) : BitVec 32 := BitVec.ofNat 32 (L 0).val
abbrev a1w (L : grid0.Coords) : BitVec 32 := BitVec.ofNat 32 (L 1).val
abbrev v1w (L : grid0.Coords) : BitVec 32 := Scalar.addi (Scalar.muli (a0w L) 16#32) (a1w L)

def progPre2 {α : Type} (L : grid0.Coords) (k : Prog (TpuEff nD τ sig (Elt F) Λ₀ (.scVector (cV L) (jV L))) α) : Prog (TpuEff nD τ sig (Elt F) Λ₀ (.scVector (cV L) (jV L))) α := do
  Prog.lift (.enqueueDma (xA.slice (Rect.unit (s := S1294336) (k0_off1 L 30336#32) S10112.size (k0_off1_inb L 3)) (fun _ => rfl)) (.here X3) (.dma cc0_scoped3.sem) (View.wordExact_bits rfl) (Memref.isWhole_whole _ : (X3).IsWhole).wordExact ⟨Or.inl rfl, trivial⟩)
  Prog.lift (.waitDma2 cc0_scoped3.sem (xA.slice (Rect.unit (s := S1294336) (k0_off1 L 30336#32) S10112.size (k0_off1_inb L 3)) (fun _ => rfl)) X3 (View.wordExact_bits rfl) (Memref.isWhole_whole _ : (X3).IsWhole).wordExact)
  Scf.Loop.for k0_t4_loop k0_t4_ok ⟨⟩ (k0_t4_body L xA (Memref.isWhole_whole _) sA (Memref.isWhole_whole _) dA (Memref.isWhole_whole _) oA (Memref.isWhole_whole _) cA (Memref.isWhole_whole _) X0 (Memref.isWhole_whole _) X1 (Memref.isWhole_whole _) X2 (Memref.isWhole_whole _) X3 (Memref.isWhole_whole _) A0 (Memref.isWhole_whole _) A1 (Memref.isWhole_whole _) A2 (Memref.isWhole_whole _) A3 (Memref.isWhole_whole _) CN (Memref.isWhole_whole _) IS (Memref.isWhole_whole _) ID (Memref.isWhole_whole _) cc0_scoped0 cc0_scoped1 cc0_scoped2 cc0_scoped3 cc0_scoped4 cc0_scoped5 cc0_scoped6 cc0_scoped7 cc0_scoped8 cc0_scoped9 cc0_scoped10 (a0w L) (a1w L) (v1w L))
  if k0_h1 : k0_cond1 L = 1#1 then do
    Scf.Loop.for k0_t5_loop (k0_t5_ok L k0_h1) ⟨⟩ (k0_t5_body L xA (Memref.isWhole_whole _) sA (Memref.isWhole_whole _) dA (Memref.isWhole_whole _) oA (Memref.isWhole_whole _) cA (Memref.isWhole_whole _) X0 (Memref.isWhole_whole _) X1 (Memref.isWhole_whole _) X2 (Memref.isWhole_whole _) X3 (Memref.isWhole_whole _) A0 (Memref.isWhole_whole _) A1 (Memref.isWhole_whole _) A2 (Memref.isWhole_whole _) A3 (Memref.isWhole_whole _) CN (Memref.isWhole_whole _) IS (Memref.isWhole_whole _) ID (Memref.isWhole_whole _) cc0_scoped0 cc0_scoped1 cc0_scoped2 cc0_scoped3 cc0_scoped4 cc0_scoped5 cc0_scoped6 cc0_scoped7 cc0_scoped8 cc0_scoped9 cc0_scoped10 (a0w L) (a1w L) (v1w L) k0_h1)
    pure ⟨⟩
  else do
    pure ⟨⟩
  k

def progLoop {α : Type} (L : grid0.Coords) (k : Prog (TpuEff nD τ sig (Elt F) Λ₀ (.scVector (cV L) (jV L))) α) : Prog (TpuEff nD τ sig (Elt F) Λ₀ (.scVector (cV L) (jV L))) α := do
  Scf.Loop.for k0_t6_loop k0_t6_ok ⟨⟩ (k0_t6_body L xA (Memref.isWhole_whole _) sA (Memref.isWhole_whole _) dA (Memref.isWhole_whole _) oA (Memref.isWhole_whole _) cA (Memref.isWhole_whole _) X0 (Memref.isWhole_whole _) X1 (Memref.isWhole_whole _) X2 (Memref.isWhole_whole _) X3 (Memref.isWhole_whole _) A0 (Memref.isWhole_whole _) A1 (Memref.isWhole_whole _) A2 (Memref.isWhole_whole _) A3 (Memref.isWhole_whole _) CN (Memref.isWhole_whole _) IS (Memref.isWhole_whole _) ID (Memref.isWhole_whole _) cc0_scoped0 cc0_scoped1 cc0_scoped2 cc0_scoped3 cc0_scoped4 cc0_scoped5 cc0_scoped6 cc0_scoped7 cc0_scoped8 cc0_scoped9 cc0_scoped10 (a0w L) (a1w L) (v1w L))
  k

def progEpi1 {α : Type} (L : grid0.Coords) (k : Prog (TpuEff nD τ sig (Elt F) Λ₀ (.scVector (cV L) (jV L))) α) : Prog (TpuEff nD τ sig (Elt F) Λ₀ (.scVector (cV L) (jV L))) α := do
  Prog.lift (.enqueueDma A0 (.here (oA.slice (Rect.unit (s := S1294336) (k0_off1 L 0#32) S10112.size (k0_off1_inb L 0)) (fun _ => rfl))) (.dma cc0_scoped6.sem) (Memref.isWhole_whole _ : (A0).IsWhole).wordExact (View.wordExact_bits rfl) ⟨Or.inl rfl, trivial⟩)
  Prog.lift (.waitDma2 cc0_scoped6.sem A0 (oA.slice (Rect.unit (s := S1294336) (k0_off1 L 0#32) S10112.size (k0_off1_inb L 0)) (fun _ => rfl)) (Memref.isWhole_whole _ : (A0).IsWhole).wordExact (View.wordExact_bits rfl))
  Prog.lift (.enqueueDma A1 (.here (oA.slice (Rect.unit (s := S1294336) (k0_off1 L 10112#32) S10112.size (k0_off1_inb L 1)) (fun _ => rfl))) (.dma cc0_scoped7.sem) (Memref.isWhole_whole _ : (A1).IsWhole).wordExact (View.wordExact_bits rfl) ⟨Or.inl rfl, trivial⟩)
  Prog.lift (.waitDma2 cc0_scoped7.sem A1 (oA.slice (Rect.unit (s := S1294336) (k0_off1 L 10112#32) S10112.size (k0_off1_inb L 1)) (fun _ => rfl)) (Memref.isWhole_whole _ : (A1).IsWhole).wordExact (View.wordExact_bits rfl))
  Prog.lift (.enqueueDma A2 (.here (oA.slice (Rect.unit (s := S1294336) (k0_off1 L 20224#32) S10112.size (k0_off1_inb L 2)) (fun _ => rfl))) (.dma cc0_scoped8.sem) (Memref.isWhole_whole _ : (A2).IsWhole).wordExact (View.wordExact_bits rfl) ⟨Or.inl rfl, trivial⟩)
  Prog.lift (.waitDma2 cc0_scoped8.sem A2 (oA.slice (Rect.unit (s := S1294336) (k0_off1 L 20224#32) S10112.size (k0_off1_inb L 2)) (fun _ => rfl)) (Memref.isWhole_whole _ : (A2).IsWhole).wordExact (View.wordExact_bits rfl))
  k

def progTail (L : grid0.Coords) : Prog (TpuEff nD τ sig (Elt F) Λ₀ (.scVector (cV L) (jV L))) PUnit := do
  Prog.lift (.enqueueDma A3 (.here (oA.slice (Rect.unit (s := S1294336) (k0_off1 L 30336#32) S10112.size (k0_off1_inb L 3)) (fun _ => rfl))) (.dma cc0_scoped9.sem) (Memref.isWhole_whole _ : (A3).IsWhole).wordExact (View.wordExact_bits rfl) ⟨Or.inl rfl, trivial⟩)
  Prog.lift (.waitDma2 cc0_scoped9.sem A3 (oA.slice (Rect.unit (s := S1294336) (k0_off1 L 30336#32) S10112.size (k0_off1_inb L 3)) (fun _ => rfl)) (Memref.isWhole_whole _ : (A3).IsWhole).wordExact (View.wordExact_bits rfl))
  if k0_h2 : k0_cond2 L = 1#1 then do
    Prog.lift (.enqueueDma CN (.here (cA.slice (Rect.unit (s := S161792) (k0_off8 L) S10112.size (k0_off8_inb L k0_h2)) (fun _ => rfl))) (.dma cc0_scoped10.sem) (Memref.isWhole_whole _ : (CN).IsWhole).wordExact (View.wordExact_bits rfl) ⟨Or.inl rfl, trivial⟩)
    Prog.lift (.waitDma2 cc0_scoped10.sem CN (cA.slice (Rect.unit (s := S161792) (k0_off8 L) S10112.size (k0_off8_inb L k0_h2)) (fun _ => rfl)) (Memref.isWhole_whole _ : (CN).IsWhole).wordExact (View.wordExact_bits rfl))
    pure ⟨⟩
  else do
    pure ⟨⟩
  pure ⟨⟩

set_option maxRecDepth 65536 in

theorem part21_cut (L : grid0.Coords) :
    k0_part21 (F := F) L xA (Memref.isWhole_whole _) sA (Memref.isWhole_whole _) dA (Memref.isWhole_whole _) oA (Memref.isWhole_whole _) cA (Memref.isWhole_whole _) X0 (Memref.isWhole_whole _) X1 (Memref.isWhole_whole _) X2 (Memref.isWhole_whole _) X3 (Memref.isWhole_whole _) A0 (Memref.isWhole_whole _) A1 (Memref.isWhole_whole _) A2 (Memref.isWhole_whole _) A3 (Memref.isWhole_whole _) CN (Memref.isWhole_whole _) IS (Memref.isWhole_whole _) ID (Memref.isWhole_whole _) cc0_scoped0 cc0_scoped1 cc0_scoped2 cc0_scoped3 cc0_scoped4 cc0_scoped5 cc0_scoped6 cc0_scoped7 cc0_scoped8 cc0_scoped9 cc0_scoped10 (a0w L) (a1w L) (v1w L)
      = progPre2 L (progLoop L (progEpi1 L (pure (Scalar.muli (v1w L) 40448#32)))) := rfl

set_option maxRecDepth 65536 in

theorem body_cut (L : grid0.Coords) :
    body (F := F) L = (k0_part20 (F := F) L xA (Memref.isWhole_whole _) sA (Memref.isWhole_whole _) dA (Memref.isWhole_whole _) oA (Memref.isWhole_whole _) cA (Memref.isWhole_whole _) X0 (Memref.isWhole_whole _) X1 (Memref.isWhole_whole _) X2 (Memref.isWhole_whole _) X3 (Memref.isWhole_whole _) A0 (Memref.isWhole_whole _) A1 (Memref.isWhole_whole _) A2 (Memref.isWhole_whole _) A3 (Memref.isWhole_whole _) CN (Memref.isWhole_whole _) IS (Memref.isWhole_whole _) ID (Memref.isWhole_whole _) cc0_scoped0 cc0_scoped1 cc0_scoped2 cc0_scoped3 cc0_scoped4 cc0_scoped5 cc0_scoped6 cc0_scoped7 cc0_scoped8 cc0_scoped9 cc0_scoped10 >>= fun r => k0_part21 (F := F) L xA (Memref.isWhole_whole _) sA (Memref.isWhole_whole _) dA (Memref.isWhole_whole _) oA (Memref.isWhole_whole _) cA (Memref.isWhole_whole _) X0 (Memref.isWhole_whole _) X1 (Memref.isWhole_whole _) X2 (Memref.isWhole_whole _) X3 (Memref.isWhole_whole _) A0 (Memref.isWhole_whole _) A1 (Memref.isWhole_whole _) A2 (Memref.isWhole_whole _) A3 (Memref.isWhole_whole _) CN (Memref.isWhole_whole _) IS (Memref.isWhole_whole _) ID (Memref.isWhole_whole _) cc0_scoped0 cc0_scoped1 cc0_scoped2 cc0_scoped3 cc0_scoped4 cc0_scoped5 cc0_scoped6 cc0_scoped7 cc0_scoped8 cc0_scoped9 cc0_scoped10 r.1 r.2.1 r.2.2 >>= fun _ => progTail L) := rfl

section Held

open Idealize.SL Idealize.SL.RA Idealize.SL.BI
open scoped Idealize.SL.BI
open Idealize.SL.BI.BIBase Idealize.SL.BI.Laws Idealize.SL.ProofMode
open Idealize.ShloMosaic.SparseCore (S V T)

local notation "𝕄" => MM F

abbrev zrow : Vec F S10112 .f32 := fun _ => Scalar.ofBits .f32 0x00000000#32

def XRows (d : Dev nD) (L : grid0.Coords) (mx : Buf (Elt F) (xA.view.loc (thr d L))) : sProp 𝕄 :=
  iprop(((xSl0 L).view.loc (thr d L) ↦[(xSl0 L).view.set]{fullShare} mx) ∗ ((xSl1 L).view.loc (thr d L) ↦[(xSl1 L).view.set]{fullShare} mx)
    ∗ ((xSl2 L).view.loc (thr d L) ↦[(xSl2 L).view.set]{fullShare} mx) ∗ ((xSl3 L).view.loc (thr d L) ↦[(xSl3 L).view.set]{fullShare} mx))

abbrev oPts (d : Dev nD) (L : grid0.Coords) (m : Memref sig .scVector .hbm S10112 .f32) (mo : Buf (Elt F) (m.view.loc (thr d L))) : sProp 𝕄 :=
  m.view.loc (thr d L) ↦[m.view.set]{fullShare} mo

def CRow (d : Dev nD) (L : grid0.Coords) (mc : Buf (Elt F) (cA.view.loc (thr d L))) : sProp 𝕄 :=
  if h : k0_cond2 L = 1#1 then iprop((cSl L h).view.loc (thr d L) ↦[(cSl L h).view.set]{fullShare} mc) else iprop(emp)

def CRowOut (d : Dev nD) (L : grid0.Coords) (cn : Vec F SRow .f32) : sProp 𝕄 :=
  if h : k0_cond2 L = 1#1 then outRow d L (cSl L h) cn else iprop(emp)

def SemsRest (d : Dev nD) (L : grid0.Coords) : sProp 𝕄 :=
  iprop(semVal (sm d L cc0_scoped0) 0 ∗ semVal (sm d L cc0_scoped1) 0 ∗ semVal (sm d L cc0_scoped2) 0 ∗ semVal (sm d L cc0_scoped3) 0
    ∗ semVal (sm d L cc0_scoped6) 0 ∗ semVal (sm d L cc0_scoped7) 0 ∗ semVal (sm d L cc0_scoped8) 0 ∗ semVal (sm d L cc0_scoped9) 0
    ∗ semVal (sm d L cc0_scoped10) 0)

end Held

end Cert.Proof.Agg1

end
-- ==== Proof.ScatterSumBlock.lean ====
import proofs.«215722_g7507602833967_cont_sun_m_718_28_alg».proof.Proof.ScatterSum

noncomputable section

open Idealize.ShloMosaic Idealize.ShloMosaic.ValueIdx

namespace Cert.Proof.ScatterSum

theorem sub16_of_rect_off (c : IVec SChunk 32) (off : Fin 1 → Nat) (hinb : ∀ a, off a + SLane.size a ≤ SChunk.size a)
    (j : Nat) (ho : off 0 = 16 * j) :
    (fun y => c ((Rect.unit (s := SChunk) off SLane.size hinb).toLoadRect.idx y)) = sub16 c j := by
  funext y
  have hy : (y 0).val < 16 := (y 0).isLt
  have hb : off 0 + 16 ≤ 512 := hinb 0
  have h1 : 16 * j + (y 0).val < 512 := by omega
  have e1 : sub16 c j y = c (ix1 ⟨16 * j + (y 0).val, h1⟩) := dif_pos h1
  rw [e1]
  congr 1
  funext a
  match a with
  | ⟨0, _⟩ => exact Fin.ext (show off 0 + 1 * (y 0).val = 16 * j + (y 0).val by omega)

theorem sub16_of_rect (c : IVec SChunk 32) (o : Nat) (hinb : ∀ a, (![o] : Fin 1 → Nat) a + SLane.size a ≤ SChunk.size a)
    (ho : o % 16 = 0) :
    (fun y => c ((Rect.unit (s := SChunk) ![o] SLane.size hinb).toLoadRect.idx y)) = sub16 c (o / 16) :=
  sub16_of_rect_off c ![o] hinb (o / 16) (show o = 16 * (o / 16) by omega)

theorem lanes16_of_rect (a : IVec SEdge 32) (g o : Nat) (hinb : ∀ a, (![o] : Fin 1 → Nat) a + SLane.size a ≤ SChunk.size a)
    (ho : o % 16 = 0) :
    (fun y => chunk512 a g ((Rect.unit (s := SChunk) ![o] SLane.size hinb).toLoadRect.idx y)) = lanes16 a (32 * g + o / 16) := by
  have hb : o + 16 ≤ 512 := hinb 0
  rw [sub16_of_rect (chunk512 a g) o hinb ho, sub16_chunk512 a g (o / 16) (by omega)]

theorem chunk512_of_rect_off (a : IVec SEdge 32) (off : Fin 1 → Nat) (hinb : ∀ b, off b + SChunk.size b ≤ SEdge.size b)
    (g : Nat) (ho : off 0 = 512 * g) :
    (fun y => a ((Rect.unit (s := SEdge) off SChunk.size hinb).toLoadRect.idx y)) = chunk512 a g := by
  funext y
  have hy : (y 0).val < 512 := (y 0).isLt
  have hb : off 0 + 512 ≤ 327680 := hinb 0
  have h1 : 512 * g + (y 0).val < 327680 := by omega
  have e1 : chunk512 a g y = a (ix1 ⟨512 * g + (y 0).val, h1⟩) := dif_pos h1
  rw [e1]
  congr 1
  funext b
  match b with
  | ⟨0, _⟩ => exact Fin.ext (show off 0 + 1 * (y 0).val = 512 * g + (y 0).val by omega)

section Generic
variable {F : FTy → Type} [FloatOps F]

def aggBlock (A xs : Vec F SRow .f32) (src dst : IVec SEdge 32) (k0 : Nat) : Nat → Vec F SRow .f32
  | 0 => A
  | n + 1 => scat (aggBlock A xs src dst k0 n) (lanes16 dst (k0 + n)) (gath xs (lanes16 src (k0 + n))) (fun _ => 1#1)

theorem aggBlock_succ (A xs : Vec F SRow .f32) (src dst : IVec SEdge 32) (k0 n : Nat) :
    aggBlock A xs src dst k0 (n + 1)
      = scat (aggBlock A xs src dst k0 n) (lanes16 dst (k0 + n)) (gath xs (lanes16 src (k0 + n))) (fun _ => 1#1) := rfl

theorem aggUpTo_add (xs : Vec F SRow .f32) (src dst : IVec SEdge 32) (k0 n : Nat) :
    aggUpTo xs src dst (k0 + n) = aggBlock (aggUpTo xs src dst k0) xs src dst k0 n := by
  induction n with
  | zero => rfl
  | succ n ih =>
    show aggUpTo xs src dst (k0 + n + 1) = _
    rw [aggUpTo_succ, ih, aggBlock_succ]

def cntBlock (A : Vec F SRow .f32) (dst : IVec SEdge 32) (mask : Nat → IVec SLane 1) (k0 : Nat) : Nat → Vec F SRow .f32
  | 0 => A
  | n + 1 => scat (cntBlock A dst mask k0 n) (lanes16 dst (k0 + n)) (broadcast SLane (Scalar.ofBits .f32 0x3F800000#32))
      (mask ((k0 + n) / 32))

theorem cntBlock_succ (A : Vec F SRow .f32) (dst : IVec SEdge 32) (mask : Nat → IVec SLane 1) (k0 n : Nat) :
    cntBlock A dst mask k0 (n + 1)
      = scat (cntBlock A dst mask k0 n) (lanes16 dst (k0 + n)) (broadcast SLane (Scalar.ofBits .f32 0x3F800000#32))
          (mask ((k0 + n) / 32)) := rfl

theorem cntUpTo_add (dst : IVec SEdge 32) (mask : Nat → IVec SLane 1) (k0 n : Nat) :
    cntUpTo (F := F) dst mask (k0 + n) = cntBlock (cntUpTo dst mask k0) dst mask k0 n := by
  induction n with
  | zero => rfl
  | succ n ih =>
    show cntUpTo dst mask (k0 + n + 1) = _
    rw [cntUpTo_succ, ih, cntBlock_succ]

theorem group_of_lane (g j : Nat) (hj : j < 32) : (32 * g + j) / 32 = g := by omega

end Generic

end Cert.Proof.ScatterSum
-- ==== Proof.Agg2BodySteps.lean ====
import proofs.«215722_g7507602833967_cont_sun_m_718_28_alg».proof.Proof.Agg2BodyDefs

noncomputable section

namespace Cert.Proof.Agg2

open Cert.KernelIdeal Cert.KernelIdeal.Gen
open Cert.Proof.Sage Cert.Proof.ScatterSum

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

local notation "xW" => (Memref.whole Cert.KernelIdeal.main_v17_scv : Memref Cert.KernelIdeal.sig Kind.scVector Space.hbm Cert.KernelIdeal.S1294336 EltTy.f32)
local notation "sW" => (Memref.whole Cert.KernelIdeal.main_v5_scv : Memref Cert.KernelIdeal.sig Kind.scVector Space.hbm Cert.KernelIdeal.S327680 EltTy.i32)
local notation "dW" => (Memref.whole Cert.KernelIdeal.main_v7_scv : Memref Cert.KernelIdeal.sig Kind.scVector Space.hbm Cert.KernelIdeal.S327680 EltTy.i32)
local notation "oW" => (Memref.whole Cert.KernelIdeal.main_v18_scv : Memref Cert.KernelIdeal.sig Kind.scVector Space.hbm Cert.KernelIdeal.S1294336 EltTy.f32)
local notation "b0" => (Memref.whole Cert.KernelIdeal.cc2_scratch0 : Memref Cert.KernelIdeal.sig Kind.scVector Space.vmem Cert.KernelIdeal.S10112 EltTy.f32)
local notation "b1" => (Memref.whole Cert.KernelIdeal.cc2_scratch1 : Memref Cert.KernelIdeal.sig Kind.scVector Space.vmem Cert.KernelIdeal.S10112 EltTy.f32)
local notation "b2" => (Memref.whole Cert.KernelIdeal.cc2_scratch2 : Memref Cert.KernelIdeal.sig Kind.scVector Space.vmem Cert.KernelIdeal.S10112 EltTy.f32)
local notation "b3" => (Memref.whole Cert.KernelIdeal.cc2_scratch3 : Memref Cert.KernelIdeal.sig Kind.scVector Space.vmem Cert.KernelIdeal.S10112 EltTy.f32)
local notation "b4" => (Memref.whole Cert.KernelIdeal.cc2_scratch4 : Memref Cert.KernelIdeal.sig Kind.scVector Space.vmem Cert.KernelIdeal.S10112 EltTy.f32)
local notation "b5" => (Memref.whole Cert.KernelIdeal.cc2_scratch5 : Memref Cert.KernelIdeal.sig Kind.scVector Space.vmem Cert.KernelIdeal.S10112 EltTy.f32)
local notation "b6" => (Memref.whole Cert.KernelIdeal.cc2_scratch6 : Memref Cert.KernelIdeal.sig Kind.scVector Space.vmem Cert.KernelIdeal.S10112 EltTy.f32)
local notation "b7" => (Memref.whole Cert.KernelIdeal.cc2_scratch7 : Memref Cert.KernelIdeal.sig Kind.scVector Space.vmem Cert.KernelIdeal.S10112 EltTy.f32)
local notation "b8" => (Memref.whole Cert.KernelIdeal.cc2_scratch8 : Memref Cert.KernelIdeal.sig Kind.scVector Space.vmem Cert.KernelIdeal.S512 EltTy.i32)
local notation "b9" => (Memref.whole Cert.KernelIdeal.cc2_scratch9 : Memref Cert.KernelIdeal.sig Kind.scVector Space.vmem Cert.KernelIdeal.S512 EltTy.i32)

theorem chk4 {v : IVec S16 32} (h : ∀ y, (v y).toNat < 10112) :
    (∀ a x, ((![v] : Fin 1 → IVec S16 32) a x).toNat < S10112.size a) ∧ (∀ a x, ((![v] : Fin 1 → IVec S16 32) a x).toNat < S10112.size a)
      ∧ (∀ a x, ((![v] : Fin 1 → IVec S16 32) a x).toNat < S10112.size a) ∧ (∀ a x, ((![v] : Fin 1 → IVec S16 32) a x).toNat < S10112.size a) := by
  have h1 : ∀ a x, ((![v] : Fin 1 → IVec S16 32) a x).toNat < S10112.size a := by
    intro a x
    obtain rfl : a = 0 := Subsingleton.elim _ _
    exact h x
  exact ⟨h1, h1, h1, h1⟩

section Steps

variable [FloatOps F] {s t : Shape} {e : EltTy} {α : Type}
variable (d : Dev nD) (c : Fin τ.nSC) (i : Fin τ.nSub)

def holds (base : Memref sig .scVector .vmem s e) (x : Vec F s e) : sProp 𝕄 :=
  iprop(∃ f, (base.view.loc (V d c i) ↦{fullShare} f) ∗ ⌜base.view.read (Elt F) f = x⌝)

theorem gath_step {base : Memref sig .scVector .vmem s e} (hw : base.IsWhole) {x : Vec F s e} {idxs : Fin s.rank → IVec t 32}
    {h : ∀ a y, (idxs a y).toNat < s.size a} {hl : base.view.Loads}
    {k : Vec F t e → Prog (TpuEff nD τ sig (Elt F) Λ₀ (.scVector c i)) α} {Q : α → sProp 𝕄} :
    holds d c i base x
      ⊢ iprop((holds d c i base x -∗ wp frame (wpE (defs₀ (F := F)) 𝒱₀ (V d c i) none) Set.univ (k (loadIdx x idxs h)) Q)
        -∗ wp frame (wpE (defs₀ (F := F)) 𝒱₀ (V d c i) none) Set.univ (SparseCore.vectorLoadIdx base idxs h hl >>= k) Q) := by
  obtain ⟨⟨sp', ix, hix⟩, hsp, hs, he, hb⟩ := hw
  subst hs he
  change sp' = Space.vmem at hsp
  subst hsp
  obtain rfl := eq_of_heq hb
  unfold holds
  iintro ⟨%f, Hf, %hf⟩ Hk
  subst hf
  iapply (SparseCore.wp_vectorLoadIdx (defs := defs₀ (F := F)) 𝒱₀ (V d c i) none Set.univ (base := Memref.whole ⟨Space.vmem, ix, hix⟩)
    (idxs := idxs) (h := h) (hl := hl) (k := k) (Q := Q) (S := Finset.univ) (q := fullShare) (f := f) (Finset.subset_univ _)) $$ Hf
  iintro Hf
  rw [Memref.read_access_whole]
  iapply Hk
  iexists f
  isplitl [Hf]
  · iexact Hf
  · ipureintro; rfl

theorem scat_step {d' : Fin 1 → Nat} {base : Memref sig .scVector .vmem s e} (hw : base.IsWhole) {a : Vec F s e}
    {idxs : Fin s.rank → IVec ⟨1, d'⟩ 32} {v : Vec F ⟨1, d'⟩ e} {mask : IVec ⟨1, d'⟩ 1} {add : Bool}
    {h : ∀ a y, (idxs a y).toNat < s.size a} {hs : (base.access (.whole s)).Stores Finset.univ}
    {k : PUnit → Prog (TpuEff nD τ sig (Elt F) Λ₀ (.scVector c i)) α} {Q : α → sProp 𝕄} :
    holds d c i base a
      ⊢ iprop((holds d c i base (storeIdx a idxs v mask add h) -∗ wp frame (wpE (defs₀ (F := F)) 𝒱₀ (V d c i) none) Set.univ (k ⟨⟩) Q)
        -∗ wp frame (wpE (defs₀ (F := F)) 𝒱₀ (V d c i) none) Set.univ (SparseCore.vectorStoreIdx base idxs v mask add h hs >>= k) Q) := by
  obtain ⟨⟨sp', ix, hix⟩, hsp, hs', he, hb⟩ := hw
  subst hs' he
  change sp' = Space.vmem at hsp
  subst hsp
  obtain rfl := eq_of_heq hb
  unfold holds
  iintro ⟨%f, Hf, %hf⟩ Hk
  subst hf
  have R := SparseCore.wp_vectorStoreIdx (defs := defs₀ (F := F)) 𝒱₀ (V d c i) none Set.univ (base := Memref.whole ⟨Space.vmem, ix, hix⟩)
    (idxs := idxs) (v := v) (mask := mask) (add := add) (h := h) (hs := hs) (k := k) (Q := Q) (f := f)
  rw [Memref.set_access_whole, Memref.read_access_whole, Memref.write_access_whole_univ] at R
  iapply R $$ Hf
  iintro Hf
  iapply Hk
  iexists _
  isplitl [Hf]
  · iexact Hf
  · ipureintro; rfl

theorem load_step {base : Memref sig .scVector .vmem s e} (hw : base.IsWhole) {x : Vec F s e} {r : LoadRect s} {hl : base.view.LoadsAt r}
    {k : Vec F r.shape e → Prog (TpuEff nD τ sig (Elt F) Λ₀ (.scVector c i)) α} {Q : α → sProp 𝕄} :
    holds d c i base x
      ⊢ iprop((holds d c i base x -∗ wp frame (wpE (defs₀ (F := F)) 𝒱₀ (V d c i) none) Set.univ (k (fun y => x (r.idx y))) Q)
        -∗ wp frame (wpE (defs₀ (F := F)) 𝒱₀ (V d c i) none) Set.univ (Prog.lift (.load base r hl) >>= k) Q) := by
  obtain ⟨⟨sp', ix, hix⟩, hsp, hs', he, hb⟩ := hw
  subst hs' he
  change sp' = Space.vmem at hsp
  subst hsp
  obtain rfl := eq_of_heq hb
  unfold holds
  iintro ⟨%f, Hf, %hf⟩ Hk
  subst hf
  rw [Prog.bind_lift]
  iapply (wp_load (defs := defs₀ (F := F)) 𝒱₀ (V d c i) none Set.univ (m := Memref.whole ⟨Space.vmem, ix, hix⟩) (r := r) (hl := hl) (k := k) (Q := Q)
    (S := Finset.univ) (q := fullShare) (f := f) (Finset.subset_univ _)) $$ Hf
  iintro Hf
  have e1 : (Memref.whole (⟨Space.vmem, ix, hix⟩ : Ref sig .scVector)).view.readAt (Elt F) r f = fun y => f (r.idx y) := by
    funext y; simp only [View.readAt_apply, Memref.view_whole, View.read_whole]
  rw [e1]
  iapply Hk
  iexists f
  isplitl [Hf]
  · iexact Hf
  · ipureintro; rfl

theorem chk_step {P : Prop} {dec : Decidable P} (hP : P) {k : PLift P → Prog (TpuEff nD τ sig (Elt F) Λ₀ (.scVector c i)) α} {Q : α → sProp 𝕄} :
    wp frame (wpE (defs₀ (F := F)) 𝒱₀ (V d c i) none) Set.univ (k ⟨hP⟩) Q
      ⊢ wp frame (wpE (defs₀ (F := F)) 𝒱₀ (V d c i) none) Set.univ (Prog.lift (.assume P dec) >>= k) Q := by
  rw [Prog.bind_lift]
  exact wp_assume 𝒱₀ (V d c i) none Set.univ hP

end Steps

end Cert.Proof.Agg2

end
-- ==== Proof.Agg1BodySteps.lean ====
import proofs.«215722_g7507602833967_cont_sun_m_718_28_alg».proof.Proof.Agg1BodyDefs
import proofs.«215722_g7507602833967_cont_sun_m_718_28_alg».proof.Proof.ScatterSumBlock
import proofs.«215722_g7507602833967_cont_sun_m_718_28_alg».proof.Proof.Agg2BodySteps

noncomputable section

namespace Cert.Proof.Agg1

open Cert.KernelIdeal Cert.KernelIdeal.Gen
open Cert.Proof.Sage Cert.Proof.ScatterSum
open Cert.Proof.Agg2 (holds gath_step scat_step load_step chk_step)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

theorem chk5 {v : IVec S16 32} (h : ∀ y, (v y).toNat < 10112) :
    (∀ a x, ((![v] : Fin 1 → IVec S16 32) a x).toNat < S10112.size a) ∧ (∀ a x, ((![v] : Fin 1 → IVec S16 32) a x).toNat < S10112.size a)
      ∧ (∀ a x, ((![v] : Fin 1 → IVec S16 32) a x).toNat < S10112.size a) ∧ (∀ a x, ((![v] : Fin 1 → IVec S16 32) a x).toNat < S10112.size a)
      ∧ (∀ a x, ((![v] : Fin 1 → IVec S16 32) a x).toNat < S10112.size a) := by
  have h' : ∀ a x, ((![v] : Fin 1 → IVec S16 32) a x).toNat < S10112.size a := by
    intro a x; have ha : a = 0 := Subsingleton.elim _ _; subst ha; exact h x
  exact ⟨h', h', h', h', h'⟩

theorem chk4 {v : IVec S16 32} (h : ∀ y, (v y).toNat < 10112) :
    (∀ a x, ((![v] : Fin 1 → IVec S16 32) a x).toNat < S10112.size a) ∧ (∀ a x, ((![v] : Fin 1 → IVec S16 32) a x).toNat < S10112.size a)
      ∧ (∀ a x, ((![v] : Fin 1 → IVec S16 32) a x).toNat < S10112.size a) ∧ (∀ a x, ((![v] : Fin 1 → IVec S16 32) a x).toNat < S10112.size a) := by
  have h' : ∀ a x, ((![v] : Fin 1 → IVec S16 32) a x).toNat < S10112.size a := by
    intro a x; have ha : a = 0 := Subsingleton.elim _ _; subst ha; exact h x
  exact ⟨h', h', h', h'⟩

section Tile
variable [FloatOps F] {α : Type} (d : Dev nD) (L : grid0.Coords)

def St (x0 x1 x2 x3 a0 a1 a2 a3 cn : Vec F S10112 .f32) (is id : Vec F S512 .i32) : sProp 𝕄 :=
  iprop(holds d (cV L) (jV L) X0 x0 ∗ holds d (cV L) (jV L) X1 x1 ∗ holds d (cV L) (jV L) X2 x2 ∗ holds d (cV L) (jV L) X3 x3
    ∗ holds d (cV L) (jV L) A0 a0 ∗ holds d (cV L) (jV L) A1 a1 ∗ holds d (cV L) (jV L) A2 a2 ∗ holds d (cV L) (jV L) A3 a3
    ∗ holds d (cV L) (jV L) CN cn ∗ holds d (cV L) (jV L) IS is ∗ holds d (cV L) (jV L) ID id)

set_option hygiene false in
local macro "give_back" : tactic => `(tactic| (
  isplitl [HR]
  · iexact HR
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  iexact H10))

set_option hygiene false in
local macro "gath_rule " n:ident b:term:max xr:ident Hr:ident : command => `(
theorem $n {R : sProp 𝕄} {x0 x1 x2 x3 a0 a1 a2 a3 cn : Vec F S10112 .f32} {is id : Vec F S512 .i32} {t : Shape} {idxs : Fin S10112.rank → IVec t 32}
    {h : ∀ a y, (idxs a y).toNat < S10112.size a} {hl : ($b).view.Loads}
    {k : Vec F t .f32 → Prog (TpuEff nD τ sig (Elt F) Λ₀ (.scVector (cV L) (jV L))) α} {Q : α → sProp 𝕄}
    (H : iprop(R ∗ St d L x0 x1 x2 x3 a0 a1 a2 a3 cn is id) ⊢ wp frame (wpE (defs₀ (F := F)) 𝒱₀ (V d (cV L) (jV L)) none) Set.univ (k (loadIdx $xr idxs h)) Q) :
    iprop(R ∗ St d L x0 x1 x2 x3 a0 a1 a2 a3 cn is id) ⊢ wp frame (wpE (defs₀ (F := F)) 𝒱₀ (V d (cV L) (jV L)) none) Set.univ (SparseCore.vectorLoadIdx $b idxs h hl >>= k) Q := by
  unfold St at H ⊢
  iintro ⟨HR, H0, H1, H2, H3, H4, H5, H6, H7, H8, H9, H10⟩
  iapply (gath_step d (cV L) (jV L) (base := $b) (Memref.isWhole_whole _)) $$ $Hr:ident
  iintro $Hr:ident
  iapply H
  give_back)

gath_rule g0 X0 x0 H0
gath_rule g1 X1 x1 H1
gath_rule g2 X2 x2 H2
gath_rule g3 X3 x3 H3

set_option hygiene false in
local macro "scat_rule " n:ident b:term:max Hr:ident st':term : command => `(
theorem $n {R : sProp 𝕄} {x0 x1 x2 x3 a0 a1 a2 a3 cn : Vec F S10112 .f32} {is id : Vec F S512 .i32} {d' : Fin 1 → Nat}
    {idxs : Fin S10112.rank → IVec ⟨1, d'⟩ 32} {v : Vec F ⟨1, d'⟩ .f32} {mask : IVec ⟨1, d'⟩ 1} {add : Bool}
    {h : ∀ a y, (idxs a y).toNat < S10112.size a} {hs : (($b).access (.whole S10112)).Stores Finset.univ}
    {k : PUnit → Prog (TpuEff nD τ sig (Elt F) Λ₀ (.scVector (cV L) (jV L))) α} {Q : α → sProp 𝕄}
    (H : iprop(R ∗ $st') ⊢ wp frame (wpE (defs₀ (F := F)) 𝒱₀ (V d (cV L) (jV L)) none) Set.univ (k ⟨⟩) Q) :
    iprop(R ∗ St d L x0 x1 x2 x3 a0 a1 a2 a3 cn is id) ⊢ wp frame (wpE (defs₀ (F := F)) 𝒱₀ (V d (cV L) (jV L)) none) Set.univ (SparseCore.vectorStoreIdx $b idxs v mask add h hs >>= k) Q := by
  unfold St at H ⊢
  iintro ⟨HR, H0, H1, H2, H3, H4, H5, H6, H7, H8, H9, H10⟩
  iapply (scat_step d (cV L) (jV L) (base := $b) (Memref.isWhole_whole _)) $$ $Hr:ident
  iintro $Hr:ident
  iapply H
  give_back)

scat_rule s4 A0 H4 (St d L x0 x1 x2 x3 (storeIdx a0 idxs v mask add h) a1 a2 a3 cn is id)
scat_rule s5 A1 H5 (St d L x0 x1 x2 x3 a0 (storeIdx a1 idxs v mask add h) a2 a3 cn is id)
scat_rule s6 A2 H6 (St d L x0 x1 x2 x3 a0 a1 (storeIdx a2 idxs v mask add h) a3 cn is id)
scat_rule s7 A3 H7 (St d L x0 x1 x2 x3 a0 a1 a2 (storeIdx a3 idxs v mask add h) cn is id)
scat_rule s8 CN H8 (St d L x0 x1 x2 x3 a0 a1 a2 a3 (storeIdx cn idxs v mask add h) is id)

set_option hygiene false in
local macro "load_rule " n:ident b:term:max xv:ident Hr:ident : command => `(
theorem $n {R : sProp 𝕄} {x0 x1 x2 x3 a0 a1 a2 a3 cn : Vec F S10112 .f32} {is id : Vec F S512 .i32} {r : LoadRect S512} {hl : ($b).view.LoadsAt r}
    {k : Vec F r.shape .i32 → Prog (TpuEff nD τ sig (Elt F) Λ₀ (.scVector (cV L) (jV L))) α} {Q : α → sProp 𝕄}
    (H : iprop(R ∗ St d L x0 x1 x2 x3 a0 a1 a2 a3 cn is id) ⊢ wp frame (wpE (defs₀ (F := F)) 𝒱₀ (V d (cV L) (jV L)) none) Set.univ (k (fun y => $xv (r.idx y))) Q) :
    iprop(R ∗ St d L x0 x1 x2 x3 a0 a1 a2 a3 cn is id) ⊢ wp frame (wpE (defs₀ (F := F)) 𝒱₀ (V d (cV L) (jV L)) none) Set.univ (Prog.lift (.load $b r hl) >>= k) Q := by
  unfold St at H ⊢
  iintro ⟨HR, H0, H1, H2, H3, H4, H5, H6, H7, H8, H9, H10⟩
  iapply (load_step d (cV L) (jV L) (base := $b) (Memref.isWhole_whole _)) $$ $Hr:ident
  iintro $Hr:ident
  iapply H
  give_back)

load_rule l9 IS is H9
load_rule l10 ID id H10

theorem cS {R : sProp 𝕄} {P : Prop} {dec : Decidable P} (hP : P) {k : PLift P → Prog (TpuEff nD τ sig (Elt F) Λ₀ (.scVector (cV L) (jV L))) α} {Q : α → sProp 𝕄}
    (H : R ⊢ wp frame (wpE (defs₀ (F := F)) 𝒱₀ (V d (cV L) (jV L)) none) Set.univ (k ⟨hP⟩) Q) : R ⊢ wp frame (wpE (defs₀ (F := F)) 𝒱₀ (V d (cV L) (jV L)) none) Set.univ (Prog.lift (.assume P dec) >>= k) Q :=
  H.trans (chk_step d (cV L) (jV L) hP)

theorem enter {R : sProp 𝕄} {β : Type} {p : Prog (TpuEff nD τ sig (Elt F) Λ₀ (.scVector (cV L) (jV L))) β}
    {kk : β → Prog (TpuEff nD τ sig (Elt F) Λ₀ (.scVector (cV L) (jV L))) α} {Q : α → sProp 𝕄}
    (H : R ⊢ wp frame (wpE (defs₀ (F := F)) 𝒱₀ (V d (cV L) (jV L)) none) Set.univ (p) fun r => wp frame (wpE (defs₀ (F := F)) 𝒱₀ (V d (cV L) (jV L)) none) Set.univ (kk r) Q) :
    R ⊢ wp frame (wpE (defs₀ (F := F)) 𝒱₀ (V d (cV L) (jV L)) none) Set.univ (p >>= kk) Q := by
  rw [wp_bind]; exact H

theorem leave {R : sProp 𝕄} {a : α} {Q : α → sProp 𝕄} (H : R ⊢ Q a) : R ⊢ wp frame (wpE (defs₀ (F := F)) 𝒱₀ (V d (cV L) (jV L)) none) Set.univ (pure a) Q :=
  H.trans (le_wp_ret _ _ _ a Q)

theorem chunk_lt (a : IVec SEdge 32) (ha : ∀ e, (a e).toNat < 10112) (g : Nat) (j : SChunk.Idx) : (chunk512 a g j).toNat < 10112 := by
  unfold chunk512
  split
  · exact ha _
  · decide

def Fr (q : PosShare TreeShare) (ms : Buf (Elt F) (sA.view.loc (thr d L))) (md : Buf (Elt F) (dA.view.loc (thr d L)))
    (O : CellTallies nD τ sig (HIx 2)) (W : Waits sig (HIx 2)) : sProp 𝕄 :=
  iprop(Transfers.MayWaits (V d (cV L) (jV L)) (none : HIx 2) O
    ∗ (sA.view.loc (V d (cV L) (jV L)) ↦{q} ms) ∗ (dA.view.loc (V d (cV L) (jV L)) ↦{q} md)
    ∗ semVal (V d (cV L) (jV L), SemLoc.dma cc0_scoped4.sem) 0 ∗ semVal (V d (cV L) (jV L), SemLoc.dma cc0_scoped5.sem) 0
    ∗ ∃ W', ⌜∀ p ∈ W', p ∈ W ∨ p.2 = none⌝ ∗ owes (V d (cV L) (jV L)) O W')

set_option maxHeartbeats 4000000 in

theorem fetchS {q : PosShare TreeShare} {ms : Buf (Elt F) (sA.view.loc (thr d L))} {md : Buf (Elt F) (dA.view.loc (thr d L))}
    {O : CellTallies nD τ sig (HIx 2)} {W : Waits sig (HIx 2)}
    {x0 x1 x2 x3 a0 a1 a2 a3 cn : Vec F S10112 .f32} {is id : Vec F S512 .i32} (t : Fin k0_t6_loop.trips)
    {hsrc} {hdst} {hsem} {hsrc'} {hdst'}
    {k : PUnit → Prog (TpuEff nD τ sig (Elt F) Λ₀ (.scVector (cV L) (jV L))) α} {Q : α → sProp 𝕄}
    (H : iprop(Fr d L q ms md O W ∗ St d L x0 x1 x2 x3 a0 a1 a2 a3 cn (chunk512 (srcOf d L ms) t.val) id) ⊢ wp frame (wpE (defs₀ (F := F)) 𝒱₀ (V d (cV L) (jV L)) none) Set.univ (k ⟨⟩) Q) :
    iprop(Fr d L q ms md O W ∗ St d L x0 x1 x2 x3 a0 a1 a2 a3 cn is id)
      ⊢ wp frame (wpE (defs₀ (F := F)) 𝒱₀ (V d (cV L) (jV L)) none) Set.univ (Prog.lift (.enqueueDma (sA.slice (Rect.unit (s := S327680) (k0_off7 t) S512.size (k0_off7_inb t)) (fun _ => rfl)) (.here IS) (.dma cc0_scoped4.sem) hsrc hdst hsem) >>= fun _ => Prog.lift (.waitDma2 cc0_scoped4.sem (sA.slice (Rect.unit (s := S327680) (k0_off7 t) S512.size (k0_off7_inb t)) (fun _ => rfl)) IS hsrc' hdst') >>= k) Q := by
  unfold Fr St at H ⊢
  iintro ⟨⟨Hmw, Hs, Hd, Hsem4, Hsem5, %W', %hW', HO⟩, H0, H1, H2, H3, H4, H5, H6, H7, H8, H9, H10⟩
  unfold holds at H ⊢
  icases H9 with ⟨%fb, H9, %eb⟩
  sl_exec
  iapply H
  isplitl [Hmw Hs Hd Hsem4 Hsem5 HO]
  · isplitl [Hmw]
    · iexact Hmw
    isplitl [Hs]
    · iexact Hs
    isplitl [Hd]
    · iexact Hd
    isplitl [Hsem4]
    · iexact Hsem4
    isplitl [Hsem5]
    · iexact Hsem5
    iexists (insert (SemLoc.dma cc0_scoped4.sem, (default : HIx 2)) W')
    isplitr
    · ipureintro
      intro p hp
      rcases Finset.mem_insert.mp hp with hp | hp
      · exact Or.inr (hp ▸ rfl)
      · exact hW' p hp
    · iexact HO
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexists _
    isplitl [H9]
    · iexact H9
    ipureintro
    rw [View.read_write_univ]
    unfold fetchS.sl.dma0
    exact chunk512_of_rect_off (srcOf d L ms) (k0_off7 t) (k0_off7_inb t) t.val (by rw [k0_off7_eq]; rfl)
  iexact H10

set_option maxHeartbeats 4000000 in

theorem fetchD {q : PosShare TreeShare} {ms : Buf (Elt F) (sA.view.loc (thr d L))} {md : Buf (Elt F) (dA.view.loc (thr d L))}
    {O : CellTallies nD τ sig (HIx 2)} {W : Waits sig (HIx 2)}
    {x0 x1 x2 x3 a0 a1 a2 a3 cn : Vec F S10112 .f32} {is id : Vec F S512 .i32} (t : Fin k0_t6_loop.trips)
    {hsrc} {hdst} {hsem} {hsrc'} {hdst'}
    {k : PUnit → Prog (TpuEff nD τ sig (Elt F) Λ₀ (.scVector (cV L) (jV L))) α} {Q : α → sProp 𝕄}
    (H : iprop(Fr d L q ms md O W ∗ St d L x0 x1 x2 x3 a0 a1 a2 a3 cn is (chunk512 (dstOf d L md) t.val)) ⊢ wp frame (wpE (defs₀ (F := F)) 𝒱₀ (V d (cV L) (jV L)) none) Set.univ (k ⟨⟩) Q) :
    iprop(Fr d L q ms md O W ∗ St d L x0 x1 x2 x3 a0 a1 a2 a3 cn is id)
      ⊢ wp frame (wpE (defs₀ (F := F)) 𝒱₀ (V d (cV L) (jV L)) none) Set.univ (Prog.lift (.enqueueDma (dA.slice (Rect.unit (s := S327680) (k0_off7 t) S512.size (k0_off7_inb t)) (fun _ => rfl)) (.here ID) (.dma cc0_scoped5.sem) hsrc hdst hsem) >>= fun _ => Prog.lift (.waitDma2 cc0_scoped5.sem (dA.slice (Rect.unit (s := S327680) (k0_off7 t) S512.size (k0_off7_inb t)) (fun _ => rfl)) ID hsrc' hdst') >>= k) Q := by
  unfold Fr St at H ⊢
  iintro ⟨⟨Hmw, Hs, Hd, Hsem4, Hsem5, %W', %hW', HO⟩, H0, H1, H2, H3, H4, H5, H6, H7, H8, H9, H10⟩
  unfold holds at H ⊢
  icases H10 with ⟨%fb, H10, %eb⟩
  sl_exec
  iapply H
  isplitl [Hmw Hs Hd Hsem4 Hsem5 HO]
  · isplitl [Hmw]
    · iexact Hmw
    isplitl [Hs]
    · iexact Hs
    isplitl [Hd]
    · iexact Hd
    isplitl [Hsem4]
    · iexact Hsem4
    isplitl [Hsem5]
    · iexact Hsem5
    iexists (insert (SemLoc.dma cc0_scoped5.sem, (default : HIx 2)) W')
    isplitr
    · ipureintro
      intro p hp
      rcases Finset.mem_insert.mp hp with hp | hp
      · exact Or.inr (hp ▸ rfl)
      · exact hW' p hp
    · iexact HO
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  iexists _
  isplitl [H10]
  · iexact H10
  ipureintro
  rw [View.read_write_univ]
  unfold fetchD.sl.dma0
  exact chunk512_of_rect_off (dstOf d L md) (k0_off7 t) (k0_off7_inb t) t.val (by rw [k0_off7_eq]; rfl)

end Tile

end Cert.Proof.Agg1

end
-- ==== Proof.Agg1Body.lean ====
import proofs.«215722_g7507602833967_cont_sun_m_718_28_alg».proof.Proof.Agg1BodyCut
import proofs.«215722_g7507602833967_cont_sun_m_718_28_alg».proof.Proof.Agg1BodySteps
import proofs.«215722_g7507602833967_cont_sun_m_718_28_alg».proof.Proof.ScatterSumBlock

noncomputable section

namespace Cert.Proof.Agg1

open Cert.KernelIdeal Cert.KernelIdeal.Gen
open Cert.Proof.Sage Cert.Proof.ScatterSum
open Cert.Proof.Agg2 (holds)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

def TripSpec (F : FTy → Type) [FloatOps F] : Prop :=
  ∀ (d : Dev nD) (L : grid0.Coords) (q : PosShare TreeShare) (ms : Buf (Elt F) (sA.view.loc (thr d L))) (md : Buf (Elt F) (dA.view.loc (thr d L)))
    (hs : ∀ e, (srcOf d L ms e).toNat < 10112) (hd : ∀ e, (dstOf d L md e).toNat < 10112) (O : CellTallies nD τ sig (HIx 2)) (W : Waits sig (HIx 2))
    (x0 x1 x2 x3 cn : Vec F S10112 .f32) (v1 : BitVec 32) (t : Fin k0_t6_loop.trips) (u : Unit) (is id : Vec F S512 .i32),
    iprop(Fr d L q ms md O W ∗ St d L x0 x1 x2 x3 (aggUpTo x0 (srcOf d L ms) (dstOf d L md) (32 * t.val)) (aggUpTo x1 (srcOf d L ms) (dstOf d L md) (32 * t.val)) (aggUpTo x2 (srcOf d L ms) (dstOf d L md) (32 * t.val)) (aggUpTo x3 (srcOf d L ms) (dstOf d L md) (32 * t.val)) cn is id)
      ⊢ wp frame (wpE (defs₀ (F := F)) 𝒱₀ (V d (cV L) (jV L)) none) Set.univ (k0_t6_body L xA (Memref.isWhole_whole _) sA (Memref.isWhole_whole _) dA (Memref.isWhole_whole _) oA (Memref.isWhole_whole _) cA (Memref.isWhole_whole _) X0 (Memref.isWhole_whole _) X1 (Memref.isWhole_whole _) X2 (Memref.isWhole_whole _) X3 (Memref.isWhole_whole _) A0 (Memref.isWhole_whole _) A1 (Memref.isWhole_whole _) A2 (Memref.isWhole_whole _) A3 (Memref.isWhole_whole _) CN (Memref.isWhole_whole _) IS (Memref.isWhole_whole _) ID (Memref.isWhole_whole _) cc0_scoped0 cc0_scoped1 cc0_scoped2 cc0_scoped3 cc0_scoped4 cc0_scoped5 cc0_scoped6 cc0_scoped7 cc0_scoped8 cc0_scoped9 cc0_scoped10 (BitVec.ofNat 32 (L 0).val) (BitVec.ofNat 32 (L 1).val) v1 t u)
          fun _ => iprop(∃ is' id', Fr d L q ms md O W ∗ St d L x0 x1 x2 x3 (aggUpTo x0 (srcOf d L ms) (dstOf d L md) (32 * (t.val + 1))) (aggUpTo x1 (srcOf d L ms) (dstOf d L md) (32 * (t.val + 1))) (aggUpTo x2 (srcOf d L ms) (dstOf d L md) (32 * (t.val + 1))) (aggUpTo x3 (srcOf d L ms) (dstOf d L md) (32 * (t.val + 1))) (cntBlock cn (dstOf d L md) (maskOf L) (32 * t.val) 32) is' id')

def Part20Spec (F : FTy → Type) [FloatOps F] : Prop :=
  ∀ (R : sProp (MM F)) (α : Type) (d : Dev nD) (L : grid0.Coords) (q : PosShare TreeShare) (mx : Buf (Elt F) (xA.view.loc (thr d L))) (ms : Buf (Elt F) (sA.view.loc (thr d L))) (md : Buf (Elt F) (dA.view.loc (thr d L))) (O : CellTallies nD τ sig (HIx 2)) (W : Waits sig (HIx 2))
    (y0 y1 y2 y3 b0 b1 b2 b3 cn : Vec F S10112 .f32) (is id : Vec F S512 .i32)
    (kk : (Σ' (arg0 : BitVec 32) (arg1 : BitVec 32), BitVec 32) → Prog (TpuEff nD τ sig (Elt F) Λ₀ (.scVector (cV L) (jV L))) α) (Q : α → sProp (MM F)),
    (iprop(R ∗ XRows d L mx ∗ SemsRest d L ∗ Fr d L q ms md O W ∗ St d L (rowOfX d L (xSl0 L) mx) (rowOfX d L (xSl1 L) mx) (rowOfX d L (xSl2 L) mx) y3 zrow zrow zrow b3 cn is id)
        ⊢ wp frame (wpE (defs₀ (F := F)) 𝒱₀ (V d (cV L) (jV L)) none) Set.univ (kk ⟨a0w L, a1w L, v1w L⟩) Q) →
    iprop(R ∗ XRows d L mx ∗ SemsRest d L ∗ Fr d L q ms md O W ∗ St d L y0 y1 y2 y3 b0 b1 b2 b3 cn is id)
      ⊢ wp frame (wpE (defs₀ (F := F)) 𝒱₀ (V d (cV L) (jV L)) none) Set.univ (k0_part20 L xA (Memref.isWhole_whole _) sA (Memref.isWhole_whole _) dA (Memref.isWhole_whole _) oA (Memref.isWhole_whole _) cA (Memref.isWhole_whole _) X0 (Memref.isWhole_whole _) X1 (Memref.isWhole_whole _) X2 (Memref.isWhole_whole _) X3 (Memref.isWhole_whole _) A0 (Memref.isWhole_whole _) A1 (Memref.isWhole_whole _) A2 (Memref.isWhole_whole _) A3 (Memref.isWhole_whole _) CN (Memref.isWhole_whole _) IS (Memref.isWhole_whole _) ID (Memref.isWhole_whole _) cc0_scoped0 cc0_scoped1 cc0_scoped2 cc0_scoped3 cc0_scoped4 cc0_scoped5 cc0_scoped6 cc0_scoped7 cc0_scoped8 cc0_scoped9 cc0_scoped10 >>= kk) Q

def Pre2Spec (F : FTy → Type) [FloatOps F] : Prop :=
  ∀ (R : sProp (MM F)) (α : Type) (d : Dev nD) (L : grid0.Coords) (q : PosShare TreeShare) (mx : Buf (Elt F) (xA.view.loc (thr d L))) (ms : Buf (Elt F) (sA.view.loc (thr d L))) (md : Buf (Elt F) (dA.view.loc (thr d L))) (O : CellTallies nD τ sig (HIx 2)) (W : Waits sig (HIx 2))
    (x0 x1 x2 y3 b3 cn : Vec F S10112 .f32) (is id : Vec F S512 .i32) (k : Prog (TpuEff nD τ sig (Elt F) Λ₀ (.scVector (cV L) (jV L))) α) (Q : α → sProp (MM F)),
    (∀ cn' : Vec F S10112 .f32, (k0_cond1 L = 1#1 → cn' = zrow) →
      iprop(R ∗ XRows d L mx ∗ SemsRest d L ∗ Fr d L q ms md O W ∗ St d L x0 x1 x2 (rowOfX d L (xSl3 L) mx) zrow zrow zrow zrow cn' is id) ⊢ wp frame (wpE (defs₀ (F := F)) 𝒱₀ (V d (cV L) (jV L)) none) Set.univ k Q) →
    iprop(R ∗ XRows d L mx ∗ SemsRest d L ∗ Fr d L q ms md O W ∗ St d L x0 x1 x2 y3 zrow zrow zrow b3 cn is id)
      ⊢ wp frame (wpE (defs₀ (F := F)) 𝒱₀ (V d (cV L) (jV L)) none) Set.univ (progPre2 L k) Q

def Epi1Spec (F : FTy → Type) [FloatOps F] : Prop :=
  ∀ (R : sProp (MM F)) (α : Type) (d : Dev nD) (L : grid0.Coords) (q : PosShare TreeShare) (ms : Buf (Elt F) (sA.view.loc (thr d L))) (md : Buf (Elt F) (dA.view.loc (thr d L))) (O : CellTallies nD τ sig (HIx 2)) (W : Waits sig (HIx 2)) (mo : Buf (Elt F) (oA.view.loc (thr d L)))
    (x0 x1 x2 x3 a0 a1 a2 a3 cn : Vec F S10112 .f32) (is id : Vec F S512 .i32) (k : Prog (TpuEff nD τ sig (Elt F) Λ₀ (.scVector (cV L) (jV L))) α) (Q : α → sProp (MM F)),
    (iprop(R ∗ (outRow d L (oSl0 L) a0 ∗ outRow d L (oSl1 L) a1 ∗ outRow d L (oSl2 L) a2) ∗ SemsRest d L ∗ Fr d L q ms md O W
        ∗ St d L x0 x1 x2 x3 a0 a1 a2 a3 cn is id) ⊢ wp frame (wpE (defs₀ (F := F)) 𝒱₀ (V d (cV L) (jV L)) none) Set.univ k Q) →
    iprop(R ∗ (oPts d L (oSl0 L) mo ∗ oPts d L (oSl1 L) mo ∗ oPts d L (oSl2 L) mo) ∗ SemsRest d L ∗ Fr d L q ms md O W
        ∗ St d L x0 x1 x2 x3 a0 a1 a2 a3 cn is id)
      ⊢ wp frame (wpE (defs₀ (F := F)) 𝒱₀ (V d (cV L) (jV L)) none) Set.univ (progEpi1 L k) Q

def TailSpec (F : FTy → Type) [FloatOps F] : Prop :=
  ∀ (R : sProp (MM F)) (d : Dev nD) (L : grid0.Coords) (q : PosShare TreeShare) (ms : Buf (Elt F) (sA.view.loc (thr d L))) (md : Buf (Elt F) (dA.view.loc (thr d L))) (O : CellTallies nD τ sig (HIx 2)) (W : Waits sig (HIx 2)) (mo : Buf (Elt F) (oA.view.loc (thr d L))) (mc : Buf (Elt F) (cA.view.loc (thr d L)))
    (x0 x1 x2 x3 a0 a1 a2 a3 cn : Vec F S10112 .f32) (is id : Vec F S512 .i32),
    iprop(R ∗ oPts d L (oSl3 L) mo ∗ CRow d L mc ∗ SemsRest d L ∗ Fr d L q ms md O W ∗ St d L x0 x1 x2 x3 a0 a1 a2 a3 cn is id)
      ⊢ wp frame (wpE (defs₀ (F := F)) 𝒱₀ (V d (cV L) (jV L)) none) Set.univ (progTail L) fun _ =>
          iprop(R ∗ outRow d L (oSl3 L) a3 ∗ CRowOut d L cn ∗ SemsRest d L ∗ Fr d L q ms md O W ∗ St d L x0 x1 x2 x3 a0 a1 a2 a3 cn is id)

theorem trips6 : k0_t6_loop.trips = 640 := by decide

theorem cond12 (L : grid0.Coords) : k0_cond1 L = k0_cond2 L := rfl

attribute [local irreducible] aggUpTo cntUpTo cntBlock in

theorem loop_rule (trip : TripSpec F) {R : sProp 𝕄} {α : Type} (d : Dev nD) (L : grid0.Coords) (q : PosShare TreeShare)
    (mx : Buf (Elt F) (xA.view.loc (thr d L))) (ms : Buf (Elt F) (sA.view.loc (thr d L))) (md : Buf (Elt F) (dA.view.loc (thr d L))) (hs : ∀ e, (srcOf d L ms e).toNat < 10112) (hd : ∀ e, (dstOf d L md e).toNat < 10112) (O : CellTallies nD τ sig (HIx 2)) (W : Waits sig (HIx 2))
    (x0 x1 x2 x3 cn0 : Vec F S10112 .f32) (is id : Vec F S512 .i32) {k : Prog (TpuEff nD τ sig (Elt F) Λ₀ (.scVector (cV L) (jV L))) α} {Q : α → sProp 𝕄}
    (hcn0 : k0_cond1 L = 1#1 → cn0 = zrow)
    (H : ∀ (cn : Vec F S10112 .f32) (is' id' : Vec F S512 .i32), (k0_cond1 L = 1#1 → cn = cntUpTo (dstOf d L md) (maskOf L) 20480) →
      iprop(R ∗ XRows d L mx ∗ SemsRest d L ∗ Fr d L q ms md O W ∗ St d L x0 x1 x2 x3 (aggUpTo x0 (srcOf d L ms) (dstOf d L md) 20480) (aggUpTo x1 (srcOf d L ms) (dstOf d L md) 20480) (aggUpTo x2 (srcOf d L ms) (dstOf d L md) 20480) (aggUpTo x3 (srcOf d L ms) (dstOf d L md) 20480) cn is' id') ⊢ wp frame (wpE (defs₀ (F := F)) 𝒱₀ (V d (cV L) (jV L)) none) Set.univ k Q) :
    iprop(R ∗ XRows d L mx ∗ SemsRest d L ∗ Fr d L q ms md O W ∗ St d L x0 x1 x2 x3 zrow zrow zrow zrow cn0 is id) ⊢ wp frame (wpE (defs₀ (F := F)) 𝒱₀ (V d (cV L) (jV L)) none) Set.univ (progLoop L k) Q := by
  let I : Nat → Unit → sProp 𝕄 := fun g _ =>
    iprop(R ∗ XRows d L mx ∗ SemsRest d L ∗ ∃ (cn : Vec F S10112 .f32) (is' id' : Vec F S512 .i32),
      ⌜k0_cond1 L = 1#1 → cn = cntUpTo (dstOf d L md) (maskOf L) (32 * g)⌝ ∗ Fr d L q ms md O W ∗ St d L x0 x1 x2 x3 (aggUpTo x0 (srcOf d L ms) (dstOf d L md) (32 * g)) (aggUpTo x1 (srcOf d L ms) (dstOf d L md) (32 * g)) (aggUpTo x2 (srcOf d L ms) (dstOf d L md) (32 * g)) (aggUpTo x3 (srcOf d L ms) (dstOf d L md) (32 * g)) cn is' id')
  have hbody : ∀ (t : Fin k0_t6_loop.trips) (u : Unit),
      I t.val u ⊢ wp frame (wpE (defs₀ (F := F)) 𝒱₀ (V d (cV L) (jV L)) none) Set.univ (k0_t6_body L xA (Memref.isWhole_whole _) sA (Memref.isWhole_whole _) dA (Memref.isWhole_whole _) oA (Memref.isWhole_whole _) cA (Memref.isWhole_whole _) X0 (Memref.isWhole_whole _) X1 (Memref.isWhole_whole _) X2 (Memref.isWhole_whole _) X3 (Memref.isWhole_whole _) A0 (Memref.isWhole_whole _) A1 (Memref.isWhole_whole _) A2 (Memref.isWhole_whole _) A3 (Memref.isWhole_whole _) CN (Memref.isWhole_whole _) IS (Memref.isWhole_whole _) ID (Memref.isWhole_whole _) cc0_scoped0 cc0_scoped1 cc0_scoped2 cc0_scoped3 cc0_scoped4 cc0_scoped5 cc0_scoped6 cc0_scoped7 cc0_scoped8 cc0_scoped9 cc0_scoped10 (a0w L) (a1w L) (v1w L) t u) (I (t.val + 1)) := by
    intro t u
    iintro ⟨HR, HX, HS, %cn, %is1, %id1, %hcn, HFr, HSt⟩
    iapply (wp_wand_r frame _ _)
    isplitl [HFr HSt]
    · iapply (trip d L q ms md hs hd O W x0 x1 x2 x3 cn (v1w L) t u is1 id1)
      isplitl [HFr]; · iexact HFr
      iexact HSt
    iintro %u' ⟨%is2, %id2, HFr, HSt⟩
    isplitl [HR]; · iexact HR
    isplitl [HX]; · iexact HX
    isplitl [HS]; · iexact HS
    iexists (cntBlock cn (dstOf d L md) (maskOf L) (32 * t.val) 32), is2, id2
    isplitr
    · ipureintro
      intro hc
      rw [hcn hc, ← cntUpTo_add]
      rfl
    isplitl [HFr]; · iexact HFr
    iexact HSt
  unfold progLoop
  iintro ⟨HR, HX, HS, HFr, HSt⟩
  iapply (Scf.wp_for_bind frame (wpE (defs₀ (F := F)) 𝒱₀ (V d (cV L) (jV L)) none) Set.univ k0_t6_loop.lb k0_t6_loop.ub k0_t6_loop.st k0_t6_ok ⟨⟩
    (k0_t6_body L xA (Memref.isWhole_whole _) sA (Memref.isWhole_whole _) dA (Memref.isWhole_whole _) oA (Memref.isWhole_whole _) cA (Memref.isWhole_whole _) X0 (Memref.isWhole_whole _) X1 (Memref.isWhole_whole _) X2 (Memref.isWhole_whole _) X3 (Memref.isWhole_whole _) A0 (Memref.isWhole_whole _) A1 (Memref.isWhole_whole _) A2 (Memref.isWhole_whole _) A3 (Memref.isWhole_whole _) CN (Memref.isWhole_whole _) IS (Memref.isWhole_whole _) ID (Memref.isWhole_whole _) cc0_scoped0 cc0_scoped1 cc0_scoped2 cc0_scoped3 cc0_scoped4 cc0_scoped5 cc0_scoped6 cc0_scoped7 cc0_scoped8 cc0_scoped9 cc0_scoped10 (a0w L) (a1w L) (v1w L)) I hbody) $$ [HR HX HS HFr HSt]
  · isplitl [HR]; · iexact HR
    isplitl [HX]; · iexact HX
    isplitl [HS]; · iexact HS
    iexists cn0, is, id
    isplitr
    · ipureintro
      intro hc
      rw [hcn0 hc]
      exact (cntUpTo_zero (dstOf d L md) (maskOf L)).symm
    isplitl [HFr]; · iexact HFr
    rw [show (32 * 0 : Nat) = 0 from rfl, aggUpTo_zero, aggUpTo_zero, aggUpTo_zero, aggUpTo_zero]
    iexact HSt
  iintro %acc ⟨HR, HX, HS, %cn, %is1, %id1, %hcn, HFr, HSt⟩
  have e640 : 32 * k0_t6_loop.trips = 20480 := by rw [trips6]
  rw [e640] at hcn
  iapply (H cn is1 id1 hcn)
  isplitl [HR]; · iexact HR
  isplitl [HX]; · iexact HX
  isplitl [HS]; · iexact HS
  isplitl [HFr]; · iexact HFr
  rw [e640]
  iexact HSt

theorem holds_intro (d : Dev nD) (L : grid0.Coords) {s : Shape} {e : EltTy} (m : Memref sig .scVector .vmem s e)
    (f : Buf (Elt F) (m.view.loc (thr d L))) :
    (m.view.loc (thr d L) ↦{fullShare} f : sProp 𝕄) ⊢ holds d (cV L) (jV L) m (m.view.read (Elt F) f) := by
  unfold holds
  iintro H
  iexists f
  isplitl [H]
  · iexact H
  · ipureintro; rfl

theorem holds_elim (d : Dev nD) (L : grid0.Coords) {s : Shape} {e : EltTy} (m : Memref sig .scVector .vmem s e) (x : Vec F s e) :
    holds d (cV L) (jV L) m x ⊢ iprop(∃ f, m.view.loc (thr d L) ↦{fullShare} f) := by
  unfold holds
  iintro ⟨%f, H, -⟩
  iexists f
  iexact H

omit [FloatOps F] in

theorem of_ent {P Q : sProp 𝕄} (h : P ⊢ Q) : Idealize.SL.BI.Entails P Q := h

set_option maxHeartbeats 4000000 in
attribute [local irreducible] aggUpTo cntUpTo in

theorem tile_core_of (trip : TripSpec F) (p1 : Part20Spec F) (p2 : Pre2Spec F) (e1 : Epi1Spec F) (e2 : TailSpec F)
    (hF : (K (F := F)).Facts) (d : Dev nD) (L : grid0.Coords) (q : PosShare TreeShare)
    (mx : Buf (Elt F) (xA.view.loc (thr d L))) (ms : Buf (Elt F) (sA.view.loc (thr d L))) (md : Buf (Elt F) (dA.view.loc (thr d L))) (mo : Buf (Elt F) (oA.view.loc (thr d L))) (mc : Buf (Elt F) (cA.view.loc (thr d L)))
    (hs : ∀ e, (srcOf d L ms e).toNat < 10112) (hd : ∀ e, (dstOf d L md e).toNat < 10112)
    (O : CellTallies nD τ sig (HIx 2)) (W : Waits sig (HIx 2)) (hO : ∀ g, O g none = 0) :
    iprop(levAts (K (F := F)).L (K (F := F)).lev ∗ hbmPre d L q mx ms md mo mc ∗ scr d L ∗ sems0 d L ∗ owes (thr d L) O W)
      ⊢ wp frame (wpE (defs₀ (F := F)) 𝒱₀ (thr d L) none) Set.univ (body (F := F) L) fun _ =>
          iprop(hbmPost d L q mx ms md ∗ scr d L ∗ sems0 d L ∗ ∃ W', ⌜∀ p ∈ W', p ∈ W ∨ p.2 = none⌝ ∗ owes (thr d L) O W') := by

  have HH : ∀ (y3 b3 cn : Vec F S10112 .f32) (is id : Vec F S512 .i32),
      iprop(iprop(oPts d L (oSl0 L) mo ∗ oPts d L (oSl1 L) mo ∗ oPts d L (oSl2 L) mo ∗ oPts d L (oSl3 L) mo ∗ CRow d L mc) ∗ XRows d L mx ∗ SemsRest d L ∗ Fr d L q ms md O W ∗ St d L (rowOfX d L (xSl0 L) mx) (rowOfX d L (xSl1 L) mx) (rowOfX d L (xSl2 L) mx) y3 zrow zrow zrow b3 cn is id)
        ⊢ wp frame (wpE (defs₀ (F := F)) 𝒱₀ (V d (cV L) (jV L)) none) Set.univ (k0_part21 (F := F) L xA (Memref.isWhole_whole _) sA (Memref.isWhole_whole _) dA (Memref.isWhole_whole _) oA (Memref.isWhole_whole _) cA (Memref.isWhole_whole _) X0 (Memref.isWhole_whole _) X1 (Memref.isWhole_whole _) X2 (Memref.isWhole_whole _) X3 (Memref.isWhole_whole _) A0 (Memref.isWhole_whole _) A1 (Memref.isWhole_whole _) A2 (Memref.isWhole_whole _) A3 (Memref.isWhole_whole _) CN (Memref.isWhole_whole _) IS (Memref.isWhole_whole _) ID (Memref.isWhole_whole _) cc0_scoped0 cc0_scoped1 cc0_scoped2 cc0_scoped3 cc0_scoped4 cc0_scoped5 cc0_scoped6 cc0_scoped7 cc0_scoped8 cc0_scoped9 cc0_scoped10 (a0w L) (a1w L) (v1w L) >>= fun _ => progTail L) (fun _ => iprop(hbmPost d L q mx ms md ∗ scr d L ∗ sems0 d L ∗ ∃ W', ⌜∀ p ∈ W', p ∈ W ∨ p.2 = none⌝ ∗ owes (thr d L) O W')) := by
    intro y3 b3 cn is id
    rw [part21_cut, wp_bind]
    refine p2 _ _ d L q mx ms md O W (rowOfX d L (xSl0 L) mx) (rowOfX d L (xSl1 L) mx) (rowOfX d L (xSl2 L) mx) y3 b3 cn is id _ _ (fun cn' hcn' => ?_)
    refine loop_rule trip d L q mx ms md hs hd O W (rowOfX d L (xSl0 L) mx) (rowOfX d L (xSl1 L) mx) (rowOfX d L (xSl2 L) mx) (rowOfX d L (xSl3 L) mx) cn' is id hcn' (fun cn2 is2 id2 hcn2 => ?_)
    have hC : CRowOut d L cn2 = (if h : k0_cond2 L = 1#1 then outRow d L (cSl L h) (cntUpTo (dstOf d L md) (maskOf L) 20480) else iprop(emp) : sProp 𝕄) := by
      unfold CRowOut
      by_cases h : k0_cond2 L = 1#1
      · rw [dif_pos h, dif_pos h, hcn2 (by rw [cond12]; exact h)]
      · rw [dif_neg h, dif_neg h]
    refine BI.Entails.trans (of_ent ?_) (e1 iprop(XRows d L mx ∗ oPts d L (oSl3 L) mo ∗ CRow d L mc) _ d L q ms md O W mo (rowOfX d L (xSl0 L) mx) (rowOfX d L (xSl1 L) mx) (rowOfX d L (xSl2 L) mx) (rowOfX d L (xSl3 L) mx) (aggUpTo (rowOfX d L (xSl0 L) mx) (srcOf d L ms) (dstOf d L md) 20480) (aggUpTo (rowOfX d L (xSl1 L) mx) (srcOf d L ms) (dstOf d L md) 20480) (aggUpTo (rowOfX d L (xSl2 L) mx) (srcOf d L ms) (dstOf d L md) 20480) (aggUpTo (rowOfX d L (xSl3 L) mx) (srcOf d L ms) (dstOf d L md) 20480) cn2 is2 id2 _ _ ?_)
    · iintro ⟨⟨Ho0, Ho1, Ho2, Ho3, Hc⟩, HX, HS, HFr, HSt⟩
      isplitl [HX Ho3 Hc]
      · isplitl [HX]; · iexact HX
        isplitl [Ho3]; · iexact Ho3
        iexact Hc
      isplitl [Ho0 Ho1 Ho2]
      · isplitl [Ho0]; · iexact Ho0
        isplitl [Ho1]; · iexact Ho1
        iexact Ho2
      isplitl [HS]; · iexact HS
      isplitl [HFr]; · iexact HFr
      iexact HSt
    · refine BI.Entails.trans ?_ (le_wp_ret _ _ _ _ _)
      refine BI.Entails.trans (of_ent ?_) ((e2 iprop(XRows d L mx ∗ outRow d L (oSl0 L) (aggUpTo (rowOfX d L (xSl0 L) mx) (srcOf d L ms) (dstOf d L md) 20480) ∗ outRow d L (oSl1 L) (aggUpTo (rowOfX d L (xSl1 L) mx) (srcOf d L ms) (dstOf d L md) 20480) ∗ outRow d L (oSl2 L) (aggUpTo (rowOfX d L (xSl2 L) mx) (srcOf d L ms) (dstOf d L md) 20480)) d L q ms md O W mo mc (rowOfX d L (xSl0 L) mx) (rowOfX d L (xSl1 L) mx) (rowOfX d L (xSl2 L) mx) (rowOfX d L (xSl3 L) mx) (aggUpTo (rowOfX d L (xSl0 L) mx) (srcOf d L ms) (dstOf d L md) 20480) (aggUpTo (rowOfX d L (xSl1 L) mx) (srcOf d L ms) (dstOf d L md) 20480) (aggUpTo (rowOfX d L (xSl2 L) mx) (srcOf d L ms) (dstOf d L md) 20480) (aggUpTo (rowOfX d L (xSl3 L) mx) (srcOf d L ms) (dstOf d L md) 20480) cn2 is2 id2).trans (wp_mono frame _ _ fun _ => of_ent ?_))
      · iintro ⟨⟨HX, Ho3, Hc⟩, ⟨Hr0, Hr1, Hr2⟩, HS, HFr, HSt⟩
        isplitl [HX Hr0 Hr1 Hr2]
        · isplitl [HX]; · iexact HX
          isplitl [Hr0]; · iexact Hr0
          isplitl [Hr1]; · iexact Hr1
          iexact Hr2
        isplitl [Ho3]; · iexact Ho3
        isplitl [Hc]; · iexact Hc
        isplitl [HS]; · iexact HS
        isplitl [HFr]; · iexact HFr
        iexact HSt
      · rw [hC]
        unfold hbmPost scr sems0 SemsRest Fr St XRows
        iintro ⟨⟨⟨Hx0, Hx1, Hx2, Hx3⟩, Hr0, Hr1, Hr2⟩, Hr3, Hc, ⟨S0, S1, S2, S3, S6, S7, S8, S9, S10⟩, ⟨Hmw, Hs, Hd, S4, S5, HW⟩,
          ⟨B0, B1, B2, B3, B4, B5, B6, B7, B8, B9, B10⟩⟩
        ihave C0 := (holds_elim d L X0 _) $$ B0
        ihave C1 := (holds_elim d L X1 _) $$ B1
        ihave C2 := (holds_elim d L X2 _) $$ B2
        ihave C3 := (holds_elim d L X3 _) $$ B3
        ihave C4 := (holds_elim d L A0 _) $$ B4
        ihave C5 := (holds_elim d L A1 _) $$ B5
        ihave C6 := (holds_elim d L A2 _) $$ B6
        ihave C7 := (holds_elim d L A3 _) $$ B7
        ihave C8 := (holds_elim d L CN _) $$ B8
        ihave C9 := (holds_elim d L IS _) $$ B9
        ihave C10 := (holds_elim d L ID _) $$ B10
        isplitl [Hx0 Hx1 Hx2 Hx3 Hr0 Hr1 Hr2 Hr3 Hs Hd Hc]
        · isplitl [Hx0]; · iexact Hx0
          isplitl [Hx1]; · iexact Hx1
          isplitl [Hx2]; · iexact Hx2
          isplitl [Hx3]; · iexact Hx3
          isplitl [Hr0]; · iexact Hr0
          isplitl [Hr1]; · iexact Hr1
          isplitl [Hr2]; · iexact Hr2
          isplitl [Hr3]; · iexact Hr3
          isplitl [Hs]; · iexact Hs
          isplitl [Hd]; · iexact Hd
          iexact Hc
        isplitl [C0 C1 C2 C3 C4 C5 C6 C7 C8 C9 C10]
        · isplitl [C0]; · iexact C0
          isplitl [C1]; · iexact C1
          isplitl [C2]; · iexact C2
          isplitl [C3]; · iexact C3
          isplitl [C4]; · iexact C4
          isplitl [C5]; · iexact C5
          isplitl [C6]; · iexact C6
          isplitl [C7]; · iexact C7
          isplitl [C8]; · iexact C8
          isplitl [C9]; · iexact C9
          iexact C10
        isplitl [S0 S1 S2 S3 S4 S5 S6 S7 S8 S9 S10]
        · isplitl [S0]; · iexact S0
          isplitl [S1]; · iexact S1
          isplitl [S2]; · iexact S2
          isplitl [S3]; · iexact S3
          isplitl [S4]; · iexact S4
          isplitl [S5]; · iexact S5
          isplitl [S6]; · iexact S6
          isplitl [S7]; · iexact S7
          isplitl [S8]; · iexact S8
          isplitl [S9]; · iexact S9
          iexact S10
        iexact HW

  rw [body_cut]
  unfold hbmPre scr sems0
  iintro ⟨#Hlv, ⟨Hx0, Hx1, Hx2, Hx3, Ho0, Ho1, Ho2, Ho3, Hs, Hd, Hc⟩,
    ⟨⟨%f0, B0⟩, ⟨%f1, B1⟩, ⟨%f2, B2⟩, ⟨%f3, B3⟩, ⟨%f4, B4⟩, ⟨%f5, B5⟩, ⟨%f6, B6⟩, ⟨%f7, B7⟩, ⟨%f8, B8⟩, ⟨%f9, B9⟩, ⟨%f10, B10⟩⟩,
    ⟨S0, S1, S2, S3, S4, S5, S6, S7, S8, S9, S10⟩, HO⟩
  ihave Hmw := ((K (F := F)).mayWaits_none (thr := thr d L) hO) $$ Hlv
  ihave C0 := (holds_intro d L X0 f0) $$ B0
  ihave C1 := (holds_intro d L X1 f1) $$ B1
  ihave C2 := (holds_intro d L X2 f2) $$ B2
  ihave C3 := (holds_intro d L X3 f3) $$ B3
  ihave C4 := (holds_intro d L A0 f4) $$ B4
  ihave C5 := (holds_intro d L A1 f5) $$ B5
  ihave C6 := (holds_intro d L A2 f6) $$ B6
  ihave C7 := (holds_intro d L A3 f7) $$ B7
  ihave C8 := (holds_intro d L CN f8) $$ B8
  ihave C9 := (holds_intro d L IS f9) $$ B9
  ihave C10 := (holds_intro d L ID f10) $$ B10
  iapply (p1 iprop(oPts d L (oSl0 L) mo ∗ oPts d L (oSl1 L) mo ∗ oPts d L (oSl2 L) mo ∗ oPts d L (oSl3 L) mo ∗ CRow d L mc) PUnit d L q mx ms md O W _ _ _ _ _ _ _ _ _ _ _ _ (fun _ => iprop(hbmPost d L q mx ms md ∗ scr d L ∗ sems0 d L ∗ ∃ W', ⌜∀ p ∈ W', p ∈ W ∨ p.2 = none⌝ ∗ owes (thr d L) O W')) (HH _ _ _ _ _))
  unfold XRows SemsRest Fr St CRow
  isplitl [Ho0 Ho1 Ho2 Ho3 Hc]
  · isplitl [Ho0]; · iexact Ho0
    isplitl [Ho1]; · iexact Ho1
    isplitl [Ho2]; · iexact Ho2
    isplitl [Ho3]; · iexact Ho3
    iexact Hc
  isplitl [Hx0 Hx1 Hx2 Hx3]
  · isplitl [Hx0]; · iexact Hx0
    isplitl [Hx1]; · iexact Hx1
    isplitl [Hx2]; · iexact Hx2
    iexact Hx3
  isplitl [S0 S1 S2 S3 S6 S7 S8 S9 S10]
  · isplitl [S0]; · iexact S0
    isplitl [S1]; · iexact S1
    isplitl [S2]; · iexact S2
    isplitl [S3]; · iexact S3
    isplitl [S6]; · iexact S6
    isplitl [S7]; · iexact S7
    isplitl [S8]; · iexact S8
    isplitl [S9]; · iexact S9
    iexact S10
  isplitl [Hmw Hs Hd S4 S5 HO]
  · isplitl [Hmw]; · iexact Hmw
    isplitl [Hs]; · iexact Hs
    isplitl [Hd]; · iexact Hd
    isplitl [S4]; · iexact S4
    isplitl [S5]; · iexact S5
    iexists W
    isplitr
    · ipureintro; exact fun p hp => Or.inl hp
    iexact HO
  isplitl [C0]; · iexact C0
  isplitl [C1]; · iexact C1
  isplitl [C2]; · iexact C2
  isplitl [C3]; · iexact C3
  isplitl [C4]; · iexact C4
  isplitl [C5]; · iexact C5
  isplitl [C6]; · iexact C6
  isplitl [C7]; · iexact C7
  isplitl [C8]; · iexact C8
  isplitl [C9]; · iexact C9
  iexact C10

end Cert.Proof.Agg1

end
-- ==== Proof.Agg1Mask.lean ====
import proofs.«215722_g7507602833967_cont_sun_m_718_28_alg».proof.Proof.Agg1BodyDefs
import proofs.«215722_g7507602833967_cont_sun_m_718_28_alg».proof.Proof.Agg2BodySteps
import proofs.«215722_g7507602833967_cont_sun_m_718_28_alg».proof.Proof.ScatterSumBlock
import Idealize.ShloMosaic.Lib.StableHlo.Predicate
import Idealize.ShloMosaic.Lib.ValueIdx

noncomputable section

namespace Cert.Proof.Agg1

open Cert.KernelIdeal Cert.KernelIdeal.Gen
open Cert.Proof.Sage Cert.Proof.ScatterSum
open Idealize.ShloMosaic

def div16 : BitVec 32 := Scalar.select (Scalar.cmpi .eq 16#32 0#32) 1#32 16#32

def fixmod (r : BitVec 32) : BitVec 32 :=
  Scalar.select (Scalar.andi (Scalar.xori (Scalar.cmpi .slt r 0#32) (Scalar.cmpi .slt div16 0#32)) (Scalar.cmpi .ne r 0#32)) (Scalar.addi r div16) r

def maskBit (a0 a1 a : BitVec 32) : BitVec 1 :=
  Scalar.andi (Scalar.cmpi .eq (fixmod (Scalar.remsi a div16)) a1) (Scalar.cmpi .eq a0 0#32)

theorem div16_eq : div16 = 16#32 := by decide

theorem iv_eq (t : Nat) : Scf.iv 0#32 1#32 t = BitVec.ofNat 32 t := by
  show 0#32 + BitVec.ofNat 32 t * 1#32 = _
  rw [BitVec.mul_one, BitVec.zero_add]

theorem remsi16 (t : Nat) (ht : t < 2 ^ 31) : Scalar.remsi (BitVec.ofNat 32 t) 16#32 = BitVec.ofNat 32 (t % 16) := by
  apply BitVec.eq_of_toNat_eq
  have h1 : (BitVec.ofNat 32 t).toNat = t := by rw [BitVec.toNat_ofNat]; omega
  have h2 := IntOp.toNat_remsi .scalar (x := BitVec.ofNat 32 t) (by rw [h1]; omega) 16 (by omega) (by omega)
  have h3 : (BitVec.ofNat 32 (t % 16)).toNat = t % 16 := by rw [BitVec.toNat_ofNat]; omega
  rw [h1] at h2
  rw [h3]
  exact h2

theorem fixmod_small (n : Nat) (hn : n < 16) : fixmod (BitVec.ofNat 32 n) = BitVec.ofNat 32 n := by
  have hlt : Scalar.cmpi .slt (BitVec.ofNat 32 n) 0#32 = 0#1 := by
    refine ValueIdx.eq_zero_of_ne_one fun h1 => ?_
    have h2 := IntOp.cmpi_slt.1 h1
    rw [StableHlo.Predicate.toInt_ofNat_small n (by omega)] at h2
    have e0 : (0#32 : BitVec 32).toInt = 0 := by decide
    omega
  unfold fixmod
  rw [hlt, div16_eq]
  have hx : Scalar.xori (0#1 : BitVec 1) (Scalar.cmpi .slt (16#32 : BitVec 32) 0#32) = 0#1 := by decide
  rw [hx]
  have ha : ∀ b : BitVec 1, Scalar.andi (0#1 : BitVec 1) b = 0#1 := by decide
  rw [ha]
  rfl

theorem cmpi_eq_small (m n : Nat) (hm : m < 2 ^ 32) (hn : n < 2 ^ 32) :
    Scalar.cmpi .eq (BitVec.ofNat 32 m) (BitVec.ofNat 32 n) = if m = n then 1#1 else 0#1 := by
  have hiff : BitVec.ofNat 32 m = BitVec.ofNat 32 n ↔ m = n := by
    constructor
    · intro h
      have := congrArg BitVec.toNat h
      rw [BitVec.toNat_ofNat, BitVec.toNat_ofNat, Nat.mod_eq_of_lt hm, Nat.mod_eq_of_lt hn] at this
      exact this
    · intro h; rw [h]
  by_cases h : m = n
  · rw [if_pos h]; exact IntOp.cmpi_eq.2 (hiff.2 h)
  · rw [if_neg h]
    exact ValueIdx.eq_zero_of_ne_one fun h1 => h (hiff.1 (IntOp.cmpi_eq.1 h1))

theorem maskBit_eq (L : grid0.Coords) (t : Nat) (ht : t < 2 ^ 31) :
    maskBit (BitVec.ofNat 32 (L 0).val) (BitVec.ofNat 32 (L 1).val) (BitVec.ofNat 32 t) = if t % 16 = (L 1).val ∧ (L 0).val = 0 then 1#1 else 0#1 := by
  have hL0 : (L 0).val < 2 := (L 0).isLt
  have hL1 : (L 1).val < 16 := (L 1).isLt
  unfold maskBit
  rw [div16_eq, remsi16 t ht, fixmod_small (t % 16) (Nat.mod_lt _ (by omega)),
    cmpi_eq_small (t % 16) (L 1).val (by omega) (by omega), cmpi_eq_small (L 0).val 0 (by omega) (by omega)]
  by_cases h1 : t % 16 = (L 1).val <;> by_cases h0 : (L 0).val = 0 <;> simp [h1, h0] <;> decide

theorem mask_of_bit (L : grid0.Coords) (t : Fin k0_t6_loop.trips) :
    (broadcast S16 (maskBit (BitVec.ofNat 32 (L 0).val) (BitVec.ofNat 32 (L 1).val) (Scf.iv 0#32 1#32 t)) : IVec S16 1) = maskOf L t.val := by
  have ht : t.val < 640 := Nat.lt_of_lt_of_le t.isLt k0_t6_abs.2.1
  rw [iv_eq, maskBit_eq L t.val (by omega)]
  rfl

theorem pay1_mask (L : grid0.Coords) (t : Fin k0_t6_loop.trips) :
    k0_pay1 (BitVec.ofNat 32 (L 0).val) (BitVec.ofNat 32 (L 1).val) 0#32 1#32 t = maskOf L t.val := mask_of_bit L t
theorem pay2_mask (L : grid0.Coords) (t : Fin k0_t6_loop.trips) :
    k0_pay2 (BitVec.ofNat 32 (L 0).val) (BitVec.ofNat 32 (L 1).val) (Scf.iv 0#32 1#32 t) = maskOf L t.val := mask_of_bit L t
theorem pay4_mask (L : grid0.Coords) (t : Fin k0_t6_loop.trips) :
    k0_pay4 (BitVec.ofNat 32 (L 0).val) (BitVec.ofNat 32 (L 1).val) (Scf.iv 0#32 1#32 t) = maskOf L t.val := mask_of_bit L t
theorem pay6_mask (L : grid0.Coords) (t : Fin k0_t6_loop.trips) :
    k0_pay6 (BitVec.ofNat 32 (L 0).val) (BitVec.ofNat 32 (L 1).val) (Scf.iv 0#32 1#32 t) = maskOf L t.val := mask_of_bit L t
theorem pay7_mask (L : grid0.Coords) (t : Fin k0_t6_loop.trips) :
    k0_pay7 (BitVec.ofNat 32 (L 0).val) (BitVec.ofNat 32 (L 1).val) (Scf.iv 0#32 1#32 t) = maskOf L t.val := mask_of_bit L t
theorem pay9_mask (L : grid0.Coords) (t : Fin k0_t6_loop.trips) :
    k0_pay9 (BitVec.ofNat 32 (L 0).val) (BitVec.ofNat 32 (L 1).val) (Scf.iv 0#32 1#32 t) = maskOf L t.val := mask_of_bit L t
theorem pay11_mask (L : grid0.Coords) (t : Fin k0_t6_loop.trips) :
    k0_pay11 (BitVec.ofNat 32 (L 0).val) (BitVec.ofNat 32 (L 1).val) (Scf.iv 0#32 1#32 t) = maskOf L t.val := mask_of_bit L t
theorem pay12_mask (L : grid0.Coords) (t : Fin k0_t6_loop.trips) :
    k0_pay12 (BitVec.ofNat 32 (L 0).val) (BitVec.ofNat 32 (L 1).val) (Scf.iv 0#32 1#32 t) = maskOf L t.val := mask_of_bit L t
theorem pay14_mask (L : grid0.Coords) (t : Fin k0_t6_loop.trips) :
    k0_pay14 (BitVec.ofNat 32 (L 0).val) (BitVec.ofNat 32 (L 1).val) (Scf.iv 0#32 1#32 t) = maskOf L t.val := mask_of_bit L t
theorem pay16_mask (L : grid0.Coords) (t : Fin k0_t6_loop.trips) :
    k0_pay16 (BitVec.ofNat 32 (L 0).val) (BitVec.ofNat 32 (L 1).val) (Scf.iv 0#32 1#32 t) = maskOf L t.val := mask_of_bit L t
theorem pay17_mask (L : grid0.Coords) (t : Fin k0_t6_loop.trips) :
    k0_pay17 (BitVec.ofNat 32 (L 0).val) (BitVec.ofNat 32 (L 1).val) (Scf.iv 0#32 1#32 t) = maskOf L t.val := mask_of_bit L t
theorem pay19_mask (L : grid0.Coords) (t : Fin k0_t6_loop.trips) :
    k0_pay19 (BitVec.ofNat 32 (L 0).val) (BitVec.ofNat 32 (L 1).val) (Scf.iv 0#32 1#32 t) = maskOf L t.val := mask_of_bit L t
theorem pay21_mask (L : grid0.Coords) (t : Fin k0_t6_loop.trips) :
    k0_pay21 (BitVec.ofNat 32 (L 0).val) (BitVec.ofNat 32 (L 1).val) (Scf.iv 0#32 1#32 t) = maskOf L t.val := mask_of_bit L t
theorem pay22_mask (L : grid0.Coords) (t : Fin k0_t6_loop.trips) :
    k0_pay22 (BitVec.ofNat 32 (L 0).val) (BitVec.ofNat 32 (L 1).val) (Scf.iv 0#32 1#32 t) = maskOf L t.val := mask_of_bit L t
theorem pay24_mask (L : grid0.Coords) (t : Fin k0_t6_loop.trips) :
    k0_pay24 (BitVec.ofNat 32 (L 0).val) (BitVec.ofNat 32 (L 1).val) (Scf.iv 0#32 1#32 t) = maskOf L t.val := mask_of_bit L t
theorem pay26_mask (L : grid0.Coords) (t : Fin k0_t6_loop.trips) :
    k0_pay26 (BitVec.ofNat 32 (L 0).val) (BitVec.ofNat 32 (L 1).val) (Scf.iv 0#32 1#32 t) = maskOf L t.val := mask_of_bit L t
theorem pay27_mask (L : grid0.Coords) (t : Fin k0_t6_loop.trips) :
    k0_pay27 (BitVec.ofNat 32 (L 0).val) (BitVec.ofNat 32 (L 1).val) (Scf.iv 0#32 1#32 t) = maskOf L t.val := mask_of_bit L t
theorem pay29_mask (L : grid0.Coords) (t : Fin k0_t6_loop.trips) :
    k0_pay29 (BitVec.ofNat 32 (L 0).val) (BitVec.ofNat 32 (L 1).val) (Scf.iv 0#32 1#32 t) = maskOf L t.val := mask_of_bit L t
theorem pay31_mask (L : grid0.Coords) (t : Fin k0_t6_loop.trips) :
    k0_pay31 (BitVec.ofNat 32 (L 0).val) (BitVec.ofNat 32 (L 1).val) (Scf.iv 0#32 1#32 t) = maskOf L t.val := mask_of_bit L t
theorem pay38_mask (L : grid0.Coords) (t : Fin k0_t6_loop.trips) :
    k0_pay38 (BitVec.ofNat 32 (L 0).val) (BitVec.ofNat 32 (L 1).val) (Scf.iv 0#32 1#32 t) = maskOf L t.val := mask_of_bit L t

theorem pay5_mask (L : grid0.Coords) (t : Fin k0_t6_loop.trips) :
    k0_pay5 (BitVec.ofNat 32 (L 0).val) (BitVec.ofNat 32 (L 1).val) (Scalar.select (Scalar.cmpi .eq 16#32 0#32) 1#32 16#32)
        (Scalar.remsi (Scf.iv 0#32 1#32 t) (Scalar.select (Scalar.cmpi .eq 16#32 0#32) 1#32 16#32)) 0#32 = maskOf L t.val := mask_of_bit L t
theorem pay10_mask (L : grid0.Coords) (t : Fin k0_t6_loop.trips) :
    k0_pay10 (BitVec.ofNat 32 (L 0).val) (BitVec.ofNat 32 (L 1).val) (Scalar.select (Scalar.cmpi .eq 16#32 0#32) 1#32 16#32)
        (Scalar.remsi (Scf.iv 0#32 1#32 t) (Scalar.select (Scalar.cmpi .eq 16#32 0#32) 1#32 16#32)) 0#32 = maskOf L t.val := mask_of_bit L t
theorem pay15_mask (L : grid0.Coords) (t : Fin k0_t6_loop.trips) :
    k0_pay15 (BitVec.ofNat 32 (L 0).val) (BitVec.ofNat 32 (L 1).val) (Scalar.select (Scalar.cmpi .eq 16#32 0#32) 1#32 16#32)
        (Scalar.remsi (Scf.iv 0#32 1#32 t) (Scalar.select (Scalar.cmpi .eq 16#32 0#32) 1#32 16#32)) 0#32 = maskOf L t.val := mask_of_bit L t
theorem pay20_mask (L : grid0.Coords) (t : Fin k0_t6_loop.trips) :
    k0_pay20 (BitVec.ofNat 32 (L 0).val) (BitVec.ofNat 32 (L 1).val) (Scalar.select (Scalar.cmpi .eq 16#32 0#32) 1#32 16#32)
        (Scalar.remsi (Scf.iv 0#32 1#32 t) (Scalar.select (Scalar.cmpi .eq 16#32 0#32) 1#32 16#32)) 0#32 = maskOf L t.val := mask_of_bit L t
theorem pay25_mask (L : grid0.Coords) (t : Fin k0_t6_loop.trips) :
    k0_pay25 (BitVec.ofNat 32 (L 0).val) (BitVec.ofNat 32 (L 1).val) (Scalar.select (Scalar.cmpi .eq 16#32 0#32) 1#32 16#32)
        (Scalar.remsi (Scf.iv 0#32 1#32 t) (Scalar.select (Scalar.cmpi .eq 16#32 0#32) 1#32 16#32)) 0#32 = maskOf L t.val := mask_of_bit L t
theorem pay30_mask (L : grid0.Coords) (t : Fin k0_t6_loop.trips) :
    k0_pay30 (BitVec.ofNat 32 (L 0).val) (BitVec.ofNat 32 (L 1).val) (Scalar.select (Scalar.cmpi .eq 16#32 0#32) 1#32 16#32)
        (Scalar.remsi (Scf.iv 0#32 1#32 t) (Scalar.select (Scalar.cmpi .eq 16#32 0#32) 1#32 16#32)) 0#32 = maskOf L t.val := mask_of_bit L t

theorem pay3_mask (L : grid0.Coords) (t : Fin k0_t6_loop.trips) :
    k0_pay3 (Scalar.cmpi .eq (fixmod (Scalar.remsi (Scf.iv 0#32 1#32 t) div16)) (BitVec.ofNat 32 (L 1).val)) (Scalar.cmpi .eq (BitVec.ofNat 32 (L 0).val) 0#32) = maskOf L t.val :=
  mask_of_bit L t
theorem pay8_mask (L : grid0.Coords) (t : Fin k0_t6_loop.trips) :
    k0_pay8 (Scalar.cmpi .eq (fixmod (Scalar.remsi (Scf.iv 0#32 1#32 t) div16)) (BitVec.ofNat 32 (L 1).val)) (Scalar.cmpi .eq (BitVec.ofNat 32 (L 0).val) 0#32) = maskOf L t.val :=
  mask_of_bit L t
theorem pay13_mask (L : grid0.Coords) (t : Fin k0_t6_loop.trips) :
    k0_pay13 (Scalar.cmpi .eq (fixmod (Scalar.remsi (Scf.iv 0#32 1#32 t) div16)) (BitVec.ofNat 32 (L 1).val)) (Scalar.cmpi .eq (BitVec.ofNat 32 (L 0).val) 0#32) = maskOf L t.val :=
  mask_of_bit L t
theorem pay18_mask (L : grid0.Coords) (t : Fin k0_t6_loop.trips) :
    k0_pay18 (Scalar.cmpi .eq (fixmod (Scalar.remsi (Scf.iv 0#32 1#32 t) div16)) (BitVec.ofNat 32 (L 1).val)) (Scalar.cmpi .eq (BitVec.ofNat 32 (L 0).val) 0#32) = maskOf L t.val :=
  mask_of_bit L t
theorem pay23_mask (L : grid0.Coords) (t : Fin k0_t6_loop.trips) :
    k0_pay23 (Scalar.cmpi .eq (fixmod (Scalar.remsi (Scf.iv 0#32 1#32 t) div16)) (BitVec.ofNat 32 (L 1).val)) (Scalar.cmpi .eq (BitVec.ofNat 32 (L 0).val) 0#32) = maskOf L t.val :=
  mask_of_bit L t
theorem pay28_mask (L : grid0.Coords) (t : Fin k0_t6_loop.trips) :
    k0_pay28 (Scalar.cmpi .eq (fixmod (Scalar.remsi (Scf.iv 0#32 1#32 t) div16)) (BitVec.ofNat 32 (L 1).val)) (Scalar.cmpi .eq (BitVec.ofNat 32 (L 0).val) 0#32) = maskOf L t.val :=
  mask_of_bit L t

section Count

open Idealize.SL Idealize.SL.RA Idealize.SL.BI
open scoped Idealize.SL.BI
open Idealize.SL.BI.BIBase Idealize.SL.BI.Laws Idealize.SL.ProofMode Idealize.SL.Sem
open Idealize.ShloMosaic.SparseCore (S V T)

variable {F : FTy → Type} [FloatOps F]

local notation "𝕄" => MM F

theorem cntBlock_store (A : Vec F SRow .f32) (dst : IVec SEdge 32) (mk : Nat → IVec SLane 1) (k0 n : Nat)
    (idx : IVec SLane 32) (v : Vec F SLane .f32) (m : IVec SLane 1) (h : InB idx)
    (hidx : idx = lanes16 dst (k0 + n)) (hv : v = broadcast SLane (Scalar.ofBits .f32 0x3F800000#32)) (hm : m = mk ((k0 + n) / 32)) :
    storeIdx (cntBlock A dst mk k0 n) ![idx] v m true h = cntBlock A dst mk k0 (n + 1) := by
  subst hidx hv hm
  rw [cntBlock_succ, scat_eq]

theorem cntBlock_store_trip (A : Vec F SRow .f32) (dst : IVec SEdge 32) (mk : Nat → IVec SLane 1) (g j : Nat) (hj : j < 32)
    (idx : IVec SLane 32) (v : Vec F SLane .f32) (m : IVec SLane 1) (h : InB idx)
    (hidx : idx = lanes16 dst (32 * g + j)) (hv : v = broadcast SLane (Scalar.ofBits .f32 0x3F800000#32)) (hm : m = mk g) :
    storeIdx (cntBlock A dst mk (32 * g) j) ![idx] v m true h = cntBlock A dst mk (32 * g) (j + 1) :=
  cntBlock_store A dst mk (32 * g) j idx v m h hidx hv (by rw [hm, group_of_lane g j hj])

end Count

end Cert.Proof.Agg1

end
-- ==== Proof.Agg1BodyTrip.lean ====
import proofs.«215722_g7507602833967_cont_sun_m_718_28_alg».proof.Proof.Agg1BodyDefs
import proofs.«215722_g7507602833967_cont_sun_m_718_28_alg».proof.Proof.ScatterSumBlock
import proofs.«215722_g7507602833967_cont_sun_m_718_28_alg».proof.Proof.Agg1BodySteps
import proofs.«215722_g7507602833967_cont_sun_m_718_28_alg».proof.Proof.Agg1Mask

noncomputable section

namespace Cert.Proof.Agg1

open Cert.KernelIdeal Cert.KernelIdeal.Gen
open Cert.Proof.Sage Cert.Proof.ScatterSum
open Cert.Proof.Agg2 (holds gath_step scat_step load_step chk_step)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

attribute [local irreducible] aggUpTo cntUpTo

section Fold
variable [FloatOps F]

theorem peelA {A A' x : Vec F SRow .f32} {src dst : IVec SEdge 32} {k0 n : Nat} {idx sidx : IVec SLane 32}
    {h1 : ∀ a y, ((![sidx] : Fin 1 → IVec SLane 32) a y).toNat < SRow.size a} {h2 : ∀ a y, ((![idx] : Fin 1 → IVec SLane 32) a y).toNat < SRow.size a}
    (hA : A = aggBlock A' x src dst k0 n) (hidx : idx = lanes16 dst (k0 + n)) (hs : sidx = lanes16 src (k0 + n)) :
    storeIdx A ![idx] (loadIdx x ![sidx] h1) (fun _ => 1#1) true h2 = aggBlock A' x src dst k0 (n + 1) := by
  subst hA hidx hs
  rw [gath_eq, scat_eq, aggBlock_succ]

theorem peelC {A A' : Vec F SRow .f32} {dst : IVec SEdge 32} {mk : Nat → IVec SLane 1} {g j : Nat} (hj : j < 32) {idx : IVec SLane 32}
    {v : Vec F SLane .f32} {m : IVec SLane 1} {h : ∀ a y, ((![idx] : Fin 1 → IVec SLane 32) a y).toNat < SRow.size a}
    (hA : A = cntBlock A' dst mk (32 * g) j) (hidx : idx = lanes16 dst (32 * g + j))
    (hv : v = broadcast SLane (Scalar.ofBits .f32 0x3F800000#32)) (hm : m = mk g) :
    storeIdx A ![idx] v m true h = cntBlock A' dst mk (32 * g) (j + 1) := by
  subst hA
  exact cntBlock_store_trip A' dst mk g j hj idx v m h hidx hv hm

end Fold

section Tile
variable [FloatOps F] (d : Dev nD) (L : grid0.Coords)

theorem St_congr {x0 x1 x2 x3 a0 a1 a2 a3 cn a0' a1' a2' a3' cn' : Vec F S10112 .f32} {is id : Vec F S512 .i32}
    (h0 : a0 = a0') (h1 : a1 = a1') (h2 : a2 = a2') (h3 : a3 = a3') (hc : cn = cn') :
    St d L x0 x1 x2 x3 a0 a1 a2 a3 cn is id ⊢ St d L x0 x1 x2 x3 a0' a1' a2' a3' cn' is id := by
  subst h0 h1 h2 h3 hc; exact .rfl
end Tile

section Trip
variable [FloatOps F] (d : Dev nD) (L : grid0.Coords)

set_option hygiene false in
local macro "o_l9" : tactic => `(tactic| apply l9 d L)
set_option hygiene false in
local macro "o_l10" : tactic => `(tactic| apply l10 d L)
set_option hygiene false in
local macro "o_ci" : tactic => `(tactic| apply cS d L (chk4 (fun y => his _)))
set_option hygiene false in
local macro "o_cd" : tactic => `(tactic| apply cS d L (chk5 (fun y => hid _)))
set_option hygiene false in
local macro "o_g0" : tactic => `(tactic| apply g0 d L)
set_option hygiene false in
local macro "o_g1" : tactic => `(tactic| apply g1 d L)
set_option hygiene false in
local macro "o_g2" : tactic => `(tactic| apply g2 d L)
set_option hygiene false in
local macro "o_g3" : tactic => `(tactic| apply g3 d L)
set_option hygiene false in
local macro "o_s4" : tactic => `(tactic| apply s4 d L)
set_option hygiene false in
local macro "o_s5" : tactic => `(tactic| apply s5 d L)
set_option hygiene false in
local macro "o_s6" : tactic => `(tactic| apply s6 d L)
set_option hygiene false in
local macro "o_s7" : tactic => `(tactic| apply s7 d L)
set_option hygiene false in
local macro "o_s8" : tactic => `(tactic| apply s8 d L)

local macro "lane" : tactic => `(tactic| (o_l9; o_ci; o_l10; o_cd; o_g0; o_s4; o_g1; o_s5; o_g2; o_s6; o_g3; o_s7; o_s8))
set_option hygiene false in
local macro "o_in " e:ident s:ident : tactic => `(tactic| (apply enter d L; rw [$e:ident]; unfold $s:ident))
set_option hygiene false in
local macro "o_out" : tactic => `(tactic| apply leave d L)

set_option maxHeartbeats 16000000 in

theorem trip (q : PosShare TreeShare) (ms : Buf (Elt F) (sA.view.loc (thr d L))) (md : Buf (Elt F) (dA.view.loc (thr d L)))
    (hs : ∀ e, (srcOf d L ms e).toNat < 10112) (hd : ∀ e, (dstOf d L md e).toNat < 10112)
    (O : CellTallies nD τ sig (HIx 2)) (W : Waits sig (HIx 2))
    (x0 x1 x2 x3 cn : Vec F S10112 .f32) (v1 : BitVec 32) (t : Fin k0_t6_loop.trips) (u : Unit) (is id : Vec F S512 .i32) :
    iprop(Fr d L q ms md O W ∗ St d L x0 x1 x2 x3 (aggUpTo x0 (srcOf d L ms) (dstOf d L md) (32 * t.val)) (aggUpTo x1 (srcOf d L ms) (dstOf d L md) (32 * t.val))
        (aggUpTo x2 (srcOf d L ms) (dstOf d L md) (32 * t.val)) (aggUpTo x3 (srcOf d L ms) (dstOf d L md) (32 * t.val)) cn is id)
      ⊢ wp frame (wpE (defs₀ (F := F)) 𝒱₀ (V d (cV L) (jV L)) none) Set.univ
          (k0_t6_body L xA (Memref.isWhole_whole _) sA (Memref.isWhole_whole _) dA (Memref.isWhole_whole _) oA (Memref.isWhole_whole _)
            cA (Memref.isWhole_whole _) X0 (Memref.isWhole_whole _) X1 (Memref.isWhole_whole _) X2 (Memref.isWhole_whole _) X3 (Memref.isWhole_whole _)
            A0 (Memref.isWhole_whole _) A1 (Memref.isWhole_whole _) A2 (Memref.isWhole_whole _) A3 (Memref.isWhole_whole _) CN (Memref.isWhole_whole _)
            IS (Memref.isWhole_whole _) ID (Memref.isWhole_whole _)
            cc0_scoped0 cc0_scoped1 cc0_scoped2 cc0_scoped3 cc0_scoped4 cc0_scoped5 cc0_scoped6 cc0_scoped7 cc0_scoped8 cc0_scoped9 cc0_scoped10
            (BitVec.ofNat 32 (L 0).val) (BitVec.ofNat 32 (L 1).val) v1 t u)
          fun _ => iprop(∃ is' id', Fr d L q ms md O W ∗ St d L x0 x1 x2 x3 (aggUpTo x0 (srcOf d L ms) (dstOf d L md) (32 * (t.val + 1))) (aggUpTo x1 (srcOf d L ms) (dstOf d L md) (32 * (t.val + 1)))
            (aggUpTo x2 (srcOf d L ms) (dstOf d L md) (32 * (t.val + 1))) (aggUpTo x3 (srcOf d L ms) (dstOf d L md) (32 * (t.val + 1))) (cntBlock cn (dstOf d L md) (maskOf L) (32 * t.val) 32) is' id') := by
  have his : ∀ j, (chunk512 (srcOf d L ms) t.val j).toNat < 10112 := chunk_lt _ hs _
  have hid : ∀ j, (chunk512 (dstOf d L md) t.val j).toNat < 10112 := chunk_lt _ hd _
  unfold k0_t6_body

  o_in k0_part1_eq_skeleton k0_part1_skel
  apply fetchS d L t
  apply fetchD d L t
  lane
  o_l9; o_ci; o_l10; o_cd; o_g0; o_s4; o_g1
  o_out
  o_in k0_part2_eq_skeleton k0_part2_skel
  o_s5; o_g2; o_s6; o_g3; o_s7; o_s8
  o_l9; o_ci; o_l10; o_cd; o_g0; o_s4; o_g1; o_s5; o_g2; o_s6; o_g3; o_s7
  o_out
  o_in k0_part3_eq_skeleton k0_part3_skel
  o_s8
  lane
  o_l9; o_ci; o_l10; o_cd; o_g0; o_s4; o_g1; o_s5; o_g2; o_s6; o_g3; o_s7
  o_out
  o_in k0_part4_eq_skeleton k0_part4_skel
  o_s8
  lane
  o_l9; o_ci; o_l10; o_cd; o_g0; o_s4; o_g1
  o_out
  o_in k0_part5_eq_skeleton k0_part5_skel
  o_s5; o_g2; o_s6; o_g3; o_s7; o_s8
  o_l9; o_ci; o_l10; o_cd; o_g0; o_s4; o_g1; o_s5; o_g2; o_s6; o_g3; o_s7
  o_out
  o_in k0_part6_eq_skeleton k0_part6_skel
  o_s8
  lane
  o_l9; o_ci; o_l10; o_cd; o_g0; o_s4; o_g1; o_s5; o_g2; o_s6; o_g3; o_s7
  o_out
  o_in k0_part7_eq_skeleton k0_part7_skel
  o_s8
  lane
  o_l9; o_ci; o_l10; o_cd; o_g0; o_s4; o_g1
  o_out
  o_in k0_part8_eq_skeleton k0_part8_skel
  o_s5; o_g2; o_s6; o_g3; o_s7; o_s8
  o_l9; o_ci; o_l10; o_cd; o_g0; o_s4; o_g1; o_s5; o_g2; o_s6; o_g3; o_s7
  o_out
  o_in k0_part9_eq_skeleton k0_part9_skel
  o_s8
  lane
  o_l9; o_ci; o_l10; o_cd; o_g0; o_s4; o_g1; o_s5; o_g2; o_s6; o_g3; o_s7
  o_out
  o_in k0_part10_eq_skeleton k0_part10_skel
  o_s8
  lane
  o_l9; o_ci; o_l10; o_cd; o_g0; o_s4; o_g1
  o_out
  o_in k0_part11_eq_skeleton k0_part11_skel
  o_s5; o_g2; o_s6; o_g3; o_s7; o_s8
  o_l9; o_ci; o_l10; o_cd; o_g0; o_s4; o_g1; o_s5; o_g2; o_s6; o_g3; o_s7
  o_out
  o_in k0_part12_eq_skeleton k0_part12_skel
  o_s8
  lane
  o_l9; o_ci; o_l10; o_cd; o_g0; o_s4; o_g1; o_s5; o_g2; o_s6; o_g3; o_s7
  o_out
  o_in k0_part13_eq_skeleton k0_part13_skel
  o_s8
  lane
  o_l9; o_ci; o_l10; o_cd; o_g0; o_s4; o_g1
  o_out
  o_in k0_part14_eq_skeleton k0_part14_skel
  o_s5; o_g2; o_s6; o_g3; o_s7; o_s8
  o_l9; o_ci; o_l10; o_cd; o_g0; o_s4; o_g1; o_s5; o_g2; o_s6; o_g3; o_s7
  o_out
  o_in k0_part15_eq_skeleton k0_part15_skel
  o_s8
  lane
  o_l9; o_ci; o_l10; o_cd; o_g0; o_s4; o_g1; o_s5; o_g2; o_s6; o_g3; o_s7
  o_out
  o_in k0_part16_eq_skeleton k0_part16_skel
  o_s8
  lane
  o_l9; o_ci; o_l10; o_cd; o_g0; o_s4; o_g1
  o_out
  o_in k0_part17_eq_skeleton k0_part17_skel
  o_s5; o_g2; o_s6; o_g3; o_s7; o_s8
  o_l9; o_ci; o_l10; o_cd; o_g0; o_s4; o_g1; o_s5; o_g2; o_s6; o_g3; o_s7
  o_out
  o_in k0_part18_eq_skeleton k0_part18_skel
  o_s8
  lane
  o_l9; o_ci; o_l10; o_cd; o_g0; o_s4; o_g1; o_s5; o_g2; o_s6; o_g3; o_s7
  o_out
  o_in k0_part19_eq_skeleton k0_part19_skel
  o_s8
  lane
  o_l9; o_ci; o_l10; o_cd; o_g0; o_s4; o_g1
  o_out

  o_s5; o_g2; o_s6; o_g3; o_s7; o_s8
  o_out

  have h32 : 32 * (t.val + 1) = 32 * t.val + 32 := by omega
  refine BIBase.Entails.trans (BI.sep_mono_r (St_congr d L (a0' := aggUpTo x0 (srcOf d L ms) (dstOf d L md) (32 * (t.val + 1))) (a1' := aggUpTo x1 (srcOf d L ms) (dstOf d L md) (32 * (t.val + 1)))
    (a2' := aggUpTo x2 (srcOf d L ms) (dstOf d L md) (32 * (t.val + 1))) (a3' := aggUpTo x3 (srcOf d L ms) (dstOf d L md) (32 * (t.val + 1)))
    (cn' := cntBlock cn (dstOf d L md) (maskOf L) (32 * t.val) 32) ?_ ?_ ?_ ?_ ?_)) ?_
  ·
    rw [h32, aggUpTo_add]
    repeat (refine peelA ?_ (lanes16_of_rect _ _ _ _ (by decide)) (lanes16_of_rect _ _ _ _ (by decide)))
    rfl
  ·
    rw [h32, aggUpTo_add]
    repeat (refine peelA ?_ (lanes16_of_rect _ _ _ _ (by decide)) (lanes16_of_rect _ _ _ _ (by decide)))
    rfl
  ·
    rw [h32, aggUpTo_add]
    repeat (refine peelA ?_ (lanes16_of_rect _ _ _ _ (by decide)) (lanes16_of_rect _ _ _ _ (by decide)))
    rfl
  ·
    rw [h32, aggUpTo_add]
    repeat (refine peelA ?_ (lanes16_of_rect _ _ _ _ (by decide)) (lanes16_of_rect _ _ _ _ (by decide)))
    rfl
  ·
    refine peelC (by decide) ?_ (lanes16_of_rect _ _ _ _ (by decide)) rfl (pay38_mask L t)
    refine peelC (by decide) ?_ (lanes16_of_rect _ _ _ _ (by decide)) rfl (pay31_mask L t)
    refine peelC (by decide) ?_ (lanes16_of_rect _ _ _ _ (by decide)) rfl (pay30_mask L t)
    refine peelC (by decide) ?_ (lanes16_of_rect _ _ _ _ (by decide)) rfl (pay29_mask L t)
    refine peelC (by decide) ?_ (lanes16_of_rect _ _ _ _ (by decide)) rfl (pay28_mask L t)
    refine peelC (by decide) ?_ (lanes16_of_rect _ _ _ _ (by decide)) rfl (pay27_mask L t)
    refine peelC (by decide) ?_ (lanes16_of_rect _ _ _ _ (by decide)) rfl (pay26_mask L t)
    refine peelC (by decide) ?_ (lanes16_of_rect _ _ _ _ (by decide)) rfl (pay25_mask L t)
    refine peelC (by decide) ?_ (lanes16_of_rect _ _ _ _ (by decide)) rfl (pay24_mask L t)
    refine peelC (by decide) ?_ (lanes16_of_rect _ _ _ _ (by decide)) rfl (pay23_mask L t)
    refine peelC (by decide) ?_ (lanes16_of_rect _ _ _ _ (by decide)) rfl (pay22_mask L t)
    refine peelC (by decide) ?_ (lanes16_of_rect _ _ _ _ (by decide)) rfl (pay21_mask L t)
    refine peelC (by decide) ?_ (lanes16_of_rect _ _ _ _ (by decide)) rfl (pay20_mask L t)
    refine peelC (by decide) ?_ (lanes16_of_rect _ _ _ _ (by decide)) rfl (pay19_mask L t)
    refine peelC (by decide) ?_ (lanes16_of_rect _ _ _ _ (by decide)) rfl (pay18_mask L t)
    refine peelC (by decide) ?_ (lanes16_of_rect _ _ _ _ (by decide)) rfl (pay17_mask L t)
    refine peelC (by decide) ?_ (lanes16_of_rect _ _ _ _ (by decide)) rfl (pay16_mask L t)
    refine peelC (by decide) ?_ (lanes16_of_rect _ _ _ _ (by decide)) rfl (pay15_mask L t)
    refine peelC (by decide) ?_ (lanes16_of_rect _ _ _ _ (by decide)) rfl (pay14_mask L t)
    refine peelC (by decide) ?_ (lanes16_of_rect _ _ _ _ (by decide)) rfl (pay13_mask L t)
    refine peelC (by decide) ?_ (lanes16_of_rect _ _ _ _ (by decide)) rfl (pay12_mask L t)
    refine peelC (by decide) ?_ (lanes16_of_rect _ _ _ _ (by decide)) rfl (pay11_mask L t)
    refine peelC (by decide) ?_ (lanes16_of_rect _ _ _ _ (by decide)) rfl (pay10_mask L t)
    refine peelC (by decide) ?_ (lanes16_of_rect _ _ _ _ (by decide)) rfl (pay9_mask L t)
    refine peelC (by decide) ?_ (lanes16_of_rect _ _ _ _ (by decide)) rfl (pay8_mask L t)
    refine peelC (by decide) ?_ (lanes16_of_rect _ _ _ _ (by decide)) rfl (pay7_mask L t)
    refine peelC (by decide) ?_ (lanes16_of_rect _ _ _ _ (by decide)) rfl (pay6_mask L t)
    refine peelC (by decide) ?_ (lanes16_of_rect _ _ _ _ (by decide)) rfl (pay5_mask L t)
    refine peelC (by decide) ?_ (lanes16_of_rect _ _ _ _ (by decide)) rfl (pay4_mask L t)
    refine peelC (by decide) ?_ (lanes16_of_rect _ _ _ _ (by decide)) rfl (pay3_mask L t)
    refine peelC (by decide) ?_ (lanes16_of_rect _ _ _ _ (by decide)) rfl (pay2_mask L t)
    refine peelC (by decide) ?_ (lanes16_of_rect _ _ _ _ (by decide)) rfl (pay1_mask L t)
    rfl
  · iintro H
    iexists _, _
    iexact H

end Trip

end Cert.Proof.Agg1

end
-- ==== Proof.Agg2BodyZero.lean ====
import proofs.«215722_g7507602833967_cont_sun_m_718_28_alg».proof.Proof.Agg2BodySteps

noncomputable section

namespace Cert.Proof.Agg2

open Cert.KernelIdeal Cert.KernelIdeal.Gen
open Cert.Proof.Sage Cert.Proof.ScatterSum

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

local notation "xW" => (Memref.whole Cert.KernelIdeal.main_v17_scv : Memref Cert.KernelIdeal.sig Kind.scVector Space.hbm Cert.KernelIdeal.S1294336 EltTy.f32)
local notation "sW" => (Memref.whole Cert.KernelIdeal.main_v5_scv : Memref Cert.KernelIdeal.sig Kind.scVector Space.hbm Cert.KernelIdeal.S327680 EltTy.i32)
local notation "dW" => (Memref.whole Cert.KernelIdeal.main_v7_scv : Memref Cert.KernelIdeal.sig Kind.scVector Space.hbm Cert.KernelIdeal.S327680 EltTy.i32)
local notation "oW" => (Memref.whole Cert.KernelIdeal.main_v18_scv : Memref Cert.KernelIdeal.sig Kind.scVector Space.hbm Cert.KernelIdeal.S1294336 EltTy.f32)
local notation "b0" => (Memref.whole Cert.KernelIdeal.cc2_scratch0 : Memref Cert.KernelIdeal.sig Kind.scVector Space.vmem Cert.KernelIdeal.S10112 EltTy.f32)
local notation "b1" => (Memref.whole Cert.KernelIdeal.cc2_scratch1 : Memref Cert.KernelIdeal.sig Kind.scVector Space.vmem Cert.KernelIdeal.S10112 EltTy.f32)
local notation "b2" => (Memref.whole Cert.KernelIdeal.cc2_scratch2 : Memref Cert.KernelIdeal.sig Kind.scVector Space.vmem Cert.KernelIdeal.S10112 EltTy.f32)
local notation "b3" => (Memref.whole Cert.KernelIdeal.cc2_scratch3 : Memref Cert.KernelIdeal.sig Kind.scVector Space.vmem Cert.KernelIdeal.S10112 EltTy.f32)
local notation "b4" => (Memref.whole Cert.KernelIdeal.cc2_scratch4 : Memref Cert.KernelIdeal.sig Kind.scVector Space.vmem Cert.KernelIdeal.S10112 EltTy.f32)
local notation "b5" => (Memref.whole Cert.KernelIdeal.cc2_scratch5 : Memref Cert.KernelIdeal.sig Kind.scVector Space.vmem Cert.KernelIdeal.S10112 EltTy.f32)
local notation "b6" => (Memref.whole Cert.KernelIdeal.cc2_scratch6 : Memref Cert.KernelIdeal.sig Kind.scVector Space.vmem Cert.KernelIdeal.S10112 EltTy.f32)
local notation "b7" => (Memref.whole Cert.KernelIdeal.cc2_scratch7 : Memref Cert.KernelIdeal.sig Kind.scVector Space.vmem Cert.KernelIdeal.S10112 EltTy.f32)
local notation "b8" => (Memref.whole Cert.KernelIdeal.cc2_scratch8 : Memref Cert.KernelIdeal.sig Kind.scVector Space.vmem Cert.KernelIdeal.S512 EltTy.i32)
local notation "b9" => (Memref.whole Cert.KernelIdeal.cc2_scratch9 : Memref Cert.KernelIdeal.sig Kind.scVector Space.vmem Cert.KernelIdeal.S512 EltTy.i32)

section Zero

variable [FloatOps F] {s t : Shape} {e : EltTy} {α : Type}
variable (d : Dev nD) (c : Fin τ.nSC) (i : Fin τ.nSub)

theorem store_const_step {base : Memref sig .scVector .vmem s e} (hw : base.IsWhole) {x : Vec F s e} {r : Rect s} {z : Elt F e}
    {hx : (base.access r).Stores Finset.univ} {hm : (Finset.univ : Finset r.shape.Idx) = Finset.univ ∨ ∀ a, r.stride a = 1}
    {k : PUnit → Prog (TpuEff nD τ sig (Elt F) Λ₀ (.scVector c i)) α} {Q : α → sProp 𝕄} :
    holds d c i base x
      ⊢ iprop((holds d c i base (fun y => if y ∈ r.set then z else x y) -∗ wp frame (wpE (defs₀ (F := F)) 𝒱₀ (V d c i) none) Set.univ (k ⟨⟩) Q)
        -∗ wp frame (wpE (defs₀ (F := F)) 𝒱₀ (V d c i) none) Set.univ (Prog.lift (.store base r (fun _ => z) Finset.univ hx hm) >>= k) Q) := by
  obtain ⟨⟨sp', ix, hix⟩, hsp, hs', he, hb⟩ := hw
  subst hs' he
  change sp' = Space.vmem at hsp
  subst hsp
  obtain rfl := eq_of_heq hb
  unfold holds
  iintro ⟨%f, Hf, %hf⟩ Hk
  subst hf
  rw [Prog.bind_lift]
  iapply (wp_store (defs := defs₀ (F := F)) 𝒱₀ (V d c i) none Set.univ (m := Memref.whole ⟨Space.vmem, ix, hix⟩) (r := r) (w := fun _ => z)
    (Mk := Finset.univ) (hx := hx) (hm := hm) (k := k) (Q := Q) (S := Finset.univ) (f := f) (Finset.subset_univ _)) $$ Hf
  iintro Hf
  iapply Hk
  iexists _
  isplitl [Hf]
  · iexact Hf
  · ipureintro
    funext y
    by_cases hy : y ∈ r.set
    · obtain ⟨j, rfl⟩ := r.toLoadRect.exists_idx_of_mem hy
      rw [if_pos hy]
      exact View.read_slice_write_emb (v := (Memref.whole (⟨Space.vmem, ix, hix⟩ : Ref sig .scVector)).view) r f (fun _ => z) (Finset.mem_univ j)
    · rw [if_neg hy]
      exact View.read_slice_write_of_not_mem (v := (Memref.whole (⟨Space.vmem, ix, hix⟩ : Ref sig .scVector)).view) r f (fun _ => z) Finset.univ
        (by rw [Rect.map_emb_univ]; exact hy)

def zeroedTo (z : Elt F .f32) (a : Vec F S10112 .f32) (n : Nat) : Vec F S10112 .f32 :=
  fun j => if (j 0).val < 16 * n then z else a j

theorem zeroedTo_zero (z : Elt F .f32) (a : Vec F S10112 .f32) : zeroedTo z a 0 = a :=
  funext fun j => if_neg (by omega)

theorem zeroedTo_all (z : Elt F .f32) (a : Vec F S10112 .f32) : zeroedTo z a 632 = fun _ => z :=
  funext fun j => if_pos (by have h : (j 0).val < 10112 := (j 0).isLt; omega)

theorem zeroedTo_succ (z : Elt F .f32) (a : Vec F S10112 .f32) (n : Nat) (hinb : ∀ a, (![16 * n] : Fin 1 → Nat) a + S16.size a ≤ S10112.size a) :
    (fun y => if y ∈ (Rect.unit (s := S10112) ![16 * n] S16.size hinb).set then z else zeroedTo z a n y) = zeroedTo z a (n + 1) := by
  funext y
  unfold zeroedTo
  by_cases hy : y ∈ (Rect.unit (s := S10112) ![16 * n] S16.size hinb).set
  · rw [if_pos hy]
    have h1 : 16 * n ≤ (y 0).val ∧ (y 0).val < 16 * n + 16 := (Rect.mem_set_unit.mp hy) 0
    rw [if_pos (by omega)]
  · rw [if_neg hy]
    have hn : ¬ (16 * n ≤ (y 0).val ∧ (y 0).val < 16 * n + 16) := fun h => hy (Rect.mem_set_unit.mpr (Fin.forall_fin_one.mpr h))
    by_cases h2 : (y 0).val < 16 * n
    · rw [if_pos h2, if_pos (by omega)]
    · rw [if_neg h2, if_neg (by omega)]

theorem zero_trip {base : Memref sig .scVector .vmem S10112 .f32} (hw : base.IsWhole) (off : Fin 1 → Nat)
    (hinb : ∀ a, off a + S16.size a ≤ S10112.size a) (n : Nat) (hoff : off = ![16 * n]) (z : Elt F .f32) (pay : Vec F S16 .f32)
    (hpay : pay = fun _ => z) (a : Vec F S10112 .f32) {hl} {hx} {hm}
    {k : PUnit → Prog (TpuEff nD τ sig (Elt F) Λ₀ (.scVector c i)) α} {Q : α → sProp 𝕄} :
    holds d c i base (zeroedTo z a n)
      ⊢ iprop((holds d c i base (zeroedTo z a (n + 1)) -∗ wp frame (wpE (defs₀ (F := F)) 𝒱₀ (V d c i) none) Set.univ (k ⟨⟩) Q)
        -∗ wp frame (wpE (defs₀ (F := F)) 𝒱₀ (V d c i) none) Set.univ
          (Prog.lift (.load base (Rect.unit (s := S10112) off S16.size hinb).toLoadRect hl) >>= fun _ =>
            Prog.lift (.store base (Rect.unit (s := S10112) off S16.size hinb) pay Finset.univ hx hm) >>= k) Q) := by
  subst hpay hoff
  iintro H Hk
  iapply (load_step d c i hw (x := zeroedTo z a n) (r := (Rect.unit (s := S10112) ![16 * n] S16.size hinb).toLoadRect) (hl := hl)
    (k := fun _ => Prog.lift (.store base (Rect.unit (s := S10112) ![16 * n] S16.size hinb) (fun _ => z) Finset.univ hx hm) >>= k) (Q := Q)) $$ H
  iintro H
  iapply (store_const_step d c i hw (x := zeroedTo z a n) (r := Rect.unit (s := S10112) ![16 * n] S16.size hinb) (z := z) (hx := hx) (hm := hm)
    (k := k) (Q := Q)) $$ H
  rw [zeroedTo_succ z a n hinb]
  iexact Hk

theorem zero_region {base : Memref sig .scVector .vmem S10112 .f32} (hw : base.IsWhole) (off : Fin 1 → Nat)
    (hinb : ∀ a, off a + S16.size a ≤ S10112.size a) (n : Nat) (hoff : off = ![16 * n]) (z : Elt F .f32) (pay : Vec F S16 .f32)
    (hpay : pay = fun _ => z) (a : Vec F S10112 .f32) {hl} {hx} {hm} :
    holds d c i base (zeroedTo z a n)
      ⊢ wp frame (wpE (defs₀ (F := F)) 𝒱₀ (V d c i) none) Set.univ
          (Prog.lift (.load base (Rect.unit (s := S10112) off S16.size hinb).toLoadRect hl) >>= fun _ =>
            Prog.lift (.store base (Rect.unit (s := S10112) off S16.size hinb) pay Finset.univ hx hm) >>= fun _ =>
              (pure ⟨⟩ : Prog (TpuEff nD τ sig (Elt F) Λ₀ (.scVector c i)) Unit))
          (fun _ => holds d c i base (zeroedTo z a (n + 1))) := by
  iintro H
  iapply (zero_trip d c i hw off hinb n hoff z pay hpay a (hl := hl) (hx := hx) (hm := hm)
    (k := fun _ => (pure ⟨⟩ : Prog (TpuEff nD τ sig (Elt F) Λ₀ (.scVector c i)) Unit))
    (Q := fun _ => holds d c i base (zeroedTo z a (n + 1)))) $$ H
  iintro H
  first
    | (sl_step; iexact H)
    | (rw [Prog.pure_eq_ret, wp_ret]; imodintro; iexact H)

end Zero

end Cert.Proof.Agg2

end
-- ==== Proof.Agg1Zero.lean ====
import proofs.«215722_g7507602833967_cont_sun_m_718_28_alg».proof.Proof.Agg1BodyDefs
import proofs.«215722_g7507602833967_cont_sun_m_718_28_alg».proof.Proof.Agg2BodyZero

noncomputable section

namespace Cert.Proof.Agg1

open Cert.KernelIdeal Cert.KernelIdeal.Gen
open Cert.Proof.Sage Cert.Proof.ScatterSum

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

variable [FloatOps F]

def ZInv (m : Memref sig .scVector .vmem S10112 .f32) (d : Dev nD) (L : grid0.Coords) (a0 : Vec F S10112 .f32) (k : Nat) (_ : Unit) : sProp 𝕄 :=
  Agg2.holds d (cV L) (jV L) m (Agg2.zeroedTo (Scalar.ofBits .f32 0x00000000#32) a0 k)

theorem ZInv_init (m : Memref sig .scVector .vmem S10112 .f32) (d : Dev nD) (L : grid0.Coords) (g : Buf (Elt F) (m.view.loc (thr d L))) (u : Unit) :
    (m.view.loc (thr d L) ↦{fullShare} g) ⊢ ZInv m d L (m.view.read (Elt F) g) 0 u := by
  unfold ZInv Agg2.holds
  rw [Agg2.zeroedTo_zero]
  iintro H
  iexists g
  isplitl [H]
  · iexact H
  · ipureintro; rfl

theorem ZInv_done (m : Memref sig .scVector .vmem S10112 .f32) (d : Dev nD) (L : grid0.Coords) (a0 : Vec F S10112 .f32) (u : Unit) :
    ZInv m d L a0 632 u
      ⊢ iprop(∃ f, (m.view.loc (thr d L) ↦{fullShare} f) ∗ ⌜m.view.read (Elt F) f = fun _ => Scalar.ofBits .f32 0x00000000#32⌝) := by
  unfold ZInv Agg2.holds
  rw [Agg2.zeroedTo_all]

end Cert.Proof.Agg1

end
-- ==== Proof.Agg1Prologue.lean ====
import proofs.«215722_g7507602833967_cont_sun_m_718_28_alg».proof.Proof.Agg1BodyCut
import proofs.«215722_g7507602833967_cont_sun_m_718_28_alg».proof.Proof.Agg1BodySteps
import proofs.«215722_g7507602833967_cont_sun_m_718_28_alg».proof.Proof.Agg1Zero

noncomputable section

namespace Cert.Proof.Agg1

open Cert.KernelIdeal Cert.KernelIdeal.Gen
open Cert.Proof.Sage Cert.Proof.ScatterSum
open Cert.Proof.Agg2 (holds)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

set_option maxHeartbeats 8000000 in

theorem part20_rule {R : sProp 𝕄} {α : Type} (d : Dev nD) (L : grid0.Coords) (q : PosShare TreeShare)
    (mx : Buf (Elt F) (xA.view.loc (thr d L))) (ms : Buf (Elt F) (sA.view.loc (thr d L))) (md : Buf (Elt F) (dA.view.loc (thr d L)))
    (O : CellTallies nD τ sig (HIx 2)) (W : Waits sig (HIx 2))
    {y0 y1 y2 y3 b0 b1 b2 b3 cn : Vec F S10112 .f32} {is id : Vec F S512 .i32}
    {kk : (Σ' (arg0 : BitVec 32) (arg1 : BitVec 32), BitVec 32) → Prog (TpuEff nD τ sig (Elt F) Λ₀ (.scVector (cV L) (jV L))) α} {Q : α → sProp 𝕄}
    (H : iprop(R ∗ XRows d L mx ∗ SemsRest d L ∗ Fr d L q ms md O W
        ∗ St d L (rowOfX d L (xSl0 L) mx) (rowOfX d L (xSl1 L) mx) (rowOfX d L (xSl2 L) mx) y3 zrow zrow zrow b3 cn is id)
      ⊢ wp frame (wpE (defs₀ (F := F)) 𝒱₀ (V d (cV L) (jV L)) none) Set.univ (kk ⟨a0w L, a1w L, v1w L⟩) Q) :
    iprop(R ∗ XRows d L mx ∗ SemsRest d L ∗ Fr d L q ms md O W ∗ St d L y0 y1 y2 y3 b0 b1 b2 b3 cn is id)
      ⊢ wp frame (wpE (defs₀ (F := F)) 𝒱₀ (V d (cV L) (jV L)) none) Set.univ (k0_part20 L xA (Memref.isWhole_whole _) sA (Memref.isWhole_whole _) dA (Memref.isWhole_whole _) oA (Memref.isWhole_whole _) cA (Memref.isWhole_whole _) X0 (Memref.isWhole_whole _) X1 (Memref.isWhole_whole _) X2 (Memref.isWhole_whole _) X3 (Memref.isWhole_whole _) A0 (Memref.isWhole_whole _) A1 (Memref.isWhole_whole _) A2 (Memref.isWhole_whole _) A3 (Memref.isWhole_whole _) CN (Memref.isWhole_whole _) IS (Memref.isWhole_whole _) ID (Memref.isWhole_whole _) cc0_scoped0 cc0_scoped1 cc0_scoped2 cc0_scoped3 cc0_scoped4 cc0_scoped5 cc0_scoped6 cc0_scoped7 cc0_scoped8 cc0_scoped9 cc0_scoped10 >>= kk) Q := by
  rw [wp_bind, k0_part20_eq_skeleton]; unfold k0_part20_skel
  unfold XRows SemsRest Fr St at H ⊢
  iintro ⟨HR, ⟨Hx0, Hx1, Hx2, Hx3⟩, ⟨Hs0, Hs1, Hs2, Hs3, Hs6, Hs7, Hs8, Hs9, Hs10⟩, ⟨Hmw, Hs, Hd, Hsem4, Hsem5, %W', %hW', HO⟩,
    H0, H1, H2, H3, H4, H5, H6, H7, H8, H9, H10⟩
  unfold holds at H ⊢
  icases H0 with ⟨%f0, H0, -⟩
  icases H1 with ⟨%f1, H1, -⟩
  icases H2 with ⟨%f2, H2, -⟩
  icases H4 with ⟨%f4, H4, -⟩
  icases H5 with ⟨%f5, H5, -⟩
  icases H6 with ⟨%f6, H6, -⟩

  sl_exec
  ihave HI := (ZInv_init A0 d L f4 ()) $$ H4
  sl_for (ZInv A0 d L (A0.view.read (Elt F) f4)) $$ [HI]
  case region =>
    intro t u
    exact Agg2.zero_region d (cV L) (jV L) (Memref.isWhole_whole _) (k0_off2 t) (k0_off2_inb t) t.val (k0_off2_eq t) (Scalar.ofBits .f32 0x00000000#32) k0_pay32 rfl (A0.view.read (Elt F) f4)
  · iexact HI
  rw [show Scf.trips k0_t1_loop.lb k0_t1_loop.ub k0_t1_loop.st = 632 from by decide]
  iintro %u1 HI
  ihave HD := (ZInv_done A0 d L (A0.view.read (Elt F) f4) u1) $$ HI
  icases HD with ⟨%g1, H4, %z1⟩

  sl_exec
  ihave HI := (ZInv_init A1 d L f5 ()) $$ H5
  sl_for (ZInv A1 d L (A1.view.read (Elt F) f5)) $$ [HI]
  case region =>
    intro t u
    exact Agg2.zero_region d (cV L) (jV L) (Memref.isWhole_whole _) (k0_off3 t) (k0_off3_inb t) t.val (k0_off3_eq t) (Scalar.ofBits .f32 0x00000000#32) k0_pay33 rfl (A1.view.read (Elt F) f5)
  · iexact HI
  rw [show Scf.trips k0_t2_loop.lb k0_t2_loop.ub k0_t2_loop.st = 632 from by decide]
  iintro %u2 HI
  ihave HD := (ZInv_done A1 d L (A1.view.read (Elt F) f5) u2) $$ HI
  icases HD with ⟨%g2, H5, %z2⟩

  sl_exec
  ihave HI := (ZInv_init A2 d L f6 ()) $$ H6
  sl_for (ZInv A2 d L (A2.view.read (Elt F) f6)) $$ [HI]
  case region =>
    intro t u
    exact Agg2.zero_region d (cV L) (jV L) (Memref.isWhole_whole _) (k0_off4 t) (k0_off4_inb t) t.val (k0_off4_eq t) (Scalar.ofBits .f32 0x00000000#32) k0_pay34 rfl (A2.view.read (Elt F) f6)
  · iexact HI
  rw [show Scf.trips k0_t3_loop.lb k0_t3_loop.ub k0_t3_loop.st = 632 from by decide]
  iintro %u3 HI
  ihave HD := (ZInv_done A2 d L (A2.view.read (Elt F) f6) u3) $$ HI
  icases HD with ⟨%g3, H6, %z3⟩
  sl_exec
  iapply H
  isplitl [HR]
  · iexact HR
  isplitl [Hx0 Hx1 Hx2 Hx3]
  · isplitl [Hx0]
    · iexact Hx0
    isplitl [Hx1]
    · iexact Hx1
    isplitl [Hx2]
    · iexact Hx2
    iexact Hx3
  isplitl [Hs0 Hs1 Hs2 Hs3 Hs6 Hs7 Hs8 Hs9 Hs10]
  · isplitl [Hs0]
    · iexact Hs0
    isplitl [Hs1]
    · iexact Hs1
    isplitl [Hs2]
    · iexact Hs2
    isplitl [Hs3]
    · iexact Hs3
    isplitl [Hs6]
    · iexact Hs6
    isplitl [Hs7]
    · iexact Hs7
    isplitl [Hs8]
    · iexact Hs8
    isplitl [Hs9]
    · iexact Hs9
    iexact Hs10
  isplitl [Hmw Hs Hd Hsem4 Hsem5 HO]
  · isplitl [Hmw]
    · iexact Hmw
    isplitl [Hs]
    · iexact Hs
    isplitl [Hd]
    · iexact Hd
    isplitl [Hsem4]
    · iexact Hsem4
    isplitl [Hsem5]
    · iexact Hsem5
    iexists (insert (SemLoc.dma cc0_scoped2.sem, (default : HIx 2)) (insert (SemLoc.dma cc0_scoped1.sem, (default : HIx 2)) (insert (SemLoc.dma cc0_scoped0.sem, (default : HIx 2)) W')))
    isplitr
    · ipureintro
      intro p hp
      rcases Finset.mem_insert.mp hp with hp | hp
      · exact Or.inr (hp ▸ rfl)
      rcases Finset.mem_insert.mp hp with hp | hp
      · exact Or.inr (hp ▸ rfl)
      rcases Finset.mem_insert.mp hp with hp | hp
      · exact Or.inr (hp ▸ rfl)
      exact hW' p hp
    · iexact HO
  isplitl [H0]
  · iexists _
    isplitl [H0]
    · iexact H0
    ipureintro
    rw [View.read_write_univ]
    rfl
  isplitl [H1]
  · iexists _
    isplitl [H1]
    · iexact H1
    ipureintro
    rw [View.read_write_univ]
    rfl
  isplitl [H2]
  · iexists _
    isplitl [H2]
    · iexact H2
    ipureintro
    rw [View.read_write_univ]
    rfl
  isplitl [H3]
  · iexact H3
  isplitl [H4]
  · iexists g1
    isplitl [H4]
    · iexact H4
    ipureintro
    exact z1
  isplitl [H5]
  · iexists g2
    isplitl [H5]
    · iexact H5
    ipureintro
    exact z2
  isplitl [H6]
  · iexists g3
    isplitl [H6]
    · iexact H6
    ipureintro
    exact z3
  isplitl [H7]
  · iexact H7
  isplitl [H8]
  · iexact H8
  isplitl [H9]
  · iexact H9
  iexact H10

set_option maxHeartbeats 8000000 in

theorem pre2_rule {R : sProp 𝕄} {α : Type} (d : Dev nD) (L : grid0.Coords) (q : PosShare TreeShare)
    (mx : Buf (Elt F) (xA.view.loc (thr d L))) (ms : Buf (Elt F) (sA.view.loc (thr d L))) (md : Buf (Elt F) (dA.view.loc (thr d L)))
    (O : CellTallies nD τ sig (HIx 2)) (W : Waits sig (HIx 2))
    {x0 x1 x2 y3 b3 cn : Vec F S10112 .f32} {is id : Vec F S512 .i32}
    {k : Prog (TpuEff nD τ sig (Elt F) Λ₀ (.scVector (cV L) (jV L))) α} {Q : α → sProp 𝕄}
    (H : ∀ cn' : Vec F S10112 .f32, (k0_cond1 L = 1#1 → cn' = zrow) →
      iprop(R ∗ XRows d L mx ∗ SemsRest d L ∗ Fr d L q ms md O W
        ∗ St d L x0 x1 x2 (rowOfX d L (xSl3 L) mx) zrow zrow zrow zrow cn' is id) ⊢ wp frame (wpE (defs₀ (F := F)) 𝒱₀ (V d (cV L) (jV L)) none) Set.univ k Q) :
    iprop(R ∗ XRows d L mx ∗ SemsRest d L ∗ Fr d L q ms md O W ∗ St d L x0 x1 x2 y3 zrow zrow zrow b3 cn is id)
      ⊢ wp frame (wpE (defs₀ (F := F)) 𝒱₀ (V d (cV L) (jV L)) none) Set.univ (progPre2 L k) Q := by
  unfold progPre2
  unfold XRows SemsRest Fr St at H ⊢
  iintro ⟨HR, ⟨Hx0, Hx1, Hx2, Hx3⟩, ⟨Hs0, Hs1, Hs2, Hs3, Hs6, Hs7, Hs8, Hs9, Hs10⟩, ⟨Hmw, Hs, Hd, Hsem4, Hsem5, %W', %hW', HO⟩,
    H0, H1, H2, H3, H4, H5, H6, H7, H8, H9, H10⟩
  unfold holds at H ⊢
  icases H3 with ⟨%f3, H3, -⟩
  icases H7 with ⟨%f7, H7, -⟩
  icases H8 with ⟨%f8, H8, %e8⟩

  sl_exec
  ihave HI := (ZInv_init A3 d L f7 ()) $$ H7
  sl_for (ZInv A3 d L (A3.view.read (Elt F) f7)) $$ [HI]
  case region =>
    intro t u
    exact Agg2.zero_region d (cV L) (jV L) (Memref.isWhole_whole _) (k0_off5 t) (k0_off5_inb t) t.val (k0_off5_eq t) (Scalar.ofBits .f32 0x00000000#32) k0_pay35 rfl (A3.view.read (Elt F) f7)
  · iexact HI
  rw [show Scf.trips k0_t4_loop.lb k0_t4_loop.ub k0_t4_loop.st = 632 from by decide]
  iintro %u4 HI
  ihave HD := (ZInv_done A3 d L (A3.view.read (Elt F) f7) u4) $$ HI
  icases HD with ⟨%g4, H7, %z4⟩
  unfold pre2_rule.sl.prog.cont_1
  by_cases hc : k0_cond1 L = 1#1
  · rw [dif_pos hc]
    ihave HI := (ZInv_init CN d L f8 ()) $$ H8
    sl_for (ZInv CN d L (CN.view.read (Elt F) f8)) $$ [HI]
    case region =>
      intro t u
      exact Agg2.zero_region d (cV L) (jV L) (Memref.isWhole_whole _) (k0_off6 t) (k0_off6_inb L t hc) t.val (k0_off6_eq t) (Scalar.ofBits .f32 0x00000000#32) k0_pay37 rfl (CN.view.read (Elt F) f8)
    · iexact HI
    rw [show Scf.trips k0_t5_loop.lb k0_t5_loop.ub k0_t5_loop.st = 632 from by decide]
    iintro %u5 HI
    ihave HD := (ZInv_done CN d L (CN.view.read (Elt F) f8) u5) $$ HI
    icases HD with ⟨%g5, H8, %z5⟩
    iapply (H zrow (fun _ => rfl))
    isplitl [HR]
    · iexact HR
    isplitl [Hx0 Hx1 Hx2 Hx3]
    · isplitl [Hx0]
      · iexact Hx0
      isplitl [Hx1]
      · iexact Hx1
      isplitl [Hx2]
      · iexact Hx2
      iexact Hx3
    isplitl [Hs0 Hs1 Hs2 Hs3 Hs6 Hs7 Hs8 Hs9 Hs10]
    · isplitl [Hs0]
      · iexact Hs0
      isplitl [Hs1]
      · iexact Hs1
      isplitl [Hs2]
      · iexact Hs2
      isplitl [Hs3]
      · iexact Hs3
      isplitl [Hs6]
      · iexact Hs6
      isplitl [Hs7]
      · iexact Hs7
      isplitl [Hs8]
      · iexact Hs8
      isplitl [Hs9]
      · iexact Hs9
      iexact Hs10
    isplitl [Hmw Hs Hd Hsem4 Hsem5 HO]
    · isplitl [Hmw]
      · iexact Hmw
      isplitl [Hs]
      · iexact Hs
      isplitl [Hd]
      · iexact Hd
      isplitl [Hsem4]
      · iexact Hsem4
      isplitl [Hsem5]
      · iexact Hsem5
      iexists (insert (SemLoc.dma cc0_scoped3.sem, (default : HIx 2)) W')
      isplitr
      · ipureintro
        intro p hp
        rcases Finset.mem_insert.mp hp with hp | hp
        · exact Or.inr (hp ▸ rfl)
        exact hW' p hp
      · iexact HO
    isplitl [H0]
    · iexact H0
    isplitl [H1]
    · iexact H1
    isplitl [H2]
    · iexact H2
    isplitl [H3]
    · iexists _
      isplitl [H3]
      · iexact H3
      ipureintro
      rw [View.read_write_univ]
      rfl
    isplitl [H4]
    · iexact H4
    isplitl [H5]
    · iexact H5
    isplitl [H6]
    · iexact H6
    isplitl [H7]
    · iexists g4
      isplitl [H7]
      · iexact H7
      ipureintro
      exact z4
    isplitl [H8]
    · iexists g5
      isplitl [H8]
      · iexact H8
      ipureintro
      exact z5
    isplitl [H9]
    · iexact H9
    iexact H10
  · rw [dif_neg hc]
    iapply (H cn (fun h => absurd h hc))
    isplitl [HR]
    · iexact HR
    isplitl [Hx0 Hx1 Hx2 Hx3]
    · isplitl [Hx0]
      · iexact Hx0
      isplitl [Hx1]
      · iexact Hx1
      isplitl [Hx2]
      · iexact Hx2
      iexact Hx3
    isplitl [Hs0 Hs1 Hs2 Hs3 Hs6 Hs7 Hs8 Hs9 Hs10]
    · isplitl [Hs0]
      · iexact Hs0
      isplitl [Hs1]
      · iexact Hs1
      isplitl [Hs2]
      · iexact Hs2
      isplitl [Hs3]
      · iexact Hs3
      isplitl [Hs6]
      · iexact Hs6
      isplitl [Hs7]
      · iexact Hs7
      isplitl [Hs8]
      · iexact Hs8
      isplitl [Hs9]
      · iexact Hs9
      iexact Hs10
    isplitl [Hmw Hs Hd Hsem4 Hsem5 HO]
    · isplitl [Hmw]
      · iexact Hmw
      isplitl [Hs]
      · iexact Hs
      isplitl [Hd]
      · iexact Hd
      isplitl [Hsem4]
      · iexact Hsem4
      isplitl [Hsem5]
      · iexact Hsem5
      iexists (insert (SemLoc.dma cc0_scoped3.sem, (default : HIx 2)) W')
      isplitr
      · ipureintro
        intro p hp
        rcases Finset.mem_insert.mp hp with hp | hp
        · exact Or.inr (hp ▸ rfl)
        exact hW' p hp
      · iexact HO
    isplitl [H0]
    · iexact H0
    isplitl [H1]
    · iexact H1
    isplitl [H2]
    · iexact H2
    isplitl [H3]
    · iexists _
      isplitl [H3]
      · iexact H3
      ipureintro
      rw [View.read_write_univ]
      rfl
    isplitl [H4]
    · iexact H4
    isplitl [H5]
    · iexact H5
    isplitl [H6]
    · iexact H6
    isplitl [H7]
    · iexists g4
      isplitl [H7]
      · iexact H7
      ipureintro
      exact z4
    isplitl [H8]
    · iexists f8
      isplitl [H8]
      · iexact H8
      ipureintro
      exact e8
    isplitl [H9]
    · iexact H9
    iexact H10

end Cert.Proof.Agg1

end
-- ==== Proof.Agg1Epilogue.lean ====
import proofs.«215722_g7507602833967_cont_sun_m_718_28_alg».proof.Proof.Agg1BodyCut
import proofs.«215722_g7507602833967_cont_sun_m_718_28_alg».proof.Proof.Agg1BodySteps

noncomputable section

namespace Cert.Proof.Agg1

open Cert.KernelIdeal Cert.KernelIdeal.Gen
open Cert.Proof.Sage Cert.Proof.ScatterSum
open Cert.Proof.Agg2 (holds)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

theorem read_writes_row {sig' : RefSig} {κ : Kind} {sp : Space} {e : EltTy} {Val : EltTy → Type} (v : View sig' κ sp S10112 e) (f : v.ty.Contents Val)
    (w : (Rect.whole S10112).shape.Idx → Val e) : v.read Val (v.writes Val f [⟨Rect.whole S10112, w⟩]) = w := by
  funext x
  have h := View.read_writes_cons_emb v f (Rect.whole S10112) w [] x
  rwa [Rect.emb_whole_apply] at h

section Epilogue
variable [FloatOps F] (d : Dev nD) (L : grid0.Coords)

set_option maxHeartbeats 4000000 in

theorem epi1_rule {R : sProp 𝕄} {α : Type} (q : PosShare TreeShare) (ms : Buf (Elt F) (sA.view.loc (thr d L))) (md : Buf (Elt F) (dA.view.loc (thr d L)))
    (O : CellTallies nD τ sig (HIx 2)) (W : Waits sig (HIx 2)) (mo : Buf (Elt F) (oA.view.loc (thr d L)))
    {x0 x1 x2 x3 a0 a1 a2 a3 cn : Vec F S10112 .f32} {is id : Vec F S512 .i32}
    {k : Prog (TpuEff nD τ sig (Elt F) Λ₀ (.scVector (cV L) (jV L))) α} {Q : α → sProp 𝕄}
    (H : iprop(R ∗ (outRow d L (oSl0 L) a0 ∗ outRow d L (oSl1 L) a1 ∗ outRow d L (oSl2 L) a2) ∗ SemsRest d L ∗ Fr d L q ms md O W
        ∗ St d L x0 x1 x2 x3 a0 a1 a2 a3 cn is id)
      ⊢ wp frame (wpE (defs₀ (F := F)) 𝒱₀ (V d (cV L) (jV L)) none) Set.univ k Q) :
    iprop(R ∗ (oPts d L (oSl0 L) mo ∗ oPts d L (oSl1 L) mo ∗ oPts d L (oSl2 L) mo) ∗ SemsRest d L ∗ Fr d L q ms md O W
        ∗ St d L x0 x1 x2 x3 a0 a1 a2 a3 cn is id)
      ⊢ wp frame (wpE (defs₀ (F := F)) 𝒱₀ (V d (cV L) (jV L)) none) Set.univ (progEpi1 L k) Q := by
  unfold progEpi1
  unfold SemsRest Fr St at H ⊢
  unfold outRow at H
  iintro ⟨HR, ⟨Ho0, Ho1, Ho2⟩, ⟨Hs0, Hs1, Hs2, Hs3, Hs6, Hs7, Hs8, Hs9, Hs10⟩, ⟨Hmw, Hs, Hd, Hs4, Hs5, %W', %hW', HO⟩, H0, H1, H2, H3, H4, H5, H6, H7, H8, H9, H10⟩
  unfold holds at H ⊢
  icases H4 with ⟨%f4, H4, %e4⟩
  icases H5 with ⟨%f5, H5, %e5⟩
  icases H6 with ⟨%f6, H6, %e6⟩
  sl_exec
  iapply H
  isplitl [HR]
  · iexact HR
  isplitl [Ho0 Ho1 Ho2]
  · isplitl [Ho0]
    · iexists _
      isplitl [Ho0]
      · iexact Ho0
      ipureintro
      rw [read_writes_row]
      unfold epi1_rule.sl.dma0
      exact e4
    isplitl [Ho1]
    · iexists _
      isplitl [Ho1]
      · iexact Ho1
      ipureintro
      rw [read_writes_row]
      unfold epi1_rule.sl.dma0_1
      exact e5
    iexists _
    isplitl [Ho2]
    · iexact Ho2
    ipureintro
    rw [read_writes_row]
    unfold epi1_rule.sl.dma0_2
    exact e6
  isplitl [Hs0 Hs1 Hs2 Hs3 Hs6 Hs7 Hs8 Hs9 Hs10]
  · isplitl [Hs0]
    · iexact Hs0
    isplitl [Hs1]
    · iexact Hs1
    isplitl [Hs2]
    · iexact Hs2
    isplitl [Hs3]
    · iexact Hs3
    isplitl [Hs6]
    · iexact Hs6
    isplitl [Hs7]
    · iexact Hs7
    isplitl [Hs8]
    · iexact Hs8
    isplitl [Hs9]
    · iexact Hs9
    iexact Hs10
  isplitl [Hmw Hs Hd Hs4 Hs5 HO]
  · isplitl [Hmw]
    · iexact Hmw
    isplitl [Hs]
    · iexact Hs
    isplitl [Hd]
    · iexact Hd
    isplitl [Hs4]
    · iexact Hs4
    isplitl [Hs5]
    · iexact Hs5
    iexists (insert (SemLoc.dma cc0_scoped8.sem, (default : HIx 2)) (insert (SemLoc.dma cc0_scoped7.sem, (default : HIx 2)) (insert (SemLoc.dma cc0_scoped6.sem, (default : HIx 2)) W')))
    isplitr
    · ipureintro
      intro p hp
      rcases Finset.mem_insert.mp hp with hp | hp
      · exact Or.inr (hp ▸ rfl)
      rcases Finset.mem_insert.mp hp with hp | hp
      · exact Or.inr (hp ▸ rfl)
      rcases Finset.mem_insert.mp hp with hp | hp
      · exact Or.inr (hp ▸ rfl)
      exact hW' p hp
    · iexact HO
  isplitl [H0]
  · iexact H0
  isplitl [H1]
  · iexact H1
  isplitl [H2]
  · iexact H2
  isplitl [H3]
  · iexact H3
  isplitl [H4]
  · iexists f4
    isplitl [H4]
    · iexact H4
    ipureintro
    exact e4
  isplitl [H5]
  · iexists f5
    isplitl [H5]
    · iexact H5
    ipureintro
    exact e5
  isplitl [H6]
  · iexists f6
    isplitl [H6]
    · iexact H6
    ipureintro
    exact e6
  isplitl [H7]
  · iexact H7
  isplitl [H8]
  · iexact H8
  isplitl [H9]
  · iexact H9
  iexact H10

set_option maxHeartbeats 4000000 in

theorem tail_rule {R : sProp 𝕄} (q : PosShare TreeShare) (ms : Buf (Elt F) (sA.view.loc (thr d L))) (md : Buf (Elt F) (dA.view.loc (thr d L)))
    (O : CellTallies nD τ sig (HIx 2)) (W : Waits sig (HIx 2)) (mo : Buf (Elt F) (oA.view.loc (thr d L))) (mc : Buf (Elt F) (cA.view.loc (thr d L)))
    {x0 x1 x2 x3 a0 a1 a2 a3 cn : Vec F S10112 .f32} {is id : Vec F S512 .i32} :
    iprop(R ∗ oPts d L (oSl3 L) mo ∗ CRow d L mc ∗ SemsRest d L ∗ Fr d L q ms md O W ∗ St d L x0 x1 x2 x3 a0 a1 a2 a3 cn is id)
      ⊢ wp frame (wpE (defs₀ (F := F)) 𝒱₀ (V d (cV L) (jV L)) none) Set.univ (progTail (F := F) L) fun _ =>
          iprop(R ∗ outRow d L (oSl3 L) a3 ∗ CRowOut d L cn ∗ SemsRest d L ∗ Fr d L q ms md O W ∗ St d L x0 x1 x2 x3 a0 a1 a2 a3 cn is id) := by
  unfold progTail
  by_cases hc : k0_cond2 L = 1#1
  · have e1 : CRow d L mc = iprop((cSl L hc).view.loc (thr d L) ↦[(cSl L hc).view.set]{fullShare} mc) := dif_pos hc
    have e2 : CRowOut d L cn = outRow d L (cSl L hc) cn := dif_pos hc
    rw [e1, e2]
    unfold SemsRest Fr St outRow
    iintro ⟨HR, Ho3, HC, ⟨Hs0, Hs1, Hs2, Hs3, Hs6, Hs7, Hs8, Hs9, Hs10⟩, ⟨Hmw, Hs, Hd, Hs4, Hs5, %W', %hW', HO⟩, H0, H1, H2, H3, H4, H5, H6, H7, H8, H9, H10⟩
    unfold holds
    icases H7 with ⟨%f7, H7, %e7⟩
    icases H8 with ⟨%f8, H8, %e8⟩
    sl_exec
    sl_step
    isplitl [HR]
    · iexact HR
    isplitl [Ho3]
    · iexists _
      isplitl [Ho3]
      · iexact Ho3
      ipureintro
      rw [read_writes_row]
      unfold tail_rule.sl.dma0
      exact e7
    isplitl [HC]
    · iexists _
      isplitl [HC]
      · iexact HC
      ipureintro
      rw [read_writes_row]
      unfold tail_rule.sl.dma0_1
      exact e8
    isplitl [Hs0 Hs1 Hs2 Hs3 Hs6 Hs7 Hs8 Hs9 Hs10]
    · isplitl [Hs0]
      · iexact Hs0
      isplitl [Hs1]
      · iexact Hs1
      isplitl [Hs2]
      · iexact Hs2
      isplitl [Hs3]
      · iexact Hs3
      isplitl [Hs6]
      · iexact Hs6
      isplitl [Hs7]
      · iexact Hs7
      isplitl [Hs8]
      · iexact Hs8
      isplitl [Hs9]
      · iexact Hs9
      iexact Hs10
    isplitl [Hmw Hs Hd Hs4 Hs5 HO]
    · isplitl [Hmw]
      · iexact Hmw
      isplitl [Hs]
      · iexact Hs
      isplitl [Hd]
      · iexact Hd
      isplitl [Hs4]
      · iexact Hs4
      isplitl [Hs5]
      · iexact Hs5
      iexists (insert (SemLoc.dma cc0_scoped10.sem, (default : HIx 2)) (insert (SemLoc.dma cc0_scoped9.sem, (default : HIx 2)) W'))
      isplitr
      · ipureintro
        intro p hp
        rcases Finset.mem_insert.mp hp with hp | hp
        · exact Or.inr (hp ▸ rfl)
        rcases Finset.mem_insert.mp hp with hp | hp
        · exact Or.inr (hp ▸ rfl)
        exact hW' p hp
      · iexact HO
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexists f7
      isplitl [H7]
      · iexact H7
      ipureintro
      exact e7
    isplitl [H8]
    · iexists f8
      isplitl [H8]
      · iexact H8
      ipureintro
      exact e8
    isplitl [H9]
    · iexact H9
    iexact H10

  · have e1 : CRow d L mc = iprop(emp) := dif_neg hc
    have e2 : CRowOut d L cn = iprop(emp) := dif_neg hc
    rw [e1, e2]
    unfold SemsRest Fr St outRow
    iintro ⟨HR, Ho3, HC, ⟨Hs0, Hs1, Hs2, Hs3, Hs6, Hs7, Hs8, Hs9, Hs10⟩, ⟨Hmw, Hs, Hd, Hs4, Hs5, %W', %hW', HO⟩, H0, H1, H2, H3, H4, H5, H6, H7, H8, H9, H10⟩
    unfold holds
    icases H7 with ⟨%f7, H7, %e7⟩
    sl_exec
    sl_step
    isplitl [HR]
    · iexact HR
    isplitl [Ho3]
    · iexists _
      isplitl [Ho3]
      · iexact Ho3
      ipureintro
      rw [read_writes_row]
      unfold tail_rule.sl.dma0_2
      exact e7
    isplitl [HC]
    · iexact HC
    isplitl [Hs0 Hs1 Hs2 Hs3 Hs6 Hs7 Hs8 Hs9 Hs10]
    · isplitl [Hs0]
      · iexact Hs0
      isplitl [Hs1]
      · iexact Hs1
      isplitl [Hs2]
      · iexact Hs2
      isplitl [Hs3]
      · iexact Hs3
      isplitl [Hs6]
      · iexact Hs6
      isplitl [Hs7]
      · iexact Hs7
      isplitl [Hs8]
      · iexact Hs8
      isplitl [Hs9]
      · iexact Hs9
      iexact Hs10
    isplitl [Hmw Hs Hd Hs4 Hs5 HO]
    · isplitl [Hmw]
      · iexact Hmw
      isplitl [Hs]
      · iexact Hs
      isplitl [Hd]
      · iexact Hd
      isplitl [Hs4]
      · iexact Hs4
      isplitl [Hs5]
      · iexact Hs5
      iexists (insert (SemLoc.dma cc0_scoped9.sem, (default : HIx 2)) W')
      isplitr
      · ipureintro
        intro p hp
        rcases Finset.mem_insert.mp hp with hp | hp
        · exact Or.inr (hp ▸ rfl)
        exact hW' p hp
      · iexact HO
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexists f7
      isplitl [H7]
      · iexact H7
      ipureintro
      exact e7
    isplitl [H8]
    · iexact H8
    isplitl [H9]
    · iexact H9
    iexact H10

end Epilogue

end Cert.Proof.Agg1

end
-- ==== Proof.Agg1Tile.lean ====
import proofs.«215722_g7507602833967_cont_sun_m_718_28_alg».proof.Proof.Agg1Body
import proofs.«215722_g7507602833967_cont_sun_m_718_28_alg».proof.Proof.Agg1BodyTrip
import proofs.«215722_g7507602833967_cont_sun_m_718_28_alg».proof.Proof.Agg1Prologue
import proofs.«215722_g7507602833967_cont_sun_m_718_28_alg».proof.Proof.Agg1Epilogue
import proofs.«215722_g7507602833967_cont_sun_m_718_28_alg».proof.Proof.Agg1Bridge

noncomputable section

namespace Cert.Proof.Agg1

open Cert.KernelIdeal Cert.KernelIdeal.Gen
open Cert.Proof.Sage Cert.Proof.ScatterSum

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

theorem tile_core : TileCore F := fun hF d L q mx ms md mo mc hs hd O W hO =>
  tile_core_of
    (fun d L q ms md hs hd O W x0 x1 x2 x3 cn v1 t u is id => trip d L q ms md hs hd O W x0 x1 x2 x3 cn v1 t u is id)
    (fun R α d L q mx ms md O W y0 y1 y2 y3 b0 b1 b2 b3 cn is id kk Q H => part20_rule d L q mx ms md O W H)
    (fun R α d L q mx ms md O W x0 x1 x2 y3 b3 cn is id k Q H => pre2_rule d L q mx ms md O W H)
    (fun R α d L q ms md O W mo x0 x1 x2 x3 a0 a1 a2 a3 cn is id k Q H => epi1_rule d L q ms md O W mo H)
    (fun R d L q ms md O W mo mc x0 x1 x2 x3 a0 a1 a2 a3 cn is id => tail_rule d L q ms md O W mo mc)
    hF d L q mx ms md mo mc hs hd O W hO

end Cert.Proof.Agg1

end
-- ==== Proof.Agg2Cut.lean ====
import proofs.«215722_g7507602833967_cont_sun_m_718_28_alg».proof.Proof.Agg2BodyDefs

noncomputable section

namespace Cert.Proof.Agg2

open Cert.KernelIdeal Cert.KernelIdeal.Gen
open Cert.Proof.Sage Cert.Proof.ScatterSum
open Idealize.ShloMosaic Idealize.SL.Sem

variable {F : FTy → Type} [FloatOps F]

abbrev xB : Memref sig .scVector .hbm S1294336 .f32 := Memref.whole main_v17_scv
abbrev sB : Memref sig .scVector .hbm S327680 .i32 := Memref.whole main_v5_scv
abbrev dB : Memref sig .scVector .hbm S327680 .i32 := Memref.whole main_v7_scv
abbrev oB : Memref sig .scVector .hbm S1294336 .f32 := Memref.whole main_v18_scv
abbrev c0 : Memref sig .scVector .vmem S10112 .f32 := Memref.whole cc2_scratch0
abbrev c1 : Memref sig .scVector .vmem S10112 .f32 := Memref.whole cc2_scratch1
abbrev c2 : Memref sig .scVector .vmem S10112 .f32 := Memref.whole cc2_scratch2
abbrev c3 : Memref sig .scVector .vmem S10112 .f32 := Memref.whole cc2_scratch3
abbrev c4 : Memref sig .scVector .vmem S10112 .f32 := Memref.whole cc2_scratch4
abbrev c5 : Memref sig .scVector .vmem S10112 .f32 := Memref.whole cc2_scratch5
abbrev c6 : Memref sig .scVector .vmem S10112 .f32 := Memref.whole cc2_scratch6
abbrev c7 : Memref sig .scVector .vmem S10112 .f32 := Memref.whole cc2_scratch7
abbrev c8 : Memref sig .scVector .vmem S512 .i32 := Memref.whole cc2_scratch8
abbrev c9 : Memref sig .scVector .vmem S512 .i32 := Memref.whole cc2_scratch9

abbrev body2 (L : grid2.Coords) : Prog (TpuEff nD τ sig (Elt F) Λ₀ (.scVector (cV L) (jV L))) PUnit := cc2__agg2_body L xB (Memref.isWhole_whole _) sB (Memref.isWhole_whole _) dB (Memref.isWhole_whole _) oB (Memref.isWhole_whole _) c0 (Memref.isWhole_whole _) c1 (Memref.isWhole_whole _) c2 (Memref.isWhole_whole _) c3 (Memref.isWhole_whole _) c4 (Memref.isWhole_whole _) c5 (Memref.isWhole_whole _) c6 (Memref.isWhole_whole _) c7 (Memref.isWhole_whole _) c8 (Memref.isWhole_whole _) c9 (Memref.isWhole_whole _) cc2_scoped0 cc2_scoped1 cc2_scoped2 cc2_scoped3 cc2_scoped4 cc2_scoped5 cc2_scoped6 cc2_scoped7 cc2_scoped8 cc2_scoped9

abbrev v1w (L : grid2.Coords) : BitVec 32 := Scalar.addi (Scalar.muli (BitVec.ofNat 32 (L 0).val) 16#32) (BitVec.ofNat 32 (L 1).val)

def progPre2 {α : Type} (L : grid2.Coords) (k : Prog (TpuEff nD τ sig (Elt F) Λ₀ (.scVector (cV L) (jV L))) α) : Prog (TpuEff nD τ sig (Elt F) Λ₀ (.scVector (cV L) (jV L))) α := do
  Prog.lift (.enqueueDma (xB.slice (Rect.unit (s := S1294336) (k2_off1 L 30336#32) S10112.size (k2_off1_inb L 3)) (fun _ => rfl)) (.here c3) (.dma cc2_scoped3.sem) (View.wordExact_bits rfl) (Memref.isWhole_whole _ : (c3).IsWhole).wordExact ⟨Or.inl rfl, trivial⟩)
  Prog.lift (.waitDma2 cc2_scoped3.sem (xB.slice (Rect.unit (s := S1294336) (k2_off1 L 30336#32) S10112.size (k2_off1_inb L 3)) (fun _ => rfl)) c3 (View.wordExact_bits rfl) (Memref.isWhole_whole _ : (c3).IsWhole).wordExact)
  Scf.Loop.for k2_t4_loop k2_t4_ok ⟨⟩ (k2_t4_body L xB (Memref.isWhole_whole _) sB (Memref.isWhole_whole _) dB (Memref.isWhole_whole _) oB (Memref.isWhole_whole _) c0 (Memref.isWhole_whole _) c1 (Memref.isWhole_whole _) c2 (Memref.isWhole_whole _) c3 (Memref.isWhole_whole _) c4 (Memref.isWhole_whole _) c5 (Memref.isWhole_whole _) c6 (Memref.isWhole_whole _) c7 (Memref.isWhole_whole _) c8 (Memref.isWhole_whole _) c9 (Memref.isWhole_whole _) cc2_scoped0 cc2_scoped1 cc2_scoped2 cc2_scoped3 cc2_scoped4 cc2_scoped5 cc2_scoped6 cc2_scoped7 cc2_scoped8 cc2_scoped9 (v1w L))
  k

def progLoop {α : Type} (L : grid2.Coords) (k : Prog (TpuEff nD τ sig (Elt F) Λ₀ (.scVector (cV L) (jV L))) α) : Prog (TpuEff nD τ sig (Elt F) Λ₀ (.scVector (cV L) (jV L))) α := do
  Scf.Loop.for k2_t5_loop k2_t5_ok ⟨⟩ (k2_t5_body L xB (Memref.isWhole_whole _) sB (Memref.isWhole_whole _) dB (Memref.isWhole_whole _) oB (Memref.isWhole_whole _) c0 (Memref.isWhole_whole _) c1 (Memref.isWhole_whole _) c2 (Memref.isWhole_whole _) c3 (Memref.isWhole_whole _) c4 (Memref.isWhole_whole _) c5 (Memref.isWhole_whole _) c6 (Memref.isWhole_whole _) c7 (Memref.isWhole_whole _) c8 (Memref.isWhole_whole _) c9 (Memref.isWhole_whole _) cc2_scoped0 cc2_scoped1 cc2_scoped2 cc2_scoped3 cc2_scoped4 cc2_scoped5 cc2_scoped6 cc2_scoped7 cc2_scoped8 cc2_scoped9 (v1w L))
  k

def progEpiA (L : grid2.Coords) : Prog (TpuEff nD τ sig (Elt F) Λ₀ (.scVector (cV L) (jV L))) PUnit := do
  Prog.lift (.enqueueDma c4 (.here (oB.slice (Rect.unit (s := S1294336) (k2_off1 L 0#32) S10112.size (k2_off1_inb L 0)) (fun _ => rfl))) (.dma cc2_scoped6.sem) (Memref.isWhole_whole _ : (c4).IsWhole).wordExact (View.wordExact_bits rfl) ⟨Or.inl rfl, trivial⟩)
  Prog.lift (.waitDma2 cc2_scoped6.sem c4 (oB.slice (Rect.unit (s := S1294336) (k2_off1 L 0#32) S10112.size (k2_off1_inb L 0)) (fun _ => rfl)) (Memref.isWhole_whole _ : (c4).IsWhole).wordExact (View.wordExact_bits rfl))
  Prog.lift (.enqueueDma c5 (.here (oB.slice (Rect.unit (s := S1294336) (k2_off1 L 10112#32) S10112.size (k2_off1_inb L 1)) (fun _ => rfl))) (.dma cc2_scoped7.sem) (Memref.isWhole_whole _ : (c5).IsWhole).wordExact (View.wordExact_bits rfl) ⟨Or.inl rfl, trivial⟩)
  Prog.lift (.waitDma2 cc2_scoped7.sem c5 (oB.slice (Rect.unit (s := S1294336) (k2_off1 L 10112#32) S10112.size (k2_off1_inb L 1)) (fun _ => rfl)) (Memref.isWhole_whole _ : (c5).IsWhole).wordExact (View.wordExact_bits rfl))
  Prog.lift (.enqueueDma c6 (.here (oB.slice (Rect.unit (s := S1294336) (k2_off1 L 20224#32) S10112.size (k2_off1_inb L 2)) (fun _ => rfl))) (.dma cc2_scoped8.sem) (Memref.isWhole_whole _ : (c6).IsWhole).wordExact (View.wordExact_bits rfl) ⟨Or.inl rfl, trivial⟩)
  Prog.lift (.waitDma2 cc2_scoped8.sem c6 (oB.slice (Rect.unit (s := S1294336) (k2_off1 L 20224#32) S10112.size (k2_off1_inb L 2)) (fun _ => rfl)) (Memref.isWhole_whole _ : (c6).IsWhole).wordExact (View.wordExact_bits rfl))
  Prog.lift (.enqueueDma c7 (.here (oB.slice (Rect.unit (s := S1294336) (k2_off1 L 30336#32) S10112.size (k2_off1_inb L 3)) (fun _ => rfl))) (.dma cc2_scoped9.sem) (Memref.isWhole_whole _ : (c7).IsWhole).wordExact (View.wordExact_bits rfl) ⟨Or.inl rfl, trivial⟩)
  pure ⟨⟩

def progTail (L : grid2.Coords) : Prog (TpuEff nD τ sig (Elt F) Λ₀ (.scVector (cV L) (jV L))) PUnit := do
  Prog.lift (.waitDma2 cc2_scoped9.sem c7 (oB.slice (Rect.unit (s := S1294336) (k2_off1 L 30336#32) S10112.size (k2_off1_inb L 3)) (fun _ => rfl)) (Memref.isWhole_whole _ : (c7).IsWhole).wordExact (View.wordExact_bits rfl))
  pure ⟨⟩

def progEpi (L : grid2.Coords) : Prog (TpuEff nD τ sig (Elt F) Λ₀ (.scVector (cV L) (jV L))) PUnit := do
  Prog.lift (.enqueueDma c4 (.here (oB.slice (Rect.unit (s := S1294336) (k2_off1 L 0#32) S10112.size (k2_off1_inb L 0)) (fun _ => rfl))) (.dma cc2_scoped6.sem) (Memref.isWhole_whole _ : (c4).IsWhole).wordExact (View.wordExact_bits rfl) ⟨Or.inl rfl, trivial⟩)
  Prog.lift (.waitDma2 cc2_scoped6.sem c4 (oB.slice (Rect.unit (s := S1294336) (k2_off1 L 0#32) S10112.size (k2_off1_inb L 0)) (fun _ => rfl)) (Memref.isWhole_whole _ : (c4).IsWhole).wordExact (View.wordExact_bits rfl))
  Prog.lift (.enqueueDma c5 (.here (oB.slice (Rect.unit (s := S1294336) (k2_off1 L 10112#32) S10112.size (k2_off1_inb L 1)) (fun _ => rfl))) (.dma cc2_scoped7.sem) (Memref.isWhole_whole _ : (c5).IsWhole).wordExact (View.wordExact_bits rfl) ⟨Or.inl rfl, trivial⟩)
  Prog.lift (.waitDma2 cc2_scoped7.sem c5 (oB.slice (Rect.unit (s := S1294336) (k2_off1 L 10112#32) S10112.size (k2_off1_inb L 1)) (fun _ => rfl)) (Memref.isWhole_whole _ : (c5).IsWhole).wordExact (View.wordExact_bits rfl))
  Prog.lift (.enqueueDma c6 (.here (oB.slice (Rect.unit (s := S1294336) (k2_off1 L 20224#32) S10112.size (k2_off1_inb L 2)) (fun _ => rfl))) (.dma cc2_scoped8.sem) (Memref.isWhole_whole _ : (c6).IsWhole).wordExact (View.wordExact_bits rfl) ⟨Or.inl rfl, trivial⟩)
  Prog.lift (.waitDma2 cc2_scoped8.sem c6 (oB.slice (Rect.unit (s := S1294336) (k2_off1 L 20224#32) S10112.size (k2_off1_inb L 2)) (fun _ => rfl)) (Memref.isWhole_whole _ : (c6).IsWhole).wordExact (View.wordExact_bits rfl))
  Prog.lift (.enqueueDma c7 (.here (oB.slice (Rect.unit (s := S1294336) (k2_off1 L 30336#32) S10112.size (k2_off1_inb L 3)) (fun _ => rfl))) (.dma cc2_scoped9.sem) (Memref.isWhole_whole _ : (c7).IsWhole).wordExact (View.wordExact_bits rfl) ⟨Or.inl rfl, trivial⟩)
  Prog.lift (.waitDma2 cc2_scoped9.sem c7 (oB.slice (Rect.unit (s := S1294336) (k2_off1 L 30336#32) S10112.size (k2_off1_inb L 3)) (fun _ => rfl)) (Memref.isWhole_whole _ : (c7).IsWhole).wordExact (View.wordExact_bits rfl))
  pure ⟨⟩

set_option maxRecDepth 65536 in

theorem part9_cut (L : grid2.Coords) :
    k2_part9 (F := F) L xB (Memref.isWhole_whole _) sB (Memref.isWhole_whole _) dB (Memref.isWhole_whole _) oB (Memref.isWhole_whole _) c0 (Memref.isWhole_whole _) c1 (Memref.isWhole_whole _) c2 (Memref.isWhole_whole _) c3 (Memref.isWhole_whole _) c4 (Memref.isWhole_whole _) c5 (Memref.isWhole_whole _) c6 (Memref.isWhole_whole _) c7 (Memref.isWhole_whole _) c8 (Memref.isWhole_whole _) c9 (Memref.isWhole_whole _) cc2_scoped0 cc2_scoped1 cc2_scoped2 cc2_scoped3 cc2_scoped4 cc2_scoped5 cc2_scoped6 cc2_scoped7 cc2_scoped8 cc2_scoped9 (v1w L) = progPre2 L (progLoop L (progEpiA L)) := rfl

set_option maxRecDepth 65536 in

theorem body_cut (L : grid2.Coords) :
    body2 (F := F) L = (k2_part8 (F := F) L xB (Memref.isWhole_whole _) sB (Memref.isWhole_whole _) dB (Memref.isWhole_whole _) oB (Memref.isWhole_whole _) c0 (Memref.isWhole_whole _) c1 (Memref.isWhole_whole _) c2 (Memref.isWhole_whole _) c3 (Memref.isWhole_whole _) c4 (Memref.isWhole_whole _) c5 (Memref.isWhole_whole _) c6 (Memref.isWhole_whole _) c7 (Memref.isWhole_whole _) c8 (Memref.isWhole_whole _) c9 (Memref.isWhole_whole _) cc2_scoped0 cc2_scoped1 cc2_scoped2 cc2_scoped3 cc2_scoped4 cc2_scoped5 cc2_scoped6 cc2_scoped7 cc2_scoped8 cc2_scoped9 >>= fun v1 => k2_part9 (F := F) L xB (Memref.isWhole_whole _) sB (Memref.isWhole_whole _) dB (Memref.isWhole_whole _) oB (Memref.isWhole_whole _) c0 (Memref.isWhole_whole _) c1 (Memref.isWhole_whole _) c2 (Memref.isWhole_whole _) c3 (Memref.isWhole_whole _) c4 (Memref.isWhole_whole _) c5 (Memref.isWhole_whole _) c6 (Memref.isWhole_whole _) c7 (Memref.isWhole_whole _) c8 (Memref.isWhole_whole _) c9 (Memref.isWhole_whole _) cc2_scoped0 cc2_scoped1 cc2_scoped2 cc2_scoped3 cc2_scoped4 cc2_scoped5 cc2_scoped6 cc2_scoped7 cc2_scoped8 cc2_scoped9 v1 >>= fun _ => progTail L) := rfl

set_option maxRecDepth 65536 in

theorem epi_join (L : grid2.Coords) : (progEpiA (F := F) L >>= fun _ => progTail L) = progEpi L := rfl

section Held

open Idealize.SL Idealize.SL.RA Idealize.SL.BI
open scoped Idealize.SL.BI
open Idealize.SL.BI.BIBase Idealize.SL.BI.Laws Idealize.SL.ProofMode
open Idealize.ShloMosaic.SparseCore (S V T)

local notation "𝕄" => MM F

abbrev zrow : Vec F S10112 .f32 := fun _ => Scalar.ofBits .f32 0x00000000#32

def XRows (d : Dev nD) (L : grid2.Coords) (X : Buf (Elt F) (xLoc d)) : sProp 𝕄 :=
  iprop(xPc d L 0 X ∗ xPc d L 1 X ∗ xPc d L 2 X ∗ xPc d L 3 X)

def ORows (d : Dev nD) (L : grid2.Coords) (R : Buf (Elt F) (oLoc d)) : sProp 𝕄 :=
  iprop(oPc d L 0 R ∗ oPc d L 1 R ∗ oPc d L 2 R ∗ oPc d L 3 R)

def outRow (d : Dev nD) (L : grid2.Coords) (r : Fin 4) (v : Vec F S10112 .f32) : sProp 𝕄 :=
  iprop(∃ fo : Buf (Elt F) (oLoc d), oPc d L r fo ∗ ⌜(oSl L r).view.read (Elt F) fo = v⌝)

def SemsRest (d : Dev nD) (L : grid2.Coords) : sProp 𝕄 :=
  iprop(semVal (V d (cV L) (jV L), SemLoc.dma cc2_scoped0.sem) 0 ∗ semVal (V d (cV L) (jV L), SemLoc.dma cc2_scoped1.sem) 0
    ∗ semVal (V d (cV L) (jV L), SemLoc.dma cc2_scoped2.sem) 0 ∗ semVal (V d (cV L) (jV L), SemLoc.dma cc2_scoped3.sem) 0
    ∗ semVal (V d (cV L) (jV L), SemLoc.dma cc2_scoped6.sem) 0 ∗ semVal (V d (cV L) (jV L), SemLoc.dma cc2_scoped7.sem) 0
    ∗ semVal (V d (cV L) (jV L), SemLoc.dma cc2_scoped8.sem) 0 ∗ semVal (V d (cV L) (jV L), SemLoc.dma cc2_scoped9.sem) 0)

end Held

end Cert.Proof.Agg2

end
-- ==== Proof.Agg2BodyTile.lean ====
import proofs.«215722_g7507602833967_cont_sun_m_718_28_alg».proof.Proof.Agg2BodySteps
import proofs.«215722_g7507602833967_cont_sun_m_718_28_alg».proof.Proof.ScatterSumBlock

noncomputable section

namespace Cert.Proof.Agg2

open Cert.KernelIdeal Cert.KernelIdeal.Gen
open Cert.Proof.Sage Cert.Proof.ScatterSum

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

local notation "xW" => (Memref.whole Cert.KernelIdeal.main_v17_scv : Memref Cert.KernelIdeal.sig Kind.scVector Space.hbm Cert.KernelIdeal.S1294336 EltTy.f32)
local notation "sW" => (Memref.whole Cert.KernelIdeal.main_v5_scv : Memref Cert.KernelIdeal.sig Kind.scVector Space.hbm Cert.KernelIdeal.S327680 EltTy.i32)
local notation "dW" => (Memref.whole Cert.KernelIdeal.main_v7_scv : Memref Cert.KernelIdeal.sig Kind.scVector Space.hbm Cert.KernelIdeal.S327680 EltTy.i32)
local notation "oW" => (Memref.whole Cert.KernelIdeal.main_v18_scv : Memref Cert.KernelIdeal.sig Kind.scVector Space.hbm Cert.KernelIdeal.S1294336 EltTy.f32)
local notation "b0" => (Memref.whole Cert.KernelIdeal.cc2_scratch0 : Memref Cert.KernelIdeal.sig Kind.scVector Space.vmem Cert.KernelIdeal.S10112 EltTy.f32)
local notation "b1" => (Memref.whole Cert.KernelIdeal.cc2_scratch1 : Memref Cert.KernelIdeal.sig Kind.scVector Space.vmem Cert.KernelIdeal.S10112 EltTy.f32)
local notation "b2" => (Memref.whole Cert.KernelIdeal.cc2_scratch2 : Memref Cert.KernelIdeal.sig Kind.scVector Space.vmem Cert.KernelIdeal.S10112 EltTy.f32)
local notation "b3" => (Memref.whole Cert.KernelIdeal.cc2_scratch3 : Memref Cert.KernelIdeal.sig Kind.scVector Space.vmem Cert.KernelIdeal.S10112 EltTy.f32)
local notation "b4" => (Memref.whole Cert.KernelIdeal.cc2_scratch4 : Memref Cert.KernelIdeal.sig Kind.scVector Space.vmem Cert.KernelIdeal.S10112 EltTy.f32)
local notation "b5" => (Memref.whole Cert.KernelIdeal.cc2_scratch5 : Memref Cert.KernelIdeal.sig Kind.scVector Space.vmem Cert.KernelIdeal.S10112 EltTy.f32)
local notation "b6" => (Memref.whole Cert.KernelIdeal.cc2_scratch6 : Memref Cert.KernelIdeal.sig Kind.scVector Space.vmem Cert.KernelIdeal.S10112 EltTy.f32)
local notation "b7" => (Memref.whole Cert.KernelIdeal.cc2_scratch7 : Memref Cert.KernelIdeal.sig Kind.scVector Space.vmem Cert.KernelIdeal.S10112 EltTy.f32)
local notation "b8" => (Memref.whole Cert.KernelIdeal.cc2_scratch8 : Memref Cert.KernelIdeal.sig Kind.scVector Space.vmem Cert.KernelIdeal.S512 EltTy.i32)
local notation "b9" => (Memref.whole Cert.KernelIdeal.cc2_scratch9 : Memref Cert.KernelIdeal.sig Kind.scVector Space.vmem Cert.KernelIdeal.S512 EltTy.i32)

section Tile
variable [FloatOps F] {α : Type} (d : Dev nD) (L : grid2.Coords)

def St (x0 x1 x2 x3 a0 a1 a2 a3 : Vec F S10112 .f32) (is id : Vec F S512 .i32) : sProp 𝕄 :=
  iprop(holds d (cV L) (jV L) b0 x0 ∗ holds d (cV L) (jV L) b1 x1 ∗ holds d (cV L) (jV L) b2 x2 ∗ holds d (cV L) (jV L) b3 x3
    ∗ holds d (cV L) (jV L) b4 a0 ∗ holds d (cV L) (jV L) b5 a1 ∗ holds d (cV L) (jV L) b6 a2 ∗ holds d (cV L) (jV L) b7 a3
    ∗ holds d (cV L) (jV L) b8 is ∗ holds d (cV L) (jV L) b9 id)

set_option hygiene false in
local macro "give_back" : tactic => `(tactic| (
  isplitl [HR]
  · iexact HR
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  iexact H9))

set_option hygiene false in
local macro "gath_rule " n:ident b:term:max xr:ident Hr:ident : command => `(
theorem $n {R : sProp 𝕄} {x0 x1 x2 x3 a0 a1 a2 a3 : Vec F S10112 .f32} {is id : Vec F S512 .i32} {t : Shape} {idxs : Fin S10112.rank → IVec t 32}
    {h : ∀ a y, (idxs a y).toNat < S10112.size a} {hl : ($b).view.Loads}
    {k : Vec F t .f32 → Prog (TpuEff nD τ sig (Elt F) Λ₀ (.scVector (cV L) (jV L))) α} {Q : α → sProp 𝕄}
    (H : iprop(R ∗ St d L x0 x1 x2 x3 a0 a1 a2 a3 is id) ⊢ wp frame (wpE (defs₀ (F := F)) 𝒱₀ (V d (cV L) (jV L)) none) Set.univ (k (loadIdx $xr idxs h)) Q) :
    iprop(R ∗ St d L x0 x1 x2 x3 a0 a1 a2 a3 is id) ⊢ wp frame (wpE (defs₀ (F := F)) 𝒱₀ (V d (cV L) (jV L)) none) Set.univ (SparseCore.vectorLoadIdx $b idxs h hl >>= k) Q := by
  unfold St at H ⊢
  iintro ⟨HR, H0, H1, H2, H3, H4, H5, H6, H7, H8, H9⟩
  iapply (gath_step d (cV L) (jV L) (base := $b) (Memref.isWhole_whole _)) $$ $Hr:ident
  iintro $Hr:ident
  iapply H
  give_back)

gath_rule g0 b0 x0 H0
gath_rule g1 b1 x1 H1
gath_rule g2 b2 x2 H2
gath_rule g3 b3 x3 H3

set_option hygiene false in
local macro "scat_rule " n:ident b:term:max Hr:ident st':term : command => `(
theorem $n {R : sProp 𝕄} {x0 x1 x2 x3 a0 a1 a2 a3 : Vec F S10112 .f32} {is id : Vec F S512 .i32} {d' : Fin 1 → Nat}
    {idxs : Fin S10112.rank → IVec ⟨1, d'⟩ 32} {v : Vec F ⟨1, d'⟩ .f32} {mask : IVec ⟨1, d'⟩ 1} {add : Bool}
    {h : ∀ a y, (idxs a y).toNat < S10112.size a} {hs : (($b).access (.whole S10112)).Stores Finset.univ}
    {k : PUnit → Prog (TpuEff nD τ sig (Elt F) Λ₀ (.scVector (cV L) (jV L))) α} {Q : α → sProp 𝕄}
    (H : iprop(R ∗ $st') ⊢ wp frame (wpE (defs₀ (F := F)) 𝒱₀ (V d (cV L) (jV L)) none) Set.univ (k ⟨⟩) Q) :
    iprop(R ∗ St d L x0 x1 x2 x3 a0 a1 a2 a3 is id) ⊢ wp frame (wpE (defs₀ (F := F)) 𝒱₀ (V d (cV L) (jV L)) none) Set.univ (SparseCore.vectorStoreIdx $b idxs v mask add h hs >>= k) Q := by
  unfold St at H ⊢
  iintro ⟨HR, H0, H1, H2, H3, H4, H5, H6, H7, H8, H9⟩
  iapply (scat_step d (cV L) (jV L) (base := $b) (Memref.isWhole_whole _)) $$ $Hr:ident
  iintro $Hr:ident
  iapply H
  give_back)

scat_rule s4 b4 H4 (St d L x0 x1 x2 x3 (storeIdx a0 idxs v mask add h) a1 a2 a3 is id)
scat_rule s5 b5 H5 (St d L x0 x1 x2 x3 a0 (storeIdx a1 idxs v mask add h) a2 a3 is id)
scat_rule s6 b6 H6 (St d L x0 x1 x2 x3 a0 a1 (storeIdx a2 idxs v mask add h) a3 is id)
scat_rule s7 b7 H7 (St d L x0 x1 x2 x3 a0 a1 a2 (storeIdx a3 idxs v mask add h) is id)

set_option hygiene false in
local macro "load_rule " n:ident b:term:max xv:ident Hr:ident : command => `(
theorem $n {R : sProp 𝕄} {x0 x1 x2 x3 a0 a1 a2 a3 : Vec F S10112 .f32} {is id : Vec F S512 .i32} {r : LoadRect S512} {hl : ($b).view.LoadsAt r}
    {k : Vec F r.shape .i32 → Prog (TpuEff nD τ sig (Elt F) Λ₀ (.scVector (cV L) (jV L))) α} {Q : α → sProp 𝕄}
    (H : iprop(R ∗ St d L x0 x1 x2 x3 a0 a1 a2 a3 is id) ⊢ wp frame (wpE (defs₀ (F := F)) 𝒱₀ (V d (cV L) (jV L)) none) Set.univ (k (fun y => $xv (r.idx y))) Q) :
    iprop(R ∗ St d L x0 x1 x2 x3 a0 a1 a2 a3 is id) ⊢ wp frame (wpE (defs₀ (F := F)) 𝒱₀ (V d (cV L) (jV L)) none) Set.univ (Prog.lift (.load $b r hl) >>= k) Q := by
  unfold St at H ⊢
  iintro ⟨HR, H0, H1, H2, H3, H4, H5, H6, H7, H8, H9⟩
  iapply (load_step d (cV L) (jV L) (base := $b) (Memref.isWhole_whole _)) $$ $Hr:ident
  iintro $Hr:ident
  iapply H
  give_back)

load_rule l8 b8 is H8
load_rule l9 b9 id H9

theorem cS {R : sProp 𝕄} {P : Prop} {dec : Decidable P} (hP : P) {k : PLift P → Prog (TpuEff nD τ sig (Elt F) Λ₀ (.scVector (cV L) (jV L))) α} {Q : α → sProp 𝕄}
    (H : R ⊢ wp frame (wpE (defs₀ (F := F)) 𝒱₀ (V d (cV L) (jV L)) none) Set.univ (k ⟨hP⟩) Q) : R ⊢ wp frame (wpE (defs₀ (F := F)) 𝒱₀ (V d (cV L) (jV L)) none) Set.univ (Prog.lift (.assume P dec) >>= k) Q :=
  H.trans (chk_step d (cV L) (jV L) hP)

def Fr (q : PosShare TreeShare) (SI : Buf (Elt F) (sLoc d)) (DI : Buf (Elt F) (dLoc d)) (O : CellTallies nD τ sig (HIx 2)) (W : Waits sig (HIx 2)) : sProp 𝕄 :=
  iprop(Transfers.MayWaits (V d (cV L) (jV L)) (none : HIx 2) O
    ∗ ((sW).view.loc (V d (cV L) (jV L)) ↦{q} SI) ∗ ((dW).view.loc (V d (cV L) (jV L)) ↦{q} DI)
    ∗ semVal (V d (cV L) (jV L), SemLoc.dma cc2_scoped4.sem) 0 ∗ semVal (V d (cV L) (jV L), SemLoc.dma cc2_scoped5.sem) 0
    ∗ ∃ W', ⌜∀ p ∈ W', p ∈ W ∨ p.2 = none⌝ ∗ owes (V d (cV L) (jV L)) O W')

set_option maxHeartbeats 4000000 in

theorem fetchS {q : PosShare TreeShare} {SI : Buf (Elt F) (sLoc d)} {DI : Buf (Elt F) (dLoc d)} {O : CellTallies nD τ sig (HIx 2)} {W : Waits sig (HIx 2)}
    {x0 x1 x2 x3 a0 a1 a2 a3 : Vec F S10112 .f32} {is id : Vec F S512 .i32} (t : Fin k2_t5_loop.trips)
    {hsrc} {hdst} {hsem} {hsrc'} {hdst'}
    {k : PUnit → Prog (TpuEff nD τ sig (Elt F) Λ₀ (.scVector (cV L) (jV L))) α} {Q : α → sProp 𝕄}
    (H : iprop(Fr d L q SI DI O W ∗ St d L x0 x1 x2 x3 a0 a1 a2 a3 (chunk512 SI t.val) id) ⊢ wp frame (wpE (defs₀ (F := F)) 𝒱₀ (V d (cV L) (jV L)) none) Set.univ (k ⟨⟩) Q) :
    iprop(Fr d L q SI DI O W ∗ St d L x0 x1 x2 x3 a0 a1 a2 a3 is id)
      ⊢ wp frame (wpE (defs₀ (F := F)) 𝒱₀ (V d (cV L) (jV L)) none) Set.univ (Prog.lift (.enqueueDma ((sW).slice (Rect.unit (s := S327680) (k2_off6 t) S512.size (k2_off6_inb t)) (fun _ => rfl)) (.here b8) (.dma cc2_scoped4.sem) hsrc hdst hsem) >>= fun _ => Prog.lift (.waitDma2 cc2_scoped4.sem ((sW).slice (Rect.unit (s := S327680) (k2_off6 t) S512.size (k2_off6_inb t)) (fun _ => rfl)) b8 hsrc' hdst') >>= k) Q := by
  unfold Fr St at H ⊢
  iintro ⟨⟨Hmw, Hs, Hd, Hsem4, Hsem5, %W', %hW', HO⟩, H0, H1, H2, H3, H4, H5, H6, H7, H8, H9⟩
  unfold holds at H ⊢
  icases H8 with ⟨%f8, H8, %e8⟩
  sl_exec
  iapply H
  isplitl [Hmw Hs Hd Hsem4 Hsem5 HO]
  · isplitl [Hmw]
    · iexact Hmw
    isplitl [Hs]
    · iexact Hs
    isplitl [Hd]
    · iexact Hd
    isplitl [Hsem4]
    · iexact Hsem4
    isplitl [Hsem5]
    · iexact Hsem5
    iexists (insert (SemLoc.dma cc2_scoped4.sem, (default : HIx 2)) W')
    isplitr
    · ipureintro
      intro p hp
      rcases Finset.mem_insert.mp hp with hp | hp
      · exact .inr (hp ▸ rfl)
      · exact hW' p hp
    · iexact HO
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexists _
    isplitl [H8]
    · iexact H8
    ipureintro
    rw [View.read_write_univ]
    unfold fetchS.sl.dma0
    exact chunk512_of_rect_off SI (k2_off6 t) (k2_off6_inb t) t.val (by rw [k2_off6_eq]; rfl)
  iexact H9

set_option maxHeartbeats 4000000 in

theorem fetchD {q : PosShare TreeShare} {SI : Buf (Elt F) (sLoc d)} {DI : Buf (Elt F) (dLoc d)} {O : CellTallies nD τ sig (HIx 2)} {W : Waits sig (HIx 2)}
    {x0 x1 x2 x3 a0 a1 a2 a3 : Vec F S10112 .f32} {is id : Vec F S512 .i32} (t : Fin k2_t5_loop.trips)
    {hsrc} {hdst} {hsem} {hsrc'} {hdst'}
    {k : PUnit → Prog (TpuEff nD τ sig (Elt F) Λ₀ (.scVector (cV L) (jV L))) α} {Q : α → sProp 𝕄}
    (H : iprop(Fr d L q SI DI O W ∗ St d L x0 x1 x2 x3 a0 a1 a2 a3 is (chunk512 DI t.val)) ⊢ wp frame (wpE (defs₀ (F := F)) 𝒱₀ (V d (cV L) (jV L)) none) Set.univ (k ⟨⟩) Q) :
    iprop(Fr d L q SI DI O W ∗ St d L x0 x1 x2 x3 a0 a1 a2 a3 is id)
      ⊢ wp frame (wpE (defs₀ (F := F)) 𝒱₀ (V d (cV L) (jV L)) none) Set.univ (Prog.lift (.enqueueDma ((dW).slice (Rect.unit (s := S327680) (k2_off6 t) S512.size (k2_off6_inb t)) (fun _ => rfl)) (.here b9) (.dma cc2_scoped5.sem) hsrc hdst hsem) >>= fun _ => Prog.lift (.waitDma2 cc2_scoped5.sem ((dW).slice (Rect.unit (s := S327680) (k2_off6 t) S512.size (k2_off6_inb t)) (fun _ => rfl)) b9 hsrc' hdst') >>= k) Q := by
  unfold Fr St at H ⊢
  iintro ⟨⟨Hmw, Hs, Hd, Hsem4, Hsem5, %W', %hW', HO⟩, H0, H1, H2, H3, H4, H5, H6, H7, H8, H9⟩
  unfold holds at H ⊢
  icases H9 with ⟨%f9, H9, %e9⟩
  sl_exec
  iapply H
  isplitl [Hmw Hs Hd Hsem4 Hsem5 HO]
  · isplitl [Hmw]
    · iexact Hmw
    isplitl [Hs]
    · iexact Hs
    isplitl [Hd]
    · iexact Hd
    isplitl [Hsem4]
    · iexact Hsem4
    isplitl [Hsem5]
    · iexact Hsem5
    iexists (insert (SemLoc.dma cc2_scoped5.sem, (default : HIx 2)) W')
    isplitr
    · ipureintro
      intro p hp
      rcases Finset.mem_insert.mp hp with hp | hp
      · exact .inr (hp ▸ rfl)
      · exact hW' p hp
    · iexact HO
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  iexists _
  isplitl [H9]
  · iexact H9
  ipureintro
  rw [View.read_write_univ]
  unfold fetchD.sl.dma0
  exact chunk512_of_rect_off DI (k2_off6 t) (k2_off6_inb t) t.val (by rw [k2_off6_eq]; rfl)

theorem enter {R : sProp 𝕄} {β : Type} {p : Prog (TpuEff nD τ sig (Elt F) Λ₀ (.scVector (cV L) (jV L))) β}
    {kk : β → Prog (TpuEff nD τ sig (Elt F) Λ₀ (.scVector (cV L) (jV L))) α} {Q : α → sProp 𝕄}
    (H : R ⊢ wp frame (wpE (defs₀ (F := F)) 𝒱₀ (V d (cV L) (jV L)) none) Set.univ (p) fun r => wp frame (wpE (defs₀ (F := F)) 𝒱₀ (V d (cV L) (jV L)) none) Set.univ (kk r) Q) : R ⊢ wp frame (wpE (defs₀ (F := F)) 𝒱₀ (V d (cV L) (jV L)) none) Set.univ (p >>= kk) Q := by
  rw [wp_bind]; exact H

theorem leave {R : sProp 𝕄} {a : α} {Q : α → sProp 𝕄} (H : R ⊢ Q a) : R ⊢ wp frame (wpE (defs₀ (F := F)) 𝒱₀ (V d (cV L) (jV L)) none) Set.univ (pure a) Q :=
  H.trans (le_wp_ret _ _ _ a Q)

theorem chunk_lt (a : IVec SEdge 32) (ha : ∀ e, (a e).toNat < 10112) (g : Nat) (j : SChunk.Idx) : (chunk512 a g j).toNat < 10112 := by
  unfold chunk512
  split
  · exact ha _
  · decide

theorem lane_eq (xs A : Vec F SRow .f32) (src dst : IVec SEdge 32) (g o : Nat)
    (hinb : ∀ a, (![o] : Fin 1 → Nat) a + SLane.size a ≤ SChunk.size a) (ho : o % 16 = 0)
    (h1 : ∀ a y, ((![fun y => chunk512 src g ((Rect.unit (s := SChunk) ![o] SLane.size hinb).toLoadRect.idx y)] : Fin 1 → IVec SLane 32) a y).toNat < SRow.size a)
    (h2 : ∀ a y, ((![fun y => chunk512 dst g ((Rect.unit (s := SChunk) ![o] SLane.size hinb).toLoadRect.idx y)] : Fin 1 → IVec SLane 32) a y).toNat < SRow.size a) :
    storeIdx A ![fun y => chunk512 dst g ((Rect.unit (s := SChunk) ![o] SLane.size hinb).toLoadRect.idx y)]
        (loadIdx xs ![fun y => chunk512 src g ((Rect.unit (s := SChunk) ![o] SLane.size hinb).toLoadRect.idx y)] h1) (fun _ => 1#1) true h2
      = scat A (lanes16 dst (32 * g + o / 16)) (gath xs (lanes16 src (32 * g + o / 16))) (fun _ => 1#1) := by
  have key : ∀ (v1 v1' v2 v2' : IVec SLane 32) (e1 : v1 = v1') (e2 : v2 = v2') (h1 : InB v1) (h2 : InB v2),
      storeIdx A ![v2] (loadIdx xs ![v1] h1) (fun _ => 1#1) true h2 = scat A v2' (gath xs v1') (fun _ => 1#1) := by
    intro v1 v1' v2 v2' e1 e2 h1 h2
    subst e1 e2
    rw [gath_eq, scat_eq]
  exact key _ _ _ _ (lanes16_of_rect src g o hinb ho) (lanes16_of_rect dst g o hinb ho) h1 h2

end Tile

end Cert.Proof.Agg2

end
-- ==== Proof.Peel.lean ====
import Idealize.ShloMosaic.Lib.SparseCore.Cells

namespace Cert.Proof.Peel

open Idealize.ShloMosaic
open Idealize.SL Idealize.SL.RA Idealize.SL.BI
open scoped Idealize.SL.BI
open Idealize.SL.BI.BIBase Idealize.SL.BI.Laws Idealize.SL.ProofMode Idealize.SL.Sem

variable {M : Type} [URA M] {I : Type} [DecidableEq I]

def peel (Φ : I → sProp M) : List I → Finset I → sProp M
  | [], s => bigSep s Φ
  | a :: l, s => iprop(Φ a ∗ peel Φ l (s.erase a))

theorem peel_cons (Φ : I → sProp M) (a : I) (l : List I) (s : Finset I) : peel Φ (a :: l) s = iprop(Φ a ∗ peel Φ l (s.erase a)) := rfl

theorem bigSep_peel (Φ : I → sProp M) : ∀ (l : List I) (s : Finset I), l.Nodup → (∀ a ∈ l, a ∈ s) → bigSep s Φ = peel Φ l s
  | [], _, _, _ => rfl
  | a :: l, s, hnd, hmem => by
    have hn := List.nodup_cons.mp hnd
    rw [peel_cons, SparseCore.bigSep_erase' (hmem a List.mem_cons_self) (Φ := Φ),
      bigSep_peel Φ l (s.erase a) hn.2 fun b hb =>
        Finset.mem_erase.mpr ⟨fun e => hn.1 (e ▸ hb), hmem b (List.mem_cons_of_mem _ hb)⟩]

end Cert.Proof.Peel
-- ==== Proof.Agg2BodyOwn.lean ====
import proofs.«215722_g7507602833967_cont_sun_m_718_28_alg».proof.Proof.Agg2BodySteps
import proofs.«215722_g7507602833967_cont_sun_m_718_28_alg».proof.Proof.Peel

noncomputable section

namespace Cert.Proof.Agg2

open Cert.KernelIdeal Cert.KernelIdeal.Gen
open Cert.Proof.Sage Cert.Proof.ScatterSum

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

local notation "xW" => (Memref.whole Cert.KernelIdeal.main_v17_scv : Memref Cert.KernelIdeal.sig Kind.scVector Space.hbm Cert.KernelIdeal.S1294336 EltTy.f32)
local notation "sW" => (Memref.whole Cert.KernelIdeal.main_v5_scv : Memref Cert.KernelIdeal.sig Kind.scVector Space.hbm Cert.KernelIdeal.S327680 EltTy.i32)
local notation "dW" => (Memref.whole Cert.KernelIdeal.main_v7_scv : Memref Cert.KernelIdeal.sig Kind.scVector Space.hbm Cert.KernelIdeal.S327680 EltTy.i32)
local notation "oW" => (Memref.whole Cert.KernelIdeal.main_v18_scv : Memref Cert.KernelIdeal.sig Kind.scVector Space.hbm Cert.KernelIdeal.S1294336 EltTy.f32)
local notation "b0" => (Memref.whole Cert.KernelIdeal.cc2_scratch0 : Memref Cert.KernelIdeal.sig Kind.scVector Space.vmem Cert.KernelIdeal.S10112 EltTy.f32)
local notation "b1" => (Memref.whole Cert.KernelIdeal.cc2_scratch1 : Memref Cert.KernelIdeal.sig Kind.scVector Space.vmem Cert.KernelIdeal.S10112 EltTy.f32)
local notation "b2" => (Memref.whole Cert.KernelIdeal.cc2_scratch2 : Memref Cert.KernelIdeal.sig Kind.scVector Space.vmem Cert.KernelIdeal.S10112 EltTy.f32)
local notation "b3" => (Memref.whole Cert.KernelIdeal.cc2_scratch3 : Memref Cert.KernelIdeal.sig Kind.scVector Space.vmem Cert.KernelIdeal.S10112 EltTy.f32)
local notation "b4" => (Memref.whole Cert.KernelIdeal.cc2_scratch4 : Memref Cert.KernelIdeal.sig Kind.scVector Space.vmem Cert.KernelIdeal.S10112 EltTy.f32)
local notation "b5" => (Memref.whole Cert.KernelIdeal.cc2_scratch5 : Memref Cert.KernelIdeal.sig Kind.scVector Space.vmem Cert.KernelIdeal.S10112 EltTy.f32)
local notation "b6" => (Memref.whole Cert.KernelIdeal.cc2_scratch6 : Memref Cert.KernelIdeal.sig Kind.scVector Space.vmem Cert.KernelIdeal.S10112 EltTy.f32)
local notation "b7" => (Memref.whole Cert.KernelIdeal.cc2_scratch7 : Memref Cert.KernelIdeal.sig Kind.scVector Space.vmem Cert.KernelIdeal.S10112 EltTy.f32)
local notation "b8" => (Memref.whole Cert.KernelIdeal.cc2_scratch8 : Memref Cert.KernelIdeal.sig Kind.scVector Space.vmem Cert.KernelIdeal.S512 EltTy.i32)
local notation "b9" => (Memref.whole Cert.KernelIdeal.cc2_scratch9 : Memref Cert.KernelIdeal.sig Kind.scVector Space.vmem Cert.KernelIdeal.S512 EltTy.i32)

section Own

variable (d : Dev nD) (L : grid2.Coords)

def bufRest : sProp 𝕄 :=
  bigSep (((((((((((ownRefs (τ := τ) (sig := sig) (.scVector (cV L) (jV L))).erase ((Proc.scVector (cV L) (jV L)).devRef cc2_scratch0)).erase ((Proc.scVector (cV L) (jV L)).devRef cc2_scratch1)).erase ((Proc.scVector (cV L) (jV L)).devRef cc2_scratch2)).erase ((Proc.scVector (cV L) (jV L)).devRef cc2_scratch3)).erase ((Proc.scVector (cV L) (jV L)).devRef cc2_scratch4)).erase ((Proc.scVector (cV L) (jV L)).devRef cc2_scratch5)).erase ((Proc.scVector (cV L) (jV L)).devRef cc2_scratch6)).erase ((Proc.scVector (cV L) (jV L)).devRef cc2_scratch7)).erase ((Proc.scVector (cV L) (jV L)).devRef cc2_scratch8)).erase ((Proc.scVector (cV L) (jV L)).devRef cc2_scratch9))
    fun b => iprop(∃ f, ((d, b) : Loc nD τ sig) ↦{fullShare} f)

theorem ownBufs_V2 :
    (ownBufs (V d (cV L) (jV L)) : sProp 𝕄)
      = iprop((∃ f, (V d (cV L) (jV L)).loc cc2_scratch0 ↦{fullShare} f)
          ∗ (∃ f, (V d (cV L) (jV L)).loc cc2_scratch1 ↦{fullShare} f)
          ∗ (∃ f, (V d (cV L) (jV L)).loc cc2_scratch2 ↦{fullShare} f)
          ∗ (∃ f, (V d (cV L) (jV L)).loc cc2_scratch3 ↦{fullShare} f)
          ∗ (∃ f, (V d (cV L) (jV L)).loc cc2_scratch4 ↦{fullShare} f)
          ∗ (∃ f, (V d (cV L) (jV L)).loc cc2_scratch5 ↦{fullShare} f)
          ∗ (∃ f, (V d (cV L) (jV L)).loc cc2_scratch6 ↦{fullShare} f)
          ∗ (∃ f, (V d (cV L) (jV L)).loc cc2_scratch7 ↦{fullShare} f)
          ∗ (∃ f, (V d (cV L) (jV L)).loc cc2_scratch8 ↦{fullShare} f)
          ∗ (∃ f, (V d (cV L) (jV L)).loc cc2_scratch9 ↦{fullShare} f)
          ∗ bufRest (F := F) d L) := by
  unfold SparseCore.Cfg.ownBufs
  refine (Peel.bigSep_peel _ [(Proc.scVector (cV L) (jV L)).devRef cc2_scratch0, (Proc.scVector (cV L) (jV L)).devRef cc2_scratch1, (Proc.scVector (cV L) (jV L)).devRef cc2_scratch2, (Proc.scVector (cV L) (jV L)).devRef cc2_scratch3, (Proc.scVector (cV L) (jV L)).devRef cc2_scratch4, (Proc.scVector (cV L) (jV L)).devRef cc2_scratch5, (Proc.scVector (cV L) (jV L)).devRef cc2_scratch6, (Proc.scVector (cV L) (jV L)).devRef cc2_scratch7, (Proc.scVector (cV L) (jV L)).devRef cc2_scratch8, (Proc.scVector (cV L) (jV L)).devRef cc2_scratch9] _
    (List.Nodup.map (Proc.devRef_injective (Proc.scVector (cV L) (jV L)))
      (by decide : ([cc2_scratch0, cc2_scratch1, cc2_scratch2, cc2_scratch3, cc2_scratch4, cc2_scratch5, cc2_scratch6, cc2_scratch7, cc2_scratch8, cc2_scratch9] : List (Ref sig .scVector)).Nodup))
    (fun a ha => ?_)).trans rfl
  simp only [List.mem_cons, List.not_mem_nil, or_false] at ha
  rcases ha with rfl | rfl | rfl | rfl | rfl | rfl | rfl | rfl | rfl | rfl <;>
    exact SparseCore.Cfg.mem_ownRefs_of_owner (p := (Proc.scVector (cV L) (jV L))) rfl

def semRest : sProp 𝕄 :=
  bigSep (((((((((((ownCells (V d (cV L) (jV L))).erase ((V d (cV L) (jV L), SemLoc.dma cc2_scoped0.sem) : GSem nD τ sig)).erase ((V d (cV L) (jV L), SemLoc.dma cc2_scoped1.sem) : GSem nD τ sig)).erase ((V d (cV L) (jV L), SemLoc.dma cc2_scoped2.sem) : GSem nD τ sig)).erase ((V d (cV L) (jV L), SemLoc.dma cc2_scoped3.sem) : GSem nD τ sig)).erase ((V d (cV L) (jV L), SemLoc.dma cc2_scoped4.sem) : GSem nD τ sig)).erase ((V d (cV L) (jV L), SemLoc.dma cc2_scoped5.sem) : GSem nD τ sig)).erase ((V d (cV L) (jV L), SemLoc.dma cc2_scoped6.sem) : GSem nD τ sig)).erase ((V d (cV L) (jV L), SemLoc.dma cc2_scoped7.sem) : GSem nD τ sig)).erase ((V d (cV L) (jV L), SemLoc.dma cc2_scoped8.sem) : GSem nD τ sig)).erase ((V d (cV L) (jV L), SemLoc.dma cc2_scoped9.sem) : GSem nD τ sig))
    fun g => semVal g 0

theorem cell_injective (t : Thread nD τ) : Function.Injective fun s : SemLoc sig => ((t, s) : GSem nD τ sig) :=
  fun _ _ h => (Prod.mk.inj h).2

theorem ownSems0_V2 :
    (ownSems0 (V d (cV L) (jV L)) : sProp 𝕄)
      = iprop(semVal (V d (cV L) (jV L), SemLoc.dma cc2_scoped0.sem) 0
          ∗ semVal (V d (cV L) (jV L), SemLoc.dma cc2_scoped1.sem) 0
          ∗ semVal (V d (cV L) (jV L), SemLoc.dma cc2_scoped2.sem) 0
          ∗ semVal (V d (cV L) (jV L), SemLoc.dma cc2_scoped3.sem) 0
          ∗ semVal (V d (cV L) (jV L), SemLoc.dma cc2_scoped4.sem) 0
          ∗ semVal (V d (cV L) (jV L), SemLoc.dma cc2_scoped5.sem) 0
          ∗ semVal (V d (cV L) (jV L), SemLoc.dma cc2_scoped6.sem) 0
          ∗ semVal (V d (cV L) (jV L), SemLoc.dma cc2_scoped7.sem) 0
          ∗ semVal (V d (cV L) (jV L), SemLoc.dma cc2_scoped8.sem) 0
          ∗ semVal (V d (cV L) (jV L), SemLoc.dma cc2_scoped9.sem) 0
          ∗ semRest (F := F) d L) := by
  unfold SparseCore.Cfg.ownSems0
  refine (Peel.bigSep_peel _ [((V d (cV L) (jV L), SemLoc.dma cc2_scoped0.sem) : GSem nD τ sig), ((V d (cV L) (jV L), SemLoc.dma cc2_scoped1.sem) : GSem nD τ sig), ((V d (cV L) (jV L), SemLoc.dma cc2_scoped2.sem) : GSem nD τ sig), ((V d (cV L) (jV L), SemLoc.dma cc2_scoped3.sem) : GSem nD τ sig), ((V d (cV L) (jV L), SemLoc.dma cc2_scoped4.sem) : GSem nD τ sig), ((V d (cV L) (jV L), SemLoc.dma cc2_scoped5.sem) : GSem nD τ sig), ((V d (cV L) (jV L), SemLoc.dma cc2_scoped6.sem) : GSem nD τ sig), ((V d (cV L) (jV L), SemLoc.dma cc2_scoped7.sem) : GSem nD τ sig), ((V d (cV L) (jV L), SemLoc.dma cc2_scoped8.sem) : GSem nD τ sig), ((V d (cV L) (jV L), SemLoc.dma cc2_scoped9.sem) : GSem nD τ sig)] _
    (List.Nodup.map (cell_injective (V d (cV L) (jV L)))
      (by decide : ([SemLoc.dma cc2_scoped0.sem, SemLoc.dma cc2_scoped1.sem, SemLoc.dma cc2_scoped2.sem, SemLoc.dma cc2_scoped3.sem, SemLoc.dma cc2_scoped4.sem, SemLoc.dma cc2_scoped5.sem, SemLoc.dma cc2_scoped6.sem, SemLoc.dma cc2_scoped7.sem, SemLoc.dma cc2_scoped8.sem, SemLoc.dma cc2_scoped9.sem] : List (SemLoc sig)).Nodup))
    (fun g hg => ?_)).trans rfl
  simp only [List.mem_cons, List.not_mem_nil, or_false] at hg
  rcases hg with rfl | rfl | rfl | rfl | rfl | rfl | rfl | rfl | rfl | rfl <;>
    exact mem_ownCells.mpr ⟨rfl, by
      show (SemLoc.dma _ : SemLoc sig).isScoped .scVector = true
      decide⟩

end Own

end Cert.Proof.Agg2

end
-- ==== Proof.Agg2Assembly.lean ====
import proofs.«215722_g7507602833967_cont_sun_m_718_28_alg».proof.Proof.Agg2Cut
import proofs.«215722_g7507602833967_cont_sun_m_718_28_alg».proof.Proof.Agg2BodyTile
import proofs.«215722_g7507602833967_cont_sun_m_718_28_alg».proof.Proof.Agg2BodyOwn
import proofs.«215722_g7507602833967_cont_sun_m_718_28_alg».proof.Proof.Agg2Bridge

noncomputable section

namespace Cert.Proof.Agg2

open Cert.KernelIdeal Cert.KernelIdeal.Gen
open Cert.Proof.Sage Cert.Proof.ScatterSum

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

def LoopSpec (F : FTy → Type) [FloatOps F] : Prop :=
  ∀ (R : sProp (MM F)) (α : Type) (d : Dev nD) (L : grid2.Coords) (q : PosShare TreeShare) (SI : Buf (Elt F) (sLoc d)) (DI : Buf (Elt F) (dLoc d))
    (hS : ∀ j, (SI j).toNat < 10112) (hD : ∀ j, (DI j).toNat < 10112) (O : CellTallies nD τ sig (HIx 2)) (W : Waits sig (HIx 2))
    (x0 x1 x2 x3 : Vec F S10112 .f32) (v1 : BitVec 32) (is id : Vec F S512 .i32) (k : Prog (TpuEff nD τ sig (Elt F) Λ₀ (.scVector (cV L) (jV L))) α) (Q : α → sProp (MM F)),
    (∀ (is' id' : Vec F S512 .i32), iprop(R ∗ Fr d L q SI DI O W ∗ St d L x0 x1 x2 x3 (aggUpTo x0 SI DI 20480) (aggUpTo x1 SI DI 20480)
        (aggUpTo x2 SI DI 20480) (aggUpTo x3 SI DI 20480) is' id') ⊢ wp frame (wpE (defs₀ (F := F)) 𝒱₀ (V d (cV L) (jV L)) none) Set.univ k Q) →
    iprop(R ∗ Fr d L q SI DI O W ∗ St d L x0 x1 x2 x3 zrow zrow zrow zrow is id)
      ⊢ wp frame (wpE (defs₀ (F := F)) 𝒱₀ (V d (cV L) (jV L)) none) Set.univ (do Scf.Loop.for k2_t5_loop k2_t5_ok ⟨⟩ (k2_t5_body L xB (Memref.isWhole_whole _) sB (Memref.isWhole_whole _) dB (Memref.isWhole_whole _) oB (Memref.isWhole_whole _) c0 (Memref.isWhole_whole _) c1 (Memref.isWhole_whole _) c2 (Memref.isWhole_whole _) c3 (Memref.isWhole_whole _) c4 (Memref.isWhole_whole _) c5 (Memref.isWhole_whole _) c6 (Memref.isWhole_whole _) c7 (Memref.isWhole_whole _) c8 (Memref.isWhole_whole _) c9 (Memref.isWhole_whole _) cc2_scoped0 cc2_scoped1 cc2_scoped2 cc2_scoped3 cc2_scoped4 cc2_scoped5 cc2_scoped6 cc2_scoped7 cc2_scoped8 cc2_scoped9 v1); k) Q

def Part8Spec (F : FTy → Type) [FloatOps F] : Prop :=
  ∀ (R : sProp (MM F)) (α : Type) (d : Dev nD) (L : grid2.Coords) (q : PosShare TreeShare) (X : Buf (Elt F) (xLoc d)) (SI : Buf (Elt F) (sLoc d)) (DI : Buf (Elt F) (dLoc d)) (O : CellTallies nD τ sig (HIx 2)) (W : Waits sig (HIx 2))
    (y0 y1 y2 y3 e0 e1 e2 e3 : Vec F S10112 .f32) (is id : Vec F S512 .i32) (kk : BitVec 32 → Prog (TpuEff nD τ sig (Elt F) Λ₀ (.scVector (cV L) (jV L))) α) (Q : α → sProp (MM F)),
    (iprop((R ∗ XRows d L X ∗ SemsRest d L) ∗ Fr d L q SI DI O W ∗ St d L (xRow d L 0 X) (xRow d L 1 X) (xRow d L 2 X) y3 zrow zrow zrow e3 is id)
        ⊢ wp frame (wpE (defs₀ (F := F)) 𝒱₀ (V d (cV L) (jV L)) none) Set.univ (kk (v1w L)) Q) →
    iprop((R ∗ XRows d L X ∗ SemsRest d L) ∗ Fr d L q SI DI O W ∗ St d L y0 y1 y2 y3 e0 e1 e2 e3 is id)
      ⊢ wp frame (wpE (defs₀ (F := F)) 𝒱₀ (V d (cV L) (jV L)) none) Set.univ (k2_part8 L xB (Memref.isWhole_whole _) sB (Memref.isWhole_whole _) dB (Memref.isWhole_whole _) oB (Memref.isWhole_whole _) c0 (Memref.isWhole_whole _) c1 (Memref.isWhole_whole _) c2 (Memref.isWhole_whole _) c3 (Memref.isWhole_whole _) c4 (Memref.isWhole_whole _) c5 (Memref.isWhole_whole _) c6 (Memref.isWhole_whole _) c7 (Memref.isWhole_whole _) c8 (Memref.isWhole_whole _) c9 (Memref.isWhole_whole _) cc2_scoped0 cc2_scoped1 cc2_scoped2 cc2_scoped3 cc2_scoped4 cc2_scoped5 cc2_scoped6 cc2_scoped7 cc2_scoped8 cc2_scoped9 >>= kk) Q

def Pre2Spec (F : FTy → Type) [FloatOps F] : Prop :=
  ∀ (R : sProp (MM F)) (α : Type) (d : Dev nD) (L : grid2.Coords) (q : PosShare TreeShare) (X : Buf (Elt F) (xLoc d)) (SI : Buf (Elt F) (sLoc d)) (DI : Buf (Elt F) (dLoc d)) (O : CellTallies nD τ sig (HIx 2)) (W : Waits sig (HIx 2))
    (x0 x1 x2 y3 e3 : Vec F S10112 .f32) (is id : Vec F S512 .i32) (k : Prog (TpuEff nD τ sig (Elt F) Λ₀ (.scVector (cV L) (jV L))) α) (Q : α → sProp (MM F)),
    (iprop((R ∗ XRows d L X ∗ SemsRest d L) ∗ Fr d L q SI DI O W ∗ St d L x0 x1 x2 (xRow d L 3 X) zrow zrow zrow zrow is id) ⊢ wp frame (wpE (defs₀ (F := F)) 𝒱₀ (V d (cV L) (jV L)) none) Set.univ k Q) →
    iprop((R ∗ XRows d L X ∗ SemsRest d L) ∗ Fr d L q SI DI O W ∗ St d L x0 x1 x2 y3 zrow zrow zrow e3 is id)
      ⊢ wp frame (wpE (defs₀ (F := F)) 𝒱₀ (V d (cV L) (jV L)) none) Set.univ (progPre2 L k) Q

def EpiSpec (F : FTy → Type) [FloatOps F] : Prop :=
  ∀ (R : sProp (MM F)) (d : Dev nD) (L : grid2.Coords) (q : PosShare TreeShare) (SI : Buf (Elt F) (sLoc d)) (DI : Buf (Elt F) (dLoc d)) (O : CellTallies nD τ sig (HIx 2)) (W : Waits sig (HIx 2)) (R0 : Buf (Elt F) (oLoc d))
    (x0 x1 x2 x3 a0 a1 a2 a3 : Vec F S10112 .f32) (is id : Vec F S512 .i32),
    iprop((R ∗ ORows d L R0 ∗ SemsRest d L) ∗ Fr d L q SI DI O W ∗ St d L x0 x1 x2 x3 a0 a1 a2 a3 is id)
      ⊢ wp frame (wpE (defs₀ (F := F)) 𝒱₀ (V d (cV L) (jV L)) none) Set.univ (progEpi L) fun _ =>
          iprop((R ∗ (outRow d L 0 a0 ∗ outRow d L 1 a1 ∗ outRow d L 2 a2 ∗ outRow d L 3 a3) ∗ SemsRest d L) ∗ Fr d L q SI DI O W
            ∗ St d L x0 x1 x2 x3 a0 a1 a2 a3 is id)

theorem of_ent {P Q : sProp 𝕄} (h : P ⊢ Q) : Idealize.SL.BI.Entails P Q := h

theorem holds_intro (d : Dev nD) (L : grid2.Coords) {s : Shape} {e : EltTy} (m : Memref sig .scVector .vmem s e)
    (f : Buf (Elt F) (m.view.loc (V d (cV L) (jV L)))) :
    (m.view.loc (V d (cV L) (jV L)) ↦{fullShare} f : sProp 𝕄) ⊢ holds d (cV L) (jV L) m (m.view.read (Elt F) f) := by
  unfold holds
  iintro H
  iexists f
  isplitl [H]
  · iexact H
  · ipureintro; rfl

theorem holds_elim (d : Dev nD) (L : grid2.Coords) {s : Shape} {e : EltTy} (m : Memref sig .scVector .vmem s e) (x : Vec F s e) :
    holds d (cV L) (jV L) m x ⊢ iprop(∃ f, m.view.loc (V d (cV L) (jV L)) ↦{fullShare} f) := by
  unfold holds
  iintro ⟨%f, H, -⟩
  iexists f
  iexact H

theorem outRow_after (d : Dev nD) (L : grid2.Coords) (r : Fin 4) (X : Buf (Elt F) (xLoc d)) (SI : Buf (Elt F) (sLoc d)) (DI : Buf (Elt F) (dLoc d)) (R : Buf (Elt F) (oLoc d)) :
    outRow d L r (aggUpTo (xRow d L r X) SI DI 20480) ⊢ oPc d L r (oAfter d L r X SI DI R) := by
  unfold outRow
  iintro ⟨%fo, H, %hfo⟩
  have hc : ∀ i ∈ (oSl L r).view.set, fo i = oAfter d L r X SI DI R i := by
    intro i hi
    obtain ⟨j, -, rfl⟩ := Finset.mem_map.mp hi
    have h1 : fo ((oSl L r).view.emb j) = aggUpTo (xRow d L r X) SI DI 20480 j := congrFun hfo j
    have h2 : oAfter d L r X SI DI R ((oSl L r).view.emb j) = aggRow d L r X SI DI j := by
      unfold oAfter
      exact View.write_emb_of_mem _ _ (Finset.mem_univ j)
    rw [h1, h2]
    unfold aggRow
    rfl
  have e : (oPc d L r fo : sProp 𝕄) = oPc d L r (oAfter d L r X SI DI R) := by
    show (oLoc d ↦[(oSl L r).view.set]{fullShare} fo : sProp 𝕄) = _
    exact pointsTo_congr hc
  iapply (Entails.of_eq e)
  iexact H

abbrev Post2 (d : Dev nD) (L : grid2.Coords) (X : Buf (Elt F) (xLoc d)) (R : Buf (Elt F) (oLoc d)) (SI : Buf (Elt F) (sLoc d)) (DI : Buf (Elt F) (dLoc d)) (q : PosShare TreeShare) (O : CellTallies nD τ sig (HIx 2)) (W : Waits sig (HIx 2)) : PUnit → sProp 𝕄 :=
  fun _ => iprop((xPc d L 0 X ∗ xPc d L 1 X ∗ xPc d L 2 X ∗ xPc d L 3 X)
    ∗ (oPc d L 0 (oAfter d L 0 X SI DI R) ∗ oPc d L 1 (oAfter d L 1 X SI DI R) ∗ oPc d L 2 (oAfter d L 2 X SI DI R) ∗ oPc d L 3 (oAfter d L 3 X SI DI R))
    ∗ (sLoc d ↦{q} SI) ∗ (dLoc d ↦{q} DI)
    ∗ ((∃ f, (V d (cV L) (jV L)).loc cc2_scratch0 ↦{fullShare} f) ∗ (∃ f, (V d (cV L) (jV L)).loc cc2_scratch1 ↦{fullShare} f) ∗ (∃ f, (V d (cV L) (jV L)).loc cc2_scratch2 ↦{fullShare} f) ∗ (∃ f, (V d (cV L) (jV L)).loc cc2_scratch3 ↦{fullShare} f) ∗ (∃ f, (V d (cV L) (jV L)).loc cc2_scratch4 ↦{fullShare} f) ∗ (∃ f, (V d (cV L) (jV L)).loc cc2_scratch5 ↦{fullShare} f) ∗ (∃ f, (V d (cV L) (jV L)).loc cc2_scratch6 ↦{fullShare} f) ∗ (∃ f, (V d (cV L) (jV L)).loc cc2_scratch7 ↦{fullShare} f) ∗ (∃ f, (V d (cV L) (jV L)).loc cc2_scratch8 ↦{fullShare} f) ∗ (∃ f, (V d (cV L) (jV L)).loc cc2_scratch9 ↦{fullShare} f) ∗ bufRest (F := F) d L)
    ∗ (semVal ((V d (cV L) (jV L)), SemLoc.dma cc2_scoped0.sem) 0 ∗ semVal ((V d (cV L) (jV L)), SemLoc.dma cc2_scoped1.sem) 0 ∗ semVal ((V d (cV L) (jV L)), SemLoc.dma cc2_scoped2.sem) 0 ∗ semVal ((V d (cV L) (jV L)), SemLoc.dma cc2_scoped3.sem) 0 ∗ semVal ((V d (cV L) (jV L)), SemLoc.dma cc2_scoped4.sem) 0 ∗ semVal ((V d (cV L) (jV L)), SemLoc.dma cc2_scoped5.sem) 0 ∗ semVal ((V d (cV L) (jV L)), SemLoc.dma cc2_scoped6.sem) 0 ∗ semVal ((V d (cV L) (jV L)), SemLoc.dma cc2_scoped7.sem) 0 ∗ semVal ((V d (cV L) (jV L)), SemLoc.dma cc2_scoped8.sem) 0 ∗ semVal ((V d (cV L) (jV L)), SemLoc.dma cc2_scoped9.sem) 0 ∗ semRest (F := F) d L)
    ∗ ∃ W', ⌜∀ p ∈ W', p ∈ W ∨ p.2 = none⌝ ∗ owes (V d (cV L) (jV L)) O W')

set_option maxHeartbeats 4000000 in
attribute [local irreducible] aggUpTo in

theorem tile_body_of (lp : LoopSpec F) (p1 : Part8Spec F) (p2 : Pre2Spec F) (ep : EpiSpec F) : TileBody F := by
  intro hF d L X R SI DI hS hD q O W hO
  show _ ⊢ wp frame (wpE (defs₀ (F := F)) 𝒱₀ (V d (cV L) (jV L)) none) Set.univ (body2 (F := F) L) _
  rw [body_cut, (K (F := F)).scopedBufs_V hF d (cV L) (jV L), SparseCore.Cfg.scopedSems0_V (Val := Elt F) d (cV L) (jV L),
    ownBufs_V2, ownSems0_V2]

  have HH : ∀ (y3 e3 : Vec F S10112 .f32) (is id : Vec F S512 .i32),
      iprop((iprop(ORows d L R ∗ bufRest (F := F) d L ∗ semRest (F := F) d L) ∗ XRows d L X ∗ SemsRest d L) ∗ Fr d L q SI DI O W ∗ St d L (xRow d L 0 X) (xRow d L 1 X) (xRow d L 2 X) y3 zrow zrow zrow e3 is id)
        ⊢ wp frame (wpE (defs₀ (F := F)) 𝒱₀ (V d (cV L) (jV L)) none) Set.univ (k2_part9 (F := F) L xB (Memref.isWhole_whole _) sB (Memref.isWhole_whole _) dB (Memref.isWhole_whole _) oB (Memref.isWhole_whole _) c0 (Memref.isWhole_whole _) c1 (Memref.isWhole_whole _) c2 (Memref.isWhole_whole _) c3 (Memref.isWhole_whole _) c4 (Memref.isWhole_whole _) c5 (Memref.isWhole_whole _) c6 (Memref.isWhole_whole _) c7 (Memref.isWhole_whole _) c8 (Memref.isWhole_whole _) c9 (Memref.isWhole_whole _) cc2_scoped0 cc2_scoped1 cc2_scoped2 cc2_scoped3 cc2_scoped4 cc2_scoped5 cc2_scoped6 cc2_scoped7 cc2_scoped8 cc2_scoped9 (v1w L) >>= fun _ => progTail L) (Post2 d L X R SI DI q O W) := by
    intro y3 e3 is id
    rw [part9_cut, wp_bind]
    refine p2 _ _ d L q X SI DI O W (xRow d L 0 X) (xRow d L 1 X) (xRow d L 2 X) y3 e3 is id _ _ ?_
    unfold progLoop
    refine lp _ _ d L q SI DI hS hD O W (xRow d L 0 X) (xRow d L 1 X) (xRow d L 2 X) (xRow d L 3 X) (v1w L) is id _ _ (fun is2 id2 => ?_)
    refine BI.Entails.trans ?_ (Entails.of_eq (wp_bind frame (wpE (defs₀ (F := F)) 𝒱₀ (V d (cV L) (jV L)) none) Set.univ (progEpiA (F := F) L) (fun _ => progTail L) (Post2 d L X R SI DI q O W)))
    rw [epi_join]
    refine BI.Entails.trans (of_ent ?_) ((ep iprop(XRows d L X ∗ bufRest (F := F) d L ∗ semRest (F := F) d L) d L q SI DI O W R (xRow d L 0 X) (xRow d L 1 X) (xRow d L 2 X) (xRow d L 3 X) (aggUpTo (xRow d L 0 X) SI DI 20480) (aggUpTo (xRow d L 1 X) SI DI 20480) (aggUpTo (xRow d L 2 X) SI DI 20480) (aggUpTo (xRow d L 3 X) SI DI 20480) is2 id2).trans (wp_mono frame _ _ fun _ => of_ent ?_))
    · iintro ⟨⟨⟨HOR, HbR, HsR⟩, HX, HS⟩, HFr, HSt⟩
      isplitl [HX HbR HsR HOR HS]
      · isplitl [HX HbR HsR]
        · isplitl [HX]; · iexact HX
          isplitl [HbR]; · iexact HbR
          iexact HsR
        isplitl [HOR]; · iexact HOR
        iexact HS
      isplitl [HFr]; · iexact HFr
      iexact HSt
    · unfold SemsRest Fr St XRows
      iintro ⟨⟨⟨⟨Hx0, Hx1, Hx2, Hx3⟩, HbR, HsR⟩, ⟨Hr0, Hr1, Hr2, Hr3⟩, ⟨S0, S1, S2, S3, S6, S7, S8, S9⟩⟩, ⟨Hmw, Hs, Hd, S4, S5, HW⟩,
        ⟨B0, B1, B2, B3, B4, B5, B6, B7, B8, B9⟩⟩
      ihave Ho0 := (outRow_after d L 0 X SI DI R) $$ Hr0
      ihave Ho1 := (outRow_after d L 1 X SI DI R) $$ Hr1
      ihave Ho2 := (outRow_after d L 2 X SI DI R) $$ Hr2
      ihave Ho3 := (outRow_after d L 3 X SI DI R) $$ Hr3
      ihave C0 := (holds_elim d L c0 _) $$ B0
      ihave C1 := (holds_elim d L c1 _) $$ B1
      ihave C2 := (holds_elim d L c2 _) $$ B2
      ihave C3 := (holds_elim d L c3 _) $$ B3
      ihave C4 := (holds_elim d L c4 _) $$ B4
      ihave C5 := (holds_elim d L c5 _) $$ B5
      ihave C6 := (holds_elim d L c6 _) $$ B6
      ihave C7 := (holds_elim d L c7 _) $$ B7
      ihave C8 := (holds_elim d L c8 _) $$ B8
      ihave C9 := (holds_elim d L c9 _) $$ B9
      isplitl [Hx0 Hx1 Hx2 Hx3]
      · isplitl [Hx0]; · iexact Hx0
        isplitl [Hx1]; · iexact Hx1
        isplitl [Hx2]; · iexact Hx2
        iexact Hx3
      isplitl [Ho0 Ho1 Ho2 Ho3]
      · isplitl [Ho0]; · iexact Ho0
        isplitl [Ho1]; · iexact Ho1
        isplitl [Ho2]; · iexact Ho2
        iexact Ho3
      isplitl [Hs]; · iexact Hs
      isplitl [Hd]; · iexact Hd
      isplitl [C0 C1 C2 C3 C4 C5 C6 C7 C8 C9 HbR]
      · isplitl [C0]; · iexact C0
        isplitl [C1]; · iexact C1
        isplitl [C2]; · iexact C2
        isplitl [C3]; · iexact C3
        isplitl [C4]; · iexact C4
        isplitl [C5]; · iexact C5
        isplitl [C6]; · iexact C6
        isplitl [C7]; · iexact C7
        isplitl [C8]; · iexact C8
        isplitl [C9]; · iexact C9
        iexact HbR
      isplitl [S0 S1 S2 S3 S4 S5 S6 S7 S8 S9 HsR]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        isplitl [S9]; · iexact S9
        iexact HsR
      iexact HW

  iintro ⟨#Hlv, ⟨Hx0, Hx1, Hx2, Hx3⟩, ⟨Ho0, Ho1, Ho2, Ho3⟩, Hs, Hd,
    ⟨⟨%f0, B0⟩, ⟨%f1, B1⟩, ⟨%f2, B2⟩, ⟨%f3, B3⟩, ⟨%f4, B4⟩, ⟨%f5, B5⟩, ⟨%f6, B6⟩, ⟨%f7, B7⟩, ⟨%f8, B8⟩, ⟨%f9, B9⟩, HbR⟩,
    ⟨S0, S1, S2, S3, S4, S5, S6, S7, S8, S9, HsR⟩, HO⟩
  ihave Hmw := ((K (F := F)).mayWaits_none (thr := (V d (cV L) (jV L))) hO) $$ Hlv
  ihave C0 := (holds_intro d L c0 f0) $$ B0
  ihave C1 := (holds_intro d L c1 f1) $$ B1
  ihave C2 := (holds_intro d L c2 f2) $$ B2
  ihave C3 := (holds_intro d L c3 f3) $$ B3
  ihave C4 := (holds_intro d L c4 f4) $$ B4
  ihave C5 := (holds_intro d L c5 f5) $$ B5
  ihave C6 := (holds_intro d L c6 f6) $$ B6
  ihave C7 := (holds_intro d L c7 f7) $$ B7
  ihave C8 := (holds_intro d L c8 f8) $$ B8
  ihave C9 := (holds_intro d L c9 f9) $$ B9
  iapply (p1 iprop(ORows d L R ∗ bufRest (F := F) d L ∗ semRest (F := F) d L) PUnit d L q X SI DI O W _ _ _ _ _ _ _ _ _ _ _ (Post2 d L X R SI DI q O W) (HH _ _ _ _))
  unfold XRows ORows SemsRest Fr St
  isplitl [Ho0 Ho1 Ho2 Ho3 HbR HsR Hx0 Hx1 Hx2 Hx3 S0 S1 S2 S3 S6 S7 S8 S9]
  · isplitl [Ho0 Ho1 Ho2 Ho3 HbR HsR]
    · isplitl [Ho0 Ho1 Ho2 Ho3]
      · isplitl [Ho0]; · iexact Ho0
        isplitl [Ho1]; · iexact Ho1
        isplitl [Ho2]; · iexact Ho2
        iexact Ho3
      isplitl [HbR]; · iexact HbR
      iexact HsR
    isplitl [Hx0 Hx1 Hx2 Hx3]
    · isplitl [Hx0]; · iexact Hx0
      isplitl [Hx1]; · iexact Hx1
      isplitl [Hx2]; · iexact Hx2
      iexact Hx3
    isplitl [S0]; · iexact S0
    isplitl [S1]; · iexact S1
    isplitl [S2]; · iexact S2
    isplitl [S3]; · iexact S3
    isplitl [S6]; · iexact S6
    isplitl [S7]; · iexact S7
    isplitl [S8]; · iexact S8
    iexact S9
  isplitl [Hmw Hs Hd S4 S5 HO]
  · isplitl [Hmw]; · iexact Hmw
    isplitl [Hs]; · iexact Hs
    isplitl [Hd]; · iexact Hd
    isplitl [S4]; · iexact S4
    isplitl [S5]; · iexact S5
    iexists W
    isplitr
    · ipureintro; exact fun p hp => Or.inl hp
    iexact HO
  isplitl [C0]; · iexact C0
  isplitl [C1]; · iexact C1
  isplitl [C2]; · iexact C2
  isplitl [C3]; · iexact C3
  isplitl [C4]; · iexact C4
  isplitl [C5]; · iexact C5
  isplitl [C6]; · iexact C6
  isplitl [C7]; · iexact C7
  isplitl [C8]; · iexact C8
  iexact C9

end Cert.Proof.Agg2

end
-- ==== Proof.Agg2BodyTrip.lean ====
import proofs.«215722_g7507602833967_cont_sun_m_718_28_alg».proof.Proof.Agg2BodyTile

noncomputable section

namespace Cert.Proof.Agg2

open Cert.KernelIdeal Cert.KernelIdeal.Gen
open Cert.Proof.Sage Cert.Proof.ScatterSum

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

local notation "xW" => (Memref.whole Cert.KernelIdeal.main_v17_scv : Memref Cert.KernelIdeal.sig Kind.scVector Space.hbm Cert.KernelIdeal.S1294336 EltTy.f32)
local notation "sW" => (Memref.whole Cert.KernelIdeal.main_v5_scv : Memref Cert.KernelIdeal.sig Kind.scVector Space.hbm Cert.KernelIdeal.S327680 EltTy.i32)
local notation "dW" => (Memref.whole Cert.KernelIdeal.main_v7_scv : Memref Cert.KernelIdeal.sig Kind.scVector Space.hbm Cert.KernelIdeal.S327680 EltTy.i32)
local notation "oW" => (Memref.whole Cert.KernelIdeal.main_v18_scv : Memref Cert.KernelIdeal.sig Kind.scVector Space.hbm Cert.KernelIdeal.S1294336 EltTy.f32)
local notation "b0" => (Memref.whole Cert.KernelIdeal.cc2_scratch0 : Memref Cert.KernelIdeal.sig Kind.scVector Space.vmem Cert.KernelIdeal.S10112 EltTy.f32)
local notation "b1" => (Memref.whole Cert.KernelIdeal.cc2_scratch1 : Memref Cert.KernelIdeal.sig Kind.scVector Space.vmem Cert.KernelIdeal.S10112 EltTy.f32)
local notation "b2" => (Memref.whole Cert.KernelIdeal.cc2_scratch2 : Memref Cert.KernelIdeal.sig Kind.scVector Space.vmem Cert.KernelIdeal.S10112 EltTy.f32)
local notation "b3" => (Memref.whole Cert.KernelIdeal.cc2_scratch3 : Memref Cert.KernelIdeal.sig Kind.scVector Space.vmem Cert.KernelIdeal.S10112 EltTy.f32)
local notation "b4" => (Memref.whole Cert.KernelIdeal.cc2_scratch4 : Memref Cert.KernelIdeal.sig Kind.scVector Space.vmem Cert.KernelIdeal.S10112 EltTy.f32)
local notation "b5" => (Memref.whole Cert.KernelIdeal.cc2_scratch5 : Memref Cert.KernelIdeal.sig Kind.scVector Space.vmem Cert.KernelIdeal.S10112 EltTy.f32)
local notation "b6" => (Memref.whole Cert.KernelIdeal.cc2_scratch6 : Memref Cert.KernelIdeal.sig Kind.scVector Space.vmem Cert.KernelIdeal.S10112 EltTy.f32)
local notation "b7" => (Memref.whole Cert.KernelIdeal.cc2_scratch7 : Memref Cert.KernelIdeal.sig Kind.scVector Space.vmem Cert.KernelIdeal.S10112 EltTy.f32)
local notation "b8" => (Memref.whole Cert.KernelIdeal.cc2_scratch8 : Memref Cert.KernelIdeal.sig Kind.scVector Space.vmem Cert.KernelIdeal.S512 EltTy.i32)
local notation "b9" => (Memref.whole Cert.KernelIdeal.cc2_scratch9 : Memref Cert.KernelIdeal.sig Kind.scVector Space.vmem Cert.KernelIdeal.S512 EltTy.i32)

section LaneAcc
variable [FloatOps F]

theorem lane_acc (xs : Vec F SRow .f32) (src dst : IVec SEdge 32) (g j j' o : Nat) (hj : o = 16 * j) (hj' : j' = j + 1)
    (hinb : ∀ a, (![o] : Fin 1 → Nat) a + SLane.size a ≤ SChunk.size a)
    (h1 : ∀ a y, ((![fun y => chunk512 src g ((Rect.unit (s := SChunk) ![o] SLane.size hinb).toLoadRect.idx y)] : Fin 1 → IVec SLane 32) a y).toNat < SRow.size a)
    (h2 : ∀ a y, ((![fun y => chunk512 dst g ((Rect.unit (s := SChunk) ![o] SLane.size hinb).toLoadRect.idx y)] : Fin 1 → IVec SLane 32) a y).toNat < SRow.size a) :
    storeIdx (aggUpTo xs src dst (32 * g + j)) ![fun y => chunk512 dst g ((Rect.unit (s := SChunk) ![o] SLane.size hinb).toLoadRect.idx y)]
        (loadIdx xs ![fun y => chunk512 src g ((Rect.unit (s := SChunk) ![o] SLane.size hinb).toLoadRect.idx y)] h1) (fun _ => 1#1) true h2
      = aggUpTo xs src dst (32 * g + j') := by
  have ho : o % 16 = 0 := by omega
  have hd : o / 16 = j := by omega
  rw [lane_eq xs _ src dst g o hinb ho h1 h2, hd, hj', show 32 * g + (j + 1) = 32 * g + j + 1 by omega, aggUpTo_succ]

section Congr
variable {α : Type} (d : Dev nD) (L : grid2.Coords)

theorem St_acc {R G : sProp 𝕄} {x0 x1 x2 x3 a0 a1 a2 a3 a0' a1' a2' a3' : Vec F S10112 .f32} {is id : Vec F S512 .i32}
    (e0 : a0 = a0') (e1 : a1 = a1') (e2 : a2 = a2') (e3 : a3 = a3')
    (H : iprop(R ∗ St d L x0 x1 x2 x3 a0' a1' a2' a3' is id) ⊢ G) : iprop(R ∗ St d L x0 x1 x2 x3 a0 a1 a2 a3 is id) ⊢ G := by
  subst e0 e1 e2 e3; exact H

end Congr

end LaneAcc

section Trip
variable [FloatOps F] (d : Dev nD) (L : grid2.Coords)

set_option hygiene false in
local macro "o_l8" : tactic => `(tactic| apply l8 d L)
set_option hygiene false in
local macro "o_l9" : tactic => `(tactic| apply l9 d L)
set_option hygiene false in
local macro "o_ci" : tactic => `(tactic| apply cS d L (chk4 (fun y => his _)))
set_option hygiene false in
local macro "o_cd" : tactic => `(tactic| apply cS d L (chk4 (fun y => hid _)))
set_option hygiene false in
local macro "o_g0" : tactic => `(tactic| apply g0 d L)
set_option hygiene false in
local macro "o_g1" : tactic => `(tactic| apply g1 d L)
set_option hygiene false in
local macro "o_g2" : tactic => `(tactic| apply g2 d L)
set_option hygiene false in
local macro "o_g3" : tactic => `(tactic| apply g3 d L)
set_option hygiene false in
local macro "o_s4" : tactic => `(tactic| apply s4 d L)
set_option hygiene false in
local macro "o_s5" : tactic => `(tactic| apply s5 d L)
set_option hygiene false in
local macro "o_s6" : tactic => `(tactic| apply s6 d L)
set_option hygiene false in
local macro "o_s7" : tactic => `(tactic| apply s7 d L)

local macro "lane" : tactic => `(tactic| (o_l8; o_ci; o_l9; o_cd; o_g0; o_s4; o_g1; o_s5; o_g2; o_s6; o_g3; o_s7))
set_option hygiene false in
local macro "o_in " e:ident s:ident : tactic => `(tactic| (apply enter d L; rw [$e:ident]; unfold $s:ident))
set_option hygiene false in
local macro "nz " j:num j':num o:num : tactic => `(tactic| apply St_acc d L (lane_acc _ SI DI t.val $j $j' $o rfl rfl _ _ _) (lane_acc _ SI DI t.val $j $j' $o rfl rfl _ _ _) (lane_acc _ SI DI t.val $j $j' $o rfl rfl _ _ _) (lane_acc _ SI DI t.val $j $j' $o rfl rfl _ _ _))
set_option hygiene false in
local macro "o_out" : tactic => `(tactic| apply leave d L)

set_option maxHeartbeats 1000000 in
attribute [local irreducible] aggUpTo in
theorem trip (q : PosShare TreeShare) (SI : Buf (Elt F) (sLoc d)) (DI : Buf (Elt F) (dLoc d))
    (hS : ∀ j, (SI j).toNat < 10112) (hD : ∀ j, (DI j).toNat < 10112)
    (O : CellTallies nD τ sig (HIx 2)) (W : Waits sig (HIx 2))
    (x0 x1 x2 x3 : Vec F S10112 .f32) (v1 : BitVec 32) (t : Fin k2_t5_loop.trips) (u : Unit) (is id : Vec F S512 .i32) :
    iprop(Fr d L q SI DI O W ∗ St d L x0 x1 x2 x3 (aggUpTo x0 SI DI (32 * t.val)) (aggUpTo x1 SI DI (32 * t.val))
        (aggUpTo x2 SI DI (32 * t.val)) (aggUpTo x3 SI DI (32 * t.val)) is id)
      ⊢ wp frame (wpE (defs₀ (F := F)) 𝒱₀ (V d (cV L) (jV L)) none) Set.univ (k2_t5_body L xW (Memref.isWhole_whole _) sW (Memref.isWhole_whole _) dW (Memref.isWhole_whole _) oW (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) cc2_scoped0 cc2_scoped1 cc2_scoped2 cc2_scoped3 cc2_scoped4 cc2_scoped5 cc2_scoped6 cc2_scoped7 cc2_scoped8 cc2_scoped9 v1 t u) fun _ => iprop(Fr d L q SI DI O W ∗ ∃ is' id', St d L x0 x1 x2 x3 (aggUpTo x0 SI DI (32 * (t.val + 1)))
          (aggUpTo x1 SI DI (32 * (t.val + 1))) (aggUpTo x2 SI DI (32 * (t.val + 1))) (aggUpTo x3 SI DI (32 * (t.val + 1))) is' id') := by
  have his : ∀ j, (chunk512 SI t.val j).toNat < 10112 := chunk_lt SI hS _
  have hid : ∀ j, (chunk512 DI t.val j).toNat < 10112 := chunk_lt DI hD _
  unfold k2_t5_body

  o_in k2_part1_eq_skeleton k2_part1_skel
  apply fetchS d L t
  apply fetchD d L t
  lane; nz 0 1 0
  lane; nz 1 2 16
  lane; nz 2 3 32
  o_l8; o_ci
  o_out

  o_in k2_part2_eq_skeleton k2_part2_skel
  o_l9; o_cd; o_g0; o_s4; o_g1; o_s5; o_g2; o_s6; o_g3; o_s7; nz 3 4 48
  lane; nz 4 5 64
  lane; nz 5 6 80
  lane; nz 6 7 96
  o_l8; o_ci; o_l9; o_cd; o_g0
  o_out

  o_in k2_part3_eq_skeleton k2_part3_skel
  o_s4; o_g1; o_s5; o_g2; o_s6; o_g3; o_s7; nz 7 8 112
  lane; nz 8 9 128
  lane; nz 9 10 144
  lane; nz 10 11 160
  o_l8; o_ci; o_l9; o_cd; o_g0; o_s4; o_g1; o_s5; o_g2
  o_out

  o_in k2_part4_eq_skeleton k2_part4_skel
  o_s6; o_g3; o_s7; nz 11 12 176
  lane; nz 12 13 192
  lane; nz 13 14 208
  lane; nz 14 15 224
  lane; nz 15 16 240
  o_out

  o_in k2_part5_eq_skeleton k2_part5_skel
  lane; nz 16 17 256
  lane; nz 17 18 272
  lane; nz 18 19 288
  lane; nz 19 20 304
  o_l8; o_ci; o_l9
  o_out

  o_in k2_part6_eq_skeleton k2_part6_skel
  o_cd; o_g0; o_s4; o_g1; o_s5; o_g2; o_s6; o_g3; o_s7; nz 20 21 320
  lane; nz 21 22 336
  lane; nz 22 23 352
  lane; nz 23 24 368
  o_l8; o_ci; o_l9; o_cd; o_g0; o_s4; o_g1
  o_out

  o_in k2_part7_eq_skeleton k2_part7_skel
  o_s5; o_g2; o_s6; o_g3; o_s7; nz 24 25 384
  lane; nz 25 26 400
  lane; nz 26 27 416
  lane; nz 27 28 432
  o_l8; o_ci; o_l9; o_cd; o_g0; o_s4; o_g1; o_s5; o_g2; o_s6; o_g3
  o_out

  o_s7; nz 28 29 448
  lane; nz 29 30 464
  lane; nz 30 31 480
  lane; nz 31 32 496
  o_out

  have e32 : 32 * (t.val + 1) = 32 * t.val + 32 := by omega
  rw [e32]
  iintro ⟨HF, HS⟩
  isplitl [HF]
  · iexact HF
  iexists _, _
  iexact HS

end Trip

end Cert.Proof.Agg2

end
-- ==== Proof.Agg2Loop.lean ====
import proofs.«215722_g7507602833967_cont_sun_m_718_28_alg».proof.Proof.Agg2BodyTrip

noncomputable section

namespace Cert.Proof.Agg2

open Cert.KernelIdeal Cert.KernelIdeal.Gen
open Cert.Proof.Sage Cert.Proof.ScatterSum

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

local notation "xW" => (Memref.whole Cert.KernelIdeal.main_v17_scv : Memref Cert.KernelIdeal.sig Kind.scVector Space.hbm Cert.KernelIdeal.S1294336 EltTy.f32)
local notation "sW" => (Memref.whole Cert.KernelIdeal.main_v5_scv : Memref Cert.KernelIdeal.sig Kind.scVector Space.hbm Cert.KernelIdeal.S327680 EltTy.i32)
local notation "dW" => (Memref.whole Cert.KernelIdeal.main_v7_scv : Memref Cert.KernelIdeal.sig Kind.scVector Space.hbm Cert.KernelIdeal.S327680 EltTy.i32)
local notation "oW" => (Memref.whole Cert.KernelIdeal.main_v18_scv : Memref Cert.KernelIdeal.sig Kind.scVector Space.hbm Cert.KernelIdeal.S1294336 EltTy.f32)
local notation "b0" => (Memref.whole Cert.KernelIdeal.cc2_scratch0 : Memref Cert.KernelIdeal.sig Kind.scVector Space.vmem Cert.KernelIdeal.S10112 EltTy.f32)
local notation "b1" => (Memref.whole Cert.KernelIdeal.cc2_scratch1 : Memref Cert.KernelIdeal.sig Kind.scVector Space.vmem Cert.KernelIdeal.S10112 EltTy.f32)
local notation "b2" => (Memref.whole Cert.KernelIdeal.cc2_scratch2 : Memref Cert.KernelIdeal.sig Kind.scVector Space.vmem Cert.KernelIdeal.S10112 EltTy.f32)
local notation "b3" => (Memref.whole Cert.KernelIdeal.cc2_scratch3 : Memref Cert.KernelIdeal.sig Kind.scVector Space.vmem Cert.KernelIdeal.S10112 EltTy.f32)
local notation "b4" => (Memref.whole Cert.KernelIdeal.cc2_scratch4 : Memref Cert.KernelIdeal.sig Kind.scVector Space.vmem Cert.KernelIdeal.S10112 EltTy.f32)
local notation "b5" => (Memref.whole Cert.KernelIdeal.cc2_scratch5 : Memref Cert.KernelIdeal.sig Kind.scVector Space.vmem Cert.KernelIdeal.S10112 EltTy.f32)
local notation "b6" => (Memref.whole Cert.KernelIdeal.cc2_scratch6 : Memref Cert.KernelIdeal.sig Kind.scVector Space.vmem Cert.KernelIdeal.S10112 EltTy.f32)
local notation "b7" => (Memref.whole Cert.KernelIdeal.cc2_scratch7 : Memref Cert.KernelIdeal.sig Kind.scVector Space.vmem Cert.KernelIdeal.S10112 EltTy.f32)
local notation "b8" => (Memref.whole Cert.KernelIdeal.cc2_scratch8 : Memref Cert.KernelIdeal.sig Kind.scVector Space.vmem Cert.KernelIdeal.S512 EltTy.i32)
local notation "b9" => (Memref.whole Cert.KernelIdeal.cc2_scratch9 : Memref Cert.KernelIdeal.sig Kind.scVector Space.vmem Cert.KernelIdeal.S512 EltTy.i32)
attribute [local irreducible] aggUpTo

section Loop
variable [FloatOps F] (d : Dev nD) (L : grid2.Coords)

theorem trips5 : k2_t5_loop.trips = 640 := by decide

set_option maxHeartbeats 4000000 in

theorem loop_rule {R : sProp 𝕄} {α : Type} (q : PosShare TreeShare) (SI : Buf (Elt F) (sLoc d)) (DI : Buf (Elt F) (dLoc d))
    (hS : ∀ j, (SI j).toNat < 10112) (hD : ∀ j, (DI j).toNat < 10112)
    (O : CellTallies nD τ sig (HIx 2)) (W : Waits sig (HIx 2))
    (x0 x1 x2 x3 : Vec F S10112 .f32) (v1 : BitVec 32) (is id : Vec F S512 .i32)
    {k : Prog (TpuEff nD τ sig (Elt F) Λ₀ (.scVector (cV L) (jV L))) α} {Q : α → sProp 𝕄}
    (H : ∀ (is' id' : Vec F S512 .i32),
      iprop(R ∗ Fr d L q SI DI O W ∗ St d L x0 x1 x2 x3 (aggUpTo x0 SI DI 20480) (aggUpTo x1 SI DI 20480) (aggUpTo x2 SI DI 20480) (aggUpTo x3 SI DI 20480) is' id')
        ⊢ wp frame (wpE (defs₀ (F := F)) 𝒱₀ (V d (cV L) (jV L)) none) Set.univ k Q) :
    iprop(R ∗ Fr d L q SI DI O W ∗ St d L x0 x1 x2 x3 (fun _ => Scalar.ofBits .f32 0x00000000#32) (fun _ => Scalar.ofBits .f32 0x00000000#32)
        (fun _ => Scalar.ofBits .f32 0x00000000#32) (fun _ => Scalar.ofBits .f32 0x00000000#32) is id)
      ⊢ wp frame (wpE (defs₀ (F := F)) 𝒱₀ (V d (cV L) (jV L)) none) Set.univ
          (do Scf.Loop.for k2_t5_loop k2_t5_ok ⟨⟩ (k2_t5_body L xW (Memref.isWhole_whole _) sW (Memref.isWhole_whole _) dW (Memref.isWhole_whole _) oW (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) cc2_scoped0 cc2_scoped1 cc2_scoped2 cc2_scoped3 cc2_scoped4 cc2_scoped5 cc2_scoped6 cc2_scoped7 cc2_scoped8 cc2_scoped9 v1)
              k) Q := by
  let I : Nat → Unit → sProp 𝕄 := fun g _ =>
    iprop(R ∗ Fr d L q SI DI O W ∗ ∃ (is' id' : Vec F S512 .i32),
      St d L x0 x1 x2 x3 (aggUpTo x0 SI DI (32 * g)) (aggUpTo x1 SI DI (32 * g)) (aggUpTo x2 SI DI (32 * g)) (aggUpTo x3 SI DI (32 * g)) is' id')
  have hbody : ∀ (t : Fin k2_t5_loop.trips) (u : Unit),
      I t.val u ⊢ wp frame (wpE (defs₀ (F := F)) 𝒱₀ (V d (cV L) (jV L)) none) Set.univ
        (k2_t5_body L xW (Memref.isWhole_whole _) sW (Memref.isWhole_whole _) dW (Memref.isWhole_whole _) oW (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) cc2_scoped0 cc2_scoped1 cc2_scoped2 cc2_scoped3 cc2_scoped4 cc2_scoped5 cc2_scoped6 cc2_scoped7 cc2_scoped8 cc2_scoped9 v1 t u) (I (t.val + 1)) := by
    intro t u
    iintro ⟨HR, HFr, %is1, %id1, HSt⟩
    iapply (wp_wand_r frame _ _)
    isplitl [HFr HSt]
    · iapply (trip d L q SI DI hS hD O W x0 x1 x2 x3 v1 t u is1 id1)
      isplitl [HFr]; · iexact HFr
      iexact HSt
    iintro %u' ⟨HFr, %is2, %id2, HSt⟩
    isplitl [HR]; · iexact HR
    isplitl [HFr]; · iexact HFr
    iexists is2, id2
    iexact HSt
  iintro ⟨HR, HFr, HSt⟩
  iapply (Scf.wp_for_bind frame (wpE (defs₀ (F := F)) 𝒱₀ (V d (cV L) (jV L)) none) Set.univ k2_t5_loop.lb k2_t5_loop.ub k2_t5_loop.st k2_t5_ok ⟨⟩
    (k2_t5_body L xW (Memref.isWhole_whole _) sW (Memref.isWhole_whole _) dW (Memref.isWhole_whole _) oW (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) cc2_scoped0 cc2_scoped1 cc2_scoped2 cc2_scoped3 cc2_scoped4 cc2_scoped5 cc2_scoped6 cc2_scoped7 cc2_scoped8 cc2_scoped9 v1) I hbody) $$ [HR HFr HSt]
  · isplitl [HR]; · iexact HR
    isplitl [HFr]; · iexact HFr
    iexists is, id
    rw [show (32 * 0 : Nat) = 0 from rfl, aggUpTo_zero, aggUpTo_zero, aggUpTo_zero, aggUpTo_zero]
    iexact HSt
  iintro %acc ⟨HR, HFr, %is1, %id1, HSt⟩
  have e640 : 32 * k2_t5_loop.trips = 20480 := by rw [trips5]
  iapply (H is1 id1)
  isplitl [HR]; · iexact HR
  isplitl [HFr]; · iexact HFr
  rw [e640]
  iexact HSt

end Loop

end Cert.Proof.Agg2

end
-- ==== Proof.Agg2Prologue.lean ====
import proofs.«215722_g7507602833967_cont_sun_m_718_28_alg».proof.Proof.Agg2Cut
import proofs.«215722_g7507602833967_cont_sun_m_718_28_alg».proof.Proof.Agg2BodyTile
import proofs.«215722_g7507602833967_cont_sun_m_718_28_alg».proof.Proof.Agg2BodyZero

noncomputable section

namespace Cert.Proof.Agg2

open Cert.KernelIdeal Cert.KernelIdeal.Gen
open Cert.Proof.Sage Cert.Proof.ScatterSum

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

set_option maxHeartbeats 8000000 in

theorem part8_rule {R : sProp 𝕄} {α : Type} (d : Dev nD) (L : grid2.Coords) (q : PosShare TreeShare)
    (X : Buf (Elt F) (xLoc d)) (SI : Buf (Elt F) (sLoc d)) (DI : Buf (Elt F) (dLoc d))
    (O : CellTallies nD τ sig (HIx 2)) (W : Waits sig (HIx 2))
    {y0 y1 y2 y3 e0 e1 e2 e3 : Vec F S10112 .f32} {is id : Vec F S512 .i32}
    {kk : BitVec 32 → Prog (TpuEff nD τ sig (Elt F) Λ₀ (.scVector (cV L) (jV L))) α} {Q : α → sProp 𝕄}
    (H : iprop((R ∗ XRows d L X ∗ SemsRest d L) ∗ Fr d L q SI DI O W
        ∗ St d L (xRow d L 0 X) (xRow d L 1 X) (xRow d L 2 X) y3 zrow zrow zrow e3 is id)
      ⊢ wp frame (wpE (defs₀ (F := F)) 𝒱₀ (V d (cV L) (jV L)) none) Set.univ (kk (v1w L)) Q) :
    iprop((R ∗ XRows d L X ∗ SemsRest d L) ∗ Fr d L q SI DI O W ∗ St d L y0 y1 y2 y3 e0 e1 e2 e3 is id)
      ⊢ wp frame (wpE (defs₀ (F := F)) 𝒱₀ (V d (cV L) (jV L)) none) Set.univ (k2_part8 L xB (Memref.isWhole_whole _) sB (Memref.isWhole_whole _) dB (Memref.isWhole_whole _) oB (Memref.isWhole_whole _) c0 (Memref.isWhole_whole _) c1 (Memref.isWhole_whole _) c2 (Memref.isWhole_whole _) c3 (Memref.isWhole_whole _) c4 (Memref.isWhole_whole _) c5 (Memref.isWhole_whole _) c6 (Memref.isWhole_whole _) c7 (Memref.isWhole_whole _) c8 (Memref.isWhole_whole _) c9 (Memref.isWhole_whole _) cc2_scoped0 cc2_scoped1 cc2_scoped2 cc2_scoped3 cc2_scoped4 cc2_scoped5 cc2_scoped6 cc2_scoped7 cc2_scoped8 cc2_scoped9 >>= kk) Q := by
  rw [wp_bind, k2_part8_eq_skeleton]; unfold k2_part8_skel
  unfold XRows SemsRest Fr St at H ⊢
  iintro ⟨⟨HR, ⟨Hx0, Hx1, Hx2, Hx3⟩, ⟨Hs0, Hs1, Hs2, Hs3, Hs6, Hs7, Hs8, Hs9⟩⟩, ⟨Hmw, Hs, Hd, Hsem4, Hsem5, %W', %hW', HO⟩,
    H0, H1, H2, H3, H4, H5, H6, H7, H8, H9⟩
  unfold holds at H ⊢
  icases H0 with ⟨%f0, H0, -⟩
  icases H1 with ⟨%f1, H1, -⟩
  icases H2 with ⟨%f2, H2, -⟩
  icases H4 with ⟨%f4, H4, -⟩
  icases H5 with ⟨%f5, H5, -⟩
  icases H6 with ⟨%f6, H6, -⟩
  ihave Hx0 := (Entails.of_eq (by rfl : (xPc d L 0 X : sProp 𝕄)
      = ((xB.slice (Rect.unit (s := S1294336) (k2_off1 L 0#32) S10112.size (k2_off1_inb L 0)) (fun _ => rfl)).view.loc (V d (cV L) (jV L)) ↦[(xB.slice (Rect.unit (s := S1294336) (k2_off1 L 0#32) S10112.size (k2_off1_inb L 0)) (fun _ => rfl)).view.set]{fullShare} X))) $$ Hx0
  ihave Hx1 := (Entails.of_eq (by rfl : (xPc d L 1 X : sProp 𝕄)
      = ((xB.slice (Rect.unit (s := S1294336) (k2_off1 L 10112#32) S10112.size (k2_off1_inb L 1)) (fun _ => rfl)).view.loc (V d (cV L) (jV L)) ↦[(xB.slice (Rect.unit (s := S1294336) (k2_off1 L 10112#32) S10112.size (k2_off1_inb L 1)) (fun _ => rfl)).view.set]{fullShare} X))) $$ Hx1
  ihave Hx2 := (Entails.of_eq (by rfl : (xPc d L 2 X : sProp 𝕄)
      = ((xB.slice (Rect.unit (s := S1294336) (k2_off1 L 20224#32) S10112.size (k2_off1_inb L 2)) (fun _ => rfl)).view.loc (V d (cV L) (jV L)) ↦[(xB.slice (Rect.unit (s := S1294336) (k2_off1 L 20224#32) S10112.size (k2_off1_inb L 2)) (fun _ => rfl)).view.set]{fullShare} X))) $$ Hx2

  sl_exec
  ihave HI := (show ((c4.view.loc (V d (cV L) (jV L)) ↦{fullShare} f4) : sProp 𝕄)
      ⊢ holds d (cV L) (jV L) c4 (zeroedTo (Scalar.ofBits .f32 0x00000000#32) (c4.view.read (Elt F) f4) 0) from by
    unfold holds; rw [zeroedTo_zero]; iintro Hz; iexists f4; isplitl [Hz]
    · iexact Hz
    · ipureintro; rfl) $$ H4
  sl_for (fun (n : Nat) (_ : Unit) => holds d (cV L) (jV L) c4 (zeroedTo (Scalar.ofBits .f32 0x00000000#32) (c4.view.read (Elt F) f4) n)) $$ [HI]
  case region =>
    intro t u
    exact zero_region d (cV L) (jV L) (Memref.isWhole_whole _) (k2_off2 t) (k2_off2_inb t) t.val (k2_off2_eq t) (Scalar.ofBits .f32 0x00000000#32) k2_pay1 rfl (c4.view.read (Elt F) f4)
  · iexact HI
  rw [show Scf.trips k2_t1_loop.lb k2_t1_loop.ub k2_t1_loop.st = 632 from by decide]
  iintro %u1 HI
  rw [zeroedTo_all]
  unfold holds
  icases HI with ⟨%g1, H4, %z1⟩

  sl_exec
  ihave HI := (show ((c5.view.loc (V d (cV L) (jV L)) ↦{fullShare} f5) : sProp 𝕄)
      ⊢ holds d (cV L) (jV L) c5 (zeroedTo (Scalar.ofBits .f32 0x00000000#32) (c5.view.read (Elt F) f5) 0) from by
    unfold holds; rw [zeroedTo_zero]; iintro Hz; iexists f5; isplitl [Hz]
    · iexact Hz
    · ipureintro; rfl) $$ H5
  sl_for (fun (n : Nat) (_ : Unit) => holds d (cV L) (jV L) c5 (zeroedTo (Scalar.ofBits .f32 0x00000000#32) (c5.view.read (Elt F) f5) n)) $$ [HI]
  case region =>
    intro t u
    exact zero_region d (cV L) (jV L) (Memref.isWhole_whole _) (k2_off3 t) (k2_off3_inb t) t.val (k2_off3_eq t) (Scalar.ofBits .f32 0x00000000#32) k2_pay2 rfl (c5.view.read (Elt F) f5)
  · iexact HI
  rw [show Scf.trips k2_t2_loop.lb k2_t2_loop.ub k2_t2_loop.st = 632 from by decide]
  iintro %u2 HI
  rw [zeroedTo_all]
  unfold holds
  icases HI with ⟨%g2, H5, %z2⟩

  sl_exec
  ihave HI := (show ((c6.view.loc (V d (cV L) (jV L)) ↦{fullShare} f6) : sProp 𝕄)
      ⊢ holds d (cV L) (jV L) c6 (zeroedTo (Scalar.ofBits .f32 0x00000000#32) (c6.view.read (Elt F) f6) 0) from by
    unfold holds; rw [zeroedTo_zero]; iintro Hz; iexists f6; isplitl [Hz]
    · iexact Hz
    · ipureintro; rfl) $$ H6
  sl_for (fun (n : Nat) (_ : Unit) => holds d (cV L) (jV L) c6 (zeroedTo (Scalar.ofBits .f32 0x00000000#32) (c6.view.read (Elt F) f6) n)) $$ [HI]
  case region =>
    intro t u
    exact zero_region d (cV L) (jV L) (Memref.isWhole_whole _) (k2_off4 t) (k2_off4_inb t) t.val (k2_off4_eq t) (Scalar.ofBits .f32 0x00000000#32) k2_pay3 rfl (c6.view.read (Elt F) f6)
  · iexact HI
  rw [show Scf.trips k2_t3_loop.lb k2_t3_loop.ub k2_t3_loop.st = 632 from by decide]
  iintro %u3 HI
  rw [zeroedTo_all]
  unfold holds
  icases HI with ⟨%g3, H6, %z3⟩
  sl_exec
  iapply H
  isplitl [HR Hx0 Hx1 Hx2 Hx3 Hs0 Hs1 Hs2 Hs3 Hs6 Hs7 Hs8 Hs9]
  · isplitl [HR]
    · iexact HR
    isplitl [Hx0 Hx1 Hx2 Hx3]
    · isplitl [Hx0]
      · iapply (Entails.of_eq (by rfl : (((xB.slice (Rect.unit (s := S1294336) (k2_off1 L 0#32) S10112.size (k2_off1_inb L 0)) (fun _ => rfl)).view.loc (V d (cV L) (jV L)) ↦[(xB.slice (Rect.unit (s := S1294336) (k2_off1 L 0#32) S10112.size (k2_off1_inb L 0)) (fun _ => rfl)).view.set]{fullShare} X) : sProp 𝕄)
            = xPc d L 0 X))
        iexact Hx0
      isplitl [Hx1]
      · iapply (Entails.of_eq (by rfl : (((xB.slice (Rect.unit (s := S1294336) (k2_off1 L 10112#32) S10112.size (k2_off1_inb L 1)) (fun _ => rfl)).view.loc (V d (cV L) (jV L)) ↦[(xB.slice (Rect.unit (s := S1294336) (k2_off1 L 10112#32) S10112.size (k2_off1_inb L 1)) (fun _ => rfl)).view.set]{fullShare} X) : sProp 𝕄)
            = xPc d L 1 X))
        iexact Hx1
      isplitl [Hx2]
      · iapply (Entails.of_eq (by rfl : (((xB.slice (Rect.unit (s := S1294336) (k2_off1 L 20224#32) S10112.size (k2_off1_inb L 2)) (fun _ => rfl)).view.loc (V d (cV L) (jV L)) ↦[(xB.slice (Rect.unit (s := S1294336) (k2_off1 L 20224#32) S10112.size (k2_off1_inb L 2)) (fun _ => rfl)).view.set]{fullShare} X) : sProp 𝕄)
            = xPc d L 2 X))
        iexact Hx2
      iexact Hx3
    · isplitl [Hs0]
      · iexact Hs0
      isplitl [Hs1]
      · iexact Hs1
      isplitl [Hs2]
      · iexact Hs2
      isplitl [Hs3]
      · iexact Hs3
      isplitl [Hs6]
      · iexact Hs6
      isplitl [Hs7]
      · iexact Hs7
      isplitl [Hs8]
      · iexact Hs8
      iexact Hs9
  isplitl [Hmw Hs Hd Hsem4 Hsem5 HO]
  · isplitl [Hmw]
    · iexact Hmw
    isplitl [Hs]
    · iexact Hs
    isplitl [Hd]
    · iexact Hd
    isplitl [Hsem4]
    · iexact Hsem4
    isplitl [Hsem5]
    · iexact Hsem5
    iexists (insert (SemLoc.dma cc2_scoped2.sem, (default : HIx 2)) (insert (SemLoc.dma cc2_scoped1.sem, (default : HIx 2)) (insert (SemLoc.dma cc2_scoped0.sem, (default : HIx 2)) W')))
    isplitr
    · ipureintro
      intro p hp
      rcases Finset.mem_insert.mp hp with hp | hp
      · exact Or.inr (hp ▸ rfl)
      rcases Finset.mem_insert.mp hp with hp | hp
      · exact Or.inr (hp ▸ rfl)
      rcases Finset.mem_insert.mp hp with hp | hp
      · exact Or.inr (hp ▸ rfl)
      exact hW' p hp
    · iexact HO
  isplitl [H0]
  · iexists _
    isplitl [H0]
    · iexact H0
    ipureintro
    rw [View.read_write_univ]
    rfl
  isplitl [H1]
  · iexists _
    isplitl [H1]
    · iexact H1
    ipureintro
    rw [View.read_write_univ]
    rfl
  isplitl [H2]
  · iexists _
    isplitl [H2]
    · iexact H2
    ipureintro
    rw [View.read_write_univ]
    rfl
  isplitl [H3]
  · iexact H3
  isplitl [H4]
  · iexists g1
    isplitl [H4]
    · iexact H4
    ipureintro
    exact z1
  isplitl [H5]
  · iexists g2
    isplitl [H5]
    · iexact H5
    ipureintro
    exact z2
  isplitl [H6]
  · iexists g3
    isplitl [H6]
    · iexact H6
    ipureintro
    exact z3
  isplitl [H7]
  · iexact H7
  isplitl [H8]
  · iexact H8
  iexact H9

set_option maxHeartbeats 8000000 in

theorem pre2_rule {R : sProp 𝕄} {α : Type} (d : Dev nD) (L : grid2.Coords) (q : PosShare TreeShare)
    (X : Buf (Elt F) (xLoc d)) (SI : Buf (Elt F) (sLoc d)) (DI : Buf (Elt F) (dLoc d))
    (O : CellTallies nD τ sig (HIx 2)) (W : Waits sig (HIx 2))
    {x0 x1 x2 y3 e3 : Vec F S10112 .f32} {is id : Vec F S512 .i32}
    {k : Prog (TpuEff nD τ sig (Elt F) Λ₀ (.scVector (cV L) (jV L))) α} {Q : α → sProp 𝕄}
    (H : iprop((R ∗ XRows d L X ∗ SemsRest d L) ∗ Fr d L q SI DI O W
        ∗ St d L x0 x1 x2 (xRow d L 3 X) zrow zrow zrow zrow is id) ⊢ wp frame (wpE (defs₀ (F := F)) 𝒱₀ (V d (cV L) (jV L)) none) Set.univ k Q) :
    iprop((R ∗ XRows d L X ∗ SemsRest d L) ∗ Fr d L q SI DI O W ∗ St d L x0 x1 x2 y3 zrow zrow zrow e3 is id)
      ⊢ wp frame (wpE (defs₀ (F := F)) 𝒱₀ (V d (cV L) (jV L)) none) Set.univ (progPre2 L k) Q := by
  unfold progPre2
  unfold XRows SemsRest Fr St at H ⊢
  iintro ⟨⟨HR, ⟨Hx0, Hx1, Hx2, Hx3⟩, ⟨Hs0, Hs1, Hs2, Hs3, Hs6, Hs7, Hs8, Hs9⟩⟩, ⟨Hmw, Hs, Hd, Hsem4, Hsem5, %W', %hW', HO⟩,
    H0, H1, H2, H3, H4, H5, H6, H7, H8, H9⟩
  unfold holds at H ⊢
  icases H3 with ⟨%f3, H3, -⟩
  icases H7 with ⟨%f7, H7, -⟩
  ihave Hx3 := (Entails.of_eq (by rfl : (xPc d L 3 X : sProp 𝕄)
      = ((xB.slice (Rect.unit (s := S1294336) (k2_off1 L 30336#32) S10112.size (k2_off1_inb L 3)) (fun _ => rfl)).view.loc (V d (cV L) (jV L)) ↦[(xB.slice (Rect.unit (s := S1294336) (k2_off1 L 30336#32) S10112.size (k2_off1_inb L 3)) (fun _ => rfl)).view.set]{fullShare} X))) $$ Hx3

  sl_exec
  ihave HI := (show ((c7.view.loc (V d (cV L) (jV L)) ↦{fullShare} f7) : sProp 𝕄)
      ⊢ holds d (cV L) (jV L) c7 (zeroedTo (Scalar.ofBits .f32 0x00000000#32) (c7.view.read (Elt F) f7) 0) from by
    unfold holds; rw [zeroedTo_zero]; iintro Hz; iexists f7; isplitl [Hz]
    · iexact Hz
    · ipureintro; rfl) $$ H7
  sl_for (fun (n : Nat) (_ : Unit) => holds d (cV L) (jV L) c7 (zeroedTo (Scalar.ofBits .f32 0x00000000#32) (c7.view.read (Elt F) f7) n)) $$ [HI]
  case region =>
    intro t u
    exact zero_region d (cV L) (jV L) (Memref.isWhole_whole _) (k2_off5 t) (k2_off5_inb t) t.val (k2_off5_eq t) (Scalar.ofBits .f32 0x00000000#32) k2_pay4 rfl (c7.view.read (Elt F) f7)
  · iexact HI
  rw [show Scf.trips k2_t4_loop.lb k2_t4_loop.ub k2_t4_loop.st = 632 from by decide]
  iintro %u4 HI
  rw [zeroedTo_all]
  unfold holds
  icases HI with ⟨%g4, H7, %z4⟩
  iapply H
  isplitl [HR Hx0 Hx1 Hx2 Hx3 Hs0 Hs1 Hs2 Hs3 Hs6 Hs7 Hs8 Hs9]
  · isplitl [HR]
    · iexact HR
    isplitl [Hx0 Hx1 Hx2 Hx3]
    · isplitl [Hx0]
      · iexact Hx0
      isplitl [Hx1]
      · iexact Hx1
      isplitl [Hx2]
      · iexact Hx2
      iapply (Entails.of_eq (by rfl : (((xB.slice (Rect.unit (s := S1294336) (k2_off1 L 30336#32) S10112.size (k2_off1_inb L 3)) (fun _ => rfl)).view.loc (V d (cV L) (jV L)) ↦[(xB.slice (Rect.unit (s := S1294336) (k2_off1 L 30336#32) S10112.size (k2_off1_inb L 3)) (fun _ => rfl)).view.set]{fullShare} X) : sProp 𝕄)
          = xPc d L 3 X))
      iexact Hx3
    · isplitl [Hs0]
      · iexact Hs0
      isplitl [Hs1]
      · iexact Hs1
      isplitl [Hs2]
      · iexact Hs2
      isplitl [Hs3]
      · iexact Hs3
      isplitl [Hs6]
      · iexact Hs6
      isplitl [Hs7]
      · iexact Hs7
      isplitl [Hs8]
      · iexact Hs8
      iexact Hs9
  isplitl [Hmw Hs Hd Hsem4 Hsem5 HO]
  · isplitl [Hmw]
    · iexact Hmw
    isplitl [Hs]
    · iexact Hs
    isplitl [Hd]
    · iexact Hd
    isplitl [Hsem4]
    · iexact Hsem4
    isplitl [Hsem5]
    · iexact Hsem5
    iexists (insert (SemLoc.dma cc2_scoped3.sem, (default : HIx 2)) W')
    isplitr
    · ipureintro
      intro p hp
      rcases Finset.mem_insert.mp hp with hp | hp
      · exact Or.inr (hp ▸ rfl)
      exact hW' p hp
    · iexact HO
  isplitl [H0]
  · iexact H0
  isplitl [H1]
  · iexact H1
  isplitl [H2]
  · iexact H2
  isplitl [H3]
  · iexists _
    isplitl [H3]
    · iexact H3
    ipureintro
    rw [View.read_write_univ]
    rfl
  isplitl [H4]
  · iexact H4
  isplitl [H5]
  · iexact H5
  isplitl [H6]
  · iexact H6
  isplitl [H7]
  · iexists g4
    isplitl [H7]
    · iexact H7
    ipureintro
    exact z4
  isplitl [H8]
  · iexact H8
  iexact H9

end Cert.Proof.Agg2

end
-- ==== Proof.Agg2Epilogue.lean ====
import proofs.«215722_g7507602833967_cont_sun_m_718_28_alg».proof.Proof.Agg2Cut
import proofs.«215722_g7507602833967_cont_sun_m_718_28_alg».proof.Proof.Agg2BodyTile

noncomputable section

namespace Cert.Proof.Agg2

open Cert.KernelIdeal Cert.KernelIdeal.Gen
open Cert.Proof.Sage Cert.Proof.ScatterSum

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

theorem read_writes_row {sig' : RefSig} {κ : Kind} {sp : Space} {e : EltTy} {Val : EltTy → Type} (v : View sig' κ sp S10112 e) (f : v.ty.Contents Val)
    (w : (Rect.whole S10112).shape.Idx → Val e) : v.read Val (v.writes Val f [⟨Rect.whole S10112, w⟩]) = w := by
  funext x
  have h := View.read_writes_cons_emb v f (Rect.whole S10112) w [] x
  rwa [Rect.emb_whole_apply] at h

abbrev oR0 (L : grid2.Coords) : Memref sig .scVector .hbm S10112 .f32 :=
  oB.slice (Rect.unit (s := S1294336) (k2_off1 L 0#32) S10112.size (k2_off1_inb L 0)) (fun _ => rfl)
abbrev oR1 (L : grid2.Coords) : Memref sig .scVector .hbm S10112 .f32 :=
  oB.slice (Rect.unit (s := S1294336) (k2_off1 L 10112#32) S10112.size (k2_off1_inb L 1)) (fun _ => rfl)
abbrev oR2 (L : grid2.Coords) : Memref sig .scVector .hbm S10112 .f32 :=
  oB.slice (Rect.unit (s := S1294336) (k2_off1 L 20224#32) S10112.size (k2_off1_inb L 2)) (fun _ => rfl)
abbrev oR3 (L : grid2.Coords) : Memref sig .scVector .hbm S10112 .f32 :=
  oB.slice (Rect.unit (s := S1294336) (k2_off1 L 30336#32) S10112.size (k2_off1_inb L 3)) (fun _ => rfl)

section Epilogue
variable [FloatOps F] (d : Dev nD) (L : grid2.Coords)

set_option maxHeartbeats 4000000 in

theorem epi_rule {R : sProp 𝕄} (q : PosShare TreeShare) (SI : Buf (Elt F) (sLoc d)) (DI : Buf (Elt F) (dLoc d))
    (O : CellTallies nD τ sig (HIx 2)) (W : Waits sig (HIx 2)) (R0 : Buf (Elt F) (oLoc d))
    {x0 x1 x2 x3 a0 a1 a2 a3 : Vec F S10112 .f32} {is id : Vec F S512 .i32} :
    iprop((R ∗ ORows d L R0 ∗ SemsRest d L) ∗ Fr d L q SI DI O W ∗ St d L x0 x1 x2 x3 a0 a1 a2 a3 is id)
      ⊢ wp frame (wpE (defs₀ (F := F)) 𝒱₀ (V d (cV L) (jV L)) none) Set.univ (progEpi (F := F) L) fun _ =>
          iprop((R ∗ (outRow d L 0 a0 ∗ outRow d L 1 a1 ∗ outRow d L 2 a2 ∗ outRow d L 3 a3) ∗ SemsRest d L) ∗ Fr d L q SI DI O W
            ∗ St d L x0 x1 x2 x3 a0 a1 a2 a3 is id) := by
  unfold progEpi
  unfold ORows SemsRest Fr St outRow
  iintro ⟨⟨HR, ⟨Ho0, Ho1, Ho2, Ho3⟩, ⟨Hs0, Hs1, Hs2, Hs3, Hs6, Hs7, Hs8, Hs9⟩⟩, ⟨Hmw, Hs, Hd, Hs4, Hs5, %W', %hW', HO⟩, H0, H1, H2, H3, H4, H5, H6, H7, H8, H9⟩
  ihave Ho0 := (Entails.of_eq (show (oPc d L 0 R0 : sProp 𝕄) = ((oR0 L).view.loc (V d (cV L) (jV L)) ↦[(oR0 L).view.set]{fullShare} R0) from rfl)) $$ Ho0
  ihave Ho1 := (Entails.of_eq (show (oPc d L 1 R0 : sProp 𝕄) = ((oR1 L).view.loc (V d (cV L) (jV L)) ↦[(oR1 L).view.set]{fullShare} R0) from rfl)) $$ Ho1
  ihave Ho2 := (Entails.of_eq (show (oPc d L 2 R0 : sProp 𝕄) = ((oR2 L).view.loc (V d (cV L) (jV L)) ↦[(oR2 L).view.set]{fullShare} R0) from rfl)) $$ Ho2
  ihave Ho3 := (Entails.of_eq (show (oPc d L 3 R0 : sProp 𝕄) = ((oR3 L).view.loc (V d (cV L) (jV L)) ↦[(oR3 L).view.set]{fullShare} R0) from rfl)) $$ Ho3
  unfold holds
  icases H4 with ⟨%f4, H4, %e4⟩
  icases H5 with ⟨%f5, H5, %e5⟩
  icases H6 with ⟨%f6, H6, %e6⟩
  icases H7 with ⟨%f7, H7, %e7⟩
  sl_exec
  sl_step
  isplitl [HR Ho0 Ho1 Ho2 Ho3 Hs0 Hs1 Hs2 Hs3 Hs6 Hs7 Hs8 Hs9]
  · isplitl [HR]
    · iexact HR
    isplitl [Ho0 Ho1 Ho2 Ho3]
    · isplitl [Ho0]
      · iexists _
        isplitl [Ho0]
        · iexact Ho0
        ipureintro
        show (oR0 L).view.read (Elt F) ((oR0 L).view.writes (Elt F) R0 [⟨Rect.whole S10112, _⟩]) = a0
        rw [read_writes_row]
        unfold epi_rule.sl.dma0
        exact e4
      isplitl [Ho1]
      · iexists _
        isplitl [Ho1]
        · iexact Ho1
        ipureintro
        show (oR1 L).view.read (Elt F) ((oR1 L).view.writes (Elt F) R0 [⟨Rect.whole S10112, _⟩]) = a1
        rw [read_writes_row]
        unfold epi_rule.sl.dma0_1
        exact e5
      isplitl [Ho2]
      · iexists _
        isplitl [Ho2]
        · iexact Ho2
        ipureintro
        show (oR2 L).view.read (Elt F) ((oR2 L).view.writes (Elt F) R0 [⟨Rect.whole S10112, _⟩]) = a2
        rw [read_writes_row]
        unfold epi_rule.sl.dma0_2
        exact e6
      iexists _
      isplitl [Ho3]
      · iexact Ho3
      ipureintro
      show (oR3 L).view.read (Elt F) ((oR3 L).view.writes (Elt F) R0 [⟨Rect.whole S10112, _⟩]) = a3
      rw [read_writes_row]
      unfold epi_rule.sl.dma0_3
      exact e7
    isplitl [Hs0]
    · iexact Hs0
    isplitl [Hs1]
    · iexact Hs1
    isplitl [Hs2]
    · iexact Hs2
    isplitl [Hs3]
    · iexact Hs3
    isplitl [Hs6]
    · iexact Hs6
    isplitl [Hs7]
    · iexact Hs7
    isplitl [Hs8]
    · iexact Hs8
    iexact Hs9
  isplitl [Hmw Hs Hd Hs4 Hs5 HO]
  · isplitl [Hmw]
    · iexact Hmw
    isplitl [Hs]
    · iexact Hs
    isplitl [Hd]
    · iexact Hd
    isplitl [Hs4]
    · iexact Hs4
    isplitl [Hs5]
    · iexact Hs5
    iexists (insert (SemLoc.dma cc2_scoped9.sem, (default : HIx 2)) (insert (SemLoc.dma cc2_scoped8.sem, (default : HIx 2)) (insert (SemLoc.dma cc2_scoped7.sem, (default : HIx 2)) (insert (SemLoc.dma cc2_scoped6.sem, (default : HIx 2)) W'))))
    isplitr
    · ipureintro
      intro p hp
      rcases Finset.mem_insert.mp hp with hp | hp
      · exact Or.inr (hp ▸ rfl)
      rcases Finset.mem_insert.mp hp with hp | hp
      · exact Or.inr (hp ▸ rfl)
      rcases Finset.mem_insert.mp hp with hp | hp
      · exact Or.inr (hp ▸ rfl)
      rcases Finset.mem_insert.mp hp with hp | hp
      · exact Or.inr (hp ▸ rfl)
      exact hW' p hp
    · iexact HO
  isplitl [H0]
  · iexact H0
  isplitl [H1]
  · iexact H1
  isplitl [H2]
  · iexact H2
  isplitl [H3]
  · iexact H3
  isplitl [H4]
  · iexists f4
    isplitl [H4]
    · iexact H4
    ipureintro
    exact e4
  isplitl [H5]
  · iexists f5
    isplitl [H5]
    · iexact H5
    ipureintro
    exact e5
  isplitl [H6]
  · iexists f6
    isplitl [H6]
    · iexact H6
    ipureintro
    exact e6
  isplitl [H7]
  · iexists f7
    isplitl [H7]
    · iexact H7
    ipureintro
    exact e7
  isplitl [H8]
  · iexact H8
  iexact H9

end Epilogue

end Cert.Proof.Agg2

end
-- ==== Proof.Agg2Tile.lean ====
import proofs.«215722_g7507602833967_cont_sun_m_718_28_alg».proof.Proof.Agg2Assembly
import proofs.«215722_g7507602833967_cont_sun_m_718_28_alg».proof.Proof.Agg2Loop
import proofs.«215722_g7507602833967_cont_sun_m_718_28_alg».proof.Proof.Agg2Prologue
import proofs.«215722_g7507602833967_cont_sun_m_718_28_alg».proof.Proof.Agg2Epilogue

noncomputable section

namespace Cert.Proof.Agg2

open Cert.KernelIdeal Cert.KernelIdeal.Gen
open Cert.Proof.Sage Cert.Proof.ScatterSum
open Idealize.ShloMosaic

variable {F : FTy → Type} [FloatOps F]

theorem tile_body' : TileBody F :=
  tile_body_of
    (fun R α d L q SI DI hS hD O W x0 x1 x2 x3 v1 is id k Q H => loop_rule d L q SI DI hS hD O W x0 x1 x2 x3 v1 is id H)
    (fun R α d L q X SI DI O W y0 y1 y2 y3 e0 e1 e2 e3 is id kk Q H => part8_rule d L q X SI DI O W H)
    (fun R α d L q X SI DI O W x0 x1 x2 y3 e3 is id k Q H => pre2_rule d L q X SI DI O W H)
    (fun R d L q SI DI O W R0 x0 x1 x2 x3 a0 a1 a2 a3 is id => epi_rule d L q SI DI O W R0)

end Cert.Proof.Agg2

end
-- ==== Proof.LaunchRun.lean ====
import proofs.«215722_g7507602833967_cont_sun_m_718_28_alg».proof.Proof.Launch
import proofs.«215722_g7507602833967_cont_sun_m_718_28_alg».proof.Proof.Agg1Tile
import proofs.«215722_g7507602833967_cont_sun_m_718_28_alg».proof.Proof.Agg2Tile

noncomputable section

namespace Cert.Proof.Sage

open Cert.KernelIdeal Cert.KernelIdeal.Gen
open Idealize.ShloMosaic Idealize.SL.Sem

variable {F : FTy → Type} [FloatOps F]

-- The whole program's run at any float instance, from the two neighbour-sum bodies.
theorem run_main [∀ e, Nonempty (Elt F e)] (m : (ℓ : Loc nD τ sig) → Buf (Elt F) ℓ) (ρ : Dev nD → PrngReg)
    (hidx : ∀ (c : Dev nD) i, ((m ((c.tc : Thread nD τ).loc main_arg1)) i).toNat ≤ 9999) :
    θ_run (Cert.KernelIdeal.defs (F := F)) (Cert.KernelIdeal.threads (F := F)) ⟨m, fun _ => 0, ρ⟩ (QK m) :=
  run_main_of m ρ Cert.Proof.Agg1.tile_core Cert.Proof.Agg2.tile_body' hidx

end Cert.Proof.Sage

end
-- ==== Proof.KernelValuePay.lean ====
import proofs.«215722_g7507602833967_cont_sun_m_718_28_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Proof.KernelValuePay

open Cert.KernelIdeal Cert.KernelIdeal.Gen
open Idealize.ShloMosaic Idealize.ShloMosaic.ValueIdx
open scoped BigOperators

theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lhs1_0 (i : S128x10112.Idx) (q : dot_S128x128_S128x10112_S128x10112_0_0_1_1_n_n.contr.Idx) :
    (dot_S128x128_S128x10112_S128x10112_0_0_1_1_n_n.lhsIdx i q 0).val = (q ⟨0, by decide⟩).val :=
  dot_S128x128_S128x10112_S128x10112_0_0_1_1_n_n.lhsIdx_val_of_single rfl i q
theorem lhs1_1 (i : S128x10112.Idx) (q : dot_S128x128_S128x10112_S128x10112_0_0_1_1_n_n.contr.Idx) :
    (dot_S128x128_S128x10112_S128x10112_0_0_1_1_n_n.lhsIdx i q 1).val = (i 0).val := by
  unfold DotDims.lhsIdx
  rw [dif_neg (show ¬(1 : Fin S128x128.rank) ∈ dot_S128x128_S128x10112_S128x10112_0_0_1_1_n_n.lhsBatch by decide), dif_pos (show (1 : Fin S128x128.rank) ∈ dot_S128x128_S128x10112_S128x10112_0_0_1_1_n_n.lhsNonContracting by decide)]
  rfl
theorem rhs1_0 (i : S128x10112.Idx) (q : dot_S128x128_S128x10112_S128x10112_0_0_1_1_n_n.contr.Idx) :
    (dot_S128x128_S128x10112_S128x10112_0_0_1_1_n_n.rhsIdx i q 0).val = (q ⟨0, by decide⟩).val :=
  dot_S128x128_S128x10112_S128x10112_0_0_1_1_n_n.rhsIdx_val_of_single rfl i q
theorem rhs1_1 (i : S128x10112.Idx) (q : dot_S128x128_S128x10112_S128x10112_0_0_1_1_n_n.contr.Idx) :
    (dot_S128x128_S128x10112_S128x10112_0_0_1_1_n_n.rhsIdx i q 1).val = (i 1).val := by
  unfold DotDims.rhsIdx
  rw [dif_neg (show ¬(1 : Fin S128x10112.rank) ∈ dot_S128x128_S128x10112_S128x10112_0_0_1_1_n_n.rhsBatch by decide), dif_pos (show (1 : Fin S128x10112.rank) ∈ dot_S128x128_S128x10112_S128x10112_0_0_1_1_n_n.rhsNonContracting by decide)]
  rfl

theorem matmul1_apply (A : FVec Ideal S128x128 .f32) (B : FVec Ideal S128x10112 .f32) (k : Fin 128) (n : Fin 10112) :
    matmul dot_S128x128_S128x10112_S128x10112_0_0_1_1_n_n none A B (constant S128x10112 .f32 0x00000000#32) (ix2 k n)
      = ∑ f : Fin 128, A (ix2 f k) * B (ix2 f n) := by
  simp only [matmul]
  rw [Ideal.matmul_constant_zero_apply, ← Equiv.sum_comp (contrEquiv1 dot_S128x128_S128x10112_S128x10112_0_0_1_1_n_n 128 rfl rfl).symm]
  refine Finset.sum_congr rfl fun f _ => ?_
  have hk := contrEquiv1_symm_val dot_S128x128_S128x10112_S128x10112_0_0_1_1_n_n 128 rfl rfl f
  have el : dot_S128x128_S128x10112_S128x10112_0_0_1_1_n_n.lhsIdx (ix2 k n) ((contrEquiv1 dot_S128x128_S128x10112_S128x10112_0_0_1_1_n_n 128 rfl rfl).symm f) = ix2 f k := funext fun a => Fin.ext (by
    match a with
    | ⟨0, _⟩ => exact (lhs1_0 _ _).trans hk
    | ⟨1, _⟩ => exact lhs1_1 _ _)
  have er : dot_S128x128_S128x10112_S128x10112_0_0_1_1_n_n.rhsIdx (ix2 k n) ((contrEquiv1 dot_S128x128_S128x10112_S128x10112_0_0_1_1_n_n 128 rfl rfl).symm f) = ix2 f n := funext fun a => Fin.ext (by
    match a with
    | ⟨0, _⟩ => exact (rhs1_0 _ _).trans hk
    | ⟨1, _⟩ => exact rhs1_1 _ _)
  rw [el, er]

theorem lhs2_0 (i : S10112x16.Idx) (q : dot_S128x10112_S128x16_S10112x16_0_0_1_1_n_n.contr.Idx) :
    (dot_S128x10112_S128x16_S10112x16_0_0_1_1_n_n.lhsIdx i q 0).val = (q ⟨0, by decide⟩).val :=
  dot_S128x10112_S128x16_S10112x16_0_0_1_1_n_n.lhsIdx_val_of_single rfl i q
theorem lhs2_1 (i : S10112x16.Idx) (q : dot_S128x10112_S128x16_S10112x16_0_0_1_1_n_n.contr.Idx) :
    (dot_S128x10112_S128x16_S10112x16_0_0_1_1_n_n.lhsIdx i q 1).val = (i 0).val := by
  unfold DotDims.lhsIdx
  rw [dif_neg (show ¬(1 : Fin S128x10112.rank) ∈ dot_S128x10112_S128x16_S10112x16_0_0_1_1_n_n.lhsBatch by decide), dif_pos (show (1 : Fin S128x10112.rank) ∈ dot_S128x10112_S128x16_S10112x16_0_0_1_1_n_n.lhsNonContracting by decide)]
  rfl
theorem rhs2_0 (i : S10112x16.Idx) (q : dot_S128x10112_S128x16_S10112x16_0_0_1_1_n_n.contr.Idx) :
    (dot_S128x10112_S128x16_S10112x16_0_0_1_1_n_n.rhsIdx i q 0).val = (q ⟨0, by decide⟩).val :=
  dot_S128x10112_S128x16_S10112x16_0_0_1_1_n_n.rhsIdx_val_of_single rfl i q
theorem rhs2_1 (i : S10112x16.Idx) (q : dot_S128x10112_S128x16_S10112x16_0_0_1_1_n_n.contr.Idx) :
    (dot_S128x10112_S128x16_S10112x16_0_0_1_1_n_n.rhsIdx i q 1).val = (i 1).val := by
  unfold DotDims.rhsIdx
  rw [dif_neg (show ¬(1 : Fin S128x16.rank) ∈ dot_S128x10112_S128x16_S10112x16_0_0_1_1_n_n.rhsBatch by decide), dif_pos (show (1 : Fin S128x16.rank) ∈ dot_S128x10112_S128x16_S10112x16_0_0_1_1_n_n.rhsNonContracting by decide)]
  rfl

theorem matmul2_apply (A : FVec Ideal S128x10112 .f32) (B : FVec Ideal S128x16 .f32) (n : Fin 10112) (c : Fin 16) :
    matmul dot_S128x10112_S128x16_S10112x16_0_0_1_1_n_n none A B (constant S10112x16 .f32 0x00000000#32) (ix2 n c)
      = ∑ k : Fin 128, A (ix2 k n) * B (ix2 k c) := by
  simp only [matmul]
  rw [Ideal.matmul_constant_zero_apply, ← Equiv.sum_comp (contrEquiv1 dot_S128x10112_S128x16_S10112x16_0_0_1_1_n_n 128 rfl rfl).symm]
  refine Finset.sum_congr rfl fun k _ => ?_
  have hk := contrEquiv1_symm_val dot_S128x10112_S128x16_S10112x16_0_0_1_1_n_n 128 rfl rfl k
  have el : dot_S128x10112_S128x16_S10112x16_0_0_1_1_n_n.lhsIdx (ix2 n c) ((contrEquiv1 dot_S128x10112_S128x16_S10112x16_0_0_1_1_n_n 128 rfl rfl).symm k) = ix2 k n := funext fun a => Fin.ext (by
    match a with
    | ⟨0, _⟩ => exact (lhs2_0 _ _).trans hk
    | ⟨1, _⟩ => exact lhs2_1 _ _)
  have er : dot_S128x10112_S128x16_S10112x16_0_0_1_1_n_n.rhsIdx (ix2 n c) ((contrEquiv1 dot_S128x10112_S128x16_S10112x16_0_0_1_1_n_n 128 rfl rfl).symm k) = ix2 k c := funext fun a => Fin.ext (by
    match a with
    | ⟨0, _⟩ => exact (rhs2_0 _ _).trans hk
    | ⟨1, _⟩ => exact rhs2_1 _ _)
  rw [el, er]

def cntSum (v0 : FVec Ideal S16x10112 .f32) : FVec Ideal S10112 .f32 :=
  multiReduction .add [0] S10112 (shapeCast S16x10112 v0 shapeCasts_S16x10112_S16x10112) 0x00000000#32 reduces_S16x10112_S10112 (.inl rfl) rfl

theorem cntSum_apply (v0 : FVec Ideal S16x10112 .f32) (n : Fin 10112) : cntSum v0 (ix1 n) = ∑ s : Fin 16, v0 (ix2 s n) := by
  unfold cntSum
  refine (Ideal.multiReduction_add_single _ _ reduces_S16x10112_S10112 _ _ (ix1 n)).trans ?_
  rw [shapeCast_self]
  refine Finset.sum_congr rfl fun s _ => congrArg v0 (funext fun a => ?_)
  match a with
  | ⟨0, _⟩ => exact Fin.ext rfl
  | ⟨1, _⟩ => exact Fin.ext rfl

def invCnt (v0 : FVec Ideal S16x10112 .f32) : FVec Ideal S1x10112 .f32 :=
  divf (broadcast S1x10112 (Scalar.ofBits .f32 0x3F800000#32))
    (maximumf (shapeCast S1x10112 (cntSum v0) shapeCasts_S10112_S1x10112) (broadcast S1x10112 (Scalar.ofBits .f32 0x3F800000#32)))

theorem invCnt_apply (v0 : FVec Ideal S16x10112 .f32) (u : Fin 1) (n : Fin 10112) :
    invCnt v0 (ix2 u n) = Ideal.div (Ideal.ofBits .f32 0x3F800000#32) (max (∑ s : Fin 16, v0 (ix2 s n)) (Ideal.ofBits .f32 0x3F800000#32)) := by
  unfold invCnt
  rw [divf_apply, maximumf_apply, broadcast_apply, shapeCast_a_1a_apply, cntSum_apply]
  rfl

def meanT (v0 : FVec Ideal S16x10112 .f32) (v8 : FVec Ideal S128x10112 .f32) : FVec Ideal S128x10112 .f32 :=
  mulf (shapeCast S128x10112 v8 shapeCasts_S128x10112_S128x10112) (broadcastTo S128x10112 (invCnt v0) broadcasts_S1x10112_S128x10112)

theorem meanT_apply (v0 : FVec Ideal S16x10112 .f32) (v8 : FVec Ideal S128x10112 .f32) (f : Fin 128) (n : Fin 10112) :
    meanT v0 v8 (ix2 f n)
      = v8 (ix2 f n) * Ideal.div (Ideal.ofBits .f32 0x3F800000#32) (max (∑ s : Fin 16, v0 (ix2 s n)) (Ideal.ofBits .f32 0x3F800000#32)) := by
  unfold meanT
  rw [mulf_apply, shapeCast_self, broadcastTo_1b_ab_apply, invCnt_apply]

theorem k1_pay1_eq (v0 : FVec Ideal S16x10112 .f32) (v8 : FVec Ideal S128x10112 .f32) (v12 : FVec Ideal S128x128 .f32) (v14 : FVec Ideal S128x1 .f32)
    (v18 : FVec Ideal S128x128 .f32) (v19 : FVec Ideal S128x10112 .f32) :
    k1_pay1 (F := Ideal) v0 v8 v12 v14 v18 v19
      = maximumf (addf (addf (matmul dot_S128x128_S128x10112_S128x10112_0_0_1_1_n_n none v12 (meanT v0 v8) (constant S128x10112 .f32 0x00000000#32))
            (broadcastTo S128x10112 (shapeCast S128x1 v14 shapeCasts_S128x1_S128x1) broadcasts_S128x1_S128x10112))
          (matmul dot_S128x128_S128x10112_S128x10112_0_0_1_1_n_n none v18 (shapeCast S128x10112 v19 shapeCasts_S128x10112_S128x10112) (constant S128x10112 .f32 0x00000000#32)))
        (broadcast S128x10112 (Scalar.ofBits .f32 0x00000000#32)) := rfl

theorem k1_pay1_apply (v0 : FVec Ideal S16x10112 .f32) (v8 : FVec Ideal S128x10112 .f32) (v12 : FVec Ideal S128x128 .f32) (v14 : FVec Ideal S128x1 .f32)
    (v18 : FVec Ideal S128x128 .f32) (v19 : FVec Ideal S128x10112 .f32) (k : Fin 128) (n : Fin 10112) :
    k1_pay1 (F := Ideal) v0 v8 v12 v14 v18 v19 (ix2 k n)
      = max ((∑ f : Fin 128, v12 (ix2 f k) * (v8 (ix2 f n)
                * Ideal.div (Ideal.ofBits .f32 0x3F800000#32) (max (∑ s : Fin 16, v0 (ix2 s n)) (Ideal.ofBits .f32 0x3F800000#32))))
              + v14 (ix2 k (0 : Fin 1)) + ∑ f : Fin 128, v18 (ix2 f k) * v19 (ix2 f n))
          (Ideal.ofBits .f32 0x00000000#32) := by
  rw [k1_pay1_eq, maximumf_apply, broadcast_apply, addf_apply, addf_apply, matmul1_apply, matmul1_apply, broadcastTo_a1_ab_apply,
    shapeCast_self, shapeCast_self]
  simp only [meanT_apply]
  rfl

section
variable {F : FTy → Type} [FloatOps F]

theorem k3_pay1_eq (v0 : Vec F S16x10112 .f32) (v8 : Vec F S128x10112 .f32) (v12 : Vec F S128x128 .f32) (v14 : Vec F S128x1 .f32)
    (v18 : Vec F S128x128 .f32) (v19 : Vec F S128x10112 .f32) (v25 : Vec F S128x16 .f32) (v27 : Vec F S1x16 .f32) :
    k3_pay1 v0 v8 v12 v14 v18 v19 v25 v27
      = addf (matmul dot_S128x10112_S128x16_S10112x16_0_0_1_1_n_n none (k1_pay1 v0 v8 v12 v14 v18 v19) v25 (constant S10112x16 .f32 0x00000000#32))
          (broadcastTo S10112x16 (shapeCast S1x16 v27 shapeCasts_S1x16_S1x16) broadcasts_S1x16_S10112x16) := rfl

end

theorem k3_pay1_apply (v0 : FVec Ideal S16x10112 .f32) (v8 : FVec Ideal S128x10112 .f32) (v12 : FVec Ideal S128x128 .f32) (v14 : FVec Ideal S128x1 .f32)
    (v18 : FVec Ideal S128x128 .f32) (v19 : FVec Ideal S128x10112 .f32) (v25 : FVec Ideal S128x16 .f32) (v27 : FVec Ideal S1x16 .f32)
    (n : Fin 10112) (c : Fin 16) :
    k3_pay1 (F := Ideal) v0 v8 v12 v14 v18 v19 v25 v27 (ix2 n c)
      = (∑ k : Fin 128, k1_pay1 (F := Ideal) v0 v8 v12 v14 v18 v19 (ix2 k n) * v25 (ix2 k c)) + v27 (ix2 (0 : Fin 1) c) := by
  rw [k3_pay1_eq, addf_apply, matmul2_apply, broadcastTo_1b_ab_apply, shapeCast_self]

end Cert.Proof.KernelValuePay

end
-- ==== Proof.ScatterSumIdeal.lean ====
import proofs.«215722_g7507602833967_cont_sun_m_718_28_alg».proof.Proof.ScatterSum

noncomputable section

open scoped BigOperators
open Idealize.ShloMosaic Idealize.ShloMosaic.ValueIdx

namespace Cert.Proof.ScatterSum

private abbrev dL : Fin 1 → Nat := ![16]

private def laneStep {F : FTy → Type} [FloatOps F] (d : IVec SLane 32) (v : Vec F SLane .f32) (mask : IVec SLane 1) (hd : InB d)
    (g : Vec F SRow .f32) (k : Fin (dL 0)) : Vec F SRow .f32 :=
  if mask (Shape.ofLane k) = 1 then
    fun j => if (∀ a, (j a).val = (idxAt ![d] hd (Shape.ofLane k) a).val)
      then FloatOps.idxAddf (g (idxAt ![d] hd (Shape.ofLane k))) (v (Shape.ofLane k)) else g j
  else g

private theorem storeIdx_eq_foldl {F : FTy → Type} [FloatOps F] (acc : Vec F SRow .f32) (d : IVec SLane 32) (v : Vec F SLane .f32)
    (mask : IVec SLane 1) (hd : InB d) :
    storeIdx acc ![d] v mask true hd = (List.finRange (dL 0)).foldl (laneStep d v mask hd) acc := rfl

private theorem laneStep_apply (acc : Vec Ideal SRow .f32) (d : IVec SLane 32) (v : Vec Ideal SLane .f32) (mask : IVec SLane 1)
    (hd : InB d) (k : Fin (dL 0)) (n : SRow.Idx) :
    laneStep d v mask hd acc k n
      = acc n + if mask (Shape.ofLane k) = 1 ∧ (d (Shape.ofLane k)).toNat = (n 0).val then v (Shape.ofLane k) else 0 := by
  unfold laneStep
  by_cases hm : mask (Shape.ofLane k) = 1
  · by_cases hn : (d (Shape.ofLane k)).toNat = (n 0).val
    · have hi : n = idxAt ![d] hd (Shape.ofLane k) := by
        funext a
        match a with
        | ⟨0, _⟩ => exact Fin.ext hn.symm
      have hall : ∀ a, (n a).val = (idxAt ![d] hd (Shape.ofLane k) a).val := fun a => by rw [← hi]
      simp only [if_pos hm, if_pos hall, if_pos (And.intro hm hn)]
      rw [← hi]
      rfl
    · have hnall : ¬ ∀ a, (n a).val = (idxAt ![d] hd (Shape.ofLane k) a).val := fun hall => hn (hall 0).symm
      have hnand : ¬ (mask (Shape.ofLane k) = 1 ∧ (d (Shape.ofLane k)).toNat = (n 0).val) := fun h => hn h.2
      simp only [if_pos hm, if_neg hnall, if_neg hnand, add_zero]
  · have hnand : ¬ (mask (Shape.ofLane k) = 1 ∧ (d (Shape.ofLane k)).toNat = (n 0).val) := fun h => hm h.1
    simp only [if_neg hm, if_neg hnand, add_zero]

private theorem foldl_laneStep_apply (d : IVec SLane 32) (v : Vec Ideal SLane .f32) (mask : IVec SLane 1)
    (hd : InB d) (n : SRow.Idx) (ls : List (Fin (dL 0))) (acc : Vec Ideal SRow .f32) :
    ls.foldl (laneStep d v mask hd) acc n
      = acc n + (ls.map fun l => if mask (Shape.ofLane l) = 1 ∧ (d (Shape.ofLane l)).toNat = (n 0).val
          then v (Shape.ofLane l) else 0).sum := by
  induction ls generalizing acc with
  | nil =>
    show acc n = acc n + 0
    rw [add_zero]
  | cons k ls ih =>
    rw [List.foldl_cons, ih, laneStep_apply, List.map_cons, List.sum_cons, add_assoc]

theorem scat_apply_ofLane (acc : Vec Ideal SRow .f32) (d : IVec SLane 32) (v : Vec Ideal SLane .f32) (mask : IVec SLane 1)
    (hd : InB d) (n : SRow.Idx) :
    scat acc d v mask n
      = acc n + ∑ l : Fin ((![16] : Fin 1 → Nat) 0),
          if mask (Shape.ofLane l) = 1 ∧ (d (Shape.ofLane l)).toNat = (n 0).val then v (Shape.ofLane l) else 0 := by
  rw [← scat_eq acc d v mask hd, storeIdx_eq_foldl, foldl_laneStep_apply, Fin.sum_univ_def]

theorem scat_apply (acc : Vec Ideal SRow .f32) (d : IVec SLane 32) (v : Vec Ideal SLane .f32) (mask : IVec SLane 1)
    (hd : InB d) (n : SRow.Idx) :
    scat acc d v mask n
      = acc n + ∑ l : Fin 16, if mask (ix1 l) = 1 ∧ (d (ix1 l)).toNat = (n 0).val then v (ix1 l) else 0 := by
  rw [scat_apply_ofLane acc d v mask hd n]
  congr 1
  show ∑ l : Fin 16, (if mask (Shape.ofLane (d := ![16]) l) = 1 ∧ (d (Shape.ofLane (d := ![16]) l)).toNat = (n 0).val
      then v (Shape.ofLane (d := ![16]) l) else 0) = _
  exact Finset.sum_congr rfl fun l _ =>
    congrArg (fun x : SLane.Idx => if mask x = 1 ∧ (d x).toNat = (n 0).val then v x else 0) (ofLane_eq_ix1 l)

theorem scat_apply_ones (acc : Vec Ideal SRow .f32) (d : IVec SLane 32) (v : Vec Ideal SLane .f32)
    (hd : InB d) (n : SRow.Idx) :
    scat acc d v (fun _ => 1#1) n
      = acc n + ∑ l : Fin 16, if (d (ix1 l)).toNat = (n 0).val then v (ix1 l) else 0 := by
  rw [scat_apply acc d v _ hd n]
  congr 1
  exact Finset.sum_congr rfl fun l _ => if_congr (and_iff_right rfl) rfl rfl

private def aggTerm (xs : Vec Ideal SRow .f32) (src dst : IVec SEdge 32) (n : SRow.Idx) (e : Nat) : EReal :=
  if h : e < 327680 then (if (dst (ix1 ⟨e, h⟩)).toNat = (n 0).val then xs (rowOf (src (ix1 ⟨e, h⟩))) else 0) else 0

theorem aggFrom_apply (acc0 xs : Vec Ideal SRow .f32) (src dst : IVec SEdge 32) (hdst : ∀ e, (dst e).toNat < 10112)
    (n : SRow.Idx) (k : Nat) (hk : k ≤ 20480) :
    aggFrom acc0 xs src dst k n = acc0 n + ∑ e ∈ Finset.range (16 * k), aggTerm xs src dst n e := by
  induction k with
  | zero => simp [aggFrom]
  | succ k ih =>
    show scat (aggFrom acc0 xs src dst k) (lanes16 dst k) (gath xs (lanes16 src k)) (fun _ => 1#1) n = _
    rw [scat_apply_ones _ _ _ (inB_lanes16 dst hdst k), ih (by omega), show 16 * (k + 1) = 16 * k + 16 by ring,
      Finset.sum_range_add, add_assoc, Finset.sum_range (fun x => aggTerm xs src dst n (16 * k + x))]
    congr 2
    refine Finset.sum_congr rfl fun l _ => ?_
    have hl : 16 * k + l.val < 327680 := by have := l.isLt; omega
    have e1 : lanes16 dst k (ix1 l) = dst (ix1 ⟨16 * k + l.val, hl⟩) := lanes16_apply dst k (ix1 l) hl
    have e2 : lanes16 src k (ix1 l) = src (ix1 ⟨16 * k + l.val, hl⟩) := lanes16_apply src k (ix1 l) hl
    show (if (lanes16 dst k (ix1 l)).toNat = (n 0).val then xs (rowOf (lanes16 src k (ix1 l))) else 0)
      = aggTerm xs src dst n (16 * k + l.val)
    rw [e1, e2]
    unfold aggTerm
    rw [dif_pos hl]

theorem aggUpTo_sum (xs : Vec Ideal SRow .f32) (src dst : IVec SEdge 32)
    (hdst : ∀ e, (dst e).toNat < 10112) (n : SRow.Idx) :
    aggUpTo xs src dst 20480 n
      = ∑ e : Fin 327680, if (dst (ix1 e)).toNat = (n 0).val then xs (rowOf (src (ix1 e))) else 0 := by
  unfold aggUpTo
  rw [aggFrom_apply _ xs src dst hdst n 20480 le_rfl]
  show Ideal.ofBits .f32 0x00000000#32 + _ = _
  rw [Ideal.ofBits_zero_f32, zero_add, show 16 * 20480 = 327680 by norm_num, Finset.sum_range]
  refine Finset.sum_congr rfl fun e _ => ?_
  unfold aggTerm
  rw [dif_pos e.isLt]

theorem one_f32 : (Scalar.ofBits .f32 0x3F800000#32 : Ideal .f32) = 1 := by
  show Ideal.ofBits .f32 0x3F800000#32 = 1
  simp [Ideal.ofBits, Ideal.ieee, -EReal.coe_mul]; norm_num

private def cntTerm (dst : IVec SEdge 32) (b : Nat → Prop) [DecidablePred b] (n : SRow.Idx) (e : Nat) : EReal :=
  if h : e < 327680 then (if b (e / 512) ∧ (dst (ix1 ⟨e, h⟩)).toNat = (n 0).val then 1 else 0) else 0

theorem cntFrom_apply (acc0 : Vec Ideal SRow .f32) (dst : IVec SEdge 32) (hdst : ∀ e, (dst e).toNat < 10112)
    (mask : Nat → IVec SLane 1) (b : Nat → Prop) [DecidablePred b] (hmask : ∀ g x, mask g x = if b g then 1#1 else 0#1)
    (n : SRow.Idx) (k : Nat) (hk : k ≤ 20480) :
    cntFrom acc0 dst mask k n = acc0 n + ∑ e ∈ Finset.range (16 * k), cntTerm dst b n e := by
  induction k with
  | zero => simp [cntFrom]
  | succ k ih =>
    show scat (cntFrom acc0 dst mask k) (lanes16 dst k) (broadcast SLane (Scalar.ofBits .f32 0x3F800000#32 : Ideal .f32))
      (mask (k / 32)) n = _
    rw [scat_apply _ _ _ _ (inB_lanes16 dst hdst k), ih (by omega), show 16 * (k + 1) = 16 * k + 16 by ring,
      Finset.sum_range_add, add_assoc, Finset.sum_range (fun x => cntTerm dst b n (16 * k + x))]
    congr 2
    refine Finset.sum_congr rfl fun l _ => ?_
    have hl : 16 * k + l.val < 327680 := by have := l.isLt; omega
    have e1 : lanes16 dst k (ix1 l) = dst (ix1 ⟨16 * k + l.val, hl⟩) := lanes16_apply dst k (ix1 l) hl
    have hg : (16 * k + l.val) / 512 = k / 32 := by have := l.isLt; omega
    have hb : (mask (k / 32) (ix1 l) = 1) ↔ b (k / 32) := by
      rw [hmask]
      by_cases hb : b (k / 32) <;> simp [hb]
    show (if mask (k / 32) (ix1 l) = 1 ∧ (lanes16 dst k (ix1 l)).toNat = (n 0).val
        then (Scalar.ofBits .f32 0x3F800000#32 : Ideal .f32) else 0) = cntTerm dst b n (16 * k + l.val)
    unfold cntTerm
    rw [dif_pos hl, hg, e1, one_f32]
    exact if_congr (and_congr_left' hb) rfl rfl

theorem cntUpTo_sum (dst : IVec SEdge 32) (hdst : ∀ e, (dst e).toNat < 10112) (mask : Nat → IVec SLane 1)
    (b : Nat → Prop) [DecidablePred b] (hmask : ∀ g x, mask g x = if b g then 1#1 else 0#1) (n : SRow.Idx) :
    cntUpTo (F := Ideal) dst mask 20480 n
      = ∑ e : Fin 327680, if b (e.val / 512) ∧ (dst (ix1 e)).toNat = (n 0).val then (1 : EReal) else 0 := by
  unfold cntUpTo
  rw [cntFrom_apply _ dst hdst mask b hmask n 20480 le_rfl]
  show Ideal.ofBits .f32 0x00000000#32 + _ = _
  rw [Ideal.ofBits_zero_f32, zero_add, show 16 * 20480 = 327680 by norm_num, Finset.sum_range]
  refine Finset.sum_congr rfl fun e _ => ?_
  unfold cntTerm
  rw [dif_pos e.isLt]

theorem cnt_tiles_sum (dst : IVec SEdge 32) (hdst : ∀ e, (dst e).toNat < 10112) (m : Fin 16 → Nat → IVec SLane 1)
    (hm : ∀ (t : Fin 16) g x, m t g x = if g % 16 = t.val then 1#1 else 0#1) (n : SRow.Idx) :
    ∑ t : Fin 16, cntUpTo (F := Ideal) dst (m t) 20480 n
      = ((Finset.univ.filter fun e : Fin 327680 => (dst (ix1 e)).toNat = (n 0).val).card : EReal) := by
  have h1 : ∀ t : Fin 16, cntUpTo (F := Ideal) dst (m t) 20480 n
      = ∑ e : Fin 327680, if e.val / 512 % 16 = t.val ∧ (dst (ix1 e)).toNat = (n 0).val then (1 : EReal) else 0 :=
    fun t => cntUpTo_sum dst hdst (m t) (fun g => g % 16 = t.val) (hm t) n
  rw [Finset.sum_congr rfl fun t _ => h1 t, Finset.sum_comm, ← Finset.sum_boole]
  refine Finset.sum_congr rfl fun e _ => ?_
  by_cases hp : (dst (ix1 e)).toNat = (n 0).val
  · have h2 : ∀ t : Fin 16, (if e.val / 512 % 16 = t.val ∧ (dst (ix1 e)).toNat = (n 0).val then (1 : EReal) else 0)
        = if e.val / 512 % 16 = t.val then 1 else 0 := fun t => if_congr (and_iff_left hp) rfl rfl
    rw [Finset.sum_congr rfl fun t _ => h2 t, if_pos hp,
      Finset.sum_eq_single (⟨e.val / 512 % 16, Nat.mod_lt _ (by norm_num)⟩ : Fin 16)]
    · rw [if_pos rfl]
    · intro t _ ht
      exact if_neg fun h => ht (Fin.ext h.symm)
    · intro h
      exact absurd (Finset.mem_univ _) h
  · have h2 : ∀ t : Fin 16, (if e.val / 512 % 16 = t.val ∧ (dst (ix1 e)).toNat = (n 0).val then (1 : EReal) else 0) = 0 :=
      fun t => if_neg fun h => hp h.2
    rw [Finset.sum_congr rfl fun t _ => h2 t, if_neg hp, Finset.sum_const_zero]

theorem sum_pad_drop (f : Fin 327680 → EReal) (hf : ∀ e : Fin 327680, 320000 ≤ e.val → f e = 0) :
    ∑ e : Fin 327680, f e = ∑ e : Fin 320000, f (Fin.castLE (by norm_num) e) := by
  refine (Fin.sum_univ_add (M := EReal) (a := 320000) (b := 7680) f).trans ?_
  have hz : ∑ i : Fin 7680, f (Fin.natAdd 320000 i) = 0 :=
    Finset.sum_eq_zero fun i _ => hf (Fin.natAdd 320000 i) (Nat.le_add_right 320000 i.val)
  rw [hz, add_zero]
  rfl

theorem aggUpTo_sum_real (xs : Vec Ideal SRow .f32) (src dst : IVec SEdge 32)
    (hdst : ∀ e, (dst e).toNat < 10112) (n : SRow.Idx)
    (hpad : ∀ e : Fin 327680, 320000 ≤ e.val → (dst (ix1 e)).toNat ≠ (n 0).val) :
    aggUpTo xs src dst 20480 n
      = ∑ e : Fin 320000, if (dst (ix1 (Fin.castLE (by norm_num) e : Fin 327680))).toNat = (n 0).val
          then xs (rowOf (src (ix1 (Fin.castLE (by norm_num) e : Fin 327680)))) else 0 := by
  rw [aggUpTo_sum xs src dst hdst n]
  exact sum_pad_drop _ fun e he => if_neg (hpad e he)

theorem cnt_tiles_sum_real (dst : IVec SEdge 32) (hdst : ∀ e, (dst e).toNat < 10112) (m : Fin 16 → Nat → IVec SLane 1)
    (hm : ∀ (t : Fin 16) g x, m t g x = if g % 16 = t.val then 1#1 else 0#1) (n : SRow.Idx)
    (hpad : ∀ e : Fin 327680, 320000 ≤ e.val → (dst (ix1 e)).toNat ≠ (n 0).val) :
    ∑ t : Fin 16, cntUpTo (F := Ideal) dst (m t) 20480 n
      = ((Finset.univ.filter fun e : Fin 320000 =>
          (dst (ix1 (Fin.castLE (by norm_num) e : Fin 327680))).toNat = (n 0).val).card : EReal) := by
  rw [cnt_tiles_sum dst hdst m hm n, Finset.natCast_card_filter, Finset.natCast_card_filter]
  exact sum_pad_drop _ fun e he => if_neg (hpad e he)

end Cert.Proof.ScatterSum
-- ==== Proof.RefSpec.lean ====
import Idealize.ShloMosaic.PureOps.Ideal
import Idealize.ShloMosaic.Lib.ValueIdx

noncomputable section

open scoped BigOperators

namespace Cert.Proof.RefSpec

open Idealize.ShloMosaic Idealize.ShloMosaic.ValueIdx

def srcw (ei : IVec ⟨2, ![2, 320000]⟩ 32) (e : Fin 320000) : BitVec 32 := ei (ix2 (0 : Fin 2) e)

def dstw (ei : IVec ⟨2, ![2, 320000]⟩ 32) (e : Fin 320000) : BitVec 32 := ei (ix2 (1 : Fin 2) e)

def node (w : BitVec 32) : Fin 10000 := ⟨min w.toNat 9999, by omega⟩

def into (ei : IVec ⟨2, ![2, 320000]⟩ 32) (n : Fin 10000) : Finset (Fin 320000) :=
  Finset.univ.filter fun e => (dstw ei e).toNat = n.val

def cnt (ei : IVec ⟨2, ![2, 320000]⟩ 32) (n : Fin 10000) : EReal :=
  ∑ _e ∈ into ei n, Ideal.ofBits .f32 0x3F800000#32

def agg (ei : IVec ⟨2, ![2, 320000]⟩ 32) (h : FVec Ideal ⟨2, ![10000, 128]⟩ .f32) (n : Fin 10000) (f : Fin 128) : EReal :=
  ∑ e ∈ into ei n, h (ix2 (node (srcw ei e)) f)

-- The sum over the edges that end at a node, divided by max(in-degree, 1).
def mean (ei : IVec ⟨2, ![2, 320000]⟩ 32) (h : FVec Ideal ⟨2, ![10000, 128]⟩ .f32) (n : Fin 10000) (f : Fin 128) : EReal :=
  Ideal.div (agg ei h n f) (max (cnt ei n) (Ideal.ofBits .f32 0x3F800000#32))

def layer (ei : IVec ⟨2, ![2, 320000]⟩ 32) (h : FVec Ideal ⟨2, ![10000, 128]⟩ .f32)
    (Wl : FVec Ideal ⟨2, ![128, 128]⟩ .f32) (bl : FVec Ideal ⟨1, ![128]⟩ .f32) (Wr : FVec Ideal ⟨2, ![128, 128]⟩ .f32) :
    FVec Ideal ⟨2, ![10000, 128]⟩ .f32 :=
  fun i => max ((∑ f : Fin 128, mean ei h (i 0) f * Wl (ix2 f (i 1))) + bl (ix1 (i 1))
      + ∑ f : Fin 128, h (ix2 (i 0) f) * Wr (ix2 f (i 1))) (Ideal.ofBits .f32 0x00000000#32)

-- The reference as one function of the ten arguments: two mean-of-in-neighbours layers, then a dense map and a bias.
def out (x : FVec Ideal ⟨2, ![10000, 128]⟩ .f32) (ei : IVec ⟨2, ![2, 320000]⟩ 32)
    (W1l : FVec Ideal ⟨2, ![128, 128]⟩ .f32) (b1l : FVec Ideal ⟨1, ![128]⟩ .f32) (W1r : FVec Ideal ⟨2, ![128, 128]⟩ .f32)
    (W2l : FVec Ideal ⟨2, ![128, 128]⟩ .f32) (b2l : FVec Ideal ⟨1, ![128]⟩ .f32) (W2r : FVec Ideal ⟨2, ![128, 128]⟩ .f32)
    (Wlin : FVec Ideal ⟨2, ![128, 16]⟩ .f32) (blin : FVec Ideal ⟨1, ![16]⟩ .f32) : FVec Ideal ⟨2, ![10000, 16]⟩ .f32 :=
  fun i => (∑ k : Fin 128, layer ei (layer ei x W1l b1l W1r) W2l b2l W2r (ix2 (i 0) k) * Wlin (ix2 k (i 1)))
      + blin (ix1 (i 1))

end Cert.Proof.RefSpec

end
-- ==== Proof.KernelValue.lean ====
import proofs.«215722_g7507602833967_cont_sun_m_718_28_alg».proof.Proof.KernelTerm
import proofs.«215722_g7507602833967_cont_sun_m_718_28_alg».proof.Proof.KernelValuePay
import proofs.«215722_g7507602833967_cont_sun_m_718_28_alg».proof.Proof.ScatterSumIdeal
import proofs.«215722_g7507602833967_cont_sun_m_718_28_alg».proof.Proof.RefSpec
import Idealize.ShloMosaic.Lib.ValueIdx
import Idealize.ShloMosaic.Lib.ValueLayout
import Idealize.ShloMosaic.Lib.Pipeline.Value
import Idealize.ShloMosaic.PureOps.Ideal.Laws

noncomputable section

namespace Cert.Proof.KernelValue

open Cert.KernelIdeal Cert.KernelIdeal.Gen
open Idealize.ShloMosaic Idealize.ShloMosaic.ValueIdx
open Cert.Proof Cert.Proof.ScatterSum Cert.Proof.KernelTerm Cert.Proof.KernelValuePay
open scoped BigOperators

variable {F : FTy → Type} [FloatOps F]

theorem srcWords_apply (ei : IVec S2x320000 32) (e : Fin 320000) : srcWords ei (ix1 e) = RefSpec.srcw ei e := by
  unfold srcWords srcRow
  rw [shapeCast_1a_a_apply]
  exact slice2_axis0_apply 0 ei slices_S2x320000_S1x320000_0_0 (0 : Fin 1) e (0 : Fin 2) rfl

theorem dstWords_apply (ei : IVec S2x320000 32) (e : Fin 320000) : dstWords ei (ix1 e) = RefSpec.dstw ei e := by
  unfold dstWords dstRow
  rw [shapeCast_1a_a_apply]
  exact slice2_axis0_apply 1 ei slices_S2x320000_S1x320000_1_0 (0 : Fin 1) e (1 : Fin 2) rfl

theorem srcflat_lt (ei : IVec S2x320000 32) (e : Fin 327680) (h : e.val < 320000) :
    srcflat ei (ix1 e) = RefSpec.srcw ei ⟨e.val, h⟩ := by
  unfold srcflat
  refine (concatenate_pair_apply_left (0 : Fin S327680.rank) (srcWords ei) padSrc concatenates_S320000_S7680_S327680_d0 (ix1 e) rfl
    (ix1 (⟨e.val, h⟩ : Fin 320000)) (fun b => ?_)).trans (srcWords_apply ei ⟨e.val, h⟩)
  match b with
  | ⟨0, _⟩ => rfl

theorem dstflat_lt (ei : IVec S2x320000 32) (e : Fin 327680) (h : e.val < 320000) :
    dstflat ei (ix1 e) = RefSpec.dstw ei ⟨e.val, h⟩ := by
  unfold dstflat
  refine (concatenate_pair_apply_left (0 : Fin S327680.rank) (dstWords ei) padDst concatenates_S320000_S7680_S327680_d0 (ix1 e) rfl
    (ix1 (⟨e.val, h⟩ : Fin 320000)) (fun b => ?_)).trans (dstWords_apply ei ⟨e.val, h⟩)
  match b with
  | ⟨0, _⟩ => rfl

theorem dstflat_ge (ei : IVec S2x320000 32) (e : Fin 327680) (h : 320000 ≤ e.val) : dstflat ei (ix1 e) = 10000#32 := by
  unfold dstflat
  have he : e.val - 320000 < 7680 := by have := e.isLt; omega
  refine (concatenate_pair_apply_right (0 : Fin S327680.rank) (dstWords ei) padDst concatenates_S320000_S7680_S327680_d0 (ix1 e) rfl rfl
    (ix1 (⟨e.val - 320000, he⟩ : Fin 7680)) (fun b hb => ?_) ?_).trans rfl
  · have hb1 : b.val < 1 := b.isLt
    exact absurd (Fin.ext (by show b.val = 0; omega)) hb
  · show e.val - 320000 + 320000 = e.val
    omega

theorem dstflat_bound (ei : IVec S2x320000 32) (hle : ∀ i, (ei i).toNat ≤ 9999) (e : S327680.Idx) : (dstflat ei e).toNat < 10112 := by
  obtain ⟨a, rfl⟩ : ∃ a : Fin 327680, e = ix1 a := ⟨e 0, eq_ix1 e⟩
  by_cases h : a.val < 320000
  · rw [dstflat_lt ei a h]
    have := hle (ix2 (1 : Fin 2) (⟨a.val, h⟩ : Fin 320000))
    show (ei (ix2 (1 : Fin 2) (⟨a.val, h⟩ : Fin 320000))).toNat < 10112
    omega
  · rw [dstflat_ge ei a (by omega)]
    decide

theorem dstflat_pad (ei : IVec S2x320000 32) (n : Fin 10000) (e : Fin 327680) (he : 320000 ≤ e.val) :
    (dstflat ei (ix1 e)).toNat ≠ n.val := by
  rw [dstflat_ge ei e he]
  have h10 : (10000#32 : BitVec 32).toNat = 10000 := rfl
  rw [h10]
  have := n.isLt
  omega

theorem xT_lt (x : FVec F S10000x128 .f32) (f : Fin 128) (m : Fin 10112) (h : m.val < 10000) :
    xT x (ix2 f m) = x (ix2 (⟨m.val, h⟩ : Fin 10000) f) := by
  unfold xT
  refine (concatenate_pair_apply_left (1 : Fin S128x10112.rank) (xTr x) padX concatenates_S128x10000_S128x112_S128x10112_d1 (ix2 f m) rfl
    (ix2 f (⟨m.val, h⟩ : Fin 10000)) (fun b => ?_)).trans ?_
  · match b with
    | ⟨0, _⟩ => rfl
    | ⟨1, _⟩ => rfl
  · exact transpose_ix2_apply x transposes_S10000x128_S128x10000_1_0 f ⟨m.val, h⟩

theorem unflat_apply {α : Type} (v : S1294336.Idx → α) (r : Fin 128) (n : Fin 10112) :
    shapeCast S128x10112 v shapeCasts_S1294336_S128x10112 (ix2 r n)
      = v (ix1 (⟨10112 * r.val + n.val, by have := r.isLt; have := n.isLt; omega⟩ : Fin 1294336)) :=
  shapeCast_apply v _ _ _ (by
    rw [Shape.rowMajor_val_one, Shape.rowMajor_val_two]
    show 10112 * r.val + n.val = r.val * 10112 + n.val
    omega)

theorem flat_apply {α : Type} (w : S128x10112.Idx → α) (r : Fin 128) (n : Fin 10112) (h : 10112 * r.val + n.val < 1294336) :
    shapeCast S1294336 w shapeCasts_S128x10112_S1294336 (ix1 (⟨10112 * r.val + n.val, h⟩ : Fin 1294336)) = w (ix2 r n) :=
  shapeCast_apply w _ _ _ (by
    rw [Shape.rowMajor_val_one, Shape.rowMajor_val_two]
    show r.val * 10112 + n.val = 10112 * r.val + n.val
    omega)

theorem uncnt_apply {α : Type} (v : S161792.Idx → α) (s : Fin 16) (n : Fin 10112) :
    shapeCast S16x10112 v shapeCasts_S161792_S16x10112 (ix2 s n)
      = v (ix1 (⟨10112 * s.val + n.val, by have := s.isLt; have := n.isLt; omega⟩ : Fin 161792)) :=
  shapeCast_apply v _ _ _ (by
    rw [Shape.rowMajor_val_one, Shape.rowMajor_val_two]
    show 10112 * s.val + n.val = s.val * 10112 + n.val
    omega)

theorem biasCol_apply (b : FVec F S128 .f32) (k : Fin 128) (u : Fin 1) : biasCol b (ix2 k u) = b (ix1 k) :=
  shapeCast_apply b shapeCasts_S128_S128x1 (ix2 k u) (ix1 k) (by
    have hu : u.val = 0 := by omega
    rw [Shape.rowMajor_val_one, Shape.rowMajor_val_two]
    show k.val = k.val * 1 + u.val
    omega)

theorem biasRow_apply (b : FVec F S16 .f32) (u : Fin 1) (c : Fin 16) : biasRow b (ix2 u c) = b (ix1 c) :=
  shapeCast_a_1a_apply b shapeCasts_S16_S1x16 u c

theorem ofBits_one_f32 : Ideal.ofBits .f32 0x3F800000#32 = 1 := IdealRules.sign_bit.ideal_onePat .f32

theorem refcnt_eq (ei : IVec S2x320000 32) (n : Fin 10000) : RefSpec.cnt ei n = ((RefSpec.into ei n).card : EReal) := by
  unfold RefSpec.cnt
  rw [Finset.sum_const, ofBits_one_f32, nsmul_one]

theorem mul_inv_count (a : EReal) (c : ℕ) :
    a * Ideal.div (Ideal.ofBits .f32 0x3F800000#32) (max (c : EReal) (Ideal.ofBits .f32 0x3F800000#32))
      = Ideal.div a (max (c : EReal) (Ideal.ofBits .f32 0x3F800000#32)) := by
  have h1 : Ideal.ofBits .f32 0x3F800000#32 = ((1 : ℝ) : EReal) := ofBits_one_f32
  have hc : (c : EReal) = ((c : ℝ) : EReal) := rfl
  have hm : max (c : EReal) (Ideal.ofBits .f32 0x3F800000#32) = ((max (c : ℝ) 1 : ℝ) : EReal) := by
    rw [h1, hc, EReal.coe_strictMono.monotone.map_max]
  have hy : max (c : ℝ) 1 ≠ 0 := ne_of_gt (lt_of_lt_of_le one_pos (le_max_right _ _))
  rw [hm, Ideal.div_coe hy, Ideal.div_coe hy, h1, EReal.coe_one, one_mul]

abbrev col (n : Fin 10000) : Fin 10112 := ⟨n.val, by have := n.isLt; omega⟩

def Cols (hT : FVec Ideal S128x10112 .f32) (h : FVec Ideal S10000x128 .f32) : Prop :=
  ∀ (f : Fin 128) (m : Fin 10112) (hm : m.val < 10000), hT (ix2 f m) = h (ix2 (⟨m.val, hm⟩ : Fin 10000) f)

theorem xT_cols (x : FVec Ideal S10000x128 .f32) : Cols (xT x) x := fun f m hm => xT_lt x f m hm

theorem agg_apply (ei : IVec S2x320000 32) (hle : ∀ i, (ei i).toNat ≤ 9999) (hT : FVec Ideal S128x10112 .f32)
    (h : FVec Ideal S10000x128 .f32) (hc : Cols hT h) (f : Fin 128) (n : Fin 10000) :
    shapeCast S128x10112 (aggFlat (shapeCast S1294336 hT shapeCasts_S128x10112_S1294336) (srcflat ei) (dstflat ei))
        shapeCasts_S1294336_S128x10112 (ix2 f (col n))
      = RefSpec.agg ei h n f := by
  rw [unflat_apply, aggFlat_at,
    aggUpTo_sum_real _ _ _ (dstflat_bound ei hle) (ix1 (col n)) (fun e he => dstflat_pad ei n e he)]
  unfold RefSpec.agg RefSpec.into
  rw [Finset.sum_filter]
  refine Finset.sum_congr rfl fun e _ => ?_
  have hd : dstflat ei (ix1 (Fin.castLE (by norm_num : 320000 ≤ 327680) e)) = RefSpec.dstw ei e := dstflat_lt ei _ e.isLt
  have hs : srcflat ei (ix1 (Fin.castLE (by norm_num : 320000 ≤ 327680) e)) = RefSpec.srcw ei e := srcflat_lt ei _ e.isLt
  rw [hd, hs]
  refine if_congr Iff.rfl ?_ rfl
  have hw : (RefSpec.srcw ei e).toNat ≤ 9999 := hle _
  have hw1 : (RefSpec.srcw ei e).toNat < 10112 := by omega
  have hw2 : (RefSpec.srcw ei e).toNat < 10000 := by omega
  have hnode : RefSpec.node (RefSpec.srcw ei e) = ⟨(RefSpec.srcw ei e).toNat, hw2⟩ :=
    Fin.ext (by show min (RefSpec.srcw ei e).toNat 9999 = (RefSpec.srcw ei e).toNat; omega)
  rw [rowOf_eq _ hw1, hnode]
  exact (flatRow_apply _ _ _ (by show 10112 * f.val + (RefSpec.srcw ei e).toNat < 1294336; have := f.isLt; omega)).trans
    ((flat_apply hT f ⟨_, hw1⟩ _).trans (hc f ⟨_, hw1⟩ hw2))

theorem cnt_apply (ei : IVec S2x320000 32) (hle : ∀ i, (ei i).toNat ≤ 9999) (n : Fin 10000) :
    ∑ s : Fin 16, cnt16 (F := Ideal) ei (ix2 s (col n)) = ((RefSpec.into ei n).card : EReal) := by
  have h1 : ∀ s : Fin 16, cnt16 (F := Ideal) ei (ix2 s (col n))
      = cntUpTo (F := Ideal) (dstflat ei) (tileMask s.val) 20480 (ix1 (col n)) := fun s => by
    unfold cnt16 cntf
    rw [uncnt_apply, cntFlat_at]
  rw [Finset.sum_congr rfl fun s _ => h1 s,
    cnt_tiles_sum_real (dstflat ei) (dstflat_bound ei hle) (fun t => tileMask t.val) (fun _ _ _ => rfl) (ix1 (col n))
      (fun e he => dstflat_pad ei n e he)]
  have hf : (Finset.univ.filter fun e : Fin 320000 =>
      (dstflat ei (ix1 (Fin.castLE (by norm_num : 320000 ≤ 327680) e))).toNat = (ix1 (col n) 0).val) = RefSpec.into ei n :=
    Finset.filter_congr fun e _ => by
      rw [dstflat_lt ei _ e.isLt]
      rfl
  rw [hf]

theorem layer_of (ei : IVec S2x320000 32) (hle : ∀ i, (ei i).toNat ≤ 9999) (A hT : FVec Ideal S128x10112 .f32)
    (h : FVec Ideal S10000x128 .f32) (Wl : FVec Ideal S128x128 .f32) (bl : FVec Ideal S128 .f32) (Wr : FVec Ideal S128x128 .f32)
    (k : Fin 128) (n : Fin 10000) (hA : ∀ f : Fin 128, A (ix2 f (col n)) = RefSpec.agg ei h n f)
    (hH : ∀ f : Fin 128, hT (ix2 f (col n)) = h (ix2 n f)) :
    k1_pay1 (F := Ideal) (cnt16 (F := Ideal) ei) A Wl (biasCol bl) Wr hT (ix2 k (col n)) = RefSpec.layer ei h Wl bl Wr (ix2 n k) := by
  rw [k1_pay1_apply, cnt_apply ei hle n]
  have e1 : ∀ f : Fin 128, Wl (ix2 f k) * (A (ix2 f (col n))
        * Ideal.div (Ideal.ofBits .f32 0x3F800000#32) (max ((RefSpec.into ei n).card : EReal) (Ideal.ofBits .f32 0x3F800000#32)))
      = RefSpec.mean ei h n f * Wl (ix2 f k) := fun f => by
    rw [hA f, mul_inv_count, mul_comm (Wl (ix2 f k))]
    unfold RefSpec.mean
    rw [refcnt_eq]
  have e3 : ∀ f : Fin 128, Wr (ix2 f k) * hT (ix2 f (col n)) = h (ix2 n f) * Wr (ix2 f k) := fun f => by
    rw [hH f, mul_comm]
  rw [Finset.sum_congr rfl fun f _ => e1 f, Finset.sum_congr rfl fun f _ => e3 f, biasCol_apply]
  rfl

theorem h1T_cols (x : FVec Ideal S10000x128 .f32) (ei : IVec S2x320000 32) (hle : ∀ i, (ei i).toNat ≤ 9999)
    (W1l : FVec Ideal S128x128 .f32) (b1l : FVec Ideal S128 .f32) (W1r : FVec Ideal S128x128 .f32) :
    Cols (h1T x ei W1l b1l W1r) (RefSpec.layer ei x W1l b1l W1r) := fun f m hm =>
  layer_of ei hle (agg1 x ei) (xT x) x W1l b1l W1r f ⟨m.val, hm⟩
    (fun f' => agg_apply ei hle (xT x) x (xT_cols x) f' ⟨m.val, hm⟩) (fun f' => xT_lt x f' m hm)

theorem kernelOut_eq (x : FVec Ideal S10000x128 .f32) (ei : IVec S2x320000 32) (W1l : FVec Ideal S128x128 .f32) (b1l : FVec Ideal S128 .f32)
    (W1r : FVec Ideal S128x128 .f32) (W2l : FVec Ideal S128x128 .f32) (b2l : FVec Ideal S128 .f32) (W2r : FVec Ideal S128x128 .f32)
    (Wlin : FVec Ideal S128x16 .f32) (blin : FVec Ideal S16 .f32) (hle : ∀ i, (ei i).toNat ≤ 9999) :
    kernelOut (F := Ideal) x ei W1l b1l W1r W2l b2l W2r Wlin blin = RefSpec.out x ei W1l b1l W1r W2l b2l W2r Wlin blin := by
  funext i
  obtain ⟨n, c, rfl⟩ : ∃ (n : Fin 10000) (c : Fin 16), i = ix2 n c := ⟨i 0, i 1, eq_ix2 i⟩
  unfold kernelOut
  refine (slice2_axis0_apply 0 _ slices_S10112x16_S10000x16_0_0 n c (col n) (Nat.zero_add _).symm).trans ?_
  unfold outPad
  rw [k3_pay1_apply, biasRow_apply]
  have hk : ∀ k : Fin 128,
      k1_pay1 (F := Ideal) (cnt16 (F := Ideal) ei) (agg2 x ei W1l b1l W1r) W2l (biasCol b2l) W2r (h1T x ei W1l b1l W1r) (ix2 k (col n))
        = RefSpec.layer ei (RefSpec.layer ei x W1l b1l W1r) W2l b2l W2r (ix2 n k) := fun k =>
    layer_of ei hle (agg2 x ei W1l b1l W1r) (h1T x ei W1l b1l W1r) (RefSpec.layer ei x W1l b1l W1r) W2l b2l W2r k n
      (fun f => agg_apply ei hle (h1T x ei W1l b1l W1r) (RefSpec.layer ei x W1l b1l W1r) (h1T_cols x ei hle W1l b1l W1r) f n)
      (fun f => h1T_cols x ei hle W1l b1l W1r f (col n) n.isLt)
  rw [Finset.sum_congr rfl fun k _ => congrArg (· * Wlin (ix2 k c)) (hk k)]
  rfl

end Cert.Proof.KernelValue

end
-- ==== Proof.PreFacts.lean ====
import proofs.«215722_g7507602833967_cont_sun_m_718_28_alg».proof.Pre_input_domain
import proofs.«215722_g7507602833967_cont_sun_m_718_28_alg».proof.Proof.Gen.Pre_input_domain
import Idealize.ShloMosaic.Lib.ReduceAll

noncomputable section

namespace Cert.Proof.PreFacts

open Idealize.ShloMosaic Cert.Pre_input_domain

variable {F : FTy → Type} [FloatOps F] [Cert.Pre_input_domain.Facts]

instance subsingleton_scalar : Subsingleton S_.Idx := ⟨fun a b => funext fun d => d.elim0⟩

theorem toNat_le_of_signed_range (w : BitVec 32) (h0 : (0#32 : BitVec 32).toInt ≤ w.toInt) (h1 : w.toInt ≤ (9999#32 : BitVec 32).toInt) :
    w.toNat ≤ 9999 := by
  have e0 : (0#32 : BitVec 32).toInt = 0 := by decide
  have e1 : (9999#32 : BitVec 32).toInt = 9999 := by decide
  rw [e0] at h0; rw [e1] at h1
  rw [BitVec.toInt_eq_toNat_cond] at h0 h1
  split at h0 <;> omega

theorem edge_index_le (a0 : FVec F S10000x128 .f32) (a1 : IVec S2x320000 32) (a2 : FVec F S128x128 .f32) (a3 : FVec F S128 .f32)
    (a4 : FVec F S128x128 .f32) (a5 : FVec F S128x128 .f32) (a6 : FVec F S128 .f32) (a7 : FVec F S128x128 .f32) (a8 : FVec F S128x16 .f32)
    (a9 : FVec F S16 .f32) (h : fn (F := F) a0 a1 a2 a3 a4 a5 a6 a7 a8 a9 = fun _ => 1#1) (i : S2x320000.Idx) : (a1 i).toNat ≤ 9999 := by
  have e := congrFun h (fun d => d.elim0)
  dsimp only [fn, fn_part1, fn_part2] at e
  have e49 := (IntOp.andi_eq_one.1 e).2
  have ei := Host.reduce_andi_all _ _ _ _ _ e49 i
  have ei' := IntOp.andi_eq_one.1 ei
  exact toNat_le_of_signed_range (a1 i) (IntOp.cmpi_sge.1 ei'.1) (IntOp.cmpi_sle.1 ei'.2)

end Cert.Proof.PreFacts

end
-- ==== Proof.RefValueOps.lean ====
import proofs.«215722_g7507602833967_cont_sun_m_718_28_alg».proof.Proof.Gen.ReferenceIdeal
import proofs.«215722_g7507602833967_cont_sun_m_718_28_alg».proof.Proof.RefSpec
import Idealize.ShloMosaic.Lib.ValueIdx
import Idealize.ShloMosaic.PureOps.Ideal.Laws
import Idealize.ShloMosaic.Lib.StableHlo.Predicate

noncomputable section

open scoped BigOperators

namespace Cert.Proof.RefValueOps

open Cert.ReferenceIdeal Cert.ReferenceIdeal.Gen
open Idealize.ShloMosaic Idealize.ShloMosaic.ValueIdx
open Cert.Proof.RefSpec

theorem gather_rows_apply {α : Type} (x : S10000x128.Idx → α) (idx : IVec S320000x1 32) (e : Fin 320000) (f : Fin 128) :
    Host.gather gather_S10000x128_S320000x1_S320000x128_1_0_n_n_0_1_1128 x idx (ix2 e f)
      = x (ix2 (⟨min (idx (ix2 e (0 : Fin 1))).toInt.toNat 9999, by omega⟩ : Fin 10000) f) := by
  unfold Host.gather
  congr 1
  funext a
  refine Fin.ext ?_
  match a with
  | ⟨0, _⟩ =>
    show gather_S10000x128_S320000x1_S320000x128_1_0_n_n_0_1_1128.start (ix2 e f) idx 0 + gather_S10000x128_S320000x1_S320000x128_1_0_n_n_0_1_1128.batchCoord (ix2 e f) 0 + gather_S10000x128_S320000x1_S320000x128_1_0_n_n_0_1_1128.offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S10000x128.rank) ∈ gather_S10000x128_S320000x1_S320000x128_1_0_n_n_0_1_1128.startIndexMap from List.mem_singleton.mpr rfl)]
    have hsi : gather_S10000x128_S320000x1_S320000x128_1_0_n_n_0_1_1128.siIdx (ix2 e f) ⟨List.idxOf (0 : Fin S10000x128.rank) gather_S10000x128_S320000x1_S320000x128_1_0_n_n_0_1_1128.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gather_S10000x128_S320000x1_S320000x128_1_0_n_n_0_1_1128.start (ix2 e f) idx 1 + gather_S10000x128_S320000x1_S320000x128_1_0_n_n_0_1_1128.batchCoord (ix2 e f) 1 + gather_S10000x128_S320000x1_S320000x128_1_0_n_n_0_1_1128.offCoord (ix2 e f) 1 = f.val
    rw [GatherDims.batchCoord_eq_zero _ _ _ List.not_mem_nil]
    unfold GatherDims.start GatherDims.offCoord
    rw [dif_neg (show ¬(1 : Fin S10000x128.rank) ∈ gather_S10000x128_S320000x1_S320000x128_1_0_n_n_0_1_1128.startIndexMap by decide),
      dif_pos (show (1 : Fin S10000x128.rank) ∈ gather_S10000x128_S320000x1_S320000x128_1_0_n_n_0_1_1128.sKept by decide)]
    simp only [Nat.add_zero, Nat.zero_add]
    rfl

theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro hs a
      have h1 := congrArg Fin.val (congrFun (Option.some.inj hs) a)
      have h2 := (h a).1
      simp only at h1
      omega
    · intro hall
      refine congrArg some (funext fun a => Fin.ext ?_)
      have h1 := hall a
      have h2 := (h a).1
      show (d.start j idx a + (d.window j a : Int)).toNat = (i a).val
      omega
  · rename_i h
    constructor
    · intro hs; exact absurd hs (by simp)
    · intro hall
      refine absurd (fun a => ⟨?_, ?_⟩) h
      · rw [hall a]; exact Int.natCast_nonneg _
      · rw [hall a]; exact_mod_cast (i a).isLt

theorem rows_lands_iff (idx : IVec S320000x1 32) (e : Fin 320000) (f' : Fin 128) (n : Fin 10000) (f : Fin 128) :
    scatter_S10000x128_S320000x1_S320000x128_1_0_0_1.resultIdx? (ix2 e f') idx = some (ix2 n f)
      ↔ (idx (ix2 e (0 : Fin 1))).toInt = (n.val : Int) ∧ f' = f := by
  have s0 : scatter_S10000x128_S320000x1_S320000x128_1_0_0_1.start (ix2 e f') idx 0 = (idx (ix2 e (0 : Fin 1))).toInt := by
    unfold ScatterDims.start
    rw [dif_pos (show (0 : Fin S10000x128.rank) ∈ scatter_S10000x128_S320000x1_S320000x128_1_0_0_1.scatterDimsToOperandDims from List.mem_singleton.mpr rfl)]
    have hsi : scatter_S10000x128_S320000x1_S320000x128_1_0_0_1.siIdx (ix2 e f') ⟨List.idxOf (0 : Fin S10000x128.rank) scatter_S10000x128_S320000x1_S320000x128_1_0_0_1.scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have s1 : scatter_S10000x128_S320000x1_S320000x128_1_0_0_1.start (ix2 e f') idx 1 = 0 := by
    unfold ScatterDims.start
    rw [dif_neg (show ¬(1 : Fin S10000x128.rank) ∈ scatter_S10000x128_S320000x1_S320000x128_1_0_0_1.scatterDimsToOperandDims by decide)]
  have w0 : scatter_S10000x128_S320000x1_S320000x128_1_0_0_1.window (ix2 e f') 0 = 0 := by
    unfold ScatterDims.window
    rw [dif_neg (show ¬(0 : Fin S10000x128.rank) ∈ scatter_S10000x128_S320000x1_S320000x128_1_0_0_1.sKept by decide)]
  have w1 : scatter_S10000x128_S320000x1_S320000x128_1_0_0_1.window (ix2 e f') 1 = f'.val := by
    unfold ScatterDims.window
    rw [dif_pos (show (1 : Fin S10000x128.rank) ∈ scatter_S10000x128_S320000x1_S320000x128_1_0_0_1.sKept by decide)]
    rfl
  rw [resultIdx?_eq_some_iff]
  constructor
  · intro h
    have h0 := h 0
    have h1 := h 1
    rw [s0, w0] at h0
    rw [s1, w1] at h1
    refine ⟨by simpa using h0, Fin.ext ?_⟩
    have : ((f'.val : Int)) = ((f.val : Int)) := by simpa using h1
    exact_mod_cast this
  · rintro ⟨h0, rfl⟩ a
    match a with
    | ⟨0, _⟩ =>
      show scatter_S10000x128_S320000x1_S320000x128_1_0_0_1.start (ix2 e f') idx 0 + (scatter_S10000x128_S320000x1_S320000x128_1_0_0_1.window (ix2 e f') 0 : Int) = (n.val : Int)
      rw [s0, w0, h0]; simp
    | ⟨1, _⟩ =>
      show scatter_S10000x128_S320000x1_S320000x128_1_0_0_1.start (ix2 e f') idx 1 + (scatter_S10000x128_S320000x1_S320000x128_1_0_0_1.window (ix2 e f') 1 : Int) = (f'.val : Int)
      rw [s1, w1]; simp

theorem cnt_lands_iff (idx : IVec S320000x1 32) (e : Fin 320000) (n : Fin 10000) :
    scatter_S10000_S320000x1_S320000_n_0_0_1.resultIdx? (ix1 e) idx = some (ix1 n) ↔ (idx (ix2 e (0 : Fin 1))).toInt = (n.val : Int) := by
  have s0 : scatter_S10000_S320000x1_S320000_n_0_0_1.start (ix1 e) idx 0 = (idx (ix2 e (0 : Fin 1))).toInt := by
    unfold ScatterDims.start
    rw [dif_pos (show (0 : Fin S10000.rank) ∈ scatter_S10000_S320000x1_S320000_n_0_0_1.scatterDimsToOperandDims from List.mem_singleton.mpr rfl)]
    have hsi : scatter_S10000_S320000x1_S320000_n_0_0_1.siIdx (ix1 e) ⟨List.idxOf (0 : Fin S10000.rank) scatter_S10000_S320000x1_S320000_n_0_0_1.scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have w0 : scatter_S10000_S320000x1_S320000_n_0_0_1.window (ix1 e) 0 = 0 := by
    unfold ScatterDims.window
    rw [dif_neg (show ¬(0 : Fin S10000.rank) ∈ scatter_S10000_S320000x1_S320000_n_0_0_1.sKept by decide)]
  rw [resultIdx?_eq_some_iff]
  constructor
  · intro h
    have h0 := h 0
    rw [s0, w0] at h0
    simpa using h0
  · intro h0 a
    obtain rfl : a = 0 := Subsingleton.elim _ _
    show scatter_S10000_S320000x1_S320000_n_0_0_1.start (ix1 e) idx 0 + (scatter_S10000_S320000x1_S320000_n_0_0_1.window (ix1 e) 0 : Int) = (n.val : Int)
    rw [s0, w0, h0]; simp

theorem scatterAdd_rows_apply (z : FVec Ideal S10000x128 .f32) (idx : IVec S320000x1 32) (upd : FVec Ideal S320000x128 .f32)
    (n : Fin 10000) (f : Fin 128) :
    Host.scatterAdd (F := Ideal) scatter_S10000x128_S320000x1_S320000x128_1_0_0_1 z idx upd (ix2 n f)
      = z (ix2 n f) + ∑ e ∈ Finset.univ.filter (fun e : Fin 320000 => (idx (ix2 e (0 : Fin 1))).toInt = (n.val : Int)),
          upd (ix2 e f) := by
  unfold Host.scatterAdd
  rw [Ideal.hostScatterAdd_def]
  unfold Ideal.hostScatterAdd
  refine congrArg (z (ix2 n f) + ·) ?_
  symm
  refine Finset.sum_bij (fun e _ => ix2 e f) ?_ ?_ ?_ (fun _ _ => rfl)
  · intro e he
    rw [Finset.mem_filter] at he ⊢
    exact ⟨Finset.mem_univ _, (rows_lands_iff idx e f n f).2 ⟨he.2, rfl⟩⟩
  · intro a _ b _ hab
    exact congrFun hab 0
  · intro j hj
    obtain ⟨e, f', rfl⟩ : ∃ (e : Fin 320000) (f' : Fin 128), j = ix2 e f' := ⟨j 0, j 1, eq_ix2 j⟩
    rw [Finset.mem_filter] at hj
    obtain ⟨h0, rfl⟩ := (rows_lands_iff idx e f' n f).1 hj.2
    exact ⟨e, Finset.mem_filter.2 ⟨Finset.mem_univ _, h0⟩, rfl⟩

theorem scatterAdd_cnt_apply (z : FVec Ideal S10000 .f32) (idx : IVec S320000x1 32) (upd : FVec Ideal S320000 .f32)
    (n : Fin 10000) :
    Host.scatterAdd (F := Ideal) scatter_S10000_S320000x1_S320000_n_0_0_1 z idx upd (ix1 n)
      = z (ix1 n) + ∑ e ∈ Finset.univ.filter (fun e : Fin 320000 => (idx (ix2 e (0 : Fin 1))).toInt = (n.val : Int)),
          upd (ix1 e) := by
  unfold Host.scatterAdd
  rw [Ideal.hostScatterAdd_def]
  unfold Ideal.hostScatterAdd
  refine congrArg (z (ix1 n) + ·) ?_
  symm
  refine Finset.sum_bij (fun e _ => ix1 e) ?_ ?_ ?_ (fun _ _ => rfl)
  · intro e he
    rw [Finset.mem_filter] at he ⊢
    exact ⟨Finset.mem_univ _, (cnt_lands_iff idx e n).2 he.2⟩
  · intro a _ b _ hab
    exact congrFun hab 0
  · intro j hj
    obtain ⟨e, rfl⟩ : ∃ e : Fin 320000, j = ix1 e := ⟨j 0, eq_ix1 j⟩
    rw [Finset.mem_filter] at hj
    exact ⟨e, Finset.mem_filter.2 ⟨Finset.mem_univ _, (cnt_lands_iff idx e n).1 hj.2⟩, rfl⟩

theorem toInt_of_le {w : BitVec 32} (h : w.toNat ≤ 9999) : w.toInt = (w.toNat : Int) :=
  StableHlo.Predicate.toInt_eq_toNat_of_lt (by omega)

theorem agg_of (x1 : IVec S2x320000 32) (hle : ∀ i, (x1 i).toNat ≤ 9999) (h z : FVec Ideal S10000x128 .f32)
    (src dst : IVec S320000x1 32) (hz : ∀ i, z i = 0)
    (hs : ∀ e : Fin 320000, src (ix2 e (0 : Fin 1)) = x1 (ix2 (0 : Fin 2) e))
    (hd : ∀ e : Fin 320000, dst (ix2 e (0 : Fin 1)) = x1 (ix2 (1 : Fin 2) e)) (n : Fin 10000) (f : Fin 128) :
    Host.scatterAdd (F := Ideal) scatter_S10000x128_S320000x1_S320000x128_1_0_0_1 z dst (Host.gather gather_S10000x128_S320000x1_S320000x128_1_0_n_n_0_1_1128 h src) (ix2 n f) = agg x1 h n f := by
  rw [scatterAdd_rows_apply, hz, zero_add]
  unfold agg into
  refine Finset.sum_congr (Finset.filter_congr fun e _ => ?_) (fun e _ => ?_)
  · rw [hd, toInt_of_le (hle _)]
    exact Int.natCast_inj
  · rw [gather_rows_apply]
    refine congrArg (fun r => h (ix2 r f)) (Fin.ext ?_)
    show min (src (ix2 e (0 : Fin 1))).toInt.toNat 9999 = min (x1 (ix2 (0 : Fin 2) e)).toNat 9999
    rw [hs, toInt_of_le (hle _), Int.toNat_natCast]

theorem cnt_of (x1 : IVec S2x320000 32) (hle : ∀ i, (x1 i).toNat ≤ 9999) (z : FVec Ideal S10000 .f32)
    (dst : IVec S320000x1 32) (ones : FVec Ideal S320000 .f32) (hz : ∀ i, z i = 0)
    (hd : ∀ e : Fin 320000, dst (ix2 e (0 : Fin 1)) = x1 (ix2 (1 : Fin 2) e))
    (hone : ∀ i, ones i = Ideal.ofBits .f32 0x3F800000#32) (n : Fin 10000) :
    Host.scatterAdd (F := Ideal) scatter_S10000_S320000x1_S320000_n_0_0_1 z dst ones (ix1 n) = cnt x1 n := by
  rw [scatterAdd_cnt_apply, hz, zero_add]
  unfold cnt into
  refine Finset.sum_congr (Finset.filter_congr fun e _ => ?_) (fun e _ => hone _)
  rw [hd, toInt_of_le (hle _)]
  exact Int.natCast_inj

end Cert.Proof.RefValueOps

end
-- ==== Proof.RefValue.lean ====
import proofs.«215722_g7507602833967_cont_sun_m_718_28_alg».proof.Defs
import proofs.«215722_g7507602833967_cont_sun_m_718_28_alg».proof.Proof.Gen.ReferenceIdeal
import proofs.«215722_g7507602833967_cont_sun_m_718_28_alg».proof.Proof.Gen.ReferenceIdeal.Run
import proofs.«215722_g7507602833967_cont_sun_m_718_28_alg».proof.Proof.Gen.ReferenceIdeal.Read
import proofs.«215722_g7507602833967_cont_sun_m_718_28_alg».proof.Proof.Gen.Pre_input_domain
import proofs.«215722_g7507602833967_cont_sun_m_718_28_alg».proof.Proof.PreFacts
import proofs.«215722_g7507602833967_cont_sun_m_718_28_alg».proof.Proof.RefSpec
import proofs.«215722_g7507602833967_cont_sun_m_718_28_alg».proof.Proof.RefValueOps

noncomputable section

open scoped BigOperators

namespace Cert.Proof.RefValue

open Cert.ReferenceIdeal Cert.ReferenceIdeal.Gen Cert.ReferenceIdeal.Read
open Idealize.ShloMosaic Idealize.ShloMosaic.ValueIdx Idealize.SL.Sem
open Cert.Proof.RefSpec Cert.Proof.RefValueOps

theorem src_idx (e : Fin 320000) : idx_main_v0 (idx_main_v1 (ix1 e)) = ix2 (0 : Fin 2) e := by
  funext a; refine Fin.ext ?_
  match a with
  | ⟨0, _⟩ => rfl
  | ⟨1, _⟩ => exact Nat.mod_eq_of_lt e.isLt

theorem dst_idx (e : Fin 320000) : idx_main_v2 (idx_main_v3 (ix1 e)) = ix2 (1 : Fin 2) e := by
  funext a; refine Fin.ext ?_
  match a with
  | ⟨0, _⟩ => rfl
  | ⟨1, _⟩ => exact Nat.mod_eq_of_lt e.isLt

theorem v1_at (x1 : IVec S2x320000 32) (e : Fin 320000) : val_main_v1 (F := Ideal) x1 (ix1 e) = x1 (ix2 (0 : Fin 2) e) := by
  rw [val_main_v1_apply, val_main_v0_apply, src_idx]

theorem v3_at (x1 : IVec S2x320000 32) (e : Fin 320000) : val_main_v3 (F := Ideal) x1 (ix1 e) = x1 (ix2 (1 : Fin 2) e) := by
  rw [val_main_v3_apply, val_main_v2_apply, dst_idx]

theorem not_neg {w : BitVec 32} (h : w.toNat ≤ 9999) : IntOp.cmpi .slt w 0#32 = 0#1 := by
  refine eq_zero_of_ne_one fun h1 => ?_
  have h2 := IntOp.cmpi_slt.1 h1
  rw [toInt_of_le h] at h2
  have e0 : (0#32 : BitVec 32).toInt = 0 := by decide
  omega

theorem v8_at (x1 : IVec S2x320000 32) (hle : ∀ i, (x1 i).toNat ≤ 9999) (e : Fin 320000) :
    val_main_v8 (F := Ideal) x1 (ix1 e) = x1 (ix2 (0 : Fin 2) e) := by
  rw [val_main_v8_apply, val_main_v5_apply, val_main_v4_apply, val_main_c_apply, v1_at, not_neg (hle _), select_zero]

theorem v34_at (x1 : IVec S2x320000 32) (hle : ∀ i, (x1 i).toNat ≤ 9999) (e : Fin 320000) :
    val_main_v34 (F := Ideal) x1 (ix1 e) = x1 (ix2 (0 : Fin 2) e) := by
  rw [val_main_v34_apply, val_main_v31_apply, val_main_v30_apply, val_main_c_4_apply, v1_at, not_neg (hle _), select_zero]

theorem idx9 (e : Fin 320000) : idx_main_v9 (ix2 e (0 : Fin 1)) = ix1 e :=
  funext fun a => match a with | ⟨0, _⟩ => rfl
theorem idx12 (e : Fin 320000) : idx_main_v12 (ix2 e (0 : Fin 1)) = ix1 e :=
  funext fun a => match a with | ⟨0, _⟩ => rfl
theorem idx16 (e : Fin 320000) : idx_main_v16 (ix2 e (0 : Fin 1)) = ix1 e :=
  funext fun a => match a with | ⟨0, _⟩ => rfl
theorem idx35 (e : Fin 320000) : idx_main_v35 (ix2 e (0 : Fin 1)) = ix1 e :=
  funext fun a => match a with | ⟨0, _⟩ => rfl
theorem idx38 (e : Fin 320000) : idx_main_v38 (ix2 e (0 : Fin 1)) = ix1 e :=
  funext fun a => match a with | ⟨0, _⟩ => rfl
theorem idx42 (e : Fin 320000) : idx_main_v42 (ix2 e (0 : Fin 1)) = ix1 e :=
  funext fun a => match a with | ⟨0, _⟩ => rfl

theorem v9_at (x1 : IVec S2x320000 32) (hle : ∀ i, (x1 i).toNat ≤ 9999) (e : Fin 320000) :
    val_main_v9 (F := Ideal) x1 (ix2 e (0 : Fin 1)) = x1 (ix2 (0 : Fin 2) e) := by
  rw [val_main_v9_apply, idx9, v8_at x1 hle]

theorem v35_at (x1 : IVec S2x320000 32) (hle : ∀ i, (x1 i).toNat ≤ 9999) (e : Fin 320000) :
    val_main_v35 (F := Ideal) x1 (ix2 e (0 : Fin 1)) = x1 (ix2 (0 : Fin 2) e) := by
  rw [val_main_v35_apply, idx35, v34_at x1 hle]

theorem v12_at (x1 : IVec S2x320000 32) (e : Fin 320000) :
    val_main_v12 (F := Ideal) x1 (ix2 e (0 : Fin 1)) = x1 (ix2 (1 : Fin 2) e) := by
  rw [val_main_v12_apply, idx12, v3_at]

theorem v16_at (x1 : IVec S2x320000 32) (e : Fin 320000) :
    val_main_v16 (F := Ideal) x1 (ix2 e (0 : Fin 1)) = x1 (ix2 (1 : Fin 2) e) := by
  rw [val_main_v16_apply, idx16, v3_at]

theorem v38_at (x1 : IVec S2x320000 32) (e : Fin 320000) :
    val_main_v38 (F := Ideal) x1 (ix2 e (0 : Fin 1)) = x1 (ix2 (1 : Fin 2) e) := by
  rw [val_main_v38_apply, idx38, v3_at]

theorem v42_at (x1 : IVec S2x320000 32) (e : Fin 320000) :
    val_main_v42 (F := Ideal) x1 (ix2 e (0 : Fin 1)) = x1 (ix2 (1 : Fin 2) e) := by
  rw [val_main_v42_apply, idx42, v3_at]

theorem v11_zero (i : S10000x128.Idx) : (val_main_v11 (F := Ideal) : FVec Ideal S10000x128 .f32) i = 0 := by
  rw [val_main_v11_apply, val_main_cst_apply]; exact Ideal.ofBits_zero_f32
theorem v37_zero (i : S10000x128.Idx) : (val_main_v37 (F := Ideal) : FVec Ideal S10000x128 .f32) i = 0 := by
  rw [val_main_v37_apply, val_main_cst_6_apply]; exact Ideal.ofBits_zero_f32
theorem v15_zero (i : S10000.Idx) : (val_main_v15 (F := Ideal) : FVec Ideal S10000 .f32) i = 0 := by
  rw [val_main_v15_apply, val_main_cst_2_apply]; exact Ideal.ofBits_zero_f32
theorem v41_zero (i : S10000.Idx) : (val_main_v41 (F := Ideal) : FVec Ideal S10000 .f32) i = 0 := by
  rw [val_main_v41_apply, val_main_cst_8_apply]; exact Ideal.ofBits_zero_f32
theorem v14_one (i : S320000.Idx) :
    (val_main_v14 (F := Ideal) : FVec Ideal S320000 .f32) i = Ideal.ofBits .f32 0x3F800000#32 := by
  rw [val_main_v14_apply, val_main_cst_1_apply]; rfl
theorem v40_one (i : S320000.Idx) :
    (val_main_v40 (F := Ideal) : FVec Ideal S320000 .f32) i = Ideal.ofBits .f32 0x3F800000#32 := by
  rw [val_main_v40_apply, val_main_cst_7_apply]; rfl

theorem v13_at (x0 : FVec Ideal S10000x128 .f32) (x1 : IVec S2x320000 32) (hle : ∀ i, (x1 i).toNat ≤ 9999) (n : Fin 10000) (f : Fin 128) :
    val_main_v13 (F := Ideal) x0 x1 (ix2 n f) = agg x1 x0 n f := by
  unfold val_main_v13 val_main_v10
  exact agg_of x1 hle x0 _ _ _ v11_zero (v9_at x1 hle) (v12_at x1) n f

theorem v17_at (x1 : IVec S2x320000 32) (hle : ∀ i, (x1 i).toNat ≤ 9999) (n : Fin 10000) : val_main_v17 (F := Ideal) x1 (ix1 n) = cnt x1 n := by
  unfold val_main_v17
  exact cnt_of x1 hle _ _ _ v15_zero (v16_at x1) v14_one n

theorem v22_at (x0 : FVec Ideal S10000x128 .f32) (x1 : IVec S2x320000 32) (hle : ∀ i, (x1 i).toNat ≤ 9999) (n : Fin 10000) (f : Fin 128) :
    val_main_v22 (F := Ideal) x0 x1 (ix2 n f) = mean x1 x0 n f := by
  rw [val_main_v22_apply, val_main_v21_apply, val_main_v20_apply, val_main_v19_apply, val_main_v18_apply,
    val_main_cst_3_apply]
  have hi : idx_main_v20 (idx_main_v21 (ix2 n f)) = ix1 n := funext fun a => match a with | ⟨0, _⟩ => rfl
  rw [hi, v13_at x0 x1 hle, v17_at x1 hle]
  rfl

theorem v29_eq (x0 : FVec Ideal S10000x128 .f32) (x1 : IVec S2x320000 32) (x2 : FVec Ideal S128x128 .f32) (x3 : FVec Ideal S128 .f32) (x4 : FVec Ideal S128x128 .f32) (hle : ∀ i, (x1 i).toNat ≤ 9999) :
    val_main_v29 (F := Ideal) x0 x1 x2 x3 x4 = layer x1 x0 x2 x3 x4 := by
  funext i
  obtain ⟨n, k, rfl⟩ : ∃ (n : Fin 10000) (k : Fin 128), i = ix2 n k := ⟨i 0, i 1, eq_ix2 i⟩
  rw [val_main_v29_apply, val_main_v28_apply, val_main_v26_apply, val_main_v23_apply, val_main_v25_apply,
    val_main_v24_apply, val_main_v27_apply, val_main_call0_v0_apply, val_main_call0_cst_apply]
  have el : ∀ k' : Fin 128, lidx_main_v23 (ix2 n k) k' = ix2 n k' := fun k' =>
    funext fun a => Fin.ext (by match a with | ⟨0, _⟩ => rfl | ⟨1, _⟩ => rfl)
  have er : ∀ k' : Fin 128, ridx_main_v23 (ix2 n k) k' = ix2 k' k := fun k' =>
    funext fun a => Fin.ext (by match a with | ⟨0, _⟩ => rfl | ⟨1, _⟩ => rfl)
  have el' : ∀ k' : Fin 128, lidx_main_v27 (ix2 n k) k' = ix2 n k' := fun k' =>
    funext fun a => Fin.ext (by match a with | ⟨0, _⟩ => rfl | ⟨1, _⟩ => rfl)
  have er' : ∀ k' : Fin 128, ridx_main_v27 (ix2 n k) k' = ix2 k' k := fun k' =>
    funext fun a => Fin.ext (by match a with | ⟨0, _⟩ => rfl | ⟨1, _⟩ => rfl)
  have eb : idx_main_v24 (idx_main_v25 (ix2 n k)) = ix1 k := funext fun a => match a with | ⟨0, _⟩ => rfl
  simp only [el, er, el', er', eb, v22_at x0 x1 hle]
  rfl

theorem v39_at (x0 : FVec Ideal S10000x128 .f32) (x1 : IVec S2x320000 32) (x2 : FVec Ideal S128x128 .f32) (x3 : FVec Ideal S128 .f32) (x4 : FVec Ideal S128x128 .f32) (hle : ∀ i, (x1 i).toNat ≤ 9999) (n : Fin 10000) (f : Fin 128) :
    val_main_v39 (F := Ideal) x0 x1 x2 x3 x4 (ix2 n f) = agg x1 (val_main_v29 (F := Ideal) x0 x1 x2 x3 x4) n f := by
  unfold val_main_v39 val_main_v36
  exact agg_of x1 hle (val_main_v29 (F := Ideal) x0 x1 x2 x3 x4) _ _ _ v37_zero (v35_at x1 hle) (v38_at x1) n f

theorem v43_at (x1 : IVec S2x320000 32) (hle : ∀ i, (x1 i).toNat ≤ 9999) (n : Fin 10000) : val_main_v43 (F := Ideal) x1 (ix1 n) = cnt x1 n := by
  unfold val_main_v43
  exact cnt_of x1 hle _ _ _ v41_zero (v42_at x1) v40_one n

theorem v48_at (x0 : FVec Ideal S10000x128 .f32) (x1 : IVec S2x320000 32) (x2 : FVec Ideal S128x128 .f32) (x3 : FVec Ideal S128 .f32) (x4 : FVec Ideal S128x128 .f32) (hle : ∀ i, (x1 i).toNat ≤ 9999) (n : Fin 10000) (f : Fin 128) :
    val_main_v48 (F := Ideal) x0 x1 x2 x3 x4 (ix2 n f) = mean x1 (val_main_v29 (F := Ideal) x0 x1 x2 x3 x4) n f := by
  rw [val_main_v48_apply, val_main_v47_apply, val_main_v46_apply, val_main_v45_apply, val_main_v44_apply,
    val_main_cst_9_apply]
  have hi : idx_main_v46 (idx_main_v47 (ix2 n f)) = ix1 n := funext fun a => match a with | ⟨0, _⟩ => rfl
  rw [hi, v39_at x0 x1 x2 x3 x4 hle, v43_at x1 hle]
  rfl

theorem v55_eq (x0 : FVec Ideal S10000x128 .f32) (x1 : IVec S2x320000 32) (x2 : FVec Ideal S128x128 .f32) (x3 : FVec Ideal S128 .f32) (x4 : FVec Ideal S128x128 .f32) (x5 : FVec Ideal S128x128 .f32) (x6 : FVec Ideal S128 .f32) (x7 : FVec Ideal S128x128 .f32) (hle : ∀ i, (x1 i).toNat ≤ 9999) :
    val_main_v55 (F := Ideal) x0 x1 x2 x3 x4 x5 x6 x7 = layer x1 (val_main_v29 (F := Ideal) x0 x1 x2 x3 x4) x5 x6 x7 := by
  funext i
  obtain ⟨n, k, rfl⟩ : ∃ (n : Fin 10000) (k : Fin 128), i = ix2 n k := ⟨i 0, i 1, eq_ix2 i⟩
  rw [val_main_v55_apply, val_main_v54_apply, val_main_v52_apply, val_main_v49_apply, val_main_v51_apply,
    val_main_v50_apply, val_main_v53_apply, val_main_call1_v0_apply, val_main_call1_cst_apply]
  have el : ∀ k' : Fin 128, lidx_main_v49 (ix2 n k) k' = ix2 n k' := fun k' =>
    funext fun a => Fin.ext (by match a with | ⟨0, _⟩ => rfl | ⟨1, _⟩ => rfl)
  have er : ∀ k' : Fin 128, ridx_main_v49 (ix2 n k) k' = ix2 k' k := fun k' =>
    funext fun a => Fin.ext (by match a with | ⟨0, _⟩ => rfl | ⟨1, _⟩ => rfl)
  have el' : ∀ k' : Fin 128, lidx_main_v53 (ix2 n k) k' = ix2 n k' := fun k' =>
    funext fun a => Fin.ext (by match a with | ⟨0, _⟩ => rfl | ⟨1, _⟩ => rfl)
  have er' : ∀ k' : Fin 128, ridx_main_v53 (ix2 n k) k' = ix2 k' k := fun k' =>
    funext fun a => Fin.ext (by match a with | ⟨0, _⟩ => rfl | ⟨1, _⟩ => rfl)
  have eb : idx_main_v50 (idx_main_v51 (ix2 n k)) = ix1 k := funext fun a => match a with | ⟨0, _⟩ => rfl
  simp only [el, er, el', er', eb, v48_at x0 x1 x2 x3 x4 hle]
  rfl

theorem val_eq_out (x0 : FVec Ideal S10000x128 .f32) (x1 : IVec S2x320000 32) (x2 : FVec Ideal S128x128 .f32)
    (x3 : FVec Ideal S128 .f32) (x4 x5 : FVec Ideal S128x128 .f32) (x6 : FVec Ideal S128 .f32) (x7 : FVec Ideal S128x128 .f32)
    (x8 : FVec Ideal S128x16 .f32) (x9 : FVec Ideal S16 .f32) (hle : ∀ i, (x1 i).toNat ≤ 9999) :
    val_main_v59 (F := Ideal) x0 x1 x2 x3 x4 x5 x6 x7 x8 x9 = Cert.Proof.RefSpec.out x0 x1 x2 x3 x4 x5 x6 x7 x8 x9 := by
  funext i
  obtain ⟨n, c, rfl⟩ : ∃ (n : Fin 10000) (c : Fin 16), i = ix2 n c := ⟨i 0, i 1, eq_ix2 i⟩
  rw [val_main_v59_apply, val_main_v56_apply, val_main_v58_apply, val_main_v57_apply]
  have el : ∀ k' : Fin 128, lidx_main_v56 (ix2 n c) k' = ix2 n k' := fun k' =>
    funext fun a => Fin.ext (by match a with | ⟨0, _⟩ => rfl | ⟨1, _⟩ => rfl)
  have er : ∀ k' : Fin 128, ridx_main_v56 (ix2 n c) k' = ix2 k' c := fun k' =>
    funext fun a => Fin.ext (by match a with | ⟨0, _⟩ => rfl | ⟨1, _⟩ => rfl)
  have eb : idx_main_v57 (idx_main_v58 (ix2 n c)) = ix1 c := funext fun a => match a with | ⟨0, _⟩ => rfl
  simp only [el, er, eb]
  rw [v55_eq x0 x1 x2 x3 x4 x5 x6 x7 hle, v29_eq x0 x1 x2 x3 x4 hle]
  rfl

theorem run_out [Cert.ReferenceIdeal.Facts] [Cert.Pre_input_domain.Facts]
    (m : (ℓ : Loc nD τ sig) → Buf (Elt Ideal) ℓ) (ρ : Dev nD → PrngReg) (hpre : Cert.Pre_ReferenceIdeal m) :
    θ_run (Cert.ReferenceIdeal.defs (F := Ideal)) (onTc (τ := τ) (main (F := Ideal))) ⟨m, fun _ => 0, ρ⟩ fun r => ∀ c : Dev nD,
      r.2.mem ((c.tc : Thread nD τ).loc main_v59) = Cert.Proof.RefSpec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run Cert.ReferenceIdeal.defs _ _).mono (fun r h c => ⟨?_, (h c).2⟩)
    (Cert.ReferenceIdeal.Value.run (F := Ideal) m ρ)
  rw [(h c).1, val_main_v59_eq]
  exact val_eq_out _ _ _ _ _ _ _ _ _ _ (fun i => Cert.Proof.PreFacts.edge_index_le _ _ _ _ _ _ _ _ _ _ (hpre c) i)

end Cert.Proof.RefValue

end
-- ==== Proof.RefValueAlg.lean ====
import proofs.«215722_g7507602833967_cont_sun_m_718_28_alg».proof.Defs
import proofs.«215722_g7507602833967_cont_sun_m_718_28_alg».proof.Proof.RefValue

noncomputable section

namespace Cert.Proof.RefValue

open Idealize.ShloMosaic Idealize.SL.Sem

-- The two memories hold the same ten arguments.
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)

theorem pre_of_agree [Cert.Pre_input_domain.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : Agree m m') :
    Cert.Pre_ReferenceIdeal m' := by
  intro c
  obtain ⟨h0, h1, h2, h3, h4, h5, h6, h7, h8, h9⟩ := hagree c
  rw [h0, h1, h2, h3, h4, h5, h6, h7, h8, h9]
  exact hpre c

theorem run_out_of_agree [Cert.ReferenceIdeal.Facts] [Cert.Pre_input_domain.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (ρ' : Dev Cert.ReferenceIdeal.nD → PrngReg) (hpre : Cert.Pre_KernelIdeal m)
    (hagree : Agree m m') :
    θ_run (Cert.ReferenceIdeal.defs (F := Ideal)) (onTc (τ := Cert.ReferenceIdeal.τ) (Cert.ReferenceIdeal.main (F := Ideal)))
      ⟨m', fun _ => 0, ρ'⟩ fun r => ∀ c : Dev Cert.ReferenceIdeal.nD,
      r.2.mem ((c.tc : Thread Cert.ReferenceIdeal.nD Cert.ReferenceIdeal.τ).loc Cert.ReferenceIdeal.main_v59)
        = Cert.Proof.RefSpec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9) := by
  refine (θ_run Cert.ReferenceIdeal.defs _ _).mono (fun r h c => ⟨?_, (h c).2⟩)
    (run_out m' ρ' (pre_of_agree m m' hpre hagree))
  obtain ⟨h0, h1, h2, h3, h4, h5, h6, h7, h8, h9⟩ := hagree c
  rw [(h c).1, h0, h1, h2, h3, h4, h5, h6, h7, h8, h9]

end Cert.Proof.RefValue

end
-- ==== Proof.ClaimsIdeal.lean ====
import proofs.«215722_g7507602833967_cont_sun_m_718_28_alg».proof.Defs
import proofs.«215722_g7507602833967_cont_sun_m_718_28_alg».proof.Proof.LaunchRun
import proofs.«215722_g7507602833967_cont_sun_m_718_28_alg».proof.Proof.KernelValue
import proofs.«215722_g7507602833967_cont_sun_m_718_28_alg».proof.Proof.PreFacts
import proofs.«215722_g7507602833967_cont_sun_m_718_28_alg».proof.Proof.RefFrame
import proofs.«215722_g7507602833967_cont_sun_m_718_28_alg».proof.Proof.RefValueAlg

noncomputable section

open Idealize.ShloMosaic Idealize.SL.Sem

namespace Cert.Proof.ClaimsIdeal

theorem idx_of_pre [Cert.Pre_input_domain.Facts] (m : (ℓ : Loc Cert.KernelIdeal.nD Cert.KernelIdeal.τ Cert.KernelIdeal.sig) → Buf (Elt Ideal) ℓ) (h : Cert.Pre_KernelIdeal m)
    (c : Dev Cert.KernelIdeal.nD) : ∀ i, ((m ((c.tc : Thread Cert.KernelIdeal.nD Cert.KernelIdeal.τ).loc Cert.KernelIdeal.main_arg1)) i).toNat ≤ 9999 :=
  Cert.Proof.PreFacts.edge_index_le _ _ _ _ _ _ _ _ _ _ (h c)

-- Forgetting the value in the run's post leaves the frame.
theorem frame_pi [Cert.KernelIdeal.Facts] [Cert.Pre_input_domain.Facts] : Cert.frame_KernelIdeal := fun m g hpre =>
  (θ_run _ _ _).mono (fun _ h c => (h c).2) (Cert.Proof.Sage.run_main (F := Ideal) m g (idx_of_pre m hpre))

-- The kernel's result term is the reference's specification wherever the edge list names nodes, and the reference's own run ends at that specification.
theorem algebraic [Cert.KernelIdeal.Facts] [Cert.ReferenceIdeal.Facts] [Cert.Pre_input_domain.Facts] : Cert.algebraic_KernelIdeal_ReferenceIdeal := by
  intro m g m' g' hpre hagree
  refine ⟨fun c => Cert.Proof.RefSpec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, Cert.Proof.RefValue.run_out_of_agree m m' g' hpre hagree⟩
  refine (θ_run _ _ _).mono (fun _ h c => ⟨(h c).1.trans (Cert.Proof.KernelValue.kernelOut_eq _ _ _ _ _ _ _ _ _ _ (idx_of_pre m hpre c)), (h c).2⟩)
    (Cert.Proof.Sage.run_main (F := Ideal) m g (idx_of_pre m hpre))

end Cert.Proof.ClaimsIdeal

end
-- ==== Proof.ClaimsBits.lean ====
import proofs.«215722_g7507602833967_cont_sun_m_718_28_alg».proof.Defs
import proofs.«215722_g7507602833967_cont_sun_m_718_28_alg».proof.Proof.LaunchRun
import proofs.«215722_g7507602833967_cont_sun_m_718_28_alg».proof.Proof.PreFacts

noncomputable section

open Idealize.ShloMosaic Idealize.SL.Sem

namespace Cert.Proof.ClaimsBits

variable {F : FTy → Type} [FloatOps F] [Cert.Kernel.Facts] [Cert.KernelIdeal.Facts]

-- The printed program and its idealization are one text: kernel by kernel their bodies are the same term.
theorem body0 (x : Proc Cert.Kernel.τ) (a : Cert.Kernel.Λ₀.Args 0) :
    Cert.Kernel.defs₀ (F := F) x 0 a = Cert.KernelIdeal.defs₀ (F := F) x 0 a := by cases x <;> rfl

theorem body1 (x : Proc Cert.Kernel.τ) (a : Cert.Kernel.Λ₀.Args 1) :
    Cert.Kernel.defs₀ (F := F) x 1 a = Cert.KernelIdeal.defs₀ (F := F) x 1 a := by cases x <;> rfl

theorem body2 (x : Proc Cert.Kernel.τ) (a : Cert.Kernel.Λ₀.Args 2) :
    Cert.Kernel.defs₀ (F := F) x 2 a = Cert.KernelIdeal.defs₀ (F := F) x 2 a := by cases x <;> rfl

theorem body3 (x : Proc Cert.Kernel.τ) (a : Cert.Kernel.Λ₀.Args 3) :
    Cert.Kernel.defs₀ (F := F) x 3 a = Cert.KernelIdeal.defs₀ (F := F) x 3 a := by cases x <;> rfl

theorem defs₀_eq : Cert.Kernel.defs₀ (F := F) = Cert.KernelIdeal.defs₀ (F := F) := by
  funext x l
  fin_cases l
  exacts [funext (body0 x), funext (body1 x), funext (body2 x), funext (body3 x)]

theorem defs_eq : Cert.Kernel.defs (F := F) = Cert.KernelIdeal.defs (F := F) :=
  congrArg (fun d => Cert.KernelIdeal.sc.defs (Pipeline.defs Cert.KernelIdeal.pcfgs d)) defs₀_eq

theorem idx_of_pre [Cert.Pre_input_domain.Facts] (m : (ℓ : Loc Cert.Kernel.nD Cert.Kernel.τ Cert.Kernel.sig) → Buf (Elt Bits) ℓ) (h : Cert.Pre_Kernel m)
    (c : Dev Cert.Kernel.nD) : ∀ i, ((m ((c.tc : Thread Cert.Kernel.nD Cert.Kernel.τ).loc Cert.Kernel.main_arg1)) i).toNat ≤ 9999 :=
  Cert.Proof.PreFacts.edge_index_le _ _ _ _ _ _ _ _ _ _ (h c)

theorem main_eq : Cert.Kernel.main (F := F) = Cert.KernelIdeal.main (F := F) := rfl

theorem threads_eq : Cert.Kernel.threads (F := F) = Cert.KernelIdeal.threads (F := F) :=
  congrArg (fun p => Cert.KernelIdeal.sc.threads p) main_eq

-- The run proved for the idealized text holds at every float instance, so it is the printed program's run too.
theorem run_main [∀ e, Nonempty (Elt F e)] (m : (ℓ : Loc Cert.Kernel.nD Cert.Kernel.τ Cert.Kernel.sig) → Buf (Elt F) ℓ) (ρ : Dev Cert.Kernel.nD → PrngReg)
    (hidx : ∀ (c : Dev Cert.Kernel.nD) i, ((m ((c.tc : Thread Cert.Kernel.nD Cert.Kernel.τ).loc Cert.Kernel.main_arg1)) i).toNat ≤ 9999) :
    θ_run (Cert.Kernel.defs (F := F)) (Cert.Kernel.threads (F := F)) ⟨m, fun _ => 0, ρ⟩ (Cert.Proof.Sage.QK m) := by
  rw [defs_eq, threads_eq]
  exact Cert.Proof.Sage.run_main m ρ hidx

-- With the result's value forgotten, that run at the printed program's own instance is its frame.
theorem frame_p [Cert.Pre_input_domain.Facts] : Cert.frame_Kernel := fun m g hpre =>
  (θ_run _ _ _).mono (fun _ h c => (h c).2) (run_main (F := Bits) m g (idx_of_pre m hpre))

end Cert.Proof.ClaimsBits

end
-- ==== Proof.lean ====
/- Two rounds of neighbour averaging on a graph, each followed by dense maps, a bias and a clip at zero, then a last dense map.
   Kernel and reference are one function of the ten arguments wherever every node index of the edge list is below ten thousand. -/
import proofs.«215722_g7507602833967_cont_sun_m_718_28_alg».proof.Defs
import proofs.«215722_g7507602833967_cont_sun_m_718_28_alg».proof.Proof.Gen.Kernel
import proofs.«215722_g7507602833967_cont_sun_m_718_28_alg».proof.Proof.Gen.KernelIdeal
import proofs.«215722_g7507602833967_cont_sun_m_718_28_alg».proof.Proof.Gen.ReferenceIdeal
import proofs.«215722_g7507602833967_cont_sun_m_718_28_alg».proof.Proof.Gen.Pre_input_domain
import proofs.«215722_g7507602833967_cont_sun_m_718_28_alg».proof.Proof.RefFrame
import proofs.«215722_g7507602833967_cont_sun_m_718_28_alg».proof.Proof.ClaimsIdeal
import proofs.«215722_g7507602833967_cont_sun_m_718_28_alg».proof.Proof.ClaimsBits

noncomputable section

namespace Cert.Proof

open Idealize.ShloMosaic Idealize.SL.Sem

theorem claim : Cert.Claim :=
  haveI := Cert.KernelIdeal.Gen.facts
  ⟨Cert.Kernel.Gen.facts, Cert.KernelIdeal.Gen.facts, Cert.ReferenceIdeal.Gen.facts, Cert.Pre_input_domain.Gen.facts,
    Cert.Proof.ClaimsBits.frame_p, Cert.Proof.ClaimsIdeal.frame_pi, Cert.Proof.RefSide.frame_ri, trivial, Cert.Proof.ClaimsIdeal.algebraic⟩

end Cert.Proof

end
